-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v247)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v247) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v311) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S2 : Shape := ⟨1, ![2]⟩
abbrev S65536x3 : Shape := ⟨2, ![65536, 3]⟩
abbrev S65536x4 : Shape := ⟨2, ![65536, 4]⟩
abbrev S16384x64 : Shape := ⟨2, ![16384, 64]⟩
abbrev S2x11x200x176 : Shape := ⟨4, ![2, 11, 200, 176]⟩
abbrev S2x32x64 : Shape := ⟨3, ![2, 32, 64]⟩
abbrev S2x32 : Shape := ⟨2, ![2, 32]⟩
abbrev S2x32x3 : Shape := ⟨3, ![2, 32, 3]⟩
abbrev S2x64x32 : Shape := ⟨3, ![2, 64, 32]⟩
abbrev S2x64 : Shape := ⟨2, ![2, 64]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S65536x3 : S_.BroadcastsInDim S65536x3 (![] : Fin 0 → Fin S65536x3.rank)
  reducesTo_S65536x3_S_d0_1 : S65536x3.ReducesTo [0, 1] S_
  bcast_S_S16384x64 : S_.BroadcastsInDim S16384x64 (![] : Fin 0 → Fin S16384x64.rank)
  reducesTo_S16384x64_S_d0_1 : S16384x64.ReducesTo [0, 1] S_
  bcast_S_S2x32x64 : S_.BroadcastsInDim S2x32x64 (![] : Fin 0 → Fin S2x32x64.rank)
  reducesTo_S2x32x64_S_d0_1_2 : S2x32x64.ReducesTo [0, 1, 2] S_
  bcast_S_S2x32 : S_.BroadcastsInDim S2x32 (![] : Fin 0 → Fin S2x32.rank)
  reducesTo_S2x32_S_d0_1 : S2x32.ReducesTo [0, 1] S_
  bcast_S_S2x32x3 : S_.BroadcastsInDim S2x32x3 (![] : Fin 0 → Fin S2x32x3.rank)
  reducesTo_S2x32x3_S_d0_1_2 : S2x32x3.ReducesTo [0, 1, 2] S_
  bcast_S_S2x64x32 : S_.BroadcastsInDim S2x64x32 (![] : Fin 0 → Fin S2x64x32.rank)
  reducesTo_S2x64x32_S_d0_1_2 : S2x64x32.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part3 {F : FTy → Type} [FloatOps F] (main_arg15 : FVec F S2x64 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S2x64 .f32 := Host.absf main_arg15
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  main_v58

def fn_part2 {F : FTy → Type} [FloatOps F] (main_arg11 : FVec F S2x32 .f32) (main_arg12 : FVec F S2x32 .f32) (main_arg13 : FVec F S2x64x32 .f32) (main_arg14 : FVec F S2x64 .f32) (main_arg15 : FVec F S2x64 .f32) (main_v33 : IVec S_ 1) : IVec S_ 1 :=
  let main_v34 : FVec F S2x32 .f32 := Host.absf main_arg11
  let main_cst_12 : FVec F S_ .f32 := constant S_ .f32 0x7F800000#32
  let main_v35 : FVec F S2x32 .f32 := broadcastInDim S2x32 ![] bcast_S_S2x32 main_cst_12
  let main_v36 : IVec S2x32 1 := cmpf .olt main_v34 main_v35
  let main_c_13 : IVec S_ 1 := constantI S_ 1 1#1
  let main_v37 : IVec S_ 1 := (fun x v => Host.reduce IntOp.andi x v reducesTo_S2x32_S_d0_1 h_S_) main_v36 main_c_13
  let main_v38 : IVec S_ 1 := andi main_v33 main_v37
  let main_v39 : FVec F S2x32 .f32 := Host.absf main_arg12
  let main_cst_14 : FVec F S_ .f32 := constant S_ .f32 0x7F800000#32
  let main_v40 : FVec F S2x32 .f32 := broadcastInDim S2x32 ![] bcast_S_S2x32 main_cst_14
  let main_v41 : IVec S2x32 1 := cmpf .olt main_v39 main_v40
  let main_c_15 : IVec S_ 1 := constantI S_ 1 1#1
  let main_v42 : IVec S_ 1 := (fun x v => Host.reduce IntOp.andi x v reducesTo_S2x32_S_d0_1 h_S_) main_v41 main_c_15
  let main_v43 : IVec S_ 1 := andi main_v38 main_v42
  let main_v44 : FVec F S2x64x32 .f32 := Host.absf main_arg13
  let main_cst_16 : FVec F S_ .f32 := constant S_ .f32 0x7F800000#32
  let main_v45 : FVec F S2x64x32 .f32 := broadcastInDim S2x64x32 ![] bcast_S_S2x64x32 main_cst_16
  let main_v46 : IVec S2x64x32 1 := cmpf .olt main_v44 main_v45
  let main_c_17 : IVec S_ 1 := constantI S_ 1 1#1
  let main_v47 : IVec S_ 1 := (fun x v => Host.reduce IntOp.andi x v reducesTo_S2x64x32_S_d0_1_2 h_S_) main_v46 main_c_17
  let main_v48 : IVec S_ 1 := andi main_v43 main_v47
  let main_v49 : FVec F S2x64 .f32 := Host.absf main_arg14
  let main_cst_18 : FVec F S_ .f32 := constant S_ .f32 0x7F800000#32
  let main_v50 : FVec F S2x64 .f32 := broadcastInDim S2x64 ![] bcast_S_S2x64 main_cst_18
  fn_part3 (F := F) main_arg15 main_v48 main_v49 main_v50

def fn_part1 {F : FTy → Type} [FloatOps F] (main_arg8 : FVec F S2x32 .f32) (main_arg9 : FVec F S2x32 .f32) (main_arg10 : FVec F S2x32x3 .f32) (main_arg11 : FVec F S2x32 .f32) (main_arg12 : FVec F S2x32 .f32) (main_arg13 : FVec F S2x64x32 .f32) (main_arg14 : FVec F S2x64 .f32) (main_arg15 : FVec F S2x64 .f32) (main_v13 : IVec S_ 1) (main_v16 : IVec S2x32x64 1) : IVec S_ 1 :=
  let main_c_5 : IVec S_ 1 := constantI S_ 1 1#1
  let main_v17 : IVec S_ 1 := (fun x v => Host.reduce IntOp.andi x v reducesTo_S2x32x64_S_d0_1_2 h_S_) main_v16 main_c_5
  let main_v18 : IVec S_ 1 := andi main_v13 main_v17
  let main_v19 : FVec F S2x32 .f32 := Host.absf main_arg8
  let main_cst_6 : FVec F S_ .f32 := constant S_ .f32 0x7F800000#32
  let main_v20 : FVec F S2x32 .f32 := broadcastInDim S2x32 ![] bcast_S_S2x32 main_cst_6
  let main_v21 : IVec S2x32 1 := cmpf .olt main_v19 main_v20
  let main_c_7 : IVec S_ 1 := constantI S_ 1 1#1
  let main_v22 : IVec S_ 1 := (fun x v => Host.reduce IntOp.andi x v reducesTo_S2x32_S_d0_1 h_S_) main_v21 main_c_7
  let main_v23 : IVec S_ 1 := andi main_v18 main_v22
  let main_v24 : FVec F S2x32 .f32 := Host.absf main_arg9
  let main_cst_8 : FVec F S_ .f32 := constant S_ .f32 0x7F800000#32
  let main_v25 : FVec F S2x32 .f32 := broadcastInDim S2x32 ![] bcast_S_S2x32 main_cst_8
  let main_v26 : IVec S2x32 1 := cmpf .olt main_v24 main_v25
  let main_c_9 : IVec S_ 1 := constantI S_ 1 1#1
  let main_v27 : IVec S_ 1 := (fun x v => Host.reduce IntOp.andi x v reducesTo_S2x32_S_d0_1 h_S_) main_v26 main_c_9
  let main_v28 : IVec S_ 1 := andi main_v23 main_v27
  let main_v29 : FVec F S2x32x3 .f32 := Host.absf main_arg10
  let main_cst_10 : FVec F S_ .f32 := constant S_ .f32 0x7F800000#32
  let main_v30 : FVec F S2x32x3 .f32 := broadcastInDim S2x32x3 ![] bcast_S_S2x32x3 main_cst_10
  let main_v31 : IVec S2x32x3 1 := cmpf .olt main_v29 main_v30
  let main_c_11 : IVec S_ 1 := constantI S_ 1 1#1
  let main_v32 : IVec S_ 1 := (fun x v => Host.reduce IntOp.andi x v reducesTo_S2x32x3_S_d0_1_2 h_S_) main_v31 main_c_11
  let main_v33 : IVec S_ 1 := andi main_v28 main_v32
  fn_part2 (F := F) main_arg11 main_arg12 main_arg13 main_arg14 main_arg15 main_v33

def fn {F : FTy → Type} [FloatOps F] (main_arg0 : FVec F S16384x3 .f32) (main_arg1 : IVec S2 32) (main_arg2 : FVec F S65536x3 .f32) (main_arg3 : IVec S2 32) (main_arg4 : IVec S65536x4 32) (main_arg5 : FVec F S16384x64 .f32) (main_arg6 : IVec S2x11x200x176 32) (main_arg7 : FVec F S2x32x64 .f32) (main_arg8 : FVec F S2x32 .f32) (main_arg9 : FVec F S2x32 .f32) (main_arg10 : FVec F S2x32x3 .f32) (main_arg11 : FVec F S2x32 .f32) (main_arg12 : FVec F S2x32 .f32) (main_arg13 : FVec F S2x64x32 .f32) (main_arg14 : FVec F S2x64 .f32) (main_arg15 : FVec F S2x64 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S65536x3 .f32 := Host.absf main_arg2
  let main_cst_0 : FVec F S_ .f32 := constant S_ .f32 0x7F800000#32
  let main_v5 : FVec F S65536x3 .f32 := broadcastInDim S65536x3 ![] bcast_S_S65536x3 main_cst_0
  let main_v6 : IVec S65536x3 1 := cmpf .olt main_v4 main_v5
  let main_c_1 : IVec S_ 1 := constantI S_ 1 1#1
  let main_v7 : IVec S_ 1 := (fun x v => Host.reduce IntOp.andi x v reducesTo_S65536x3_S_d0_1 h_S_) main_v6 main_c_1
  let main_v8 : IVec S_ 1 := andi main_v3 main_v7
  let main_v9 : FVec F S16384x64 .f32 := Host.absf main_arg5
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  let main_v14 : FVec F S2x32x64 .f32 := Host.absf main_arg7
  let main_cst_4 : FVec F S_ .f32 := constant S_ .f32 0x7F800000#32
  let main_v15 : FVec F S2x32x64 .f32 := broadcastInDim S2x32x64 ![] bcast_S_S2x32x64 main_cst_4
  let main_v16 : IVec S2x32x64 1 := cmpf .olt main_v14 main_v15
  fn_part1 (F := F) main_arg8 main_arg9 main_arg10 main_arg11 main_arg12 main_arg13 main_arg14 main_arg15 main_v13 main_v16
-- ==== Kernel.lean ====
abbrev S16384x3 : Shape := ⟨2, ![16384, 3]⟩
abbrev S2 : Shape := ⟨1, ![2]⟩
abbrev S65536x3 : Shape := ⟨2, ![65536, 3]⟩
abbrev S65536x4 : Shape := ⟨2, ![65536, 4]⟩
abbrev S16384x64 : Shape := ⟨2, ![16384, 64]⟩
abbrev S2x11x200x176 : Shape := ⟨4, ![2, 11, 200, 176]⟩
abbrev S2x32x64 : Shape := ⟨3, ![2, 32, 64]⟩
abbrev S2x32 : Shape := ⟨2, ![2, 32]⟩
abbrev S2x32x3 : Shape := ⟨3, ![2, 32, 3]⟩
abbrev S2x64x32 : Shape := ⟨3, ![2, 64, 32]⟩
abbrev S2x64 : Shape := ⟨2, ![2, 64]⟩
abbrev S4 : Shape := ⟨1, ![4]⟩
abbrev S_ : Shape := ⟨0, ![]⟩
abbrev S4x1 : Shape := ⟨2, ![4, 1]⟩
abbrev S2x2x2 : Shape := ⟨3, ![2, 2, 2]⟩
abbrev S2x2x2x1 : Shape := ⟨4, ![2, 2, 2, 1]⟩
abbrev S2x2x2x4 : Shape := ⟨4, ![2, 2, 2, 4]⟩
abbrev S8x4 : Shape := ⟨2, ![8, 4]⟩
abbrev S1x32x64 : Shape := ⟨3, ![1, 32, 64]⟩
abbrev S32x64 : Shape := ⟨2, ![32, 64]⟩
abbrev S1x32 : Shape := ⟨2, ![1, 32]⟩
abbrev S16384x32 : Shape := ⟨2, ![16384, 32]⟩
abbrev S64x32 : Shape := ⟨2, ![64, 32]⟩
abbrev S32 : Shape := ⟨1, ![32]⟩
abbrev S16385x32 : Shape := ⟨2, ![16385, 32]⟩
abbrev S65536x1x4 : Shape := ⟨3, ![65536, 1, 4]⟩
abbrev S1x8x4 : Shape := ⟨3, ![1, 8, 4]⟩
abbrev S65536x8x4 : Shape := ⟨3, ![65536, 8, 4]⟩
abbrev S65536x8x1 : Shape := ⟨3, ![65536, 8, 1]⟩
abbrev S65536x8 : Shape := ⟨2, ![65536, 8]⟩
abbrev S65536x8x32 : Shape := ⟨3, ![65536, 8, 32]⟩
abbrev S8x3 : Shape := ⟨2, ![8, 3]⟩
abbrev S1x32x3 : Shape := ⟨3, ![1, 32, 3]⟩
abbrev S32x3 : Shape := ⟨2, ![32, 3]⟩
abbrev S3x32 : Shape := ⟨2, ![3, 32]⟩
abbrev S8x32 : Shape := ⟨2, ![8, 32]⟩
abbrev S65536x32 : Shape := ⟨2, ![65536, 32]⟩
abbrev S4096x8x32 : Shape := ⟨3, ![4096, 8, 32]⟩
abbrev S4096x32 : Shape := ⟨2, ![4096, 32]⟩
abbrev S1x8x32 : Shape := ⟨3, ![1, 8, 32]⟩
abbrev S1x64x32 : Shape := ⟨3, ![1, 64, 32]⟩
abbrev S1x64 : Shape := ⟨2, ![1, 64]⟩
abbrev S8192x32 : Shape := ⟨2, ![8192, 32]⟩
abbrev S8192x64 : Shape := ⟨2, ![8192, 64]⟩
abbrev S64 : Shape := ⟨1, ![64]⟩
abbrev S65536x64 : Shape := ⟨2, ![65536, 64]⟩
abbrev S4x4x4 : Shape := ⟨3, ![4, 4, 4]⟩
abbrev S4x4x4x1 : Shape := ⟨4, ![4, 4, 4, 1]⟩
abbrev S4x4x4x4 : Shape := ⟨4, ![4, 4, 4, 4]⟩
abbrev S64x4 : Shape := ⟨2, ![64, 4]⟩
abbrev S1x64x4 : Shape := ⟨3, ![1, 64, 4]⟩
abbrev S65536x64x4 : Shape := ⟨3, ![65536, 64, 4]⟩
abbrev S65536x64x1 : Shape := ⟨3, ![65536, 64, 1]⟩
abbrev S65536x64x32 : Shape := ⟨3, ![65536, 64, 32]⟩
abbrev S64x3 : Shape := ⟨2, ![64, 3]⟩
abbrev S512x64x32 : Shape := ⟨3, ![512, 64, 32]⟩
abbrev S512x32 : Shape := ⟨2, ![512, 32]⟩
abbrev S65536x128 : Shape := ⟨2, ![65536, 128]⟩

abbrev nBuf : Space → Nat
  | .hbm => 355
  | .vmem => 48
  | .smem => 0
  | _ => 0

abbrev hbmTy0_0 (i : Nat) : BufTy := match i % 128 with
  | 0 => ⟨S16384x3, .f32⟩
  | 1 => ⟨S2, .i32⟩
  | 2 => ⟨S65536x3, .f32⟩
  | 3 => ⟨S2, .i32⟩
  | 4 => ⟨S65536x4, .i32⟩
  | 5 => ⟨S16384x64, .f32⟩
  | 6 => ⟨S2x11x200x176, .i32⟩
  | 7 => ⟨S2x32x64, .f32⟩
  | 8 => ⟨S2x32, .f32⟩
  | 9 => ⟨S2x32, .f32⟩
  | 10 => ⟨S2x32x3, .f32⟩
  | 11 => ⟨S2x32, .f32⟩
  | 12 => ⟨S2x32, .f32⟩
  | 13 => ⟨S2x64x32, .f32⟩
  | 14 => ⟨S2x64, .f32⟩
  | 15 => ⟨S2x64, .f32⟩
  | 16 => ⟨S4, .i32⟩
  | 17 => ⟨S_, .i32⟩
  | 18 => ⟨S4, .i32⟩
  | 19 => ⟨S4, .i1⟩
  | 20 => ⟨S_, .i32⟩
  | 21 => ⟨S4, .i32⟩
  | 22 => ⟨S4, .i32⟩
  | 23 => ⟨S4, .i32⟩
  | 24 => ⟨S4x1, .i32⟩
  | 25 => ⟨S65536x4, .i32⟩
  | 26 => ⟨S2, .i32⟩
  | 27 => ⟨S_, .i32⟩
  | 28 => ⟨S2, .i32⟩
  | 29 => ⟨S2, .i32⟩
  | 30 => ⟨S2x2x2, .i32⟩
  | 31 => ⟨S2x2x2, .i32⟩
  | 32 => ⟨S2x2x2, .i32⟩
  | 33 => ⟨S_, .i32⟩
  | 34 => ⟨S2x2x2, .i32⟩
  | 35 => ⟨S2x2x2x1, .i32⟩
  | 36 => ⟨S2x2x2x1, .i32⟩
  | 37 => ⟨S2x2x2x1, .i32⟩
  | 38 => ⟨S2x2x2x1, .i32⟩
  | 39 => ⟨S2x2x2x4, .i32⟩
  | 40 => ⟨S8x4, .i32⟩
  | 41 => ⟨S1x32x64, .f32⟩
  | 42 => ⟨S32x64, .f32⟩
  | 43 => ⟨S1x32, .f32⟩
  | 44 => ⟨S1x32, .f32⟩
  | 45 => ⟨S16384x32, .bf16⟩
  | 46 => ⟨S_, .bf16⟩
  | 47 => ⟨S1x32, .bf16⟩
  | 48 => ⟨S16385x32, .bf16⟩
  | 49 => ⟨S65536x1x4, .i32⟩
  | 50 => ⟨S1x8x4, .i32⟩
  | 51 => ⟨S65536x8x4, .i32⟩
  | 52 => ⟨S65536x8x4, .i32⟩
  | 53 => ⟨S65536x8x4, .i32⟩
  | 54 => ⟨S65536x8x1, .i32⟩
  | 55 => ⟨S65536x8, .i32⟩
  | 56 => ⟨S65536x8x1, .i32⟩
  | 57 => ⟨S65536x8, .i32⟩
  | 58 => ⟨S_, .i32⟩
  | 59 => ⟨S_, .i32⟩
  | 60 => ⟨S_, .i32⟩
  | 61 => ⟨S65536x8, .i32⟩
  | 62 => ⟨S65536x8, .i32⟩
  | 63 => ⟨S_, .i32⟩
  | 64 => ⟨S65536x8, .i32⟩
  | 65 => ⟨S65536x8, .i32⟩
  | 66 => ⟨S65536x8x1, .i32⟩
  | 67 => ⟨S65536x8, .i32⟩
  | 68 => ⟨S_, .i32⟩
  | 69 => ⟨S_, .i32⟩
  | 70 => ⟨S_, .i32⟩
  | 71 => ⟨S65536x8, .i32⟩
  | 72 => ⟨S65536x8, .i32⟩
  | 73 => ⟨S_, .i32⟩
  | 74 => ⟨S65536x8, .i32⟩
  | 75 => ⟨S65536x8, .i32⟩
  | 76 => ⟨S65536x8x1, .i32⟩
  | 77 => ⟨S65536x8, .i32⟩
  | 78 => ⟨S_, .i32⟩
  | 79 => ⟨S_, .i32⟩
  | 80 => ⟨S_, .i32⟩
  | 81 => ⟨S65536x8, .i32⟩
  | 82 => ⟨S65536x8, .i32⟩
  | 83 => ⟨S_, .i32⟩
  | 84 => ⟨S65536x8, .i32⟩
  | 85 => ⟨S65536x8, .i32⟩
  | 86 => ⟨S_, .i32⟩
  | 87 => ⟨S65536x8, .i32⟩
  | 88 => ⟨S65536x8, .i1⟩
  | 89 => ⟨S_, .i32⟩
  | 90 => ⟨S65536x8, .i32⟩
  | 91 => ⟨S65536x8, .i32⟩
  | 92 => ⟨S65536x8, .i32⟩
  | 93 => ⟨S_, .i32⟩
  | 94 => ⟨S65536x8, .i32⟩
  | 95 => ⟨S65536x8, .i1⟩
  | 96 => ⟨S_, .i32⟩
  | 97 => ⟨S65536x8, .i32⟩
  | 98 => ⟨S65536x8, .i32⟩
  | 99 => ⟨S65536x8, .i32⟩
  | 100 => ⟨S_, .i32⟩
  | 101 => ⟨S65536x8, .i32⟩
  | 102 => ⟨S65536x8, .i1⟩
  | 103 => ⟨S_, .i32⟩
  | 104 => ⟨S65536x8, .i32⟩
  | 105 => ⟨S65536x8, .i32⟩
  | 106 => ⟨S65536x8, .i32⟩
  | 107 => ⟨S_, .i32⟩
  | 108 => ⟨S65536x8, .i32⟩
  | 109 => ⟨S65536x8, .i1⟩
  | 110 => ⟨S_, .i32⟩
  | 111 => ⟨S65536x8, .i32⟩
  | 112 => ⟨S65536x8, .i32⟩
  | 113 => ⟨S65536x8, .i32⟩
  | 114 => ⟨S65536x8x1, .i32⟩
  | 115 => ⟨S65536x8x1, .i32⟩
  | 116 => ⟨S65536x8x1, .i32⟩
  | 117 => ⟨S65536x8x1, .i32⟩
  | 118 => ⟨S65536x8x4, .i32⟩
  | 119 => ⟨S65536x8, .i32⟩
  | 120 => ⟨S_, .i32⟩
  | 121 => ⟨S65536x8, .i32⟩
  | 122 => ⟨S65536x8, .i32⟩
  | 123 => ⟨S_, .i32⟩
  | 124 => ⟨S65536x8, .i32⟩
  | 125 => ⟨S65536x8, .i1⟩
  | 126 => ⟨S_, .i32⟩
  | 127 => ⟨S65536x8, .i32⟩
  | _ => ⟨S16384x3, .f32⟩

abbrev hbmTy0_1 (i : Nat) : BufTy := match i % 128 with
  | 0 => ⟨S65536x8, .i32⟩
  | 1 => ⟨S65536x8, .i32⟩
  | 2 => ⟨S65536x8x1, .i32⟩
  | 3 => ⟨S65536x8x32, .bf16⟩
  | 4 => ⟨S8x3, .i32⟩
  | 5 => ⟨S8x3, .f32⟩
  | 6 => ⟨S1x32x3, .f32⟩
  | 7 => ⟨S32x3, .f32⟩
  | 8 => ⟨S3x32, .f32⟩
  | 9 => ⟨S8x32, .f32⟩
  | 10 => ⟨S1x32, .f32⟩
  | 11 => ⟨S32, .f32⟩
  | 12 => ⟨S1x32, .f32⟩
  | 13 => ⟨S32, .f32⟩
  | 14 => ⟨S_, .f32⟩
  | 15 => ⟨S32, .f32⟩
  | 16 => ⟨S1x32, .f32⟩
  | 17 => ⟨S_, .f32⟩
  | 18 => ⟨S1x32, .f32⟩
  | 19 => ⟨S1x32, .f32⟩
  | 20 => ⟨S8x32, .f32⟩
  | 21 => ⟨S8x32, .f32⟩
  | 22 => ⟨S8x32, .f32⟩
  | 23 => ⟨S_, .f32⟩
  | 24 => ⟨S32, .f32⟩
  | 25 => ⟨S1x32, .f32⟩
  | 26 => ⟨S_, .f32⟩
  | 27 => ⟨S1x32, .f32⟩
  | 28 => ⟨S1x32, .f32⟩
  | 29 => ⟨S8x32, .f32⟩
  | 30 => ⟨S8x32, .f32⟩
  | 31 => ⟨S_, .f32⟩
  | 32 => ⟨S1x32, .f32⟩
  | 33 => ⟨S1x32, .f32⟩
  | 34 => ⟨S1x32, .f32⟩
  | 35 => ⟨S8x32, .f32⟩
  | 36 => ⟨S8x32, .f32⟩
  | 37 => ⟨S1x32, .f32⟩
  | 38 => ⟨S8x32, .f32⟩
  | 39 => ⟨S8x32, .f32⟩
  | 40 => ⟨S1x32, .f32⟩
  | 41 => ⟨S8x32, .f32⟩
  | 42 => ⟨S8x32, .f32⟩
  | 43 => ⟨S65536x32, .f32⟩
  | 44 => ⟨S1x64x32, .f32⟩
  | 45 => ⟨S64x32, .f32⟩
  | 46 => ⟨S1x64, .f32⟩
  | 47 => ⟨S1x64, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S_, .f32⟩
  | 54 => ⟨S1x64, .f32⟩
  | 55 => ⟨S1x64, .f32⟩
  | 56 => ⟨S1x64, .f32⟩
  | 57 => ⟨S1x64, .f32⟩
  | 58 => ⟨S_, .f32⟩
  | 59 => ⟨S1x64, .f32⟩
  | 60 => ⟨S1x64, .f32⟩
  | 61 => ⟨S65536x64, .f32⟩
  | 62 => ⟨S4, .i32⟩
  | 63 => ⟨S_, .i32⟩
  | 64 => ⟨S4, .i32⟩
  | 65 => ⟨S4, .i32⟩
  | 66 => ⟨S4x4x4, .i32⟩
  | 67 => ⟨S4x4x4, .i32⟩
  | 68 => ⟨S4x4x4, .i32⟩
  | 69 => ⟨S_, .i32⟩
  | 70 => ⟨S4x4x4, .i32⟩
  | 71 => ⟨S4x4x4x1, .i32⟩
  | 72 => ⟨S4x4x4x1, .i32⟩
  | 73 => ⟨S4x4x4x1, .i32⟩
  | 74 => ⟨S4x4x4x1, .i32⟩
  | 75 => ⟨S4x4x4x4, .i32⟩
  | 76 => ⟨S64x4, .i32⟩
  | 77 => ⟨S1x32x64, .f32⟩
  | 78 => ⟨S32x64, .f32⟩
  | 79 => ⟨S1x32, .f32⟩
  | 80 => ⟨S1x32, .f32⟩
  | 81 => ⟨S16384x32, .bf16⟩
  | 82 => ⟨S_, .bf16⟩
  | 83 => ⟨S1x32, .bf16⟩
  | 84 => ⟨S16385x32, .bf16⟩
  | 85 => ⟨S65536x1x4, .i32⟩
  | 86 => ⟨S1x64x4, .i32⟩
  | 87 => ⟨S65536x64x4, .i32⟩
  | 88 => ⟨S65536x64x4, .i32⟩
  | 89 => ⟨S65536x64x4, .i32⟩
  | 90 => ⟨S65536x64x1, .i32⟩
  | 91 => ⟨S65536x64, .i32⟩
  | 92 => ⟨S65536x64x1, .i32⟩
  | 93 => ⟨S65536x64, .i32⟩
  | 94 => ⟨S_, .i32⟩
  | 95 => ⟨S_, .i32⟩
  | 96 => ⟨S_, .i32⟩
  | 97 => ⟨S65536x64, .i32⟩
  | 98 => ⟨S65536x64, .i32⟩
  | 99 => ⟨S_, .i32⟩
  | 100 => ⟨S65536x64, .i32⟩
  | 101 => ⟨S65536x64, .i32⟩
  | 102 => ⟨S65536x64x1, .i32⟩
  | 103 => ⟨S65536x64, .i32⟩
  | 104 => ⟨S_, .i32⟩
  | 105 => ⟨S_, .i32⟩
  | 106 => ⟨S_, .i32⟩
  | 107 => ⟨S65536x64, .i32⟩
  | 108 => ⟨S65536x64, .i32⟩
  | 109 => ⟨S_, .i32⟩
  | 110 => ⟨S65536x64, .i32⟩
  | 111 => ⟨S65536x64, .i32⟩
  | 112 => ⟨S65536x64x1, .i32⟩
  | 113 => ⟨S65536x64, .i32⟩
  | 114 => ⟨S_, .i32⟩
  | 115 => ⟨S_, .i32⟩
  | 116 => ⟨S_, .i32⟩
  | 117 => ⟨S65536x64, .i32⟩
  | 118 => ⟨S65536x64, .i32⟩
  | 119 => ⟨S_, .i32⟩
  | 120 => ⟨S65536x64, .i32⟩
  | 121 => ⟨S65536x64, .i32⟩
  | 122 => ⟨S_, .i32⟩
  | 123 => ⟨S65536x64, .i32⟩
  | 124 => ⟨S65536x64, .i1⟩
  | 125 => ⟨S_, .i32⟩
  | 126 => ⟨S65536x64, .i32⟩
  | 127 => ⟨S65536x64, .i32⟩
  | _ => ⟨S16384x3, .f32⟩

abbrev hbmTy0_2 (i : Nat) : BufTy := match i % 128 with
  | 0 => ⟨S65536x64, .i32⟩
  | 1 => ⟨S_, .i32⟩
  | 2 => ⟨S65536x64, .i32⟩
  | 3 => ⟨S65536x64, .i1⟩
  | 4 => ⟨S_, .i32⟩
  | 5 => ⟨S65536x64, .i32⟩
  | 6 => ⟨S65536x64, .i32⟩
  | 7 => ⟨S65536x64, .i32⟩
  | 8 => ⟨S_, .i32⟩
  | 9 => ⟨S65536x64, .i32⟩
  | 10 => ⟨S65536x64, .i1⟩
  | 11 => ⟨S_, .i32⟩
  | 12 => ⟨S65536x64, .i32⟩
  | 13 => ⟨S65536x64, .i32⟩
  | 14 => ⟨S65536x64, .i32⟩
  | 15 => ⟨S_, .i32⟩
  | 16 => ⟨S65536x64, .i32⟩
  | 17 => ⟨S65536x64, .i1⟩
  | 18 => ⟨S_, .i32⟩
  | 19 => ⟨S65536x64, .i32⟩
  | 20 => ⟨S65536x64, .i32⟩
  | 21 => ⟨S65536x64, .i32⟩
  | 22 => ⟨S65536x64x1, .i32⟩
  | 23 => ⟨S65536x64x1, .i32⟩
  | 24 => ⟨S65536x64x1, .i32⟩
  | 25 => ⟨S65536x64x1, .i32⟩
  | 26 => ⟨S65536x64x4, .i32⟩
  | 27 => ⟨S65536x64, .i32⟩
  | 28 => ⟨S_, .i32⟩
  | 29 => ⟨S65536x64, .i32⟩
  | 30 => ⟨S65536x64, .i32⟩
  | 31 => ⟨S_, .i32⟩
  | 32 => ⟨S65536x64, .i32⟩
  | 33 => ⟨S65536x64, .i1⟩
  | 34 => ⟨S_, .i32⟩
  | 35 => ⟨S65536x64, .i32⟩
  | 36 => ⟨S65536x64, .i32⟩
  | 37 => ⟨S65536x64, .i32⟩
  | 38 => ⟨S65536x64x1, .i32⟩
  | 39 => ⟨S65536x64x32, .bf16⟩
  | 40 => ⟨S64x3, .i32⟩
  | 41 => ⟨S64x3, .f32⟩
  | 42 => ⟨S1x32x3, .f32⟩
  | 43 => ⟨S32x3, .f32⟩
  | 44 => ⟨S3x32, .f32⟩
  | 45 => ⟨S64x32, .f32⟩
  | 46 => ⟨S1x32, .f32⟩
  | 47 => ⟨S32, .f32⟩
  | 48 => ⟨S1x32, .f32⟩
  | 49 => ⟨S32, .f32⟩
  | 50 => ⟨S_, .f32⟩
  | 51 => ⟨S32, .f32⟩
  | 52 => ⟨S1x32, .f32⟩
  | 53 => ⟨S_, .f32⟩
  | 54 => ⟨S1x32, .f32⟩
  | 55 => ⟨S1x32, .f32⟩
  | 56 => ⟨S64x32, .f32⟩
  | 57 => ⟨S64x32, .f32⟩
  | 58 => ⟨S64x32, .f32⟩
  | 59 => ⟨S_, .f32⟩
  | 60 => ⟨S32, .f32⟩
  | 61 => ⟨S1x32, .f32⟩
  | 62 => ⟨S_, .f32⟩
  | 63 => ⟨S1x32, .f32⟩
  | 64 => ⟨S1x32, .f32⟩
  | 65 => ⟨S64x32, .f32⟩
  | 66 => ⟨S64x32, .f32⟩
  | 67 => ⟨S_, .f32⟩
  | 68 => ⟨S1x32, .f32⟩
  | 69 => ⟨S1x32, .f32⟩
  | 70 => ⟨S1x32, .f32⟩
  | 71 => ⟨S64x32, .f32⟩
  | 72 => ⟨S64x32, .f32⟩
  | 73 => ⟨S1x32, .f32⟩
  | 74 => ⟨S64x32, .f32⟩
  | 75 => ⟨S64x32, .f32⟩
  | 76 => ⟨S1x32, .f32⟩
  | 77 => ⟨S64x32, .f32⟩
  | 78 => ⟨S64x32, .f32⟩
  | 79 => ⟨S65536x32, .f32⟩
  | 80 => ⟨S1x64x32, .f32⟩
  | 81 => ⟨S64x32, .f32⟩
  | 82 => ⟨S1x64, .f32⟩
  | 83 => ⟨S1x64, .f32⟩
  | 84 => ⟨S1x64, .f32⟩
  | 85 => ⟨S1x64, .f32⟩
  | 86 => ⟨S_, .f32⟩
  | 87 => ⟨S1x64, .f32⟩
  | 88 => ⟨S1x64, .f32⟩
  | 89 => ⟨S_, .f32⟩
  | 90 => ⟨S1x64, .f32⟩
  | 91 => ⟨S1x64, .f32⟩
  | 92 => ⟨S1x64, .f32⟩
  | 93 => ⟨S1x64, .f32⟩
  | 94 => ⟨S_, .f32⟩
  | 95 => ⟨S1x64, .f32⟩
  | 96 => ⟨S1x64, .f32⟩
  | 97 => ⟨S65536x64, .f32⟩
  | 98 => ⟨S65536x128, .f32⟩
  | _ => ⟨S16384x3, .f32⟩

abbrev hbmTy (i : Nat) : BufTy := match i / 128 with
  | 0 => hbmTy0_0 i
  | 1 => hbmTy0_1 i
  | 2 => hbmTy0_2 i
  | _ => ⟨S16384x3, .f32⟩

abbrev bufTy : (tb : Table) → Fin (tcTables nBuf tb) → BufTy
  | .hbm, ⟨i, _⟩ => hbmTy i
  | .local _ .vmem, ⟨0, _⟩ => ⟨S16384x64, .f32⟩
  | .local _ .vmem, ⟨1, _⟩ => ⟨S32x64, .f32⟩
  | .local _ .vmem, ⟨2, _⟩ => ⟨S1x32, .f32⟩
  | .local _ .vmem, ⟨3, _⟩ => ⟨S1x32, .f32⟩
  | .local _ .vmem, ⟨4, _⟩ => ⟨S16384x32, .bf16⟩
  | .local _ .vmem, ⟨5, _⟩ => ⟨S4096x8x32, .bf16⟩
  | .local _ .vmem, ⟨6, _⟩ => ⟨S4096x8x32, .bf16⟩
  | .local _ .vmem, ⟨7, _⟩ => ⟨S8x32, .f32⟩
  | .local _ .vmem, ⟨8, _⟩ => ⟨S4096x32, .f32⟩
  | .local _ .vmem, ⟨9, _⟩ => ⟨S4096x32, .f32⟩
  | .local _ .vmem, ⟨10, _⟩ => ⟨S8192x32, .f32⟩
  | .local _ .vmem, ⟨11, _⟩ => ⟨S8192x32, .f32⟩
  | .local _ .vmem, ⟨12, _⟩ => ⟨S64x32, .f32⟩
  | .local _ .vmem, ⟨13, _⟩ => ⟨S1x64, .f32⟩
  | .local _ .vmem, ⟨14, _⟩ => ⟨S1x64, .f32⟩
  | .local _ .vmem, ⟨15, _⟩ => ⟨S8192x32, .f32⟩
  | .local _ .vmem, ⟨16, _⟩ => ⟨S8192x32, .f32⟩
  | .local _ .vmem, ⟨17, _⟩ => ⟨S64x32, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S8192x64, .f32⟩
  | .local _ .vmem, ⟨23, _⟩ => ⟨S8192x64, .f32⟩
  | .local _ .vmem, ⟨24, _⟩ => ⟨S16384x64, .f32⟩
  | .local _ .vmem, ⟨25, _⟩ => ⟨S32x64, .f32⟩
  | .local _ .vmem, ⟨26, _⟩ => ⟨S1x32, .f32⟩
  | .local _ .vmem, ⟨27, _⟩ => ⟨S1x32, .f32⟩
  | .local _ .vmem, ⟨28, _⟩ => ⟨S16384x32, .bf16⟩
  | .local _ .vmem, ⟨29, _⟩ => ⟨S512x64x32, .bf16⟩
  | .local _ .vmem, ⟨30, _⟩ => ⟨S512x64x32, .bf16⟩
  | .local _ .vmem, ⟨31, _⟩ => ⟨S64x32, .f32⟩
  | .local _ .vmem, ⟨32, _⟩ => ⟨S512x32, .f32⟩
  | .local _ .vmem, ⟨33, _⟩ => ⟨S512x32, .f32⟩
  | .local _ .vmem, ⟨34, _⟩ => ⟨S8192x32, .f32⟩
  | .local _ .vmem, ⟨35, _⟩ => ⟨S8192x32, .f32⟩
  | .local _ .vmem, ⟨36, _⟩ => ⟨S64x32, .f32⟩
  | .local _ .vmem, ⟨37, _⟩ => ⟨S1x64, .f32⟩
  | .local _ .vmem, ⟨38, _⟩ => ⟨S1x64, .f32⟩
  | .local _ .vmem, ⟨39, _⟩ => ⟨S8192x32, .f32⟩
  | .local _ .vmem, ⟨40, _⟩ => ⟨S8192x32, .f32⟩
  | .local _ .vmem, ⟨41, _⟩ => ⟨S64x32, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S8192x64, .f32⟩
  | .local _ .vmem, ⟨47, _⟩ => ⟨S8192x64, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_v0 : Ref sig .tc := ⟨.hbm, 18, rfl⟩
abbrev main_v1 : Ref sig .tc := ⟨.hbm, 19, rfl⟩
abbrev main_c_1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_4 : Ref sig .tc := ⟨.hbm, 58, rfl⟩
abbrev main_c_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_6 : Ref sig .tc := ⟨.hbm, 68, rfl⟩
abbrev main_c_7 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_c_8 : Ref sig .tc := ⟨.hbm, 78, rfl⟩
abbrev main_c_9 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v42 : Ref sig .tc := ⟨.hbm, 85, rfl⟩
abbrev main_c_10 : Ref sig .tc := ⟨.hbm, 86, rfl⟩
abbrev main_v43 : Ref sig .tc := ⟨.hbm, 87, rfl⟩
abbrev main_v44 : Ref sig .tc := ⟨.hbm, 88, rfl⟩
abbrev main_c_11 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_c_12 : Ref sig .tc := ⟨.hbm, 93, rfl⟩
abbrev main_v48 : Ref sig .tc := ⟨.hbm, 94, rfl⟩
abbrev main_v49 : Ref sig .tc := ⟨.hbm, 95, rfl⟩
abbrev main_c_13 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_c_14 : Ref sig .tc := ⟨.hbm, 100, rfl⟩
abbrev main_v53 : Ref sig .tc := ⟨.hbm, 101, rfl⟩
abbrev main_v54 : Ref sig .tc := ⟨.hbm, 102, rfl⟩
abbrev main_c_15 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_c_16 : Ref sig .tc := ⟨.hbm, 107, rfl⟩
abbrev main_v58 : Ref sig .tc := ⟨.hbm, 108, rfl⟩
abbrev main_v59 : Ref sig .tc := ⟨.hbm, 109, rfl⟩
abbrev main_c_17 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_c_18 : Ref sig .tc := ⟨.hbm, 120, rfl⟩
abbrev main_v69 : Ref sig .tc := ⟨.hbm, 121, rfl⟩
abbrev main_v70 : Ref sig .tc := ⟨.hbm, 122, rfl⟩
abbrev main_c_19 : Ref sig .tc := ⟨.hbm, 123, rfl⟩
abbrev main_v71 : Ref sig .tc := ⟨.hbm, 124, rfl⟩
abbrev main_v72 : Ref sig .tc := ⟨.hbm, 125, rfl⟩
abbrev main_c_20 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_cst_21 : Ref sig .tc := ⟨.hbm, 142, rfl⟩
abbrev main_v88 : Ref sig .tc := ⟨.hbm, 143, rfl⟩
abbrev main_v89 : Ref sig .tc := ⟨.hbm, 144, rfl⟩
abbrev main_cst_22 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_23 : Ref sig .tc := ⟨.hbm, 151, rfl⟩
abbrev main_v95 : Ref sig .tc := ⟨.hbm, 152, rfl⟩
abbrev main_v96 : Ref sig .tc := ⟨.hbm, 153, rfl⟩
abbrev main_cst_24 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_25 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117_0 : Ref sig .tc := ⟨.hbm, 176, rfl⟩
abbrev main_v117_1 : Ref sig .tc := ⟨.hbm, 177, rfl⟩
abbrev main_cst_26 : Ref sig .tc := ⟨.hbm, 178, rfl⟩
abbrev main_v118 : Ref sig .tc := ⟨.hbm, 179, rfl⟩
abbrev main_v119 : Ref sig .tc := ⟨.hbm, 180, rfl⟩
abbrev main_cst_27 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_cst_28 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_c_29 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_c_30 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_cst_31 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_c_32 : Ref sig .tc := ⟨.hbm, 222, rfl⟩
abbrev main_c_33 : Ref sig .tc := ⟨.hbm, 223, rfl⟩
abbrev main_call3_v0 : Ref sig .tc := ⟨.hbm, 224, rfl⟩
abbrev main_call3_v1 : Ref sig .tc := ⟨.hbm, 225, rfl⟩
abbrev main_call3_v2 : Ref sig .tc := ⟨.hbm, 226, rfl⟩
abbrev main_call3_v3 : Ref sig .tc := ⟨.hbm, 227, rfl⟩
abbrev main_call3_v4 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_c_34 : Ref sig .tc := ⟨.hbm, 232, rfl⟩
abbrev main_c_35 : Ref sig .tc := ⟨.hbm, 233, rfl⟩
abbrev main_call4_v0 : Ref sig .tc := ⟨.hbm, 234, rfl⟩
abbrev main_call4_v1 : Ref sig .tc := ⟨.hbm, 235, rfl⟩
abbrev main_call4_v2 : Ref sig .tc := ⟨.hbm, 236, rfl⟩
abbrev main_call4_v3 : Ref sig .tc := ⟨.hbm, 237, rfl⟩
abbrev main_call4_v4 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_c_36 : Ref sig .tc := ⟨.hbm, 242, rfl⟩
abbrev main_c_37 : Ref sig .tc := ⟨.hbm, 243, rfl⟩
abbrev main_call5_v0 : Ref sig .tc := ⟨.hbm, 244, rfl⟩
abbrev main_call5_v1 : Ref sig .tc := ⟨.hbm, 245, rfl⟩
abbrev main_call5_v2 : Ref sig .tc := ⟨.hbm, 246, rfl⟩
abbrev main_call5_v3 : Ref sig .tc := ⟨.hbm, 247, rfl⟩
abbrev main_call5_v4 : Ref sig .tc := ⟨.hbm, 248, rfl⟩
abbrev main_v162 : Ref sig .tc := ⟨.hbm, 249, rfl⟩
abbrev main_c_38 : Ref sig .tc := ⟨.hbm, 250, rfl⟩
abbrev main_v163 : Ref sig .tc := ⟨.hbm, 251, rfl⟩
abbrev main_v164 : Ref sig .tc := ⟨.hbm, 252, rfl⟩
abbrev main_c_39 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_c_40 : Ref sig .tc := ⟨.hbm, 257, rfl⟩
abbrev main_v168 : Ref sig .tc := ⟨.hbm, 258, rfl⟩
abbrev main_v169 : Ref sig .tc := ⟨.hbm, 259, rfl⟩
abbrev main_c_41 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_c_42 : Ref sig .tc := ⟨.hbm, 264, rfl⟩
abbrev main_v173 : Ref sig .tc := ⟨.hbm, 265, rfl⟩
abbrev main_v174 : Ref sig .tc := ⟨.hbm, 266, rfl⟩
abbrev main_c_43 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_c_44 : Ref sig .tc := ⟨.hbm, 271, rfl⟩
abbrev main_v178 : Ref sig .tc := ⟨.hbm, 272, rfl⟩
abbrev main_v179 : Ref sig .tc := ⟨.hbm, 273, rfl⟩
abbrev main_c_45 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_c_46 : Ref sig .tc := ⟨.hbm, 284, rfl⟩
abbrev main_v189 : Ref sig .tc := ⟨.hbm, 285, rfl⟩
abbrev main_v190 : Ref sig .tc := ⟨.hbm, 286, rfl⟩
abbrev main_c_47 : Ref sig .tc := ⟨.hbm, 287, rfl⟩
abbrev main_v191 : Ref sig .tc := ⟨.hbm, 288, rfl⟩
abbrev main_v192 : Ref sig .tc := ⟨.hbm, 289, rfl⟩
abbrev main_c_48 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_cst_49 : Ref sig .tc := ⟨.hbm, 306, rfl⟩
abbrev main_v208 : Ref sig .tc := ⟨.hbm, 307, rfl⟩
abbrev main_v209 : Ref sig .tc := ⟨.hbm, 308, rfl⟩
abbrev main_cst_50 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_cst_51 : Ref sig .tc := ⟨.hbm, 315, rfl⟩
abbrev main_v215 : Ref sig .tc := ⟨.hbm, 316, rfl⟩
abbrev main_v216 : Ref sig .tc := ⟨.hbm, 317, rfl⟩
abbrev main_cst_52 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_cst_53 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237_0 : Ref sig .tc := ⟨.hbm, 340, rfl⟩
abbrev main_v237_1 : Ref sig .tc := ⟨.hbm, 341, rfl⟩
abbrev main_cst_54 : Ref sig .tc := ⟨.hbm, 342, rfl⟩
abbrev main_v238 : Ref sig .tc := ⟨.hbm, 343, rfl⟩
abbrev main_v239 : Ref sig .tc := ⟨.hbm, 344, rfl⟩
abbrev main_cst_55 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_cst_56 : Ref sig .tc := ⟨.hbm, 350, rfl⟩
abbrev main_v244 : Ref sig .tc := ⟨.hbm, 351, rfl⟩
abbrev main_v245 : Ref sig .tc := ⟨.hbm, 352, rfl⟩
abbrev main_v246 : Ref sig .tc := ⟨.hbm, 353, rfl⟩
abbrev main_v247 : Ref sig .tc := ⟨.hbm, 354, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg6_0 : Ref sig .tc := ⟨.vmem, 22, rfl⟩
abbrev cc3_stg6_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg3_0 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc7_stg4_0 : Ref sig .tc := ⟨.vmem, 44, rfl⟩
abbrev cc7_stg5_0 : Ref sig .tc := ⟨.vmem, 45, rfl⟩
abbrev cc7_stg6_0 : Ref sig .tc := ⟨.vmem, 46, rfl⟩
abbrev cc7_stg6_1 : Ref sig .tc := ⟨.vmem, 47, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21
abbrev cc3_sem6_0 : DmaSem sig := 22
abbrev cc3_sem6_1 : DmaSem sig := 23
abbrev cc4_sem0_0 : DmaSem sig := 24
abbrev cc4_sem1_0 : DmaSem sig := 25
abbrev cc4_sem2_0 : DmaSem sig := 26
abbrev cc4_sem3_0 : DmaSem sig := 27
abbrev cc4_sem4_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem3_0 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem3_0 : DmaSem sig := 43
abbrev cc7_sem4_0 : DmaSem sig := 44
abbrev cc7_sem5_0 : DmaSem sig := 45
abbrev cc7_sem6_0 : DmaSem sig := 46
abbrev cc7_sem6_1 : DmaSem sig := 47

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16384x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16384x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x8x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8192x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S8192x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S16384x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S16384x32 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![128], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x64x32 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S8192x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8192x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S8192x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  bcast_S_S4 : S_.BroadcastsInDim S4 (![] : Fin 0 → Fin S4.rank)
  bcast_S4_S4x1_0 : S4.BroadcastsInDim S4x1 (![0] : Fin 1 → Fin S4x1.rank)
  bcast_S_S2 : S_.BroadcastsInDim S2 (![] : Fin 0 → Fin S2.rank)
  bcast_S2_S2x2x2_0 : S2.BroadcastsInDim S2x2x2 (![0] : Fin 1 → Fin S2x2x2.rank)
  bcast_S2_S2x2x2_1 : S2.BroadcastsInDim S2x2x2 (![1] : Fin 1 → Fin S2x2x2.rank)
  bcast_S2_S2x2x2_2 : S2.BroadcastsInDim S2x2x2 (![2] : Fin 1 → Fin S2x2x2.rank)
  bcast_S_S2x2x2 : S_.BroadcastsInDim S2x2x2 (![] : Fin 0 → Fin S2x2x2.rank)
  bcast_S2x2x2_S2x2x2x1_0_1_2 : S2x2x2.BroadcastsInDim S2x2x2x1 (![0, 1, 2] : Fin 3 → Fin S2x2x2x1.rank)
  concatenates_S2x2x2x1_S2x2x2x1_S2x2x2x1_S2x2x2x1_S2x2x2x4_d3 : Shape.Concatenates [S2x2x2x1, S2x2x2x1, S2x2x2x1, S2x2x2x1] S2x2x2x4 3
  shapeCasts_S2x2x2x4_S8x4 : S2x2x2x4.ShapeCasts S8x4
  slices_S2x32x64_S1x32x64_0_0_0 : S2x32x64.Slices ![0, 0, 0] S1x32x64
  shapeCasts_S1x32x64_S32x64 : S1x32x64.ShapeCasts S32x64
  slices_S2x32_S1x32_0_0 : S2x32.Slices ![0, 0] S1x32
  inb_S16384x64_S16384x64_0_0 : ∀ a, (![0, 0] : Fin 2 → Nat) a + S16384x64.size a ≤ S16384x64.size a
  h_S16384x64 : 0 < S16384x64.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  transposes_S32x64_p1_0_S64x32 : S32x64.Transposes [1, 0] S64x32
  reduces_S16384x32_S32 : S16384x32.Reduces [0] S32
  shapeCasts_S32_S1x32 : S32.ShapeCasts S1x32
  broadcasts_S1x32_S16384x32 : S1x32.Broadcasts S16384x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S16384x32_S16384x32_0_0 : ∀ a, (![0, 0] : Fin 2 → Nat) a + S16384x32.size a ≤ S16384x32.size a
  h_S16384x32 : 0 < S16384x32.numel
  packedbf16_S16384x32_S16384x32_0_0 : (Rect.unit (s := S16384x32) ![0, 0] S16384x32.size inb_S16384x32_S16384x32_0_0).PackedRows (EltTy.packing .bf16)
  bcast_S_S1x32 : S_.BroadcastsInDim S1x32 (![] : Fin 0 → Fin S1x32.rank)
  concatenates_S1x32_S16384x32_S16385x32_d0 : Shape.Concatenates [S1x32, S16384x32] S16385x32 0
  bcast_S65536x4_S65536x1x4_0_2 : S65536x4.BroadcastsInDim S65536x1x4 (![0, 2] : Fin 2 → Fin S65536x1x4.rank)
  bcast_S8x4_S1x8x4_1_2 : S8x4.BroadcastsInDim S1x8x4 (![1, 2] : Fin 2 → Fin S1x8x4.rank)
  bcast_S65536x1x4_S65536x8x4_0_1_2 : S65536x1x4.BroadcastsInDim S65536x8x4 (![0, 1, 2] : Fin 3 → Fin S65536x8x4.rank)
  bcast_S1x8x4_S65536x8x4_0_1_2 : S1x8x4.BroadcastsInDim S65536x8x4 (![0, 1, 2] : Fin 3 → Fin S65536x8x4.rank)
  slices_S65536x8x4_S65536x8x1_0_0_0 : S65536x8x4.Slices ![0, 0, 0] S65536x8x1
  shapeCasts_S65536x8x1_S65536x8 : S65536x8x1.ShapeCasts S65536x8
  slices_S65536x8x4_S65536x8x1_0_0_1 : S65536x8x4.Slices ![0, 0, 1] S65536x8x1
  bcast_S_S65536x8 : S_.BroadcastsInDim S65536x8 (![] : Fin 0 → Fin S65536x8.rank)
  slices_S65536x8x4_S65536x8x1_0_0_2 : S65536x8x4.Slices ![0, 0, 2] S65536x8x1
  slices_S65536x8x4_S65536x8x1_0_0_3 : S65536x8x4.Slices ![0, 0, 3] S65536x8x1
  bcast_S65536x8_S65536x8x1_0_1 : S65536x8.BroadcastsInDim S65536x8x1 (![0, 1] : Fin 2 → Fin S65536x8x1.rank)
  concatenates_S65536x8x1_S65536x8x1_S65536x8x1_S65536x8x1_S65536x8x4_d2 : Shape.Concatenates [S65536x8x1, S65536x8x1, S65536x8x1, S65536x8x1] S65536x8x4 2
  slices_S8x4_S8x3_0_1 : S8x4.Slices ![0, 1] S8x3
  slices_S2x32x3_S1x32x3_0_0_0 : S2x32x3.Slices ![0, 0, 0] S1x32x3
  shapeCasts_S1x32x3_S32x3 : S1x32x3.ShapeCasts S32x3
  transposes_S32x3_S3x32_1_0 : S32x3.Transposes [1, 0] S3x32
  shapeCasts_S1x32_S32 : S1x32.ShapeCasts S32
  reducesTo_S8x32_S32_d0 : S8x32.ReducesTo [0] S32
  h_S_ : 0 < S_.numel
  bcast_S32_S1x32_1 : S32.BroadcastsInDim S1x32 (![1] : Fin 1 → Fin S1x32.rank)
  bcast_S1x32_S8x32_0_1 : S1x32.BroadcastsInDim S8x32 (![0, 1] : Fin 2 → Fin S8x32.rank)
  inb_S4096x8x32_S4096x8x32_0_0_0 : ∀ a, (![0, 0, 0] : Fin 3 → Nat) a + S4096x8x32.size a ≤ S4096x8x32.size a
  h_S4096x8x32 : 0 < S4096x8x32.numel
  shapeCasts_S4096x8x32_S4096x8x32 : S4096x8x32.ShapeCasts S4096x8x32
  inb_S8x32_S8x32_0_0 : ∀ a, (![0, 0] : Fin 2 → Nat) a + S8x32.size a ≤ S8x32.size a
  h_S8x32 : 0 < S8x32.numel
  shapeCasts_S8x32_S8x32 : S8x32.ShapeCasts S8x32
  shapeCasts_S8x32_S1x8x32 : S8x32.ShapeCasts S1x8x32
  broadcasts_S1x8x32_S4096x8x32 : S1x8x32.Broadcasts S4096x8x32
  reduces_S4096x8x32_S4096x32 : S4096x8x32.Reduces [1] S4096x32
  inb_S4096x32_S4096x32_0_0 : ∀ a, (![0, 0] : Fin 2 → Nat) a + S4096x32.size a ≤ S4096x32.size a
  h_S4096x32 : 0 < S4096x32.numel
  slices_S2x64x32_S1x64x32_0_0_0 : S2x64x32.Slices ![0, 0, 0] S1x64x32
  shapeCasts_S1x64x32_S64x32 : S1x64x32.ShapeCasts S64x32
  slices_S2x64_S1x64_0_0 : S2x64.Slices ![0, 0] S1x64
  inb_S1x64_S1x64_0_0 : ∀ a, (![0, 0] : Fin 2 → Nat) a + S1x64.size a ≤ S1x64.size a
  h_S1x64 : 0 < S1x64.numel
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  transposes_S64x32_p1_0_S32x64 : S64x32.Transposes [1, 0] S32x64
  shapeCasts_S1x64_S1x64 : S1x64.ShapeCasts S1x64
  reduces_S8192x64_S64 : S8192x64.Reduces [0] S64
  shapeCasts_S64_S1x64 : S64.ShapeCasts S1x64
  bcast_S_S1x64 : S_.BroadcastsInDim S1x64 (![] : Fin 0 → Fin S1x64.rank)
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  bcast_S4_S4x4x4_0 : S4.BroadcastsInDim S4x4x4 (![0] : Fin 1 → Fin S4x4x4.rank)
  bcast_S4_S4x4x4_1 : S4.BroadcastsInDim S4x4x4 (![1] : Fin 1 → Fin S4x4x4.rank)
  bcast_S4_S4x4x4_2 : S4.BroadcastsInDim S4x4x4 (![2] : Fin 1 → Fin S4x4x4.rank)
  bcast_S_S4x4x4 : S_.BroadcastsInDim S4x4x4 (![] : Fin 0 → Fin S4x4x4.rank)
  bcast_S4x4x4_S4x4x4x1_0_1_2 : S4x4x4.BroadcastsInDim S4x4x4x1 (![0, 1, 2] : Fin 3 → Fin S4x4x4x1.rank)
  concatenates_S4x4x4x1_S4x4x4x1_S4x4x4x1_S4x4x4x1_S4x4x4x4_d3 : Shape.Concatenates [S4x4x4x1, S4x4x4x1, S4x4x4x1, S4x4x4x1] S4x4x4x4 3
  shapeCasts_S4x4x4x4_S64x4 : S4x4x4x4.ShapeCasts S64x4
  slices_S2x32x64_S1x32x64_1_0_0 : S2x32x64.Slices ![1, 0, 0] S1x32x64
  slices_S2x32_S1x32_1_0 : S2x32.Slices ![1, 0] S1x32
  bcast_S64x4_S1x64x4_1_2 : S64x4.BroadcastsInDim S1x64x4 (![1, 2] : Fin 2 → Fin S1x64x4.rank)
  bcast_S65536x1x4_S65536x64x4_0_1_2 : S65536x1x4.BroadcastsInDim S65536x64x4 (![0, 1, 2] : Fin 3 → Fin S65536x64x4.rank)
  bcast_S1x64x4_S65536x64x4_0_1_2 : S1x64x4.BroadcastsInDim S65536x64x4 (![0, 1, 2] : Fin 3 → Fin S65536x64x4.rank)
  slices_S65536x64x4_S65536x64x1_0_0_0 : S65536x64x4.Slices ![0, 0, 0] S65536x64x1
  shapeCasts_S65536x64x1_S65536x64 : S65536x64x1.ShapeCasts S65536x64
  slices_S65536x64x4_S65536x64x1_0_0_1 : S65536x64x4.Slices ![0, 0, 1] S65536x64x1
  bcast_S_S65536x64 : S_.BroadcastsInDim S65536x64 (![] : Fin 0 → Fin S65536x64.rank)
  slices_S65536x64x4_S65536x64x1_0_0_2 : S65536x64x4.Slices ![0, 0, 2] S65536x64x1
  slices_S65536x64x4_S65536x64x1_0_0_3 : S65536x64x4.Slices ![0, 0, 3] S65536x64x1
  bcast_S65536x64_S65536x64x1_0_1 : S65536x64.BroadcastsInDim S65536x64x1 (![0, 1] : Fin 2 → Fin S65536x64x1.rank)
  concatenates_S65536x64x1_S65536x64x1_S65536x64x1_S65536x64x1_S65536x64x4_d2 : Shape.Concatenates [S65536x64x1, S65536x64x1, S65536x64x1, S65536x64x1] S65536x64x4 2
  slices_S64x4_S64x3_0_1 : S64x4.Slices ![0, 1] S64x3
  slices_S2x32x3_S1x32x3_1_0_0 : S2x32x3.Slices ![1, 0, 0] S1x32x3
  reducesTo_S64x32_S32_d0 : S64x32.ReducesTo [0] S32
  bcast_S1x32_S64x32_0_1 : S1x32.BroadcastsInDim S64x32 (![0, 1] : Fin 2 → Fin S64x32.rank)
  inb_S512x64x32_S512x64x32_0_0_0 : ∀ a, (![0, 0, 0] : Fin 3 → Nat) a + S512x64x32.size a ≤ S512x64x32.size a
  h_S512x64x32 : 0 < S512x64x32.numel
  shapeCasts_S512x64x32_S512x64x32 : S512x64x32.ShapeCasts S512x64x32
  shapeCasts_S64x32_S1x64x32 : S64x32.ShapeCasts S1x64x32
  broadcasts_S1x64x32_S512x64x32 : S1x64x32.Broadcasts S512x64x32
  reduces_S512x64x32_S512x32 : S512x64x32.Reduces [1] S512x32
  inb_S512x32_S512x32_0_0 : ∀ a, (![0, 0] : Fin 2 → Nat) a + S512x32.size a ≤ S512x32.size a
  h_S512x32 : 0 < S512x32.numel
  slices_S2x64x32_S1x64x32_1_0_0 : S2x64x32.Slices ![1, 0, 0] S1x64x32
  slices_S2x64_S1x64_1_0 : S2x64.Slices ![1, 0] S1x64
  concatenates_S65536x64_S65536x64_S65536x128_d1 : Shape.Concatenates [S65536x64, S65536x64] S65536x128 1
  gather_S65536x4_S4x1_S65536x4_0_1_n_n_1_1_655361_wf : GatherDims.WF S65536x4 S4x1 S65536x4 [0] [1] [] [1] [] 1 ![65536, 1]
  dot_S16384x64_S64x32_S16384x32_1_0_0_1_n_n_wf : DotDims.WF S16384x64 S64x32 S16384x32 [1] [0] [0] [1] [] []
  gather_S2x11x200x176_S65536x8x4_S65536x8_n_0123_n_n_0123_2_1111_wf : GatherDims.WF S2x11x200x176 S65536x8x4 S65536x8 [] [0, 1, 2, 3] [] [0, 1, 2, 3] [] 2 ![1, 1, 1, 1]
  gather_S16385x32_S65536x8x1_S65536x8x32_2_0_n_n_0_2_132_wf : GatherDims.WF S16385x32 S65536x8x1 S65536x8x32 [2] [0] [] [0] [] 2 ![1, 32]
  dot_S8x3_S3x32_S8x32_1_0_0_1_n_n_wf : DotDims.WF S8x3 S3x32 S8x32 [1] [0] [0] [1] [] []
  dot_S8192x32_S32x64_S8192x64_1_0_0_1_n_n_wf : DotDims.WF S8192x32 S32x64 S8192x64 [1] [0] [0] [1] [] []
  gather_S2x11x200x176_S65536x64x4_S65536x64_n_0123_n_n_0123_2_1111_wf : GatherDims.WF S2x11x200x176 S65536x64x4 S65536x64 [] [0, 1, 2, 3] [] [0, 1, 2, 3] [] 2 ![1, 1, 1, 1]
  gather_S16385x32_S65536x64x1_S65536x64x32_2_0_n_n_0_2_132_wf : GatherDims.WF S16385x32 S65536x64x1 S65536x64x32 [2] [0] [] [0] [] 2 ![1, 32]
  dot_S64x3_S3x32_S64x32_1_0_0_1_n_n_wf : DotDims.WF S64x3 S3x32 S64x32 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S16384x64.size a
  hwx0_0 : ∀ i : grid0.Coords, EltTy.bits .f32 = 32 ∨ (Rect.block (s := S16384x64) S16384x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16384x32.size a ≤ S16384x32.size a
  hwx0_4 : ∀ i : grid0.Coords, EltTy.bits .bf16 = 32 ∨ (Rect.block (s := S16384x32) S16384x32.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x8x32.size a ≤ S65536x8x32.size a
  hwx1_0 : ∀ i : grid1.Coords, EltTy.bits .bf16 = 32 ∨ (Rect.block (s := S65536x8x32) S4096x8x32.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x32.size a ≤ S8x32.size a
  hwx1_1 : ∀ i : grid1.Coords, EltTy.bits .f32 = 32 ∨ (Rect.block (s := S8x32) S8x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x32.size a ≤ S65536x32.size a
  hwx1_2 : ∀ i : grid1.Coords, EltTy.bits .f32 = 32 ∨ (Rect.block (s := S65536x32) S4096x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x32.size a ≤ S65536x32.size a
  hwx2_0 : ∀ i : grid2.Coords, EltTy.bits .f32 = 32 ∨ (Rect.block (s := S65536x32) S8192x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x32.size a ≤ S65536x32.size a
  hwx3_0 : ∀ i : grid3.Coords, EltTy.bits .f32 = 32 ∨ (Rect.block (s := S65536x32) S8192x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8192x64.size a ≤ S65536x64.size a
  hwx3_6 : ∀ i : grid3.Coords, EltTy.bits .f32 = 32 ∨ (Rect.block (s := S65536x64) S8192x64.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S16384x64.size a ≤ S16384x64.size a
  hwx4_0 : ∀ i : grid4.Coords, EltTy.bits .f32 = 32 ∨ (Rect.block (s := S16384x64) S16384x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S16384x32.size a ≤ S16384x32.size a
  hwx4_4 : ∀ i : grid4.Coords, EltTy.bits .bf16 = 32 ∨ (Rect.block (s := S16384x32) S16384x32.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x64x32.size a ≤ S65536x64x32.size a
  hwx5_0 : ∀ i : grid5.Coords, EltTy.bits .bf16 = 32 ∨ (Rect.block (s := S65536x64x32) S512x64x32.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x32.size a ≤ S64x32.size a
  hwx5_1 : ∀ i : grid5.Coords, EltTy.bits .f32 = 32 ∨ (Rect.block (s := S64x32) S64x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x32.size a ≤ S65536x32.size a
  hwx5_2 : ∀ i : grid5.Coords, EltTy.bits .f32 = 32 ∨ (Rect.block (s := S65536x32) S512x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x32.size a ≤ S65536x32.size a
  hwx6_0 : ∀ i : grid6.Coords, EltTy.bits .f32 = 32 ∨ (Rect.block (s := S65536x32) S8192x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8192x32.size a ≤ S65536x32.size a
  hwx7_0 : ∀ i : grid7.Coords, EltTy.bits .f32 = 32 ∨ (Rect.block (s := S65536x32) S8192x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .f32 = 32 ∨ (Rect.block (s := S64x32) S64x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S8192x64.size a ≤ S65536x64.size a
  hwx7_6 : ∀ i : grid7.Coords, EltTy.bits .f32 = 32 ∨ (Rect.block (s := S65536x64) S8192x64.size (cc7_transform_6 i) (hinb7_6 i)).WholeWords (EltTy.packing .f32)

variable [Facts₀]

def gather_S65536x4_S4x1_S65536x4_0_1_n_n_1_1_655361 : GatherDims S65536x4 S4x1 S65536x4 where
  offsetDims := [0]
  collapsedSliceDims := [1]
  operandBatchingDims := []
  startIndicesBatchingDims := []
  startIndexMap := [1]
  indexVectorDim := 1
  sliceSizes := ![65536, 1]
  wf := gather_S65536x4_S4x1_S65536x4_0_1_n_n_1_1_655361_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def gather_S2x11x200x176_S65536x8x4_S65536x8_n_0123_n_n_0123_2_1111 : GatherDims S2x11x200x176 S65536x8x4 S65536x8 where
  offsetDims := []
  collapsedSliceDims := [0, 1, 2, 3]
  operandBatchingDims := []
  startIndicesBatchingDims := []
  startIndexMap := [0, 1, 2, 3]
  indexVectorDim := 2
  sliceSizes := ![1, 1, 1, 1]
  wf := gather_S2x11x200x176_S65536x8x4_S65536x8_n_0123_n_n_0123_2_1111_wf
def gather_S16385x32_S65536x8x1_S65536x8x32_2_0_n_n_0_2_132 : GatherDims S16385x32 S65536x8x1 S65536x8x32 where
  offsetDims := [2]
  collapsedSliceDims := [0]
  operandBatchingDims := []
  startIndicesBatchingDims := []
  startIndexMap := [0]
  indexVectorDim := 2
  sliceSizes := ![1, 32]
  wf := gather_S16385x32_S65536x8x1_S65536x8x32_2_0_n_n_0_2_132_wf
def dot_S8x3_S3x32_S8x32_1_0_0_1_n_n : DotDims S8x3 S3x32 S8x32 where
  lhsContracting := [1]
  rhsContracting := [0]
  lhsNonContracting := [0]
  rhsNonContracting := [1]
  lhsBatch := []
  rhsBatch := []
  wf := dot_S8x3_S3x32_S8x32_1_0_0_1_n_n_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def gather_S2x11x200x176_S65536x64x4_S65536x64_n_0123_n_n_0123_2_1111 : GatherDims S2x11x200x176 S65536x64x4 S65536x64 where
  offsetDims := []
  collapsedSliceDims := [0, 1, 2, 3]
  operandBatchingDims := []
  startIndicesBatchingDims := []
  startIndexMap := [0, 1, 2, 3]
  indexVectorDim := 2
  sliceSizes := ![1, 1, 1, 1]
  wf := gather_S2x11x200x176_S65536x64x4_S65536x64_n_0123_n_n_0123_2_1111_wf
def gather_S16385x32_S65536x64x1_S65536x64x32_2_0_n_n_0_2_132 : GatherDims S16385x32 S65536x64x1 S65536x64x32 where
  offsetDims := [2]
  collapsedSliceDims := [0]
  operandBatchingDims := []
  startIndicesBatchingDims := []
  startIndexMap := [0]
  indexVectorDim := 2
  sliceSizes := ![1, 32]
  wf := gather_S16385x32_S65536x64x1_S65536x64x32_2_0_n_n_0_2_132_wf
def dot_S64x3_S3x32_S64x32_1_0_0_1_n_n : DotDims S64x3 S3x32 S64x32 where
  lhsContracting := [1]
  rhsContracting := [0]
  lhsNonContracting := [0]
  rhsNonContracting := [1]
  lhsBatch := []
  rhsBatch := []
  wf := dot_S64x3_S3x32_S64x32_1_0_0_1_n_n_wf

abbrev win0_0 : Pipeline.Window sig grid0 :=
  Pipeline.Window.ofSpec (Memref.whole main_arg5) S16384x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v21) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S16384x32.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v77) S4096x8x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v111) S8x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v112) S4096x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v112) S8192x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v114) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v117_0) S1x64.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v117_1) S1x64.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v112) S8192x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v114) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v119) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v125) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v115) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v116) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v126) S8192x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_arg5) S16384x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v141) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v142) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v143) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v144) S16384x32.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v197) S512x64x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v231) S64x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v232) S512x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v232) S8192x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v234) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v237_0) S1x64.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v237_1) S1x64.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v232) S8192x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v234) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v239) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v245) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v235) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v236) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v246) S8192x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S16384x3 : Shape := ⟨2, ![16384, 3]⟩
abbrev S2 : Shape := ⟨1, ![2]⟩
abbrev S65536x3 : Shape := ⟨2, ![65536, 3]⟩
abbrev S65536x4 : Shape := ⟨2, ![65536, 4]⟩
abbrev S16384x64 : Shape := ⟨2, ![16384, 64]⟩
abbrev S2x11x200x176 : Shape := ⟨4, ![2, 11, 200, 176]⟩
abbrev S2x32x64 : Shape := ⟨3, ![2, 32, 64]⟩
abbrev S2x32 : Shape := ⟨2, ![2, 32]⟩
abbrev S2x32x3 : Shape := ⟨3, ![2, 32, 3]⟩
abbrev S2x64x32 : Shape := ⟨3, ![2, 64, 32]⟩
abbrev S2x64 : Shape := ⟨2, ![2, 64]⟩
abbrev S4 : Shape := ⟨1, ![4]⟩
abbrev S_ : Shape := ⟨0, ![]⟩
abbrev S4x1 : Shape := ⟨2, ![4, 1]⟩
abbrev S2x2x2 : Shape := ⟨3, ![2, 2, 2]⟩
abbrev S2x2x2x1 : Shape := ⟨4, ![2, 2, 2, 1]⟩
abbrev S2x2x2x4 : Shape := ⟨4, ![2, 2, 2, 4]⟩
abbrev S8x4 : Shape := ⟨2, ![8, 4]⟩
abbrev S1x32x64 : Shape := ⟨3, ![1, 32, 64]⟩
abbrev S32x64 : Shape := ⟨2, ![32, 64]⟩
abbrev S64x32 : Shape := ⟨2, ![64, 32]⟩
abbrev S16384x32 : Shape := ⟨2, ![16384, 32]⟩
abbrev S1x32 : Shape := ⟨2, ![1, 32]⟩
abbrev S32 : Shape := ⟨1, ![32]⟩
abbrev S16385x32 : Shape := ⟨2, ![16385, 32]⟩
abbrev S65536x1x4 : Shape := ⟨3, ![65536, 1, 4]⟩
abbrev S1x8x4 : Shape := ⟨3, ![1, 8, 4]⟩
abbrev S65536x8x4 : Shape := ⟨3, ![65536, 8, 4]⟩
abbrev S65536x8x1 : Shape := ⟨3, ![65536, 8, 1]⟩
abbrev S65536x8 : Shape := ⟨2, ![65536, 8]⟩
abbrev S65536x8x32 : Shape := ⟨3, ![65536, 8, 32]⟩
abbrev S8x3 : Shape := ⟨2, ![8, 3]⟩
abbrev S1x32x3 : Shape := ⟨3, ![1, 32, 3]⟩
abbrev S32x3 : Shape := ⟨2, ![32, 3]⟩
abbrev S3x32 : Shape := ⟨2, ![3, 32]⟩
abbrev S8x32 : Shape := ⟨2, ![8, 32]⟩
abbrev S1x8x32 : Shape := ⟨3, ![1, 8, 32]⟩
abbrev S65536x32 : Shape := ⟨2, ![65536, 32]⟩
abbrev S1x64x32 : Shape := ⟨3, ![1, 64, 32]⟩
abbrev S65536x64 : Shape := ⟨2, ![65536, 64]⟩
abbrev S1x64 : Shape := ⟨2, ![1, 64]⟩
abbrev S64 : Shape := ⟨1, ![64]⟩
abbrev S4x4x4 : Shape := ⟨3, ![4, 4, 4]⟩
abbrev S4x4x4x1 : Shape := ⟨4, ![4, 4, 4, 1]⟩
abbrev S4x4x4x4 : Shape := ⟨4, ![4, 4, 4, 4]⟩
abbrev S64x4 : Shape := ⟨2, ![64, 4]⟩
abbrev S1x64x4 : Shape := ⟨3, ![1, 64, 4]⟩
abbrev S65536x64x4 : Shape := ⟨3, ![65536, 64, 4]⟩
abbrev S65536x64x1 : Shape := ⟨3, ![65536, 64, 1]⟩
abbrev S65536x64x32 : Shape := ⟨3, ![65536, 64, 32]⟩
abbrev S64x3 : Shape := ⟨2, ![64, 3]⟩
abbrev S65536x128 : Shape := ⟨2, ![65536, 128]⟩

abbrev nBuf : Space → Nat
  | .hbm => 567
  | .vmem => 0
  | .smem => 0
  | _ => 0

abbrev hbmTy0_0 (i : Nat) : BufTy := match i % 128 with
  | 0 => ⟨S16384x3, .f32⟩
  | 1 => ⟨S2, .i32⟩
  | 2 => ⟨S65536x3, .f32⟩
  | 3 => ⟨S2, .i32⟩
  | 4 => ⟨S65536x4, .i32⟩
  | 5 => ⟨S16384x64, .f32⟩
  | 6 => ⟨S2x11x200x176, .i32⟩
  | 7 => ⟨S2x32x64, .f32⟩
  | 8 => ⟨S2x32, .f32⟩
  | 9 => ⟨S2x32, .f32⟩
  | 10 => ⟨S2x32x3, .f32⟩
  | 11 => ⟨S2x32, .f32⟩
  | 12 => ⟨S2x32, .f32⟩
  | 13 => ⟨S2x64x32, .f32⟩
  | 14 => ⟨S2x64, .f32⟩
  | 15 => ⟨S2x64, .f32⟩
  | 16 => ⟨S4, .i32⟩
  | 17 => ⟨S_, .i32⟩
  | 18 => ⟨S4, .i32⟩
  | 19 => ⟨S4, .i1⟩
  | 20 => ⟨S_, .i32⟩
  | 21 => ⟨S4, .i32⟩
  | 22 => ⟨S4, .i32⟩
  | 23 => ⟨S4, .i32⟩
  | 24 => ⟨S4x1, .i32⟩
  | 25 => ⟨S65536x4, .i32⟩
  | 26 => ⟨S2, .i32⟩
  | 27 => ⟨S_, .i32⟩
  | 28 => ⟨S2, .i32⟩
  | 29 => ⟨S2, .i32⟩
  | 30 => ⟨S2x2x2, .i32⟩
  | 31 => ⟨S2x2x2, .i32⟩
  | 32 => ⟨S2x2x2, .i32⟩
  | 33 => ⟨S_, .i32⟩
  | 34 => ⟨S2x2x2, .i32⟩
  | 35 => ⟨S2x2x2x1, .i32⟩
  | 36 => ⟨S2x2x2x1, .i32⟩
  | 37 => ⟨S2x2x2x1, .i32⟩
  | 38 => ⟨S2x2x2x1, .i32⟩
  | 39 => ⟨S2x2x2x4, .i32⟩
  | 40 => ⟨S8x4, .i32⟩
  | 41 => ⟨S1x32x64, .f32⟩
  | 42 => ⟨S32x64, .f32⟩
  | 43 => ⟨S64x32, .f32⟩
  | 44 => ⟨S16384x32, .f32⟩
  | 45 => ⟨S1x32, .f32⟩
  | 46 => ⟨S32, .f32⟩
  | 47 => ⟨S1x32, .f32⟩
  | 48 => ⟨S32, .f32⟩
  | 49 => ⟨S_, .f32⟩
  | 50 => ⟨S32, .f32⟩
  | 51 => ⟨S1x32, .f32⟩
  | 52 => ⟨S_, .f32⟩
  | 53 => ⟨S1x32, .f32⟩
  | 54 => ⟨S1x32, .f32⟩
  | 55 => ⟨S_, .i32⟩
  | 56 => ⟨S_, .f32⟩
  | 57 => ⟨S32, .f32⟩
  | 58 => ⟨S1x32, .f32⟩
  | 59 => ⟨S_, .f32⟩
  | 60 => ⟨S1x32, .f32⟩
  | 61 => ⟨S1x32, .f32⟩
  | 62 => ⟨S16384x32, .f32⟩
  | 63 => ⟨S16384x32, .f32⟩
  | 64 => ⟨S16384x32, .f32⟩
  | 65 => ⟨S_, .f32⟩
  | 66 => ⟨S_, .f32⟩
  | 67 => ⟨S_, .f32⟩
  | 68 => ⟨S_, .f32⟩
  | 69 => ⟨S32, .f32⟩
  | 70 => ⟨S1x32, .f32⟩
  | 71 => ⟨S1x32, .f32⟩
  | 72 => ⟨S1x32, .f32⟩
  | 73 => ⟨S_, .f32⟩
  | 74 => ⟨S_, .i1⟩
  | 75 => ⟨S_, .f32⟩
  | 76 => ⟨S_, .f32⟩
  | 77 => ⟨S1x32, .f32⟩
  | 78 => ⟨S1x32, .f32⟩
  | 79 => ⟨S16384x32, .f32⟩
  | 80 => ⟨S16384x32, .f32⟩
  | 81 => ⟨S_, .f32⟩
  | 82 => ⟨S1x32, .f32⟩
  | 83 => ⟨S1x32, .f32⟩
  | 84 => ⟨S1x32, .f32⟩
  | 85 => ⟨S16384x32, .f32⟩
  | 86 => ⟨S16384x32, .f32⟩
  | 87 => ⟨S1x32, .f32⟩
  | 88 => ⟨S16384x32, .f32⟩
  | 89 => ⟨S16384x32, .f32⟩
  | 90 => ⟨S1x32, .f32⟩
  | 91 => ⟨S16384x32, .f32⟩
  | 92 => ⟨S16384x32, .f32⟩
  | 93 => ⟨S_, .f32⟩
  | 94 => ⟨S1x32, .f32⟩
  | 95 => ⟨S16385x32, .f32⟩
  | 96 => ⟨S65536x1x4, .i32⟩
  | 97 => ⟨S1x8x4, .i32⟩
  | 98 => ⟨S65536x8x4, .i32⟩
  | 99 => ⟨S65536x8x4, .i32⟩
  | 100 => ⟨S65536x8x4, .i32⟩
  | 101 => ⟨S65536x8x1, .i32⟩
  | 102 => ⟨S65536x8, .i32⟩
  | 103 => ⟨S65536x8x1, .i32⟩
  | 104 => ⟨S65536x8, .i32⟩
  | 105 => ⟨S_, .i32⟩
  | 106 => ⟨S_, .i32⟩
  | 107 => ⟨S_, .i32⟩
  | 108 => ⟨S65536x8, .i32⟩
  | 109 => ⟨S65536x8, .i32⟩
  | 110 => ⟨S_, .i32⟩
  | 111 => ⟨S65536x8, .i32⟩
  | 112 => ⟨S65536x8, .i32⟩
  | 113 => ⟨S65536x8x1, .i32⟩
  | 114 => ⟨S65536x8, .i32⟩
  | 115 => ⟨S_, .i32⟩
  | 116 => ⟨S_, .i32⟩
  | 117 => ⟨S_, .i32⟩
  | 118 => ⟨S65536x8, .i32⟩
  | 119 => ⟨S65536x8, .i32⟩
  | 120 => ⟨S_, .i32⟩
  | 121 => ⟨S65536x8, .i32⟩
  | 122 => ⟨S65536x8, .i32⟩
  | 123 => ⟨S65536x8x1, .i32⟩
  | 124 => ⟨S65536x8, .i32⟩
  | 125 => ⟨S_, .i32⟩
  | 126 => ⟨S_, .i32⟩
  | 127 => ⟨S_, .i32⟩
  | _ => ⟨S16384x3, .f32⟩

abbrev hbmTy0_1 (i : Nat) : BufTy := match i % 128 with
  | 0 => ⟨S65536x8, .i32⟩
  | 1 => ⟨S65536x8, .i32⟩
  | 2 => ⟨S_, .i32⟩
  | 3 => ⟨S65536x8, .i32⟩
  | 4 => ⟨S65536x8, .i32⟩
  | 5 => ⟨S_, .i32⟩
  | 6 => ⟨S65536x8, .i32⟩
  | 7 => ⟨S65536x8, .i1⟩
  | 8 => ⟨S_, .i32⟩
  | 9 => ⟨S65536x8, .i32⟩
  | 10 => ⟨S65536x8, .i32⟩
  | 11 => ⟨S65536x8, .i32⟩
  | 12 => ⟨S_, .i32⟩
  | 13 => ⟨S65536x8, .i32⟩
  | 14 => ⟨S65536x8, .i1⟩
  | 15 => ⟨S_, .i32⟩
  | 16 => ⟨S65536x8, .i32⟩
  | 17 => ⟨S65536x8, .i32⟩
  | 18 => ⟨S65536x8, .i32⟩
  | 19 => ⟨S_, .i32⟩
  | 20 => ⟨S65536x8, .i32⟩
  | 21 => ⟨S65536x8, .i1⟩
  | 22 => ⟨S_, .i32⟩
  | 23 => ⟨S65536x8, .i32⟩
  | 24 => ⟨S65536x8, .i32⟩
  | 25 => ⟨S65536x8, .i32⟩
  | 26 => ⟨S_, .i32⟩
  | 27 => ⟨S65536x8, .i32⟩
  | 28 => ⟨S65536x8, .i1⟩
  | 29 => ⟨S_, .i32⟩
  | 30 => ⟨S65536x8, .i32⟩
  | 31 => ⟨S65536x8, .i32⟩
  | 32 => ⟨S65536x8, .i32⟩
  | 33 => ⟨S65536x8x1, .i32⟩
  | 34 => ⟨S65536x8x1, .i32⟩
  | 35 => ⟨S65536x8x1, .i32⟩
  | 36 => ⟨S65536x8x1, .i32⟩
  | 37 => ⟨S65536x8x4, .i32⟩
  | 38 => ⟨S65536x8, .i32⟩
  | 39 => ⟨S_, .i32⟩
  | 40 => ⟨S65536x8, .i32⟩
  | 41 => ⟨S65536x8, .i32⟩
  | 42 => ⟨S_, .i32⟩
  | 43 => ⟨S65536x8, .i32⟩
  | 44 => ⟨S65536x8, .i1⟩
  | 45 => ⟨S_, .i32⟩
  | 46 => ⟨S65536x8, .i32⟩
  | 47 => ⟨S65536x8, .i32⟩
  | 48 => ⟨S65536x8, .i32⟩
  | 49 => ⟨S65536x8x1, .i32⟩
  | 50 => ⟨S65536x8x32, .f32⟩
  | 51 => ⟨S8x3, .i32⟩
  | 52 => ⟨S8x3, .f32⟩
  | 53 => ⟨S1x32x3, .f32⟩
  | 54 => ⟨S32x3, .f32⟩
  | 55 => ⟨S3x32, .f32⟩
  | 56 => ⟨S8x32, .f32⟩
  | 57 => ⟨S1x32, .f32⟩
  | 58 => ⟨S32, .f32⟩
  | 59 => ⟨S1x32, .f32⟩
  | 60 => ⟨S32, .f32⟩
  | 61 => ⟨S_, .f32⟩
  | 62 => ⟨S32, .f32⟩
  | 63 => ⟨S1x32, .f32⟩
  | 64 => ⟨S_, .f32⟩
  | 65 => ⟨S1x32, .f32⟩
  | 66 => ⟨S1x32, .f32⟩
  | 67 => ⟨S_, .i32⟩
  | 68 => ⟨S_, .f32⟩
  | 69 => ⟨S32, .f32⟩
  | 70 => ⟨S1x32, .f32⟩
  | 71 => ⟨S_, .f32⟩
  | 72 => ⟨S1x32, .f32⟩
  | 73 => ⟨S1x32, .f32⟩
  | 74 => ⟨S8x32, .f32⟩
  | 75 => ⟨S8x32, .f32⟩
  | 76 => ⟨S8x32, .f32⟩
  | 77 => ⟨S_, .f32⟩
  | 78 => ⟨S_, .f32⟩
  | 79 => ⟨S_, .f32⟩
  | 80 => ⟨S_, .f32⟩
  | 81 => ⟨S32, .f32⟩
  | 82 => ⟨S1x32, .f32⟩
  | 83 => ⟨S1x32, .f32⟩
  | 84 => ⟨S1x32, .f32⟩
  | 85 => ⟨S_, .f32⟩
  | 86 => ⟨S_, .i1⟩
  | 87 => ⟨S_, .f32⟩
  | 88 => ⟨S_, .f32⟩
  | 89 => ⟨S1x32, .f32⟩
  | 90 => ⟨S1x32, .f32⟩
  | 91 => ⟨S8x32, .f32⟩
  | 92 => ⟨S8x32, .f32⟩
  | 93 => ⟨S_, .f32⟩
  | 94 => ⟨S1x32, .f32⟩
  | 95 => ⟨S1x32, .f32⟩
  | 96 => ⟨S1x32, .f32⟩
  | 97 => ⟨S8x32, .f32⟩
  | 98 => ⟨S8x32, .f32⟩
  | 99 => ⟨S1x32, .f32⟩
  | 100 => ⟨S8x32, .f32⟩
  | 101 => ⟨S8x32, .f32⟩
  | 102 => ⟨S1x32, .f32⟩
  | 103 => ⟨S8x32, .f32⟩
  | 104 => ⟨S8x32, .f32⟩
  | 105 => ⟨S1x8x32, .f32⟩
  | 106 => ⟨S65536x8x32, .f32⟩
  | 107 => ⟨S65536x8x32, .f32⟩
  | 108 => ⟨S_, .f32⟩
  | 109 => ⟨S65536x8x32, .f32⟩
  | 110 => ⟨S65536x8x32, .f32⟩
  | 111 => ⟨S_, .f32⟩
  | 112 => ⟨S65536x32, .f32⟩
  | 113 => ⟨S1x64x32, .f32⟩
  | 114 => ⟨S64x32, .f32⟩
  | 115 => ⟨S32x64, .f32⟩
  | 116 => ⟨S65536x64, .f32⟩
  | 117 => ⟨S1x64, .f32⟩
  | 118 => ⟨S64, .f32⟩
  | 119 => ⟨S1x64, .f32⟩
  | 120 => ⟨S64, .f32⟩
  | 121 => ⟨S_, .f32⟩
  | 122 => ⟨S64, .f32⟩
  | 123 => ⟨S1x64, .f32⟩
  | 124 => ⟨S_, .f32⟩
  | 125 => ⟨S1x64, .f32⟩
  | 126 => ⟨S1x64, .f32⟩
  | 127 => ⟨S_, .i32⟩
  | _ => ⟨S16384x3, .f32⟩

abbrev hbmTy0_2 (i : Nat) : BufTy := match i % 128 with
  | 0 => ⟨S_, .f32⟩
  | 1 => ⟨S64, .f32⟩
  | 2 => ⟨S1x64, .f32⟩
  | 3 => ⟨S_, .f32⟩
  | 4 => ⟨S1x64, .f32⟩
  | 5 => ⟨S1x64, .f32⟩
  | 6 => ⟨S65536x64, .f32⟩
  | 7 => ⟨S65536x64, .f32⟩
  | 8 => ⟨S65536x64, .f32⟩
  | 9 => ⟨S_, .f32⟩
  | 10 => ⟨S_, .f32⟩
  | 11 => ⟨S_, .f32⟩
  | 12 => ⟨S_, .f32⟩
  | 13 => ⟨S64, .f32⟩
  | 14 => ⟨S1x64, .f32⟩
  | 15 => ⟨S1x64, .f32⟩
  | 16 => ⟨S1x64, .f32⟩
  | 17 => ⟨S_, .f32⟩
  | 18 => ⟨S_, .i1⟩
  | 19 => ⟨S_, .f32⟩
  | 20 => ⟨S_, .f32⟩
  | 21 => ⟨S1x64, .f32⟩
  | 22 => ⟨S1x64, .f32⟩
  | 23 => ⟨S65536x64, .f32⟩
  | 24 => ⟨S65536x64, .f32⟩
  | 25 => ⟨S_, .f32⟩
  | 26 => ⟨S1x64, .f32⟩
  | 27 => ⟨S1x64, .f32⟩
  | 28 => ⟨S1x64, .f32⟩
  | 29 => ⟨S65536x64, .f32⟩
  | 30 => ⟨S65536x64, .f32⟩
  | 31 => ⟨S1x64, .f32⟩
  | 32 => ⟨S65536x64, .f32⟩
  | 33 => ⟨S65536x64, .f32⟩
  | 34 => ⟨S1x64, .f32⟩
  | 35 => ⟨S65536x64, .f32⟩
  | 36 => ⟨S65536x64, .f32⟩
  | 37 => ⟨S_, .f32⟩
  | 38 => ⟨S65536x64, .f32⟩
  | 39 => ⟨S65536x64, .f32⟩
  | 40 => ⟨S4, .i32⟩
  | 41 => ⟨S_, .i32⟩
  | 42 => ⟨S4, .i32⟩
  | 43 => ⟨S4, .i32⟩
  | 44 => ⟨S4x4x4, .i32⟩
  | 45 => ⟨S4x4x4, .i32⟩
  | 46 => ⟨S4x4x4, .i32⟩
  | 47 => ⟨S_, .i32⟩
  | 48 => ⟨S4x4x4, .i32⟩
  | 49 => ⟨S4x4x4x1, .i32⟩
  | 50 => ⟨S4x4x4x1, .i32⟩
  | 51 => ⟨S4x4x4x1, .i32⟩
  | 52 => ⟨S4x4x4x1, .i32⟩
  | 53 => ⟨S4x4x4x4, .i32⟩
  | 54 => ⟨S64x4, .i32⟩
  | 55 => ⟨S1x32x64, .f32⟩
  | 56 => ⟨S32x64, .f32⟩
  | 57 => ⟨S64x32, .f32⟩
  | 58 => ⟨S16384x32, .f32⟩
  | 59 => ⟨S1x32, .f32⟩
  | 60 => ⟨S32, .f32⟩
  | 61 => ⟨S1x32, .f32⟩
  | 62 => ⟨S32, .f32⟩
  | 63 => ⟨S_, .f32⟩
  | 64 => ⟨S32, .f32⟩
  | 65 => ⟨S1x32, .f32⟩
  | 66 => ⟨S_, .f32⟩
  | 67 => ⟨S1x32, .f32⟩
  | 68 => ⟨S1x32, .f32⟩
  | 69 => ⟨S_, .i32⟩
  | 70 => ⟨S_, .f32⟩
  | 71 => ⟨S32, .f32⟩
  | 72 => ⟨S1x32, .f32⟩
  | 73 => ⟨S_, .f32⟩
  | 74 => ⟨S1x32, .f32⟩
  | 75 => ⟨S1x32, .f32⟩
  | 76 => ⟨S16384x32, .f32⟩
  | 77 => ⟨S16384x32, .f32⟩
  | 78 => ⟨S16384x32, .f32⟩
  | 79 => ⟨S_, .f32⟩
  | 80 => ⟨S_, .f32⟩
  | 81 => ⟨S_, .f32⟩
  | 82 => ⟨S_, .f32⟩
  | 83 => ⟨S32, .f32⟩
  | 84 => ⟨S1x32, .f32⟩
  | 85 => ⟨S1x32, .f32⟩
  | 86 => ⟨S1x32, .f32⟩
  | 87 => ⟨S_, .f32⟩
  | 88 => ⟨S_, .i1⟩
  | 89 => ⟨S_, .f32⟩
  | 90 => ⟨S_, .f32⟩
  | 91 => ⟨S1x32, .f32⟩
  | 92 => ⟨S1x32, .f32⟩
  | 93 => ⟨S16384x32, .f32⟩
  | 94 => ⟨S16384x32, .f32⟩
  | 95 => ⟨S_, .f32⟩
  | 96 => ⟨S1x32, .f32⟩
  | 97 => ⟨S1x32, .f32⟩
  | 98 => ⟨S1x32, .f32⟩
  | 99 => ⟨S16384x32, .f32⟩
  | 100 => ⟨S16384x32, .f32⟩
  | 101 => ⟨S1x32, .f32⟩
  | 102 => ⟨S16384x32, .f32⟩
  | 103 => ⟨S16384x32, .f32⟩
  | 104 => ⟨S1x32, .f32⟩
  | 105 => ⟨S16384x32, .f32⟩
  | 106 => ⟨S16384x32, .f32⟩
  | 107 => ⟨S_, .f32⟩
  | 108 => ⟨S1x32, .f32⟩
  | 109 => ⟨S16385x32, .f32⟩
  | 110 => ⟨S65536x1x4, .i32⟩
  | 111 => ⟨S1x64x4, .i32⟩
  | 112 => ⟨S65536x64x4, .i32⟩
  | 113 => ⟨S65536x64x4, .i32⟩
  | 114 => ⟨S65536x64x4, .i32⟩
  | 115 => ⟨S65536x64x1, .i32⟩
  | 116 => ⟨S65536x64, .i32⟩
  | 117 => ⟨S65536x64x1, .i32⟩
  | 118 => ⟨S65536x64, .i32⟩
  | 119 => ⟨S_, .i32⟩
  | 120 => ⟨S_, .i32⟩
  | 121 => ⟨S_, .i32⟩
  | 122 => ⟨S65536x64, .i32⟩
  | 123 => ⟨S65536x64, .i32⟩
  | 124 => ⟨S_, .i32⟩
  | 125 => ⟨S65536x64, .i32⟩
  | 126 => ⟨S65536x64, .i32⟩
  | 127 => ⟨S65536x64x1, .i32⟩
  | _ => ⟨S16384x3, .f32⟩

abbrev hbmTy0_3 (i : Nat) : BufTy := match i % 128 with
  | 0 => ⟨S65536x64, .i32⟩
  | 1 => ⟨S_, .i32⟩
  | 2 => ⟨S_, .i32⟩
  | 3 => ⟨S_, .i32⟩
  | 4 => ⟨S65536x64, .i32⟩
  | 5 => ⟨S65536x64, .i32⟩
  | 6 => ⟨S_, .i32⟩
  | 7 => ⟨S65536x64, .i32⟩
  | 8 => ⟨S65536x64, .i32⟩
  | 9 => ⟨S65536x64x1, .i32⟩
  | 10 => ⟨S65536x64, .i32⟩
  | 11 => ⟨S_, .i32⟩
  | 12 => ⟨S_, .i32⟩
  | 13 => ⟨S_, .i32⟩
  | 14 => ⟨S65536x64, .i32⟩
  | 15 => ⟨S65536x64, .i32⟩
  | 16 => ⟨S_, .i32⟩
  | 17 => ⟨S65536x64, .i32⟩
  | 18 => ⟨S65536x64, .i32⟩
  | 19 => ⟨S_, .i32⟩
  | 20 => ⟨S65536x64, .i32⟩
  | 21 => ⟨S65536x64, .i1⟩
  | 22 => ⟨S_, .i32⟩
  | 23 => ⟨S65536x64, .i32⟩
  | 24 => ⟨S65536x64, .i32⟩
  | 25 => ⟨S65536x64, .i32⟩
  | 26 => ⟨S_, .i32⟩
  | 27 => ⟨S65536x64, .i32⟩
  | 28 => ⟨S65536x64, .i1⟩
  | 29 => ⟨S_, .i32⟩
  | 30 => ⟨S65536x64, .i32⟩
  | 31 => ⟨S65536x64, .i32⟩
  | 32 => ⟨S65536x64, .i32⟩
  | 33 => ⟨S_, .i32⟩
  | 34 => ⟨S65536x64, .i32⟩
  | 35 => ⟨S65536x64, .i1⟩
  | 36 => ⟨S_, .i32⟩
  | 37 => ⟨S65536x64, .i32⟩
  | 38 => ⟨S65536x64, .i32⟩
  | 39 => ⟨S65536x64, .i32⟩
  | 40 => ⟨S_, .i32⟩
  | 41 => ⟨S65536x64, .i32⟩
  | 42 => ⟨S65536x64, .i1⟩
  | 43 => ⟨S_, .i32⟩
  | 44 => ⟨S65536x64, .i32⟩
  | 45 => ⟨S65536x64, .i32⟩
  | 46 => ⟨S65536x64, .i32⟩
  | 47 => ⟨S65536x64x1, .i32⟩
  | 48 => ⟨S65536x64x1, .i32⟩
  | 49 => ⟨S65536x64x1, .i32⟩
  | 50 => ⟨S65536x64x1, .i32⟩
  | 51 => ⟨S65536x64x4, .i32⟩
  | 52 => ⟨S65536x64, .i32⟩
  | 53 => ⟨S_, .i32⟩
  | 54 => ⟨S65536x64, .i32⟩
  | 55 => ⟨S65536x64, .i32⟩
  | 56 => ⟨S_, .i32⟩
  | 57 => ⟨S65536x64, .i32⟩
  | 58 => ⟨S65536x64, .i1⟩
  | 59 => ⟨S_, .i32⟩
  | 60 => ⟨S65536x64, .i32⟩
  | 61 => ⟨S65536x64, .i32⟩
  | 62 => ⟨S65536x64, .i32⟩
  | 63 => ⟨S65536x64x1, .i32⟩
  | 64 => ⟨S65536x64x32, .f32⟩
  | 65 => ⟨S64x3, .i32⟩
  | 66 => ⟨S64x3, .f32⟩
  | 67 => ⟨S1x32x3, .f32⟩
  | 68 => ⟨S32x3, .f32⟩
  | 69 => ⟨S3x32, .f32⟩
  | 70 => ⟨S64x32, .f32⟩
  | 71 => ⟨S1x32, .f32⟩
  | 72 => ⟨S32, .f32⟩
  | 73 => ⟨S1x32, .f32⟩
  | 74 => ⟨S32, .f32⟩
  | 75 => ⟨S_, .f32⟩
  | 76 => ⟨S32, .f32⟩
  | 77 => ⟨S1x32, .f32⟩
  | 78 => ⟨S_, .f32⟩
  | 79 => ⟨S1x32, .f32⟩
  | 80 => ⟨S1x32, .f32⟩
  | 81 => ⟨S_, .i32⟩
  | 82 => ⟨S_, .f32⟩
  | 83 => ⟨S32, .f32⟩
  | 84 => ⟨S1x32, .f32⟩
  | 85 => ⟨S_, .f32⟩
  | 86 => ⟨S1x32, .f32⟩
  | 87 => ⟨S1x32, .f32⟩
  | 88 => ⟨S64x32, .f32⟩
  | 89 => ⟨S64x32, .f32⟩
  | 90 => ⟨S64x32, .f32⟩
  | 91 => ⟨S_, .f32⟩
  | 92 => ⟨S_, .f32⟩
  | 93 => ⟨S_, .f32⟩
  | 94 => ⟨S_, .f32⟩
  | 95 => ⟨S32, .f32⟩
  | 96 => ⟨S1x32, .f32⟩
  | 97 => ⟨S1x32, .f32⟩
  | 98 => ⟨S1x32, .f32⟩
  | 99 => ⟨S_, .f32⟩
  | 100 => ⟨S_, .i1⟩
  | 101 => ⟨S_, .f32⟩
  | 102 => ⟨S_, .f32⟩
  | 103 => ⟨S1x32, .f32⟩
  | 104 => ⟨S1x32, .f32⟩
  | 105 => ⟨S64x32, .f32⟩
  | 106 => ⟨S64x32, .f32⟩
  | 107 => ⟨S_, .f32⟩
  | 108 => ⟨S1x32, .f32⟩
  | 109 => ⟨S1x32, .f32⟩
  | 110 => ⟨S1x32, .f32⟩
  | 111 => ⟨S64x32, .f32⟩
  | 112 => ⟨S64x32, .f32⟩
  | 113 => ⟨S1x32, .f32⟩
  | 114 => ⟨S64x32, .f32⟩
  | 115 => ⟨S64x32, .f32⟩
  | 116 => ⟨S1x32, .f32⟩
  | 117 => ⟨S64x32, .f32⟩
  | 118 => ⟨S64x32, .f32⟩
  | 119 => ⟨S1x64x32, .f32⟩
  | 120 => ⟨S65536x64x32, .f32⟩
  | 121 => ⟨S65536x64x32, .f32⟩
  | 122 => ⟨S_, .f32⟩
  | 123 => ⟨S65536x64x32, .f32⟩
  | 124 => ⟨S65536x64x32, .f32⟩
  | 125 => ⟨S_, .f32⟩
  | 126 => ⟨S65536x32, .f32⟩
  | 127 => ⟨S1x64x32, .f32⟩
  | _ => ⟨S16384x3, .f32⟩

abbrev hbmTy0_4 (i : Nat) : BufTy := match i % 128 with
  | 0 => ⟨S64x32, .f32⟩
  | 1 => ⟨S32x64, .f32⟩
  | 2 => ⟨S65536x64, .f32⟩
  | 3 => ⟨S1x64, .f32⟩
  | 4 => ⟨S64, .f32⟩
  | 5 => ⟨S1x64, .f32⟩
  | 6 => ⟨S64, .f32⟩
  | 7 => ⟨S_, .f32⟩
  | 8 => ⟨S64, .f32⟩
  | 9 => ⟨S1x64, .f32⟩
  | 10 => ⟨S_, .f32⟩
  | 11 => ⟨S1x64, .f32⟩
  | 12 => ⟨S1x64, .f32⟩
  | 13 => ⟨S_, .i32⟩
  | 14 => ⟨S_, .f32⟩
  | 15 => ⟨S64, .f32⟩
  | 16 => ⟨S1x64, .f32⟩
  | 17 => ⟨S_, .f32⟩
  | 18 => ⟨S1x64, .f32⟩
  | 19 => ⟨S1x64, .f32⟩
  | 20 => ⟨S65536x64, .f32⟩
  | 21 => ⟨S65536x64, .f32⟩
  | 22 => ⟨S65536x64, .f32⟩
  | 23 => ⟨S_, .f32⟩
  | 24 => ⟨S_, .f32⟩
  | 25 => ⟨S_, .f32⟩
  | 26 => ⟨S_, .f32⟩
  | 27 => ⟨S64, .f32⟩
  | 28 => ⟨S1x64, .f32⟩
  | 29 => ⟨S1x64, .f32⟩
  | 30 => ⟨S1x64, .f32⟩
  | 31 => ⟨S_, .f32⟩
  | 32 => ⟨S_, .i1⟩
  | 33 => ⟨S_, .f32⟩
  | 34 => ⟨S_, .f32⟩
  | 35 => ⟨S1x64, .f32⟩
  | 36 => ⟨S1x64, .f32⟩
  | 37 => ⟨S65536x64, .f32⟩
  | 38 => ⟨S65536x64, .f32⟩
  | 39 => ⟨S_, .f32⟩
  | 40 => ⟨S1x64, .f32⟩
  | 41 => ⟨S1x64, .f32⟩
  | 42 => ⟨S1x64, .f32⟩
  | 43 => ⟨S65536x64, .f32⟩
  | 44 => ⟨S65536x64, .f32⟩
  | 45 => ⟨S1x64, .f32⟩
  | 46 => ⟨S65536x64, .f32⟩
  | 47 => ⟨S65536x64, .f32⟩
  | 48 => ⟨S1x64, .f32⟩
  | 49 => ⟨S65536x64, .f32⟩
  | 50 => ⟨S65536x64, .f32⟩
  | 51 => ⟨S_, .f32⟩
  | 52 => ⟨S65536x64, .f32⟩
  | 53 => ⟨S65536x64, .f32⟩
  | 54 => ⟨S65536x128, .f32⟩
  | _ => ⟨S16384x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_v0 : Ref sig .tc := ⟨.hbm, 18, rfl⟩
abbrev main_v1 : Ref sig .tc := ⟨.hbm, 19, rfl⟩
abbrev main_c_1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_v12 : Ref sig .tc := ⟨.hbm, 72, rfl⟩
abbrev main_call0_cst_3 : Ref sig .tc := ⟨.hbm, 73, rfl⟩
abbrev main_call0_v13 : Ref sig .tc := ⟨.hbm, 74, rfl⟩
abbrev main_call0_cst_4 : Ref sig .tc := ⟨.hbm, 75, rfl⟩
abbrev main_call0_call0_v0 : Ref sig .tc := ⟨.hbm, 76, rfl⟩
abbrev main_call0_call0_v1 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_6 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_7 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_c_8 : Ref sig .tc := ⟨.hbm, 105, rfl⟩
abbrev main_c_9 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_c_10 : Ref sig .tc := ⟨.hbm, 115, rfl⟩
abbrev main_c_11 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_c_12 : Ref sig .tc := ⟨.hbm, 125, rfl⟩
abbrev main_c_13 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_v63 : Ref sig .tc := ⟨.hbm, 132, rfl⟩
abbrev main_c_14 : Ref sig .tc := ⟨.hbm, 133, rfl⟩
abbrev main_v64 : Ref sig .tc := ⟨.hbm, 134, rfl⟩
abbrev main_v65 : Ref sig .tc := ⟨.hbm, 135, rfl⟩
abbrev main_c_15 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_c_16 : Ref sig .tc := ⟨.hbm, 140, rfl⟩
abbrev main_v69 : Ref sig .tc := ⟨.hbm, 141, rfl⟩
abbrev main_v70 : Ref sig .tc := ⟨.hbm, 142, rfl⟩
abbrev main_c_17 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_c_18 : Ref sig .tc := ⟨.hbm, 147, rfl⟩
abbrev main_v74 : Ref sig .tc := ⟨.hbm, 148, rfl⟩
abbrev main_v75 : Ref sig .tc := ⟨.hbm, 149, rfl⟩
abbrev main_c_19 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_c_20 : Ref sig .tc := ⟨.hbm, 154, rfl⟩
abbrev main_v79 : Ref sig .tc := ⟨.hbm, 155, rfl⟩
abbrev main_v80 : Ref sig .tc := ⟨.hbm, 156, rfl⟩
abbrev main_c_21 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_c_22 : Ref sig .tc := ⟨.hbm, 167, rfl⟩
abbrev main_v90 : Ref sig .tc := ⟨.hbm, 168, rfl⟩
abbrev main_v91 : Ref sig .tc := ⟨.hbm, 169, rfl⟩
abbrev main_c_23 : Ref sig .tc := ⟨.hbm, 170, rfl⟩
abbrev main_v92 : Ref sig .tc := ⟨.hbm, 171, rfl⟩
abbrev main_v93 : Ref sig .tc := ⟨.hbm, 172, rfl⟩
abbrev main_c_24 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_cst_25 : Ref sig .tc := ⟨.hbm, 189, rfl⟩
abbrev main_v109 : Ref sig .tc := ⟨.hbm, 190, rfl⟩
abbrev main_v110 : Ref sig .tc := ⟨.hbm, 191, rfl⟩
abbrev main_cst_26 : Ref sig .tc := ⟨.hbm, 192, rfl⟩
abbrev main_v111 : Ref sig .tc := ⟨.hbm, 193, rfl⟩
abbrev main_v112 : Ref sig .tc := ⟨.hbm, 194, rfl⟩
abbrev main_c_27 : Ref sig .tc := ⟨.hbm, 195, rfl⟩
abbrev main_call4_cst : Ref sig .tc := ⟨.hbm, 196, rfl⟩
abbrev main_call4_v0 : Ref sig .tc := ⟨.hbm, 197, rfl⟩
abbrev main_call4_v1 : Ref sig .tc := ⟨.hbm, 198, rfl⟩
abbrev main_call4_cst_0 : Ref sig .tc := ⟨.hbm, 199, rfl⟩
abbrev main_call4_v2 : Ref sig .tc := ⟨.hbm, 200, rfl⟩
abbrev main_call4_v3 : Ref sig .tc := ⟨.hbm, 201, rfl⟩
abbrev main_call4_v4 : Ref sig .tc := ⟨.hbm, 202, rfl⟩
abbrev main_call4_v5 : Ref sig .tc := ⟨.hbm, 203, rfl⟩
abbrev main_call4_v6 : Ref sig .tc := ⟨.hbm, 204, rfl⟩
abbrev main_call4_v7 : Ref sig .tc := ⟨.hbm, 205, rfl⟩
abbrev main_call4_cst_1 : Ref sig .tc := ⟨.hbm, 206, rfl⟩
abbrev main_call4_v8 : Ref sig .tc := ⟨.hbm, 207, rfl⟩
abbrev main_call4_cst_2 : Ref sig .tc := ⟨.hbm, 208, rfl⟩
abbrev main_call4_v9 : Ref sig .tc := ⟨.hbm, 209, rfl⟩
abbrev main_call4_v10 : Ref sig .tc := ⟨.hbm, 210, rfl⟩
abbrev main_call4_v11 : Ref sig .tc := ⟨.hbm, 211, rfl⟩
abbrev main_call4_v12 : Ref sig .tc := ⟨.hbm, 212, rfl⟩
abbrev main_call4_cst_3 : Ref sig .tc := ⟨.hbm, 213, rfl⟩
abbrev main_call4_v13 : Ref sig .tc := ⟨.hbm, 214, rfl⟩
abbrev main_call4_cst_4 : Ref sig .tc := ⟨.hbm, 215, rfl⟩
abbrev main_call4_call0_v0 : Ref sig .tc := ⟨.hbm, 216, rfl⟩
abbrev main_call4_call0_v1 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_cst_28 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_call5_cst : Ref sig .tc := ⟨.hbm, 236, rfl⟩
abbrev main_call5_v0 : Ref sig .tc := ⟨.hbm, 237, rfl⟩
abbrev main_v130 : Ref sig .tc := ⟨.hbm, 238, rfl⟩
abbrev main_cst_29 : Ref sig .tc := ⟨.hbm, 239, rfl⟩
abbrev main_v131 : Ref sig .tc := ⟨.hbm, 240, rfl⟩
abbrev main_v132 : Ref sig .tc := ⟨.hbm, 241, rfl⟩
abbrev main_v133 : Ref sig .tc := ⟨.hbm, 242, rfl⟩
abbrev main_v134 : Ref sig .tc := ⟨.hbm, 243, rfl⟩
abbrev main_v135 : Ref sig .tc := ⟨.hbm, 244, rfl⟩
abbrev main_v136 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_cst_30 : Ref sig .tc := ⟨.hbm, 249, rfl⟩
abbrev main_v140 : Ref sig .tc := ⟨.hbm, 250, rfl⟩
abbrev main_v141 : Ref sig .tc := ⟨.hbm, 251, rfl⟩
abbrev main_cst_31 : Ref sig .tc := ⟨.hbm, 252, rfl⟩
abbrev main_v142 : Ref sig .tc := ⟨.hbm, 253, rfl⟩
abbrev main_v143 : Ref sig .tc := ⟨.hbm, 254, rfl⟩
abbrev main_c_32 : Ref sig .tc := ⟨.hbm, 255, rfl⟩
abbrev main_call6_cst : Ref sig .tc := ⟨.hbm, 256, rfl⟩
abbrev main_call6_v0 : Ref sig .tc := ⟨.hbm, 257, rfl⟩
abbrev main_call6_v1 : Ref sig .tc := ⟨.hbm, 258, rfl⟩
abbrev main_call6_cst_0 : Ref sig .tc := ⟨.hbm, 259, rfl⟩
abbrev main_call6_v2 : Ref sig .tc := ⟨.hbm, 260, rfl⟩
abbrev main_call6_v3 : Ref sig .tc := ⟨.hbm, 261, rfl⟩
abbrev main_call6_v4 : Ref sig .tc := ⟨.hbm, 262, rfl⟩
abbrev main_call6_v5 : Ref sig .tc := ⟨.hbm, 263, rfl⟩
abbrev main_call6_v6 : Ref sig .tc := ⟨.hbm, 264, rfl⟩
abbrev main_call6_v7 : Ref sig .tc := ⟨.hbm, 265, rfl⟩
abbrev main_call6_cst_1 : Ref sig .tc := ⟨.hbm, 266, rfl⟩
abbrev main_call6_v8 : Ref sig .tc := ⟨.hbm, 267, rfl⟩
abbrev main_call6_cst_2 : Ref sig .tc := ⟨.hbm, 268, rfl⟩
abbrev main_call6_v9 : Ref sig .tc := ⟨.hbm, 269, rfl⟩
abbrev main_call6_v10 : Ref sig .tc := ⟨.hbm, 270, rfl⟩
abbrev main_call6_v11 : Ref sig .tc := ⟨.hbm, 271, rfl⟩
abbrev main_call6_v12 : Ref sig .tc := ⟨.hbm, 272, rfl⟩
abbrev main_call6_cst_3 : Ref sig .tc := ⟨.hbm, 273, rfl⟩
abbrev main_call6_v13 : Ref sig .tc := ⟨.hbm, 274, rfl⟩
abbrev main_call6_cst_4 : Ref sig .tc := ⟨.hbm, 275, rfl⟩
abbrev main_call6_call0_v0 : Ref sig .tc := ⟨.hbm, 276, rfl⟩
abbrev main_call6_call0_v1 : Ref sig .tc := ⟨.hbm, 277, rfl⟩
abbrev main_v144 : Ref sig .tc := ⟨.hbm, 278, rfl⟩
abbrev main_v145 : Ref sig .tc := ⟨.hbm, 279, rfl⟩
abbrev main_v146 : Ref sig .tc := ⟨.hbm, 280, rfl⟩
abbrev main_cst_33 : Ref sig .tc := ⟨.hbm, 281, rfl⟩
abbrev main_v147 : Ref sig .tc := ⟨.hbm, 282, rfl⟩
abbrev main_v148 : Ref sig .tc := ⟨.hbm, 283, rfl⟩
abbrev main_v149 : Ref sig .tc := ⟨.hbm, 284, rfl⟩
abbrev main_v150 : Ref sig .tc := ⟨.hbm, 285, rfl⟩
abbrev main_v151 : Ref sig .tc := ⟨.hbm, 286, rfl⟩
abbrev main_v152 : Ref sig .tc := ⟨.hbm, 287, rfl⟩
abbrev main_v153 : Ref sig .tc := ⟨.hbm, 288, rfl⟩
abbrev main_v154 : Ref sig .tc := ⟨.hbm, 289, rfl⟩
abbrev main_v155 : Ref sig .tc := ⟨.hbm, 290, rfl⟩
abbrev main_v156 : Ref sig .tc := ⟨.hbm, 291, rfl⟩
abbrev main_v157 : Ref sig .tc := ⟨.hbm, 292, rfl⟩
abbrev main_call7_cst : Ref sig .tc := ⟨.hbm, 293, rfl⟩
abbrev main_call7_v0 : Ref sig .tc := ⟨.hbm, 294, rfl⟩
abbrev main_v158 : Ref sig .tc := ⟨.hbm, 295, rfl⟩
abbrev main_v159 : Ref sig .tc := ⟨.hbm, 296, rfl⟩
abbrev main_c_34 : Ref sig .tc := ⟨.hbm, 297, rfl⟩
abbrev main_v160 : Ref sig .tc := ⟨.hbm, 298, rfl⟩
abbrev main_v161 : Ref sig .tc := ⟨.hbm, 299, rfl⟩
abbrev main_v162 : Ref sig .tc := ⟨.hbm, 300, rfl⟩
abbrev main_v163 : Ref sig .tc := ⟨.hbm, 301, rfl⟩
abbrev main_v164 : Ref sig .tc := ⟨.hbm, 302, rfl⟩
abbrev main_c_35 : Ref sig .tc := ⟨.hbm, 303, rfl⟩
abbrev main_v165 : Ref sig .tc := ⟨.hbm, 304, rfl⟩
abbrev main_v166 : Ref sig .tc := ⟨.hbm, 305, rfl⟩
abbrev main_v167 : Ref sig .tc := ⟨.hbm, 306, rfl⟩
abbrev main_v168 : Ref sig .tc := ⟨.hbm, 307, rfl⟩
abbrev main_v169 : Ref sig .tc := ⟨.hbm, 308, rfl⟩
abbrev main_v170 : Ref sig .tc := ⟨.hbm, 309, rfl⟩
abbrev main_v171 : Ref sig .tc := ⟨.hbm, 310, rfl⟩
abbrev main_v172 : Ref sig .tc := ⟨.hbm, 311, rfl⟩
abbrev main_v173 : Ref sig .tc := ⟨.hbm, 312, rfl⟩
abbrev main_v174 : Ref sig .tc := ⟨.hbm, 313, rfl⟩
abbrev main_v175 : Ref sig .tc := ⟨.hbm, 314, rfl⟩
abbrev main_v176 : Ref sig .tc := ⟨.hbm, 315, rfl⟩
abbrev main_v177 : Ref sig .tc := ⟨.hbm, 316, rfl⟩
abbrev main_v178 : Ref sig .tc := ⟨.hbm, 317, rfl⟩
abbrev main_v179 : Ref sig .tc := ⟨.hbm, 318, rfl⟩
abbrev main_cst_36 : Ref sig .tc := ⟨.hbm, 319, rfl⟩
abbrev main_v180 : Ref sig .tc := ⟨.hbm, 320, rfl⟩
abbrev main_v181 : Ref sig .tc := ⟨.hbm, 321, rfl⟩
abbrev main_cst_37 : Ref sig .tc := ⟨.hbm, 322, rfl⟩
abbrev main_v182 : Ref sig .tc := ⟨.hbm, 323, rfl⟩
abbrev main_v183 : Ref sig .tc := ⟨.hbm, 324, rfl⟩
abbrev main_c_38 : Ref sig .tc := ⟨.hbm, 325, rfl⟩
abbrev main_call8_cst : Ref sig .tc := ⟨.hbm, 326, rfl⟩
abbrev main_call8_v0 : Ref sig .tc := ⟨.hbm, 327, rfl⟩
abbrev main_call8_v1 : Ref sig .tc := ⟨.hbm, 328, rfl⟩
abbrev main_call8_cst_0 : Ref sig .tc := ⟨.hbm, 329, rfl⟩
abbrev main_call8_v2 : Ref sig .tc := ⟨.hbm, 330, rfl⟩
abbrev main_call8_v3 : Ref sig .tc := ⟨.hbm, 331, rfl⟩
abbrev main_call8_v4 : Ref sig .tc := ⟨.hbm, 332, rfl⟩
abbrev main_call8_v5 : Ref sig .tc := ⟨.hbm, 333, rfl⟩
abbrev main_call8_v6 : Ref sig .tc := ⟨.hbm, 334, rfl⟩
abbrev main_call8_v7 : Ref sig .tc := ⟨.hbm, 335, rfl⟩
abbrev main_call8_cst_1 : Ref sig .tc := ⟨.hbm, 336, rfl⟩
abbrev main_call8_v8 : Ref sig .tc := ⟨.hbm, 337, rfl⟩
abbrev main_call8_cst_2 : Ref sig .tc := ⟨.hbm, 338, rfl⟩
abbrev main_call8_v9 : Ref sig .tc := ⟨.hbm, 339, rfl⟩
abbrev main_call8_v10 : Ref sig .tc := ⟨.hbm, 340, rfl⟩
abbrev main_call8_v11 : Ref sig .tc := ⟨.hbm, 341, rfl⟩
abbrev main_call8_v12 : Ref sig .tc := ⟨.hbm, 342, rfl⟩
abbrev main_call8_cst_3 : Ref sig .tc := ⟨.hbm, 343, rfl⟩
abbrev main_call8_v13 : Ref sig .tc := ⟨.hbm, 344, rfl⟩
abbrev main_call8_cst_4 : Ref sig .tc := ⟨.hbm, 345, rfl⟩
abbrev main_call8_call0_v0 : Ref sig .tc := ⟨.hbm, 346, rfl⟩
abbrev main_call8_call0_v1 : Ref sig .tc := ⟨.hbm, 347, rfl⟩
abbrev main_v184 : Ref sig .tc := ⟨.hbm, 348, rfl⟩
abbrev main_v185 : Ref sig .tc := ⟨.hbm, 349, rfl⟩
abbrev main_v186 : Ref sig .tc := ⟨.hbm, 350, rfl⟩
abbrev main_cst_39 : Ref sig .tc := ⟨.hbm, 351, rfl⟩
abbrev main_v187 : Ref sig .tc := ⟨.hbm, 352, rfl⟩
abbrev main_v188 : Ref sig .tc := ⟨.hbm, 353, rfl⟩
abbrev main_v189 : Ref sig .tc := ⟨.hbm, 354, rfl⟩
abbrev main_v190 : Ref sig .tc := ⟨.hbm, 355, rfl⟩
abbrev main_v191 : Ref sig .tc := ⟨.hbm, 356, rfl⟩
abbrev main_v192 : Ref sig .tc := ⟨.hbm, 357, rfl⟩
abbrev main_v193 : Ref sig .tc := ⟨.hbm, 358, rfl⟩
abbrev main_v194 : Ref sig .tc := ⟨.hbm, 359, rfl⟩
abbrev main_v195 : Ref sig .tc := ⟨.hbm, 360, rfl⟩
abbrev main_v196 : Ref sig .tc := ⟨.hbm, 361, rfl⟩
abbrev main_v197 : Ref sig .tc := ⟨.hbm, 362, rfl⟩
abbrev main_cst_40 : Ref sig .tc := ⟨.hbm, 363, rfl⟩
abbrev main_v198 : Ref sig .tc := ⟨.hbm, 364, rfl⟩
abbrev main_v199 : Ref sig .tc := ⟨.hbm, 365, rfl⟩
abbrev main_v200 : Ref sig .tc := ⟨.hbm, 366, rfl⟩
abbrev main_v201 : Ref sig .tc := ⟨.hbm, 367, rfl⟩
abbrev main_v202 : Ref sig .tc := ⟨.hbm, 368, rfl⟩
abbrev main_v203 : Ref sig .tc := ⟨.hbm, 369, rfl⟩
abbrev main_v204 : Ref sig .tc := ⟨.hbm, 370, rfl⟩
abbrev main_v205 : Ref sig .tc := ⟨.hbm, 371, rfl⟩
abbrev main_v206 : Ref sig .tc := ⟨.hbm, 372, rfl⟩
abbrev main_v207 : Ref sig .tc := ⟨.hbm, 373, rfl⟩
abbrev main_v208 : Ref sig .tc := ⟨.hbm, 374, rfl⟩
abbrev main_c_41 : Ref sig .tc := ⟨.hbm, 375, rfl⟩
abbrev main_c_42 : Ref sig .tc := ⟨.hbm, 376, rfl⟩
abbrev main_call9_v0 : Ref sig .tc := ⟨.hbm, 377, rfl⟩
abbrev main_call9_v1 : Ref sig .tc := ⟨.hbm, 378, rfl⟩
abbrev main_call9_v2 : Ref sig .tc := ⟨.hbm, 379, rfl⟩
abbrev main_call9_v3 : Ref sig .tc := ⟨.hbm, 380, rfl⟩
abbrev main_call9_v4 : Ref sig .tc := ⟨.hbm, 381, rfl⟩
abbrev main_v209 : Ref sig .tc := ⟨.hbm, 382, rfl⟩
abbrev main_v210 : Ref sig .tc := ⟨.hbm, 383, rfl⟩
abbrev main_v211 : Ref sig .tc := ⟨.hbm, 384, rfl⟩
abbrev main_c_43 : Ref sig .tc := ⟨.hbm, 385, rfl⟩
abbrev main_c_44 : Ref sig .tc := ⟨.hbm, 386, rfl⟩
abbrev main_call10_v0 : Ref sig .tc := ⟨.hbm, 387, rfl⟩
abbrev main_call10_v1 : Ref sig .tc := ⟨.hbm, 388, rfl⟩
abbrev main_call10_v2 : Ref sig .tc := ⟨.hbm, 389, rfl⟩
abbrev main_call10_v3 : Ref sig .tc := ⟨.hbm, 390, rfl⟩
abbrev main_call10_v4 : Ref sig .tc := ⟨.hbm, 391, rfl⟩
abbrev main_v212 : Ref sig .tc := ⟨.hbm, 392, rfl⟩
abbrev main_v213 : Ref sig .tc := ⟨.hbm, 393, rfl⟩
abbrev main_v214 : Ref sig .tc := ⟨.hbm, 394, rfl⟩
abbrev main_c_45 : Ref sig .tc := ⟨.hbm, 395, rfl⟩
abbrev main_c_46 : Ref sig .tc := ⟨.hbm, 396, rfl⟩
abbrev main_call11_v0 : Ref sig .tc := ⟨.hbm, 397, rfl⟩
abbrev main_call11_v1 : Ref sig .tc := ⟨.hbm, 398, rfl⟩
abbrev main_call11_v2 : Ref sig .tc := ⟨.hbm, 399, rfl⟩
abbrev main_call11_v3 : Ref sig .tc := ⟨.hbm, 400, rfl⟩
abbrev main_call11_v4 : Ref sig .tc := ⟨.hbm, 401, rfl⟩
abbrev main_v215 : Ref sig .tc := ⟨.hbm, 402, rfl⟩
abbrev main_c_47 : Ref sig .tc := ⟨.hbm, 403, rfl⟩
abbrev main_v216 : Ref sig .tc := ⟨.hbm, 404, rfl⟩
abbrev main_v217 : Ref sig .tc := ⟨.hbm, 405, rfl⟩
abbrev main_c_48 : Ref sig .tc := ⟨.hbm, 406, rfl⟩
abbrev main_v218 : Ref sig .tc := ⟨.hbm, 407, rfl⟩
abbrev main_v219 : Ref sig .tc := ⟨.hbm, 408, rfl⟩
abbrev main_v220 : Ref sig .tc := ⟨.hbm, 409, rfl⟩
abbrev main_c_49 : Ref sig .tc := ⟨.hbm, 410, rfl⟩
abbrev main_v221 : Ref sig .tc := ⟨.hbm, 411, rfl⟩
abbrev main_v222 : Ref sig .tc := ⟨.hbm, 412, rfl⟩
abbrev main_c_50 : Ref sig .tc := ⟨.hbm, 413, rfl⟩
abbrev main_v223 : Ref sig .tc := ⟨.hbm, 414, rfl⟩
abbrev main_v224 : Ref sig .tc := ⟨.hbm, 415, rfl⟩
abbrev main_v225 : Ref sig .tc := ⟨.hbm, 416, rfl⟩
abbrev main_c_51 : Ref sig .tc := ⟨.hbm, 417, rfl⟩
abbrev main_v226 : Ref sig .tc := ⟨.hbm, 418, rfl⟩
abbrev main_v227 : Ref sig .tc := ⟨.hbm, 419, rfl⟩
abbrev main_c_52 : Ref sig .tc := ⟨.hbm, 420, rfl⟩
abbrev main_v228 : Ref sig .tc := ⟨.hbm, 421, rfl⟩
abbrev main_v229 : Ref sig .tc := ⟨.hbm, 422, rfl⟩
abbrev main_v230 : Ref sig .tc := ⟨.hbm, 423, rfl⟩
abbrev main_c_53 : Ref sig .tc := ⟨.hbm, 424, rfl⟩
abbrev main_v231 : Ref sig .tc := ⟨.hbm, 425, rfl⟩
abbrev main_v232 : Ref sig .tc := ⟨.hbm, 426, rfl⟩
abbrev main_c_54 : Ref sig .tc := ⟨.hbm, 427, rfl⟩
abbrev main_v233 : Ref sig .tc := ⟨.hbm, 428, rfl⟩
abbrev main_v234 : Ref sig .tc := ⟨.hbm, 429, rfl⟩
abbrev main_v235 : Ref sig .tc := ⟨.hbm, 430, rfl⟩
abbrev main_v236 : Ref sig .tc := ⟨.hbm, 431, rfl⟩
abbrev main_v237 : Ref sig .tc := ⟨.hbm, 432, rfl⟩
abbrev main_v238 : Ref sig .tc := ⟨.hbm, 433, rfl⟩
abbrev main_v239 : Ref sig .tc := ⟨.hbm, 434, rfl⟩
abbrev main_v240 : Ref sig .tc := ⟨.hbm, 435, rfl⟩
abbrev main_v241 : Ref sig .tc := ⟨.hbm, 436, rfl⟩
abbrev main_c_55 : Ref sig .tc := ⟨.hbm, 437, rfl⟩
abbrev main_v242 : Ref sig .tc := ⟨.hbm, 438, rfl⟩
abbrev main_v243 : Ref sig .tc := ⟨.hbm, 439, rfl⟩
abbrev main_c_56 : Ref sig .tc := ⟨.hbm, 440, rfl⟩
abbrev main_v244 : Ref sig .tc := ⟨.hbm, 441, rfl⟩
abbrev main_v245 : Ref sig .tc := ⟨.hbm, 442, rfl⟩
abbrev main_c_57 : Ref sig .tc := ⟨.hbm, 443, rfl⟩
abbrev main_v246 : Ref sig .tc := ⟨.hbm, 444, rfl⟩
abbrev main_v247 : Ref sig .tc := ⟨.hbm, 445, rfl⟩
abbrev main_v248 : Ref sig .tc := ⟨.hbm, 446, rfl⟩
abbrev main_v249 : Ref sig .tc := ⟨.hbm, 447, rfl⟩
abbrev main_v250 : Ref sig .tc := ⟨.hbm, 448, rfl⟩
abbrev main_v251 : Ref sig .tc := ⟨.hbm, 449, rfl⟩
abbrev main_v252 : Ref sig .tc := ⟨.hbm, 450, rfl⟩
abbrev main_v253 : Ref sig .tc := ⟨.hbm, 451, rfl⟩
abbrev main_v254 : Ref sig .tc := ⟨.hbm, 452, rfl⟩
abbrev main_v255 : Ref sig .tc := ⟨.hbm, 453, rfl⟩
abbrev main_v256 : Ref sig .tc := ⟨.hbm, 454, rfl⟩
abbrev main_v257 : Ref sig .tc := ⟨.hbm, 455, rfl⟩
abbrev main_v258 : Ref sig .tc := ⟨.hbm, 456, rfl⟩
abbrev main_v259 : Ref sig .tc := ⟨.hbm, 457, rfl⟩
abbrev main_v260 : Ref sig .tc := ⟨.hbm, 458, rfl⟩
abbrev main_cst_58 : Ref sig .tc := ⟨.hbm, 459, rfl⟩
abbrev main_v261 : Ref sig .tc := ⟨.hbm, 460, rfl⟩
abbrev main_v262 : Ref sig .tc := ⟨.hbm, 461, rfl⟩
abbrev main_cst_59 : Ref sig .tc := ⟨.hbm, 462, rfl⟩
abbrev main_v263 : Ref sig .tc := ⟨.hbm, 463, rfl⟩
abbrev main_v264 : Ref sig .tc := ⟨.hbm, 464, rfl⟩
abbrev main_c_60 : Ref sig .tc := ⟨.hbm, 465, rfl⟩
abbrev main_call12_cst : Ref sig .tc := ⟨.hbm, 466, rfl⟩
abbrev main_call12_v0 : Ref sig .tc := ⟨.hbm, 467, rfl⟩
abbrev main_call12_v1 : Ref sig .tc := ⟨.hbm, 468, rfl⟩
abbrev main_call12_cst_0 : Ref sig .tc := ⟨.hbm, 469, rfl⟩
abbrev main_call12_v2 : Ref sig .tc := ⟨.hbm, 470, rfl⟩
abbrev main_call12_v3 : Ref sig .tc := ⟨.hbm, 471, rfl⟩
abbrev main_call12_v4 : Ref sig .tc := ⟨.hbm, 472, rfl⟩
abbrev main_call12_v5 : Ref sig .tc := ⟨.hbm, 473, rfl⟩
abbrev main_call12_v6 : Ref sig .tc := ⟨.hbm, 474, rfl⟩
abbrev main_call12_v7 : Ref sig .tc := ⟨.hbm, 475, rfl⟩
abbrev main_call12_cst_1 : Ref sig .tc := ⟨.hbm, 476, rfl⟩
abbrev main_call12_v8 : Ref sig .tc := ⟨.hbm, 477, rfl⟩
abbrev main_call12_cst_2 : Ref sig .tc := ⟨.hbm, 478, rfl⟩
abbrev main_call12_v9 : Ref sig .tc := ⟨.hbm, 479, rfl⟩
abbrev main_call12_v10 : Ref sig .tc := ⟨.hbm, 480, rfl⟩
abbrev main_call12_v11 : Ref sig .tc := ⟨.hbm, 481, rfl⟩
abbrev main_call12_v12 : Ref sig .tc := ⟨.hbm, 482, rfl⟩
abbrev main_call12_cst_3 : Ref sig .tc := ⟨.hbm, 483, rfl⟩
abbrev main_call12_v13 : Ref sig .tc := ⟨.hbm, 484, rfl⟩
abbrev main_call12_cst_4 : Ref sig .tc := ⟨.hbm, 485, rfl⟩
abbrev main_call12_call0_v0 : Ref sig .tc := ⟨.hbm, 486, rfl⟩
abbrev main_call12_call0_v1 : Ref sig .tc := ⟨.hbm, 487, rfl⟩
abbrev main_v265 : Ref sig .tc := ⟨.hbm, 488, rfl⟩
abbrev main_v266 : Ref sig .tc := ⟨.hbm, 489, rfl⟩
abbrev main_v267 : Ref sig .tc := ⟨.hbm, 490, rfl⟩
abbrev main_cst_61 : Ref sig .tc := ⟨.hbm, 491, rfl⟩
abbrev main_v268 : Ref sig .tc := ⟨.hbm, 492, rfl⟩
abbrev main_v269 : Ref sig .tc := ⟨.hbm, 493, rfl⟩
abbrev main_v270 : Ref sig .tc := ⟨.hbm, 494, rfl⟩
abbrev main_v271 : Ref sig .tc := ⟨.hbm, 495, rfl⟩
abbrev main_v272 : Ref sig .tc := ⟨.hbm, 496, rfl⟩
abbrev main_v273 : Ref sig .tc := ⟨.hbm, 497, rfl⟩
abbrev main_v274 : Ref sig .tc := ⟨.hbm, 498, rfl⟩
abbrev main_v275 : Ref sig .tc := ⟨.hbm, 499, rfl⟩
abbrev main_v276 : Ref sig .tc := ⟨.hbm, 500, rfl⟩
abbrev main_v277 : Ref sig .tc := ⟨.hbm, 501, rfl⟩
abbrev main_v278 : Ref sig .tc := ⟨.hbm, 502, rfl⟩
abbrev main_v279 : Ref sig .tc := ⟨.hbm, 503, rfl⟩
abbrev main_v280 : Ref sig .tc := ⟨.hbm, 504, rfl⟩
abbrev main_v281 : Ref sig .tc := ⟨.hbm, 505, rfl⟩
abbrev main_call13_cst : Ref sig .tc := ⟨.hbm, 506, rfl⟩
abbrev main_call13_v0 : Ref sig .tc := ⟨.hbm, 507, rfl⟩
abbrev main_v282 : Ref sig .tc := ⟨.hbm, 508, rfl⟩
abbrev main_cst_62 : Ref sig .tc := ⟨.hbm, 509, rfl⟩
abbrev main_v283 : Ref sig .tc := ⟨.hbm, 510, rfl⟩
abbrev main_v284 : Ref sig .tc := ⟨.hbm, 511, rfl⟩
abbrev main_v285 : Ref sig .tc := ⟨.hbm, 512, rfl⟩
abbrev main_v286 : Ref sig .tc := ⟨.hbm, 513, rfl⟩
abbrev main_v287 : Ref sig .tc := ⟨.hbm, 514, rfl⟩
abbrev main_v288 : Ref sig .tc := ⟨.hbm, 515, rfl⟩
abbrev main_v289 : Ref sig .tc := ⟨.hbm, 516, rfl⟩
abbrev main_v290 : Ref sig .tc := ⟨.hbm, 517, rfl⟩
abbrev main_v291 : Ref sig .tc := ⟨.hbm, 518, rfl⟩
abbrev main_cst_63 : Ref sig .tc := ⟨.hbm, 519, rfl⟩
abbrev main_v292 : Ref sig .tc := ⟨.hbm, 520, rfl⟩
abbrev main_v293 : Ref sig .tc := ⟨.hbm, 521, rfl⟩
abbrev main_cst_64 : Ref sig .tc := ⟨.hbm, 522, rfl⟩
abbrev main_v294 : Ref sig .tc := ⟨.hbm, 523, rfl⟩
abbrev main_v295 : Ref sig .tc := ⟨.hbm, 524, rfl⟩
abbrev main_c_65 : Ref sig .tc := ⟨.hbm, 525, rfl⟩
abbrev main_call14_cst : Ref sig .tc := ⟨.hbm, 526, rfl⟩
abbrev main_call14_v0 : Ref sig .tc := ⟨.hbm, 527, rfl⟩
abbrev main_call14_v1 : Ref sig .tc := ⟨.hbm, 528, rfl⟩
abbrev main_call14_cst_0 : Ref sig .tc := ⟨.hbm, 529, rfl⟩
abbrev main_call14_v2 : Ref sig .tc := ⟨.hbm, 530, rfl⟩
abbrev main_call14_v3 : Ref sig .tc := ⟨.hbm, 531, rfl⟩
abbrev main_call14_v4 : Ref sig .tc := ⟨.hbm, 532, rfl⟩
abbrev main_call14_v5 : Ref sig .tc := ⟨.hbm, 533, rfl⟩
abbrev main_call14_v6 : Ref sig .tc := ⟨.hbm, 534, rfl⟩
abbrev main_call14_v7 : Ref sig .tc := ⟨.hbm, 535, rfl⟩
abbrev main_call14_cst_1 : Ref sig .tc := ⟨.hbm, 536, rfl⟩
abbrev main_call14_v8 : Ref sig .tc := ⟨.hbm, 537, rfl⟩
abbrev main_call14_cst_2 : Ref sig .tc := ⟨.hbm, 538, rfl⟩
abbrev main_call14_v9 : Ref sig .tc := ⟨.hbm, 539, rfl⟩
abbrev main_call14_v10 : Ref sig .tc := ⟨.hbm, 540, rfl⟩
abbrev main_call14_v11 : Ref sig .tc := ⟨.hbm, 541, rfl⟩
abbrev main_call14_v12 : Ref sig .tc := ⟨.hbm, 542, rfl⟩
abbrev main_call14_cst_3 : Ref sig .tc := ⟨.hbm, 543, rfl⟩
abbrev main_call14_v13 : Ref sig .tc := ⟨.hbm, 544, rfl⟩
abbrev main_call14_cst_4 : Ref sig .tc := ⟨.hbm, 545, rfl⟩
abbrev main_call14_call0_v0 : Ref sig .tc := ⟨.hbm, 546, rfl⟩
abbrev main_call14_call0_v1 : Ref sig .tc := ⟨.hbm, 547, rfl⟩
abbrev main_v296 : Ref sig .tc := ⟨.hbm, 548, rfl⟩
abbrev main_v297 : Ref sig .tc := ⟨.hbm, 549, rfl⟩
abbrev main_v298 : Ref sig .tc := ⟨.hbm, 550, rfl⟩
abbrev main_cst_66 : Ref sig .tc := ⟨.hbm, 551, rfl⟩
abbrev main_v299 : Ref sig .tc := ⟨.hbm, 552, rfl⟩
abbrev main_v300 : Ref sig .tc := ⟨.hbm, 553, rfl⟩
abbrev main_v301 : Ref sig .tc := ⟨.hbm, 554, rfl⟩
abbrev main_v302 : Ref sig .tc := ⟨.hbm, 555, rfl⟩
abbrev main_v303 : Ref sig .tc := ⟨.hbm, 556, rfl⟩
abbrev main_v304 : Ref sig .tc := ⟨.hbm, 557, rfl⟩
abbrev main_v305 : Ref sig .tc := ⟨.hbm, 558, rfl⟩
abbrev main_v306 : Ref sig .tc := ⟨.hbm, 559, rfl⟩
abbrev main_v307 : Ref sig .tc := ⟨.hbm, 560, rfl⟩
abbrev main_v308 : Ref sig .tc := ⟨.hbm, 561, rfl⟩
abbrev main_v309 : Ref sig .tc := ⟨.hbm, 562, rfl⟩
abbrev main_call15_cst : Ref sig .tc := ⟨.hbm, 563, rfl⟩
abbrev main_call15_v0 : Ref sig .tc := ⟨.hbm, 564, rfl⟩
abbrev main_v310 : Ref sig .tc := ⟨.hbm, 565, rfl⟩
abbrev main_v311 : Ref sig .tc := ⟨.hbm, 566, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  bcast_S_S2 : S_.BroadcastsInDim S2 (![] : Fin 0 → Fin S2.rank)
  bcast_S2_S2x2x2_0 : S2.BroadcastsInDim S2x2x2 (![0] : Fin 1 → Fin S2x2x2.rank)
  bcast_S2_S2x2x2_1 : S2.BroadcastsInDim S2x2x2 (![1] : Fin 1 → Fin S2x2x2.rank)
  bcast_S2_S2x2x2_2 : S2.BroadcastsInDim S2x2x2 (![2] : Fin 1 → Fin S2x2x2.rank)
  bcast_S_S2x2x2 : S_.BroadcastsInDim S2x2x2 (![] : Fin 0 → Fin S2x2x2.rank)
  bcast_S2x2x2_S2x2x2x1_0_1_2 : S2x2x2.BroadcastsInDim S2x2x2x1 (![0, 1, 2] : Fin 3 → Fin S2x2x2x1.rank)
  concatenates_S2x2x2x1_S2x2x2x1_S2x2x2x1_S2x2x2x1_S2x2x2x4_d3 : Shape.Concatenates [S2x2x2x1, S2x2x2x1, S2x2x2x1, S2x2x2x1] S2x2x2x4 3
  shapeCasts_S2x2x2x4_S8x4 : S2x2x2x4.ShapeCasts S8x4
  slices_S2x32x64_S1x32x64_0_0_0 : S2x32x64.Slices ![0, 0, 0] S1x32x64
  shapeCasts_S1x32x64_S32x64 : S1x32x64.ShapeCasts S32x64
  transposes_S32x64_S64x32_1_0 : S32x64.Transposes [1, 0] S64x32
  slices_S2x32_S1x32_0_0 : S2x32.Slices ![0, 0] S1x32
  shapeCasts_S1x32_S32 : S1x32.ShapeCasts S32
  reducesTo_S16384x32_S32_d0 : S16384x32.ReducesTo [0] S32
  h_S_ : 0 < S_.numel
  bcast_S32_S1x32_1 : S32.BroadcastsInDim S1x32 (![1] : Fin 1 → Fin S1x32.rank)
  bcast_S_S1x32 : S_.BroadcastsInDim S1x32 (![] : Fin 0 → Fin S1x32.rank)
  bcast_S1x32_S16384x32_0_1 : S1x32.BroadcastsInDim S16384x32 (![0, 1] : Fin 2 → Fin S16384x32.rank)
  concatenates_S1x32_S16384x32_S16385x32_d0 : Shape.Concatenates [S1x32, S16384x32] S16385x32 0
  bcast_S65536x4_S65536x1x4_0_2 : S65536x4.BroadcastsInDim S65536x1x4 (![0, 2] : Fin 2 → Fin S65536x1x4.rank)
  bcast_S8x4_S1x8x4_1_2 : S8x4.BroadcastsInDim S1x8x4 (![1, 2] : Fin 2 → Fin S1x8x4.rank)
  bcast_S65536x1x4_S65536x8x4_0_1_2 : S65536x1x4.BroadcastsInDim S65536x8x4 (![0, 1, 2] : Fin 3 → Fin S65536x8x4.rank)
  bcast_S1x8x4_S65536x8x4_0_1_2 : S1x8x4.BroadcastsInDim S65536x8x4 (![0, 1, 2] : Fin 3 → Fin S65536x8x4.rank)
  slices_S65536x8x4_S65536x8x1_0_0_0 : S65536x8x4.Slices ![0, 0, 0] S65536x8x1
  shapeCasts_S65536x8x1_S65536x8 : S65536x8x1.ShapeCasts S65536x8
  slices_S65536x8x4_S65536x8x1_0_0_1 : S65536x8x4.Slices ![0, 0, 1] S65536x8x1
  bcast_S_S65536x8 : S_.BroadcastsInDim S65536x8 (![] : Fin 0 → Fin S65536x8.rank)
  slices_S65536x8x4_S65536x8x1_0_0_2 : S65536x8x4.Slices ![0, 0, 2] S65536x8x1
  slices_S65536x8x4_S65536x8x1_0_0_3 : S65536x8x4.Slices ![0, 0, 3] S65536x8x1
  bcast_S65536x8_S65536x8x1_0_1 : S65536x8.BroadcastsInDim S65536x8x1 (![0, 1] : Fin 2 → Fin S65536x8x1.rank)
  concatenates_S65536x8x1_S65536x8x1_S65536x8x1_S65536x8x1_S65536x8x4_d2 : Shape.Concatenates [S65536x8x1, S65536x8x1, S65536x8x1, S65536x8x1] S65536x8x4 2
  slices_S8x4_S8x3_0_1 : S8x4.Slices ![0, 1] S8x3
  slices_S2x32x3_S1x32x3_0_0_0 : S2x32x3.Slices ![0, 0, 0] S1x32x3
  shapeCasts_S1x32x3_S32x3 : S1x32x3.ShapeCasts S32x3
  transposes_S32x3_S3x32_1_0 : S32x3.Transposes [1, 0] S3x32
  reducesTo_S8x32_S32_d0 : S8x32.ReducesTo [0] S32
  bcast_S1x32_S8x32_0_1 : S1x32.BroadcastsInDim S8x32 (![0, 1] : Fin 2 → Fin S8x32.rank)
  bcast_S8x32_S1x8x32_1_2 : S8x32.BroadcastsInDim S1x8x32 (![1, 2] : Fin 2 → Fin S1x8x32.rank)
  bcast_S1x8x32_S65536x8x32_0_1_2 : S1x8x32.BroadcastsInDim S65536x8x32 (![0, 1, 2] : Fin 3 → Fin S65536x8x32.rank)
  bcast_S_S65536x8x32 : S_.BroadcastsInDim S65536x8x32 (![] : Fin 0 → Fin S65536x8x32.rank)
  reducesTo_S65536x8x32_S65536x32_d1 : S65536x8x32.ReducesTo [1] S65536x32
  slices_S2x64x32_S1x64x32_0_0_0 : S2x64x32.Slices ![0, 0, 0] S1x64x32
  shapeCasts_S1x64x32_S64x32 : S1x64x32.ShapeCasts S64x32
  transposes_S64x32_S32x64_1_0 : S64x32.Transposes [1, 0] S32x64
  slices_S2x64_S1x64_0_0 : S2x64.Slices ![0, 0] S1x64
  shapeCasts_S1x64_S64 : S1x64.ShapeCasts S64
  reducesTo_S65536x64_S64_d0 : S65536x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S4_S4x4x4_0 : S4.BroadcastsInDim S4x4x4 (![0] : Fin 1 → Fin S4x4x4.rank)
  bcast_S4_S4x4x4_1 : S4.BroadcastsInDim S4x4x4 (![1] : Fin 1 → Fin S4x4x4.rank)
  bcast_S4_S4x4x4_2 : S4.BroadcastsInDim S4x4x4 (![2] : Fin 1 → Fin S4x4x4.rank)
  bcast_S_S4x4x4 : S_.BroadcastsInDim S4x4x4 (![] : Fin 0 → Fin S4x4x4.rank)
  bcast_S4x4x4_S4x4x4x1_0_1_2 : S4x4x4.BroadcastsInDim S4x4x4x1 (![0, 1, 2] : Fin 3 → Fin S4x4x4x1.rank)
  concatenates_S4x4x4x1_S4x4x4x1_S4x4x4x1_S4x4x4x1_S4x4x4x4_d3 : Shape.Concatenates [S4x4x4x1, S4x4x4x1, S4x4x4x1, S4x4x4x1] S4x4x4x4 3
  shapeCasts_S4x4x4x4_S64x4 : S4x4x4x4.ShapeCasts S64x4
  slices_S2x32x64_S1x32x64_1_0_0 : S2x32x64.Slices ![1, 0, 0] S1x32x64
  slices_S2x32_S1x32_1_0 : S2x32.Slices ![1, 0] S1x32
  bcast_S64x4_S1x64x4_1_2 : S64x4.BroadcastsInDim S1x64x4 (![1, 2] : Fin 2 → Fin S1x64x4.rank)
  bcast_S65536x1x4_S65536x64x4_0_1_2 : S65536x1x4.BroadcastsInDim S65536x64x4 (![0, 1, 2] : Fin 3 → Fin S65536x64x4.rank)
  bcast_S1x64x4_S65536x64x4_0_1_2 : S1x64x4.BroadcastsInDim S65536x64x4 (![0, 1, 2] : Fin 3 → Fin S65536x64x4.rank)
  slices_S65536x64x4_S65536x64x1_0_0_0 : S65536x64x4.Slices ![0, 0, 0] S65536x64x1
  shapeCasts_S65536x64x1_S65536x64 : S65536x64x1.ShapeCasts S65536x64
  slices_S65536x64x4_S65536x64x1_0_0_1 : S65536x64x4.Slices ![0, 0, 1] S65536x64x1
  slices_S65536x64x4_S65536x64x1_0_0_2 : S65536x64x4.Slices ![0, 0, 2] S65536x64x1
  slices_S65536x64x4_S65536x64x1_0_0_3 : S65536x64x4.Slices ![0, 0, 3] S65536x64x1
  bcast_S65536x64_S65536x64x1_0_1 : S65536x64.BroadcastsInDim S65536x64x1 (![0, 1] : Fin 2 → Fin S65536x64x1.rank)
  concatenates_S65536x64x1_S65536x64x1_S65536x64x1_S65536x64x1_S65536x64x4_d2 : Shape.Concatenates [S65536x64x1, S65536x64x1, S65536x64x1, S65536x64x1] S65536x64x4 2
  slices_S64x4_S64x3_0_1 : S64x4.Slices ![0, 1] S64x3
  slices_S2x32x3_S1x32x3_1_0_0 : S2x32x3.Slices ![1, 0, 0] S1x32x3
  reducesTo_S64x32_S32_d0 : S64x32.ReducesTo [0] S32
  bcast_S1x32_S64x32_0_1 : S1x32.BroadcastsInDim S64x32 (![0, 1] : Fin 2 → Fin S64x32.rank)
  bcast_S64x32_S1x64x32_1_2 : S64x32.BroadcastsInDim S1x64x32 (![1, 2] : Fin 2 → Fin S1x64x32.rank)
  bcast_S1x64x32_S65536x64x32_0_1_2 : S1x64x32.BroadcastsInDim S65536x64x32 (![0, 1, 2] : Fin 3 → Fin S65536x64x32.rank)
  bcast_S_S65536x64x32 : S_.BroadcastsInDim S65536x64x32 (![] : Fin 0 → Fin S65536x64x32.rank)
  reducesTo_S65536x64x32_S65536x32_d1 : S65536x64x32.ReducesTo [1] S65536x32
  slices_S2x64x32_S1x64x32_1_0_0 : S2x64x32.Slices ![1, 0, 0] S1x64x32
  slices_S2x64_S1x64_1_0 : S2x64.Slices ![1, 0] S1x64
  concatenates_S65536x64_S65536x64_S65536x128_d1 : Shape.Concatenates [S65536x64, S65536x64] S65536x128 1
  gather_S65536x4_S4x1_S65536x4_0_1_n_n_1_1_655361_wf : GatherDims.WF S65536x4 S4x1 S65536x4 [0] [1] [] [1] [] 1 ![65536, 1]
  dot_S16384x64_S64x32_S16384x32_1_0_0_1_n_n_wf : DotDims.WF S16384x64 S64x32 S16384x32 [1] [0] [0] [1] [] []
  gather_S2x11x200x176_S65536x8x4_S65536x8_n_0123_n_n_0123_2_1111_wf : GatherDims.WF S2x11x200x176 S65536x8x4 S65536x8 [] [0, 1, 2, 3] [] [0, 1, 2, 3] [] 2 ![1, 1, 1, 1]
  gather_S16385x32_S65536x8x1_S65536x8x32_2_0_n_n_0_2_132_wf : GatherDims.WF S16385x32 S65536x8x1 S65536x8x32 [2] [0] [] [0] [] 2 ![1, 32]
  dot_S8x3_S3x32_S8x32_1_0_0_1_n_n_wf : DotDims.WF S8x3 S3x32 S8x32 [1] [0] [0] [1] [] []
  dot_S65536x32_S32x64_S65536x64_1_0_0_1_n_n_wf : DotDims.WF S65536x32 S32x64 S65536x64 [1] [0] [0] [1] [] []
  gather_S2x11x200x176_S65536x64x4_S65536x64_n_0123_n_n_0123_2_1111_wf : GatherDims.WF S2x11x200x176 S65536x64x4 S65536x64 [] [0, 1, 2, 3] [] [0, 1, 2, 3] [] 2 ![1, 1, 1, 1]
  gather_S16385x32_S65536x64x1_S65536x64x32_2_0_n_n_0_2_132_wf : GatherDims.WF S16385x32 S65536x64x1 S65536x64x32 [2] [0] [] [0] [] 2 ![1, 32]
  dot_S64x3_S3x32_S64x32_1_0_0_1_n_n_wf : DotDims.WF S64x3 S3x32 S64x32 [1] [0] [0] [1] [] []

variable [Facts₀]

def gather_S65536x4_S4x1_S65536x4_0_1_n_n_1_1_655361 : GatherDims S65536x4 S4x1 S65536x4 where
  offsetDims := [0]
  collapsedSliceDims := [1]
  operandBatchingDims := []
  startIndicesBatchingDims := []
  startIndexMap := [1]
  indexVectorDim := 1
  sliceSizes := ![65536, 1]
  wf := gather_S65536x4_S4x1_S65536x4_0_1_n_n_1_1_655361_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def gather_S2x11x200x176_S65536x8x4_S65536x8_n_0123_n_n_0123_2_1111 : GatherDims S2x11x200x176 S65536x8x4 S65536x8 where
  offsetDims := []
  collapsedSliceDims := [0, 1, 2, 3]
  operandBatchingDims := []
  startIndicesBatchingDims := []
  startIndexMap := [0, 1, 2, 3]
  indexVectorDim := 2
  sliceSizes := ![1, 1, 1, 1]
  wf := gather_S2x11x200x176_S65536x8x4_S65536x8_n_0123_n_n_0123_2_1111_wf
def gather_S16385x32_S65536x8x1_S65536x8x32_2_0_n_n_0_2_132 : GatherDims S16385x32 S65536x8x1 S65536x8x32 where
  offsetDims := [2]
  collapsedSliceDims := [0]
  operandBatchingDims := []
  startIndicesBatchingDims := []
  startIndexMap := [0]
  indexVectorDim := 2
  sliceSizes := ![1, 32]
  wf := gather_S16385x32_S65536x8x1_S65536x8x32_2_0_n_n_0_2_132_wf
def dot_S8x3_S3x32_S8x32_1_0_0_1_n_n : DotDims S8x3 S3x32 S8x32 where
  lhsContracting := [1]
  rhsContracting := [0]
  lhsNonContracting := [0]
  rhsNonContracting := [1]
  lhsBatch := []
  rhsBatch := []
  wf := dot_S8x3_S3x32_S8x32_1_0_0_1_n_n_wf
def dot_S65536x32_S32x64_S65536x64_1_0_0_1_n_n : DotDims S65536x32 S32x64 S65536x64 where
  lhsContracting := [1]
  rhsContracting := [0]
  lhsNonContracting := [0]
  rhsNonContracting := [1]
  lhsBatch := []
  rhsBatch := []
  wf := dot_S65536x32_S32x64_S65536x64_1_0_0_1_n_n_wf
def gather_S2x11x200x176_S65536x64x4_S65536x64_n_0123_n_n_0123_2_1111 : GatherDims S2x11x200x176 S65536x64x4 S65536x64 where
  offsetDims := []
  collapsedSliceDims := [0, 1, 2, 3]
  operandBatchingDims := []
  startIndicesBatchingDims := []
  startIndexMap := [0, 1, 2, 3]
  indexVectorDim := 2
  sliceSizes := ![1, 1, 1, 1]
  wf := gather_S2x11x200x176_S65536x64x4_S65536x64_n_0123_n_n_0123_2_1111_wf
def gather_S16385x32_S65536x64x1_S65536x64x32_2_0_n_n_0_2_132 : GatherDims S16385x32 S65536x64x1 S65536x64x32 where
  offsetDims := [2]
  collapsedSliceDims := [0]
  operandBatchingDims := []
  startIndicesBatchingDims := []
  startIndexMap := [0]
  indexVectorDim := 2
  sliceSizes := ![1, 32]
  wf := gather_S16385x32_S65536x64x1_S65536x64x32_2_0_n_n_0_2_132_wf
def dot_S64x3_S3x32_S64x32_1_0_0_1_n_n : DotDims S64x3 S3x32 S64x32 where
  lhsContracting := [1]
  rhsContracting := [0]
  lhsNonContracting := [0]
  rhsNonContracting := [1]
  lhsBatch := []
  rhsBatch := []
  wf := dot_S64x3_S3x32_S64x32_1_0_0_1_n_n_wf

class Facts : Prop extends Facts₀ where

variable [Facts]
-- ==== Proof.LibRun.lean ====
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Λ₀ : Idealize.SL.Sem.Labels} {P : Type} [Fintype P]

local notation "𝕄" => MT nD τ sig Unit Val ℕ (UR sig nD τ) ℕ

/-- A stretch whose operations write one listed reference each leaves every other reference alone. -/
theorem host_keep (ops : List (HloOp τ sig Val)) (W : List (Ref sig .tc))
    (hW : ops.map HloOp.writes = W.map fun r => ({Proc.devRef (τ := τ) .tc r} : Finset (DevRef τ sig)))
    (V : Valuation τ sig Val) (b : Ref sig .tc) (hb : b ∉ W) :
    StableHlo.after ops V (Proc.devRef .tc b) = V (Proc.devRef .tc b) :=
  StableHlo.after_of_forall_not_mem ops V fun op hop hm => by
    obtain ⟨y, hy, e⟩ := List.mem_map.mp (hW ▸ List.mem_map_of_mem (f := HloOp.writes) hop)
    rw [← e, Finset.mem_singleton] at hm
    exact hb (Proc.devRef_injective _ hm ▸ hy)

/-- A region leaves a reference that is none of its output arrays as it found it. -/
theorem reg_keep {gr W : ℕ} {win : Fin W → Pipeline.WinSpec sig gr} {c : Dev nD} {V : Valuation τ sig Val}
    {A : (w : Fin W) → Buf Val ((win w).arr.view.loc (c.tc : Thread nD τ))} {outs : List (Ref sig .tc)}
    (hin : ∀ w, Pipeline.arrRef win w ∉ outs →
      Pipeline.withArrays win c V A (Proc.devRef .tc (Pipeline.arrRef win w)) = V (Proc.devRef .tc (Pipeline.arrRef win w)))
    (b : Ref sig .tc) (hb : b ∉ outs) : Pipeline.withArrays win c V A (Proc.devRef .tc b) = V (Proc.devRef .tc b) := by
  by_cases hw : ∃ w, Pipeline.arrRef win w = b
  · obtain ⟨w, rfl⟩ := hw; exact hin w hb
  · exact Pipeline.withArrays_of_ne win c V A b fun w e => hw ⟨w, e⟩

/-- Single assignment: what no item between two boundaries writes reads the same at both. -/
theorem keep_of_step {β R : Type} (f : ℕ → β) (wr : ℕ → List R) (b : R) (n : ℕ)
    (hstep : ∀ j, j < n → b ∉ wr j → f (j + 1) = f j)
    (i j : ℕ) (hij : i ≤ j) (hjn : j ≤ n) (h : ∀ k, i ≤ k → k < j → b ∉ wr k) : f j = f i := by
  induction j, hij using Nat.le_induction with
  | base => rfl
  | succ j hj ih =>
    exact (hstep j hjn (h j hj j.lt_succ_self)).trans (ih (Nat.le_of_succ_le hjn) fun k h1 h2 => h k h1 (Nat.lt_succ_of_lt h2))

/-- A list of operations none of which allocates, read off the list. -/
theorem fresh_of_map (ops : List (HloOp τ sig Val)) (h : ops.map HloOp.fresh = ops.map fun _ => ∅) :
    ∀ op ∈ ops, op.fresh = ∅ := fun op hop => by
  obtain ⟨_, _, e⟩ := List.mem_map.mp (h ▸ List.mem_map_of_mem (f := HloOp.fresh) hop); exact e.symm

/-- Carried by every segment beside the buffers: some state of the generator register and a core with no debt. -/
abbrev R (c : Dev nD) : sProp 𝕄 := iprop((∃ r, prngReg c r) ∗ ∃ W, owes (c : Thread nD τ) (0 : CellTallies nD τ sig Unit) W)

/-- The thread state at a boundary: every unscoped buffer whole at `W`, beside `R`. -/
abbrev St (W : Valuation τ sig Val) (c : Dev nD) : sProp 𝕄 := iprop(StableHlo.held (c : Thread nD τ) (Pipeline.ucRefs τ sig) W ∗ R c)

/-- A kernel region entered at `Wa`: its arrays are split off the unscoped buffers and rejoin them at the pipeline's final contents, the remaining buffers untouched. -/
def regOf (cfgs : P → Pipeline.Cfg sig Λ₀)
    (pdats : (p : P) → (c : Dev nD) → Pipeline.Dat τ Val Unit ℕ (UR sig nD τ) ℕ (Pipeline.pin (fun p => (cfgs p).toPCfg) (fun p => (cfgs p).toPCfg_adm) p) c)
    (defs₀ : Defs nD τ sig Val Λ₀) (𝒱₀ : Variants) (L : GSem nD τ sig → Finset Unit) (lv : GSem nD τ sig → Unit → ℕ)
    (p : P) (kit : Pipeline.LaunchFacts (nD := nD) (τ := τ) cfgs p) (Wa : Dev nD → Valuation τ sig Val)
    (hbody : ∀ c, Pipeline.BodyObligation (pdats p c) defs₀ 𝒱₀ () Set.univ)
    (howed : ∀ c t, (pdats p c).owed t = 0) (hrec : ∀ c x, x ∈ (pdats p c).recorded 0) (hq : ∀ c w, (pdats p c).q w = fullShare)
    (hA : ∀ c w, (pdats p c).A w = Wa c (Pipeline.arrRef (cfgs p).spec w))
    (hΦ : ∀ c t, (pdats p c).Φ t = Pipeline.ΦA (cfgs p).spec c) :
    Pipeline.RegionSeg (fun p => (cfgs p).toPCfg) (fun p => (cfgs p).toPCfg_adm) pdats () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := St (Wa c) c
  post c := St (Pipeline.withArrays (cfgs p).spec c (Wa c) fun w => (pdats p c).arrAt w (cfgs p).N) c
  X c := iprop(∃ r, prngReg c r)
  Y c := iprop(∃ r, prngReg c r)
  Z c := Pipeline.unscopedRest (Ix := Unit) (Name := ℕ) (U := UR sig nD τ) (Lvl := ℕ) (cfgs p).spec c fun b => Wa c b
  hentry c := by
    unfold Pipeline.Dat.owesAt; rw [Pipeline.ownSems0_none, howed c 0]
    have hsplit := Pipeline.arrays_of_unscopedBufs (p := p) _ _ pdats kit.win kit.arr_whole c
      ((pdats p c).share_full (hq c)) (fun b => Wa c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun _ _ => Or.inl (hrec c _)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    unfold Pipeline.Dat.owesAt; rw [howed c (Fin.last _)]
    have hjoin := Pipeline.unscopedBufs_of_arrays (p := p) _ _ (Ix := Unit) (Name := ℕ) (U := UR sig nD τ) (Lvl := ℕ)
      kit.win kit.arr_whole c pdats ((pdats p c).share_full (hq c))
      (fun b => Wa c b) (fun b => Pipeline.withArrays (cfgs p).spec c (Wa c) (fun w => (pdats p c).arrAt w (cfgs p).N) b) _
      (fun w => (Pipeline.withArrays_arr _ kit.win.arr_inj c _ _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.owesWithin
    icases HO with ⟨%W, -, HO⟩; iexists W; iexact HO

/-- A chain of segments may end in any state its last one entails. -/
theorem chains_last {pcs : P → Pipeline.PCfg sig Λ₀ Val} {a : (p : P) → (pcs p).Adm}
    {pdats : (p : P) → (c : Dev nD) → Pipeline.Dat τ Val Unit ℕ (UR sig nD τ) ℕ (Pipeline.pin pcs a p) c}
    {defs₀ : Defs nD τ sig Val Λ₀} {𝒱₀ : Variants} {L : GSem nD τ sig → Finset Unit} {lv : GSem nD τ sig → Unit → ℕ}
    {T' T'' : Dev nD → sProp 𝕄} (h : ∀ c, T' c ⊢ T'' c) :
    ∀ {T : Dev nD → sProp 𝕄} {l : List (Pipeline.Seg pcs a pdats () defs₀ 𝒱₀ L lv)}, Pipeline.Seg.Chains T l T' → Pipeline.Seg.Chains T l T''
  | _, [], hl => fun c => (hl c).trans (h c)
  | _, _ :: _, ⟨h₁, hl⟩ => ⟨h₁, chains_last h hl⟩

/-- A stretch of host operations as a segment from the boundary contents `W`. -/
abbrev hseg {pcs : P → Pipeline.PCfg sig Λ₀ Val} {defs₀ : Defs nD τ sig Val Λ₀} {𝒱₀ : Variants} {L : GSem nD τ sig → Finset Unit} {lv : GSem nD τ sig → Unit → ℕ}
    (ops : List (HloOp τ sig Val)) (hsub : ops.Forall fun op => op.bufs ⊆ StableHlo.tcRefs τ sig)
    (hfresh : ops.map HloOp.fresh = ops.map fun _ => ∅) (W : Dev nD → Valuation τ sig Val) :
    Pipeline.HostSeg (Name := ℕ) (U := UR sig nD τ) pcs defs₀ 𝒱₀ L lv :=
  Pipeline.HostSeg.ofOps _ _ _ _ _ (Pipeline.ucRefs τ sig) ops
    (fun op h => Pipeline.sub_ucRefs op ((List.forall_iff_forall_mem.mp hsub) op h))
    (fresh_of_map ops hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A program that runs as segments chaining from the launch memory's thread state to the one at `Wₙ` terminates with every unscoped buffer at `Wₙ`. -/
theorem run_held [DecidableEq P] [∀ e, Nonempty (Val e)] (cfgs : P → Pipeline.Cfg sig Λ₀)
    (hinj : Function.Injective (Pipeline.cellOf (nD := nD) (τ := τ) cfgs))
    (pdats : (p : P) → (c : Dev nD) → Pipeline.Dat τ Val Unit ℕ (UR sig nD τ) ℕ (Pipeline.pin (fun p => (cfgs p).toPCfg) (fun p => (cfgs p).toPCfg_adm) p) c)
    (defs₀ : Defs nD τ sig Val Λ₀) (𝒱₀ : Variants) (L : GSem nD τ sig → Finset Unit) (lv : GSem nD τ sig → Unit → ℕ)
    (hL : ∀ g : GSem nD τ sig, g.1.2 ≠ .tc → L g = ∅)
    (m : (ℓ : Loc nD τ sig) → Buf Val ℓ) (g : Dev nD → PrngReg)
    (main : Dev nD → Prog (TpuEff nD τ sig Val (Pipeline.Sig Λ₀ P fun p => ((cfgs p).toPCfg (Val := Val)).Adm) .tc) PUnit)
    (segs : List (Pipeline.Seg (fun p => (cfgs p).toPCfg) (fun p => (cfgs p).toPCfg_adm) pdats () defs₀ 𝒱₀ L lv))
    (hmain : ∀ c, main c = Pipeline.Seg.run segs) (hnd : (Pipeline.Seg.pipes segs).Nodup)
    (Wₙ : Dev nD → Valuation τ sig Val)
    (hch : Pipeline.Seg.Chains (fun c => St (fun b => m (c, b)) c) segs fun c => St (Wₙ c) c) :
    θ_run (Pipeline.defs (fun p => (cfgs p).toPCfg) defs₀) (onTc (τ := τ) main) ⟨m, fun _ => 0, g⟩
      (fun r => ∀ c : Dev nD, ∀ b ∈ Pipeline.ucRefs τ sig, r.2.mem ((c : Thread nD τ).1, b) = Wₙ c b) :=
  Pipeline.θ_run_regions_kit _ _ pdats () hinj emb₁ defs₀ 𝒱₀ L lv m g main segs
    (fun c Q => by rw [hmain c]) hnd (O₀ := 0) (hL := hL) (G := fun _ => iprop(emp))
    (u₀ := initOf (Pipeline.cells cfgs hinj) (Pipeline.launchToks cfgs hinj))
    (hu₀ := by
      iintro Hu; imodintro
      isplitl [Hu]
      · iapply (show (ownU (initOf (Pipeline.cells cfgs hinj) (Pipeline.launchToks cfgs hinj)) : sProp 𝕄)
            ⊢ BI.own (emb₁ (initOf (Pipeline.cells cfgs hinj) (Pipeline.launchToks cfgs hinj))) from .rfl)
        iexact Hu
      iapply (show (BI.emp : sProp 𝕄) ⊢ bigSep Finset.univ (fun _ : Dev nD => (BI.emp : sProp 𝕄)) from by rw [BI.bigSep_emp_const])
      iempintro)
    (T₀ := fun c => St (fun b => m (c, b)) c)
    (Tₙ := fun c => iprop(StableHlo.held (c : Thread nD τ) (Pipeline.ucRefs τ sig) (Wₙ c) ∗ ∃ r, prngReg c r))
    (hch := chains_last (fun c => by
      iintro ⟨Hh, Hp, HO⟩
      isplitl [Hh Hp]
      · isplitl [Hh] <;> iassumption
      iexact HO) hch)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wₙ c b)
    (hfin := fun c s' => by
      iintro ⟨⟨Hh, -⟩, HSI⟩
      unfold StableHlo.held
      imodintro
      iapply (pointsTo_read_all (Pipeline.ucRefs τ sig) (fun b => (((c : Thread nD τ)).1, b)) (Wₙ c) s')
      isplitl [Hh] <;> iassumption)
    (hQ := fun s h => h)

end Cert.Hand

namespace Cert.Hand

open Idealize.ShloMosaic Idealize.ShloMosaic.ValueIdx
open scoped BigOperators

/-- An [M,K] by [K,N] product into the zero splat, at (p, q): the one contracted axis is re-indexed by its coordinate. -/
theorem matmul_ix2 {M K N : ℕ} {φ₁ φ₂ : FTy} (d : DotDims ⟨2, ![M, K]⟩ ⟨2, ![K, N]⟩ ⟨2, ![M, N]⟩) (hd : d = .plain M K N)
    (prec : Option ContractPrecision) (A : FVec Ideal ⟨2, ![M, K]⟩ φ₁) (B : FVec Ideal ⟨2, ![K, N]⟩ φ₂) (p : Fin M) (q : Fin N) :
    FloatOps.matmul d prec A B (constant _ .f32 0x00000000#32) (ix2 p q) = ∑ k : Fin K, A (ix2 p k) * B (ix2 k q) := by
  subst hd
  rw [Ideal.matmul_constant_zero_apply, ← Equiv.sum_comp (contrEquiv1 _ K rfl rfl).symm]
  refine Finset.sum_congr rfl fun k _ => ?_
  have c2 := contrEquiv1_symm_val (DotDims.plain M K N) K rfl rfl k
  congr 2 <;> exact Shape.idx_ext₂ (by first | rfl | exact c2) (by first | rfl | exact c2)

/-- The host's dot_general of an [M,K] by a [K,N] array at (p, q): the same sum, whatever the schedule. -/
theorem dotGeneral_ix2 {M K N : ℕ} {φ₁ φ₂ : FTy} (d : DotDims ⟨2, ![M, K]⟩ ⟨2, ![K, N]⟩ ⟨2, ![M, N]⟩) (hd : d = .plain M K N)
    (prec : Option ContractPrecision) (sched : HostSchedule) (A : FVec Ideal ⟨2, ![M, K]⟩ φ₁) (B : FVec Ideal ⟨2, ![K, N]⟩ φ₂)
    (p : Fin M) (q : Fin N) : FloatOps.dotGeneral d prec sched A B (ix2 p q) = ∑ k : Fin K, A (ix2 p k) * B (ix2 k q) := by
  subst hd
  rw [Ideal.dotGeneral_apply, ← Equiv.sum_comp (contrEquiv1 _ K rfl rfl).symm]
  refine Finset.sum_congr rfl fun k _ => ?_
  have c2 := contrEquiv1_symm_val (DotDims.plain M K N) K rfl rfl k
  congr 2 <;> exact Shape.idx_ext₂ (by first | rfl | exact c2) (by first | rfl | exact c2)

/-- The host's column sums of an [m,n] array from the zero word, laid out as a [1,n] row, at column j. -/
theorem hostColSum_apply {m n : ℕ} (x : FVec Ideal ⟨2, ![m, n]⟩ .f32) (h : (⟨2, ![m, n]⟩ : Shape).ReducesTo [0] ⟨1, ![n]⟩)
    (hred : (⟨2, ![m, n]⟩ : Shape).Reduces [0] ⟨1, ![n]⟩) (hu : 0 < (⟨0, ![]⟩ : Shape).numel)
    (hb : (⟨1, ![n]⟩ : Shape).BroadcastsInDim ⟨2, ![1, n]⟩ ![1]) (u : Fin 1) (j : Fin n) :
    broadcastInDim ⟨2, ![1, n]⟩ ![1] hb (Host.reduceAdd x (constant ⟨0, ![]⟩ .f32 0x00000000#32) h hu) (ix2 u j)
      = ∑ r : Fin m, x (ix2 r j) := by
  refine (broadcastInDim_apply _ hb _ (ix2 u j) (ix1 j) fun a => by
    match a with
    | ⟨0, _⟩ => show j.val = if n = 1 then 0 else j.val; have := j.isLt; split <;> omega).trans ?_
  show Ideal.hostReduceAdd h x (Ideal.ofBits .f32 0x00000000#32) (ix1 j) = _
  rw [Ideal.hostReduceAdd_single h hred, Ideal.ofBits_zero_f32, zero_add]
  exact Finset.sum_congr rfl fun r _ => congrArg x (Shape.idx_ext₂ rfl rfl)

/-- A [1,n] row plus the column sums of an [m,n] block, at column j. -/
theorem addf_colsum_apply {m n : ℕ} (acc : FVec Ideal ⟨2, ![1, n]⟩ .f32) (P : FVec Ideal ⟨2, ![m, n]⟩ .f32) (z : BitVec 32)
    (h : (⟨2, ![m, n]⟩ : Shape).Reduces [0] ⟨1, ![n]⟩) (hφ : FKind.Formats .f32) (hz : z = FKind.add.neutral .f32 hφ)
    (hc : (⟨1, ![n]⟩ : Shape).ShapeCasts ⟨2, ![1, n]⟩) (u : Fin 1) (j : Fin n) :
    addf acc (shapeCast ⟨2, ![1, n]⟩ (multiReduction .add [0] ⟨1, ![n]⟩ P z h hφ hz) hc) (ix2 u j)
      = acc (ix2 u j) + ∑ r : Fin m, P (ix2 r j) := by
  rw [addf_apply, shapeCast_a_1a_apply, Ideal.multiReduction_add_single]
  exact congrArg _ (Finset.sum_congr rfl fun r _ => congrArg P (Shape.idx_ext₂ rfl rfl))

/-- What starts at block 0's sum and adds block n + 1's at each later point is, after the last point, the sum over all a · b rows. -/
theorem run_blocks {β : Type*} [AddCommMonoid β] {N a b : ℕ} (hN : N = a) (f B : (n : ℕ) → n < N → β) (o : Fin (a * b) → β)
    (hB : ∀ n h, B n h = ∑ r : Fin b, o (finProdFinEquiv (⟨n, hN ▸ h⟩, r)))
    (h0 : ∀ h, f 0 h = B 0 h) (hs : ∀ n h, f (n + 1) h = f n (Nat.lt_of_succ_lt h) + B (n + 1) h)
    (n : ℕ) (hn : n < N) (h : n + 1 = N) : f n hn = ∑ R, o R := by
  subst hN h
  have key : ∀ m (hm : m < n + 1), f m hm = ∑ s : Fin (m + 1), B s.val (by omega) := fun m => by
    induction m with
    | zero => intro hm; rw [h0, Fin.sum_univ_one]; rfl
    | succ m ih => intro hm; rw [hs, ih]; exact (Fin.sum_univ_castSucc fun s : Fin (m + 2) => B s.val (by omega)).symm
  rw [key n, ← Equiv.sum_comp finProdFinEquiv o, Fintype.sum_prod_type]
  exact Finset.sum_congr rfl fun s _ => hB s.val s.isLt

/-- An element of a block whose block index is zero on every axis sits at its own coordinates in the array. -/
theorem emb_eq_of_index_zero {sig : RefSig} {G : Pipeline.Grid} (w : Pipeline.Window sig G) (t : Fin G.N) (h : ∀ a, w.index t a = 0)
    (y : (w.xblock (G.coords t)).Idx) (y' : w.shape.Idx) (hy : ∀ a, (y a : ℕ) = y' a) : (w.rect t).emb y = y' :=
  funext fun a => Fin.ext ((w.rect_emb_val_of_index_zero t a (h a) y).trans (hy a))

theorem zeros2 : (![0, 0] : Fin 2 → ℕ) = fun _ => 0 := funext fun a => by fin_cases a <;> rfl
theorem zeros3 : (![0, 0, 0] : Fin 3 → ℕ) = fun _ => 0 := funext fun a => by fin_cases a <;> rfl

theorem lift_mid {n0 n1 n2 : ℕ} (h : (⟨3, ![n0, n1, n2]⟩ : Shape).Reduces [1] ⟨2, ![n0, n2]⟩)
    (p : Fin n0) (q : Fin n2) (k : Fin n1) : h.lift (ix2 p q) k = ix3 p k q := by
  funext c
  apply Fin.ext
  match c with
  | ⟨0, _⟩ => rfl
  | ⟨1, _⟩ => rfl
  | ⟨2, _⟩ => rfl

theorem bcast_rows_apply {α : Type} {m a b : ℕ} (x : (⟨2, ![a, b]⟩ : Shape).Idx → α)
    (h1 : (⟨2, ![a, b]⟩ : Shape).ShapeCasts ⟨3, ![1, a, b]⟩) (h2 : (⟨3, ![1, a, b]⟩ : Shape).Broadcasts ⟨3, ![m, a, b]⟩)
    (p : Fin m) (k : Fin a) (q : Fin b) :
    broadcastTo ⟨3, ![m, a, b]⟩ (shapeCast ⟨3, ![1, a, b]⟩ x h1) h2 (ix3 p k q) = x (ix2 k q) :=
  (broadcastTo_apply _ h2 (ix3 p k q) (ix3 (0 : Fin 1) k q) fun c => by
    match c with
    | ⟨0, _⟩ => rfl
    | ⟨1, _⟩ => show k.val = if a = 1 then 0 else k.val; have := k.isLt; split <;> omega
    | ⟨2, _⟩ => show q.val = if b = 1 then 0 else q.val; have := q.isLt; split <;> omega).trans
    (shapeCast_ab_1ab_apply x h1 0 k q)

end Cert.Hand

namespace Cert.Hand

open Idealize.ShloMosaic

variable {sig : RefSig} {κ : Kind} {sp : Space} {S : Shape} {e : EltTy} {Val : EltTy → Type}

/-- One store through the whole block leaves its payload, whatever the buffer held. -/
theorem read_writes_whole [∀ e, Nonempty (Val e)] (v : View sig κ sp S e) (f : v.ty.Contents Val) {off : Fin S.rank → Nat}
    (h : off = fun _ => 0) (inb : ∀ a, off a + S.size a ≤ S.size a) (p : S.Idx → Val e) :
    v.read Val (v.writes Val f [⟨Rect.unit off S.size inb, p⟩]) = View.canon [⟨Rect.unit off S.size inb, p⟩] :=
  View.read_writes_eq_canon _ _ _ fun y => ⟨_, List.mem_singleton_self _, View.mem_set_unit_zero h inb y⟩

end Cert.Hand

end

noncomputable section

namespace Cert.Hand

open Idealize.ShloMosaic Idealize.ShloMosaic.TcCoe Idealize.SL.Sem Idealize.ShloMosaic.StableHlo

variable {nD : Nat} {τ : Topo} {sig : RefSig} {Val : EltTy → Type} {Λ : Labels}

/-- Folding the operations of an appended list is folding its two halves in turn. -/
theorem after_app : ∀ (l₁ l₂ : List (HloOp τ sig Val)) (V : Valuation τ sig Val), after (l₁ ++ l₂) V = after l₂ (after l₁ V)
  | [], _, _ => rfl
  | _ :: l₁, l₂, _ => after_app l₁ l₂ _

/-- The operation writes only at places `lo ≤ · < hi` of the signature. -/
def WritesIn (lo hi : ℕ) (op : HloOp τ sig Val) : Prop := ∀ b ∈ op.writes, lo ≤ b.idx.val ∧ b.idx.val < hi

/-- A line that writes only at places `lo ≤ · < hi` leaves a reference at any other place alone. -/
theorem keep_of_range {ops : List (HloOp τ sig Val)} {lo hi : ℕ} (h : ops.Forall (WritesIn lo hi)) {r : Ref sig .tc}
    (hr : r.idx.val < lo ∨ hi ≤ r.idx.val) (V : Valuation τ sig Val) :
    after ops V (Proc.devRef .tc r) = V (Proc.devRef .tc r) :=
  after_of_forall_not_mem ops V fun op hop hb =>
    hr.elim (fun h' => absurd (List.forall_iff_forall_mem.mp h op hop _ hb).1 (Nat.not_le.mpr h'))
      fun h' => absurd (List.forall_iff_forall_mem.mp h op hop _ hb).2 (Nat.not_lt.mpr h')

/-- A straight line that allocates nothing and leaves the references `args` alone ends with them at their launch contents and `res` at the fold of its operations. -/
theorem run_line (hR : (Finset.univ.filter fun b : Ref sig .tc => b.isScoped) = ∅)
    (hC : (Finset.univ.filter fun sm : SemLoc sig => sm.isScoped .tc) = ∅)
    (defs : Defs nD τ sig Val Λ) (main : Dev nD → Prog (TpuEff nD τ sig Val Λ .tc) PUnit)
    (ops : List (HloOp τ sig Val)) (hmain : ∀ d, main d = seq ops)
    (hS : ops.Forall fun op => op.bufs ⊆ tcRefs τ sig) (hfresh : ∀ op ∈ ops, op.fresh = ∅)
    (args : List (Ref sig .tc))
    (hargs : ∀ a ∈ args, ∀ V : Valuation τ sig Val, after ops V (Proc.devRef .tc a) = V (Proc.devRef .tc a))
    (res : Ref sig .tc) (m : (ℓ : Loc nD τ sig) → Buf Val ℓ) (ρ : Dev nD → PrngReg) :
    θ_run defs (onTc (τ := τ) main) ⟨m, fun _ => 0, ρ⟩ fun r => ∀ c : Dev nD,
      r.2.mem ((c.tc : Thread nD τ).loc res) = after ops (fun b => m (c, b)) (Proc.devRef .tc res)
      ∧ args.Forall fun a => r.2.mem ((c.tc : Thread nD τ).loc a) = m ((c.tc : Thread nD τ).loc a) :=
  (θ_run defs _ _).mono (fun _ h c => ⟨h c res, List.forall_iff_forall_mem.mpr fun a ha => (h c a).trans (hargs a ha _)⟩)
    (run_seq hR hC defs main (fun _ => ops) hmain (fun _ => hS) m ρ fun _ => hfresh)

end Cert.Hand

end
-- ==== Proof.KReg0.lean ====
import proofs.«137221_j56719338111373_2_alg».proof.Proof.Gen.Kernel.Launch
import proofs.«137221_j56719338111373_2_alg».proof.Proof.Gen.Kernel.Skeleton
import proofs.«137221_j56719338111373_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«137221_j56719338111373_2_alg».proof.Proof.LibRun

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S16384x64 := Rect.unit (s := S16384x64) ![0, 0] S16384x64.size inb_S16384x64_S16384x64_0_0

abbrev r0_w : Rect S32x64 := Rect.unit (s := S32x64) ![0, 0] S32x64.size inb_S32x64_S32x64_0_0

abbrev r0_v : Rect S1x32 := Rect.unit (s := S1x32) ![0, 0] S1x32.size inb_S1x32_S1x32_0_0

abbrev r0_o : Rect S16384x32 := Rect.unit (s := S16384x32) ![0, 0] S16384x32.size inb_S16384x32_S16384x32_0_0

def out0_4 (x0 : Vec F S16384x64 .f32) (x1 : Vec F S32x64 .f32) (x2 x3 : Vec F S1x32 .f32) : Vec F S16384x32 .bf16 :=
  View.canon [⟨r0_o, k0_pay1 (View.ld x0 r0_x) (View.ld x1 r0_w) (View.ld x2 r0_v) (View.ld x3 r0_v)⟩]

theorem hz0 : (![0, 0] : Fin 2 → Nat) = fun _ => 0 := funext fun a => by fin_cases a <;> rfl

set_option maxHeartbeats 1000000 in
theorem sound_kernel0 (c : Dev nD) (E : Set ℕ) (i : grid0.Coords)
    (arg1 : Memref sig .tc .vmem S16384x64 .f32) (harg1 : arg1.IsWhole) (arg2 : Memref sig .tc .vmem S32x64 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S16384x32 .bf16) (harg5 : arg5.IsWhole)
    (x0 : Vec F S16384x64 .f32) (x1 : Vec F S32x64 .f32) (x2 x3 : Vec F S1x32 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__bn_matmul_kernel i arg1 harg1 arg2 harg2 arg3 harg3 arg4 harg4 arg5 harg5) K := by
  simp only [cc0__bn_matmul_kernel_eq_skeleton]; unfold cc0__bn_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact Cert.Hand.read_writes_whole _ _ hz0 _ _

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0_4 (iblk0 V c 0 t) (iblk0 V c 1 t) (iblk0 V c 2 t) (iblk0 V c 3 t) := by dsimp only [dat0]

theorem after0_in (c : Dev nD) (t : Fin cfg0.N) :
    (dat0 V c).after 0 t = iblk0 V c 0 t ∧
    (dat0 V c).after 1 t = iblk0 V c 1 t ∧
    (dat0 V c).after 2 t = iblk0 V c 2 t ∧
    (dat0 V c).after 3 t = iblk0 V c 3 t := by
  refine ⟨?_, ?_, ?_, ?_⟩ <;> dsimp only [dat0]

theorem before0_in (c : Dev nD) (t : Fin cfg0.N) :
    (∀ d, (dat0 V c).before 0 t d = iblk0 V c 0 t) ∧
    (∀ d, (dat0 V c).before 1 t d = iblk0 V c 1 t) ∧
    (∀ d, (dat0 V c).before 2 t d = iblk0 V c 2 t) ∧
    (∀ d, (dat0 V c).before 3 t d = iblk0 V c 3 t) := by
  refine ⟨?_, ?_, ?_, ?_⟩ <;>
    exact fun d => (Dat.before_in_eq_fetched _ _ rfl (fun _ => rfl) (fun _ _ _ => rfl)
      (fun t => by simp only [after0_in]; unfold Dat.blockOf iblk0; rw [A_eq0]; try rfl) t d).trans
      (by unfold Dat.fetched Dat.blockOf iblk0; rw [A_eq0]; try rfl)

theorem body_obligation0 (c : Dev nD) : BodyObligation (dat0 (F := F) V c) (defs₀ (F := F)) Variants.none () Set.univ := fun t => by
  rw [bigSep_W0, bigSep_W0]
  show _ ⊢ wp _ _ _ (bodyAt0 t) _
  simp only [before0_in, after0_in, after0_4]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩⟩
  iapply sound_kernel0
  iframe H0 H1 H2 H3
  isplitl [H4]; · iexists _; iexact H4
  iintro ⟨H0, H1, H2, H3, H4⟩
  iframe

end Region0

end Cert.Kernel.Hand

end
-- ==== Proof.KReg1.lean ====
import proofs.«137221_j56719338111373_2_alg».proof.Proof.Gen.Kernel.Launch
import proofs.«137221_j56719338111373_2_alg».proof.Proof.Gen.Kernel.Skeleton
import proofs.«137221_j56719338111373_2_alg».proof.Proof.Gen.Kernel.Points
import Idealize.ShloMosaic.Lib.Pipeline.FrameBody
import Idealize.ShloMosaic.Lib.Ring
import Idealize.ShloMosaic.Lib.Tactic
import proofs.«137221_j56719338111373_2_alg».proof.Proof.LibRun

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4096x8x32 := Rect.unit (s := S4096x8x32) ![0, 0, 0] S4096x8x32.size inb_S4096x8x32_S4096x8x32_0_0_0

abbrev r1_1 : Rect S8x32 := Rect.unit (s := S8x32) ![0, 0] S8x32.size inb_S8x32_S8x32_0_0

abbrev r1_2 : Rect S4096x32 := Rect.unit (s := S4096x32) ![0, 0] S4096x32.size inb_S4096x32_S4096x32_0_0

def out1_2 (x0 : Vec F S4096x8x32 .bf16) (x1 : Vec F S8x32 .f32) : Vec F S4096x32 .f32 :=
  View.canon [⟨r1_2, k1_pay1 (View.ld x0 r1_0) (View.ld x1 r1_1)⟩]

set_option maxHeartbeats 1000000 in
theorem sound_kernel1 (c : Dev nD) (E : Set ℕ) (i : grid1.Coords)
    (arg1 : Memref sig .tc .vmem S4096x8x32 .bf16) (harg1 : arg1.IsWhole)
    (arg2 : Memref sig .tc .vmem S8x32 .f32) (harg2 : arg2.IsWhole)
    (arg3 : Memref sig .tc .vmem S4096x32 .f32) (harg3 : arg3.IsWhole)
    (x0 : Vec F S4096x8x32 .bf16) (x1 : Vec F S8x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__combine_maxpool_kernel i arg1 harg1 arg2 harg2 arg3 harg3) K := by
  simp only [cc1__combine_maxpool_kernel_eq_skeleton]; unfold cc1__combine_maxpool_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact Cert.Hand.read_writes_whole _ _ Cert.Hand.zeros2 _ _

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1_2 (iblk1 V c 0 t) (iblk1 V c 1 t) := by dsimp only [dat1]

theorem after1_in (c : Dev nD) (t : Fin cfg1.N) :
    (dat1 V c).after 0 t = iblk1 V c 0 t ∧
    (dat1 V c).after 1 t = iblk1 V c 1 t := by
  refine ⟨?_, ?_⟩ <;> dsimp only [dat1]

theorem before1_in (c : Dev nD) (t : Fin cfg1.N) :
    (∀ d, (dat1 V c).before 0 t d = iblk1 V c 0 t) ∧
    (∀ d, (dat1 V c).before 1 t d = iblk1 V c 1 t) := by
  refine ⟨?_, ?_⟩ <;>
    exact fun d => (Dat.before_in_eq_fetched _ _ rfl (fun _ => rfl) (fun _ _ _ => rfl)
      (fun t => by simp only [after1_in]; unfold Dat.blockOf iblk1; rw [A_eq1]; try rfl) t d).trans
      (by unfold Dat.fetched Dat.blockOf iblk1; rw [A_eq1]; try rfl)

theorem body_obligation1 (c : Dev nD) : BodyObligation (dat1 (F := F) V c) (defs₀ (F := F)) Variants.none () Set.univ := fun t => by
  rw [bigSep_W1, bigSep_W1]
  show _ ⊢ wp _ _ _ (bodyAt1 t) _
  simp only [before1_in, after1_in, after1_2]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  iapply sound_kernel1
  iframe H0 H1
  isplitl [H2]; · iexists _; iexact H2
  iintro ⟨H0, H1, H2⟩
  iframe

end Cert.Kernel.Hand

end
-- ==== Proof.KReg2.lean ====
import proofs.«137221_j56719338111373_2_alg».proof.Proof.Gen.Kernel.Launch
import proofs.«137221_j56719338111373_2_alg».proof.Proof.Gen.Kernel.Skeleton
import proofs.«137221_j56719338111373_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

theorem hz2 : (![0, 0] : Fin 2 → Nat) = fun _ => 0 := funext fun a => by fin_cases a <;> rfl

set_option maxHeartbeats 1000000 in
theorem kernelRun2_pt (c : Dev nD) (E : Set ℕ) (i : grid2.Coords) (arg1 : Memref sig .tc .vmem S8192x32 .f32) (harg1 : arg1.IsWhole) (arg2 : Memref sig .tc .vmem S64x32 .f32) (harg2 : arg2.IsWhole) (arg3 : Memref sig .tc .vmem S1x64 .f32) (harg3 : arg3.IsWhole) (arg4 : Memref sig .tc .vmem S1x64 .f32) (harg4 : arg4.IsWhole)
    (x0 : Vec F S8192x32 .f32) (x1 : Vec F S64x32 .f32) (xo2 xo3 a2 a3 : Vec F S1x64 .f32)
    (h : cond2_0 i ∧ a2 = k2_pay1 ∧ a3 = k2_pay2 ∨ ¬cond2_0 i ∧ a2 = xo2 ∧ a3 = xo3) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ (iprop(owns (c : Thread nD τ) arg1 fullShare x0 ∗ owns (c : Thread nD τ) arg2 fullShare x1
            ∗ owns (c : Thread nD τ) arg3 fullShare (k2_pay4 x0 x1 a2)
            ∗ owns (c : Thread nD τ) arg4 fullShare (k2_pay5 x0 x1 a3)) -∗ K ⟨⟩))
      ⊢ wp frame (wpE (defs₀ (F := F)) Variants.none c none) E (cc2__stats_kernel i arg1 harg1 arg2 harg2 arg3 harg3 arg4 harg4) K := by
  simp only [cc2__stats_kernel_eq_skeleton]; unfold cc2__stats_kernel_skel
  unfold owns
  rcases h with ⟨hc0, rfl, rfl⟩ | ⟨hc0, rfl, rfl⟩
  all_goals
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    all_goals
      iexists _; isplitr
      swap; · iassumption
      ipureintro
      refine (View.read_writes_eq_canon _ _ _ (View.cover_of_tiledL _ S1x64.size ?_)).trans ?_
      · sl_kernel_rfl
      sl_unfold_words
      rw [View.canon_cons_unit_zero (S := S1x64) hz2]
      simp only [View.readCov_unit_zero (S := S1x64) _ hz2, View.readAt_eq_ld, harg1.read_unread, harg2.read_unread,
        harg3.read_unread, harg4.read_unread, View.ld_unit_zero (S := S8192x32) hz2, View.ld_unit_zero (S := S64x32) hz2,
        View.ld_unit_zero (S := S1x64) hz2]

def outsAt2 (c : Dev nD) : (n : ℕ) → n < cfg2.N → Vec F S1x64 .f32 × Vec F S1x64 .f32
  | 0, hn => (k2_pay4 (iblk2 V c 0 ⟨0, hn⟩) (iblk2 V c 1 ⟨0, hn⟩) k2_pay1, k2_pay5 (iblk2 V c 0 ⟨0, hn⟩) (iblk2 V c 1 ⟨0, hn⟩) k2_pay2)
  | n + 1, hn =>
    (k2_pay4 (iblk2 V c 0 ⟨n + 1, hn⟩) (iblk2 V c 1 ⟨n + 1, hn⟩) (outsAt2 c n (Nat.lt_of_succ_lt hn)).1,
     k2_pay5 (iblk2 V c 0 ⟨n + 1, hn⟩) (iblk2 V c 1 ⟨n + 1, hn⟩) (outsAt2 c n (Nat.lt_of_succ_lt hn)).2)

theorem outsAt2_A (c : Dev nD) (t : Fin cfg2.N) (h0 : t.val = 0) :
    outsAt2 V c t.val t.isLt = (k2_pay4 (iblk2 V c 0 t) (iblk2 V c 1 t) k2_pay1, k2_pay5 (iblk2 V c 0 t) (iblk2 V c 1 t) k2_pay2) := by
  obtain ⟨n, hn⟩ := t
  cases n with
  | zero => exact rfl
  | succ n => exact absurd h0 (Nat.succ_ne_zero n)

theorem outsAt2_B (c : Dev nD) (t : Fin cfg2.N) (h0 : t.val ≠ 0) :
    outsAt2 V c t.val t.isLt
      = (k2_pay4 (iblk2 V c 0 t) (iblk2 V c 1 t) (outsAt2 V c (t.val - 1) (Nat.lt_of_le_of_lt (Nat.sub_le _ _) t.isLt)).1,
         k2_pay5 (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_in (c : Dev nD) (t : Fin cfg2.N) :
    (dat2 V c).after 0 t = iblk2 V c 0 t ∧
    (dat2 V c).after 1 t = iblk2 V c 1 t := by
  refine ⟨?_, ?_⟩ <;> dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2 := by dsimp only [dat2]

theorem before2_in (c : Dev nD) (t : Fin cfg2.N) :
    (∀ d, (dat2 V c).before 0 t d = iblk2 V c 0 t) ∧
    (∀ d, (dat2 V c).before 1 t d = iblk2 V c 1 t) := by
  refine ⟨?_, ?_⟩ <;>
    exact fun d => (Dat.before_in_eq_fetched _ _ rfl (fun _ => rfl) (fun _ _ _ => rfl)
      (fun t => by simp only [after2_in]; unfold Dat.blockOf iblk2; rw [A_eq2]; try rfl) t d).trans
      (by unfold Dat.fetched Dat.blockOf iblk2; rw [A_eq2]; try rfl)

theorem before2_acc (c : Dev nD) (t : Fin cfg2.N) (h0 : t.val ≠ 0) :
    (∀ d, (dat2 V c).before 2 t d = (outsAt2 V c (t.val - 1) (Nat.lt_of_le_of_lt (Nat.sub_le _ _) t.isLt)).1) ∧
    (∀ d, (dat2 V c).before 3 t d = (outsAt2 V c (t.val - 1) (Nat.lt_of_le_of_lt (Nat.sub_le _ _) t.isLt)).2) := by
  have hN : t.val < 8 := lt_of_lt_of_eq t.isLt (show cfg2.N = 8 from N_2)
  constructor <;> intro d
  · rw [Dat.before_out_kept _ 2 rfl t h0 (Bool.eq_false_iff.mpr fun h => by have := (flush2_2 _).mp h; dsimp only at this; omega)
      (fun _ => rfl) (fun _ _ => rfl)]
    dsimp only [dat2]
  · rw [Dat.before_out_kept _ 3 rfl t h0 (Bool.eq_false_iff.mpr fun h => by have := (flush2_3 _).mp h; dsimp only at this; omega)
      (fun _ => rfl) (fun _ _ => rfl)]
    dsimp only [dat2]

set_option maxHeartbeats 800000 in
theorem body_obligation2 (c : Dev nD) : BodyObligation (dat2 (F := F) V c) (defs₀ (F := F)) Variants.none () Set.univ := fun t => by
  rw [bigSep_W2, bigSep_W2]
  show _ ⊢ wp _ _ _ (bodyAt2 t) _
  simp only [before2_in, after2_in, after2_2, after2_3]
  rw [show (dat2 V c).Φ t.succ = (dat2 V c).Φ t.castSucc from rfl,
    show (dat2 V c).owesAt () t.succ = (dat2 V c).owesAt () t.castSucc from rfl]
  have hN : t.val < 8 := lt_of_lt_of_eq t.isLt (show cfg2.N = 8 from N_2)
  by_cases h0 : t.val = 0
  · rw [outsAt2_A V c t h0]
    iintro ⟨HΦ, Ho, ⟨%d0, H0⟩, ⟨%d1, H1⟩, ⟨%d2, H2⟩, ⟨%d3, H3⟩⟩
    iapply (kernelRun2_pt c Set.univ (grid2.coords t) _ _ _ _ _ _ _ _ _ _ _ _ _ _
      (.inl ⟨(hcond2_0 t).mpr (by rw [h0]), rfl, rfl⟩) _)
    iframe H0 H1 H2 H3
    iintro ⟨H0, H1, H2, H3⟩
    iframe
  · rw [outsAt2_B V c t h0]
    simp only [before2_acc V c t h0]
    iintro ⟨HΦ, Ho, ⟨%d0, H0⟩, ⟨%d1, H1⟩, ⟨%d2, H2⟩, ⟨%d3, H3⟩⟩
    iapply (kernelRun2_pt c Set.univ (grid2.coords t) _ _ _ _ _ _ _ _ _ _ _ _ _ _
      (.inr ⟨fun h => h0 (by have := (hcond2_0 t).mp h; omega), rfl, rfl⟩) _)
    iframe H0 H1 H2 H3
    iintro ⟨H0, H1, H2, H3⟩
    iframe

end Region2

end Cert.Kernel.Hand

end
-- ==== Proof.KReg3.lean ====
import proofs.«137221_j56719338111373_2_alg».proof.Proof.Gen.Kernel.Launch
import proofs.«137221_j56719338111373_2_alg».proof.Proof.Gen.Kernel.Skeleton
import proofs.«137221_j56719338111373_2_alg».proof.Proof.Gen.Kernel.Points
import Idealize.ShloMosaic.Lib.Pipeline.FrameBody
import Idealize.ShloMosaic.Lib.Ring
import Idealize.ShloMosaic.Lib.Tactic
import proofs.«137221_j56719338111373_2_alg».proof.Proof.LibRun

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S8192x32 := Rect.unit (s := S8192x32) ![0, 0] S8192x32.size inb_S8192x32_S8192x32_0_0

abbrev r3_1 : Rect S64x32 := Rect.unit (s := S64x32) ![0, 0] S64x32.size inb_S64x32_S64x32_0_0

abbrev r3_2 : Rect S1x64 := Rect.unit (s := S1x64) ![0, 0] S1x64.size inb_S1x64_S1x64_0_0

abbrev r3_3 : Rect S8192x64 := Rect.unit (s := S8192x64) ![0, 0] S8192x64.size inb_S8192x64_S8192x64_0_0

def out3_6 (x0 : Vec F S8192x32 .f32) (x1 : Vec F S64x32 .f32) (x2 x3 x4 x5 : Vec F S1x64 .f32) : Vec F S8192x64 .f32 :=
  View.canon [⟨r3_3, k3_pay1 (View.ld x0 r3_0) (View.ld x1 r3_1) (View.ld x2 r3_2) (View.ld x3 r3_2) (View.ld x4 r3_2) (View.ld x5 r3_2)⟩]

set_option maxHeartbeats 1000000 in
theorem sound_kernel3 (c : Dev nD) (E : Set ℕ) (i : grid3.Coords)
    (arg0 : Memref sig .tc .vmem S8192x32 .f32) (harg0 : arg0.IsWhole) (arg1 : Memref sig .tc .vmem S64x32 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S8192x64 .f32) (harg6 : arg6.IsWhole)
    (x0 : Vec F S8192x32 .f32) (x1 : Vec F S64x32 .f32) (x2 x3 x4 x5 : Vec F S1x64 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (out3_6 x0 x1 x2 x3 x4 x5)) -∗ K ⟨⟩))
      ⊢ wp frame (wpE (defs₀ (F := F)) Variants.none c none) E (cc3__norm_kernel i arg0 harg0 arg1 harg1 arg2 harg2 arg3 harg3 arg4 harg4 arg5 harg5 arg6 harg6) K := by
  simp only [cc3__norm_kernel_eq_skeleton]; unfold cc3__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact Cert.Hand.read_writes_whole _ _ Cert.Hand.zeros2 _ _

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]

theorem after3_in (c : Dev nD) (t : Fin cfg3.N) :
    (dat3 V c).after 0 t = iblk3 V c 0 t ∧
    (dat3 V c).after 1 t = iblk3 V c 1 t ∧
    (dat3 V c).after 2 t = iblk3 V c 2 t ∧
    (dat3 V c).after 3 t = iblk3 V c 3 t ∧
    (dat3 V c).after 4 t = iblk3 V c 4 t ∧
    (dat3 V c).after 5 t = iblk3 V c 5 t := by
  refine ⟨?_, ?_, ?_, ?_, ?_, ?_⟩ <;> dsimp only [dat3]

theorem before3_in (c : Dev nD) (t : Fin cfg3.N) :
    (∀ d, (dat3 V c).before 0 t d = iblk3 V c 0 t) ∧
    (∀ d, (dat3 V c).before 1 t d = iblk3 V c 1 t) ∧
    (∀ d, (dat3 V c).before 2 t d = iblk3 V c 2 t) ∧
    (∀ d, (dat3 V c).before 3 t d = iblk3 V c 3 t) ∧
    (∀ d, (dat3 V c).before 4 t d = iblk3 V c 4 t) ∧
    (∀ d, (dat3 V c).before 5 t d = iblk3 V c 5 t) := by
  refine ⟨?_, ?_, ?_, ?_, ?_, ?_⟩ <;>
    exact fun d => (Dat.before_in_eq_fetched _ _ rfl (fun _ => rfl) (fun _ _ _ => rfl)
      (fun t => by simp only [after3_in]; unfold Dat.blockOf iblk3; rw [A_eq3]; try rfl) t d).trans
      (by unfold Dat.fetched Dat.blockOf iblk3; rw [A_eq3]; try rfl)

theorem body_obligation3 (c : Dev nD) : BodyObligation (dat3 (F := F) V c) (defs₀ (F := F)) Variants.none () Set.univ := fun t => by
  rw [bigSep_W3, bigSep_W3]
  show _ ⊢ wp _ _ _ (bodyAt3 t) _
  simp only [before3_in, after3_in, after3_6]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel3
  iframe H0 H1 H2 H3 H4 H5
  isplitl [H6]; · iexists _; iexact H6
  iintro ⟨H0, H1, H2, H3, H4, H5, H6⟩
  iframe

end Region3

end Cert.Kernel.Hand

end
-- ==== Proof.KReg4.lean ====
import proofs.«137221_j56719338111373_2_alg».proof.Proof.Gen.Kernel.Launch
import proofs.«137221_j56719338111373_2_alg».proof.Proof.Gen.Kernel.Skeleton
import proofs.«137221_j56719338111373_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«137221_j56719338111373_2_alg».proof.Proof.LibRun

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S16384x64 := Rect.unit (s := S16384x64) ![0, 0] S16384x64.size inb_S16384x64_S16384x64_0_0

abbrev r4_w : Rect S32x64 := Rect.unit (s := S32x64) ![0, 0] S32x64.size inb_S32x64_S32x64_0_0

abbrev r4_v : Rect S1x32 := Rect.unit (s := S1x32) ![0, 0] S1x32.size inb_S1x32_S1x32_0_0

abbrev r4_o : Rect S16384x32 := Rect.unit (s := S16384x32) ![0, 0] S16384x32.size inb_S16384x32_S16384x32_0_0

def out4_4 (x0 : Vec F S16384x64 .f32) (x1 : Vec F S32x64 .f32) (x2 x3 : Vec F S1x32 .f32) : Vec F S16384x32 .bf16 :=
  View.canon [⟨r4_o, k4_pay1 (View.ld x0 r4_x) (View.ld x1 r4_w) (View.ld x2 r4_v) (View.ld x3 r4_v)⟩]

theorem hz4 : (![0, 0] : Fin 2 → Nat) = fun _ => 0 := funext fun a => by fin_cases a <;> rfl

set_option maxHeartbeats 1000000 in
theorem sound_kernel4 (c : Dev nD) (E : Set ℕ) (i : grid4.Coords)
    (arg1 : Memref sig .tc .vmem S16384x64 .f32) (harg1 : arg1.IsWhole) (arg2 : Memref sig .tc .vmem S32x64 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S16384x32 .bf16) (harg5 : arg5.IsWhole)
    (x0 : Vec F S16384x64 .f32) (x1 : Vec F S32x64 .f32) (x2 x3 : Vec F S1x32 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__bn_matmul_kernel i arg1 harg1 arg2 harg2 arg3 harg3 arg4 harg4 arg5 harg5) K := by
  simp only [cc4__bn_matmul_kernel_eq_skeleton]; unfold cc4__bn_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact Cert.Hand.read_writes_whole _ _ hz4 _ _

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) :
    (dat4 V c).after 4 t = out4_4 (iblk4 V c 0 t) (iblk4 V c 1 t) (iblk4 V c 2 t) (iblk4 V c 3 t) := by dsimp only [dat4]

theorem after4_in (c : Dev nD) (t : Fin cfg4.N) :
    (dat4 V c).after 0 t = iblk4 V c 0 t ∧
    (dat4 V c).after 1 t = iblk4 V c 1 t ∧
    (dat4 V c).after 2 t = iblk4 V c 2 t ∧
    (dat4 V c).after 3 t = iblk4 V c 3 t := by
  refine ⟨?_, ?_, ?_, ?_⟩ <;> dsimp only [dat4]

theorem before4_in (c : Dev nD) (t : Fin cfg4.N) :
    (∀ d, (dat4 V c).before 0 t d = iblk4 V c 0 t) ∧
    (∀ d, (dat4 V c).before 1 t d = iblk4 V c 1 t) ∧
    (∀ d, (dat4 V c).before 2 t d = iblk4 V c 2 t) ∧
    (∀ d, (dat4 V c).before 3 t d = iblk4 V c 3 t) := by
  refine ⟨?_, ?_, ?_, ?_⟩ <;>
    exact fun d => (Dat.before_in_eq_fetched _ _ rfl (fun _ => rfl) (fun _ _ _ => rfl)
      (fun t => by simp only [after4_in]; unfold Dat.blockOf iblk4; rw [A_eq4]; try rfl) t d).trans
      (by unfold Dat.fetched Dat.blockOf iblk4; rw [A_eq4]; try rfl)

theorem body_obligation4 (c : Dev nD) : BodyObligation (dat4 (F := F) V c) (defs₀ (F := F)) Variants.none () Set.univ := fun t => by
  rw [bigSep_W4, bigSep_W4]
  show _ ⊢ wp _ _ _ (bodyAt4 t) _
  simp only [before4_in, after4_in, after4_4]
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩, ⟨%d3, H3⟩, ⟨%d4, H4⟩⟩
  iapply sound_kernel4
  iframe H0 H1 H2 H3
  isplitl [H4]; · iexists _; iexact H4
  iintro ⟨H0, H1, H2, H3, H4⟩
  iframe

end Region4

end Cert.Kernel.Hand

end
-- ==== Proof.KReg5.lean ====
import proofs.«137221_j56719338111373_2_alg».proof.Proof.Gen.Kernel.Launch
import proofs.«137221_j56719338111373_2_alg».proof.Proof.Gen.Kernel.Skeleton
import proofs.«137221_j56719338111373_2_alg».proof.Proof.Gen.Kernel.Points
import Idealize.ShloMosaic.Lib.Pipeline.FrameBody
import Idealize.ShloMosaic.Lib.Ring
import Idealize.ShloMosaic.Lib.Tactic
import proofs.«137221_j56719338111373_2_alg».proof.Proof.LibRun

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S512x64x32 := Rect.unit (s := S512x64x32) ![0, 0, 0] S512x64x32.size inb_S512x64x32_S512x64x32_0_0_0

abbrev r5_1 : Rect S64x32 := Rect.unit (s := S64x32) ![0, 0] S64x32.size inb_S64x32_S64x32_0_0

abbrev r5_2 : Rect S512x32 := Rect.unit (s := S512x32) ![0, 0] S512x32.size inb_S512x32_S512x32_0_0

def out5_2 (x0 : Vec F S512x64x32 .bf16) (x1 : Vec F S64x32 .f32) : Vec F S512x32 .f32 :=
  View.canon [⟨r5_2, k5_pay1 (View.ld x0 r5_0) (View.ld x1 r5_1)⟩]

set_option maxHeartbeats 1000000 in
theorem sound_kernel5 (c : Dev nD) (E : Set ℕ) (i : grid5.Coords)
    (arg1 : Memref sig .tc .vmem S512x64x32 .bf16) (harg1 : arg1.IsWhole)
    (arg2 : Memref sig .tc .vmem S64x32 .f32) (harg2 : arg2.IsWhole)
    (arg3 : Memref sig .tc .vmem S512x32 .f32) (harg3 : arg3.IsWhole)
    (x0 : Vec F S512x64x32 .bf16) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__combine_maxpool_kernel i arg1 harg1 arg2 harg2 arg3 harg3) K := by
  simp only [cc5__combine_maxpool_kernel_eq_skeleton]; unfold cc5__combine_maxpool_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact Cert.Hand.read_writes_whole _ _ Cert.Hand.zeros2 _ _

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_2 (c : Dev nD) (t : Fin cfg5.N) : (dat5 V c).after 2 t = out5_2 (iblk5 V c 0 t) (iblk5 V c 1 t) := by dsimp only [dat5]

theorem after5_in (c : Dev nD) (t : Fin cfg5.N) :
    (dat5 V c).after 0 t = iblk5 V c 0 t ∧
    (dat5 V c).after 1 t = iblk5 V c 1 t := by
  refine ⟨?_, ?_⟩ <;> dsimp only [dat5]

theorem before5_in (c : Dev nD) (t : Fin cfg5.N) :
    (∀ d, (dat5 V c).before 0 t d = iblk5 V c 0 t) ∧
    (∀ d, (dat5 V c).before 1 t d = iblk5 V c 1 t) := by
  refine ⟨?_, ?_⟩ <;>
    exact fun d => (Dat.before_in_eq_fetched _ _ rfl (fun _ => rfl) (fun _ _ _ => rfl)
      (fun t => by simp only [after5_in]; unfold Dat.blockOf iblk5; rw [A_eq5]; try rfl) t d).trans
      (by unfold Dat.fetched Dat.blockOf iblk5; rw [A_eq5]; try rfl)

theorem body_obligation5 (c : Dev nD) : BodyObligation (dat5 (F := F) V c) (defs₀ (F := F)) Variants.none () Set.univ := fun t => by
  rw [bigSep_W5, bigSep_W5]
  show _ ⊢ wp _ _ _ (bodyAt5 t) _
  simp only [before5_in, after5_in, after5_2]
  rw [show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩⟩
  iapply sound_kernel5
  iframe H0 H1
  isplitl [H2]; · iexists _; iexact H2
  iintro ⟨H0, H1, H2⟩
  iframe

end Cert.Kernel.Hand

end
-- ==== Proof.KReg6.lean ====
import proofs.«137221_j56719338111373_2_alg».proof.Proof.Gen.Kernel.Launch
import proofs.«137221_j56719338111373_2_alg».proof.Proof.Gen.Kernel.Skeleton
import proofs.«137221_j56719338111373_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 8 = 0 :=
  (by decide +kernel : ∀ t : Fin grid6.N, cond6_0 (grid6.coords t) ↔ t.val % 8 = 0)

theorem hz6 : (![0, 0] : Fin 2 → Nat) = fun _ => 0 := funext fun a => by fin_cases a <;> rfl

set_option maxHeartbeats 1000000 in
theorem kernelRun6_pt (c : Dev nD) (E : Set ℕ) (i : grid6.Coords) (arg1 : Memref sig .tc .vmem S8192x32 .f32) (harg1 : arg1.IsWhole) (arg2 : Memref sig .tc .vmem S64x32 .f32) (harg2 : arg2.IsWhole) (arg3 : Memref sig .tc .vmem S1x64 .f32) (harg3 : arg3.IsWhole) (arg4 : Memref sig .tc .vmem S1x64 .f32) (harg4 : arg4.IsWhole)
    (x0 : Vec F S8192x32 .f32) (x1 : Vec F S64x32 .f32) (xo2 xo3 a2 a3 : Vec F S1x64 .f32)
    (h : cond6_0 i ∧ a2 = k6_pay1 ∧ a3 = k6_pay2 ∨ ¬cond6_0 i ∧ a2 = xo2 ∧ a3 = xo3) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ (iprop(owns (c : Thread nD τ) arg1 fullShare x0 ∗ owns (c : Thread nD τ) arg2 fullShare x1
            ∗ owns (c : Thread nD τ) arg3 fullShare (k6_pay4 x0 x1 a2)
            ∗ owns (c : Thread nD τ) arg4 fullShare (k6_pay5 x0 x1 a3)) -∗ K ⟨⟩))
      ⊢ wp frame (wpE (defs₀ (F := F)) Variants.none c none) E (cc6__stats_kernel i arg1 harg1 arg2 harg2 arg3 harg3 arg4 harg4) K := by
  simp only [cc6__stats_kernel_eq_skeleton]; unfold cc6__stats_kernel_skel
  unfold owns
  rcases h with ⟨hc0, rfl, rfl⟩ | ⟨hc0, rfl, rfl⟩
  all_goals
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    all_goals
      iexists _; isplitr
      swap; · iassumption
      ipureintro
      refine (View.read_writes_eq_canon _ _ _ (View.cover_of_tiledL _ S1x64.size ?_)).trans ?_
      · sl_kernel_rfl
      sl_unfold_words
      rw [View.canon_cons_unit_zero (S := S1x64) hz6]
      simp only [View.readCov_unit_zero (S := S1x64) _ hz6, View.readAt_eq_ld, harg1.read_unread, harg2.read_unread,
        harg3.read_unread, harg4.read_unread, View.ld_unit_zero (S := S8192x32) hz6, View.ld_unit_zero (S := S64x32) hz6,
        View.ld_unit_zero (S := S1x64) hz6]

def outsAt6 (c : Dev nD) : (n : ℕ) → n < cfg6.N → Vec F S1x64 .f32 × Vec F S1x64 .f32
  | 0, hn => (k6_pay4 (iblk6 V c 0 ⟨0, hn⟩) (iblk6 V c 1 ⟨0, hn⟩) k6_pay1, k6_pay5 (iblk6 V c 0 ⟨0, hn⟩) (iblk6 V c 1 ⟨0, hn⟩) k6_pay2)
  | n + 1, hn =>
    (k6_pay4 (iblk6 V c 0 ⟨n + 1, hn⟩) (iblk6 V c 1 ⟨n + 1, hn⟩) (outsAt6 c n (Nat.lt_of_succ_lt hn)).1,
     k6_pay5 (iblk6 V c 0 ⟨n + 1, hn⟩) (iblk6 V c 1 ⟨n + 1, hn⟩) (outsAt6 c n (Nat.lt_of_succ_lt hn)).2)

theorem outsAt6_A (c : Dev nD) (t : Fin cfg6.N) (h0 : t.val = 0) :
    outsAt6 V c t.val t.isLt = (k6_pay4 (iblk6 V c 0 t) (iblk6 V c 1 t) k6_pay1, k6_pay5 (iblk6 V c 0 t) (iblk6 V c 1 t) k6_pay2) := by
  obtain ⟨n, hn⟩ := t
  cases n with
  | zero => exact rfl
  | succ n => exact absurd h0 (Nat.succ_ne_zero n)

theorem outsAt6_B (c : Dev nD) (t : Fin cfg6.N) (h0 : t.val ≠ 0) :
    outsAt6 V c t.val t.isLt
      = (k6_pay4 (iblk6 V c 0 t) (iblk6 V c 1 t) (outsAt6 V c (t.val - 1) (Nat.lt_of_le_of_lt (Nat.sub_le _ _) t.isLt)).1,
         k6_pay5 (iblk6 V c 0 t) (iblk6 V c 1 t) (outsAt6 V c (t.val - 1) (Nat.lt_of_le_of_lt (Nat.sub_le _ _) t.isLt)).2) := by
  obtain ⟨n, hn⟩ := t
  cases n with
  | zero => exact absurd rfl h0
  | succ n => exact rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
    | ⟨3, _⟩ => (outsAt6 V c t.val t.isLt).2
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_in (c : Dev nD) (t : Fin cfg6.N) :
    (dat6 V c).after 0 t = iblk6 V c 0 t ∧
    (dat6 V c).after 1 t = iblk6 V c 1 t := by
  refine ⟨?_, ?_⟩ <;> dsimp only [dat6]
theorem after6_2 (c : Dev nD) (t : Fin cfg6.N) : (dat6 V c).after 2 t = (outsAt6 V c t.val t.isLt).1 := by dsimp only [dat6]
theorem after6_3 (c : Dev nD) (t : Fin cfg6.N) : (dat6 V c).after 3 t = (outsAt6 V c t.val t.isLt).2 := by dsimp only [dat6]

theorem before6_in (c : Dev nD) (t : Fin cfg6.N) :
    (∀ d, (dat6 V c).before 0 t d = iblk6 V c 0 t) ∧
    (∀ d, (dat6 V c).before 1 t d = iblk6 V c 1 t) := by
  refine ⟨?_, ?_⟩ <;>
    exact fun d => (Dat.before_in_eq_fetched _ _ rfl (fun _ => rfl) (fun _ _ _ => rfl)
      (fun t => by simp only [after6_in]; unfold Dat.blockOf iblk6; rw [A_eq6]; try rfl) t d).trans
      (by unfold Dat.fetched Dat.blockOf iblk6; rw [A_eq6]; try rfl)

theorem before6_acc (c : Dev nD) (t : Fin cfg6.N) (h0 : t.val ≠ 0) :
    (∀ d, (dat6 V c).before 2 t d = (outsAt6 V c (t.val - 1) (Nat.lt_of_le_of_lt (Nat.sub_le _ _) t.isLt)).1) ∧
    (∀ d, (dat6 V c).before 3 t d = (outsAt6 V c (t.val - 1) (Nat.lt_of_le_of_lt (Nat.sub_le _ _) t.isLt)).2) := by
  have hN : t.val < 8 := lt_of_lt_of_eq t.isLt (show cfg6.N = 8 from N_6)
  constructor <;> intro d
  · rw [Dat.before_out_kept _ 2 rfl t h0 (Bool.eq_false_iff.mpr fun h => by have := (flush6_2 _).mp h; dsimp only at this; omega)
      (fun _ => rfl) (fun _ _ => rfl)]
    dsimp only [dat6]
  · rw [Dat.before_out_kept _ 3 rfl t h0 (Bool.eq_false_iff.mpr fun h => by have := (flush6_3 _).mp h; dsimp only at this; omega)
      (fun _ => rfl) (fun _ _ => rfl)]
    dsimp only [dat6]

set_option maxHeartbeats 800000 in
theorem body_obligation6 (c : Dev nD) : BodyObligation (dat6 (F := F) V c) (defs₀ (F := F)) Variants.none () Set.univ := fun t => by
  rw [bigSep_W6, bigSep_W6]
  show _ ⊢ wp _ _ _ (bodyAt6 t) _
  simp only [before6_in, after6_in, after6_2, after6_3]
  rw [show (dat6 V c).Φ t.succ = (dat6 V c).Φ t.castSucc from rfl,
    show (dat6 V c).owesAt () t.succ = (dat6 V c).owesAt () t.castSucc from rfl]
  have hN : t.val < 8 := lt_of_lt_of_eq t.isLt (show cfg6.N = 8 from N_6)
  by_cases h0 : t.val = 0
  · rw [outsAt6_A V c t h0]
    iintro ⟨HΦ, Ho, ⟨%d0, H0⟩, ⟨%d1, H1⟩, ⟨%d2, H2⟩, ⟨%d3, H3⟩⟩
    iapply (kernelRun6_pt c Set.univ (grid6.coords t) _ _ _ _ _ _ _ _ _ _ _ _ _ _
      (.inl ⟨(hcond6_0 t).mpr (by rw [h0]), rfl, rfl⟩) _)
    iframe H0 H1 H2 H3
    iintro ⟨H0, H1, H2, H3⟩
    iframe
  · rw [outsAt6_B V c t h0]
    simp only [before6_acc V c t h0]
    iintro ⟨HΦ, Ho, ⟨%d0, H0⟩, ⟨%d1, H1⟩, ⟨%d2, H2⟩, ⟨%d3, H3⟩⟩
    iapply (kernelRun6_pt c Set.univ (grid6.coords t) _ _ _ _ _ _ _ _ _ _ _ _ _ _
      (.inr ⟨fun h => h0 (by have := (hcond6_0 t).mp h; omega), rfl, rfl⟩) _)
    iframe H0 H1 H2 H3
    iintro ⟨H0, H1, H2, H3⟩
    iframe

end Region6

end Cert.Kernel.Hand

end
-- ==== Proof.KReg7.lean ====
import proofs.«137221_j56719338111373_2_alg».proof.Proof.Gen.Kernel.Launch
import proofs.«137221_j56719338111373_2_alg».proof.Proof.Gen.Kernel.Skeleton
import proofs.«137221_j56719338111373_2_alg».proof.Proof.Gen.Kernel.Points
import Idealize.ShloMosaic.Lib.Pipeline.FrameBody
import Idealize.ShloMosaic.Lib.Ring
import Idealize.ShloMosaic.Lib.Tactic
import proofs.«137221_j56719338111373_2_alg».proof.Proof.LibRun

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S8192x32 := Rect.unit (s := S8192x32) ![0, 0] S8192x32.size inb_S8192x32_S8192x32_0_0

abbrev r7_1 : Rect S64x32 := Rect.unit (s := S64x32) ![0, 0] S64x32.size inb_S64x32_S64x32_0_0

abbrev r7_2 : Rect S1x64 := Rect.unit (s := S1x64) ![0, 0] S1x64.size inb_S1x64_S1x64_0_0

abbrev r7_3 : Rect S8192x64 := Rect.unit (s := S8192x64) ![0, 0] S8192x64.size inb_S8192x64_S8192x64_0_0

def out7_6 (x0 : Vec F S8192x32 .f32) (x1 : Vec F S64x32 .f32) (x2 x3 x4 x5 : Vec F S1x64 .f32) : Vec F S8192x64 .f32 :=
  View.canon [⟨r7_3, k7_pay1 (View.ld x0 r7_0) (View.ld x1 r7_1) (View.ld x2 r7_2) (View.ld x3 r7_2) (View.ld x4 r7_2) (View.ld x5 r7_2)⟩]

set_option maxHeartbeats 1000000 in
theorem sound_kernel7 (c : Dev nD) (E : Set ℕ) (i : grid7.Coords)
    (arg0 : Memref sig .tc .vmem S8192x32 .f32) (harg0 : arg0.IsWhole) (arg1 : Memref sig .tc .vmem S64x32 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S8192x64 .f32) (harg6 : arg6.IsWhole)
    (x0 : Vec F S8192x32 .f32) (x1 : Vec F S64x32 .f32) (x2 x3 x4 x5 : Vec F S1x64 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (out7_6 x0 x1 x2 x3 x4 x5)) -∗ K ⟨⟩))
      ⊢ wp frame (wpE (defs₀ (F := F)) Variants.none c none) E (cc7__norm_kernel i arg0 harg0 arg1 harg1 arg2 harg2 arg3 harg3 arg4 harg4 arg5 harg5 arg6 harg6) K := by
  simp only [cc7__norm_kernel_eq_skeleton]; unfold cc7__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact Cert.Hand.read_writes_whole _ _ Cert.Hand.zeros2 _ _

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_6 (c : Dev nD) (t : Fin cfg7.N) : (dat7 V c).after 6 t =
    out7_6 (iblk7 V c 0 t) (iblk7 V c 1 t) (iblk7 V c 2 t) (iblk7 V c 3 t) (iblk7 V c 4 t) (iblk7 V c 5 t) := by dsimp only [dat7]

theorem after7_in (c : Dev nD) (t : Fin cfg7.N) :
    (dat7 V c).after 0 t = iblk7 V c 0 t ∧
    (dat7 V c).after 1 t = iblk7 V c 1 t ∧
    (dat7 V c).after 2 t = iblk7 V c 2 t ∧
    (dat7 V c).after 3 t = iblk7 V c 3 t ∧
    (dat7 V c).after 4 t = iblk7 V c 4 t ∧
    (dat7 V c).after 5 t = iblk7 V c 5 t := by
  refine ⟨?_, ?_, ?_, ?_, ?_, ?_⟩ <;> dsimp only [dat7]

theorem before7_in (c : Dev nD) (t : Fin cfg7.N) :
    (∀ d, (dat7 V c).before 0 t d = iblk7 V c 0 t) ∧
    (∀ d, (dat7 V c).before 1 t d = iblk7 V c 1 t) ∧
    (∀ d, (dat7 V c).before 2 t d = iblk7 V c 2 t) ∧
    (∀ d, (dat7 V c).before 3 t d = iblk7 V c 3 t) ∧
    (∀ d, (dat7 V c).before 4 t d = iblk7 V c 4 t) ∧
    (∀ d, (dat7 V c).before 5 t d = iblk7 V c 5 t) := by
  refine ⟨?_, ?_, ?_, ?_, ?_, ?_⟩ <;>
    exact fun d => (Dat.before_in_eq_fetched _ _ rfl (fun _ => rfl) (fun _ _ _ => rfl)
      (fun t => by simp only [after7_in]; unfold Dat.blockOf iblk7; rw [A_eq7]; try rfl) t d).trans
      (by unfold Dat.fetched Dat.blockOf iblk7; rw [A_eq7]; try rfl)

theorem body_obligation7 (c : Dev nD) : BodyObligation (dat7 (F := F) V c) (defs₀ (F := F)) Variants.none () Set.univ := fun t => by
  rw [bigSep_W7, bigSep_W7]
  show _ ⊢ wp _ _ _ (bodyAt7 t) _
  simp only [before7_in, after7_in, after7_6]
  rw [show (dat7 V c).Φ t.succ = (dat7 V c).Φ t.castSucc from rfl,
    show (dat7 V c).owesAt () t.succ = (dat7 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel7
  iframe H0 H1 H2 H3 H4 H5
  isplitl [H6]; · iexists _; iexact H6
  iintro ⟨H0, H1, H2, H3, H4, H5, H6⟩
  iframe

end Region7

end Cert.Kernel.Hand

end
-- ==== Proof.KRun.lean ====
import proofs.«137221_j56719338111373_2_alg».proof.Proof.Gen.Kernel.Launch
import proofs.«137221_j56719338111373_2_alg».proof.Proof.LibRun
import proofs.«137221_j56719338111373_2_alg».proof.Proof.KReg0
import proofs.«137221_j56719338111373_2_alg».proof.Proof.KReg1
import proofs.«137221_j56719338111373_2_alg».proof.Proof.KReg2
import proofs.«137221_j56719338111373_2_alg».proof.Proof.KReg3
import proofs.«137221_j56719338111373_2_alg».proof.Proof.KReg4
import proofs.«137221_j56719338111373_2_alg».proof.Proof.KReg5
import proofs.«137221_j56719338111373_2_alg».proof.Proof.KReg6
import proofs.«137221_j56719338111373_2_alg».proof.Proof.KReg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What item `j` of @main writes: a host stretch's results, a region's output arrays. -/
def wr : ℕ → List (Ref sig .tc)
  | 0 => [main_c, main_c_0, main_v0, main_v1, main_c_1, main_v2, main_v3, main_v4, main_v5, main_v6, main_v7, main_c_2, main_v8, main_v9, main_v10, main_v11, main_v12, main_c_3, main_v13, main_v14, main_v15, main_v16, main_v17, main_v18, main_v19, main_v20, main_v21, main_v22, main_v23]
  | 1 => [main_v24]
  | 2 => [main_cst, main_v25, main_v26, main_v27, main_v28, main_v29, main_v30, main_v31, main_v32, main_v33, main_v34, main_v35, main_c_4, main_c_5]
  | 3 => [main_call0_v0, main_call0_v1, main_call0_v2, main_call0_v3, main_call0_v4, main_v36]
  | 4 => [main_v37, main_v38, main_c_6, main_c_7]
  | 5 => [main_call1_v0, main_call1_v1, main_call1_v2, main_call1_v3, main_call1_v4, main_v39]
  | 6 => [main_v40, main_v41, main_c_8, main_c_9]
  | 7 => [main_call2_v0, main_call2_v1, main_call2_v2, main_call2_v3, main_call2_v4, main_v42]
  | 8 => [main_c_10, main_v43, main_v44, main_c_11, main_v45, main_v46, main_v47, main_c_12, main_v48, main_v49, main_c_13, main_v50, main_v51, main_v52, main_c_14, main_v53, main_v54, main_c_15, main_v55, main_v56, main_v57, main_c_16, main_v58, main_v59, main_c_17, main_v60, main_v61, main_v62, main_v63, main_v64, main_v65, main_v66, main_v67, main_v68, main_c_18, main_v69, main_v70, main_c_19, main_v71, main_v72, main_c_20, main_v73, main_v74, main_v75, main_v76, main_v77, main_v78, main_v79, main_v80, main_v81, main_v82, main_v83, main_v84, main_v85, main_v86, main_v87, main_cst_21, main_v88, main_v89, main_cst_22, main_v90, main_v91, main_v92, main_v93, main_v94, main_cst_23, main_v95, main_v96, main_cst_24, main_v97, main_v98, main_v99, main_v100, main_cst_25, main_v101, main_v102, main_v103, main_v104, main_v105, main_v106, main_v107, main_v108, main_v109, main_v110, main_v111]
  | 9 => [main_v112]
  | 10 => [main_v113, main_v114, main_v115, main_v116]
  | 11 => [main_v117_0, main_v117_1]
  | 12 => [main_cst_26, main_v118, main_v119, main_cst_27, main_v120, main_v121, main_v122, main_v123, main_cst_28, main_v124, main_v125]
  | 13 => [main_v126]
  | 14 => [main_v127, main_c_29, main_v128, main_v129, main_v130, main_v131, main_v132, main_c_30, main_v133, main_v134, main_v135, main_v136, main_v137, main_v138, main_v139, main_v140, main_v141, main_v142, main_v143]
  | 15 => [main_v144]
  | 16 => [main_cst_31, main_v145, main_v146, main_v147, main_v148, main_v149, main_v150, main_v151, main_v152, main_v153, main_v154, main_v155, main_c_32, main_c_33]
  | 17 => [main_call3_v0, main_call3_v1, main_call3_v2, main_call3_v3, main_call3_v4, main_v156]
  | 18 => [main_v157, main_v158, main_c_34, main_c_35]
  | 19 => [main_call4_v0, main_call4_v1, main_call4_v2, main_call4_v3, main_call4_v4, main_v159]
  | 20 => [main_v160, main_v161, main_c_36, main_c_37]
  | 21 => [main_call5_v0, main_call5_v1, main_call5_v2, main_call5_v3, main_call5_v4, main_v162]
  | 22 => [main_c_38, main_v163, main_v164, main_c_39, main_v165, main_v166, main_v167, main_c_40, main_v168, main_v169, main_c_41, main_v170, main_v171, main_v172, main_c_42, main_v173, main_v174, main_c_43, main_v175, main_v176, main_v177, main_c_44, main_v178, main_v179, main_c_45, main_v180, main_v181, main_v182, main_v183, main_v184, main_v185, main_v186, main_v187, main_v188, main_c_46, main_v189, main_v190, main_c_47, main_v191, main_v192, main_c_48, main_v193, main_v194, main_v195, main_v196, main_v197, main_v198, main_v199, main_v200, main_v201, main_v202, main_v203, main_v204, main_v205, main_v206, main_v207, main_cst_49, main_v208, main_v209, main_cst_50, main_v210, main_v211, main_v212, main_v213, main_v214, main_cst_51, main_v215, main_v216, main_cst_52, main_v217, main_v218, main_v219, main_v220, main_cst_53, main_v221, main_v222, main_v223, main_v224, main_v225, main_v226, main_v227, main_v228, main_v229, main_v230, main_v231]
  | 23 => [main_v232]
  | 24 => [main_v233, main_v234, main_v235, main_v236]
  | 25 => [main_v237_0, main_v237_1]
  | 26 => [main_cst_54, main_v238, main_v239, main_cst_55, main_v240, main_v241, main_v242, main_v243, main_cst_56, main_v244, main_v245]
  | 27 => [main_v246]
  | 28 => [main_v247]
  | _ => []

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

abbrev W4 : Dev nD → Valuation τ sig (Elt F) := fun c => StableHlo.after hostOps1_1 (W3 m ρ c)

abbrev W5 : Dev nD → Valuation τ sig (Elt F) := fun c => StableHlo.after hostOps1_2 (W4 m ρ c)

abbrev W6 : Dev nD → Valuation τ sig (Elt F) := fun c => StableHlo.after hostOps1_3 (W5 m ρ c)

abbrev W7 : Dev nD → Valuation τ sig (Elt F) := fun c => StableHlo.after hostOps1_4 (W6 m ρ c)

abbrev W8 : Dev nD → Valuation τ sig (Elt F) := fun c => StableHlo.after hostOps1_5 (W7 m ρ c)

abbrev W9 : Dev nD → Valuation τ sig (Elt F) := fun c => StableHlo.after hostOps1_6 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w

theorem W10_in (c : Dev nD) (w : Fin cfg1.W) (hin : (cfg1.win w).isOut = false) :
    W10 m ρ c (Proc.devRef .tc (Pipeline.arrRef spec1 w)) = W9 m ρ c (Proc.devRef .tc (Pipeline.arrRef spec1 w)) :=
  (W10_arr m ρ c w).trans (((dat1 (V9 m ρ) c).arrAt_in w hin _).trans (A_eq1 (V9 m ρ) c w))

abbrev V10 : (c : Dev nD) → (b : Ref sig .tc) → Buf (Elt F) ((c : Thread nD τ).loc b) := fun c b => W10 m ρ c b

abbrev W11 : Dev nD → Valuation τ sig (Elt F) := fun c => StableHlo.after hostOps2 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w

theorem W12_in (c : Dev nD) (w : Fin cfg2.W) (hin : (cfg2.win w).isOut = false) :
    W12 m ρ c (Proc.devRef .tc (Pipeline.arrRef spec2 w)) = W11 m ρ c (Proc.devRef .tc (Pipeline.arrRef spec2 w)) :=
  (W12_arr m ρ c w).trans (((dat2 (V11 m ρ) c).arrAt_in w hin _).trans (A_eq2 (V11 m ρ) c w))

abbrev V12 : (c : Dev nD) → (b : Ref sig .tc) → Buf (Elt F) ((c : Thread nD τ).loc b) := fun c b => W12 m ρ c b

abbrev W13 : Dev nD → Valuation τ sig (Elt F) := fun c => StableHlo.after hostOps3 (W12 m ρ c)

abbrev V13 : (c : Dev nD) → (b : Ref sig .tc) → Buf (Elt F) ((c : Thread nD τ).loc b) := fun c b => W13 m ρ c b

def W14 (c : Dev nD) : Valuation τ sig (Elt F) :=
  Pipeline.withArrays spec3 c (W13 m ρ c) fun w => (dat3 (V13 m ρ) c).arrAt w cfg3.N
theorem W14_arr (c : Dev nD) (w : Fin cfg3.W) :
    W14 m ρ c (Proc.devRef .tc (Pipeline.arrRef spec3 w)) = (dat3 (V13 m ρ) c).arrAt w cfg3.N := by
  unfold W14; exact Pipeline.withArrays_arr spec3 launch3.win.arr_inj c _ _ w

theorem W14_in (c : Dev nD) (w : Fin cfg3.W) (hin : (cfg3.win w).isOut = false) :
    W14 m ρ c (Proc.devRef .tc (Pipeline.arrRef spec3 w)) = W13 m ρ c (Proc.devRef .tc (Pipeline.arrRef spec3 w)) :=
  (W14_arr m ρ c w).trans (((dat3 (V13 m ρ) c).arrAt_in w hin _).trans (A_eq3 (V13 m ρ) c w))

abbrev V14 : (c : Dev nD) → (b : Ref sig .tc) → Buf (Elt F) ((c : Thread nD τ).loc b) := fun c b => W14 m ρ c b

abbrev W15 : Dev nD → Valuation τ sig (Elt F) := fun c => StableHlo.after hostOps4 (W14 m ρ c)

abbrev V15 : (c : Dev nD) → (b : Ref sig .tc) → Buf (Elt F) ((c : Thread nD τ).loc b) := fun c b => W15 m ρ c b

def W16 (c : Dev nD) : Valuation τ sig (Elt F) :=
  Pipeline.withArrays spec4 c (W15 m ρ c) fun w => (dat4 (V15 m ρ) c).arrAt w cfg4.N
theorem W16_arr (c : Dev nD) (w : Fin cfg4.W) :
    W16 m ρ c (Proc.devRef .tc (Pipeline.arrRef spec4 w)) = (dat4 (V15 m ρ) c).arrAt w cfg4.N := by
  unfold W16; exact Pipeline.withArrays_arr spec4 launch4.win.arr_inj c _ _ w

theorem W16_in (c : Dev nD) (w : Fin cfg4.W) (hin : (cfg4.win w).isOut = false) :
    W16 m ρ c (Proc.devRef .tc (Pipeline.arrRef spec4 w)) = W15 m ρ c (Proc.devRef .tc (Pipeline.arrRef spec4 w)) :=
  (W16_arr m ρ c w).trans (((dat4 (V15 m ρ) c).arrAt_in w hin _).trans (A_eq4 (V15 m ρ) c w))

abbrev V16 : (c : Dev nD) → (b : Ref sig .tc) → Buf (Elt F) ((c : Thread nD τ).loc b) := fun c b => W16 m ρ c b

abbrev W17 : Dev nD → Valuation τ sig (Elt F) := fun c => StableHlo.after hostOps5 (W16 m ρ c)

abbrev W18 : Dev nD → Valuation τ sig (Elt F) := fun c => StableHlo.after hostOps5_1 (W17 m ρ c)

abbrev W19 : Dev nD → Valuation τ sig (Elt F) := fun c => StableHlo.after hostOps5_2 (W18 m ρ c)

abbrev W20 : Dev nD → Valuation τ sig (Elt F) := fun c => StableHlo.after hostOps5_3 (W19 m ρ c)

abbrev W21 : Dev nD → Valuation τ sig (Elt F) := fun c => StableHlo.after hostOps5_4 (W20 m ρ c)

abbrev W22 : Dev nD → Valuation τ sig (Elt F) := fun c => StableHlo.after hostOps5_5 (W21 m ρ c)

abbrev W23 : Dev nD → Valuation τ sig (Elt F) := fun c => StableHlo.after hostOps5_6 (W22 m ρ c)

abbrev V23 : (c : Dev nD) → (b : Ref sig .tc) → Buf (Elt F) ((c : Thread nD τ).loc b) := fun c b => W23 m ρ c b

def W24 (c : Dev nD) : Valuation τ sig (Elt F) :=
  Pipeline.withArrays spec5 c (W23 m ρ c) fun w => (dat5 (V23 m ρ) c).arrAt w cfg5.N
theorem W24_arr (c : Dev nD) (w : Fin cfg5.W) :
    W24 m ρ c (Proc.devRef .tc (Pipeline.arrRef spec5 w)) = (dat5 (V23 m ρ) c).arrAt w cfg5.N := by
  unfold W24; exact Pipeline.withArrays_arr spec5 launch5.win.arr_inj c _ _ w

theorem W24_in (c : Dev nD) (w : Fin cfg5.W) (hin : (cfg5.win w).isOut = false) :
    W24 m ρ c (Proc.devRef .tc (Pipeline.arrRef spec5 w)) = W23 m ρ c (Proc.devRef .tc (Pipeline.arrRef spec5 w)) :=
  (W24_arr m ρ c w).trans (((dat5 (V23 m ρ) c).arrAt_in w hin _).trans (A_eq5 (V23 m ρ) c w))

abbrev V24 : (c : Dev nD) → (b : Ref sig .tc) → Buf (Elt F) ((c : Thread nD τ).loc b) := fun c b => W24 m ρ c b

abbrev W25 : Dev nD → Valuation τ sig (Elt F) := fun c => StableHlo.after hostOps6 (W24 m ρ c)

abbrev V25 : (c : Dev nD) → (b : Ref sig .tc) → Buf (Elt F) ((c : Thread nD τ).loc b) := fun c b => W25 m ρ c b

def W26 (c : Dev nD) : Valuation τ sig (Elt F) :=
  Pipeline.withArrays spec6 c (W25 m ρ c) fun w => (dat6 (V25 m ρ) c).arrAt w cfg6.N
theorem W26_arr (c : Dev nD) (w : Fin cfg6.W) :
    W26 m ρ c (Proc.devRef .tc (Pipeline.arrRef spec6 w)) = (dat6 (V25 m ρ) c).arrAt w cfg6.N := by
  unfold W26; exact Pipeline.withArrays_arr spec6 launch6.win.arr_inj c _ _ w

theorem W26_in (c : Dev nD) (w : Fin cfg6.W) (hin : (cfg6.win w).isOut = false) :
    W26 m ρ c (Proc.devRef .tc (Pipeline.arrRef spec6 w)) = W25 m ρ c (Proc.devRef .tc (Pipeline.arrRef spec6 w)) :=
  (W26_arr m ρ c w).trans (((dat6 (V25 m ρ) c).arrAt_in w hin _).trans (A_eq6 (V25 m ρ) c w))

abbrev V26 : (c : Dev nD) → (b : Ref sig .tc) → Buf (Elt F) ((c : Thread nD τ).loc b) := fun c b => W26 m ρ c b

abbrev W27 : Dev nD → Valuation τ sig (Elt F) := fun c => StableHlo.after hostOps7 (W26 m ρ c)

abbrev V27 : (c : Dev nD) → (b : Ref sig .tc) → Buf (Elt F) ((c : Thread nD τ).loc b) := fun c b => W27 m ρ c b

def W28 (c : Dev nD) : Valuation τ sig (Elt F) :=
  Pipeline.withArrays spec7 c (W27 m ρ c) fun w => (dat7 (V27 m ρ) c).arrAt w cfg7.N
theorem W28_arr (c : Dev nD) (w : Fin cfg7.W) :
    W28 m ρ c (Proc.devRef .tc (Pipeline.arrRef spec7 w)) = (dat7 (V27 m ρ) c).arrAt w cfg7.N := by
  unfold W28; exact Pipeline.withArrays_arr spec7 launch7.win.arr_inj c _ _ w

theorem W28_in (c : Dev nD) (w : Fin cfg7.W) (hin : (cfg7.win w).isOut = false) :
    W28 m ρ c (Proc.devRef .tc (Pipeline.arrRef spec7 w)) = W27 m ρ c (Proc.devRef .tc (Pipeline.arrRef spec7 w)) :=
  (W28_arr m ρ c w).trans (((dat7 (V27 m ρ) c).arrAt_in w hin _).trans (A_eq7 (V27 m ρ) c w))

abbrev V28 : (c : Dev nD) → (b : Ref sig .tc) → Buf (Elt F) ((c : Thread nD τ).loc b) := fun c b => W28 m ρ c b

abbrev W29 : Dev nD → Valuation τ sig (Elt F) := fun c => StableHlo.after hostOps8 (W28 m ρ c)

/-- The buffer contents at boundary `j` of @main's 29 items. -/
def Wn : ℕ → Dev nD → Valuation τ sig (Elt F)
  | 0 => W0 m ρ | 1 => W1 m ρ | 2 => W2 m ρ | 3 => W3 m ρ | 4 => W4 m ρ | 5 => W5 m ρ | 6 => W6 m ρ | 7 => W7 m ρ | 8 => W8 m ρ | 9 => W9 m ρ | 10 => W10 m ρ | 11 => W11 m ρ | 12 => W12 m ρ | 13 => W13 m ρ | 14 => W14 m ρ | 15 => W15 m ρ | 16 => W16 m ρ | 17 => W17 m ρ | 18 => W18 m ρ | 19 => W19 m ρ | 20 => W20 m ρ | 21 => W21 m ρ | 22 => W22 m ρ | 23 => W23 m ρ | 24 => W24 m ρ | 25 => W25 m ρ | 26 => W26 m ρ | 27 => W27 m ρ | 28 => W28 m ρ | _ => W29 m ρ

theorem s0 (c : Dev nD) (b : Ref sig .tc) (h : b ∉ wr 0) : W1 m ρ c (Proc.devRef .tc b) = W0 m ρ c (Proc.devRef .tc b) := host_keep hostOps0 _ rfl _ b h
theorem s1 (c : Dev nD) (b : Ref sig .tc) (h : b ∉ wr 1) : W2 m ρ c (Proc.devRef .tc b) = W1 m ρ c (Proc.devRef .tc b) :=
  reg_keep (fun w hw => W2_in m ρ c w ((show ∀ w, Pipeline.arrRef spec0 w ∉ wr 1 → (cfg0.win w).isOut = false by decide) w hw)) b h
theorem s2 (c : Dev nD) (b : Ref sig .tc) (h : b ∉ wr 2) : W3 m ρ c (Proc.devRef .tc b) = W2 m ρ c (Proc.devRef .tc b) := host_keep hostOps1 _ rfl _ b h
theorem s3 (c : Dev nD) (b : Ref sig .tc) (h : b ∉ wr 3) : W4 m ρ c (Proc.devRef .tc b) = W3 m ρ c (Proc.devRef .tc b) := host_keep hostOps1_1 _ rfl _ b h
theorem s4 (c : Dev nD) (b : Ref sig .tc) (h : b ∉ wr 4) : W5 m ρ c (Proc.devRef .tc b) = W4 m ρ c (Proc.devRef .tc b) := host_keep hostOps1_2 _ rfl _ b h
theorem s5 (c : Dev nD) (b : Ref sig .tc) (h : b ∉ wr 5) : W6 m ρ c (Proc.devRef .tc b) = W5 m ρ c (Proc.devRef .tc b) := host_keep hostOps1_3 _ rfl _ b h
theorem s6 (c : Dev nD) (b : Ref sig .tc) (h : b ∉ wr 6) : W7 m ρ c (Proc.devRef .tc b) = W6 m ρ c (Proc.devRef .tc b) := host_keep hostOps1_4 _ rfl _ b h
theorem s7 (c : Dev nD) (b : Ref sig .tc) (h : b ∉ wr 7) : W8 m ρ c (Proc.devRef .tc b) = W7 m ρ c (Proc.devRef .tc b) := host_keep hostOps1_5 _ rfl _ b h
theorem s8 (c : Dev nD) (b : Ref sig .tc) (h : b ∉ wr 8) : W9 m ρ c (Proc.devRef .tc b) = W8 m ρ c (Proc.devRef .tc b) := host_keep hostOps1_6 _ rfl _ b h
theorem s9 (c : Dev nD) (b : Ref sig .tc) (h : b ∉ wr 9) : W10 m ρ c (Proc.devRef .tc b) = W9 m ρ c (Proc.devRef .tc b) :=
  reg_keep (fun w hw => W10_in m ρ c w ((show ∀ w, Pipeline.arrRef spec1 w ∉ wr 9 → (cfg1.win w).isOut = false by decide) w hw)) b h
theorem s10 (c : Dev nD) (b : Ref sig .tc) (h : b ∉ wr 10) : W11 m ρ c (Proc.devRef .tc b) = W10 m ρ c (Proc.devRef .tc b) := host_keep hostOps2 _ rfl _ b h
theorem s11 (c : Dev nD) (b : Ref sig .tc) (h : b ∉ wr 11) : W12 m ρ c (Proc.devRef .tc b) = W11 m ρ c (Proc.devRef .tc b) :=
  reg_keep (fun w hw => W12_in m ρ c w ((show ∀ w, Pipeline.arrRef spec2 w ∉ wr 11 → (cfg2.win w).isOut = false by decide) w hw)) b h
theorem s12 (c : Dev nD) (b : Ref sig .tc) (h : b ∉ wr 12) : W13 m ρ c (Proc.devRef .tc b) = W12 m ρ c (Proc.devRef .tc b) := host_keep hostOps3 _ rfl _ b h
theorem s13 (c : Dev nD) (b : Ref sig .tc) (h : b ∉ wr 13) : W14 m ρ c (Proc.devRef .tc b) = W13 m ρ c (Proc.devRef .tc b) :=
  reg_keep (fun w hw => W14_in m ρ c w ((show ∀ w, Pipeline.arrRef spec3 w ∉ wr 13 → (cfg3.win w).isOut = false by decide) w hw)) b h
theorem s14 (c : Dev nD) (b : Ref sig .tc) (h : b ∉ wr 14) : W15 m ρ c (Proc.devRef .tc b) = W14 m ρ c (Proc.devRef .tc b) := host_keep hostOps4 _ rfl _ b h
theorem s15 (c : Dev nD) (b : Ref sig .tc) (h : b ∉ wr 15) : W16 m ρ c (Proc.devRef .tc b) = W15 m ρ c (Proc.devRef .tc b) :=
  reg_keep (fun w hw => W16_in m ρ c w ((show ∀ w, Pipeline.arrRef spec4 w ∉ wr 15 → (cfg4.win w).isOut = false by decide) w hw)) b h
theorem s16 (c : Dev nD) (b : Ref sig .tc) (h : b ∉ wr 16) : W17 m ρ c (Proc.devRef .tc b) = W16 m ρ c (Proc.devRef .tc b) := host_keep hostOps5 _ rfl _ b h
theorem s17 (c : Dev nD) (b : Ref sig .tc) (h : b ∉ wr 17) : W18 m ρ c (Proc.devRef .tc b) = W17 m ρ c (Proc.devRef .tc b) := host_keep hostOps5_1 _ rfl _ b h
theorem s18 (c : Dev nD) (b : Ref sig .tc) (h : b ∉ wr 18) : W19 m ρ c (Proc.devRef .tc b) = W18 m ρ c (Proc.devRef .tc b) := host_keep hostOps5_2 _ rfl _ b h
theorem s19 (c : Dev nD) (b : Ref sig .tc) (h : b ∉ wr 19) : W20 m ρ c (Proc.devRef .tc b) = W19 m ρ c (Proc.devRef .tc b) := host_keep hostOps5_3 _ rfl _ b h
theorem s20 (c : Dev nD) (b : Ref sig .tc) (h : b ∉ wr 20) : W21 m ρ c (Proc.devRef .tc b) = W20 m ρ c (Proc.devRef .tc b) := host_keep hostOps5_4 _ rfl _ b h
theorem s21 (c : Dev nD) (b : Ref sig .tc) (h : b ∉ wr 21) : W22 m ρ c (Proc.devRef .tc b) = W21 m ρ c (Proc.devRef .tc b) := host_keep hostOps5_5 _ rfl _ b h
theorem s22 (c : Dev nD) (b : Ref sig .tc) (h : b ∉ wr 22) : W23 m ρ c (Proc.devRef .tc b) = W22 m ρ c (Proc.devRef .tc b) := host_keep hostOps5_6 _ rfl _ b h
theorem s23 (c : Dev nD) (b : Ref sig .tc) (h : b ∉ wr 23) : W24 m ρ c (Proc.devRef .tc b) = W23 m ρ c (Proc.devRef .tc b) :=
  reg_keep (fun w hw => W24_in m ρ c w ((show ∀ w, Pipeline.arrRef spec5 w ∉ wr 23 → (cfg5.win w).isOut = false by decide) w hw)) b h
theorem s24 (c : Dev nD) (b : Ref sig .tc) (h : b ∉ wr 24) : W25 m ρ c (Proc.devRef .tc b) = W24 m ρ c (Proc.devRef .tc b) := host_keep hostOps6 _ rfl _ b h
theorem s25 (c : Dev nD) (b : Ref sig .tc) (h : b ∉ wr 25) : W26 m ρ c (Proc.devRef .tc b) = W25 m ρ c (Proc.devRef .tc b) :=
  reg_keep (fun w hw => W26_in m ρ c w ((show ∀ w, Pipeline.arrRef spec6 w ∉ wr 25 → (cfg6.win w).isOut = false by decide) w hw)) b h
theorem s26 (c : Dev nD) (b : Ref sig .tc) (h : b ∉ wr 26) : W27 m ρ c (Proc.devRef .tc b) = W26 m ρ c (Proc.devRef .tc b) := host_keep hostOps7 _ rfl _ b h
theorem s27 (c : Dev nD) (b : Ref sig .tc) (h : b ∉ wr 27) : W28 m ρ c (Proc.devRef .tc b) = W27 m ρ c (Proc.devRef .tc b) :=
  reg_keep (fun w hw => W28_in m ρ c w ((show ∀ w, Pipeline.arrRef spec7 w ∉ wr 27 → (cfg7.win w).isOut = false by decide) w hw)) b h
theorem s28 (c : Dev nD) (b : Ref sig .tc) (h : b ∉ wr 28) : W29 m ρ c (Proc.devRef .tc b) = W28 m ρ c (Proc.devRef .tc b) := host_keep hostOps8 _ rfl _ b h

/-- Item `j` leaves what it does not write. -/
theorem step (c : Dev nD) (b : Ref sig .tc) : ∀ j, j < 29 → b ∉ wr j →
    Wn m ρ (j + 1) c (Proc.devRef .tc b) = Wn m ρ j c (Proc.devRef .tc b)
  | 0, _, h => s0 m ρ c b h | 1, _, h => s1 m ρ c b h | 2, _, h => s2 m ρ c b h | 3, _, h => s3 m ρ c b h | 4, _, h => s4 m ρ c b h | 5, _, h => s5 m ρ c b h | 6, _, h => s6 m ρ c b h
  | 7, _, h => s7 m ρ c b h | 8, _, h => s8 m ρ c b h | 9, _, h => s9 m ρ c b h | 10, _, h => s10 m ρ c b h | 11, _, h => s11 m ρ c b h | 12, _, h => s12 m ρ c b h | 13, _, h => s13 m ρ c b h
  | 14, _, h => s14 m ρ c b h | 15, _, h => s15 m ρ c b h | 16, _, h => s16 m ρ c b h | 17, _, h => s17 m ρ c b h | 18, _, h => s18 m ρ c b h | 19, _, h => s19 m ρ c b h | 20, _, h => s20 m ρ c b h
  | 21, _, h => s21 m ρ c b h | 22, _, h => s22 m ρ c b h | 23, _, h => s23 m ρ c b h | 24, _, h => s24 m ρ c b h | 25, _, h => s25 m ρ c b h | 26, _, h => s26 m ρ c b h | 27, _, h => s27 m ρ c b h
  | 28, _, h => s28 m ρ c b h
  | _ + 29, hj, _ => absurd hj (by omega)

/-- @main is single-assignment: between two boundaries a reference reads the same unless an item between them writes it. -/
theorem keep (c : Dev nD) (b : Ref sig .tc) (i j : ℕ) {A B : Dev nD → Valuation τ sig (Elt F)} (hA : Wn m ρ j = A) (hB : Wn m ρ i = B)
    (h : ∀ k, i ≤ k → k < j → b ∉ wr k) (hij : i ≤ j := by decide) (hj : j ≤ 29 := by decide) :
    A c (Proc.devRef .tc b) = B c (Proc.devRef .tc b) := by
  subst hA hB
  exact keep_of_step (fun j => Wn m ρ j c (Proc.devRef .tc b)) wr b 29 (step m ρ c b) i j hij hj h

theorem arg_kept (c : Dev nD) (b : Ref sig .tc) (h : ∀ k, 0 ≤ k → k < 29 → b ∉ wr k) :
    W29 m ρ c (Proc.devRef .tc b) = m ((c : Thread nD τ).loc b) :=
  keep m ρ c b 0 29 (A := W29 m ρ) (B := W0 m ρ) rfl rfl h

abbrev adm : (p : Fin 8) → (pcfgs (F := F) p).Adm := fun p => (cfgs p).toPCfg_adm

/-- Each pipeline's proof data at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V9 m ρ) c
  | ⟨2, _⟩ => fun c => dat2 (V11 m ρ) c
  | ⟨3, _⟩ => fun c => dat3 (V13 m ρ) c
  | ⟨4, _⟩ => fun c => dat4 (V15 m ρ) c
  | ⟨5, _⟩ => fun c => dat5 (V23 m ρ) c
  | ⟨6, _⟩ => fun c => dat6 (V25 m ρ) c
  | ⟨7, _⟩ => fun c => dat7 (V27 m ρ) c
abbrev 𝒱₀ : Variants := Variants.none

abbrev L : GSem nD τ sig → Finset Unit := fun _ => ∅
abbrev lv : GSem nD τ sig → Unit → ℕ := fun _ _ => 0

def reg0 := regOf cfgs (pdats m ρ) defs₀ 𝒱₀ L lv 0 launch0 (W1 m ρ) (body_obligation0 (V1 m ρ)) (fun _ _ => rfl) (fun _ _ => trivial) (fun _ _ => rfl) (fun _ _ => rfl) (fun _ _ => rfl)
def reg1 := regOf cfgs (pdats m ρ) defs₀ 𝒱₀ L lv 1 launch1 (W9 m ρ) (body_obligation1 (V9 m ρ)) (fun _ _ => rfl) (fun _ _ => trivial) (fun _ _ => rfl) (fun _ _ => rfl) (fun _ _ => rfl)
def reg2 := regOf cfgs (pdats m ρ) defs₀ 𝒱₀ L lv 2 launch2 (W11 m ρ) (body_obligation2 (V11 m ρ)) (fun _ _ => rfl) (fun _ _ => trivial) (fun _ _ => rfl) (fun _ _ => rfl) (fun _ _ => rfl)
def reg3 := regOf cfgs (pdats m ρ) defs₀ 𝒱₀ L lv 3 launch3 (W13 m ρ) (body_obligation3 (V13 m ρ)) (fun _ _ => rfl) (fun _ _ => trivial) (fun _ _ => rfl) (fun _ _ => rfl) (fun _ _ => rfl)
def reg4 := regOf cfgs (pdats m ρ) defs₀ 𝒱₀ L lv 4 launch4 (W15 m ρ) (body_obligation4 (V15 m ρ)) (fun _ _ => rfl) (fun _ _ => trivial) (fun _ _ => rfl) (fun _ _ => rfl) (fun _ _ => rfl)
def reg5 := regOf cfgs (pdats m ρ) defs₀ 𝒱₀ L lv 5 launch5 (W23 m ρ) (body_obligation5 (V23 m ρ)) (fun _ _ => rfl) (fun _ _ => trivial) (fun _ _ => rfl) (fun _ _ => rfl) (fun _ _ => rfl)
def reg6 := regOf cfgs (pdats m ρ) defs₀ 𝒱₀ L lv 6 launch6 (W25 m ρ) (body_obligation6 (V25 m ρ)) (fun _ _ => rfl) (fun _ _ => trivial) (fun _ _ => rfl) (fun _ _ => rfl) (fun _ _ => rfl)
def reg7 := regOf cfgs (pdats m ρ) defs₀ 𝒱₀ L lv 7 launch7 (W27 m ρ) (body_obligation7 (V27 m ρ)) (fun _ _ => rfl) (fun _ _ => trivial) (fun _ _ => rfl) (fun _ _ => rfl) (fun _ _ => rfl)

abbrev segs : List (Pipeline.Seg (pcfgs (F := F)) adm (pdats m ρ) () defs₀ 𝒱₀ L lv) :=
  [ .host (hseg hostOps0 hostOps0_sub rfl (W0 m ρ)),
    .region (reg0 m ρ),
    .host (hseg hostOps1 hostOps1_sub rfl (W2 m ρ)),
    .host (hseg hostOps1_1 hostOps1_1_sub rfl (W3 m ρ)),
    .host (hseg hostOps1_2 hostOps1_2_sub rfl (W4 m ρ)),
    .host (hseg hostOps1_3 hostOps1_3_sub rfl (W5 m ρ)),
    .host (hseg hostOps1_4 hostOps1_4_sub rfl (W6 m ρ)),
    .host (hseg hostOps1_5 hostOps1_5_sub rfl (W7 m ρ)),
    .host (hseg hostOps1_6 hostOps1_6_sub rfl (W8 m ρ)),
    .region (reg1 m ρ),
    .host (hseg hostOps2 hostOps2_sub rfl (W10 m ρ)),
    .region (reg2 m ρ),
    .host (hseg hostOps3 hostOps3_sub rfl (W12 m ρ)),
    .region (reg3 m ρ),
    .host (hseg hostOps4 hostOps4_sub rfl (W14 m ρ)),
    .region (reg4 m ρ),
    .host (hseg hostOps5 hostOps5_sub rfl (W16 m ρ)),
    .host (hseg hostOps5_1 hostOps5_1_sub rfl (W17 m ρ)),
    .host (hseg hostOps5_2 hostOps5_2_sub rfl (W18 m ρ)),
    .host (hseg hostOps5_3 hostOps5_3_sub rfl (W19 m ρ)),
    .host (hseg hostOps5_4 hostOps5_4_sub rfl (W20 m ρ)),
    .host (hseg hostOps5_5 hostOps5_5_sub rfl (W21 m ρ)),
    .host (hseg hostOps5_6 hostOps5_6_sub rfl (W22 m ρ)),
    .region (reg5 m ρ),
    .host (hseg hostOps6 hostOps6_sub rfl (W24 m ρ)),
    .region (reg6 m ρ),
    .host (hseg hostOps7 hostOps7_sub rfl (W26 m ρ)),
    .region (reg7 m ρ),
    .host (hseg hostOps8 hostOps8_sub rfl (W28 m ρ)) ]
theorem main_run (c : Dev nD) : main (F := F) c = Pipeline.Seg.run (segs m ρ) := (main_chain c).trans (by chain_rfl)

theorem run_all : θ_run defs (onTc (τ := τ) (main (F := F))) ⟨m, fun _ => 0, ρ⟩ (fun r => ∀ c : Dev nD,
      ∀ b ∈ Pipeline.ucRefs τ sig, r.2.mem ((c : Thread nD τ).1, b) = W29 m ρ c b) :=
  run_held cfgs cellOf_inj (pdats m ρ) defs₀ 𝒱₀ L lv (fun _ _ => rfl) m ρ main (segs m ρ) (main_run m ρ)
    (by simp only [segs, Pipeline.Seg.pipes_host, Pipeline.Seg.pipes_region, Pipeline.Seg.pipes_nil]; decide)
    (W29 m ρ) (by (repeat refine ⟨fun _ => .rfl, ?_⟩); exact fun _ => .rfl)

abbrev args : List (Ref sig .tc) := [main_arg0, main_arg1, main_arg2, main_arg3, main_arg4, main_arg5, main_arg6, main_arg7, main_arg8, main_arg9, main_arg10, main_arg11, main_arg12, main_arg13, main_arg14, main_arg15]

theorem args_ok : ∀ a ∈ args, ¬ (Proc.devRef .tc a : DevRef τ sig).isScoped ∧ ∀ k, 0 ≤ k → k < 29 → a ∉ wr k :=
  List.forall_iff_forall_mem.mp (by dsimp only [args, List.Forall]; (repeat' apply And.intro); all_goals decide)

/-- No item of @main writes an argument, so a memory that holds the unscoped buffers at the last boundary holds each argument at its launch contents. -/
theorem args_of_run (c : Dev nD) {mem : MemSt nD τ sig (Elt F)}
    (h : ∀ b ∈ Pipeline.ucRefs τ sig, mem.mem ((c : Thread nD τ).1, b) = W29 m ρ c b) :
    args.Forall fun a => mem.mem ((c.tc : Thread nD τ).loc a) = m ((c.tc : Thread nD τ).loc a) :=
  List.forall_iff_forall_mem.mpr fun a ha => (h _ (mem_uc a (args_ok a ha).1)).trans (arg_kept m ρ c a (args_ok a ha).2)

theorem frame : θ_run defs (onTc (τ := τ) (main (F := F))) ⟨m, fun _ => 0, ρ⟩ (fun r => ∀ c : Dev nD,
      args.Forall fun a => r.2.mem ((c.tc : Thread nD τ).loc a) = m ((c.tc : Thread nD τ).loc a)) :=
  (θ_run defs (onTc (τ := τ) (main (F := F))) ⟨m, fun _ => 0, ρ⟩).2 (fun r h c => args_of_run m ρ c (h c)) (run_all m ρ)

end Cert.Kernel.Hand

end
-- ==== Proof.KIReg0.lean ====
import proofs.«137221_j56719338111373_2_alg».proof.Proof.Gen.KernelIdeal.Launch
import proofs.«137221_j56719338111373_2_alg».proof.Proof.Gen.KernelIdeal.Skeleton
import proofs.«137221_j56719338111373_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«137221_j56719338111373_2_alg».proof.Proof.LibRun

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S16384x64 := Rect.unit (s := S16384x64) ![0, 0] S16384x64.size inb_S16384x64_S16384x64_0_0

abbrev r0_w : Rect S32x64 := Rect.unit (s := S32x64) ![0, 0] S32x64.size inb_S32x64_S32x64_0_0

abbrev r0_v : Rect S1x32 := Rect.unit (s := S1x32) ![0, 0] S1x32.size inb_S1x32_S1x32_0_0

abbrev r0_o : Rect S16384x32 := Rect.unit (s := S16384x32) ![0, 0] S16384x32.size inb_S16384x32_S16384x32_0_0

def out0_4 (x0 : Vec F S16384x64 .f32) (x1 : Vec F S32x64 .f32) (x2 x3 : Vec F S1x32 .f32) : Vec F S16384x32 .bf16 :=
  View.canon [⟨r0_o, k0_pay1 (View.ld x0 r0_x) (View.ld x1 r0_w) (View.ld x2 r0_v) (View.ld x3 r0_v)⟩]

theorem hz0 : (![0, 0] : Fin 2 → Nat) = fun _ => 0 := funext fun a => by fin_cases a <;> rfl

set_option maxHeartbeats 1000000 in
theorem sound_kernel0 (c : Dev nD) (E : Set ℕ) (i : grid0.Coords)
    (arg1 : Memref sig .tc .vmem S16384x64 .f32) (harg1 : arg1.IsWhole) (arg2 : Memref sig .tc .vmem S32x64 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S16384x32 .bf16) (harg5 : arg5.IsWhole)
    (x0 : Vec F S16384x64 .f32) (x1 : Vec F S32x64 .f32) (x2 x3 : Vec F S1x32 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__bn_matmul_kernel i arg1 harg1 arg2 harg2 arg3 harg3 arg4 harg4 arg5 harg5) K := by
  simp only [cc0__bn_matmul_kernel_eq_skeleton]; unfold cc0__bn_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact Cert.Hand.read_writes_whole _ _ hz0 _ _

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0_4 (iblk0 V c 0 t) (iblk0 V c 1 t) (iblk0 V c 2 t) (iblk0 V c 3 t) := by dsimp only [dat0]

theorem after0_in (c : Dev nD) (t : Fin cfg0.N) :
    (dat0 V c).after 0 t = iblk0 V c 0 t ∧
    (dat0 V c).after 1 t = iblk0 V c 1 t ∧
    (dat0 V c).after 2 t = iblk0 V c 2 t ∧
    (dat0 V c).after 3 t = iblk0 V c 3 t := by
  refine ⟨?_, ?_, ?_, ?_⟩ <;> dsimp only [dat0]

theorem before0_in (c : Dev nD) (t : Fin cfg0.N) :
    (∀ d, (dat0 V c).before 0 t d = iblk0 V c 0 t) ∧
    (∀ d, (dat0 V c).before 1 t d = iblk0 V c 1 t) ∧
    (∀ d, (dat0 V c).before 2 t d = iblk0 V c 2 t) ∧
    (∀ d, (dat0 V c).before 3 t d = iblk0 V c 3 t) := by
  refine ⟨?_, ?_, ?_, ?_⟩ <;>
    exact fun d => (Dat.before_in_eq_fetched _ _ rfl (fun _ => rfl) (fun _ _ _ => rfl)
      (fun t => by simp only [after0_in]; unfold Dat.blockOf iblk0; rw [A_eq0]; try rfl) t d).trans
      (by unfold Dat.fetched Dat.blockOf iblk0; rw [A_eq0]; try rfl)

theorem body_obligation0 (c : Dev nD) : BodyObligation (dat0 (F := F) V c) (defs₀ (F := F)) Variants.none () Set.univ := fun t => by
  rw [bigSep_W0, bigSep_W0]
  show _ ⊢ wp _ _ _ (bodyAt0 t) _
  simp only [before0_in, after0_in, after0_4]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩⟩
  iapply sound_kernel0
  iframe H0 H1 H2 H3
  isplitl [H4]; · iexists _; iexact H4
  iintro ⟨H0, H1, H2, H3, H4⟩
  iframe

end Region0

end Cert.KernelIdeal.Hand

end
-- ==== Proof.KIReg1.lean ====
import proofs.«137221_j56719338111373_2_alg».proof.Proof.Gen.KernelIdeal.Launch
import proofs.«137221_j56719338111373_2_alg».proof.Proof.Gen.KernelIdeal.Skeleton
import proofs.«137221_j56719338111373_2_alg».proof.Proof.Gen.KernelIdeal.Points
import Idealize.ShloMosaic.Lib.Pipeline.FrameBody
import Idealize.ShloMosaic.Lib.Ring
import Idealize.ShloMosaic.Lib.Tactic
import proofs.«137221_j56719338111373_2_alg».proof.Proof.LibRun

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4096x8x32 := Rect.unit (s := S4096x8x32) ![0, 0, 0] S4096x8x32.size inb_S4096x8x32_S4096x8x32_0_0_0

abbrev r1_1 : Rect S8x32 := Rect.unit (s := S8x32) ![0, 0] S8x32.size inb_S8x32_S8x32_0_0

abbrev r1_2 : Rect S4096x32 := Rect.unit (s := S4096x32) ![0, 0] S4096x32.size inb_S4096x32_S4096x32_0_0

def out1_2 (x0 : Vec F S4096x8x32 .bf16) (x1 : Vec F S8x32 .f32) : Vec F S4096x32 .f32 :=
  View.canon [⟨r1_2, k1_pay1 (View.ld x0 r1_0) (View.ld x1 r1_1)⟩]

set_option maxHeartbeats 1000000 in
theorem sound_kernel1 (c : Dev nD) (E : Set ℕ) (i : grid1.Coords)
    (arg1 : Memref sig .tc .vmem S4096x8x32 .bf16) (harg1 : arg1.IsWhole)
    (arg2 : Memref sig .tc .vmem S8x32 .f32) (harg2 : arg2.IsWhole)
    (arg3 : Memref sig .tc .vmem S4096x32 .f32) (harg3 : arg3.IsWhole)
    (x0 : Vec F S4096x8x32 .bf16) (x1 : Vec F S8x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__combine_maxpool_kernel i arg1 harg1 arg2 harg2 arg3 harg3) K := by
  simp only [cc1__combine_maxpool_kernel_eq_skeleton]; unfold cc1__combine_maxpool_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact Cert.Hand.read_writes_whole _ _ Cert.Hand.zeros2 _ _

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1_2 (iblk1 V c 0 t) (iblk1 V c 1 t) := by dsimp only [dat1]

theorem after1_in (c : Dev nD) (t : Fin cfg1.N) :
    (dat1 V c).after 0 t = iblk1 V c 0 t ∧
    (dat1 V c).after 1 t = iblk1 V c 1 t := by
  refine ⟨?_, ?_⟩ <;> dsimp only [dat1]

theorem before1_in (c : Dev nD) (t : Fin cfg1.N) :
    (∀ d, (dat1 V c).before 0 t d = iblk1 V c 0 t) ∧
    (∀ d, (dat1 V c).before 1 t d = iblk1 V c 1 t) := by
  refine ⟨?_, ?_⟩ <;>
    exact fun d => (Dat.before_in_eq_fetched _ _ rfl (fun _ => rfl) (fun _ _ _ => rfl)
      (fun t => by simp only [after1_in]; unfold Dat.blockOf iblk1; rw [A_eq1]; try rfl) t d).trans
      (by unfold Dat.fetched Dat.blockOf iblk1; rw [A_eq1]; try rfl)

theorem body_obligation1 (c : Dev nD) : BodyObligation (dat1 (F := F) V c) (defs₀ (F := F)) Variants.none () Set.univ := fun t => by
  rw [bigSep_W1, bigSep_W1]
  show _ ⊢ wp _ _ _ (bodyAt1 t) _
  simp only [before1_in, after1_in, after1_2]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  iapply sound_kernel1
  iframe H0 H1
  isplitl [H2]; · iexists _; iexact H2
  iintro ⟨H0, H1, H2⟩
  iframe

end Cert.KernelIdeal.Hand

end
-- ==== Proof.KIReg2.lean ====
import proofs.«137221_j56719338111373_2_alg».proof.Proof.Gen.KernelIdeal.Launch
import proofs.«137221_j56719338111373_2_alg».proof.Proof.Gen.KernelIdeal.Skeleton
import proofs.«137221_j56719338111373_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

theorem hz2 : (![0, 0] : Fin 2 → Nat) = fun _ => 0 := funext fun a => by fin_cases a <;> rfl

set_option maxHeartbeats 1000000 in
theorem kernelRun2_pt (c : Dev nD) (E : Set ℕ) (i : grid2.Coords) (arg1 : Memref sig .tc .vmem S8192x32 .f32) (harg1 : arg1.IsWhole) (arg2 : Memref sig .tc .vmem S64x32 .f32) (harg2 : arg2.IsWhole) (arg3 : Memref sig .tc .vmem S1x64 .f32) (harg3 : arg3.IsWhole) (arg4 : Memref sig .tc .vmem S1x64 .f32) (harg4 : arg4.IsWhole)
    (x0 : Vec F S8192x32 .f32) (x1 : Vec F S64x32 .f32) (xo2 xo3 a2 a3 : Vec F S1x64 .f32)
    (h : cond2_0 i ∧ a2 = k2_pay1 ∧ a3 = k2_pay2 ∨ ¬cond2_0 i ∧ a2 = xo2 ∧ a3 = xo3) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ (iprop(owns (c : Thread nD τ) arg1 fullShare x0 ∗ owns (c : Thread nD τ) arg2 fullShare x1
            ∗ owns (c : Thread nD τ) arg3 fullShare (k2_pay4 x0 x1 a2)
            ∗ owns (c : Thread nD τ) arg4 fullShare (k2_pay5 x0 x1 a3)) -∗ K ⟨⟩))
      ⊢ wp frame (wpE (defs₀ (F := F)) Variants.none c none) E (cc2__stats_kernel i arg1 harg1 arg2 harg2 arg3 harg3 arg4 harg4) K := by
  simp only [cc2__stats_kernel_eq_skeleton]; unfold cc2__stats_kernel_skel
  unfold owns
  rcases h with ⟨hc0, rfl, rfl⟩ | ⟨hc0, rfl, rfl⟩
  all_goals
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    all_goals
      iexists _; isplitr
      swap; · iassumption
      ipureintro
      refine (View.read_writes_eq_canon _ _ _ (View.cover_of_tiledL _ S1x64.size ?_)).trans ?_
      · sl_kernel_rfl
      sl_unfold_words
      rw [View.canon_cons_unit_zero (S := S1x64) hz2]
      simp only [View.readCov_unit_zero (S := S1x64) _ hz2, View.readAt_eq_ld, harg1.read_unread, harg2.read_unread,
        harg3.read_unread, harg4.read_unread, View.ld_unit_zero (S := S8192x32) hz2, View.ld_unit_zero (S := S64x32) hz2,
        View.ld_unit_zero (S := S1x64) hz2]

def outsAt2 (c : Dev nD) : (n : ℕ) → n < cfg2.N → Vec F S1x64 .f32 × Vec F S1x64 .f32
  | 0, hn => (k2_pay4 (iblk2 V c 0 ⟨0, hn⟩) (iblk2 V c 1 ⟨0, hn⟩) k2_pay1, k2_pay5 (iblk2 V c 0 ⟨0, hn⟩) (iblk2 V c 1 ⟨0, hn⟩) k2_pay2)
  | n + 1, hn =>
    (k2_pay4 (iblk2 V c 0 ⟨n + 1, hn⟩) (iblk2 V c 1 ⟨n + 1, hn⟩) (outsAt2 c n (Nat.lt_of_succ_lt hn)).1,
     k2_pay5 (iblk2 V c 0 ⟨n + 1, hn⟩) (iblk2 V c 1 ⟨n + 1, hn⟩) (outsAt2 c n (Nat.lt_of_succ_lt hn)).2)

theorem outsAt2_A (c : Dev nD) (t : Fin cfg2.N) (h0 : t.val = 0) :
    outsAt2 V c t.val t.isLt = (k2_pay4 (iblk2 V c 0 t) (iblk2 V c 1 t) k2_pay1, k2_pay5 (iblk2 V c 0 t) (iblk2 V c 1 t) k2_pay2) := by
  obtain ⟨n, hn⟩ := t
  cases n with
  | zero => exact rfl
  | succ n => exact absurd h0 (Nat.succ_ne_zero n)

theorem outsAt2_B (c : Dev nD) (t : Fin cfg2.N) (h0 : t.val ≠ 0) :
    outsAt2 V c t.val t.isLt
      = (k2_pay4 (iblk2 V c 0 t) (iblk2 V c 1 t) (outsAt2 V c (t.val - 1) (Nat.lt_of_le_of_lt (Nat.sub_le _ _) t.isLt)).1,
         k2_pay5 (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_in (c : Dev nD) (t : Fin cfg2.N) :
    (dat2 V c).after 0 t = iblk2 V c 0 t ∧
    (dat2 V c).after 1 t = iblk2 V c 1 t := by
  refine ⟨?_, ?_⟩ <;> dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2 := by dsimp only [dat2]

theorem before2_in (c : Dev nD) (t : Fin cfg2.N) :
    (∀ d, (dat2 V c).before 0 t d = iblk2 V c 0 t) ∧
    (∀ d, (dat2 V c).before 1 t d = iblk2 V c 1 t) := by
  refine ⟨?_, ?_⟩ <;>
    exact fun d => (Dat.before_in_eq_fetched _ _ rfl (fun _ => rfl) (fun _ _ _ => rfl)
      (fun t => by simp only [after2_in]; unfold Dat.blockOf iblk2; rw [A_eq2]; try rfl) t d).trans
      (by unfold Dat.fetched Dat.blockOf iblk2; rw [A_eq2]; try rfl)

theorem before2_acc (c : Dev nD) (t : Fin cfg2.N) (h0 : t.val ≠ 0) :
    (∀ d, (dat2 V c).before 2 t d = (outsAt2 V c (t.val - 1) (Nat.lt_of_le_of_lt (Nat.sub_le _ _) t.isLt)).1) ∧
    (∀ d, (dat2 V c).before 3 t d = (outsAt2 V c (t.val - 1) (Nat.lt_of_le_of_lt (Nat.sub_le _ _) t.isLt)).2) := by
  have hN : t.val < 8 := lt_of_lt_of_eq t.isLt (show cfg2.N = 8 from N_2)
  constructor <;> intro d
  · rw [Dat.before_out_kept _ 2 rfl t h0 (Bool.eq_false_iff.mpr fun h => by have := (flush2_2 _).mp h; dsimp only at this; omega)
      (fun _ => rfl) (fun _ _ => rfl)]
    dsimp only [dat2]
  · rw [Dat.before_out_kept _ 3 rfl t h0 (Bool.eq_false_iff.mpr fun h => by have := (flush2_3 _).mp h; dsimp only at this; omega)
      (fun _ => rfl) (fun _ _ => rfl)]
    dsimp only [dat2]

set_option maxHeartbeats 800000 in
theorem body_obligation2 (c : Dev nD) : BodyObligation (dat2 (F := F) V c) (defs₀ (F := F)) Variants.none () Set.univ := fun t => by
  rw [bigSep_W2, bigSep_W2]
  show _ ⊢ wp _ _ _ (bodyAt2 t) _
  simp only [before2_in, after2_in, after2_2, after2_3]
  rw [show (dat2 V c).Φ t.succ = (dat2 V c).Φ t.castSucc from rfl,
    show (dat2 V c).owesAt () t.succ = (dat2 V c).owesAt () t.castSucc from rfl]
  have hN : t.val < 8 := lt_of_lt_of_eq t.isLt (show cfg2.N = 8 from N_2)
  by_cases h0 : t.val = 0
  · rw [outsAt2_A V c t h0]
    iintro ⟨HΦ, Ho, ⟨%d0, H0⟩, ⟨%d1, H1⟩, ⟨%d2, H2⟩, ⟨%d3, H3⟩⟩
    iapply (kernelRun2_pt c Set.univ (grid2.coords t) _ _ _ _ _ _ _ _ _ _ _ _ _ _
      (.inl ⟨(hcond2_0 t).mpr (by rw [h0]), rfl, rfl⟩) _)
    iframe H0 H1 H2 H3
    iintro ⟨H0, H1, H2, H3⟩
    iframe
  · rw [outsAt2_B V c t h0]
    simp only [before2_acc V c t h0]
    iintro ⟨HΦ, Ho, ⟨%d0, H0⟩, ⟨%d1, H1⟩, ⟨%d2, H2⟩, ⟨%d3, H3⟩⟩
    iapply (kernelRun2_pt c Set.univ (grid2.coords t) _ _ _ _ _ _ _ _ _ _ _ _ _ _
      (.inr ⟨fun h => h0 (by have := (hcond2_0 t).mp h; omega), rfl, rfl⟩) _)
    iframe H0 H1 H2 H3
    iintro ⟨H0, H1, H2, H3⟩
    iframe

end Region2

end Cert.KernelIdeal.Hand

end
-- ==== Proof.KIReg3.lean ====
import proofs.«137221_j56719338111373_2_alg».proof.Proof.Gen.KernelIdeal.Launch
import proofs.«137221_j56719338111373_2_alg».proof.Proof.Gen.KernelIdeal.Skeleton
import proofs.«137221_j56719338111373_2_alg».proof.Proof.Gen.KernelIdeal.Points
import Idealize.ShloMosaic.Lib.Pipeline.FrameBody
import Idealize.ShloMosaic.Lib.Ring
import Idealize.ShloMosaic.Lib.Tactic
import proofs.«137221_j56719338111373_2_alg».proof.Proof.LibRun

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S8192x32 := Rect.unit (s := S8192x32) ![0, 0] S8192x32.size inb_S8192x32_S8192x32_0_0

abbrev r3_1 : Rect S64x32 := Rect.unit (s := S64x32) ![0, 0] S64x32.size inb_S64x32_S64x32_0_0

abbrev r3_2 : Rect S1x64 := Rect.unit (s := S1x64) ![0, 0] S1x64.size inb_S1x64_S1x64_0_0

abbrev r3_3 : Rect S8192x64 := Rect.unit (s := S8192x64) ![0, 0] S8192x64.size inb_S8192x64_S8192x64_0_0

def out3_6 (x0 : Vec F S8192x32 .f32) (x1 : Vec F S64x32 .f32) (x2 x3 x4 x5 : Vec F S1x64 .f32) : Vec F S8192x64 .f32 :=
  View.canon [⟨r3_3, k3_pay1 (View.ld x0 r3_0) (View.ld x1 r3_1) (View.ld x2 r3_2) (View.ld x3 r3_2) (View.ld x4 r3_2) (View.ld x5 r3_2)⟩]

set_option maxHeartbeats 1000000 in
theorem sound_kernel3 (c : Dev nD) (E : Set ℕ) (i : grid3.Coords)
    (arg0 : Memref sig .tc .vmem S8192x32 .f32) (harg0 : arg0.IsWhole) (arg1 : Memref sig .tc .vmem S64x32 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S8192x64 .f32) (harg6 : arg6.IsWhole)
    (x0 : Vec F S8192x32 .f32) (x1 : Vec F S64x32 .f32) (x2 x3 x4 x5 : Vec F S1x64 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (out3_6 x0 x1 x2 x3 x4 x5)) -∗ K ⟨⟩))
      ⊢ wp frame (wpE (defs₀ (F := F)) Variants.none c none) E (cc3__norm_kernel i arg0 harg0 arg1 harg1 arg2 harg2 arg3 harg3 arg4 harg4 arg5 harg5 arg6 harg6) K := by
  simp only [cc3__norm_kernel_eq_skeleton]; unfold cc3__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact Cert.Hand.read_writes_whole _ _ Cert.Hand.zeros2 _ _

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]

theorem after3_in (c : Dev nD) (t : Fin cfg3.N) :
    (dat3 V c).after 0 t = iblk3 V c 0 t ∧
    (dat3 V c).after 1 t = iblk3 V c 1 t ∧
    (dat3 V c).after 2 t = iblk3 V c 2 t ∧
    (dat3 V c).after 3 t = iblk3 V c 3 t ∧
    (dat3 V c).after 4 t = iblk3 V c 4 t ∧
    (dat3 V c).after 5 t = iblk3 V c 5 t := by
  refine ⟨?_, ?_, ?_, ?_, ?_, ?_⟩ <;> dsimp only [dat3]

theorem before3_in (c : Dev nD) (t : Fin cfg3.N) :
    (∀ d, (dat3 V c).before 0 t d = iblk3 V c 0 t) ∧
    (∀ d, (dat3 V c).before 1 t d = iblk3 V c 1 t) ∧
    (∀ d, (dat3 V c).before 2 t d = iblk3 V c 2 t) ∧
    (∀ d, (dat3 V c).before 3 t d = iblk3 V c 3 t) ∧
    (∀ d, (dat3 V c).before 4 t d = iblk3 V c 4 t) ∧
    (∀ d, (dat3 V c).before 5 t d = iblk3 V c 5 t) := by
  refine ⟨?_, ?_, ?_, ?_, ?_, ?_⟩ <;>
    exact fun d => (Dat.before_in_eq_fetched _ _ rfl (fun _ => rfl) (fun _ _ _ => rfl)
      (fun t => by simp only [after3_in]; unfold Dat.blockOf iblk3; rw [A_eq3]; try rfl) t d).trans
      (by unfold Dat.fetched Dat.blockOf iblk3; rw [A_eq3]; try rfl)

theorem body_obligation3 (c : Dev nD) : BodyObligation (dat3 (F := F) V c) (defs₀ (F := F)) Variants.none () Set.univ := fun t => by
  rw [bigSep_W3, bigSep_W3]
  show _ ⊢ wp _ _ _ (bodyAt3 t) _
  simp only [before3_in, after3_in, after3_6]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel3
  iframe H0 H1 H2 H3 H4 H5
  isplitl [H6]; · iexists _; iexact H6
  iintro ⟨H0, H1, H2, H3, H4, H5, H6⟩
  iframe

end Region3

end Cert.KernelIdeal.Hand

end
-- ==== Proof.KIReg4.lean ====
import proofs.«137221_j56719338111373_2_alg».proof.Proof.Gen.KernelIdeal.Launch
import proofs.«137221_j56719338111373_2_alg».proof.Proof.Gen.KernelIdeal.Skeleton
import proofs.«137221_j56719338111373_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«137221_j56719338111373_2_alg».proof.Proof.LibRun

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S16384x64 := Rect.unit (s := S16384x64) ![0, 0] S16384x64.size inb_S16384x64_S16384x64_0_0

abbrev r4_w : Rect S32x64 := Rect.unit (s := S32x64) ![0, 0] S32x64.size inb_S32x64_S32x64_0_0

abbrev r4_v : Rect S1x32 := Rect.unit (s := S1x32) ![0, 0] S1x32.size inb_S1x32_S1x32_0_0

abbrev r4_o : Rect S16384x32 := Rect.unit (s := S16384x32) ![0, 0] S16384x32.size inb_S16384x32_S16384x32_0_0

def out4_4 (x0 : Vec F S16384x64 .f32) (x1 : Vec F S32x64 .f32) (x2 x3 : Vec F S1x32 .f32) : Vec F S16384x32 .bf16 :=
  View.canon [⟨r4_o, k4_pay1 (View.ld x0 r4_x) (View.ld x1 r4_w) (View.ld x2 r4_v) (View.ld x3 r4_v)⟩]

theorem hz4 : (![0, 0] : Fin 2 → Nat) = fun _ => 0 := funext fun a => by fin_cases a <;> rfl

set_option maxHeartbeats 1000000 in
theorem sound_kernel4 (c : Dev nD) (E : Set ℕ) (i : grid4.Coords)
    (arg1 : Memref sig .tc .vmem S16384x64 .f32) (harg1 : arg1.IsWhole) (arg2 : Memref sig .tc .vmem S32x64 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S16384x32 .bf16) (harg5 : arg5.IsWhole)
    (x0 : Vec F S16384x64 .f32) (x1 : Vec F S32x64 .f32) (x2 x3 : Vec F S1x32 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__bn_matmul_kernel i arg1 harg1 arg2 harg2 arg3 harg3 arg4 harg4 arg5 harg5) K := by
  simp only [cc4__bn_matmul_kernel_eq_skeleton]; unfold cc4__bn_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact Cert.Hand.read_writes_whole _ _ hz4 _ _

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) :
    (dat4 V c).after 4 t = out4_4 (iblk4 V c 0 t) (iblk4 V c 1 t) (iblk4 V c 2 t) (iblk4 V c 3 t) := by dsimp only [dat4]

theorem after4_in (c : Dev nD) (t : Fin cfg4.N) :
    (dat4 V c).after 0 t = iblk4 V c 0 t ∧
    (dat4 V c).after 1 t = iblk4 V c 1 t ∧
    (dat4 V c).after 2 t = iblk4 V c 2 t ∧
    (dat4 V c).after 3 t = iblk4 V c 3 t := by
  refine ⟨?_, ?_, ?_, ?_⟩ <;> dsimp only [dat4]

theorem before4_in (c : Dev nD) (t : Fin cfg4.N) :
    (∀ d, (dat4 V c).before 0 t d = iblk4 V c 0 t) ∧
    (∀ d, (dat4 V c).before 1 t d = iblk4 V c 1 t) ∧
    (∀ d, (dat4 V c).before 2 t d = iblk4 V c 2 t) ∧
    (∀ d, (dat4 V c).before 3 t d = iblk4 V c 3 t) := by
  refine ⟨?_, ?_, ?_, ?_⟩ <;>
    exact fun d => (Dat.before_in_eq_fetched _ _ rfl (fun _ => rfl) (fun _ _ _ => rfl)
      (fun t => by simp only [after4_in]; unfold Dat.blockOf iblk4; rw [A_eq4]; try rfl) t d).trans
      (by unfold Dat.fetched Dat.blockOf iblk4; rw [A_eq4]; try rfl)

theorem body_obligation4 (c : Dev nD) : BodyObligation (dat4 (F := F) V c) (defs₀ (F := F)) Variants.none () Set.univ := fun t => by
  rw [bigSep_W4, bigSep_W4]
  show _ ⊢ wp _ _ _ (bodyAt4 t) _
  simp only [before4_in, after4_in, after4_4]
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩, ⟨%d3, H3⟩, ⟨%d4, H4⟩⟩
  iapply sound_kernel4
  iframe H0 H1 H2 H3
  isplitl [H4]; · iexists _; iexact H4
  iintro ⟨H0, H1, H2, H3, H4⟩
  iframe

end Region4

end Cert.KernelIdeal.Hand

end
-- ==== Proof.KIReg5.lean ====
import proofs.«137221_j56719338111373_2_alg».proof.Proof.Gen.KernelIdeal.Launch
import proofs.«137221_j56719338111373_2_alg».proof.Proof.Gen.KernelIdeal.Skeleton
import proofs.«137221_j56719338111373_2_alg».proof.Proof.Gen.KernelIdeal.Points
import Idealize.ShloMosaic.Lib.Pipeline.FrameBody
import Idealize.ShloMosaic.Lib.Ring
import Idealize.ShloMosaic.Lib.Tactic
import proofs.«137221_j56719338111373_2_alg».proof.Proof.LibRun

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S512x64x32 := Rect.unit (s := S512x64x32) ![0, 0, 0] S512x64x32.size inb_S512x64x32_S512x64x32_0_0_0

abbrev r5_1 : Rect S64x32 := Rect.unit (s := S64x32) ![0, 0] S64x32.size inb_S64x32_S64x32_0_0

abbrev r5_2 : Rect S512x32 := Rect.unit (s := S512x32) ![0, 0] S512x32.size inb_S512x32_S512x32_0_0

def out5_2 (x0 : Vec F S512x64x32 .bf16) (x1 : Vec F S64x32 .f32) : Vec F S512x32 .f32 :=
  View.canon [⟨r5_2, k5_pay1 (View.ld x0 r5_0) (View.ld x1 r5_1)⟩]

set_option maxHeartbeats 1000000 in
theorem sound_kernel5 (c : Dev nD) (E : Set ℕ) (i : grid5.Coords)
    (arg1 : Memref sig .tc .vmem S512x64x32 .bf16) (harg1 : arg1.IsWhole)
    (arg2 : Memref sig .tc .vmem S64x32 .f32) (harg2 : arg2.IsWhole)
    (arg3 : Memref sig .tc .vmem S512x32 .f32) (harg3 : arg3.IsWhole)
    (x0 : Vec F S512x64x32 .bf16) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__combine_maxpool_kernel i arg1 harg1 arg2 harg2 arg3 harg3) K := by
  simp only [cc5__combine_maxpool_kernel_eq_skeleton]; unfold cc5__combine_maxpool_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact Cert.Hand.read_writes_whole _ _ Cert.Hand.zeros2 _ _

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_2 (c : Dev nD) (t : Fin cfg5.N) : (dat5 V c).after 2 t = out5_2 (iblk5 V c 0 t) (iblk5 V c 1 t) := by dsimp only [dat5]

theorem after5_in (c : Dev nD) (t : Fin cfg5.N) :
    (dat5 V c).after 0 t = iblk5 V c 0 t ∧
    (dat5 V c).after 1 t = iblk5 V c 1 t := by
  refine ⟨?_, ?_⟩ <;> dsimp only [dat5]

theorem before5_in (c : Dev nD) (t : Fin cfg5.N) :
    (∀ d, (dat5 V c).before 0 t d = iblk5 V c 0 t) ∧
    (∀ d, (dat5 V c).before 1 t d = iblk5 V c 1 t) := by
  refine ⟨?_, ?_⟩ <;>
    exact fun d => (Dat.before_in_eq_fetched _ _ rfl (fun _ => rfl) (fun _ _ _ => rfl)
      (fun t => by simp only [after5_in]; unfold Dat.blockOf iblk5; rw [A_eq5]; try rfl) t d).trans
      (by unfold Dat.fetched Dat.blockOf iblk5; rw [A_eq5]; try rfl)

theorem body_obligation5 (c : Dev nD) : BodyObligation (dat5 (F := F) V c) (defs₀ (F := F)) Variants.none () Set.univ := fun t => by
  rw [bigSep_W5, bigSep_W5]
  show _ ⊢ wp _ _ _ (bodyAt5 t) _
  simp only [before5_in, after5_in, after5_2]
  rw [show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩⟩
  iapply sound_kernel5
  iframe H0 H1
  isplitl [H2]; · iexists _; iexact H2
  iintro ⟨H0, H1, H2⟩
  iframe

end Cert.KernelIdeal.Hand

end
-- ==== Proof.KIReg6.lean ====
import proofs.«137221_j56719338111373_2_alg».proof.Proof.Gen.KernelIdeal.Launch
import proofs.«137221_j56719338111373_2_alg».proof.Proof.Gen.KernelIdeal.Skeleton
import proofs.«137221_j56719338111373_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 8 = 0 :=
  (by decide +kernel : ∀ t : Fin grid6.N, cond6_0 (grid6.coords t) ↔ t.val % 8 = 0)

theorem hz6 : (![0, 0] : Fin 2 → Nat) = fun _ => 0 := funext fun a => by fin_cases a <;> rfl

set_option maxHeartbeats 1000000 in
theorem kernelRun6_pt (c : Dev nD) (E : Set ℕ) (i : grid6.Coords) (arg1 : Memref sig .tc .vmem S8192x32 .f32) (harg1 : arg1.IsWhole) (arg2 : Memref sig .tc .vmem S64x32 .f32) (harg2 : arg2.IsWhole) (arg3 : Memref sig .tc .vmem S1x64 .f32) (harg3 : arg3.IsWhole) (arg4 : Memref sig .tc .vmem S1x64 .f32) (harg4 : arg4.IsWhole)
    (x0 : Vec F S8192x32 .f32) (x1 : Vec F S64x32 .f32) (xo2 xo3 a2 a3 : Vec F S1x64 .f32)
    (h : cond6_0 i ∧ a2 = k6_pay1 ∧ a3 = k6_pay2 ∨ ¬cond6_0 i ∧ a2 = xo2 ∧ a3 = xo3) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ (iprop(owns (c : Thread nD τ) arg1 fullShare x0 ∗ owns (c : Thread nD τ) arg2 fullShare x1
            ∗ owns (c : Thread nD τ) arg3 fullShare (k6_pay4 x0 x1 a2)
            ∗ owns (c : Thread nD τ) arg4 fullShare (k6_pay5 x0 x1 a3)) -∗ K ⟨⟩))
      ⊢ wp frame (wpE (defs₀ (F := F)) Variants.none c none) E (cc6__stats_kernel i arg1 harg1 arg2 harg2 arg3 harg3 arg4 harg4) K := by
  simp only [cc6__stats_kernel_eq_skeleton]; unfold cc6__stats_kernel_skel
  unfold owns
  rcases h with ⟨hc0, rfl, rfl⟩ | ⟨hc0, rfl, rfl⟩
  all_goals
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    all_goals
      iexists _; isplitr
      swap; · iassumption
      ipureintro
      refine (View.read_writes_eq_canon _ _ _ (View.cover_of_tiledL _ S1x64.size ?_)).trans ?_
      · sl_kernel_rfl
      sl_unfold_words
      rw [View.canon_cons_unit_zero (S := S1x64) hz6]
      simp only [View.readCov_unit_zero (S := S1x64) _ hz6, View.readAt_eq_ld, harg1.read_unread, harg2.read_unread,
        harg3.read_unread, harg4.read_unread, View.ld_unit_zero (S := S8192x32) hz6, View.ld_unit_zero (S := S64x32) hz6,
        View.ld_unit_zero (S := S1x64) hz6]

def outsAt6 (c : Dev nD) : (n : ℕ) → n < cfg6.N → Vec F S1x64 .f32 × Vec F S1x64 .f32
  | 0, hn => (k6_pay4 (iblk6 V c 0 ⟨0, hn⟩) (iblk6 V c 1 ⟨0, hn⟩) k6_pay1, k6_pay5 (iblk6 V c 0 ⟨0, hn⟩) (iblk6 V c 1 ⟨0, hn⟩) k6_pay2)
  | n + 1, hn =>
    (k6_pay4 (iblk6 V c 0 ⟨n + 1, hn⟩) (iblk6 V c 1 ⟨n + 1, hn⟩) (outsAt6 c n (Nat.lt_of_succ_lt hn)).1,
     k6_pay5 (iblk6 V c 0 ⟨n + 1, hn⟩) (iblk6 V c 1 ⟨n + 1, hn⟩) (outsAt6 c n (Nat.lt_of_succ_lt hn)).2)

theorem outsAt6_A (c : Dev nD) (t : Fin cfg6.N) (h0 : t.val = 0) :
    outsAt6 V c t.val t.isLt = (k6_pay4 (iblk6 V c 0 t) (iblk6 V c 1 t) k6_pay1, k6_pay5 (iblk6 V c 0 t) (iblk6 V c 1 t) k6_pay2) := by
  obtain ⟨n, hn⟩ := t
  cases n with
  | zero => exact rfl
  | succ n => exact absurd h0 (Nat.succ_ne_zero n)

theorem outsAt6_B (c : Dev nD) (t : Fin cfg6.N) (h0 : t.val ≠ 0) :
    outsAt6 V c t.val t.isLt
      = (k6_pay4 (iblk6 V c 0 t) (iblk6 V c 1 t) (outsAt6 V c (t.val - 1) (Nat.lt_of_le_of_lt (Nat.sub_le _ _) t.isLt)).1,
         k6_pay5 (iblk6 V c 0 t) (iblk6 V c 1 t) (outsAt6 V c (t.val - 1) (Nat.lt_of_le_of_lt (Nat.sub_le _ _) t.isLt)).2) := by
  obtain ⟨n, hn⟩ := t
  cases n with
  | zero => exact absurd rfl h0
  | succ n => exact rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
    | ⟨3, _⟩ => (outsAt6 V c t.val t.isLt).2
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_in (c : Dev nD) (t : Fin cfg6.N) :
    (dat6 V c).after 0 t = iblk6 V c 0 t ∧
    (dat6 V c).after 1 t = iblk6 V c 1 t := by
  refine ⟨?_, ?_⟩ <;> dsimp only [dat6]
theorem after6_2 (c : Dev nD) (t : Fin cfg6.N) : (dat6 V c).after 2 t = (outsAt6 V c t.val t.isLt).1 := by dsimp only [dat6]
theorem after6_3 (c : Dev nD) (t : Fin cfg6.N) : (dat6 V c).after 3 t = (outsAt6 V c t.val t.isLt).2 := by dsimp only [dat6]

theorem before6_in (c : Dev nD) (t : Fin cfg6.N) :
    (∀ d, (dat6 V c).before 0 t d = iblk6 V c 0 t) ∧
    (∀ d, (dat6 V c).before 1 t d = iblk6 V c 1 t) := by
  refine ⟨?_, ?_⟩ <;>
    exact fun d => (Dat.before_in_eq_fetched _ _ rfl (fun _ => rfl) (fun _ _ _ => rfl)
      (fun t => by simp only [after6_in]; unfold Dat.blockOf iblk6; rw [A_eq6]; try rfl) t d).trans
      (by unfold Dat.fetched Dat.blockOf iblk6; rw [A_eq6]; try rfl)

theorem before6_acc (c : Dev nD) (t : Fin cfg6.N) (h0 : t.val ≠ 0) :
    (∀ d, (dat6 V c).before 2 t d = (outsAt6 V c (t.val - 1) (Nat.lt_of_le_of_lt (Nat.sub_le _ _) t.isLt)).1) ∧
    (∀ d, (dat6 V c).before 3 t d = (outsAt6 V c (t.val - 1) (Nat.lt_of_le_of_lt (Nat.sub_le _ _) t.isLt)).2) := by
  have hN : t.val < 8 := lt_of_lt_of_eq t.isLt (show cfg6.N = 8 from N_6)
  constructor <;> intro d
  · rw [Dat.before_out_kept _ 2 rfl t h0 (Bool.eq_false_iff.mpr fun h => by have := (flush6_2 _).mp h; dsimp only at this; omega)
      (fun _ => rfl) (fun _ _ => rfl)]
    dsimp only [dat6]
  · rw [Dat.before_out_kept _ 3 rfl t h0 (Bool.eq_false_iff.mpr fun h => by have := (flush6_3 _).mp h; dsimp only at this; omega)
      (fun _ => rfl) (fun _ _ => rfl)]
    dsimp only [dat6]

set_option maxHeartbeats 800000 in
theorem body_obligation6 (c : Dev nD) : BodyObligation (dat6 (F := F) V c) (defs₀ (F := F)) Variants.none () Set.univ := fun t => by
  rw [bigSep_W6, bigSep_W6]
  show _ ⊢ wp _ _ _ (bodyAt6 t) _
  simp only [before6_in, after6_in, after6_2, after6_3]
  rw [show (dat6 V c).Φ t.succ = (dat6 V c).Φ t.castSucc from rfl,
    show (dat6 V c).owesAt () t.succ = (dat6 V c).owesAt () t.castSucc from rfl]
  have hN : t.val < 8 := lt_of_lt_of_eq t.isLt (show cfg6.N = 8 from N_6)
  by_cases h0 : t.val = 0
  · rw [outsAt6_A V c t h0]
    iintro ⟨HΦ, Ho, ⟨%d0, H0⟩, ⟨%d1, H1⟩, ⟨%d2, H2⟩, ⟨%d3, H3⟩⟩
    iapply (kernelRun6_pt c Set.univ (grid6.coords t) _ _ _ _ _ _ _ _ _ _ _ _ _ _
      (.inl ⟨(hcond6_0 t).mpr (by rw [h0]), rfl, rfl⟩) _)
    iframe H0 H1 H2 H3
    iintro ⟨H0, H1, H2, H3⟩
    iframe
  · rw [outsAt6_B V c t h0]
    simp only [before6_acc V c t h0]
    iintro ⟨HΦ, Ho, ⟨%d0, H0⟩, ⟨%d1, H1⟩, ⟨%d2, H2⟩, ⟨%d3, H3⟩⟩
    iapply (kernelRun6_pt c Set.univ (grid6.coords t) _ _ _ _ _ _ _ _ _ _ _ _ _ _
      (.inr ⟨fun h => h0 (by have := (hcond6_0 t).mp h; omega), rfl, rfl⟩) _)
    iframe H0 H1 H2 H3
    iintro ⟨H0, H1, H2, H3⟩
    iframe

end Region6

end Cert.KernelIdeal.Hand

end
-- ==== Proof.KIReg7.lean ====
import proofs.«137221_j56719338111373_2_alg».proof.Proof.Gen.KernelIdeal.Launch
import proofs.«137221_j56719338111373_2_alg».proof.Proof.Gen.KernelIdeal.Skeleton
import proofs.«137221_j56719338111373_2_alg».proof.Proof.Gen.KernelIdeal.Points
import Idealize.ShloMosaic.Lib.Pipeline.FrameBody
import Idealize.ShloMosaic.Lib.Ring
import Idealize.ShloMosaic.Lib.Tactic
import proofs.«137221_j56719338111373_2_alg».proof.Proof.LibRun

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S8192x32 := Rect.unit (s := S8192x32) ![0, 0] S8192x32.size inb_S8192x32_S8192x32_0_0

abbrev r7_1 : Rect S64x32 := Rect.unit (s := S64x32) ![0, 0] S64x32.size inb_S64x32_S64x32_0_0

abbrev r7_2 : Rect S1x64 := Rect.unit (s := S1x64) ![0, 0] S1x64.size inb_S1x64_S1x64_0_0

abbrev r7_3 : Rect S8192x64 := Rect.unit (s := S8192x64) ![0, 0] S8192x64.size inb_S8192x64_S8192x64_0_0

def out7_6 (x0 : Vec F S8192x32 .f32) (x1 : Vec F S64x32 .f32) (x2 x3 x4 x5 : Vec F S1x64 .f32) : Vec F S8192x64 .f32 :=
  View.canon [⟨r7_3, k7_pay1 (View.ld x0 r7_0) (View.ld x1 r7_1) (View.ld x2 r7_2) (View.ld x3 r7_2) (View.ld x4 r7_2) (View.ld x5 r7_2)⟩]

set_option maxHeartbeats 1000000 in
theorem sound_kernel7 (c : Dev nD) (E : Set ℕ) (i : grid7.Coords)
    (arg0 : Memref sig .tc .vmem S8192x32 .f32) (harg0 : arg0.IsWhole) (arg1 : Memref sig .tc .vmem S64x32 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S8192x64 .f32) (harg6 : arg6.IsWhole)
    (x0 : Vec F S8192x32 .f32) (x1 : Vec F S64x32 .f32) (x2 x3 x4 x5 : Vec F S1x64 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (out7_6 x0 x1 x2 x3 x4 x5)) -∗ K ⟨⟩))
      ⊢ wp frame (wpE (defs₀ (F := F)) Variants.none c none) E (cc7__norm_kernel i arg0 harg0 arg1 harg1 arg2 harg2 arg3 harg3 arg4 harg4 arg5 harg5 arg6 harg6) K := by
  simp only [cc7__norm_kernel_eq_skeleton]; unfold cc7__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact Cert.Hand.read_writes_whole _ _ Cert.Hand.zeros2 _ _

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_6 (c : Dev nD) (t : Fin cfg7.N) : (dat7 V c).after 6 t =
    out7_6 (iblk7 V c 0 t) (iblk7 V c 1 t) (iblk7 V c 2 t) (iblk7 V c 3 t) (iblk7 V c 4 t) (iblk7 V c 5 t) := by dsimp only [dat7]

theorem after7_in (c : Dev nD) (t : Fin cfg7.N) :
    (dat7 V c).after 0 t = iblk7 V c 0 t ∧
    (dat7 V c).after 1 t = iblk7 V c 1 t ∧
    (dat7 V c).after 2 t = iblk7 V c 2 t ∧
    (dat7 V c).after 3 t = iblk7 V c 3 t ∧
    (dat7 V c).after 4 t = iblk7 V c 4 t ∧
    (dat7 V c).after 5 t = iblk7 V c 5 t := by
  refine ⟨?_, ?_, ?_, ?_, ?_, ?_⟩ <;> dsimp only [dat7]

theorem before7_in (c : Dev nD) (t : Fin cfg7.N) :
    (∀ d, (dat7 V c).before 0 t d = iblk7 V c 0 t) ∧
    (∀ d, (dat7 V c).before 1 t d = iblk7 V c 1 t) ∧
    (∀ d, (dat7 V c).before 2 t d = iblk7 V c 2 t) ∧
    (∀ d, (dat7 V c).before 3 t d = iblk7 V c 3 t) ∧
    (∀ d, (dat7 V c).before 4 t d = iblk7 V c 4 t) ∧
    (∀ d, (dat7 V c).before 5 t d = iblk7 V c 5 t) := by
  refine ⟨?_, ?_, ?_, ?_, ?_, ?_⟩ <;>
    exact fun d => (Dat.before_in_eq_fetched _ _ rfl (fun _ => rfl) (fun _ _ _ => rfl)
      (fun t => by simp only [after7_in]; unfold Dat.blockOf iblk7; rw [A_eq7]; try rfl) t d).trans
      (by unfold Dat.fetched Dat.blockOf iblk7; rw [A_eq7]; try rfl)

theorem body_obligation7 (c : Dev nD) : BodyObligation (dat7 (F := F) V c) (defs₀ (F := F)) Variants.none () Set.univ := fun t => by
  rw [bigSep_W7, bigSep_W7]
  show _ ⊢ wp _ _ _ (bodyAt7 t) _
  simp only [before7_in, after7_in, after7_6]
  rw [show (dat7 V c).Φ t.succ = (dat7 V c).Φ t.castSucc from rfl,
    show (dat7 V c).owesAt () t.succ = (dat7 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel7
  iframe H0 H1 H2 H3 H4 H5
  isplitl [H6]; · iexists _; iexact H6
  iintro ⟨H0, H1, H2, H3, H4, H5, H6⟩
  iframe

end Region7

end Cert.KernelIdeal.Hand

end
-- ==== Proof.KIRun.lean ====
import proofs.«137221_j56719338111373_2_alg».proof.Proof.Gen.KernelIdeal.Launch
import proofs.«137221_j56719338111373_2_alg».proof.Proof.LibRun
import proofs.«137221_j56719338111373_2_alg».proof.Proof.KIReg0
import proofs.«137221_j56719338111373_2_alg».proof.Proof.KIReg1
import proofs.«137221_j56719338111373_2_alg».proof.Proof.KIReg2
import proofs.«137221_j56719338111373_2_alg».proof.Proof.KIReg3
import proofs.«137221_j56719338111373_2_alg».proof.Proof.KIReg4
import proofs.«137221_j56719338111373_2_alg».proof.Proof.KIReg5
import proofs.«137221_j56719338111373_2_alg».proof.Proof.KIReg6
import proofs.«137221_j56719338111373_2_alg».proof.Proof.KIReg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What item `j` of @main writes: a host stretch's results, a region's output arrays. -/
def wr : ℕ → List (Ref sig .tc)
  | 0 => [main_c, main_c_0, main_v0, main_v1, main_c_1, main_v2, main_v3, main_v4, main_v5, main_v6, main_v7, main_c_2, main_v8, main_v9, main_v10, main_v11, main_v12, main_c_3, main_v13, main_v14, main_v15, main_v16, main_v17, main_v18, main_v19, main_v20, main_v21, main_v22, main_v23]
  | 1 => [main_v24]
  | 2 => [main_cst, main_v25, main_v26, main_v27, main_v28, main_v29, main_v30, main_v31, main_v32, main_v33, main_v34, main_v35, main_c_4, main_c_5]
  | 3 => [main_call0_v0, main_call0_v1, main_call0_v2, main_call0_v3, main_call0_v4, main_v36]
  | 4 => [main_v37, main_v38, main_c_6, main_c_7]
  | 5 => [main_call1_v0, main_call1_v1, main_call1_v2, main_call1_v3, main_call1_v4, main_v39]
  | 6 => [main_v40, main_v41, main_c_8, main_c_9]
  | 7 => [main_call2_v0, main_call2_v1, main_call2_v2, main_call2_v3, main_call2_v4, main_v42]
  | 8 => [main_c_10, main_v43, main_v44, main_c_11, main_v45, main_v46, main_v47, main_c_12, main_v48, main_v49, main_c_13, main_v50, main_v51, main_v52, main_c_14, main_v53, main_v54, main_c_15, main_v55, main_v56, main_v57, main_c_16, main_v58, main_v59, main_c_17, main_v60, main_v61, main_v62, main_v63, main_v64, main_v65, main_v66, main_v67, main_v68, main_c_18, main_v69, main_v70, main_c_19, main_v71, main_v72, main_c_20, main_v73, main_v74, main_v75, main_v76, main_v77, main_v78, main_v79, main_v80, main_v81, main_v82, main_v83, main_v84, main_v85, main_v86, main_v87, main_cst_21, main_v88, main_v89, main_cst_22, main_v90, main_v91, main_v92, main_v93, main_v94, main_cst_23, main_v95, main_v96, main_cst_24, main_v97, main_v98, main_v99, main_v100, main_cst_25, main_v101, main_v102, main_v103, main_v104, main_v105, main_v106, main_v107, main_v108, main_v109, main_v110, main_v111]
  | 9 => [main_v112]
  | 10 => [main_v113, main_v114, main_v115, main_v116]
  | 11 => [main_v117_0, main_v117_1]
  | 12 => [main_cst_26, main_v118, main_v119, main_cst_27, main_v120, main_v121, main_v122, main_v123, main_cst_28, main_v124, main_v125]
  | 13 => [main_v126]
  | 14 => [main_v127, main_c_29, main_v128, main_v129, main_v130, main_v131, main_v132, main_c_30, main_v133, main_v134, main_v135, main_v136, main_v137, main_v138, main_v139, main_v140, main_v141, main_v142, main_v143]
  | 15 => [main_v144]
  | 16 => [main_cst_31, main_v145, main_v146, main_v147, main_v148, main_v149, main_v150, main_v151, main_v152, main_v153, main_v154, main_v155, main_c_32, main_c_33]
  | 17 => [main_call3_v0, main_call3_v1, main_call3_v2, main_call3_v3, main_call3_v4, main_v156]
  | 18 => [main_v157, main_v158, main_c_34, main_c_35]
  | 19 => [main_call4_v0, main_call4_v1, main_call4_v2, main_call4_v3, main_call4_v4, main_v159]
  | 20 => [main_v160, main_v161, main_c_36, main_c_37]
  | 21 => [main_call5_v0, main_call5_v1, main_call5_v2, main_call5_v3, main_call5_v4, main_v162]
  | 22 => [main_c_38, main_v163, main_v164, main_c_39, main_v165, main_v166, main_v167, main_c_40, main_v168, main_v169, main_c_41, main_v170, main_v171, main_v172, main_c_42, main_v173, main_v174, main_c_43, main_v175, main_v176, main_v177, main_c_44, main_v178, main_v179, main_c_45, main_v180, main_v181, main_v182, main_v183, main_v184, main_v185, main_v186, main_v187, main_v188, main_c_46, main_v189, main_v190, main_c_47, main_v191, main_v192, main_c_48, main_v193, main_v194, main_v195, main_v196, main_v197, main_v198, main_v199, main_v200, main_v201, main_v202, main_v203, main_v204, main_v205, main_v206, main_v207, main_cst_49, main_v208, main_v209, main_cst_50, main_v210, main_v211, main_v212, main_v213, main_v214, main_cst_51, main_v215, main_v216, main_cst_52, main_v217, main_v218, main_v219, main_v220, main_cst_53, main_v221, main_v222, main_v223, main_v224, main_v225, main_v226, main_v227, main_v228, main_v229, main_v230, main_v231]
  | 23 => [main_v232]
  | 24 => [main_v233, main_v234, main_v235, main_v236]
  | 25 => [main_v237_0, main_v237_1]
  | 26 => [main_cst_54, main_v238, main_v239, main_cst_55, main_v240, main_v241, main_v242, main_v243, main_cst_56, main_v244, main_v245]
  | 27 => [main_v246]
  | 28 => [main_v247]
  | _ => []

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

abbrev W4 : Dev nD → Valuation τ sig (Elt F) := fun c => StableHlo.after hostOps1_1 (W3 m ρ c)

abbrev W5 : Dev nD → Valuation τ sig (Elt F) := fun c => StableHlo.after hostOps1_2 (W4 m ρ c)

abbrev W6 : Dev nD → Valuation τ sig (Elt F) := fun c => StableHlo.after hostOps1_3 (W5 m ρ c)

abbrev W7 : Dev nD → Valuation τ sig (Elt F) := fun c => StableHlo.after hostOps1_4 (W6 m ρ c)

abbrev W8 : Dev nD → Valuation τ sig (Elt F) := fun c => StableHlo.after hostOps1_5 (W7 m ρ c)

abbrev W9 : Dev nD → Valuation τ sig (Elt F) := fun c => StableHlo.after hostOps1_6 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w

theorem W10_in (c : Dev nD) (w : Fin cfg1.W) (hin : (cfg1.win w).isOut = false) :
    W10 m ρ c (Proc.devRef .tc (Pipeline.arrRef spec1 w)) = W9 m ρ c (Proc.devRef .tc (Pipeline.arrRef spec1 w)) :=
  (W10_arr m ρ c w).trans (((dat1 (V9 m ρ) c).arrAt_in w hin _).trans (A_eq1 (V9 m ρ) c w))

abbrev V10 : (c : Dev nD) → (b : Ref sig .tc) → Buf (Elt F) ((c : Thread nD τ).loc b) := fun c b => W10 m ρ c b

abbrev W11 : Dev nD → Valuation τ sig (Elt F) := fun c => StableHlo.after hostOps2 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w

theorem W12_in (c : Dev nD) (w : Fin cfg2.W) (hin : (cfg2.win w).isOut = false) :
    W12 m ρ c (Proc.devRef .tc (Pipeline.arrRef spec2 w)) = W11 m ρ c (Proc.devRef .tc (Pipeline.arrRef spec2 w)) :=
  (W12_arr m ρ c w).trans (((dat2 (V11 m ρ) c).arrAt_in w hin _).trans (A_eq2 (V11 m ρ) c w))

abbrev V12 : (c : Dev nD) → (b : Ref sig .tc) → Buf (Elt F) ((c : Thread nD τ).loc b) := fun c b => W12 m ρ c b

abbrev W13 : Dev nD → Valuation τ sig (Elt F) := fun c => StableHlo.after hostOps3 (W12 m ρ c)

abbrev V13 : (c : Dev nD) → (b : Ref sig .tc) → Buf (Elt F) ((c : Thread nD τ).loc b) := fun c b => W13 m ρ c b

def W14 (c : Dev nD) : Valuation τ sig (Elt F) :=
  Pipeline.withArrays spec3 c (W13 m ρ c) fun w => (dat3 (V13 m ρ) c).arrAt w cfg3.N
theorem W14_arr (c : Dev nD) (w : Fin cfg3.W) :
    W14 m ρ c (Proc.devRef .tc (Pipeline.arrRef spec3 w)) = (dat3 (V13 m ρ) c).arrAt w cfg3.N := by
  unfold W14; exact Pipeline.withArrays_arr spec3 launch3.win.arr_inj c _ _ w

theorem W14_in (c : Dev nD) (w : Fin cfg3.W) (hin : (cfg3.win w).isOut = false) :
    W14 m ρ c (Proc.devRef .tc (Pipeline.arrRef spec3 w)) = W13 m ρ c (Proc.devRef .tc (Pipeline.arrRef spec3 w)) :=
  (W14_arr m ρ c w).trans (((dat3 (V13 m ρ) c).arrAt_in w hin _).trans (A_eq3 (V13 m ρ) c w))

abbrev V14 : (c : Dev nD) → (b : Ref sig .tc) → Buf (Elt F) ((c : Thread nD τ).loc b) := fun c b => W14 m ρ c b

abbrev W15 : Dev nD → Valuation τ sig (Elt F) := fun c => StableHlo.after hostOps4 (W14 m ρ c)

abbrev V15 : (c : Dev nD) → (b : Ref sig .tc) → Buf (Elt F) ((c : Thread nD τ).loc b) := fun c b => W15 m ρ c b

def W16 (c : Dev nD) : Valuation τ sig (Elt F) :=
  Pipeline.withArrays spec4 c (W15 m ρ c) fun w => (dat4 (V15 m ρ) c).arrAt w cfg4.N
theorem W16_arr (c : Dev nD) (w : Fin cfg4.W) :
    W16 m ρ c (Proc.devRef .tc (Pipeline.arrRef spec4 w)) = (dat4 (V15 m ρ) c).arrAt w cfg4.N := by
  unfold W16; exact Pipeline.withArrays_arr spec4 launch4.win.arr_inj c _ _ w

theorem W16_in (c : Dev nD) (w : Fin cfg4.W) (hin : (cfg4.win w).isOut = false) :
    W16 m ρ c (Proc.devRef .tc (Pipeline.arrRef spec4 w)) = W15 m ρ c (Proc.devRef .tc (Pipeline.arrRef spec4 w)) :=
  (W16_arr m ρ c w).trans (((dat4 (V15 m ρ) c).arrAt_in w hin _).trans (A_eq4 (V15 m ρ) c w))

abbrev V16 : (c : Dev nD) → (b : Ref sig .tc) → Buf (Elt F) ((c : Thread nD τ).loc b) := fun c b => W16 m ρ c b

abbrev W17 : Dev nD → Valuation τ sig (Elt F) := fun c => StableHlo.after hostOps5 (W16 m ρ c)

abbrev W18 : Dev nD → Valuation τ sig (Elt F) := fun c => StableHlo.after hostOps5_1 (W17 m ρ c)

abbrev W19 : Dev nD → Valuation τ sig (Elt F) := fun c => StableHlo.after hostOps5_2 (W18 m ρ c)

abbrev W20 : Dev nD → Valuation τ sig (Elt F) := fun c => StableHlo.after hostOps5_3 (W19 m ρ c)

abbrev W21 : Dev nD → Valuation τ sig (Elt F) := fun c => StableHlo.after hostOps5_4 (W20 m ρ c)

abbrev W22 : Dev nD → Valuation τ sig (Elt F) := fun c => StableHlo.after hostOps5_5 (W21 m ρ c)

abbrev W23 : Dev nD → Valuation τ sig (Elt F) := fun c => StableHlo.after hostOps5_6 (W22 m ρ c)

abbrev V23 : (c : Dev nD) → (b : Ref sig .tc) → Buf (Elt F) ((c : Thread nD τ).loc b) := fun c b => W23 m ρ c b

def W24 (c : Dev nD) : Valuation τ sig (Elt F) :=
  Pipeline.withArrays spec5 c (W23 m ρ c) fun w => (dat5 (V23 m ρ) c).arrAt w cfg5.N
theorem W24_arr (c : Dev nD) (w : Fin cfg5.W) :
    W24 m ρ c (Proc.devRef .tc (Pipeline.arrRef spec5 w)) = (dat5 (V23 m ρ) c).arrAt w cfg5.N := by
  unfold W24; exact Pipeline.withArrays_arr spec5 launch5.win.arr_inj c _ _ w

theorem W24_in (c : Dev nD) (w : Fin cfg5.W) (hin : (cfg5.win w).isOut = false) :
    W24 m ρ c (Proc.devRef .tc (Pipeline.arrRef spec5 w)) = W23 m ρ c (Proc.devRef .tc (Pipeline.arrRef spec5 w)) :=
  (W24_arr m ρ c w).trans (((dat5 (V23 m ρ) c).arrAt_in w hin _).trans (A_eq5 (V23 m ρ) c w))

abbrev V24 : (c : Dev nD) → (b : Ref sig .tc) → Buf (Elt F) ((c : Thread nD τ).loc b) := fun c b => W24 m ρ c b

abbrev W25 : Dev nD → Valuation τ sig (Elt F) := fun c => StableHlo.after hostOps6 (W24 m ρ c)

abbrev V25 : (c : Dev nD) → (b : Ref sig .tc) → Buf (Elt F) ((c : Thread nD τ).loc b) := fun c b => W25 m ρ c b

def W26 (c : Dev nD) : Valuation τ sig (Elt F) :=
  Pipeline.withArrays spec6 c (W25 m ρ c) fun w => (dat6 (V25 m ρ) c).arrAt w cfg6.N
theorem W26_arr (c : Dev nD) (w : Fin cfg6.W) :
    W26 m ρ c (Proc.devRef .tc (Pipeline.arrRef spec6 w)) = (dat6 (V25 m ρ) c).arrAt w cfg6.N := by
  unfold W26; exact Pipeline.withArrays_arr spec6 launch6.win.arr_inj c _ _ w

theorem W26_in (c : Dev nD) (w : Fin cfg6.W) (hin : (cfg6.win w).isOut = false) :
    W26 m ρ c (Proc.devRef .tc (Pipeline.arrRef spec6 w)) = W25 m ρ c (Proc.devRef .tc (Pipeline.arrRef spec6 w)) :=
  (W26_arr m ρ c w).trans (((dat6 (V25 m ρ) c).arrAt_in w hin _).trans (A_eq6 (V25 m ρ) c w))

abbrev V26 : (c : Dev nD) → (b : Ref sig .tc) → Buf (Elt F) ((c : Thread nD τ).loc b) := fun c b => W26 m ρ c b

abbrev W27 : Dev nD → Valuation τ sig (Elt F) := fun c => StableHlo.after hostOps7 (W26 m ρ c)

abbrev V27 : (c : Dev nD) → (b : Ref sig .tc) → Buf (Elt F) ((c : Thread nD τ).loc b) := fun c b => W27 m ρ c b

def W28 (c : Dev nD) : Valuation τ sig (Elt F) :=
  Pipeline.withArrays spec7 c (W27 m ρ c) fun w => (dat7 (V27 m ρ) c).arrAt w cfg7.N
theorem W28_arr (c : Dev nD) (w : Fin cfg7.W) :
    W28 m ρ c (Proc.devRef .tc (Pipeline.arrRef spec7 w)) = (dat7 (V27 m ρ) c).arrAt w cfg7.N := by
  unfold W28; exact Pipeline.withArrays_arr spec7 launch7.win.arr_inj c _ _ w

theorem W28_in (c : Dev nD) (w : Fin cfg7.W) (hin : (cfg7.win w).isOut = false) :
    W28 m ρ c (Proc.devRef .tc (Pipeline.arrRef spec7 w)) = W27 m ρ c (Proc.devRef .tc (Pipeline.arrRef spec7 w)) :=
  (W28_arr m ρ c w).trans (((dat7 (V27 m ρ) c).arrAt_in w hin _).trans (A_eq7 (V27 m ρ) c w))

abbrev V28 : (c : Dev nD) → (b : Ref sig .tc) → Buf (Elt F) ((c : Thread nD τ).loc b) := fun c b => W28 m ρ c b

abbrev W29 : Dev nD → Valuation τ sig (Elt F) := fun c => StableHlo.after hostOps8 (W28 m ρ c)

/-- The buffer contents at boundary `j` of @main's 29 items. -/
def Wn : ℕ → Dev nD → Valuation τ sig (Elt F)
  | 0 => W0 m ρ | 1 => W1 m ρ | 2 => W2 m ρ | 3 => W3 m ρ | 4 => W4 m ρ | 5 => W5 m ρ | 6 => W6 m ρ | 7 => W7 m ρ | 8 => W8 m ρ | 9 => W9 m ρ | 10 => W10 m ρ | 11 => W11 m ρ | 12 => W12 m ρ | 13 => W13 m ρ | 14 => W14 m ρ | 15 => W15 m ρ | 16 => W16 m ρ | 17 => W17 m ρ | 18 => W18 m ρ | 19 => W19 m ρ | 20 => W20 m ρ | 21 => W21 m ρ | 22 => W22 m ρ | 23 => W23 m ρ | 24 => W24 m ρ | 25 => W25 m ρ | 26 => W26 m ρ | 27 => W27 m ρ | 28 => W28 m ρ | _ => W29 m ρ

theorem s0 (c : Dev nD) (b : Ref sig .tc) (h : b ∉ wr 0) : W1 m ρ c (Proc.devRef .tc b) = W0 m ρ c (Proc.devRef .tc b) := host_keep hostOps0 _ rfl _ b h
theorem s1 (c : Dev nD) (b : Ref sig .tc) (h : b ∉ wr 1) : W2 m ρ c (Proc.devRef .tc b) = W1 m ρ c (Proc.devRef .tc b) :=
  reg_keep (fun w hw => W2_in m ρ c w ((show ∀ w, Pipeline.arrRef spec0 w ∉ wr 1 → (cfg0.win w).isOut = false by decide) w hw)) b h
theorem s2 (c : Dev nD) (b : Ref sig .tc) (h : b ∉ wr 2) : W3 m ρ c (Proc.devRef .tc b) = W2 m ρ c (Proc.devRef .tc b) := host_keep hostOps1 _ rfl _ b h
theorem s3 (c : Dev nD) (b : Ref sig .tc) (h : b ∉ wr 3) : W4 m ρ c (Proc.devRef .tc b) = W3 m ρ c (Proc.devRef .tc b) := host_keep hostOps1_1 _ rfl _ b h
theorem s4 (c : Dev nD) (b : Ref sig .tc) (h : b ∉ wr 4) : W5 m ρ c (Proc.devRef .tc b) = W4 m ρ c (Proc.devRef .tc b) := host_keep hostOps1_2 _ rfl _ b h
theorem s5 (c : Dev nD) (b : Ref sig .tc) (h : b ∉ wr 5) : W6 m ρ c (Proc.devRef .tc b) = W5 m ρ c (Proc.devRef .tc b) := host_keep hostOps1_3 _ rfl _ b h
theorem s6 (c : Dev nD) (b : Ref sig .tc) (h : b ∉ wr 6) : W7 m ρ c (Proc.devRef .tc b) = W6 m ρ c (Proc.devRef .tc b) := host_keep hostOps1_4 _ rfl _ b h
theorem s7 (c : Dev nD) (b : Ref sig .tc) (h : b ∉ wr 7) : W8 m ρ c (Proc.devRef .tc b) = W7 m ρ c (Proc.devRef .tc b) := host_keep hostOps1_5 _ rfl _ b h
theorem s8 (c : Dev nD) (b : Ref sig .tc) (h : b ∉ wr 8) : W9 m ρ c (Proc.devRef .tc b) = W8 m ρ c (Proc.devRef .tc b) := host_keep hostOps1_6 _ rfl _ b h
theorem s9 (c : Dev nD) (b : Ref sig .tc) (h : b ∉ wr 9) : W10 m ρ c (Proc.devRef .tc b) = W9 m ρ c (Proc.devRef .tc b) :=
  reg_keep (fun w hw => W10_in m ρ c w ((show ∀ w, Pipeline.arrRef spec1 w ∉ wr 9 → (cfg1.win w).isOut = false by decide) w hw)) b h
theorem s10 (c : Dev nD) (b : Ref sig .tc) (h : b ∉ wr 10) : W11 m ρ c (Proc.devRef .tc b) = W10 m ρ c (Proc.devRef .tc b) := host_keep hostOps2 _ rfl _ b h
theorem s11 (c : Dev nD) (b : Ref sig .tc) (h : b ∉ wr 11) : W12 m ρ c (Proc.devRef .tc b) = W11 m ρ c (Proc.devRef .tc b) :=
  reg_keep (fun w hw => W12_in m ρ c w ((show ∀ w, Pipeline.arrRef spec2 w ∉ wr 11 → (cfg2.win w).isOut = false by decide) w hw)) b h
theorem s12 (c : Dev nD) (b : Ref sig .tc) (h : b ∉ wr 12) : W13 m ρ c (Proc.devRef .tc b) = W12 m ρ c (Proc.devRef .tc b) := host_keep hostOps3 _ rfl _ b h
theorem s13 (c : Dev nD) (b : Ref sig .tc) (h : b ∉ wr 13) : W14 m ρ c (Proc.devRef .tc b) = W13 m ρ c (Proc.devRef .tc b) :=
  reg_keep (fun w hw => W14_in m ρ c w ((show ∀ w, Pipeline.arrRef spec3 w ∉ wr 13 → (cfg3.win w).isOut = false by decide) w hw)) b h
theorem s14 (c : Dev nD) (b : Ref sig .tc) (h : b ∉ wr 14) : W15 m ρ c (Proc.devRef .tc b) = W14 m ρ c (Proc.devRef .tc b) := host_keep hostOps4 _ rfl _ b h
theorem s15 (c : Dev nD) (b : Ref sig .tc) (h : b ∉ wr 15) : W16 m ρ c (Proc.devRef .tc b) = W15 m ρ c (Proc.devRef .tc b) :=
  reg_keep (fun w hw => W16_in m ρ c w ((show ∀ w, Pipeline.arrRef spec4 w ∉ wr 15 → (cfg4.win w).isOut = false by decide) w hw)) b h
theorem s16 (c : Dev nD) (b : Ref sig .tc) (h : b ∉ wr 16) : W17 m ρ c (Proc.devRef .tc b) = W16 m ρ c (Proc.devRef .tc b) := host_keep hostOps5 _ rfl _ b h
theorem s17 (c : Dev nD) (b : Ref sig .tc) (h : b ∉ wr 17) : W18 m ρ c (Proc.devRef .tc b) = W17 m ρ c (Proc.devRef .tc b) := host_keep hostOps5_1 _ rfl _ b h
theorem s18 (c : Dev nD) (b : Ref sig .tc) (h : b ∉ wr 18) : W19 m ρ c (Proc.devRef .tc b) = W18 m ρ c (Proc.devRef .tc b) := host_keep hostOps5_2 _ rfl _ b h
theorem s19 (c : Dev nD) (b : Ref sig .tc) (h : b ∉ wr 19) : W20 m ρ c (Proc.devRef .tc b) = W19 m ρ c (Proc.devRef .tc b) := host_keep hostOps5_3 _ rfl _ b h
theorem s20 (c : Dev nD) (b : Ref sig .tc) (h : b ∉ wr 20) : W21 m ρ c (Proc.devRef .tc b) = W20 m ρ c (Proc.devRef .tc b) := host_keep hostOps5_4 _ rfl _ b h
theorem s21 (c : Dev nD) (b : Ref sig .tc) (h : b ∉ wr 21) : W22 m ρ c (Proc.devRef .tc b) = W21 m ρ c (Proc.devRef .tc b) := host_keep hostOps5_5 _ rfl _ b h
theorem s22 (c : Dev nD) (b : Ref sig .tc) (h : b ∉ wr 22) : W23 m ρ c (Proc.devRef .tc b) = W22 m ρ c (Proc.devRef .tc b) := host_keep hostOps5_6 _ rfl _ b h
theorem s23 (c : Dev nD) (b : Ref sig .tc) (h : b ∉ wr 23) : W24 m ρ c (Proc.devRef .tc b) = W23 m ρ c (Proc.devRef .tc b) :=
  reg_keep (fun w hw => W24_in m ρ c w ((show ∀ w, Pipeline.arrRef spec5 w ∉ wr 23 → (cfg5.win w).isOut = false by decide) w hw)) b h
theorem s24 (c : Dev nD) (b : Ref sig .tc) (h : b ∉ wr 24) : W25 m ρ c (Proc.devRef .tc b) = W24 m ρ c (Proc.devRef .tc b) := host_keep hostOps6 _ rfl _ b h
theorem s25 (c : Dev nD) (b : Ref sig .tc) (h : b ∉ wr 25) : W26 m ρ c (Proc.devRef .tc b) = W25 m ρ c (Proc.devRef .tc b) :=
  reg_keep (fun w hw => W26_in m ρ c w ((show ∀ w, Pipeline.arrRef spec6 w ∉ wr 25 → (cfg6.win w).isOut = false by decide) w hw)) b h
theorem s26 (c : Dev nD) (b : Ref sig .tc) (h : b ∉ wr 26) : W27 m ρ c (Proc.devRef .tc b) = W26 m ρ c (Proc.devRef .tc b) := host_keep hostOps7 _ rfl _ b h
theorem s27 (c : Dev nD) (b : Ref sig .tc) (h : b ∉ wr 27) : W28 m ρ c (Proc.devRef .tc b) = W27 m ρ c (Proc.devRef .tc b) :=
  reg_keep (fun w hw => W28_in m ρ c w ((show ∀ w, Pipeline.arrRef spec7 w ∉ wr 27 → (cfg7.win w).isOut = false by decide) w hw)) b h
theorem s28 (c : Dev nD) (b : Ref sig .tc) (h : b ∉ wr 28) : W29 m ρ c (Proc.devRef .tc b) = W28 m ρ c (Proc.devRef .tc b) := host_keep hostOps8 _ rfl _ b h

/-- Item `j` leaves what it does not write. -/
theorem step (c : Dev nD) (b : Ref sig .tc) : ∀ j, j < 29 → b ∉ wr j →
    Wn m ρ (j + 1) c (Proc.devRef .tc b) = Wn m ρ j c (Proc.devRef .tc b)
  | 0, _, h => s0 m ρ c b h | 1, _, h => s1 m ρ c b h | 2, _, h => s2 m ρ c b h | 3, _, h => s3 m ρ c b h | 4, _, h => s4 m ρ c b h | 5, _, h => s5 m ρ c b h | 6, _, h => s6 m ρ c b h
  | 7, _, h => s7 m ρ c b h | 8, _, h => s8 m ρ c b h | 9, _, h => s9 m ρ c b h | 10, _, h => s10 m ρ c b h | 11, _, h => s11 m ρ c b h | 12, _, h => s12 m ρ c b h | 13, _, h => s13 m ρ c b h
  | 14, _, h => s14 m ρ c b h | 15, _, h => s15 m ρ c b h | 16, _, h => s16 m ρ c b h | 17, _, h => s17 m ρ c b h | 18, _, h => s18 m ρ c b h | 19, _, h => s19 m ρ c b h | 20, _, h => s20 m ρ c b h
  | 21, _, h => s21 m ρ c b h | 22, _, h => s22 m ρ c b h | 23, _, h => s23 m ρ c b h | 24, _, h => s24 m ρ c b h | 25, _, h => s25 m ρ c b h | 26, _, h => s26 m ρ c b h | 27, _, h => s27 m ρ c b h
  | 28, _, h => s28 m ρ c b h
  | _ + 29, hj, _ => absurd hj (by omega)

/-- @main is single-assignment: between two boundaries a reference reads the same unless an item between them writes it. -/
theorem keep (c : Dev nD) (b : Ref sig .tc) (i j : ℕ) {A B : Dev nD → Valuation τ sig (Elt F)} (hA : Wn m ρ j = A) (hB : Wn m ρ i = B)
    (h : ∀ k, i ≤ k → k < j → b ∉ wr k) (hij : i ≤ j := by decide) (hj : j ≤ 29 := by decide) :
    A c (Proc.devRef .tc b) = B c (Proc.devRef .tc b) := by
  subst hA hB
  exact keep_of_step (fun j => Wn m ρ j c (Proc.devRef .tc b)) wr b 29 (step m ρ c b) i j hij hj h

theorem arg_kept (c : Dev nD) (b : Ref sig .tc) (h : ∀ k, 0 ≤ k → k < 29 → b ∉ wr k) :
    W29 m ρ c (Proc.devRef .tc b) = m ((c : Thread nD τ).loc b) :=
  keep m ρ c b 0 29 (A := W29 m ρ) (B := W0 m ρ) rfl rfl h

abbrev adm : (p : Fin 8) → (pcfgs (F := F) p).Adm := fun p => (cfgs p).toPCfg_adm

/-- Each pipeline's proof data at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V9 m ρ) c
  | ⟨2, _⟩ => fun c => dat2 (V11 m ρ) c
  | ⟨3, _⟩ => fun c => dat3 (V13 m ρ) c
  | ⟨4, _⟩ => fun c => dat4 (V15 m ρ) c
  | ⟨5, _⟩ => fun c => dat5 (V23 m ρ) c
  | ⟨6, _⟩ => fun c => dat6 (V25 m ρ) c
  | ⟨7, _⟩ => fun c => dat7 (V27 m ρ) c
abbrev 𝒱₀ : Variants := Variants.none

abbrev L : GSem nD τ sig → Finset Unit := fun _ => ∅
abbrev lv : GSem nD τ sig → Unit → ℕ := fun _ _ => 0

def reg0 := regOf cfgs (pdats m ρ) defs₀ 𝒱₀ L lv 0 launch0 (W1 m ρ) (body_obligation0 (V1 m ρ)) (fun _ _ => rfl) (fun _ _ => trivial) (fun _ _ => rfl) (fun _ _ => rfl) (fun _ _ => rfl)
def reg1 := regOf cfgs (pdats m ρ) defs₀ 𝒱₀ L lv 1 launch1 (W9 m ρ) (body_obligation1 (V9 m ρ)) (fun _ _ => rfl) (fun _ _ => trivial) (fun _ _ => rfl) (fun _ _ => rfl) (fun _ _ => rfl)
def reg2 := regOf cfgs (pdats m ρ) defs₀ 𝒱₀ L lv 2 launch2 (W11 m ρ) (body_obligation2 (V11 m ρ)) (fun _ _ => rfl) (fun _ _ => trivial) (fun _ _ => rfl) (fun _ _ => rfl) (fun _ _ => rfl)
def reg3 := regOf cfgs (pdats m ρ) defs₀ 𝒱₀ L lv 3 launch3 (W13 m ρ) (body_obligation3 (V13 m ρ)) (fun _ _ => rfl) (fun _ _ => trivial) (fun _ _ => rfl) (fun _ _ => rfl) (fun _ _ => rfl)
def reg4 := regOf cfgs (pdats m ρ) defs₀ 𝒱₀ L lv 4 launch4 (W15 m ρ) (body_obligation4 (V15 m ρ)) (fun _ _ => rfl) (fun _ _ => trivial) (fun _ _ => rfl) (fun _ _ => rfl) (fun _ _ => rfl)
def reg5 := regOf cfgs (pdats m ρ) defs₀ 𝒱₀ L lv 5 launch5 (W23 m ρ) (body_obligation5 (V23 m ρ)) (fun _ _ => rfl) (fun _ _ => trivial) (fun _ _ => rfl) (fun _ _ => rfl) (fun _ _ => rfl)
def reg6 := regOf cfgs (pdats m ρ) defs₀ 𝒱₀ L lv 6 launch6 (W25 m ρ) (body_obligation6 (V25 m ρ)) (fun _ _ => rfl) (fun _ _ => trivial) (fun _ _ => rfl) (fun _ _ => rfl) (fun _ _ => rfl)
def reg7 := regOf cfgs (pdats m ρ) defs₀ 𝒱₀ L lv 7 launch7 (W27 m ρ) (body_obligation7 (V27 m ρ)) (fun _ _ => rfl) (fun _ _ => trivial) (fun _ _ => rfl) (fun _ _ => rfl) (fun _ _ => rfl)

abbrev segs : List (Pipeline.Seg (pcfgs (F := F)) adm (pdats m ρ) () defs₀ 𝒱₀ L lv) :=
  [ .host (hseg hostOps0 hostOps0_sub rfl (W0 m ρ)),
    .region (reg0 m ρ),
    .host (hseg hostOps1 hostOps1_sub rfl (W2 m ρ)),
    .host (hseg hostOps1_1 hostOps1_1_sub rfl (W3 m ρ)),
    .host (hseg hostOps1_2 hostOps1_2_sub rfl (W4 m ρ)),
    .host (hseg hostOps1_3 hostOps1_3_sub rfl (W5 m ρ)),
    .host (hseg hostOps1_4 hostOps1_4_sub rfl (W6 m ρ)),
    .host (hseg hostOps1_5 hostOps1_5_sub rfl (W7 m ρ)),
    .host (hseg hostOps1_6 hostOps1_6_sub rfl (W8 m ρ)),
    .region (reg1 m ρ),
    .host (hseg hostOps2 hostOps2_sub rfl (W10 m ρ)),
    .region (reg2 m ρ),
    .host (hseg hostOps3 hostOps3_sub rfl (W12 m ρ)),
    .region (reg3 m ρ),
    .host (hseg hostOps4 hostOps4_sub rfl (W14 m ρ)),
    .region (reg4 m ρ),
    .host (hseg hostOps5 hostOps5_sub rfl (W16 m ρ)),
    .host (hseg hostOps5_1 hostOps5_1_sub rfl (W17 m ρ)),
    .host (hseg hostOps5_2 hostOps5_2_sub rfl (W18 m ρ)),
    .host (hseg hostOps5_3 hostOps5_3_sub rfl (W19 m ρ)),
    .host (hseg hostOps5_4 hostOps5_4_sub rfl (W20 m ρ)),
    .host (hseg hostOps5_5 hostOps5_5_sub rfl (W21 m ρ)),
    .host (hseg hostOps5_6 hostOps5_6_sub rfl (W22 m ρ)),
    .region (reg5 m ρ),
    .host (hseg hostOps6 hostOps6_sub rfl (W24 m ρ)),
    .region (reg6 m ρ),
    .host (hseg hostOps7 hostOps7_sub rfl (W26 m ρ)),
    .region (reg7 m ρ),
    .host (hseg hostOps8 hostOps8_sub rfl (W28 m ρ)) ]
theorem main_run (c : Dev nD) : main (F := F) c = Pipeline.Seg.run (segs m ρ) := (main_chain c).trans (by chain_rfl)

theorem run_all : θ_run defs (onTc (τ := τ) (main (F := F))) ⟨m, fun _ => 0, ρ⟩ (fun r => ∀ c : Dev nD,
      ∀ b ∈ Pipeline.ucRefs τ sig, r.2.mem ((c : Thread nD τ).1, b) = W29 m ρ c b) :=
  run_held cfgs cellOf_inj (pdats m ρ) defs₀ 𝒱₀ L lv (fun _ _ => rfl) m ρ main (segs m ρ) (main_run m ρ)
    (by simp only [segs, Pipeline.Seg.pipes_host, Pipeline.Seg.pipes_region, Pipeline.Seg.pipes_nil]; decide)
    (W29 m ρ) (by (repeat refine ⟨fun _ => .rfl, ?_⟩); exact fun _ => .rfl)

abbrev args : List (Ref sig .tc) := [main_arg0, main_arg1, main_arg2, main_arg3, main_arg4, main_arg5, main_arg6, main_arg7, main_arg8, main_arg9, main_arg10, main_arg11, main_arg12, main_arg13, main_arg14, main_arg15]

theorem args_ok : ∀ a ∈ args, ¬ (Proc.devRef .tc a : DevRef τ sig).isScoped ∧ ∀ k, 0 ≤ k → k < 29 → a ∉ wr k :=
  List.forall_iff_forall_mem.mp (by dsimp only [args, List.Forall]; (repeat' apply And.intro); all_goals decide)

/-- No item of @main writes an argument, so a memory that holds the unscoped buffers at the last boundary holds each argument at its launch contents. -/
theorem args_of_run (c : Dev nD) {mem : MemSt nD τ sig (Elt F)}
    (h : ∀ b ∈ Pipeline.ucRefs τ sig, mem.mem ((c : Thread nD τ).1, b) = W29 m ρ c b) :
    args.Forall fun a => mem.mem ((c.tc : Thread nD τ).loc a) = m ((c.tc : Thread nD τ).loc a) :=
  List.forall_iff_forall_mem.mpr fun a ha => (h _ (mem_uc a (args_ok a ha).1)).trans (arg_kept m ρ c a (args_ok a ha).2)

theorem frame : θ_run defs (onTc (τ := τ) (main (F := F))) ⟨m, fun _ => 0, ρ⟩ (fun r => ∀ c : Dev nD,
      args.Forall fun a => r.2.mem ((c.tc : Thread nD τ).loc a) = m ((c.tc : Thread nD τ).loc a)) :=
  (θ_run defs (onTc (τ := τ) (main (F := F))) ⟨m, fun _ => 0, ρ⟩).2 (fun r h c => args_of_run m ρ c (h c)) (run_all m ρ)

end Cert.KernelIdeal.Hand

end
-- ==== Proof.RefOps.lean ====
/- The reference's @main as lists of its host operations, one list per printed window main_partN, in order; a call
   fn_NAME.body a… main_callK stands as the callee's operations at the arguments a… over the record main_callK
   (and so for the calls inside it). 551 operations: 82 + 75 + 106 + 84 + 75 + 84 + 45. -/
import proofs.«137221_j56719338111373_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 82 operations of main_part0. -/
def ops_part0 : List (HloOp τ sig (Elt F)) :=
  [ StableHlo.nullary main_c (fun i => lit0 (S4.rowMajor i)),
    StableHlo.nullary main_c_0 (constantI S_ 32 0#32),
    StableHlo.unary main_c_0 main_v0 (broadcastInDim S4 ![] bcast_S_S4 : (⟨S_, .i32⟩ : BufTy).Contents (Elt F) → (⟨S4, .i32⟩ : BufTy).Contents (Elt F)),
    StableHlo.binary main_c main_v0 main_v1 (cmpi .slt : (⟨S4, .i32⟩ : BufTy).Contents (Elt F) → (⟨S4, .i32⟩ : BufTy).Contents (Elt F) → (⟨S4, .i1⟩ : BufTy).Contents (Elt F)),
    StableHlo.nullary main_c_1 (constantI S_ 32 4#32),
    StableHlo.unary main_c_1 main_v2 (broadcastInDim S4 ![] bcast_S_S4 : (⟨S_, .i32⟩ : BufTy).Contents (Elt F) → (⟨S4, .i32⟩ : BufTy).Contents (Elt F)),
    StableHlo.binary main_c main_v2 main_v3 (addi : (⟨S4, .i32⟩ : BufTy).Contents (Elt F) → (⟨S4, .i32⟩ : BufTy).Contents (Elt F) → (⟨S4, .i32⟩ : BufTy).Contents (Elt F)),
    StableHlo.ternary main_v1 main_v3 main_c main_v4 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v4 main_v5 (broadcastInDim S4x1 ![0] bcast_S4_S4x1_0 : (⟨S4, .i32⟩ : BufTy).Contents (Elt F) → (⟨S4x1, .i32⟩ : BufTy).Contents (Elt F)),
    StableHlo.binary main_arg4 main_v5 main_v6 ((fun x i => Host.gather gather_S65536x4_S4x1_S65536x4_0_1_n_n_1_1_655361 x i) : (⟨S65536x4, .i32⟩ : BufTy).Contents (Elt F) → (⟨S4x1, .i32⟩ : BufTy).Contents (Elt F) → (⟨S65536x4, .i32⟩ : BufTy).Contents (Elt F)),
    StableHlo.nullary main_v7 (iotaInDim S2 32 0),
    StableHlo.nullary main_c_2 (constantI S_ 32 4294967295#32),
    StableHlo.unary main_c_2 main_v8 (broadcastInDim S2 ![] bcast_S_S2 : (⟨S_, .i32⟩ : BufTy).Contents (Elt F) → (⟨S2, .i32⟩ : BufTy).Contents (Elt F)),
    StableHlo.binary main_v8 main_v7 main_v9 (addi : (⟨S2, .i32⟩ : BufTy).Contents (Elt F) → (⟨S2, .i32⟩ : BufTy).Contents (Elt F) → (⟨S2, .i32⟩ : BufTy).Contents (Elt F)),
    StableHlo.unary main_v9 main_v10 (broadcastInDim S2x2x2 ![0] bcast_S2_S2x2x2_0 : (⟨S2, .i32⟩ : BufTy).Contents (Elt F) → (⟨S2x2x2, .i32⟩ : BufTy).Contents (Elt F)),
    StableHlo.unary main_v9 main_v11 (broadcastInDim S2x2x2 ![1] bcast_S2_S2x2x2_1 : (⟨S2, .i32⟩ : BufTy).Contents (Elt F) → (⟨S2x2x2, .i32⟩ : BufTy).Contents (Elt F)),
    StableHlo.unary main_v9 main_v12 (broadcastInDim S2x2x2 ![2] bcast_S2_S2x2x2_2 : (⟨S2, .i32⟩ : BufTy).Contents (Elt F) → (⟨S2x2x2, .i32⟩ : BufTy).Contents (Elt F)),
    StableHlo.nullary main_c_3 (constantI S_ 32 0#32),
    StableHlo.unary main_c_3 main_v13 (broadcastInDim S2x2x2 ![] bcast_S_S2x2x2 : (⟨S_, .i32⟩ : BufTy).Contents (Elt F) → (⟨S2x2x2, .i32⟩ : BufTy).Contents (Elt F)),
    StableHlo.unary main_v13 main_v14 (broadcastInDim S2x2x2x1 ![0, 1, 2] bcast_S2x2x2_S2x2x2x1_0_1_2 : (⟨S2x2x2, .i32⟩ : BufTy).Contents (Elt F) → (⟨S2x2x2x1, .i32⟩ : BufTy).Contents (Elt F)),
    StableHlo.unary main_v12 main_v15 (broadcastInDim S2x2x2x1 ![0, 1, 2] bcast_S2x2x2_S2x2x2x1_0_1_2 : (⟨S2x2x2, .i32⟩ : BufTy).Contents (Elt F) → (⟨S2x2x2x1, .i32⟩ : BufTy).Contents (Elt F)),
    StableHlo.unary main_v11 main_v16 (broadcastInDim S2x2x2x1 ![0, 1, 2] bcast_S2x2x2_S2x2x2x1_0_1_2 : (⟨S2x2x2, .i32⟩ : BufTy).Contents (Elt F) → (⟨S2x2x2x1, .i32⟩ : BufTy).Contents (Elt F)),
    StableHlo.unary main_v10 main_v17 (broadcastInDim S2x2x2x1 ![0, 1, 2] bcast_S2x2x2_S2x2x2x1_0_1_2 : (⟨S2x2x2, .i32⟩ : BufTy).Contents (Elt F) → (⟨S2x2x2x1, .i32⟩ : BufTy).Contents (Elt F)),
    StableHlo.nary ![main_v14, main_v15, main_v16, main_v17] main_v18 (fun u => concatenate S2x2x2x4 3 [⟨S2x2x2x1, u 0⟩, ⟨S2x2x2x1, u 1⟩, ⟨S2x2x2x1, u 2⟩, ⟨S2x2x2x1, u 3⟩] concatenates_S2x2x2x1_S2x2x2x1_S2x2x2x1_S2x2x2x1_S2x2x2x4_d3),
    StableHlo.reshape main_v18 main_v19 rfl shapeCasts_S2x2x2x4_S8x4,
    StableHlo.unary main_arg7 main_v20 ((extractStridedSlice S1x32x64 ![0, 0, 0] · slices_S2x32x64_S1x32x64_0_0_0) : (⟨S2x32x64, .f32⟩ : BufTy).Contents (Elt F) → (⟨S1x32x64, .f32⟩ : BufTy).Contents (Elt F)),
    StableHlo.reshape main_v20 main_v21 rfl shapeCasts_S1x32x64_S32x64,
    StableHlo.unary main_v21 main_v22 ((transpose S64x32 [1, 0] · transposes_S32x64_S64x32_1_0) : (⟨S32x64, .f32⟩ : BufTy).Contents (Elt F) → (⟨S64x32, .f32⟩ : BufTy).Contents (Elt F)),
    StableHlo.binary main_arg5 main_v22 main_v23 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
    StableHlo.unary main_arg8 main_v24 ((extractStridedSlice S1x32 ![0, 0] · slices_S2x32_S1x32_0_0) : (⟨S2x32, .f32⟩ : BufTy).Contents (Elt F) → (⟨S1x32, .f32⟩ : BufTy).Contents (Elt F)),
    StableHlo.reshape main_v24 main_v25 rfl shapeCasts_S1x32_S32,
    StableHlo.unary main_arg9 main_v26 ((extractStridedSlice S1x32 ![0, 0] · slices_S2x32_S1x32_0_0) : (⟨S2x32, .f32⟩ : BufTy).Contents (Elt F) → (⟨S1x32, .f32⟩ : BufTy).Contents (Elt F)),
    StableHlo.reshape main_v26 main_v27 rfl shapeCasts_S1x32_S32,
    StableHlo.nullary main_cst (constant S_ .f32 0x00000000#32),
    StableHlo.binary main_v23 main_cst main_v28 ((fun x v => Host.reduceAdd x v reducesTo_S16384x32_S32_d0 h_S_) : (⟨S16384x32, .f32⟩ : BufTy).Contents (Elt F) → (⟨S_, .f32⟩ : BufTy).Contents (Elt F) → (⟨S32, .f32⟩ : BufTy).Contents (Elt F)),
    StableHlo.unary main_v28 main_v29 (broadcastInDim S1x32 ![1] bcast_S32_S1x32_1 : (⟨S32, .f32⟩ : BufTy).Contents (Elt F) → (⟨S1x32, .f32⟩ : BufTy).Contents (Elt F)),
    StableHlo.nullary main_cst_4 (constant S_ .f32 0x46800000#32),
    StableHlo.unary main_cst_4 main_v30 (broadcastInDim S1x32 ![] bcast_S_S1x32 : (⟨S_, .f32⟩ : BufTy).Contents (Elt F) → (⟨S1x32, .f32⟩ : BufTy).Contents (Elt F)),
    StableHlo.binary main_v29 main_v30 main_v31 (Host.divf : (⟨S1x32, .f32⟩ : BufTy).Contents (Elt F) → (⟨S1x32, .f32⟩ : BufTy).Contents (Elt F) → (⟨S1x32, .f32⟩ : BufTy).Contents (Elt F)),
    StableHlo.nullary main_c_5 (constantI S_ 32 0#32),
    StableHlo.TRef.nullary main_call0.cst (constant S_ .f32 0x00000000#32),
    StableHlo.TRef.binary (.of main_v23 : StableHlo.TRef sig ⟨S16384x32, .f32⟩) main_call0.cst main_call0.v0 (fun x v => Host.reduceAdd x v reducesTo_S16384x32_S32_d0 h_S_),
    StableHlo.TRef.unary main_call0.v0 main_call0.v1 (broadcastInDim S1x32 ![1] bcast_S32_S1x32_1),
    StableHlo.TRef.nullary main_call0.cst_0 (constant S_ .f32 0x46800000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S16384x32 ![0, 1] bcast_S1x32_S16384x32_0_1),
    StableHlo.TRef.binary (.of main_v23 : StableHlo.TRef sig ⟨S16384x32, .f32⟩) main_call0.v4 main_call0.v5 subf,
    StableHlo.TRef.binary main_call0.v5 main_call0.v5 main_call0.v6 mulf,
    StableHlo.TRef.unary (.of main_c_5 : StableHlo.TRef sig ⟨S_, .i32⟩) main_call0.v7 (sitofp .f32),
    StableHlo.TRef.nullary main_call0.cst_1 (constant S_ .f32 0x46800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16384x32_S32_d0 h_S_),
    StableHlo.TRef.unary main_call0.v9 main_call0.v10 (broadcastInDim S1x32 ![1] bcast_S32_S1x32_1),
    StableHlo.TRef.unary main_call0.v8 main_call0.v11 (broadcastInDim S1x32 ![] bcast_S_S1x32),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x32 ![] bcast_S_S1x32),
    StableHlo.TRef.ternary main_call0.v13 main_call0.v12 main_call0.call0.v1 main_call0.call0.v2 (fun p a b => select (broadcastInDim S1x32 ![] bcast_S_S1x32 p) a b),
    StableHlo.unary main_v31 main_v33 (broadcastInDim S16384x32 ![0, 1] bcast_S1x32_S16384x32_0_1 : (⟨S1x32, .f32⟩ : BufTy).Contents (Elt F) → (⟨S16384x32, .f32⟩ : BufTy).Contents (Elt F)),
    StableHlo.binary main_v23 main_v33 main_v34 (subf : (⟨S16384x32, .f32⟩ : BufTy).Contents (Elt F) → (⟨S16384x32, .f32⟩ : BufTy).Contents (Elt F) → (⟨S16384x32, .f32⟩ : BufTy).Contents (Elt F)),
    StableHlo.nullary main_cst_6 (constant S_ .f32 0x3727C5AC#32),
    StableHlo.unary main_cst_6 main_v35 (broadcastInDim S1x32 ![] bcast_S_S1x32 : (⟨S_, .f32⟩ : BufTy).Contents (Elt F) → (⟨S1x32, .f32⟩ : BufTy).Contents (Elt F)),
    StableHlo.binary main_v32 main_v35 main_v36 (addf : (⟨S1x32, .f32⟩ : BufTy).Contents (Elt F) → (⟨S1x32, .f32⟩ : BufTy).Contents (Elt F) → (⟨S1x32, .f32⟩ : BufTy).Contents (Elt F)),
    StableHlo.unary main_v36 main_v37 (Host.rsqrt : (⟨S1x32, .f32⟩ : BufTy).Contents (Elt F) → (⟨S1x32, .f32⟩ : BufTy).Contents (Elt F)),
    StableHlo.unary main_v37 main_v38 (broadcastInDim S16384x32 ![0, 1] bcast_S1x32_S16384x32_0_1 : (⟨S1x32, .f32⟩ : BufTy).Contents (Elt F) → (⟨S16384x32, .f32⟩ : BufTy).Contents (Elt F)),
    StableHlo.binary main_v34 main_v38 main_v39 (mulf : (⟨S16384x32, .f32⟩ : BufTy).Contents (Elt F) → (⟨S16384x32, .f32⟩ : BufTy).Contents (Elt F) → (⟨S16384x32, .f32⟩ : BufTy).Contents (Elt F)),
    StableHlo.unary main_v25 main_v40 (broadcastInDim S1x32 ![1] bcast_S32_S1x32_1 : (⟨S32, .f32⟩ : BufTy).Contents (Elt F) → (⟨S1x32, .f32⟩ : BufTy).Contents (Elt F)),
    StableHlo.unary main_v40 main_v41 (broadcastInDim S16384x32 ![0, 1] bcast_S1x32_S16384x32_0_1 : (⟨S1x32, .f32⟩ : BufTy).Contents (Elt F) → (⟨S16384x32, .f32⟩ : BufTy).Contents (Elt F)),
    StableHlo.binary main_v39 main_v41 main_v42 (mulf : (⟨S16384x32, .f32⟩ : BufTy).Contents (Elt F) → (⟨S16384x32, .f32⟩ : BufTy).Contents (Elt F) → (⟨S16384x32, .f32⟩ : BufTy).Contents (Elt F)),
    StableHlo.unary main_v27 main_v43 (broadcastInDim S1x32 ![1] bcast_S32_S1x32_1 : (⟨S32, .f32⟩ : BufTy).Contents (Elt F) → (⟨S1x32, .f32⟩ : BufTy).Contents (Elt F)),
    StableHlo.unary main_v43 main_v44 (broadcastInDim S16384x32 ![0, 1] bcast_S1x32_S16384x32_0_1 : (⟨S1x32, .f32⟩ : BufTy).Contents (Elt F) → (⟨S16384x32, .f32⟩ : BufTy).Contents (Elt F)),
    StableHlo.binary main_v42 main_v44 main_v45 (addf : (⟨S16384x32, .f32⟩ : BufTy).Contents (Elt F) → (⟨S16384x32, .f32⟩ : BufTy).Contents (Elt F) → (⟨S16384x32, .f32⟩ : BufTy).Contents (Elt F)),
    StableHlo.nullary main_cst_7 (constant S_ .f32 0x00000000#32),
    StableHlo.unary main_cst_7 main_v46 (broadcastInDim S1x32 ![] bcast_S_S1x32 : (⟨S_, .f32⟩ : BufTy).Contents (Elt F) → (⟨S1x32, .f32⟩ : BufTy).Contents (Elt F)),
    StableHlo.binary main_v46 main_v45 main_v47 ((fun a b => concatenate S16385x32 0 [⟨S1x32, a⟩, ⟨S16384x32, b⟩] concatenates_S1x32_S16384x32_S16385x32_d0) : (⟨S1x32, .f32⟩ : BufTy).Contents (Elt F) → (⟨S16384x32, .f32⟩ : BufTy).Contents (Elt F) → (⟨S16385x32, .f32⟩ : BufTy).Contents (Elt F)),
    StableHlo.unary main_v6 main_v48 (broadcastInDim S65536x1x4 ![0, 2] bcast_S65536x4_S65536x1x4_0_2 : (⟨S65536x4, .i32⟩ : BufTy).Contents (Elt F) → (⟨S65536x1x4, .i32⟩ : BufTy).Contents (Elt F)),
    StableHlo.unary main_v19 main_v49 (broadcastInDim S1x8x4 ![1, 2] bcast_S8x4_S1x8x4_1_2 : (⟨S8x4, .i32⟩ : BufTy).Contents (Elt F) → (⟨S1x8x4, .i32⟩ : BufTy).Contents (Elt F)) ]

/-- The 75 operations of main_part1. -/
def ops_part1 : List (HloOp τ sig (Elt F)) :=
  [ StableHlo.unary main_v48 main_v50 (broadcastInDim S65536x8x4 ![0, 1, 2] bcast_S65536x1x4_S65536x8x4_0_1_2 : (⟨S65536x1x4, .i32⟩ : BufTy).Contents (Elt F) → (⟨S65536x8x4, .i32⟩ : BufTy).Contents (Elt F)),
    StableHlo.unary main_v49 main_v51 (broadcastInDim S65536x8x4 ![0, 1, 2] bcast_S1x8x4_S65536x8x4_0_1_2 : (⟨S1x8x4, .i32⟩ : BufTy).Contents (Elt F) → (⟨S65536x8x4, .i32⟩ : BufTy).Contents (Elt F)),
    StableHlo.binary main_v50 main_v51 main_v52 (addi : (⟨S65536x8x4, .i32⟩ : BufTy).Contents (Elt F) → (⟨S65536x8x4, .i32⟩ : BufTy).Contents (Elt F) → (⟨S65536x8x4, .i32⟩ : BufTy).Contents (Elt F)),
    StableHlo.unary main_v52 main_v53 ((extractStridedSlice S65536x8x1 ![0, 0, 0] · slices_S65536x8x4_S65536x8x1_0_0_0) : (⟨S65536x8x4, .i32⟩ : BufTy).Contents (Elt F) → (⟨S65536x8x1, .i32⟩ : BufTy).Contents (Elt F)),
    StableHlo.reshape main_v53 main_v54 rfl shapeCasts_S65536x8x1_S65536x8,
    StableHlo.unary main_v52 main_v55 ((extractStridedSlice S65536x8x1 ![0, 0, 1] · slices_S65536x8x4_S65536x8x1_0_0_1) : (⟨S65536x8x4, .i32⟩ : BufTy).Contents (Elt F) → (⟨S65536x8x1, .i32⟩ : BufTy).Contents (Elt F)),
    StableHlo.reshape main_v55 main_v56 rfl shapeCasts_S65536x8x1_S65536x8,
    StableHlo.nullary main_c_8 (constantI S_ 32 0#32),
    StableHlo.nullary main_c_9 (constantI S_ 32 10#32),
    StableHlo.TRef.unary (.of main_c_8 : StableHlo.TRef sig ⟨S_, .i32⟩) main_call1.v0 id,
    StableHlo.TRef.unary main_call1.v0 main_call1.v1 (broadcastInDim S65536x8 ![] bcast_S_S65536x8),
    StableHlo.TRef.binary main_call1.v1 (.of main_v56 : StableHlo.TRef sig ⟨S65536x8, .i32⟩) main_call1.v2 maxsi,
    StableHlo.TRef.unary (.of main_c_9 : StableHlo.TRef sig ⟨S_, .i32⟩) main_call1.v3 id,
    StableHlo.TRef.unary main_call1.v3 main_call1.v4 (broadcastInDim S65536x8 ![] bcast_S_S65536x8),
    StableHlo.TRef.binary main_call1.v4 main_call1.v2 main_call1.v5 minsi,
    StableHlo.unary main_v52 main_v58 ((extractStridedSlice S65536x8x1 ![0, 0, 2] · slices_S65536x8x4_S65536x8x1_0_0_2) : (⟨S65536x8x4, .i32⟩ : BufTy).Contents (Elt F) → (⟨S65536x8x1, .i32⟩ : BufTy).Contents (Elt F)),
    StableHlo.reshape main_v58 main_v59 rfl shapeCasts_S65536x8x1_S65536x8,
    StableHlo.nullary main_c_10 (constantI S_ 32 0#32),
    StableHlo.nullary main_c_11 (constantI S_ 32 199#32),
    StableHlo.TRef.unary (.of main_c_10 : StableHlo.TRef sig ⟨S_, .i32⟩) main_call2.v0 id,
    StableHlo.TRef.unary main_call2.v0 main_call2.v1 (broadcastInDim S65536x8 ![] bcast_S_S65536x8),
    StableHlo.TRef.binary main_call2.v1 (.of main_v59 : StableHlo.TRef sig ⟨S65536x8, .i32⟩) main_call2.v2 maxsi,
    StableHlo.TRef.unary (.of main_c_11 : StableHlo.TRef sig ⟨S_, .i32⟩) main_call2.v3 id,
    StableHlo.TRef.unary main_call2.v3 main_call2.v4 (broadcastInDim S65536x8 ![] bcast_S_S65536x8),
    StableHlo.TRef.binary main_call2.v4 main_call2.v2 main_call2.v5 minsi,
    StableHlo.unary main_v52 main_v61 ((extractStridedSlice S65536x8x1 ![0, 0, 3] · slices_S65536x8x4_S65536x8x1_0_0_3) : (⟨S65536x8x4, .i32⟩ : BufTy).Contents (Elt F) → (⟨S65536x8x1, .i32⟩ : BufTy).Contents (Elt F)),
    StableHlo.reshape main_v61 main_v62 rfl shapeCasts_S65536x8x1_S65536x8,
    StableHlo.nullary main_c_12 (constantI S_ 32 0#32),
    StableHlo.nullary main_c_13 (constantI S_ 32 175#32),
    StableHlo.TRef.unary (.of main_c_12 : StableHlo.TRef sig ⟨S_, .i32⟩) main_call3.v0 id,
    StableHlo.TRef.unary main_call3.v0 main_call3.v1 (broadcastInDim S65536x8 ![] bcast_S_S65536x8),
    StableHlo.TRef.binary main_call3.v1 (.of main_v62 : StableHlo.TRef sig ⟨S65536x8, .i32⟩) main_call3.v2 maxsi,
    StableHlo.TRef.unary (.of main_c_13 : StableHlo.TRef sig ⟨S_, .i32⟩) main_call3.v3 id,
    StableHlo.TRef.unary main_call3.v3 main_call3.v4 (broadcastInDim S65536x8 ![] bcast_S_S65536x8),
    StableHlo.TRef.binary main_call3.v4 main_call3.v2 main_call3.v5 minsi,
    StableHlo.nullary main_c_14 (constantI S_ 32 0#32),
    StableHlo.unary main_c_14 main_v64 (broadcastInDim S65536x8 ![] bcast_S_S65536x8 : (⟨S_, .i32⟩ : BufTy).Contents (Elt F) → (⟨S65536x8, .i32⟩ : BufTy).Contents (Elt F)),
    StableHlo.binary main_v54 main_v64 main_v65 (cmpi .slt : (⟨S65536x8, .i32⟩ : BufTy).Contents (Elt F) → (⟨S65536x8, .i32⟩ : BufTy).Contents (Elt F) → (⟨S65536x8, .i1⟩ : BufTy).Contents (Elt F)),
    StableHlo.nullary main_c_15 (constantI S_ 32 2#32),
    StableHlo.unary main_c_15 main_v66 (broadcastInDim S65536x8 ![] bcast_S_S65536x8 : (⟨S_, .i32⟩ : BufTy).Contents (Elt F) → (⟨S65536x8, .i32⟩ : BufTy).Contents (Elt F)),
    StableHlo.binary main_v54 main_v66 main_v67 (addi : (⟨S65536x8, .i32⟩ : BufTy).Contents (Elt F) → (⟨S65536x8, .i32⟩ : BufTy).Contents (Elt F) → (⟨S65536x8, .i32⟩ : BufTy).Contents (Elt F)),
    StableHlo.ternary main_v65 main_v67 main_v54 main_v68 (select : (⟨S65536x8, .i1⟩ : BufTy).Contents (Elt F) → (⟨S65536x8, .i32⟩ : BufTy).Contents (Elt F) → (⟨S65536x8, .i32⟩ : BufTy).Contents (Elt F) → (⟨S65536x8, .i32⟩ : BufTy).Contents (Elt F)),
    StableHlo.nullary main_c_16 (constantI S_ 32 0#32),
    StableHlo.unary main_c_16 main_v69 (broadcastInDim S65536x8 ![] bcast_S_S65536x8 : (⟨S_, .i32⟩ : BufTy).Contents (Elt F) → (⟨S65536x8, .i32⟩ : BufTy).Contents (Elt F)),
    StableHlo.binary main_v57 main_v69 main_v70 (cmpi .slt : (⟨S65536x8, .i32⟩ : BufTy).Contents (Elt F) → (⟨S65536x8, .i32⟩ : BufTy).Contents (Elt F) → (⟨S65536x8, .i1⟩ : BufTy).Contents (Elt F)),
    StableHlo.nullary main_c_17 (constantI S_ 32 11#32),
    StableHlo.unary main_c_17 main_v71 (broadcastInDim S65536x8 ![] bcast_S_S65536x8 : (⟨S_, .i32⟩ : BufTy).Contents (Elt F) → (⟨S65536x8, .i32⟩ : BufTy).Contents (Elt F)),
    StableHlo.binary main_v57 main_v71 main_v72 (addi : (⟨S65536x8, .i32⟩ : BufTy).Contents (Elt F) → (⟨S65536x8, .i32⟩ : BufTy).Contents (Elt F) → (⟨S65536x8, .i32⟩ : BufTy).Contents (Elt F)),
    StableHlo.ternary main_v70 main_v72 main_v57 main_v73 (select : (⟨S65536x8, .i1⟩ : BufTy).Contents (Elt F) → (⟨S65536x8, .i32⟩ : BufTy).Contents (Elt F) → (⟨S65536x8, .i32⟩ : BufTy).Contents (Elt F) → (⟨S65536x8, .i32⟩ : BufTy).Contents (Elt F)),
    StableHlo.nullary main_c_18 (constantI S_ 32 0#32),
    StableHlo.unary main_c_18 main_v74 (broadcastInDim S65536x8 ![] bcast_S_S65536x8 : (⟨S_, .i32⟩ : BufTy).Contents (Elt F) → (⟨S65536x8, .i32⟩ : BufTy).Contents (Elt F)),
    StableHlo.binary main_v60 main_v74 main_v75 (cmpi .slt : (⟨S65536x8, .i32⟩ : BufTy).Contents (Elt F) → (⟨S65536x8, .i32⟩ : BufTy).Contents (Elt F) → (⟨S65536x8, .i1⟩ : BufTy).Contents (Elt F)),
    StableHlo.nullary main_c_19 (constantI S_ 32 200#32),
    StableHlo.unary main_c_19 main_v76 (broadcastInDim S65536x8 ![] bcast_S_S65536x8 : (⟨S_, .i32⟩ : BufTy).Contents (Elt F) → (⟨S65536x8, .i32⟩ : BufTy).Contents (Elt F)),
    StableHlo.binary main_v60 main_v76 main_v77 (addi : (⟨S65536x8, .i32⟩ : BufTy).Contents (Elt F) → (⟨S65536x8, .i32⟩ : BufTy).Contents (Elt F) → (⟨S65536x8, .i32⟩ : BufTy).Contents (Elt F)),
    StableHlo.ternary main_v75 main_v77 main_v60 main_v78 (select : (⟨S65536x8, .i1⟩ : BufTy).Contents (Elt F) → (⟨S65536x8, .i32⟩ : BufTy).Contents (Elt F) → (⟨S65536x8, .i32⟩ : BufTy).Contents (Elt F) → (⟨S65536x8, .i32⟩ : BufTy).Contents (Elt F)),
    StableHlo.nullary main_c_20 (constantI S_ 32 0#32),
    StableHlo.unary main_c_20 main_v79 (broadcastInDim S65536x8 ![] bcast_S_S65536x8 : (⟨S_, .i32⟩ : BufTy).Contents (Elt F) → (⟨S65536x8, .i32⟩ : BufTy).Contents (Elt F)),
    StableHlo.binary main_v63 main_v79 main_v80 (cmpi .slt : (⟨S65536x8, .i32⟩ : BufTy).Contents (Elt F) → (⟨S65536x8, .i32⟩ : BufTy).Contents (Elt F) → (⟨S65536x8, .i1⟩ : BufTy).Contents (Elt F)),
    StableHlo.nullary main_c_21 (constantI S_ 32 176#32),
    StableHlo.unary main_c_21 main_v81 (broadcastInDim S65536x8 ![] bcast_S_S65536x8 : (⟨S_, .i32⟩ : BufTy).Contents (Elt F) → (⟨S65536x8, .i32⟩ : BufTy).Contents (Elt F)),
    StableHlo.binary main_v63 main_v81 main_v82 (addi : (⟨S65536x8, .i32⟩ : BufTy).Contents (Elt F) → (⟨S65536x8, .i32⟩ : BufTy).Contents (Elt F) → (⟨S65536x8, .i32⟩ : BufTy).Contents (Elt F)),
    StableHlo.ternary main_v80 main_v82 main_v63 main_v83 (select : (⟨S65536x8, .i1⟩ : BufTy).Contents (Elt F) → (⟨S65536x8, .i32⟩ : BufTy).Contents (Elt F) → (⟨S65536x8, .i32⟩ : BufTy).Contents (Elt F) → (⟨S65536x8, .i32⟩ : BufTy).Contents (Elt F)),
    StableHlo.unary main_v68 main_v84 (broadcastInDim S65536x8x1 ![0, 1] bcast_S65536x8_S65536x8x1_0_1 : (⟨S65536x8, .i32⟩ : BufTy).Contents (Elt F) → (⟨S65536x8x1, .i32⟩ : BufTy).Contents (Elt F)),
    StableHlo.unary main_v73 main_v85 (broadcastInDim S65536x8x1 ![0, 1] bcast_S65536x8_S65536x8x1_0_1 : (⟨S65536x8, .i32⟩ : BufTy).Contents (Elt F) → (⟨S65536x8x1, .i32⟩ : BufTy).Contents (Elt F)),
    StableHlo.unary main_v78 main_v86 (broadcastInDim S65536x8x1 ![0, 1] bcast_S65536x8_S65536x8x1_0_1 : (⟨S65536x8, .i32⟩ : BufTy).Contents (Elt F) → (⟨S65536x8x1, .i32⟩ : BufTy).Contents (Elt F)),
    StableHlo.unary main_v83 main_v87 (broadcastInDim S65536x8x1 ![0, 1] bcast_S65536x8_S65536x8x1_0_1 : (⟨S65536x8, .i32⟩ : BufTy).Contents (Elt F) → (⟨S65536x8x1, .i32⟩ : BufTy).Contents (Elt F)),
    StableHlo.nary ![main_v84, main_v85, main_v86, main_v87] main_v88 (fun u => concatenate S65536x8x4 2 [⟨S65536x8x1, u 0⟩, ⟨S65536x8x1, u 1⟩, ⟨S65536x8x1, u 2⟩, ⟨S65536x8x1, u 3⟩] concatenates_S65536x8x1_S65536x8x1_S65536x8x1_S65536x8x1_S65536x8x4_d2),
    StableHlo.binary main_arg6 main_v88 main_v89 ((fun x i => Host.gather gather_S2x11x200x176_S65536x8x4_S65536x8_n_0123_n_n_0123_2_1111 x i) : (⟨S2x11x200x176, .i32⟩ : BufTy).Contents (Elt F) → (⟨S65536x8x4, .i32⟩ : BufTy).Contents (Elt F) → (⟨S65536x8, .i32⟩ : BufTy).Contents (Elt F)),
    StableHlo.nullary main_c_22 (constantI S_ 32 1#32),
    StableHlo.unary main_c_22 main_v90 (broadcastInDim S65536x8 ![] bcast_S_S65536x8 : (⟨S_, .i32⟩ : BufTy).Contents (Elt F) → (⟨S65536x8, .i32⟩ : BufTy).Contents (Elt F)),
    StableHlo.binary main_v89 main_v90 main_v91 (addi : (⟨S65536x8, .i32⟩ : BufTy).Contents (Elt F) → (⟨S65536x8, .i32⟩ : BufTy).Contents (Elt F) → (⟨S65536x8, .i32⟩ : BufTy).Contents (Elt F)),
    StableHlo.nullary main_c_23 (constantI S_ 32 0#32),
    StableHlo.unary main_c_23 main_v92 (broadcastInDim S65536x8 ![] bcast_S_S65536x8 : (⟨S_, .i32⟩ : BufTy).Contents (Elt F) → (⟨S65536x8, .i32⟩ : BufTy).Contents (Elt F)),
    StableHlo.binary main_v91 main_v92 main_v93 (cmpi .slt : (⟨S65536x8, .i32⟩ : BufTy).Contents (Elt F) → (⟨S65536x8, .i32⟩ : BufTy).Contents (Elt F) → (⟨S65536x8, .i1⟩ : BufTy).Contents (Elt F)) ]

/-- The 106 operations of main_part2. -/
def ops_part2 : List (HloOp τ sig (Elt F)) :=
  [ StableHlo.nullary main_c_24 (constantI S_ 32 16385#32),
    StableHlo.unary main_c_24 main_v94 (broadcastInDim S65536x8 ![] bcast_S_S65536x8 : (⟨S_, .i32⟩ : BufTy).Contents (Elt F) → (⟨S65536x8, .i32⟩ : BufTy).Contents (Elt F)),
    StableHlo.binary main_v91 main_v94 main_v95 (addi : (⟨S65536x8, .i32⟩ : BufTy).Contents (Elt F) → (⟨S65536x8, .i32⟩ : BufTy).Contents (Elt F) → (⟨S65536x8, .i32⟩ : BufTy).Contents (Elt F)),
    StableHlo.ternary main_v93 main_v95 main_v91 main_v96 (select : (⟨S65536x8, .i1⟩ : BufTy).Contents (Elt F) → (⟨S65536x8, .i32⟩ : BufTy).Contents (Elt F) → (⟨S65536x8, .i32⟩ : BufTy).Contents (Elt F) → (⟨S65536x8, .i32⟩ : BufTy).Contents (Elt F)),
    StableHlo.unary main_v96 main_v97 (broadcastInDim S65536x8x1 ![0, 1] bcast_S65536x8_S65536x8x1_0_1 : (⟨S65536x8, .i32⟩ : BufTy).Contents (Elt F) → (⟨S65536x8x1, .i32⟩ : BufTy).Contents (Elt F)),
    StableHlo.binary main_v47 main_v97 main_v98 ((fun x i => Host.gather gather_S16385x32_S65536x8x1_S65536x8x32_2_0_n_n_0_2_132 x i) : (⟨S16385x32, .f32⟩ : BufTy).Contents (Elt F) → (⟨S65536x8x1, .i32⟩ : BufTy).Contents (Elt F) → (⟨S65536x8x32, .f32⟩ : BufTy).Contents (Elt F)),
    StableHlo.unary main_v19 main_v99 ((extractStridedSlice S8x3 ![0, 1] · slices_S8x4_S8x3_0_1) : (⟨S8x4, .i32⟩ : BufTy).Contents (Elt F) → (⟨S8x3, .i32⟩ : BufTy).Contents (Elt F)),
    StableHlo.unary main_v99 main_v100 (sitofp .f32 : (⟨S8x3, .i32⟩ : BufTy).Contents (Elt F) → (⟨S8x3, .f32⟩ : BufTy).Contents (Elt F)),
    StableHlo.unary main_arg10 main_v101 ((extractStridedSlice S1x32x3 ![0, 0, 0] · slices_S2x32x3_S1x32x3_0_0_0) : (⟨S2x32x3, .f32⟩ : BufTy).Contents (Elt F) → (⟨S1x32x3, .f32⟩ : BufTy).Contents (Elt F)),
    StableHlo.reshape main_v101 main_v102 rfl shapeCasts_S1x32x3_S32x3,
    StableHlo.unary main_v102 main_v103 ((transpose S3x32 [1, 0] · transposes_S32x3_S3x32_1_0) : (⟨S32x3, .f32⟩ : BufTy).Contents (Elt F) → (⟨S3x32, .f32⟩ : BufTy).Contents (Elt F)),
    StableHlo.binary main_v100 main_v103 main_v104 ((fun l r => Host.dotGeneral dot_S8x3_S3x32_S8x32_1_0_0_1_n_n none l r) : (⟨S8x3, .f32⟩ : BufTy).Contents (Elt F) → (⟨S3x32, .f32⟩ : BufTy).Contents (Elt F) → (⟨S8x32, .f32⟩ : BufTy).Contents (Elt F)),
    StableHlo.unary main_arg11 main_v105 ((extractStridedSlice S1x32 ![0, 0] · slices_S2x32_S1x32_0_0) : (⟨S2x32, .f32⟩ : BufTy).Contents (Elt F) → (⟨S1x32, .f32⟩ : BufTy).Contents (Elt F)),
    StableHlo.reshape main_v105 main_v106 rfl shapeCasts_S1x32_S32,
    StableHlo.unary main_arg12 main_v107 ((extractStridedSlice S1x32 ![0, 0] · slices_S2x32_S1x32_0_0) : (⟨S2x32, .f32⟩ : BufTy).Contents (Elt F) → (⟨S1x32, .f32⟩ : BufTy).Contents (Elt F)),
    StableHlo.reshape main_v107 main_v108 rfl shapeCasts_S1x32_S32,
    StableHlo.nullary main_cst_25 (constant S_ .f32 0x00000000#32),
    StableHlo.binary main_v104 main_cst_25 main_v109 ((fun x v => Host.reduceAdd x v reducesTo_S8x32_S32_d0 h_S_) : (⟨S8x32, .f32⟩ : BufTy).Contents (Elt F) → (⟨S_, .f32⟩ : BufTy).Contents (Elt F) → (⟨S32, .f32⟩ : BufTy).Contents (Elt F)),
    StableHlo.unary main_v109 main_v110 (broadcastInDim S1x32 ![1] bcast_S32_S1x32_1 : (⟨S32, .f32⟩ : BufTy).Contents (Elt F) → (⟨S1x32, .f32⟩ : BufTy).Contents (Elt F)),
    StableHlo.nullary main_cst_26 (constant S_ .f32 0x41000000#32),
    StableHlo.unary main_cst_26 main_v111 (broadcastInDim S1x32 ![] bcast_S_S1x32 : (⟨S_, .f32⟩ : BufTy).Contents (Elt F) → (⟨S1x32, .f32⟩ : BufTy).Contents (Elt F)),
    StableHlo.binary main_v110 main_v111 main_v112 (Host.divf : (⟨S1x32, .f32⟩ : BufTy).Contents (Elt F) → (⟨S1x32, .f32⟩ : BufTy).Contents (Elt F) → (⟨S1x32, .f32⟩ : BufTy).Contents (Elt F)),
    StableHlo.nullary main_c_27 (constantI S_ 32 0#32),
    StableHlo.TRef.nullary main_call4.cst (constant S_ .f32 0x00000000#32),
    StableHlo.TRef.binary (.of main_v104 : StableHlo.TRef sig ⟨S8x32, .f32⟩) main_call4.cst main_call4.v0 (fun x v => Host.reduceAdd x v reducesTo_S8x32_S32_d0 h_S_),
    StableHlo.TRef.unary main_call4.v0 main_call4.v1 (broadcastInDim S1x32 ![1] bcast_S32_S1x32_1),
    StableHlo.TRef.nullary main_call4.cst_0 (constant S_ .f32 0x41000000#32),
    StableHlo.TRef.unary main_call4.cst_0 main_call4.v2 (broadcastInDim S1x32 ![] bcast_S_S1x32),
    StableHlo.TRef.binary main_call4.v1 main_call4.v2 main_call4.v3 Host.divf,
    StableHlo.TRef.unary main_call4.v3 main_call4.v4 (broadcastInDim S8x32 ![0, 1] bcast_S1x32_S8x32_0_1),
    StableHlo.TRef.binary (.of main_v104 : StableHlo.TRef sig ⟨S8x32, .f32⟩) main_call4.v4 main_call4.v5 subf,
    StableHlo.TRef.binary main_call4.v5 main_call4.v5 main_call4.v6 mulf,
    StableHlo.TRef.unary (.of main_c_27 : StableHlo.TRef sig ⟨S_, .i32⟩) main_call4.v7 (sitofp .f32),
    StableHlo.TRef.nullary main_call4.cst_1 (constant S_ .f32 0x41000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S8x32_S32_d0 h_S_),
    StableHlo.TRef.unary main_call4.v9 main_call4.v10 (broadcastInDim S1x32 ![1] bcast_S32_S1x32_1),
    StableHlo.TRef.unary main_call4.v8 main_call4.v11 (broadcastInDim S1x32 ![] bcast_S_S1x32),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1x32 ![] bcast_S_S1x32),
    StableHlo.TRef.ternary main_call4.v13 main_call4.v12 main_call4.call0.v1 main_call4.call0.v2 (fun p a b => select (broadcastInDim S1x32 ![] bcast_S_S1x32 p) a b),
    StableHlo.unary main_v112 main_v114 (broadcastInDim S8x32 ![0, 1] bcast_S1x32_S8x32_0_1 : (⟨S1x32, .f32⟩ : BufTy).Contents (Elt F) → (⟨S8x32, .f32⟩ : BufTy).Contents (Elt F)),
    StableHlo.binary main_v104 main_v114 main_v115 (subf : (⟨S8x32, .f32⟩ : BufTy).Contents (Elt F) → (⟨S8x32, .f32⟩ : BufTy).Contents (Elt F) → (⟨S8x32, .f32⟩ : BufTy).Contents (Elt F)),
    StableHlo.nullary main_cst_28 (constant S_ .f32 0x3727C5AC#32),
    StableHlo.unary main_cst_28 main_v116 (broadcastInDim S1x32 ![] bcast_S_S1x32 : (⟨S_, .f32⟩ : BufTy).Contents (Elt F) → (⟨S1x32, .f32⟩ : BufTy).Contents (Elt F)),
    StableHlo.binary main_v113 main_v116 main_v117 (addf : (⟨S1x32, .f32⟩ : BufTy).Contents (Elt F) → (⟨S1x32, .f32⟩ : BufTy).Contents (Elt F) → (⟨S1x32, .f32⟩ : BufTy).Contents (Elt F)),
    StableHlo.unary main_v117 main_v118 (Host.rsqrt : (⟨S1x32, .f32⟩ : BufTy).Contents (Elt F) → (⟨S1x32, .f32⟩ : BufTy).Contents (Elt F)),
    StableHlo.unary main_v118 main_v119 (broadcastInDim S8x32 ![0, 1] bcast_S1x32_S8x32_0_1 : (⟨S1x32, .f32⟩ : BufTy).Contents (Elt F) → (⟨S8x32, .f32⟩ : BufTy).Contents (Elt F)),
    StableHlo.binary main_v115 main_v119 main_v120 (mulf : (⟨S8x32, .f32⟩ : BufTy).Contents (Elt F) → (⟨S8x32, .f32⟩ : BufTy).Contents (Elt F) → (⟨S8x32, .f32⟩ : BufTy).Contents (Elt F)),
    StableHlo.unary main_v106 main_v121 (broadcastInDim S1x32 ![1] bcast_S32_S1x32_1 : (⟨S32, .f32⟩ : BufTy).Contents (Elt F) → (⟨S1x32, .f32⟩ : BufTy).Contents (Elt F)),
    StableHlo.unary main_v121 main_v122 (broadcastInDim S8x32 ![0, 1] bcast_S1x32_S8x32_0_1 : (⟨S1x32, .f32⟩ : BufTy).Contents (Elt F) → (⟨S8x32, .f32⟩ : BufTy).Contents (Elt F)),
    StableHlo.binary main_v120 main_v122 main_v123 (mulf : (⟨S8x32, .f32⟩ : BufTy).Contents (Elt F) → (⟨S8x32, .f32⟩ : BufTy).Contents (Elt F) → (⟨S8x32, .f32⟩ : BufTy).Contents (Elt F)),
    StableHlo.unary main_v108 main_v124 (broadcastInDim S1x32 ![1] bcast_S32_S1x32_1 : (⟨S32, .f32⟩ : BufTy).Contents (Elt F) → (⟨S1x32, .f32⟩ : BufTy).Contents (Elt F)),
    StableHlo.unary main_v124 main_v125 (broadcastInDim S8x32 ![0, 1] bcast_S1x32_S8x32_0_1 : (⟨S1x32, .f32⟩ : BufTy).Contents (Elt F) → (⟨S8x32, .f32⟩ : BufTy).Contents (Elt F)),
    StableHlo.binary main_v123 main_v125 main_v126 (addf : (⟨S8x32, .f32⟩ : BufTy).Contents (Elt F) → (⟨S8x32, .f32⟩ : BufTy).Contents (Elt F) → (⟨S8x32, .f32⟩ : BufTy).Contents (Elt F)),
    StableHlo.unary main_v126 main_v127 (broadcastInDim S1x8x32 ![1, 2] bcast_S8x32_S1x8x32_1_2 : (⟨S8x32, .f32⟩ : BufTy).Contents (Elt F) → (⟨S1x8x32, .f32⟩ : BufTy).Contents (Elt F)),
    StableHlo.unary main_v127 main_v128 (broadcastInDim S65536x8x32 ![0, 1, 2] bcast_S1x8x32_S65536x8x32_0_1_2 : (⟨S1x8x32, .f32⟩ : BufTy).Contents (Elt F) → (⟨S65536x8x32, .f32⟩ : BufTy).Contents (Elt F)),
    StableHlo.binary main_v98 main_v128 main_v129 (addf : (⟨S65536x8x32, .f32⟩ : BufTy).Contents (Elt F) → (⟨S65536x8x32, .f32⟩ : BufTy).Contents (Elt F) → (⟨S65536x8x32, .f32⟩ : BufTy).Contents (Elt F)),
    StableHlo.TRef.nullary main_call5.cst (constant S_ .f32 0x00000000#32),
    StableHlo.TRef.unary main_call5.cst main_call5.v0 (broadcastInDim S65536x8x32 ![] bcast_S_S65536x8x32),
    StableHlo.TRef.binary (.of main_v129 : StableHlo.TRef sig ⟨S65536x8x32, .f32⟩) main_call5.v0 main_call5.v1 maximumf,
    StableHlo.nullary main_cst_29 (constant S_ .f32 0xFF800000#32),
    StableHlo.binary main_v130 main_cst_29 main_v131 ((fun x v => Host.reduce FloatOps.maximumf x v reducesTo_S65536x8x32_S65536x32_d1 h_S_) : (⟨S65536x8x32, .f32⟩ : BufTy).Contents (Elt F) → (⟨S_, .f32⟩ : BufTy).Contents (Elt F) → (⟨S65536x32, .f32⟩ : BufTy).Contents (Elt F)),
    StableHlo.unary main_arg13 main_v132 ((extractStridedSlice S1x64x32 ![0, 0, 0] · slices_S2x64x32_S1x64x32_0_0_0) : (⟨S2x64x32, .f32⟩ : BufTy).Contents (Elt F) → (⟨S1x64x32, .f32⟩ : BufTy).Contents (Elt F)),
    StableHlo.reshape main_v132 main_v133 rfl shapeCasts_S1x64x32_S64x32,
    StableHlo.unary main_v133 main_v134 ((transpose S32x64 [1, 0] · transposes_S64x32_S32x64_1_0) : (⟨S64x32, .f32⟩ : BufTy).Contents (Elt F) → (⟨S32x64, .f32⟩ : BufTy).Contents (Elt F)),
    StableHlo.binary main_v131 main_v134 main_v135 ((fun l r => Host.dotGeneral dot_S65536x32_S32x64_S65536x64_1_0_0_1_n_n none l r) : (⟨S65536x32, .f32⟩ : BufTy).Contents (Elt F) → (⟨S32x64, .f32⟩ : BufTy).Contents (Elt F) → (⟨S65536x64, .f32⟩ : BufTy).Contents (Elt F)),
    StableHlo.unary main_arg14 main_v136 ((extractStridedSlice S1x64 ![0, 0] · slices_S2x64_S1x64_0_0) : (⟨S2x64, .f32⟩ : BufTy).Contents (Elt F) → (⟨S1x64, .f32⟩ : BufTy).Contents (Elt F)),
    StableHlo.reshape main_v136 main_v137 rfl shapeCasts_S1x64_S64,
    StableHlo.unary main_arg15 main_v138 ((extractStridedSlice S1x64 ![0, 0] · slices_S2x64_S1x64_0_0) : (⟨S2x64, .f32⟩ : BufTy).Contents (Elt F) → (⟨S1x64, .f32⟩ : BufTy).Contents (Elt F)),
    StableHlo.reshape main_v138 main_v139 rfl shapeCasts_S1x64_S64,
    StableHlo.nullary main_cst_30 (constant S_ .f32 0x00000000#32),
    StableHlo.binary main_v135 main_cst_30 main_v140 ((fun x v => Host.reduceAdd x v reducesTo_S65536x64_S64_d0 h_S_) : (⟨S65536x64, .f32⟩ : BufTy).Contents (Elt F) → (⟨S_, .f32⟩ : BufTy).Contents (Elt F) → (⟨S64, .f32⟩ : BufTy).Contents (Elt F)),
    StableHlo.unary main_v140 main_v141 (broadcastInDim S1x64 ![1] bcast_S64_S1x64_1 : (⟨S64, .f32⟩ : BufTy).Contents (Elt F) → (⟨S1x64, .f32⟩ : BufTy).Contents (Elt F)),
    StableHlo.nullary main_cst_31 (constant S_ .f32 0x47800000#32),
    StableHlo.unary main_cst_31 main_v142 (broadcastInDim S1x64 ![] bcast_S_S1x64 : (⟨S_, .f32⟩ : BufTy).Contents (Elt F) → (⟨S1x64, .f32⟩ : BufTy).Contents (Elt F)),
    StableHlo.binary main_v141 main_v142 main_v143 (Host.divf : (⟨S1x64, .f32⟩ : BufTy).Contents (Elt F) → (⟨S1x64, .f32⟩ : BufTy).Contents (Elt F) → (⟨S1x64, .f32⟩ : BufTy).Contents (Elt F)),
    StableHlo.nullary main_c_32 (constantI S_ 32 0#32),
    StableHlo.TRef.nullary main_call6.cst (constant S_ .f32 0x00000000#32),
    StableHlo.TRef.binary (.of main_v135 : StableHlo.TRef sig ⟨S65536x64, .f32⟩) main_call6.cst main_call6.v0 (fun x v => Host.reduceAdd x v reducesTo_S65536x64_S64_d0 h_S_),
    StableHlo.TRef.unary main_call6.v0 main_call6.v1 (broadcastInDim S1x64 ![1] bcast_S64_S1x64_1),
    StableHlo.TRef.nullary main_call6.cst_0 (constant S_ .f32 0x47800000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S65536x64 ![0, 1] bcast_S1x64_S65536x64_0_1),
    StableHlo.TRef.binary (.of main_v135 : StableHlo.TRef sig ⟨S65536x64, .f32⟩) main_call6.v4 main_call6.v5 subf,
    StableHlo.TRef.binary main_call6.v5 main_call6.v5 main_call6.v6 mulf,
    StableHlo.TRef.unary (.of main_c_32 : StableHlo.TRef sig ⟨S_, .i32⟩) main_call6.v7 (sitofp .f32),
    StableHlo.TRef.nullary main_call6.cst_1 (constant S_ .f32 0x47800000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S65536x64_S64_d0 h_S_),
    StableHlo.TRef.unary main_call6.v9 main_call6.v10 (broadcastInDim S1x64 ![1] bcast_S64_S1x64_1),
    StableHlo.TRef.unary main_call6.v8 main_call6.v11 (broadcastInDim S1x64 ![] bcast_S_S1x64),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S1x64 ![] bcast_S_S1x64),
    StableHlo.TRef.ternary main_call6.v13 main_call6.v12 main_call6.call0.v1 main_call6.call0.v2 (fun p a b => select (broadcastInDim S1x64 ![] bcast_S_S1x64 p) a b) ]

/-- The 84 operations of main_part3. -/
def ops_part3 : List (HloOp τ sig (Elt F)) :=
  [ StableHlo.unary main_v143 main_v145 (broadcastInDim S65536x64 ![0, 1] bcast_S1x64_S65536x64_0_1 : (⟨S1x64, .f32⟩ : BufTy).Contents (Elt F) → (⟨S65536x64, .f32⟩ : BufTy).Contents (Elt F)),
    StableHlo.binary main_v135 main_v145 main_v146 (subf : (⟨S65536x64, .f32⟩ : BufTy).Contents (Elt F) → (⟨S65536x64, .f32⟩ : BufTy).Contents (Elt F) → (⟨S65536x64, .f32⟩ : BufTy).Contents (Elt F)),
    StableHlo.nullary main_cst_33 (constant S_ .f32 0x3727C5AC#32),
    StableHlo.unary main_cst_33 main_v147 (broadcastInDim S1x64 ![] bcast_S_S1x64 : (⟨S_, .f32⟩ : BufTy).Contents (Elt F) → (⟨S1x64, .f32⟩ : BufTy).Contents (Elt F)),
    StableHlo.binary main_v144 main_v147 main_v148 (addf : (⟨S1x64, .f32⟩ : BufTy).Contents (Elt F) → (⟨S1x64, .f32⟩ : BufTy).Contents (Elt F) → (⟨S1x64, .f32⟩ : BufTy).Contents (Elt F)),
    StableHlo.unary main_v148 main_v149 (Host.rsqrt : (⟨S1x64, .f32⟩ : BufTy).Contents (Elt F) → (⟨S1x64, .f32⟩ : BufTy).Contents (Elt F)),
    StableHlo.unary main_v149 main_v150 (broadcastInDim S65536x64 ![0, 1] bcast_S1x64_S65536x64_0_1 : (⟨S1x64, .f32⟩ : BufTy).Contents (Elt F) → (⟨S65536x64, .f32⟩ : BufTy).Contents (Elt F)),
    StableHlo.binary main_v146 main_v150 main_v151 (mulf : (⟨S65536x64, .f32⟩ : BufTy).Contents (Elt F) → (⟨S65536x64, .f32⟩ : BufTy).Contents (Elt F) → (⟨S65536x64, .f32⟩ : BufTy).Contents (Elt F)),
    StableHlo.unary main_v137 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S65536x64 ![0, 1] bcast_S1x64_S65536x64_0_1 : (⟨S1x64, .f32⟩ : BufTy).Contents (Elt F) → (⟨S65536x64, .f32⟩ : BufTy).Contents (Elt F)),
    StableHlo.binary main_v151 main_v153 main_v154 (mulf : (⟨S65536x64, .f32⟩ : BufTy).Contents (Elt F) → (⟨S65536x64, .f32⟩ : BufTy).Contents (Elt F) → (⟨S65536x64, .f32⟩ : BufTy).Contents (Elt F)),
    StableHlo.unary main_v139 main_v155 (broadcastInDim S1x64 ![1] bcast_S64_S1x64_1 : (⟨S64, .f32⟩ : BufTy).Contents (Elt F) → (⟨S1x64, .f32⟩ : BufTy).Contents (Elt F)),
    StableHlo.unary main_v155 main_v156 (broadcastInDim S65536x64 ![0, 1] bcast_S1x64_S65536x64_0_1 : (⟨S1x64, .f32⟩ : BufTy).Contents (Elt F) → (⟨S65536x64, .f32⟩ : BufTy).Contents (Elt F)),
    StableHlo.binary main_v154 main_v156 main_v157 (addf : (⟨S65536x64, .f32⟩ : BufTy).Contents (Elt F) → (⟨S65536x64, .f32⟩ : BufTy).Contents (Elt F) → (⟨S65536x64, .f32⟩ : BufTy).Contents (Elt F)),
    StableHlo.TRef.nullary main_call7.cst (constant S_ .f32 0x00000000#32),
    StableHlo.TRef.unary main_call7.cst main_call7.v0 (broadcastInDim S65536x64 ![] bcast_S_S65536x64),
    StableHlo.TRef.binary (.of main_v157 : StableHlo.TRef sig ⟨S65536x64, .f32⟩) main_call7.v0 main_call7.v1 maximumf,
    StableHlo.nullary main_v159 (iotaInDim S4 32 0),
    StableHlo.nullary main_c_34 (constantI S_ 32 4294967294#32),
    StableHlo.unary main_c_34 main_v160 (broadcastInDim S4 ![] bcast_S_S4 : (⟨S_, .i32⟩ : BufTy).Contents (Elt F) → (⟨S4, .i32⟩ : BufTy).Contents (Elt F)),
    StableHlo.binary main_v160 main_v159 main_v161 (addi : (⟨S4, .i32⟩ : BufTy).Contents (Elt F) → (⟨S4, .i32⟩ : BufTy).Contents (Elt F) → (⟨S4, .i32⟩ : BufTy).Contents (Elt F)),
    StableHlo.unary main_v161 main_v162 (broadcastInDim S4x4x4 ![0] bcast_S4_S4x4x4_0 : (⟨S4, .i32⟩ : BufTy).Contents (Elt F) → (⟨S4x4x4, .i32⟩ : BufTy).Contents (Elt F)),
    StableHlo.unary main_v161 main_v163 (broadcastInDim S4x4x4 ![1] bcast_S4_S4x4x4_1 : (⟨S4, .i32⟩ : BufTy).Contents (Elt F) → (⟨S4x4x4, .i32⟩ : BufTy).Contents (Elt F)),
    StableHlo.unary main_v161 main_v164 (broadcastInDim S4x4x4 ![2] bcast_S4_S4x4x4_2 : (⟨S4, .i32⟩ : BufTy).Contents (Elt F) → (⟨S4x4x4, .i32⟩ : BufTy).Contents (Elt F)),
    StableHlo.nullary main_c_35 (constantI S_ 32 0#32),
    StableHlo.unary main_c_35 main_v165 (broadcastInDim S4x4x4 ![] bcast_S_S4x4x4 : (⟨S_, .i32⟩ : BufTy).Contents (Elt F) → (⟨S4x4x4, .i32⟩ : BufTy).Contents (Elt F)),
    StableHlo.unary main_v165 main_v166 (broadcastInDim S4x4x4x1 ![0, 1, 2] bcast_S4x4x4_S4x4x4x1_0_1_2 : (⟨S4x4x4, .i32⟩ : BufTy).Contents (Elt F) → (⟨S4x4x4x1, .i32⟩ : BufTy).Contents (Elt F)),
    StableHlo.unary main_v164 main_v167 (broadcastInDim S4x4x4x1 ![0, 1, 2] bcast_S4x4x4_S4x4x4x1_0_1_2 : (⟨S4x4x4, .i32⟩ : BufTy).Contents (Elt F) → (⟨S4x4x4x1, .i32⟩ : BufTy).Contents (Elt F)),
    StableHlo.unary main_v163 main_v168 (broadcastInDim S4x4x4x1 ![0, 1, 2] bcast_S4x4x4_S4x4x4x1_0_1_2 : (⟨S4x4x4, .i32⟩ : BufTy).Contents (Elt F) → (⟨S4x4x4x1, .i32⟩ : BufTy).Contents (Elt F)),
    StableHlo.unary main_v162 main_v169 (broadcastInDim S4x4x4x1 ![0, 1, 2] bcast_S4x4x4_S4x4x4x1_0_1_2 : (⟨S4x4x4, .i32⟩ : BufTy).Contents (Elt F) → (⟨S4x4x4x1, .i32⟩ : BufTy).Contents (Elt F)),
    StableHlo.nary ![main_v166, main_v167, main_v168, main_v169] main_v170 (fun u => concatenate S4x4x4x4 3 [⟨S4x4x4x1, u 0⟩, ⟨S4x4x4x1, u 1⟩, ⟨S4x4x4x1, u 2⟩, ⟨S4x4x4x1, u 3⟩] concatenates_S4x4x4x1_S4x4x4x1_S4x4x4x1_S4x4x4x1_S4x4x4x4_d3),
    StableHlo.reshape main_v170 main_v171 rfl shapeCasts_S4x4x4x4_S64x4,
    StableHlo.unary main_arg7 main_v172 ((extractStridedSlice S1x32x64 ![1, 0, 0] · slices_S2x32x64_S1x32x64_1_0_0) : (⟨S2x32x64, .f32⟩ : BufTy).Contents (Elt F) → (⟨S1x32x64, .f32⟩ : BufTy).Contents (Elt F)),
    StableHlo.reshape main_v172 main_v173 rfl shapeCasts_S1x32x64_S32x64,
    StableHlo.unary main_v173 main_v174 ((transpose S64x32 [1, 0] · transposes_S32x64_S64x32_1_0) : (⟨S32x64, .f32⟩ : BufTy).Contents (Elt F) → (⟨S64x32, .f32⟩ : BufTy).Contents (Elt F)),
    StableHlo.binary main_arg5 main_v174 main_v175 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
    StableHlo.unary main_arg8 main_v176 ((extractStridedSlice S1x32 ![1, 0] · slices_S2x32_S1x32_1_0) : (⟨S2x32, .f32⟩ : BufTy).Contents (Elt F) → (⟨S1x32, .f32⟩ : BufTy).Contents (Elt F)),
    StableHlo.reshape main_v176 main_v177 rfl shapeCasts_S1x32_S32,
    StableHlo.unary main_arg9 main_v178 ((extractStridedSlice S1x32 ![1, 0] · slices_S2x32_S1x32_1_0) : (⟨S2x32, .f32⟩ : BufTy).Contents (Elt F) → (⟨S1x32, .f32⟩ : BufTy).Contents (Elt F)),
    StableHlo.reshape main_v178 main_v179 rfl shapeCasts_S1x32_S32,
    StableHlo.nullary main_cst_36 (constant S_ .f32 0x00000000#32),
    StableHlo.binary main_v175 main_cst_36 main_v180 ((fun x v => Host.reduceAdd x v reducesTo_S16384x32_S32_d0 h_S_) : (⟨S16384x32, .f32⟩ : BufTy).Contents (Elt F) → (⟨S_, .f32⟩ : BufTy).Contents (Elt F) → (⟨S32, .f32⟩ : BufTy).Contents (Elt F)),
    StableHlo.unary main_v180 main_v181 (broadcastInDim S1x32 ![1] bcast_S32_S1x32_1 : (⟨S32, .f32⟩ : BufTy).Contents (Elt F) → (⟨S1x32, .f32⟩ : BufTy).Contents (Elt F)),
    StableHlo.nullary main_cst_37 (constant S_ .f32 0x46800000#32),
    StableHlo.unary main_cst_37 main_v182 (broadcastInDim S1x32 ![] bcast_S_S1x32 : (⟨S_, .f32⟩ : BufTy).Contents (Elt F) → (⟨S1x32, .f32⟩ : BufTy).Contents (Elt F)),
    StableHlo.binary main_v181 main_v182 main_v183 (Host.divf : (⟨S1x32, .f32⟩ : BufTy).Contents (Elt F) → (⟨S1x32, .f32⟩ : BufTy).Contents (Elt F) → (⟨S1x32, .f32⟩ : BufTy).Contents (Elt F)),
    StableHlo.nullary main_c_38 (constantI S_ 32 0#32),
    StableHlo.TRef.nullary main_call8.cst (constant S_ .f32 0x00000000#32),
    StableHlo.TRef.binary (.of main_v175 : StableHlo.TRef sig ⟨S16384x32, .f32⟩) main_call8.cst main_call8.v0 (fun x v => Host.reduceAdd x v reducesTo_S16384x32_S32_d0 h_S_),
    StableHlo.TRef.unary main_call8.v0 main_call8.v1 (broadcastInDim S1x32 ![1] bcast_S32_S1x32_1),
    StableHlo.TRef.nullary main_call8.cst_0 (constant S_ .f32 0x46800000#32),
    StableHlo.TRef.unary main_call8.cst_0 main_call8.v2 (broadcastInDim S1x32 ![] bcast_S_S1x32),
    StableHlo.TRef.binary main_call8.v1 main_call8.v2 main_call8.v3 Host.divf,
    StableHlo.TRef.unary main_call8.v3 main_call8.v4 (broadcastInDim S16384x32 ![0, 1] bcast_S1x32_S16384x32_0_1),
    StableHlo.TRef.binary (.of main_v175 : StableHlo.TRef sig ⟨S16384x32, .f32⟩) main_call8.v4 main_call8.v5 subf,
    StableHlo.TRef.binary main_call8.v5 main_call8.v5 main_call8.v6 mulf,
    StableHlo.TRef.unary (.of main_c_38 : StableHlo.TRef sig ⟨S_, .i32⟩) main_call8.v7 (sitofp .f32),
    StableHlo.TRef.nullary main_call8.cst_1 (constant S_ .f32 0x46800000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S16384x32_S32_d0 h_S_),
    StableHlo.TRef.unary main_call8.v9 main_call8.v10 (broadcastInDim S1x32 ![1] bcast_S32_S1x32_1),
    StableHlo.TRef.unary main_call8.v8 main_call8.v11 (broadcastInDim S1x32 ![] bcast_S_S1x32),
    StableHlo.TRef.binary main_call8.v10 main_call8.v11 main_call8.v12 Host.divf,
    StableHlo.TRef.nullary main_call8.cst_3 (constant S_ .f32 0x00000000#32),
    StableHlo.TRef.binary main_call8.v8 main_call8.cst_3 main_call8.v13 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S1x32 ![] bcast_S_S1x32),
    StableHlo.TRef.ternary main_call8.v13 main_call8.v12 main_call8.call0.v1 main_call8.call0.v2 (fun p a b => select (broadcastInDim S1x32 ![] bcast_S_S1x32 p) a b),
    StableHlo.unary main_v183 main_v185 (broadcastInDim S16384x32 ![0, 1] bcast_S1x32_S16384x32_0_1 : (⟨S1x32, .f32⟩ : BufTy).Contents (Elt F) → (⟨S16384x32, .f32⟩ : BufTy).Contents (Elt F)),
    StableHlo.binary main_v175 main_v185 main_v186 (subf : (⟨S16384x32, .f32⟩ : BufTy).Contents (Elt F) → (⟨S16384x32, .f32⟩ : BufTy).Contents (Elt F) → (⟨S16384x32, .f32⟩ : BufTy).Contents (Elt F)),
    StableHlo.nullary main_cst_39 (constant S_ .f32 0x3727C5AC#32),
    StableHlo.unary main_cst_39 main_v187 (broadcastInDim S1x32 ![] bcast_S_S1x32 : (⟨S_, .f32⟩ : BufTy).Contents (Elt F) → (⟨S1x32, .f32⟩ : BufTy).Contents (Elt F)),
    StableHlo.binary main_v184 main_v187 main_v188 (addf : (⟨S1x32, .f32⟩ : BufTy).Contents (Elt F) → (⟨S1x32, .f32⟩ : BufTy).Contents (Elt F) → (⟨S1x32, .f32⟩ : BufTy).Contents (Elt F)),
    StableHlo.unary main_v188 main_v189 (Host.rsqrt : (⟨S1x32, .f32⟩ : BufTy).Contents (Elt F) → (⟨S1x32, .f32⟩ : BufTy).Contents (Elt F)),
    StableHlo.unary main_v189 main_v190 (broadcastInDim S16384x32 ![0, 1] bcast_S1x32_S16384x32_0_1 : (⟨S1x32, .f32⟩ : BufTy).Contents (Elt F) → (⟨S16384x32, .f32⟩ : BufTy).Contents (Elt F)),
    StableHlo.binary main_v186 main_v190 main_v191 (mulf : (⟨S16384x32, .f32⟩ : BufTy).Contents (Elt F) → (⟨S16384x32, .f32⟩ : BufTy).Contents (Elt F) → (⟨S16384x32, .f32⟩ : BufTy).Contents (Elt F)),
    StableHlo.unary main_v177 main_v192 (broadcastInDim S1x32 ![1] bcast_S32_S1x32_1 : (⟨S32, .f32⟩ : BufTy).Contents (Elt F) → (⟨S1x32, .f32⟩ : BufTy).Contents (Elt F)),
    StableHlo.unary main_v192 main_v193 (broadcastInDim S16384x32 ![0, 1] bcast_S1x32_S16384x32_0_1 : (⟨S1x32, .f32⟩ : BufTy).Contents (Elt F) → (⟨S16384x32, .f32⟩ : BufTy).Contents (Elt F)),
    StableHlo.binary main_v191 main_v193 main_v194 (mulf : (⟨S16384x32, .f32⟩ : BufTy).Contents (Elt F) → (⟨S16384x32, .f32⟩ : BufTy).Contents (Elt F) → (⟨S16384x32, .f32⟩ : BufTy).Contents (Elt F)),
    StableHlo.unary main_v179 main_v195 (broadcastInDim S1x32 ![1] bcast_S32_S1x32_1 : (⟨S32, .f32⟩ : BufTy).Contents (Elt F) → (⟨S1x32, .f32⟩ : BufTy).Contents (Elt F)),
    StableHlo.unary main_v195 main_v196 (broadcastInDim S16384x32 ![0, 1] bcast_S1x32_S16384x32_0_1 : (⟨S1x32, .f32⟩ : BufTy).Contents (Elt F) → (⟨S16384x32, .f32⟩ : BufTy).Contents (Elt F)),
    StableHlo.binary main_v194 main_v196 main_v197 (addf : (⟨S16384x32, .f32⟩ : BufTy).Contents (Elt F) → (⟨S16384x32, .f32⟩ : BufTy).Contents (Elt F) → (⟨S16384x32, .f32⟩ : BufTy).Contents (Elt F)) ]

/-- The 75 operations of main_part4. -/
def ops_part4 : List (HloOp τ sig (Elt F)) :=
  [ StableHlo.nullary main_cst_40 (constant S_ .f32 0x00000000#32),
    StableHlo.unary main_cst_40 main_v198 (broadcastInDim S1x32 ![] bcast_S_S1x32 : (⟨S_, .f32⟩ : BufTy).Contents (Elt F) → (⟨S1x32, .f32⟩ : BufTy).Contents (Elt F)),
    StableHlo.binary main_v198 main_v197 main_v199 ((fun a b => concatenate S16385x32 0 [⟨S1x32, a⟩, ⟨S16384x32, b⟩] concatenates_S1x32_S16384x32_S16385x32_d0) : (⟨S1x32, .f32⟩ : BufTy).Contents (Elt F) → (⟨S16384x32, .f32⟩ : BufTy).Contents (Elt F) → (⟨S16385x32, .f32⟩ : BufTy).Contents (Elt F)),
    StableHlo.unary main_v6 main_v200 (broadcastInDim S65536x1x4 ![0, 2] bcast_S65536x4_S65536x1x4_0_2 : (⟨S65536x4, .i32⟩ : BufTy).Contents (Elt F) → (⟨S65536x1x4, .i32⟩ : BufTy).Contents (Elt F)),
    StableHlo.unary main_v171 main_v201 (broadcastInDim S1x64x4 ![1, 2] bcast_S64x4_S1x64x4_1_2 : (⟨S64x4, .i32⟩ : BufTy).Contents (Elt F) → (⟨S1x64x4, .i32⟩ : BufTy).Contents (Elt F)),
    StableHlo.unary main_v200 main_v202 (broadcastInDim S65536x64x4 ![0, 1, 2] bcast_S65536x1x4_S65536x64x4_0_1_2 : (⟨S65536x1x4, .i32⟩ : BufTy).Contents (Elt F) → (⟨S65536x64x4, .i32⟩ : BufTy).Contents (Elt F)),
    StableHlo.unary main_v201 main_v203 (broadcastInDim S65536x64x4 ![0, 1, 2] bcast_S1x64x4_S65536x64x4_0_1_2 : (⟨S1x64x4, .i32⟩ : BufTy).Contents (Elt F) → (⟨S65536x64x4, .i32⟩ : BufTy).Contents (Elt F)),
    StableHlo.binary main_v202 main_v203 main_v204 (addi : (⟨S65536x64x4, .i32⟩ : BufTy).Contents (Elt F) → (⟨S65536x64x4, .i32⟩ : BufTy).Contents (Elt F) → (⟨S65536x64x4, .i32⟩ : BufTy).Contents (Elt F)),
    StableHlo.unary main_v204 main_v205 ((extractStridedSlice S65536x64x1 ![0, 0, 0] · slices_S65536x64x4_S65536x64x1_0_0_0) : (⟨S65536x64x4, .i32⟩ : BufTy).Contents (Elt F) → (⟨S65536x64x1, .i32⟩ : BufTy).Contents (Elt F)),
    StableHlo.reshape main_v205 main_v206 rfl shapeCasts_S65536x64x1_S65536x64,
    StableHlo.unary main_v204 main_v207 ((extractStridedSlice S65536x64x1 ![0, 0, 1] · slices_S65536x64x4_S65536x64x1_0_0_1) : (⟨S65536x64x4, .i32⟩ : BufTy).Contents (Elt F) → (⟨S65536x64x1, .i32⟩ : BufTy).Contents (Elt F)),
    StableHlo.reshape main_v207 main_v208 rfl shapeCasts_S65536x64x1_S65536x64,
    StableHlo.nullary main_c_41 (constantI S_ 32 0#32),
    StableHlo.nullary main_c_42 (constantI S_ 32 10#32),
    StableHlo.TRef.unary (.of main_c_41 : StableHlo.TRef sig ⟨S_, .i32⟩) main_call9.v0 id,
    StableHlo.TRef.unary main_call9.v0 main_call9.v1 (broadcastInDim S65536x64 ![] bcast_S_S65536x64),
    StableHlo.TRef.binary main_call9.v1 (.of main_v208 : StableHlo.TRef sig ⟨S65536x64, .i32⟩) main_call9.v2 maxsi,
    StableHlo.TRef.unary (.of main_c_42 : StableHlo.TRef sig ⟨S_, .i32⟩) main_call9.v3 id,
    StableHlo.TRef.unary main_call9.v3 main_call9.v4 (broadcastInDim S65536x64 ![] bcast_S_S65536x64),
    StableHlo.TRef.binary main_call9.v4 main_call9.v2 main_call9.v5 minsi,
    StableHlo.unary main_v204 main_v210 ((extractStridedSlice S65536x64x1 ![0, 0, 2] · slices_S65536x64x4_S65536x64x1_0_0_2) : (⟨S65536x64x4, .i32⟩ : BufTy).Contents (Elt F) → (⟨S65536x64x1, .i32⟩ : BufTy).Contents (Elt F)),
    StableHlo.reshape main_v210 main_v211 rfl shapeCasts_S65536x64x1_S65536x64,
    StableHlo.nullary main_c_43 (constantI S_ 32 0#32),
    StableHlo.nullary main_c_44 (constantI S_ 32 199#32),
    StableHlo.TRef.unary (.of main_c_43 : StableHlo.TRef sig ⟨S_, .i32⟩) main_call10.v0 id,
    StableHlo.TRef.unary main_call10.v0 main_call10.v1 (broadcastInDim S65536x64 ![] bcast_S_S65536x64),
    StableHlo.TRef.binary main_call10.v1 (.of main_v211 : StableHlo.TRef sig ⟨S65536x64, .i32⟩) main_call10.v2 maxsi,
    StableHlo.TRef.unary (.of main_c_44 : StableHlo.TRef sig ⟨S_, .i32⟩) main_call10.v3 id,
    StableHlo.TRef.unary main_call10.v3 main_call10.v4 (broadcastInDim S65536x64 ![] bcast_S_S65536x64),
    StableHlo.TRef.binary main_call10.v4 main_call10.v2 main_call10.v5 minsi,
    StableHlo.unary main_v204 main_v213 ((extractStridedSlice S65536x64x1 ![0, 0, 3] · slices_S65536x64x4_S65536x64x1_0_0_3) : (⟨S65536x64x4, .i32⟩ : BufTy).Contents (Elt F) → (⟨S65536x64x1, .i32⟩ : BufTy).Contents (Elt F)),
    StableHlo.reshape main_v213 main_v214 rfl shapeCasts_S65536x64x1_S65536x64,
    StableHlo.nullary main_c_45 (constantI S_ 32 0#32),
    StableHlo.nullary main_c_46 (constantI S_ 32 175#32),
    StableHlo.TRef.unary (.of main_c_45 : StableHlo.TRef sig ⟨S_, .i32⟩) main_call11.v0 id,
    StableHlo.TRef.unary main_call11.v0 main_call11.v1 (broadcastInDim S65536x64 ![] bcast_S_S65536x64),
    StableHlo.TRef.binary main_call11.v1 (.of main_v214 : StableHlo.TRef sig ⟨S65536x64, .i32⟩) main_call11.v2 maxsi,
    StableHlo.TRef.unary (.of main_c_46 : StableHlo.TRef sig ⟨S_, .i32⟩) main_call11.v3 id,
    StableHlo.TRef.unary main_call11.v3 main_call11.v4 (broadcastInDim S65536x64 ![] bcast_S_S65536x64),
    StableHlo.TRef.binary main_call11.v4 main_call11.v2 main_call11.v5 minsi,
    StableHlo.nullary main_c_47 (constantI S_ 32 0#32),
    StableHlo.unary main_c_47 main_v216 (broadcastInDim S65536x64 ![] bcast_S_S65536x64 : (⟨S_, .i32⟩ : BufTy).Contents (Elt F) → (⟨S65536x64, .i32⟩ : BufTy).Contents (Elt F)),
    StableHlo.binary main_v206 main_v216 main_v217 (cmpi .slt : (⟨S65536x64, .i32⟩ : BufTy).Contents (Elt F) → (⟨S65536x64, .i32⟩ : BufTy).Contents (Elt F) → (⟨S65536x64, .i1⟩ : BufTy).Contents (Elt F)),
    StableHlo.nullary main_c_48 (constantI S_ 32 2#32),
    StableHlo.unary main_c_48 main_v218 (broadcastInDim S65536x64 ![] bcast_S_S65536x64 : (⟨S_, .i32⟩ : BufTy).Contents (Elt F) → (⟨S65536x64, .i32⟩ : BufTy).Contents (Elt F)),
    StableHlo.binary main_v206 main_v218 main_v219 (addi : (⟨S65536x64, .i32⟩ : BufTy).Contents (Elt F) → (⟨S65536x64, .i32⟩ : BufTy).Contents (Elt F) → (⟨S65536x64, .i32⟩ : BufTy).Contents (Elt F)),
    StableHlo.ternary main_v217 main_v219 main_v206 main_v220 (select : (⟨S65536x64, .i1⟩ : BufTy).Contents (Elt F) → (⟨S65536x64, .i32⟩ : BufTy).Contents (Elt F) → (⟨S65536x64, .i32⟩ : BufTy).Contents (Elt F) → (⟨S65536x64, .i32⟩ : BufTy).Contents (Elt F)),
    StableHlo.nullary main_c_49 (constantI S_ 32 0#32),
    StableHlo.unary main_c_49 main_v221 (broadcastInDim S65536x64 ![] bcast_S_S65536x64 : (⟨S_, .i32⟩ : BufTy).Contents (Elt F) → (⟨S65536x64, .i32⟩ : BufTy).Contents (Elt F)),
    StableHlo.binary main_v209 main_v221 main_v222 (cmpi .slt : (⟨S65536x64, .i32⟩ : BufTy).Contents (Elt F) → (⟨S65536x64, .i32⟩ : BufTy).Contents (Elt F) → (⟨S65536x64, .i1⟩ : BufTy).Contents (Elt F)),
    StableHlo.nullary main_c_50 (constantI S_ 32 11#32),
    StableHlo.unary main_c_50 main_v223 (broadcastInDim S65536x64 ![] bcast_S_S65536x64 : (⟨S_, .i32⟩ : BufTy).Contents (Elt F) → (⟨S65536x64, .i32⟩ : BufTy).Contents (Elt F)),
    StableHlo.binary main_v209 main_v223 main_v224 (addi : (⟨S65536x64, .i32⟩ : BufTy).Contents (Elt F) → (⟨S65536x64, .i32⟩ : BufTy).Contents (Elt F) → (⟨S65536x64, .i32⟩ : BufTy).Contents (Elt F)),
    StableHlo.ternary main_v222 main_v224 main_v209 main_v225 (select : (⟨S65536x64, .i1⟩ : BufTy).Contents (Elt F) → (⟨S65536x64, .i32⟩ : BufTy).Contents (Elt F) → (⟨S65536x64, .i32⟩ : BufTy).Contents (Elt F) → (⟨S65536x64, .i32⟩ : BufTy).Contents (Elt F)),
    StableHlo.nullary main_c_51 (constantI S_ 32 0#32),
    StableHlo.unary main_c_51 main_v226 (broadcastInDim S65536x64 ![] bcast_S_S65536x64 : (⟨S_, .i32⟩ : BufTy).Contents (Elt F) → (⟨S65536x64, .i32⟩ : BufTy).Contents (Elt F)),
    StableHlo.binary main_v212 main_v226 main_v227 (cmpi .slt : (⟨S65536x64, .i32⟩ : BufTy).Contents (Elt F) → (⟨S65536x64, .i32⟩ : BufTy).Contents (Elt F) → (⟨S65536x64, .i1⟩ : BufTy).Contents (Elt F)),
    StableHlo.nullary main_c_52 (constantI S_ 32 200#32),
    StableHlo.unary main_c_52 main_v228 (broadcastInDim S65536x64 ![] bcast_S_S65536x64 : (⟨S_, .i32⟩ : BufTy).Contents (Elt F) → (⟨S65536x64, .i32⟩ : BufTy).Contents (Elt F)),
    StableHlo.binary main_v212 main_v228 main_v229 (addi : (⟨S65536x64, .i32⟩ : BufTy).Contents (Elt F) → (⟨S65536x64, .i32⟩ : BufTy).Contents (Elt F) → (⟨S65536x64, .i32⟩ : BufTy).Contents (Elt F)),
    StableHlo.ternary main_v227 main_v229 main_v212 main_v230 (select : (⟨S65536x64, .i1⟩ : BufTy).Contents (Elt F) → (⟨S65536x64, .i32⟩ : BufTy).Contents (Elt F) → (⟨S65536x64, .i32⟩ : BufTy).Contents (Elt F) → (⟨S65536x64, .i32⟩ : BufTy).Contents (Elt F)),
    StableHlo.nullary main_c_53 (constantI S_ 32 0#32),
    StableHlo.unary main_c_53 main_v231 (broadcastInDim S65536x64 ![] bcast_S_S65536x64 : (⟨S_, .i32⟩ : BufTy).Contents (Elt F) → (⟨S65536x64, .i32⟩ : BufTy).Contents (Elt F)),
    StableHlo.binary main_v215 main_v231 main_v232 (cmpi .slt : (⟨S65536x64, .i32⟩ : BufTy).Contents (Elt F) → (⟨S65536x64, .i32⟩ : BufTy).Contents (Elt F) → (⟨S65536x64, .i1⟩ : BufTy).Contents (Elt F)),
    StableHlo.nullary main_c_54 (constantI S_ 32 176#32),
    StableHlo.unary main_c_54 main_v233 (broadcastInDim S65536x64 ![] bcast_S_S65536x64 : (⟨S_, .i32⟩ : BufTy).Contents (Elt F) → (⟨S65536x64, .i32⟩ : BufTy).Contents (Elt F)),
    StableHlo.binary main_v215 main_v233 main_v234 (addi : (⟨S65536x64, .i32⟩ : BufTy).Contents (Elt F) → (⟨S65536x64, .i32⟩ : BufTy).Contents (Elt F) → (⟨S65536x64, .i32⟩ : BufTy).Contents (Elt F)),
    StableHlo.ternary main_v232 main_v234 main_v215 main_v235 (select : (⟨S65536x64, .i1⟩ : BufTy).Contents (Elt F) → (⟨S65536x64, .i32⟩ : BufTy).Contents (Elt F) → (⟨S65536x64, .i32⟩ : BufTy).Contents (Elt F) → (⟨S65536x64, .i32⟩ : BufTy).Contents (Elt F)),
    StableHlo.unary main_v220 main_v236 (broadcastInDim S65536x64x1 ![0, 1] bcast_S65536x64_S65536x64x1_0_1 : (⟨S65536x64, .i32⟩ : BufTy).Contents (Elt F) → (⟨S65536x64x1, .i32⟩ : BufTy).Contents (Elt F)),
    StableHlo.unary main_v225 main_v237 (broadcastInDim S65536x64x1 ![0, 1] bcast_S65536x64_S65536x64x1_0_1 : (⟨S65536x64, .i32⟩ : BufTy).Contents (Elt F) → (⟨S65536x64x1, .i32⟩ : BufTy).Contents (Elt F)),
    StableHlo.unary main_v230 main_v238 (broadcastInDim S65536x64x1 ![0, 1] bcast_S65536x64_S65536x64x1_0_1 : (⟨S65536x64, .i32⟩ : BufTy).Contents (Elt F) → (⟨S65536x64x1, .i32⟩ : BufTy).Contents (Elt F)),
    StableHlo.unary main_v235 main_v239 (broadcastInDim S65536x64x1 ![0, 1] bcast_S65536x64_S65536x64x1_0_1 : (⟨S65536x64, .i32⟩ : BufTy).Contents (Elt F) → (⟨S65536x64x1, .i32⟩ : BufTy).Contents (Elt F)),
    StableHlo.nary ![main_v236, main_v237, main_v238, main_v239] main_v240 (fun u => concatenate S65536x64x4 2 [⟨S65536x64x1, u 0⟩, ⟨S65536x64x1, u 1⟩, ⟨S65536x64x1, u 2⟩, ⟨S65536x64x1, u 3⟩] concatenates_S65536x64x1_S65536x64x1_S65536x64x1_S65536x64x1_S65536x64x4_d2),
    StableHlo.binary main_arg6 main_v240 main_v241 ((fun x i => Host.gather gather_S2x11x200x176_S65536x64x4_S65536x64_n_0123_n_n_0123_2_1111 x i) : (⟨S2x11x200x176, .i32⟩ : BufTy).Contents (Elt F) → (⟨S65536x64x4, .i32⟩ : BufTy).Contents (Elt F) → (⟨S65536x64, .i32⟩ : BufTy).Contents (Elt F)),
    StableHlo.nullary main_c_55 (constantI S_ 32 1#32) ]

/-- The 84 operations of main_part5. -/
def ops_part5 : List (HloOp τ sig (Elt F)) :=
  [ StableHlo.unary main_c_55 main_v242 (broadcastInDim S65536x64 ![] bcast_S_S65536x64 : (⟨S_, .i32⟩ : BufTy).Contents (Elt F) → (⟨S65536x64, .i32⟩ : BufTy).Contents (Elt F)),
    StableHlo.binary main_v241 main_v242 main_v243 (addi : (⟨S65536x64, .i32⟩ : BufTy).Contents (Elt F) → (⟨S65536x64, .i32⟩ : BufTy).Contents (Elt F) → (⟨S65536x64, .i32⟩ : BufTy).Contents (Elt F)),
    StableHlo.nullary main_c_56 (constantI S_ 32 0#32),
    StableHlo.unary main_c_56 main_v244 (broadcastInDim S65536x64 ![] bcast_S_S65536x64 : (⟨S_, .i32⟩ : BufTy).Contents (Elt F) → (⟨S65536x64, .i32⟩ : BufTy).Contents (Elt F)),
    StableHlo.binary main_v243 main_v244 main_v245 (cmpi .slt : (⟨S65536x64, .i32⟩ : BufTy).Contents (Elt F) → (⟨S65536x64, .i32⟩ : BufTy).Contents (Elt F) → (⟨S65536x64, .i1⟩ : BufTy).Contents (Elt F)),
    StableHlo.nullary main_c_57 (constantI S_ 32 16385#32),
    StableHlo.unary main_c_57 main_v246 (broadcastInDim S65536x64 ![] bcast_S_S65536x64 : (⟨S_, .i32⟩ : BufTy).Contents (Elt F) → (⟨S65536x64, .i32⟩ : BufTy).Contents (Elt F)),
    StableHlo.binary main_v243 main_v246 main_v247 (addi : (⟨S65536x64, .i32⟩ : BufTy).Contents (Elt F) → (⟨S65536x64, .i32⟩ : BufTy).Contents (Elt F) → (⟨S65536x64, .i32⟩ : BufTy).Contents (Elt F)),
    StableHlo.ternary main_v245 main_v247 main_v243 main_v248 (select : (⟨S65536x64, .i1⟩ : BufTy).Contents (Elt F) → (⟨S65536x64, .i32⟩ : BufTy).Contents (Elt F) → (⟨S65536x64, .i32⟩ : BufTy).Contents (Elt F) → (⟨S65536x64, .i32⟩ : BufTy).Contents (Elt F)),
    StableHlo.unary main_v248 main_v249 (broadcastInDim S65536x64x1 ![0, 1] bcast_S65536x64_S65536x64x1_0_1 : (⟨S65536x64, .i32⟩ : BufTy).Contents (Elt F) → (⟨S65536x64x1, .i32⟩ : BufTy).Contents (Elt F)),
    StableHlo.binary main_v199 main_v249 main_v250 ((fun x i => Host.gather gather_S16385x32_S65536x64x1_S65536x64x32_2_0_n_n_0_2_132 x i) : (⟨S16385x32, .f32⟩ : BufTy).Contents (Elt F) → (⟨S65536x64x1, .i32⟩ : BufTy).Contents (Elt F) → (⟨S65536x64x32, .f32⟩ : BufTy).Contents (Elt F)),
    StableHlo.unary main_v171 main_v251 ((extractStridedSlice S64x3 ![0, 1] · slices_S64x4_S64x3_0_1) : (⟨S64x4, .i32⟩ : BufTy).Contents (Elt F) → (⟨S64x3, .i32⟩ : BufTy).Contents (Elt F)),
    StableHlo.unary main_v251 main_v252 (sitofp .f32 : (⟨S64x3, .i32⟩ : BufTy).Contents (Elt F) → (⟨S64x3, .f32⟩ : BufTy).Contents (Elt F)),
    StableHlo.unary main_arg10 main_v253 ((extractStridedSlice S1x32x3 ![1, 0, 0] · slices_S2x32x3_S1x32x3_1_0_0) : (⟨S2x32x3, .f32⟩ : BufTy).Contents (Elt F) → (⟨S1x32x3, .f32⟩ : BufTy).Contents (Elt F)),
    StableHlo.reshape main_v253 main_v254 rfl shapeCasts_S1x32x3_S32x3,
    StableHlo.unary main_v254 main_v255 ((transpose S3x32 [1, 0] · transposes_S32x3_S3x32_1_0) : (⟨S32x3, .f32⟩ : BufTy).Contents (Elt F) → (⟨S3x32, .f32⟩ : BufTy).Contents (Elt F)),
    StableHlo.binary main_v252 main_v255 main_v256 ((fun l r => Host.dotGeneral dot_S64x3_S3x32_S64x32_1_0_0_1_n_n none l r) : (⟨S64x3, .f32⟩ : BufTy).Contents (Elt F) → (⟨S3x32, .f32⟩ : BufTy).Contents (Elt F) → (⟨S64x32, .f32⟩ : BufTy).Contents (Elt F)),
    StableHlo.unary main_arg11 main_v257 ((extractStridedSlice S1x32 ![1, 0] · slices_S2x32_S1x32_1_0) : (⟨S2x32, .f32⟩ : BufTy).Contents (Elt F) → (⟨S1x32, .f32⟩ : BufTy).Contents (Elt F)),
    StableHlo.reshape main_v257 main_v258 rfl shapeCasts_S1x32_S32,
    StableHlo.unary main_arg12 main_v259 ((extractStridedSlice S1x32 ![1, 0] · slices_S2x32_S1x32_1_0) : (⟨S2x32, .f32⟩ : BufTy).Contents (Elt F) → (⟨S1x32, .f32⟩ : BufTy).Contents (Elt F)),
    StableHlo.reshape main_v259 main_v260 rfl shapeCasts_S1x32_S32,
    StableHlo.nullary main_cst_58 (constant S_ .f32 0x00000000#32),
    StableHlo.binary main_v256 main_cst_58 main_v261 ((fun x v => Host.reduceAdd x v reducesTo_S64x32_S32_d0 h_S_) : (⟨S64x32, .f32⟩ : BufTy).Contents (Elt F) → (⟨S_, .f32⟩ : BufTy).Contents (Elt F) → (⟨S32, .f32⟩ : BufTy).Contents (Elt F)),
    StableHlo.unary main_v261 main_v262 (broadcastInDim S1x32 ![1] bcast_S32_S1x32_1 : (⟨S32, .f32⟩ : BufTy).Contents (Elt F) → (⟨S1x32, .f32⟩ : BufTy).Contents (Elt F)),
    StableHlo.nullary main_cst_59 (constant S_ .f32 0x42800000#32),
    StableHlo.unary main_cst_59 main_v263 (broadcastInDim S1x32 ![] bcast_S_S1x32 : (⟨S_, .f32⟩ : BufTy).Contents (Elt F) → (⟨S1x32, .f32⟩ : BufTy).Contents (Elt F)),
    StableHlo.binary main_v262 main_v263 main_v264 (Host.divf : (⟨S1x32, .f32⟩ : BufTy).Contents (Elt F) → (⟨S1x32, .f32⟩ : BufTy).Contents (Elt F) → (⟨S1x32, .f32⟩ : BufTy).Contents (Elt F)),
    StableHlo.nullary main_c_60 (constantI S_ 32 0#32),
    StableHlo.TRef.nullary main_call12.cst (constant S_ .f32 0x00000000#32),
    StableHlo.TRef.binary (.of main_v256 : StableHlo.TRef sig ⟨S64x32, .f32⟩) main_call12.cst main_call12.v0 (fun x v => Host.reduceAdd x v reducesTo_S64x32_S32_d0 h_S_),
    StableHlo.TRef.unary main_call12.v0 main_call12.v1 (broadcastInDim S1x32 ![1] bcast_S32_S1x32_1),
    StableHlo.TRef.nullary main_call12.cst_0 (constant S_ .f32 0x42800000#32),
    StableHlo.TRef.unary main_call12.cst_0 main_call12.v2 (broadcastInDim S1x32 ![] bcast_S_S1x32),
    StableHlo.TRef.binary main_call12.v1 main_call12.v2 main_call12.v3 Host.divf,
    StableHlo.TRef.unary main_call12.v3 main_call12.v4 (broadcastInDim S64x32 ![0, 1] bcast_S1x32_S64x32_0_1),
    StableHlo.TRef.binary (.of main_v256 : StableHlo.TRef sig ⟨S64x32, .f32⟩) main_call12.v4 main_call12.v5 subf,
    StableHlo.TRef.binary main_call12.v5 main_call12.v5 main_call12.v6 mulf,
    StableHlo.TRef.unary (.of main_c_60 : StableHlo.TRef sig ⟨S_, .i32⟩) main_call12.v7 (sitofp .f32),
    StableHlo.TRef.nullary main_call12.cst_1 (constant S_ .f32 0x42800000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S64x32_S32_d0 h_S_),
    StableHlo.TRef.unary main_call12.v9 main_call12.v10 (broadcastInDim S1x32 ![1] bcast_S32_S1x32_1),
    StableHlo.TRef.unary main_call12.v8 main_call12.v11 (broadcastInDim S1x32 ![] bcast_S_S1x32),
    StableHlo.TRef.binary main_call12.v10 main_call12.v11 main_call12.v12 Host.divf,
    StableHlo.TRef.nullary main_call12.cst_3 (constant S_ .f32 0x00000000#32),
    StableHlo.TRef.binary main_call12.v8 main_call12.cst_3 main_call12.v13 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S1x32 ![] bcast_S_S1x32),
    StableHlo.TRef.ternary main_call12.v13 main_call12.v12 main_call12.call0.v1 main_call12.call0.v2 (fun p a b => select (broadcastInDim S1x32 ![] bcast_S_S1x32 p) a b),
    StableHlo.unary main_v264 main_v266 (broadcastInDim S64x32 ![0, 1] bcast_S1x32_S64x32_0_1 : (⟨S1x32, .f32⟩ : BufTy).Contents (Elt F) → (⟨S64x32, .f32⟩ : BufTy).Contents (Elt F)),
    StableHlo.binary main_v256 main_v266 main_v267 (subf : (⟨S64x32, .f32⟩ : BufTy).Contents (Elt F) → (⟨S64x32, .f32⟩ : BufTy).Contents (Elt F) → (⟨S64x32, .f32⟩ : BufTy).Contents (Elt F)),
    StableHlo.nullary main_cst_61 (constant S_ .f32 0x3727C5AC#32),
    StableHlo.unary main_cst_61 main_v268 (broadcastInDim S1x32 ![] bcast_S_S1x32 : (⟨S_, .f32⟩ : BufTy).Contents (Elt F) → (⟨S1x32, .f32⟩ : BufTy).Contents (Elt F)),
    StableHlo.binary main_v265 main_v268 main_v269 (addf : (⟨S1x32, .f32⟩ : BufTy).Contents (Elt F) → (⟨S1x32, .f32⟩ : BufTy).Contents (Elt F) → (⟨S1x32, .f32⟩ : BufTy).Contents (Elt F)),
    StableHlo.unary main_v269 main_v270 (Host.rsqrt : (⟨S1x32, .f32⟩ : BufTy).Contents (Elt F) → (⟨S1x32, .f32⟩ : BufTy).Contents (Elt F)),
    StableHlo.unary main_v270 main_v271 (broadcastInDim S64x32 ![0, 1] bcast_S1x32_S64x32_0_1 : (⟨S1x32, .f32⟩ : BufTy).Contents (Elt F) → (⟨S64x32, .f32⟩ : BufTy).Contents (Elt F)),
    StableHlo.binary main_v267 main_v271 main_v272 (mulf : (⟨S64x32, .f32⟩ : BufTy).Contents (Elt F) → (⟨S64x32, .f32⟩ : BufTy).Contents (Elt F) → (⟨S64x32, .f32⟩ : BufTy).Contents (Elt F)),
    StableHlo.unary main_v258 main_v273 (broadcastInDim S1x32 ![1] bcast_S32_S1x32_1 : (⟨S32, .f32⟩ : BufTy).Contents (Elt F) → (⟨S1x32, .f32⟩ : BufTy).Contents (Elt F)),
    StableHlo.unary main_v273 main_v274 (broadcastInDim S64x32 ![0, 1] bcast_S1x32_S64x32_0_1 : (⟨S1x32, .f32⟩ : BufTy).Contents (Elt F) → (⟨S64x32, .f32⟩ : BufTy).Contents (Elt F)),
    StableHlo.binary main_v272 main_v274 main_v275 (mulf : (⟨S64x32, .f32⟩ : BufTy).Contents (Elt F) → (⟨S64x32, .f32⟩ : BufTy).Contents (Elt F) → (⟨S64x32, .f32⟩ : BufTy).Contents (Elt F)),
    StableHlo.unary main_v260 main_v276 (broadcastInDim S1x32 ![1] bcast_S32_S1x32_1 : (⟨S32, .f32⟩ : BufTy).Contents (Elt F) → (⟨S1x32, .f32⟩ : BufTy).Contents (Elt F)),
    StableHlo.unary main_v276 main_v277 (broadcastInDim S64x32 ![0, 1] bcast_S1x32_S64x32_0_1 : (⟨S1x32, .f32⟩ : BufTy).Contents (Elt F) → (⟨S64x32, .f32⟩ : BufTy).Contents (Elt F)),
    StableHlo.binary main_v275 main_v277 main_v278 (addf : (⟨S64x32, .f32⟩ : BufTy).Contents (Elt F) → (⟨S64x32, .f32⟩ : BufTy).Contents (Elt F) → (⟨S64x32, .f32⟩ : BufTy).Contents (Elt F)),
    StableHlo.unary main_v278 main_v279 (broadcastInDim S1x64x32 ![1, 2] bcast_S64x32_S1x64x32_1_2 : (⟨S64x32, .f32⟩ : BufTy).Contents (Elt F) → (⟨S1x64x32, .f32⟩ : BufTy).Contents (Elt F)),
    StableHlo.unary main_v279 main_v280 (broadcastInDim S65536x64x32 ![0, 1, 2] bcast_S1x64x32_S65536x64x32_0_1_2 : (⟨S1x64x32, .f32⟩ : BufTy).Contents (Elt F) → (⟨S65536x64x32, .f32⟩ : BufTy).Contents (Elt F)),
    StableHlo.binary main_v250 main_v280 main_v281 (addf : (⟨S65536x64x32, .f32⟩ : BufTy).Contents (Elt F) → (⟨S65536x64x32, .f32⟩ : BufTy).Contents (Elt F) → (⟨S65536x64x32, .f32⟩ : BufTy).Contents (Elt F)),
    StableHlo.TRef.nullary main_call13.cst (constant S_ .f32 0x00000000#32),
    StableHlo.TRef.unary main_call13.cst main_call13.v0 (broadcastInDim S65536x64x32 ![] bcast_S_S65536x64x32),
    StableHlo.TRef.binary (.of main_v281 : StableHlo.TRef sig ⟨S65536x64x32, .f32⟩) main_call13.v0 main_call13.v1 maximumf,
    StableHlo.nullary main_cst_62 (constant S_ .f32 0xFF800000#32),
    StableHlo.binary main_v282 main_cst_62 main_v283 ((fun x v => Host.reduce FloatOps.maximumf x v reducesTo_S65536x64x32_S65536x32_d1 h_S_) : (⟨S65536x64x32, .f32⟩ : BufTy).Contents (Elt F) → (⟨S_, .f32⟩ : BufTy).Contents (Elt F) → (⟨S65536x32, .f32⟩ : BufTy).Contents (Elt F)),
    StableHlo.unary main_arg13 main_v284 ((extractStridedSlice S1x64x32 ![1, 0, 0] · slices_S2x64x32_S1x64x32_1_0_0) : (⟨S2x64x32, .f32⟩ : BufTy).Contents (Elt F) → (⟨S1x64x32, .f32⟩ : BufTy).Contents (Elt F)),
    StableHlo.reshape main_v284 main_v285 rfl shapeCasts_S1x64x32_S64x32,
    StableHlo.unary main_v285 main_v286 ((transpose S32x64 [1, 0] · transposes_S64x32_S32x64_1_0) : (⟨S64x32, .f32⟩ : BufTy).Contents (Elt F) → (⟨S32x64, .f32⟩ : BufTy).Contents (Elt F)),
    StableHlo.binary main_v283 main_v286 main_v287 ((fun l r => Host.dotGeneral dot_S65536x32_S32x64_S65536x64_1_0_0_1_n_n none l r) : (⟨S65536x32, .f32⟩ : BufTy).Contents (Elt F) → (⟨S32x64, .f32⟩ : BufTy).Contents (Elt F) → (⟨S65536x64, .f32⟩ : BufTy).Contents (Elt F)),
    StableHlo.unary main_arg14 main_v288 ((extractStridedSlice S1x64 ![1, 0] · slices_S2x64_S1x64_1_0) : (⟨S2x64, .f32⟩ : BufTy).Contents (Elt F) → (⟨S1x64, .f32⟩ : BufTy).Contents (Elt F)),
    StableHlo.reshape main_v288 main_v289 rfl shapeCasts_S1x64_S64,
    StableHlo.unary main_arg15 main_v290 ((extractStridedSlice S1x64 ![1, 0] · slices_S2x64_S1x64_1_0) : (⟨S2x64, .f32⟩ : BufTy).Contents (Elt F) → (⟨S1x64, .f32⟩ : BufTy).Contents (Elt F)),
    StableHlo.reshape main_v290 main_v291 rfl shapeCasts_S1x64_S64,
    StableHlo.nullary main_cst_63 (constant S_ .f32 0x00000000#32),
    StableHlo.binary main_v287 main_cst_63 main_v292 ((fun x v => Host.reduceAdd x v reducesTo_S65536x64_S64_d0 h_S_) : (⟨S65536x64, .f32⟩ : BufTy).Contents (Elt F) → (⟨S_, .f32⟩ : BufTy).Contents (Elt F) → (⟨S64, .f32⟩ : BufTy).Contents (Elt F)),
    StableHlo.unary main_v292 main_v293 (broadcastInDim S1x64 ![1] bcast_S64_S1x64_1 : (⟨S64, .f32⟩ : BufTy).Contents (Elt F) → (⟨S1x64, .f32⟩ : BufTy).Contents (Elt F)) ]

/-- The 45 operations of main_part6. -/
def ops_part6 : List (HloOp τ sig (Elt F)) :=
  [ StableHlo.nullary main_cst_64 (constant S_ .f32 0x47800000#32),
    StableHlo.unary main_cst_64 main_v294 (broadcastInDim S1x64 ![] bcast_S_S1x64 : (⟨S_, .f32⟩ : BufTy).Contents (Elt F) → (⟨S1x64, .f32⟩ : BufTy).Contents (Elt F)),
    StableHlo.binary main_v293 main_v294 main_v295 (Host.divf : (⟨S1x64, .f32⟩ : BufTy).Contents (Elt F) → (⟨S1x64, .f32⟩ : BufTy).Contents (Elt F) → (⟨S1x64, .f32⟩ : BufTy).Contents (Elt F)),
    StableHlo.nullary main_c_65 (constantI S_ 32 0#32),
    StableHlo.TRef.nullary main_call14.cst (constant S_ .f32 0x00000000#32),
    StableHlo.TRef.binary (.of main_v287 : StableHlo.TRef sig ⟨S65536x64, .f32⟩) main_call14.cst main_call14.v0 (fun x v => Host.reduceAdd x v reducesTo_S65536x64_S64_d0 h_S_),
    StableHlo.TRef.unary main_call14.v0 main_call14.v1 (broadcastInDim S1x64 ![1] bcast_S64_S1x64_1),
    StableHlo.TRef.nullary main_call14.cst_0 (constant S_ .f32 0x47800000#32),
    StableHlo.TRef.unary main_call14.cst_0 main_call14.v2 (broadcastInDim S1x64 ![] bcast_S_S1x64),
    StableHlo.TRef.binary main_call14.v1 main_call14.v2 main_call14.v3 Host.divf,
    StableHlo.TRef.unary main_call14.v3 main_call14.v4 (broadcastInDim S65536x64 ![0, 1] bcast_S1x64_S65536x64_0_1),
    StableHlo.TRef.binary (.of main_v287 : StableHlo.TRef sig ⟨S65536x64, .f32⟩) main_call14.v4 main_call14.v5 subf,
    StableHlo.TRef.binary main_call14.v5 main_call14.v5 main_call14.v6 mulf,
    StableHlo.TRef.unary (.of main_c_65 : StableHlo.TRef sig ⟨S_, .i32⟩) main_call14.v7 (sitofp .f32),
    StableHlo.TRef.nullary main_call14.cst_1 (constant S_ .f32 0x47800000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S65536x64_S64_d0 h_S_),
    StableHlo.TRef.unary main_call14.v9 main_call14.v10 (broadcastInDim S1x64 ![1] bcast_S64_S1x64_1),
    StableHlo.TRef.unary main_call14.v8 main_call14.v11 (broadcastInDim S1x64 ![] bcast_S_S1x64),
    StableHlo.TRef.binary main_call14.v10 main_call14.v11 main_call14.v12 Host.divf,
    StableHlo.TRef.nullary main_call14.cst_3 (constant S_ .f32 0x00000000#32),
    StableHlo.TRef.binary main_call14.v8 main_call14.cst_3 main_call14.v13 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S1x64 ![] bcast_S_S1x64),
    StableHlo.TRef.ternary main_call14.v13 main_call14.v12 main_call14.call0.v1 main_call14.call0.v2 (fun p a b => select (broadcastInDim S1x64 ![] bcast_S_S1x64 p) a b),
    StableHlo.unary main_v295 main_v297 (broadcastInDim S65536x64 ![0, 1] bcast_S1x64_S65536x64_0_1 : (⟨S1x64, .f32⟩ : BufTy).Contents (Elt F) → (⟨S65536x64, .f32⟩ : BufTy).Contents (Elt F)),
    StableHlo.binary main_v287 main_v297 main_v298 (subf : (⟨S65536x64, .f32⟩ : BufTy).Contents (Elt F) → (⟨S65536x64, .f32⟩ : BufTy).Contents (Elt F) → (⟨S65536x64, .f32⟩ : BufTy).Contents (Elt F)),
    StableHlo.nullary main_cst_66 (constant S_ .f32 0x3727C5AC#32),
    StableHlo.unary main_cst_66 main_v299 (broadcastInDim S1x64 ![] bcast_S_S1x64 : (⟨S_, .f32⟩ : BufTy).Contents (Elt F) → (⟨S1x64, .f32⟩ : BufTy).Contents (Elt F)),
    StableHlo.binary main_v296 main_v299 main_v300 (addf : (⟨S1x64, .f32⟩ : BufTy).Contents (Elt F) → (⟨S1x64, .f32⟩ : BufTy).Contents (Elt F) → (⟨S1x64, .f32⟩ : BufTy).Contents (Elt F)),
    StableHlo.unary main_v300 main_v301 (Host.rsqrt : (⟨S1x64, .f32⟩ : BufTy).Contents (Elt F) → (⟨S1x64, .f32⟩ : BufTy).Contents (Elt F)),
    StableHlo.unary main_v301 main_v302 (broadcastInDim S65536x64 ![0, 1] bcast_S1x64_S65536x64_0_1 : (⟨S1x64, .f32⟩ : BufTy).Contents (Elt F) → (⟨S65536x64, .f32⟩ : BufTy).Contents (Elt F)),
    StableHlo.binary main_v298 main_v302 main_v303 (mulf : (⟨S65536x64, .f32⟩ : BufTy).Contents (Elt F) → (⟨S65536x64, .f32⟩ : BufTy).Contents (Elt F) → (⟨S65536x64, .f32⟩ : BufTy).Contents (Elt F)),
    StableHlo.unary main_v289 main_v304 (broadcastInDim S1x64 ![1] bcast_S64_S1x64_1 : (⟨S64, .f32⟩ : BufTy).Contents (Elt F) → (⟨S1x64, .f32⟩ : BufTy).Contents (Elt F)),
    StableHlo.unary main_v304 main_v305 (broadcastInDim S65536x64 ![0, 1] bcast_S1x64_S65536x64_0_1 : (⟨S1x64, .f32⟩ : BufTy).Contents (Elt F) → (⟨S65536x64, .f32⟩ : BufTy).Contents (Elt F)),
    StableHlo.binary main_v303 main_v305 main_v306 (mulf : (⟨S65536x64, .f32⟩ : BufTy).Contents (Elt F) → (⟨S65536x64, .f32⟩ : BufTy).Contents (Elt F) → (⟨S65536x64, .f32⟩ : BufTy).Contents (Elt F)),
    StableHlo.unary main_v291 main_v307 (broadcastInDim S1x64 ![1] bcast_S64_S1x64_1 : (⟨S64, .f32⟩ : BufTy).Contents (Elt F) → (⟨S1x64, .f32⟩ : BufTy).Contents (Elt F)),
    StableHlo.unary main_v307 main_v308 (broadcastInDim S65536x64 ![0, 1] bcast_S1x64_S65536x64_0_1 : (⟨S1x64, .f32⟩ : BufTy).Contents (Elt F) → (⟨S65536x64, .f32⟩ : BufTy).Contents (Elt F)),
    StableHlo.binary main_v306 main_v308 main_v309 (addf : (⟨S65536x64, .f32⟩ : BufTy).Contents (Elt F) → (⟨S65536x64, .f32⟩ : BufTy).Contents (Elt F) → (⟨S65536x64, .f32⟩ : BufTy).Contents (Elt F)),
    StableHlo.TRef.nullary main_call15.cst (constant S_ .f32 0x00000000#32),
    StableHlo.TRef.unary main_call15.cst main_call15.v0 (broadcastInDim S65536x64 ![] bcast_S_S65536x64),
    StableHlo.TRef.binary (.of main_v309 : StableHlo.TRef sig ⟨S65536x64, .f32⟩) main_call15.v0 main_call15.v1 maximumf,
    StableHlo.binary main_v158 main_v310 main_v311 ((fun a b => concatenate S65536x128 1 [⟨S65536x64, a⟩, ⟨S65536x64, b⟩] concatenates_S65536x64_S65536x64_S65536x128_d1) : (⟨S65536x64, .f32⟩ : BufTy).Contents (Elt F) → (⟨S65536x64, .f32⟩ : BufTy).Contents (Elt F) → (⟨S65536x128, .f32⟩ : BufTy).Contents (Elt F)) ]

/-- @main's operations, in order: the windows' lists appended. -/
abbrev ops : List (HloOp τ sig (Elt F)) :=
  ops_part0 ++ ops_part1 ++ ops_part2 ++ ops_part3 ++ ops_part4 ++ ops_part5 ++ ops_part6

end Cert.ReferenceIdeal.Hand

end
-- ==== Proof.RefRun.lean ====
import proofs.«137221_j56719338111373_2_alg».proof.Proof.RefOps
import proofs.«137221_j56719338111373_2_alg».proof.Proof.LibRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem main_part0_eq (c : Dev nD) : main_part0 (F := F) c = seq ops_part0 := rfl
theorem main_part1_eq (c : Dev nD) : main_part1 (F := F) c = seq ops_part1 := rfl
theorem main_part2_eq (c : Dev nD) : main_part2 (F := F) c = seq ops_part2 := rfl
theorem main_part3_eq (c : Dev nD) : main_part3 (F := F) c = seq ops_part3 := rfl
theorem main_part4_eq (c : Dev nD) : main_part4 (F := F) c = seq ops_part4 := rfl
theorem main_part5_eq (c : Dev nD) : main_part5 (F := F) c = seq ops_part5 := rfl
theorem main_part6_eq (c : Dev nD) : main_part6 (F := F) c = seq ops_part6 := rfl

theorem main_eq (c : Dev nD) : main (F := F) c = seq ops := by
  unfold main
  simp only [ops, seq_append, bind_assoc, main_part0_eq, main_part1_eq, main_part2_eq, main_part3_eq, main_part4_eq,
    main_part5_eq, main_part6_eq]

theorem after_ops (V : Valuation τ sig (Elt F)) :
    after ops V = after ops_part6 (after ops_part5 (after ops_part4 (after ops_part3 (after ops_part2 (after ops_part1
      (after ops_part0 V)))))) := by
  simp only [ops, Cert.Hand.after_app]

theorem ops_sub : (ops : List (HloOp τ sig (Elt F))).Forall fun op => op.bufs ⊆ tcRefs τ sig := by
  simp only [ops, List.forall_append, ops_part0, ops_part1, ops_part2, ops_part3, ops_part4, ops_part5, ops_part6, List.Forall,
    nullary_bufs_sub, unary_bufs_sub, binary_bufs_sub, ternary_bufs_sub, quaternary_bufs_sub, reshape_bufs_sub, nary_bufs_sub,
    unaryIndexed_bufs_sub, binaryIndexed_bufs_sub, and_self]

theorem ops_fresh : ∀ op ∈ (ops : List (HloOp τ sig (Elt F))), op.fresh = ∅ := List.forall_iff_forall_mem.mp (by
  simp only [ops, List.forall_append, ops_part0, ops_part1, ops_part2, ops_part3, ops_part4, ops_part5, ops_part6, List.Forall]
  repeat' constructor)

/-- Part by part, every written buffer lies in one interval of the signature's places. -/
theorem parts_ok :
    (ops_part0 (F := F)).Forall (Cert.Hand.WritesIn 16 98) ∧
    (ops_part1 (F := F)).Forall (Cert.Hand.WritesIn 98 173) ∧
    (ops_part2 (F := F)).Forall (Cert.Hand.WritesIn 173 279) ∧
    (ops_part3 (F := F)).Forall (Cert.Hand.WritesIn 279 363) ∧
    (ops_part4 (F := F)).Forall (Cert.Hand.WritesIn 363 438) ∧
    (ops_part5 (F := F)).Forall (Cert.Hand.WritesIn 438 522) ∧
    (ops_part6 (F := F)).Forall (Cert.Hand.WritesIn 522 567) := by
  simp (config := {decide := true}) only [ops_part0, ops_part1, ops_part2, ops_part3, ops_part4, ops_part5, ops_part6, List.Forall,
    Cert.Hand.WritesIn, nullary_writes, unary_writes, binary_writes, ternary_writes, quaternary_writes, reshape_writes, nary_writes,
    unaryIndexed_writes, binaryIndexed_writes, Finset.mem_singleton, forall_eq, and_self]

theorem keep_ops {r : Ref sig .tc} (hr : r.idx.val < 16) (V : Valuation τ sig (Elt F)) :
    after ops V (Proc.devRef .tc r) = V (Proc.devRef .tc r) := by
  rw [after_ops, Cert.Hand.keep_of_range parts_ok.2.2.2.2.2.2 (.inl (Nat.lt_of_lt_of_le hr (by decide))),
    Cert.Hand.keep_of_range parts_ok.2.2.2.2.2.1 (.inl (Nat.lt_of_lt_of_le hr (by decide))),
    Cert.Hand.keep_of_range parts_ok.2.2.2.2.1 (.inl (Nat.lt_of_lt_of_le hr (by decide))),
    Cert.Hand.keep_of_range parts_ok.2.2.2.1 (.inl (Nat.lt_of_lt_of_le hr (by decide))),
    Cert.Hand.keep_of_range parts_ok.2.2.1 (.inl (Nat.lt_of_lt_of_le hr (by decide))),
    Cert.Hand.keep_of_range parts_ok.2.1 (.inl (Nat.lt_of_lt_of_le hr (by decide))),
    Cert.Hand.keep_of_range parts_ok.1 (.inl (hr))]

abbrev args : List (Ref sig .tc) := [main_arg0, main_arg1, main_arg2, main_arg3, main_arg4, main_arg5, main_arg6, main_arg7, main_arg8, main_arg9, main_arg10, main_arg11, main_arg12, main_arg13, main_arg14, main_arg15]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v311) = after ops (fun b => m (c, b)) (Proc.devRef .tc main_v311)
      ∧ args.Forall fun a => r.2.mem ((c.tc : Thread nD τ).loc a) = m ((c.tc : Thread nD τ).loc a) :=
  Cert.Hand.run_line (by decide) (by decide) defs main ops main_eq ops_sub ops_fresh args
    (fun a ha => keep_ops ((by decide : ∀ a ∈ args, a.idx.val < 16) a ha)) main_v311 m ρ

theorem frame (m : (ℓ : Loc nD τ sig) → Buf (Elt F) ℓ) (ρ : Dev nD → PrngReg) :
    θ_run defs (onTc (τ := τ) (main (F := F))) ⟨m, fun _ => 0, ρ⟩ fun r => ∀ c : Dev nD,
      args.Forall fun a => r.2.mem ((c.tc : Thread nD τ).loc a) = m ((c.tc : Thread nD τ).loc a) :=
  (θ_run defs _ _).mono (fun _ h c => (h c).2) (run m ρ)

end Cert.ReferenceIdeal.Hand

end
-- ==== Proof.RefFinal.lean ====
import proofs.«137221_j56719338111373_2_alg».proof.Proof.RefOps
import Idealize.ShloMosaic.Lib.StableHlo.Run

set_option maxRecDepth 16384

noncomputable section

namespace Cert.ReferenceIdeal.HandVal

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

def concatColsR (a b : (⟨S65536x64, .f32⟩ : BufTy).Contents (Elt F)) : (⟨S65536x128, .f32⟩ : BufTy).Contents (Elt F) :=
  concatenate S65536x128 1 [⟨S65536x64, a⟩, ⟨S65536x64, b⟩] concatenates_S65536x64_S65536x64_S65536x128_d1

set_option maxHeartbeats 2000000 in

theorem part6_v311 (V : Valuation τ sig (Elt F)) :
    StableHlo.after ops_part6 V (Proc.devRef .tc main_v311)
      = concatColsR (V (Proc.devRef .tc main_v158)) (StableHlo.after ops_part6 V (Proc.devRef .tc main_v310)) := by
  unfold ops_part6; after_results_simp; rfl

end Cert.ReferenceIdeal.HandVal
end
-- ==== Proof.RefFold.lean ====
import proofs.«137221_j56719338111373_2_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def R0 (V : Valuation τ sig (Elt F)) : Valuation τ sig (Elt F) := V
def R1 (V : Valuation τ sig (Elt F)) : Valuation τ sig (Elt F) := after ops_part0 (R0 V)
def R2 (V : Valuation τ sig (Elt F)) : Valuation τ sig (Elt F) := after ops_part1 (R1 V)
def R3 (V : Valuation τ sig (Elt F)) : Valuation τ sig (Elt F) := after ops_part2 (R2 V)
def R4 (V : Valuation τ sig (Elt F)) : Valuation τ sig (Elt F) := after ops_part3 (R3 V)
def R5 (V : Valuation τ sig (Elt F)) : Valuation τ sig (Elt F) := after ops_part4 (R4 V)
def R6 (V : Valuation τ sig (Elt F)) : Valuation τ sig (Elt F) := after ops_part5 (R5 V)
def R7 (V : Valuation τ sig (Elt F)) : Valuation τ sig (Elt F) := after ops_part6 (R6 V)

theorem R0_eq (V : Valuation τ sig (Elt F)) : R0 V = V := rfl
theorem R1_eq (V : Valuation τ sig (Elt F)) : R1 V = after ops_part0 (R0 V) := rfl
theorem R3_eq (V : Valuation τ sig (Elt F)) : R3 V = after ops_part2 (R2 V) := rfl
theorem R4_eq (V : Valuation τ sig (Elt F)) : R4 V = after ops_part3 (R3 V) := rfl
theorem R5_eq (V : Valuation τ sig (Elt F)) : R5 V = after ops_part4 (R4 V) := rfl
theorem R6_eq (V : Valuation τ sig (Elt F)) : R6 V = after ops_part5 (R5 V) := rfl
theorem R7_eq (V : Valuation τ sig (Elt F)) : R7 V = after ops_part6 (R6 V) := rfl

theorem after_ops_eq_R7 (V : Valuation τ sig (Elt F)) : after ops V = R7 V := after_ops V

theorem R1_keep (V : Valuation τ sig (Elt F)) {y : Ref sig .tc} (h : y.idx.val < 16 ∨ 98 ≤ y.idx.val) :
    R1 V (Proc.devRef .tc y) = R0 V (Proc.devRef .tc y) := Cert.Hand.keep_of_range parts_ok.1 h _
theorem R2_keep (V : Valuation τ sig (Elt F)) {y : Ref sig .tc} (h : y.idx.val < 98 ∨ 173 ≤ y.idx.val) :
    R2 V (Proc.devRef .tc y) = R1 V (Proc.devRef .tc y) := Cert.Hand.keep_of_range parts_ok.2.1 h _
theorem R3_keep (V : Valuation τ sig (Elt F)) {y : Ref sig .tc} (h : y.idx.val < 173 ∨ 279 ≤ y.idx.val) :
    R3 V (Proc.devRef .tc y) = R2 V (Proc.devRef .tc y) := Cert.Hand.keep_of_range parts_ok.2.2.1 h _
theorem R4_keep (V : Valuation τ sig (Elt F)) {y : Ref sig .tc} (h : y.idx.val < 279 ∨ 363 ≤ y.idx.val) :
    R4 V (Proc.devRef .tc y) = R3 V (Proc.devRef .tc y) := Cert.Hand.keep_of_range parts_ok.2.2.2.1 h _
theorem R5_keep (V : Valuation τ sig (Elt F)) {y : Ref sig .tc} (h : y.idx.val < 363 ∨ 438 ≤ y.idx.val) :
    R5 V (Proc.devRef .tc y) = R4 V (Proc.devRef .tc y) := Cert.Hand.keep_of_range parts_ok.2.2.2.2.1 h _
theorem R6_keep (V : Valuation τ sig (Elt F)) {y : Ref sig .tc} (h : y.idx.val < 438 ∨ 522 ≤ y.idx.val) :
    R6 V (Proc.devRef .tc y) = R5 V (Proc.devRef .tc y) := Cert.Hand.keep_of_range parts_ok.2.2.2.2.2.1 h _
theorem R7_keep (V : Valuation τ sig (Elt F)) {y : Ref sig .tc} (h : y.idx.val < 522 ∨ 567 ≤ y.idx.val) :
    R7 V (Proc.devRef .tc y) = R6 V (Proc.devRef .tc y) := Cert.Hand.keep_of_range parts_ok.2.2.2.2.2.2 h _

theorem R7_of_lt_522 (V : Valuation τ sig (Elt F)) {y : Ref sig .tc} (h : y.idx.val < 522) : R7 V (Proc.devRef .tc y) = R6 V (Proc.devRef .tc y) :=
  R7_keep V (.inl h)
theorem R7_of_lt_438 (V : Valuation τ sig (Elt F)) {y : Ref sig .tc} (h : y.idx.val < 438) : R7 V (Proc.devRef .tc y) = R5 V (Proc.devRef .tc y) :=
  (R7_of_lt_522 V (Nat.lt_of_lt_of_le h (by decide))).trans (R6_keep V (.inl h))
theorem R7_of_lt_363 (V : Valuation τ sig (Elt F)) {y : Ref sig .tc} (h : y.idx.val < 363) : R7 V (Proc.devRef .tc y) = R4 V (Proc.devRef .tc y) :=
  (R7_of_lt_438 V (Nat.lt_of_lt_of_le h (by decide))).trans (R5_keep V (.inl h))
theorem R7_of_lt_279 (V : Valuation τ sig (Elt F)) {y : Ref sig .tc} (h : y.idx.val < 279) : R7 V (Proc.devRef .tc y) = R3 V (Proc.devRef .tc y) :=
  (R7_of_lt_363 V (Nat.lt_of_lt_of_le h (by decide))).trans (R4_keep V (.inl h))
theorem R7_of_lt_173 (V : Valuation τ sig (Elt F)) {y : Ref sig .tc} (h : y.idx.val < 173) : R7 V (Proc.devRef .tc y) = R2 V (Proc.devRef .tc y) :=
  (R7_of_lt_279 V (Nat.lt_of_lt_of_le h (by decide))).trans (R3_keep V (.inl h))
theorem R7_of_lt_98 (V : Valuation τ sig (Elt F)) {y : Ref sig .tc} (h : y.idx.val < 98) : R7 V (Proc.devRef .tc y) = R1 V (Proc.devRef .tc y) :=
  (R7_of_lt_173 V (Nat.lt_of_lt_of_le h (by decide))).trans (R2_keep V (.inl h))

theorem to_end_0 (V : Valuation τ sig (Elt F)) {y : Ref sig .tc} (h : 16 ≤ y.idx.val ∧ y.idx.val < 98) :
    after ops V (Proc.devRef .tc y) = R1 V (Proc.devRef .tc y) :=
  (congrFun (after_ops_eq_R7 V) _).trans (R7_of_lt_98 V h.2)
theorem to_end_3 (V : Valuation τ sig (Elt F)) {y : Ref sig .tc} (h : 279 ≤ y.idx.val ∧ y.idx.val < 363) :
    after ops V (Proc.devRef .tc y) = R4 V (Proc.devRef .tc y) :=
  (congrFun (after_ops_eq_R7 V) _).trans (R7_of_lt_363 V h.2)
theorem to_end_4 (V : Valuation τ sig (Elt F)) {y : Ref sig .tc} (h : 363 ≤ y.idx.val ∧ y.idx.val < 438) :
    after ops V (Proc.devRef .tc y) = R5 V (Proc.devRef .tc y) :=
  (congrFun (after_ops_eq_R7 V) _).trans (R7_of_lt_438 V h.2)
theorem to_end_5 (V : Valuation τ sig (Elt F)) {y : Ref sig .tc} (h : 438 ≤ y.idx.val ∧ y.idx.val < 522) :
    after ops V (Proc.devRef .tc y) = R6 V (Proc.devRef .tc y) :=
  (congrFun (after_ops_eq_R7 V) _).trans (R7_of_lt_522 V h.2)
theorem to_end_6 (V : Valuation τ sig (Elt F)) {y : Ref sig .tc} (h : 522 ≤ y.idx.val ∧ y.idx.val < 567) :
    after ops V (Proc.devRef .tc y) = R7 V (Proc.devRef .tc y) :=
  congrFun (after_ops_eq_R7 V) _

end Cert.ReferenceIdeal.Hand

end
-- ==== Proof.KIKeep.lean ====
import proofs.«137221_j56719338111373_2_alg».proof.Proof.KIRun

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem

variable {F : FTy → Type} [FloatOps F]
variable (m : (ℓ : Loc nD τ sig) → Buf (Elt F) ℓ) (ρ : Dev nD → PrngReg)

theorem keep_v6_16 (c : Dev nD) : W29 m ρ c (Proc.devRef .tc main_v6) = W16 m ρ c (Proc.devRef .tc main_v6) :=
  keep m ρ c main_v6 16 29 rfl rfl (by decide)
theorem keep_v6_2 (c : Dev nD) : W29 m ρ c (Proc.devRef .tc main_v6) = W2 m ρ c (Proc.devRef .tc main_v6) :=
  keep m ρ c main_v6 2 29 rfl rfl (by decide)
theorem keep_v6_1 (c : Dev nD) : W29 m ρ c (Proc.devRef .tc main_v6) = W1 m ρ c (Proc.devRef .tc main_v6) :=
  keep m ρ c main_v6 1 29 rfl rfl (by decide)
theorem keep_v19_8 (c : Dev nD) : W29 m ρ c (Proc.devRef .tc main_v19) = W8 m ρ c (Proc.devRef .tc main_v19) :=
  keep m ρ c main_v19 8 29 rfl rfl (by decide)
theorem keep_v19_2 (c : Dev nD) : W29 m ρ c (Proc.devRef .tc main_v19) = W2 m ρ c (Proc.devRef .tc main_v19) :=
  keep m ρ c main_v19 2 29 rfl rfl (by decide)
theorem keep_v19_1 (c : Dev nD) : W29 m ρ c (Proc.devRef .tc main_v19) = W1 m ρ c (Proc.devRef .tc main_v19) :=
  keep m ρ c main_v19 1 29 rfl rfl (by decide)
theorem keep_v21_1 (c : Dev nD) : W29 m ρ c (Proc.devRef .tc main_v21) = W1 m ρ c (Proc.devRef .tc main_v21) :=
  keep m ρ c main_v21 1 29 rfl rfl (by decide)
theorem keep_v22_1 (c : Dev nD) : W29 m ρ c (Proc.devRef .tc main_v22) = W1 m ρ c (Proc.devRef .tc main_v22) :=
  keep m ρ c main_v22 1 29 rfl rfl (by decide)
theorem keep_v23_1 (c : Dev nD) : W29 m ρ c (Proc.devRef .tc main_v23) = W1 m ρ c (Proc.devRef .tc main_v23) :=
  keep m ρ c main_v23 1 29 rfl rfl (by decide)
theorem keep_v24_2 (c : Dev nD) : W29 m ρ c (Proc.devRef .tc main_v24) = W2 m ρ c (Proc.devRef .tc main_v24) :=
  keep m ρ c main_v24 2 29 rfl rfl (by decide)
theorem keep_v26_8 (c : Dev nD) : W29 m ρ c (Proc.devRef .tc main_v26) = W8 m ρ c (Proc.devRef .tc main_v26) :=
  keep m ρ c main_v26 8 29 rfl rfl (by decide)
theorem keep_v26_3 (c : Dev nD) : W29 m ρ c (Proc.devRef .tc main_v26) = W3 m ρ c (Proc.devRef .tc main_v26) :=
  keep m ρ c main_v26 3 29 rfl rfl (by decide)
theorem keep_v31_6 (c : Dev nD) : W29 m ρ c (Proc.devRef .tc main_v31) = W6 m ρ c (Proc.devRef .tc main_v31) :=
  keep m ρ c main_v31 6 29 rfl rfl (by decide)
theorem keep_v31_4 (c : Dev nD) : W29 m ρ c (Proc.devRef .tc main_v31) = W4 m ρ c (Proc.devRef .tc main_v31) :=
  keep m ρ c main_v31 4 29 rfl rfl (by decide)
theorem keep_v31_3 (c : Dev nD) : W29 m ρ c (Proc.devRef .tc main_v31) = W3 m ρ c (Proc.devRef .tc main_v31) :=
  keep m ρ c main_v31 3 29 rfl rfl (by decide)
theorem keep_v33_8 (c : Dev nD) : W29 m ρ c (Proc.devRef .tc main_v33) = W8 m ρ c (Proc.devRef .tc main_v33) :=
  keep m ρ c main_v33 8 29 rfl rfl (by decide)
theorem keep_v33_3 (c : Dev nD) : W29 m ρ c (Proc.devRef .tc main_v33) = W3 m ρ c (Proc.devRef .tc main_v33) :=
  keep m ρ c main_v33 3 29 rfl rfl (by decide)
theorem keep_v36_8 (c : Dev nD) : W29 m ρ c (Proc.devRef .tc main_v36) = W8 m ρ c (Proc.devRef .tc main_v36) :=
  keep m ρ c main_v36 8 29 rfl rfl (by decide)
theorem keep_v36_4 (c : Dev nD) : W29 m ρ c (Proc.devRef .tc main_v36) = W4 m ρ c (Proc.devRef .tc main_v36) :=
  keep m ρ c main_v36 4 29 rfl rfl (by decide)
theorem keep_v39_8 (c : Dev nD) : W29 m ρ c (Proc.devRef .tc main_v39) = W8 m ρ c (Proc.devRef .tc main_v39) :=
  keep m ρ c main_v39 8 29 rfl rfl (by decide)
theorem keep_v39_6 (c : Dev nD) : W29 m ρ c (Proc.devRef .tc main_v39) = W6 m ρ c (Proc.devRef .tc main_v39) :=
  keep m ρ c main_v39 6 29 rfl rfl (by decide)
theorem keep_v42_8 (c : Dev nD) : W29 m ρ c (Proc.devRef .tc main_v42) = W8 m ρ c (Proc.devRef .tc main_v42) :=
  keep m ρ c main_v42 8 29 rfl rfl (by decide)
theorem keep_v67_9 (c : Dev nD) : W29 m ρ c (Proc.devRef .tc main_v67) = W9 m ρ c (Proc.devRef .tc main_v67) :=
  keep m ρ c main_v67 9 29 rfl rfl (by decide)
theorem keep_v68_9 (c : Dev nD) : W29 m ρ c (Proc.devRef .tc main_v68) = W9 m ρ c (Proc.devRef .tc main_v68) :=
  keep m ρ c main_v68 9 29 rfl rfl (by decide)
theorem keep_v76_9 (c : Dev nD) : W29 m ρ c (Proc.devRef .tc main_v76) = W9 m ρ c (Proc.devRef .tc main_v76) :=
  keep m ρ c main_v76 9 29 rfl rfl (by decide)
theorem keep_v77_9 (c : Dev nD) : W29 m ρ c (Proc.devRef .tc main_v77) = W9 m ρ c (Proc.devRef .tc main_v77) :=
  keep m ρ c main_v77 9 29 rfl rfl (by decide)
theorem keep_v111_9 (c : Dev nD) : W29 m ρ c (Proc.devRef .tc main_v111) = W9 m ρ c (Proc.devRef .tc main_v111) :=
  keep m ρ c main_v111 9 29 rfl rfl (by decide)
theorem keep_v112_13 (c : Dev nD) : W29 m ρ c (Proc.devRef .tc main_v112) = W13 m ρ c (Proc.devRef .tc main_v112) :=
  keep m ρ c main_v112 13 29 rfl rfl (by decide)
theorem keep_v112_11 (c : Dev nD) : W29 m ρ c (Proc.devRef .tc main_v112) = W11 m ρ c (Proc.devRef .tc main_v112) :=
  keep m ρ c main_v112 11 29 rfl rfl (by decide)
theorem keep_v112_10 (c : Dev nD) : W29 m ρ c (Proc.devRef .tc main_v112) = W10 m ρ c (Proc.devRef .tc main_v112) :=
  keep m ρ c main_v112 10 29 rfl rfl (by decide)
theorem keep_v114_13 (c : Dev nD) : W29 m ρ c (Proc.devRef .tc main_v114) = W13 m ρ c (Proc.devRef .tc main_v114) :=
  keep m ρ c main_v114 13 29 rfl rfl (by decide)
theorem keep_v114_11 (c : Dev nD) : W29 m ρ c (Proc.devRef .tc main_v114) = W11 m ρ c (Proc.devRef .tc main_v114) :=
  keep m ρ c main_v114 11 29 rfl rfl (by decide)
theorem keep_v115_13 (c : Dev nD) : W29 m ρ c (Proc.devRef .tc main_v115) = W13 m ρ c (Proc.devRef .tc main_v115) :=
  keep m ρ c main_v115 13 29 rfl rfl (by decide)
theorem keep_v115_11 (c : Dev nD) : W29 m ρ c (Proc.devRef .tc main_v115) = W11 m ρ c (Proc.devRef .tc main_v115) :=
  keep m ρ c main_v115 11 29 rfl rfl (by decide)
theorem keep_v116_13 (c : Dev nD) : W29 m ρ c (Proc.devRef .tc main_v116) = W13 m ρ c (Proc.devRef .tc main_v116) :=
  keep m ρ c main_v116 13 29 rfl rfl (by decide)
theorem keep_v116_11 (c : Dev nD) : W29 m ρ c (Proc.devRef .tc main_v116) = W11 m ρ c (Proc.devRef .tc main_v116) :=
  keep m ρ c main_v116 11 29 rfl rfl (by decide)
theorem keep_v117_0_12 (c : Dev nD) : W29 m ρ c (Proc.devRef .tc main_v117_0) = W12 m ρ c (Proc.devRef .tc main_v117_0) :=
  keep m ρ c main_v117_0 12 29 rfl rfl (by decide)
theorem keep_v117_1_12 (c : Dev nD) : W29 m ρ c (Proc.devRef .tc main_v117_1) = W12 m ρ c (Proc.devRef .tc main_v117_1) :=
  keep m ρ c main_v117_1 12 29 rfl rfl (by decide)
theorem keep_v119_13 (c : Dev nD) : W29 m ρ c (Proc.devRef .tc main_v119) = W13 m ρ c (Proc.devRef .tc main_v119) :=
  keep m ρ c main_v119 13 29 rfl rfl (by decide)
theorem keep_v125_13 (c : Dev nD) : W29 m ρ c (Proc.devRef .tc main_v125) = W13 m ρ c (Proc.devRef .tc main_v125) :=
  keep m ρ c main_v125 13 29 rfl rfl (by decide)
theorem keep_v126_28 (c : Dev nD) : W29 m ρ c (Proc.devRef .tc main_v126) = W28 m ρ c (Proc.devRef .tc main_v126) :=
  keep m ρ c main_v126 28 29 rfl rfl (by decide)
theorem keep_v126_14 (c : Dev nD) : W29 m ρ c (Proc.devRef .tc main_v126) = W14 m ρ c (Proc.devRef .tc main_v126) :=
  keep m ρ c main_v126 14 29 rfl rfl (by decide)
theorem keep_v139_22 (c : Dev nD) : W29 m ρ c (Proc.devRef .tc main_v139) = W22 m ρ c (Proc.devRef .tc main_v139) :=
  keep m ρ c main_v139 22 29 rfl rfl (by decide)
theorem keep_v139_16 (c : Dev nD) : W29 m ρ c (Proc.devRef .tc main_v139) = W16 m ρ c (Proc.devRef .tc main_v139) :=
  keep m ρ c main_v139 16 29 rfl rfl (by decide)
theorem keep_v139_15 (c : Dev nD) : W29 m ρ c (Proc.devRef .tc main_v139) = W15 m ρ c (Proc.devRef .tc main_v139) :=
  keep m ρ c main_v139 15 29 rfl rfl (by decide)
theorem keep_v141_15 (c : Dev nD) : W29 m ρ c (Proc.devRef .tc main_v141) = W15 m ρ c (Proc.devRef .tc main_v141) :=
  keep m ρ c main_v141 15 29 rfl rfl (by decide)
theorem keep_v142_15 (c : Dev nD) : W29 m ρ c (Proc.devRef .tc main_v142) = W15 m ρ c (Proc.devRef .tc main_v142) :=
  keep m ρ c main_v142 15 29 rfl rfl (by decide)
theorem keep_v143_15 (c : Dev nD) : W29 m ρ c (Proc.devRef .tc main_v143) = W15 m ρ c (Proc.devRef .tc main_v143) :=
  keep m ρ c main_v143 15 29 rfl rfl (by decide)
theorem keep_v144_16 (c : Dev nD) : W29 m ρ c (Proc.devRef .tc main_v144) = W16 m ρ c (Proc.devRef .tc main_v144) :=
  keep m ρ c main_v144 16 29 rfl rfl (by decide)
theorem keep_v146_22 (c : Dev nD) : W29 m ρ c (Proc.devRef .tc main_v146) = W22 m ρ c (Proc.devRef .tc main_v146) :=
  keep m ρ c main_v146 22 29 rfl rfl (by decide)
theorem keep_v146_17 (c : Dev nD) : W29 m ρ c (Proc.devRef .tc main_v146) = W17 m ρ c (Proc.devRef .tc main_v146) :=
  keep m ρ c main_v146 17 29 rfl rfl (by decide)
theorem keep_v151_20 (c : Dev nD) : W29 m ρ c (Proc.devRef .tc main_v151) = W20 m ρ c (Proc.devRef .tc main_v151) :=
  keep m ρ c main_v151 20 29 rfl rfl (by decide)
theorem keep_v151_18 (c : Dev nD) : W29 m ρ c (Proc.devRef .tc main_v151) = W18 m ρ c (Proc.devRef .tc main_v151) :=
  keep m ρ c main_v151 18 29 rfl rfl (by decide)
theorem keep_v151_17 (c : Dev nD) : W29 m ρ c (Proc.devRef .tc main_v151) = W17 m ρ c (Proc.devRef .tc main_v151) :=
  keep m ρ c main_v151 17 29 rfl rfl (by decide)
theorem keep_v153_22 (c : Dev nD) : W29 m ρ c (Proc.devRef .tc main_v153) = W22 m ρ c (Proc.devRef .tc main_v153) :=
  keep m ρ c main_v153 22 29 rfl rfl (by decide)
theorem keep_v153_17 (c : Dev nD) : W29 m ρ c (Proc.devRef .tc main_v153) = W17 m ρ c (Proc.devRef .tc main_v153) :=
  keep m ρ c main_v153 17 29 rfl rfl (by decide)
theorem keep_v156_22 (c : Dev nD) : W29 m ρ c (Proc.devRef .tc main_v156) = W22 m ρ c (Proc.devRef .tc main_v156) :=
  keep m ρ c main_v156 22 29 rfl rfl (by decide)
theorem keep_v156_18 (c : Dev nD) : W29 m ρ c (Proc.devRef .tc main_v156) = W18 m ρ c (Proc.devRef .tc main_v156) :=
  keep m ρ c main_v156 18 29 rfl rfl (by decide)
theorem keep_v159_22 (c : Dev nD) : W29 m ρ c (Proc.devRef .tc main_v159) = W22 m ρ c (Proc.devRef .tc main_v159) :=
  keep m ρ c main_v159 22 29 rfl rfl (by decide)
theorem keep_v159_20 (c : Dev nD) : W29 m ρ c (Proc.devRef .tc main_v159) = W20 m ρ c (Proc.devRef .tc main_v159) :=
  keep m ρ c main_v159 20 29 rfl rfl (by decide)
theorem keep_v162_22 (c : Dev nD) : W29 m ρ c (Proc.devRef .tc main_v162) = W22 m ρ c (Proc.devRef .tc main_v162) :=
  keep m ρ c main_v162 22 29 rfl rfl (by decide)
theorem keep_v187_23 (c : Dev nD) : W29 m ρ c (Proc.devRef .tc main_v187) = W23 m ρ c (Proc.devRef .tc main_v187) :=
  keep m ρ c main_v187 23 29 rfl rfl (by decide)
theorem keep_v188_23 (c : Dev nD) : W29 m ρ c (Proc.devRef .tc main_v188) = W23 m ρ c (Proc.devRef .tc main_v188) :=
  keep m ρ c main_v188 23 29 rfl rfl (by decide)
theorem keep_v196_23 (c : Dev nD) : W29 m ρ c (Proc.devRef .tc main_v196) = W23 m ρ c (Proc.devRef .tc main_v196) :=
  keep m ρ c main_v196 23 29 rfl rfl (by decide)
theorem keep_v197_23 (c : Dev nD) : W29 m ρ c (Proc.devRef .tc main_v197) = W23 m ρ c (Proc.devRef .tc main_v197) :=
  keep m ρ c main_v197 23 29 rfl rfl (by decide)
theorem keep_v231_23 (c : Dev nD) : W29 m ρ c (Proc.devRef .tc main_v231) = W23 m ρ c (Proc.devRef .tc main_v231) :=
  keep m ρ c main_v231 23 29 rfl rfl (by decide)
theorem keep_v232_27 (c : Dev nD) : W29 m ρ c (Proc.devRef .tc main_v232) = W27 m ρ c (Proc.devRef .tc main_v232) :=
  keep m ρ c main_v232 27 29 rfl rfl (by decide)
theorem keep_v232_25 (c : Dev nD) : W29 m ρ c (Proc.devRef .tc main_v232) = W25 m ρ c (Proc.devRef .tc main_v232) :=
  keep m ρ c main_v232 25 29 rfl rfl (by decide)
theorem keep_v232_24 (c : Dev nD) : W29 m ρ c (Proc.devRef .tc main_v232) = W24 m ρ c (Proc.devRef .tc main_v232) :=
  keep m ρ c main_v232 24 29 rfl rfl (by decide)
theorem keep_v234_27 (c : Dev nD) : W29 m ρ c (Proc.devRef .tc main_v234) = W27 m ρ c (Proc.devRef .tc main_v234) :=
  keep m ρ c main_v234 27 29 rfl rfl (by decide)
theorem keep_v234_25 (c : Dev nD) : W29 m ρ c (Proc.devRef .tc main_v234) = W25 m ρ c (Proc.devRef .tc main_v234) :=
  keep m ρ c main_v234 25 29 rfl rfl (by decide)
theorem keep_v235_27 (c : Dev nD) : W29 m ρ c (Proc.devRef .tc main_v235) = W27 m ρ c (Proc.devRef .tc main_v235) :=
  keep m ρ c main_v235 27 29 rfl rfl (by decide)
theorem keep_v235_25 (c : Dev nD) : W29 m ρ c (Proc.devRef .tc main_v235) = W25 m ρ c (Proc.devRef .tc main_v235) :=
  keep m ρ c main_v235 25 29 rfl rfl (by decide)
theorem keep_v236_27 (c : Dev nD) : W29 m ρ c (Proc.devRef .tc main_v236) = W27 m ρ c (Proc.devRef .tc main_v236) :=
  keep m ρ c main_v236 27 29 rfl rfl (by decide)
theorem keep_v236_25 (c : Dev nD) : W29 m ρ c (Proc.devRef .tc main_v236) = W25 m ρ c (Proc.devRef .tc main_v236) :=
  keep m ρ c main_v236 25 29 rfl rfl (by decide)
theorem keep_v237_0_26 (c : Dev nD) : W29 m ρ c (Proc.devRef .tc main_v237_0) = W26 m ρ c (Proc.devRef .tc main_v237_0) :=
  keep m ρ c main_v237_0 26 29 rfl rfl (by decide)
theorem keep_v237_1_26 (c : Dev nD) : W29 m ρ c (Proc.devRef .tc main_v237_1) = W26 m ρ c (Proc.devRef .tc main_v237_1) :=
  keep m ρ c main_v237_1 26 29 rfl rfl (by decide)
theorem keep_v239_27 (c : Dev nD) : W29 m ρ c (Proc.devRef .tc main_v239) = W27 m ρ c (Proc.devRef .tc main_v239) :=
  keep m ρ c main_v239 27 29 rfl rfl (by decide)
theorem keep_v245_27 (c : Dev nD) : W29 m ρ c (Proc.devRef .tc main_v245) = W27 m ρ c (Proc.devRef .tc main_v245) :=
  keep m ρ c main_v245 27 29 rfl rfl (by decide)
theorem keep_v246_28 (c : Dev nD) : W29 m ρ c (Proc.devRef .tc main_v246) = W28 m ρ c (Proc.devRef .tc main_v246) :=
  keep m ρ c main_v246 28 29 rfl rfl (by decide)
theorem low_arg4_0 (c : Dev nD) : W0 m ρ c (Proc.devRef .tc main_arg4) = m ((c : Thread nD τ).loc main_arg4) :=
  keep m ρ c main_arg4 0 0 (B := W0 m ρ) rfl rfl (by decide)
theorem low_arg5_1 (c : Dev nD) : W1 m ρ c (Proc.devRef .tc main_arg5) = m ((c : Thread nD τ).loc main_arg5) :=
  keep m ρ c main_arg5 0 1 (B := W0 m ρ) rfl rfl (by decide)
theorem low_arg5_15 (c : Dev nD) : W15 m ρ c (Proc.devRef .tc main_arg5) = m ((c : Thread nD τ).loc main_arg5) :=
  keep m ρ c main_arg5 0 15 (B := W0 m ρ) rfl rfl (by decide)
theorem low_arg6_8 (c : Dev nD) : W8 m ρ c (Proc.devRef .tc main_arg6) = m ((c : Thread nD τ).loc main_arg6) :=
  keep m ρ c main_arg6 0 8 (B := W0 m ρ) rfl rfl (by decide)
theorem low_arg6_22 (c : Dev nD) : W22 m ρ c (Proc.devRef .tc main_arg6) = m ((c : Thread nD τ).loc main_arg6) :=
  keep m ρ c main_arg6 0 22 (B := W0 m ρ) rfl rfl (by decide)
theorem low_arg7_0 (c : Dev nD) : W0 m ρ c (Proc.devRef .tc main_arg7) = m ((c : Thread nD τ).loc main_arg7) :=
  keep m ρ c main_arg7 0 0 (B := W0 m ρ) rfl rfl (by decide)
theorem low_arg7_14 (c : Dev nD) : W14 m ρ c (Proc.devRef .tc main_arg7) = m ((c : Thread nD τ).loc main_arg7) :=
  keep m ρ c main_arg7 0 14 (B := W0 m ρ) rfl rfl (by decide)
theorem low_arg8_0 (c : Dev nD) : W0 m ρ c (Proc.devRef .tc main_arg8) = m ((c : Thread nD τ).loc main_arg8) :=
  keep m ρ c main_arg8 0 0 (B := W0 m ρ) rfl rfl (by decide)
theorem low_arg8_14 (c : Dev nD) : W14 m ρ c (Proc.devRef .tc main_arg8) = m ((c : Thread nD τ).loc main_arg8) :=
  keep m ρ c main_arg8 0 14 (B := W0 m ρ) rfl rfl (by decide)
theorem low_arg9_0 (c : Dev nD) : W0 m ρ c (Proc.devRef .tc main_arg9) = m ((c : Thread nD τ).loc main_arg9) :=
  keep m ρ c main_arg9 0 0 (B := W0 m ρ) rfl rfl (by decide)
theorem low_arg9_14 (c : Dev nD) : W14 m ρ c (Proc.devRef .tc main_arg9) = m ((c : Thread nD τ).loc main_arg9) :=
  keep m ρ c main_arg9 0 14 (B := W0 m ρ) rfl rfl (by decide)
theorem low_arg10_8 (c : Dev nD) : W8 m ρ c (Proc.devRef .tc main_arg10) = m ((c : Thread nD τ).loc main_arg10) :=
  keep m ρ c main_arg10 0 8 (B := W0 m ρ) rfl rfl (by decide)
theorem low_arg10_22 (c : Dev nD) : W22 m ρ c (Proc.devRef .tc main_arg10) = m ((c : Thread nD τ).loc main_arg10) :=
  keep m ρ c main_arg10 0 22 (B := W0 m ρ) rfl rfl (by decide)
theorem low_arg11_8 (c : Dev nD) : W8 m ρ c (Proc.devRef .tc main_arg11) = m ((c : Thread nD τ).loc main_arg11) :=
  keep m ρ c main_arg11 0 8 (B := W0 m ρ) rfl rfl (by decide)
theorem low_arg11_22 (c : Dev nD) : W22 m ρ c (Proc.devRef .tc main_arg11) = m ((c : Thread nD τ).loc main_arg11) :=
  keep m ρ c main_arg11 0 22 (B := W0 m ρ) rfl rfl (by decide)
theorem low_arg12_8 (c : Dev nD) : W8 m ρ c (Proc.devRef .tc main_arg12) = m ((c : Thread nD τ).loc main_arg12) :=
  keep m ρ c main_arg12 0 8 (B := W0 m ρ) rfl rfl (by decide)
theorem low_arg12_22 (c : Dev nD) : W22 m ρ c (Proc.devRef .tc main_arg12) = m ((c : Thread nD τ).loc main_arg12) :=
  keep m ρ c main_arg12 0 22 (B := W0 m ρ) rfl rfl (by decide)
theorem low_arg13_10 (c : Dev nD) : W10 m ρ c (Proc.devRef .tc main_arg13) = m ((c : Thread nD τ).loc main_arg13) :=
  keep m ρ c main_arg13 0 10 (B := W0 m ρ) rfl rfl (by decide)
theorem low_arg13_24 (c : Dev nD) : W24 m ρ c (Proc.devRef .tc main_arg13) = m ((c : Thread nD τ).loc main_arg13) :=
  keep m ρ c main_arg13 0 24 (B := W0 m ρ) rfl rfl (by decide)
theorem low_arg14_10 (c : Dev nD) : W10 m ρ c (Proc.devRef .tc main_arg14) = m ((c : Thread nD τ).loc main_arg14) :=
  keep m ρ c main_arg14 0 10 (B := W0 m ρ) rfl rfl (by decide)
theorem low_arg14_24 (c : Dev nD) : W24 m ρ c (Proc.devRef .tc main_arg14) = m ((c : Thread nD τ).loc main_arg14) :=
  keep m ρ c main_arg14 0 24 (B := W0 m ρ) rfl rfl (by decide)
theorem low_arg15_10 (c : Dev nD) : W10 m ρ c (Proc.devRef .tc main_arg15) = m ((c : Thread nD τ).loc main_arg15) :=
  keep m ρ c main_arg15 0 10 (B := W0 m ρ) rfl rfl (by decide)
theorem low_arg15_24 (c : Dev nD) : W24 m ρ c (Proc.devRef .tc main_arg15) = m ((c : Thread nD τ).loc main_arg15) :=
  keep m ρ c main_arg15 0 24 (B := W0 m ρ) rfl rfl (by decide)

end Cert.KernelIdeal.HandVal

end
-- ==== Proof.KIHostVal.lean ====
import proofs.«137221_j56719338111373_2_alg».proof.Proof.Gen.KernelIdeal.Launch
import Idealize.ShloMosaic.Lib.StableHlo.Run

noncomputable section

namespace Cert.KernelIdeal.HandVal

open Cert.KernelIdeal Cert.KernelIdeal.Gen Idealize.ShloMosaic Idealize.ShloMosaic.TcCoe Idealize.SL.Sem Idealize.ShloMosaic.StableHlo

variable {F : FTy → Type} [FloatOps F]

abbrev Cn (F : FTy → Type) (s : Shape) (e : EltTy) : Type := (⟨s, e⟩ : BufTy).Contents (Elt F)

def rowCount64 : Cn F S1x64 .f32 := broadcastInDim S1x64 ![] bcast_S_S1x64 (constant S_ .f32 0x47800000#32)

def zero64 : Cn F S1x64 .f32 := broadcastInDim S1x64 ![] bcast_S_S1x64 (constant S_ .f32 0x00000000#32)

def meanOf (s : Cn F S1x64 .f32) : Cn F S1x64 .f32 := Host.divf s rowCount64

def varClampOf (s q : Cn F S1x64 .f32) : Cn F S1x64 .f32 :=
  maximumf (subf (Host.divf q rowCount64) (mulf (meanOf s) (meanOf s))) zero64

theorem hostOps3_v119 (V : Valuation τ sig (Elt F)) :
    StableHlo.after hostOps3 V (Proc.devRef .tc main_v119) = meanOf (V (Proc.devRef .tc main_v117_0)) := by
  after_results; rfl

theorem hostOps3_v125 (V : Valuation τ sig (Elt F)) :
    StableHlo.after hostOps3 V (Proc.devRef .tc main_v125)
      = varClampOf (V (Proc.devRef .tc main_v117_0)) (V (Proc.devRef .tc main_v117_1)) := by
  after_results; rfl

theorem hostOps7_v239 (V : Valuation τ sig (Elt F)) :
    StableHlo.after hostOps7 V (Proc.devRef .tc main_v239) = meanOf (V (Proc.devRef .tc main_v237_0)) := by
  after_results; rfl

theorem hostOps7_v245 (V : Valuation τ sig (Elt F)) :
    StableHlo.after hostOps7 V (Proc.devRef .tc main_v245)
      = varClampOf (V (Proc.devRef .tc main_v237_0)) (V (Proc.devRef .tc main_v237_1)) := by
  after_results; rfl

def concatCols (a b : Cn F S65536x64 .f32) : Cn F S65536x128 .f32 :=
  concatenate S65536x128 1 [⟨S65536x64, a⟩, ⟨S65536x64, b⟩] concatenates_S65536x64_S65536x64_S65536x128_d1

theorem hostOps8_v247 (V : Valuation τ sig (Elt F)) :
    StableHlo.after hostOps8 V (Proc.devRef .tc main_v247)
      = concatCols (V (Proc.devRef .tc main_v126)) (V (Proc.devRef .tc main_v246)) := by
  after_results; rfl

def wIn0Of (w : Cn F S2x32x64 .f32) : Cn F S32x64 .f32 :=
  shapeCast S32x64 (extractStridedSlice S1x32x64 ![0, 0, 0] w slices_S2x32x64_S1x32x64_0_0_0) shapeCasts_S1x32x64_S32x64
def wIn1Of (w : Cn F S2x32x64 .f32) : Cn F S32x64 .f32 :=
  shapeCast S32x64 (extractStridedSlice S1x32x64 ![1, 0, 0] w slices_S2x32x64_S1x32x64_1_0_0) shapeCasts_S1x32x64_S32x64

def row0_32 (g : Cn F S2x32 .f32) : Cn F S1x32 .f32 := extractStridedSlice S1x32 ![0, 0] g slices_S2x32_S1x32_0_0
def row1_32 (g : Cn F S2x32 .f32) : Cn F S1x32 .f32 := extractStridedSlice S1x32 ![1, 0] g slices_S2x32_S1x32_1_0

def wOut0Of (w : Cn F S2x64x32 .f32) : Cn F S64x32 .f32 :=
  shapeCast S64x32 (extractStridedSlice S1x64x32 ![0, 0, 0] w slices_S2x64x32_S1x64x32_0_0_0) shapeCasts_S1x64x32_S64x32
def wOut1Of (w : Cn F S2x64x32 .f32) : Cn F S64x32 .f32 :=
  shapeCast S64x32 (extractStridedSlice S1x64x32 ![1, 0, 0] w slices_S2x64x32_S1x64x32_1_0_0) shapeCasts_S1x64x32_S64x32

def row0_64 (g : Cn F S2x64 .f32) : Cn F S1x64 .f32 := extractStridedSlice S1x64 ![0, 0] g slices_S2x64_S1x64_0_0
def row1_64 (g : Cn F S2x64 .f32) : Cn F S1x64 .f32 := extractStridedSlice S1x64 ![1, 0] g slices_S2x64_S1x64_1_0

theorem hostOps0_v21 (V : Valuation τ sig (Elt F)) :
    StableHlo.after hostOps0 V (Proc.devRef .tc main_v21) = wIn0Of (V (Proc.devRef .tc main_arg7)) := by
  after_results; rfl
theorem hostOps0_v22 (V : Valuation τ sig (Elt F)) :
    StableHlo.after hostOps0 V (Proc.devRef .tc main_v22) = row0_32 (V (Proc.devRef .tc main_arg8)) := by
  after_results; rfl
theorem hostOps0_v23 (V : Valuation τ sig (Elt F)) :
    StableHlo.after hostOps0 V (Proc.devRef .tc main_v23) = row0_32 (V (Proc.devRef .tc main_arg9)) := by
  after_results; rfl

theorem hostOps2_v114 (V : Valuation τ sig (Elt F)) :
    StableHlo.after hostOps2 V (Proc.devRef .tc main_v114) = wOut0Of (V (Proc.devRef .tc main_arg13)) := by
  after_results; rfl
theorem hostOps2_v115 (V : Valuation τ sig (Elt F)) :
    StableHlo.after hostOps2 V (Proc.devRef .tc main_v115) = row0_64 (V (Proc.devRef .tc main_arg14)) := by
  after_results; rfl
theorem hostOps2_v116 (V : Valuation τ sig (Elt F)) :
    StableHlo.after hostOps2 V (Proc.devRef .tc main_v116) = row0_64 (V (Proc.devRef .tc main_arg15)) := by
  after_results; rfl

theorem hostOps4_v141 (V : Valuation τ sig (Elt F)) :
    StableHlo.after hostOps4 V (Proc.devRef .tc main_v141) = wIn1Of (V (Proc.devRef .tc main_arg7)) := by
  after_results; rfl
theorem hostOps4_v142 (V : Valuation τ sig (Elt F)) :
    StableHlo.after hostOps4 V (Proc.devRef .tc main_v142) = row1_32 (V (Proc.devRef .tc main_arg8)) := by
  after_results; rfl
theorem hostOps4_v143 (V : Valuation τ sig (Elt F)) :
    StableHlo.after hostOps4 V (Proc.devRef .tc main_v143) = row1_32 (V (Proc.devRef .tc main_arg9)) := by
  after_results; rfl

theorem hostOps6_v234 (V : Valuation τ sig (Elt F)) :
    StableHlo.after hostOps6 V (Proc.devRef .tc main_v234) = wOut1Of (V (Proc.devRef .tc main_arg13)) := by
  after_results; rfl
theorem hostOps6_v235 (V : Valuation τ sig (Elt F)) :
    StableHlo.after hostOps6 V (Proc.devRef .tc main_v235) = row1_64 (V (Proc.devRef .tc main_arg14)) := by
  after_results; rfl
theorem hostOps6_v236 (V : Valuation τ sig (Elt F)) :
    StableHlo.after hostOps6 V (Proc.devRef .tc main_v236) = row1_64 (V (Proc.devRef .tc main_arg15)) := by
  after_results; rfl

def permTable : Cn F S4 .i32 := fun i => lit0 (S4.rowMajor i)

def permIndex : Cn F S4x1 .i32 :=
  broadcastInDim S4x1 ![0] bcast_S4_S4x1_0
    (select (cmpi .slt (permTable (F := F)) (broadcastInDim S4 ![] bcast_S_S4 (constantI S_ 32 0#32)))
      (addi (permTable (F := F)) (broadcastInDim S4 ![] bcast_S_S4 (constantI S_ 32 4#32)))
      (permTable (F := F)))

def ncOf (coords : Cn F S65536x4 .i32) : Cn F S65536x4 .i32 :=
  Host.gather gather_S65536x4_S4x1_S65536x4_0_1_n_n_1_1_655361 coords (permIndex (F := F))

theorem hostOps0_v6 (V : Valuation τ sig (Elt F)) :
    StableHlo.after hostOps0 V (Proc.devRef .tc main_v6) = ncOf (V (Proc.devRef .tc main_arg4)) := by
  after_results; rfl

def axis2 : Cn F S2 .i32 :=
  addi (broadcastInDim S2 ![] bcast_S_S2 (constantI S_ 32 4294967295#32)) (iotaInDim S2 32 0)

def offsetsOf8 : Cn F S8x4 .i32 :=
  shapeCast S8x4
    (concatenate S2x2x2x4 3
      [⟨S2x2x2x1, broadcastInDim S2x2x2x1 ![0, 1, 2] bcast_S2x2x2_S2x2x2x1_0_1_2
          (broadcastInDim S2x2x2 ![] bcast_S_S2x2x2 (constantI S_ 32 0#32))⟩,
       ⟨S2x2x2x1, broadcastInDim S2x2x2x1 ![0, 1, 2] bcast_S2x2x2_S2x2x2x1_0_1_2
          (broadcastInDim S2x2x2 ![2] bcast_S2_S2x2x2_2 (axis2 (F := F)))⟩,
       ⟨S2x2x2x1, broadcastInDim S2x2x2x1 ![0, 1, 2] bcast_S2x2x2_S2x2x2x1_0_1_2
          (broadcastInDim S2x2x2 ![1] bcast_S2_S2x2x2_1 (axis2 (F := F)))⟩,
       ⟨S2x2x2x1, broadcastInDim S2x2x2x1 ![0, 1, 2] bcast_S2x2x2_S2x2x2x1_0_1_2
          (broadcastInDim S2x2x2 ![0] bcast_S2_S2x2x2_0 (axis2 (F := F)))⟩]
      concatenates_S2x2x2x1_S2x2x2x1_S2x2x2x1_S2x2x2x1_S2x2x2x4_d3)
    shapeCasts_S2x2x2x4_S8x4

theorem hostOps0_v19 (V : Valuation τ sig (Elt F)) :
    StableHlo.after hostOps0 V (Proc.devRef .tc main_v19) = offsetsOf8 := by
  after_results; rfl

def axis4 : Cn F S4 .i32 :=
  addi (broadcastInDim S4 ![] bcast_S_S4 (constantI S_ 32 4294967294#32)) (iotaInDim S4 32 0)

def offsetsOf64 : Cn F S64x4 .i32 :=
  shapeCast S64x4
    (concatenate S4x4x4x4 3
      [⟨S4x4x4x1, broadcastInDim S4x4x4x1 ![0, 1, 2] bcast_S4x4x4_S4x4x4x1_0_1_2
          (broadcastInDim S4x4x4 ![] bcast_S_S4x4x4 (constantI S_ 32 0#32))⟩,
       ⟨S4x4x4x1, broadcastInDim S4x4x4x1 ![0, 1, 2] bcast_S4x4x4_S4x4x4x1_0_1_2
          (broadcastInDim S4x4x4 ![2] bcast_S4_S4x4x4_2 (axis4 (F := F)))⟩,
       ⟨S4x4x4x1, broadcastInDim S4x4x4x1 ![0, 1, 2] bcast_S4x4x4_S4x4x4x1_0_1_2
          (broadcastInDim S4x4x4 ![1] bcast_S4_S4x4x4_1 (axis4 (F := F)))⟩,
       ⟨S4x4x4x1, broadcastInDim S4x4x4x1 ![0, 1, 2] bcast_S4x4x4_S4x4x4x1_0_1_2
          (broadcastInDim S4x4x4 ![0] bcast_S4_S4x4x4_0 (axis4 (F := F)))⟩]
      concatenates_S4x4x4x1_S4x4x4x1_S4x4x4x1_S4x4x4x1_S4x4x4x4_d3)
    shapeCasts_S4x4x4x4_S64x4

theorem hostOps4_v139 (V : Valuation τ sig (Elt F)) :
    StableHlo.after hostOps4 V (Proc.devRef .tc main_v139) = offsetsOf64 := by
  after_results; rfl

def padRows (f : Cn F S16384x32 .bf16) : Cn F S16385x32 .bf16 :=
  concatenate S16385x32 0
    [⟨S1x32, broadcastInDim S1x32 ![] bcast_S_S1x32 (constant S_ .bf16 0x0000#16)⟩, ⟨S16384x32, f⟩]
    concatenates_S1x32_S16384x32_S16385x32_d0

def posOf8 (nc : Cn F S65536x4 .i32) (off : Cn F S8x4 .i32) : Cn F S65536x8x4 .i32 :=
  addi
    (broadcastInDim S65536x8x4 ![0, 1, 2] bcast_S65536x1x4_S65536x8x4_0_1_2
      (broadcastInDim S65536x1x4 ![0, 2] bcast_S65536x4_S65536x1x4_0_2 nc))
    (broadcastInDim S65536x8x4 ![0, 1, 2] bcast_S1x8x4_S65536x8x4_0_1_2
      (broadcastInDim S1x8x4 ![1, 2] bcast_S8x4_S1x8x4_1_2 off))

def posCol8_0 (pos : Cn F S65536x8x4 .i32) : Cn F S65536x8 .i32 :=
  shapeCast S65536x8 (extractStridedSlice S65536x8x1 ![0, 0, 0] pos slices_S65536x8x4_S65536x8x1_0_0_0) shapeCasts_S65536x8x1_S65536x8
def posCol8_1 (pos : Cn F S65536x8x4 .i32) : Cn F S65536x8 .i32 :=
  shapeCast S65536x8 (extractStridedSlice S65536x8x1 ![0, 0, 1] pos slices_S65536x8x4_S65536x8x1_0_0_1) shapeCasts_S65536x8x1_S65536x8
def posCol8_2 (pos : Cn F S65536x8x4 .i32) : Cn F S65536x8 .i32 :=
  shapeCast S65536x8 (extractStridedSlice S65536x8x1 ![0, 0, 2] pos slices_S65536x8x4_S65536x8x1_0_0_2) shapeCasts_S65536x8x1_S65536x8
def posCol8_3 (pos : Cn F S65536x8x4 .i32) : Cn F S65536x8 .i32 :=
  shapeCast S65536x8 (extractStridedSlice S65536x8x1 ![0, 0, 3] pos slices_S65536x8x4_S65536x8x1_0_0_3) shapeCasts_S65536x8x1_S65536x8

def clipOf8 (lo hi : Cn F S_ .i32) (x : Cn F S65536x8 .i32) : Cn F S65536x8 .i32 :=
  minsi (broadcastInDim S65536x8 ![] bcast_S_S65536x8 hi) (maxsi (broadcastInDim S65536x8 ![] bcast_S_S65536x8 lo) x)

theorem hostOps1_v26 (V : Valuation τ sig (Elt F)) :
    StableHlo.after hostOps1 V (Proc.devRef .tc main_v26) = padRows (V (Proc.devRef .tc main_v24)) := by
  after_results; rfl
theorem hostOps1_v31 (V : Valuation τ sig (Elt F)) :
    StableHlo.after hostOps1 V (Proc.devRef .tc main_v31)
      = posOf8 (V (Proc.devRef .tc main_v6)) (V (Proc.devRef .tc main_v19)) := by
  after_results; rfl
theorem hostOps1_v33 (V : Valuation τ sig (Elt F)) :
    StableHlo.after hostOps1 V (Proc.devRef .tc main_v33)
      = posCol8_0 (posOf8 (V (Proc.devRef .tc main_v6)) (V (Proc.devRef .tc main_v19))) := by
  after_results; rfl
theorem hostOps1_v35 (V : Valuation τ sig (Elt F)) :
    StableHlo.after hostOps1 V (Proc.devRef .tc main_v35)
      = posCol8_1 (posOf8 (V (Proc.devRef .tc main_v6)) (V (Proc.devRef .tc main_v19))) := by
  after_results; rfl
theorem hostOps1_c_4 (V : Valuation τ sig (Elt F)) :
    StableHlo.after hostOps1 V (Proc.devRef .tc main_c_4) = (constantI S_ 32 0#32 : Cn F S_ .i32) := by
  after_results
theorem hostOps1_c_5 (V : Valuation τ sig (Elt F)) :
    StableHlo.after hostOps1 V (Proc.devRef .tc main_c_5) = (constantI S_ 32 10#32 : Cn F S_ .i32) := by
  after_results

theorem hostOps1_1_v36 (V : Valuation τ sig (Elt F)) :
    StableHlo.after hostOps1_1 V (Proc.devRef .tc main_v36)
      = clipOf8 (V (Proc.devRef .tc main_c_4)) (V (Proc.devRef .tc main_c_5)) (V (Proc.devRef .tc main_v35)) := by
  after_results; rfl

theorem hostOps1_2_v38 (V : Valuation τ sig (Elt F)) :
    StableHlo.after hostOps1_2 V (Proc.devRef .tc main_v38) = posCol8_2 (V (Proc.devRef .tc main_v31)) := by
  after_results; rfl
theorem hostOps1_2_c_6 (V : Valuation τ sig (Elt F)) :
    StableHlo.after hostOps1_2 V (Proc.devRef .tc main_c_6) = (constantI S_ 32 0#32 : Cn F S_ .i32) := by
  after_results
theorem hostOps1_2_c_7 (V : Valuation τ sig (Elt F)) :
    StableHlo.after hostOps1_2 V (Proc.devRef .tc main_c_7) = (constantI S_ 32 199#32 : Cn F S_ .i32) := by
  after_results

theorem hostOps1_3_v39 (V : Valuation τ sig (Elt F)) :
    StableHlo.after hostOps1_3 V (Proc.devRef .tc main_v39)
      = clipOf8 (V (Proc.devRef .tc main_c_6)) (V (Proc.devRef .tc main_c_7)) (V (Proc.devRef .tc main_v38)) := by
  after_results; rfl

theorem hostOps1_4_v41 (V : Valuation τ sig (Elt F)) :
    StableHlo.after hostOps1_4 V (Proc.devRef .tc main_v41) = posCol8_3 (V (Proc.devRef .tc main_v31)) := by
  after_results; rfl
theorem hostOps1_4_c_8 (V : Valuation τ sig (Elt F)) :
    StableHlo.after hostOps1_4 V (Proc.devRef .tc main_c_8) = (constantI S_ 32 0#32 : Cn F S_ .i32) := by
  after_results
theorem hostOps1_4_c_9 (V : Valuation τ sig (Elt F)) :
    StableHlo.after hostOps1_4 V (Proc.devRef .tc main_c_9) = (constantI S_ 32 175#32 : Cn F S_ .i32) := by
  after_results

theorem hostOps1_5_v42 (V : Valuation τ sig (Elt F)) :
    StableHlo.after hostOps1_5 V (Proc.devRef .tc main_v42)
      = clipOf8 (V (Proc.devRef .tc main_c_8)) (V (Proc.devRef .tc main_c_9)) (V (Proc.devRef .tc main_v41)) := by
  after_results; rfl

def posOf64 (nc : Cn F S65536x4 .i32) (off : Cn F S64x4 .i32) : Cn F S65536x64x4 .i32 :=
  addi
    (broadcastInDim S65536x64x4 ![0, 1, 2] bcast_S65536x1x4_S65536x64x4_0_1_2
      (broadcastInDim S65536x1x4 ![0, 2] bcast_S65536x4_S65536x1x4_0_2 nc))
    (broadcastInDim S65536x64x4 ![0, 1, 2] bcast_S1x64x4_S65536x64x4_0_1_2
      (broadcastInDim S1x64x4 ![1, 2] bcast_S64x4_S1x64x4_1_2 off))

def posCol64_0 (pos : Cn F S65536x64x4 .i32) : Cn F S65536x64 .i32 :=
  shapeCast S65536x64 (extractStridedSlice S65536x64x1 ![0, 0, 0] pos slices_S65536x64x4_S65536x64x1_0_0_0) shapeCasts_S65536x64x1_S65536x64
def posCol64_1 (pos : Cn F S65536x64x4 .i32) : Cn F S65536x64 .i32 :=
  shapeCast S65536x64 (extractStridedSlice S65536x64x1 ![0, 0, 1] pos slices_S65536x64x4_S65536x64x1_0_0_1) shapeCasts_S65536x64x1_S65536x64
def posCol64_2 (pos : Cn F S65536x64x4 .i32) : Cn F S65536x64 .i32 :=
  shapeCast S65536x64 (extractStridedSlice S65536x64x1 ![0, 0, 2] pos slices_S65536x64x4_S65536x64x1_0_0_2) shapeCasts_S65536x64x1_S65536x64
def posCol64_3 (pos : Cn F S65536x64x4 .i32) : Cn F S65536x64 .i32 :=
  shapeCast S65536x64 (extractStridedSlice S65536x64x1 ![0, 0, 3] pos slices_S65536x64x4_S65536x64x1_0_0_3) shapeCasts_S65536x64x1_S65536x64

def clipOf64 (lo hi : Cn F S_ .i32) (x : Cn F S65536x64 .i32) : Cn F S65536x64 .i32 :=
  minsi (broadcastInDim S65536x64 ![] bcast_S_S65536x64 hi) (maxsi (broadcastInDim S65536x64 ![] bcast_S_S65536x64 lo) x)

theorem hostOps5_v146 (V : Valuation τ sig (Elt F)) :
    StableHlo.after hostOps5 V (Proc.devRef .tc main_v146) = padRows (V (Proc.devRef .tc main_v144)) := by
  after_results; rfl
theorem hostOps5_v151 (V : Valuation τ sig (Elt F)) :
    StableHlo.after hostOps5 V (Proc.devRef .tc main_v151)
      = posOf64 (V (Proc.devRef .tc main_v6)) (V (Proc.devRef .tc main_v139)) := by
  after_results; rfl
theorem hostOps5_v153 (V : Valuation τ sig (Elt F)) :
    StableHlo.after hostOps5 V (Proc.devRef .tc main_v153)
      = posCol64_0 (posOf64 (V (Proc.devRef .tc main_v6)) (V (Proc.devRef .tc main_v139))) := by
  after_results; rfl
theorem hostOps5_v155 (V : Valuation τ sig (Elt F)) :
    StableHlo.after hostOps5 V (Proc.devRef .tc main_v155)
      = posCol64_1 (posOf64 (V (Proc.devRef .tc main_v6)) (V (Proc.devRef .tc main_v139))) := by
  after_results; rfl
theorem hostOps5_c_32 (V : Valuation τ sig (Elt F)) :
    StableHlo.after hostOps5 V (Proc.devRef .tc main_c_32) = (constantI S_ 32 0#32 : Cn F S_ .i32) := by
  after_results
theorem hostOps5_c_33 (V : Valuation τ sig (Elt F)) :
    StableHlo.after hostOps5 V (Proc.devRef .tc main_c_33) = (constantI S_ 32 10#32 : Cn F S_ .i32) := by
  after_results

theorem hostOps5_1_v156 (V : Valuation τ sig (Elt F)) :
    StableHlo.after hostOps5_1 V (Proc.devRef .tc main_v156)
      = clipOf64 (V (Proc.devRef .tc main_c_32)) (V (Proc.devRef .tc main_c_33)) (V (Proc.devRef .tc main_v155)) := by
  after_results; rfl

theorem hostOps5_2_v158 (V : Valuation τ sig (Elt F)) :
    StableHlo.after hostOps5_2 V (Proc.devRef .tc main_v158) = posCol64_2 (V (Proc.devRef .tc main_v151)) := by
  after_results; rfl
theorem hostOps5_2_c_34 (V : Valuation τ sig (Elt F)) :
    StableHlo.after hostOps5_2 V (Proc.devRef .tc main_c_34) = (constantI S_ 32 0#32 : Cn F S_ .i32) := by
  after_results
theorem hostOps5_2_c_35 (V : Valuation τ sig (Elt F)) :
    StableHlo.after hostOps5_2 V (Proc.devRef .tc main_c_35) = (constantI S_ 32 199#32 : Cn F S_ .i32) := by
  after_results

theorem hostOps5_3_v159 (V : Valuation τ sig (Elt F)) :
    StableHlo.after hostOps5_3 V (Proc.devRef .tc main_v159)
      = clipOf64 (V (Proc.devRef .tc main_c_34)) (V (Proc.devRef .tc main_c_35)) (V (Proc.devRef .tc main_v158)) := by
  after_results; rfl

theorem hostOps5_4_v161 (V : Valuation τ sig (Elt F)) :
    StableHlo.after hostOps5_4 V (Proc.devRef .tc main_v161) = posCol64_3 (V (Proc.devRef .tc main_v151)) := by
  after_results; rfl
theorem hostOps5_4_c_36 (V : Valuation τ sig (Elt F)) :
    StableHlo.after hostOps5_4 V (Proc.devRef .tc main_c_36) = (constantI S_ 32 0#32 : Cn F S_ .i32) := by
  after_results
theorem hostOps5_4_c_37 (V : Valuation τ sig (Elt F)) :
    StableHlo.after hostOps5_4 V (Proc.devRef .tc main_c_37) = (constantI S_ 32 175#32 : Cn F S_ .i32) := by
  after_results

theorem hostOps5_5_v162 (V : Valuation τ sig (Elt F)) :
    StableHlo.after hostOps5_5 V (Proc.devRef .tc main_v162)
      = clipOf64 (V (Proc.devRef .tc main_c_36)) (V (Proc.devRef .tc main_c_37)) (V (Proc.devRef .tc main_v161)) := by
  after_results; rfl

end Cert.KernelIdeal.HandVal
end
-- ==== Proof.KIHostVal8.lean ====
import proofs.«137221_j56719338111373_2_alg».proof.Proof.KIHostVal

noncomputable section

namespace Cert.KernelIdeal.HandVal

open Cert.KernelIdeal Cert.KernelIdeal.Gen Idealize.ShloMosaic Idealize.ShloMosaic.TcCoe Idealize.SL.Sem Idealize.ShloMosaic.StableHlo

variable {F : FTy → Type} [FloatOps F]

def wrapBy8 (n : BitVec 32) (x : Cn F S65536x8 .i32) : Cn F S65536x8 .i32 :=
  select (cmpi .slt x (broadcastInDim S65536x8 ![] bcast_S_S65536x8 (constantI S_ 32 0#32)))
    (addi x (broadcastInDim S65536x8 ![] bcast_S_S65536x8 (constantI S_ 32 n))) x

def col8 (x : Cn F S65536x8 .i32) : Cn F S65536x8x1 .i32 :=
  broadcastInDim S65536x8x1 ![0, 1] bcast_S65536x8_S65536x8x1_0_1 x

def idx4Of8 (b z y x : Cn F S65536x8 .i32) : Cn F S65536x8x4 .i32 :=
  concatenate S65536x8x4 2
    [⟨S65536x8x1, col8 (wrapBy8 2#32 b)⟩, ⟨S65536x8x1, col8 (wrapBy8 11#32 z)⟩,
     ⟨S65536x8x1, col8 (wrapBy8 200#32 y)⟩, ⟨S65536x8x1, col8 (wrapBy8 176#32 x)⟩]
    concatenates_S65536x8x1_S65536x8x1_S65536x8x1_S65536x8x1_S65536x8x4_d2

def vmGatherOf8 (vm : Cn F S2x11x200x176 .i32) (idx4 : Cn F S65536x8x4 .i32) : Cn F S65536x8 .i32 :=
  Host.gather gather_S2x11x200x176_S65536x8x4_S65536x8_n_0123_n_n_0123_2_1111 vm idx4

def padIndexOf8 (g : Cn F S65536x8 .i32) : Cn F S65536x8x1 .i32 :=
  col8 (wrapBy8 16385#32 (addi g (broadcastInDim S65536x8 ![] bcast_S_S65536x8 (constantI S_ 32 1#32))))

def gatherPadded8 (fpad : Cn F S16385x32 .bf16) (ix : Cn F S65536x8x1 .i32) : Cn F S65536x8x32 .bf16 :=
  Host.gather gather_S16385x32_S65536x8x1_S65536x8x32_2_0_n_n_0_2_132 fpad ix

def posDot8 (off : Cn F S8x4 .i32) (wpos : Cn F S2x32x3 .f32) : Cn F S8x32 .f32 :=
  Host.dotGeneral dot_S8x3_S3x32_S8x32_1_0_0_1_n_n none
    (sitofp .f32 (extractStridedSlice S8x3 ![0, 1] off slices_S8x4_S8x3_0_1))
    (transpose S3x32 [1, 0]
      (shapeCast S32x3 (extractStridedSlice S1x32x3 ![0, 0, 0] wpos slices_S2x32x3_S1x32x3_0_0_0) shapeCasts_S1x32x3_S32x3)
      transposes_S32x3_S3x32_1_0)

def vec0_32 (g : Cn F S2x32 .f32) : Cn F S32 .f32 :=
  shapeCast S32 (extractStridedSlice S1x32 ![0, 0] g slices_S2x32_S1x32_0_0) shapeCasts_S1x32_S32

def colMean8 (x : Cn F S8x32 .f32) : Cn F S1x32 .f32 :=
  Host.divf
    (broadcastInDim S1x32 ![1] bcast_S32_S1x32_1
      (Host.reduceAdd x (constant S_ .f32 0x00000000#32) reducesTo_S8x32_S32_d0 h_S_))
    (broadcastInDim S1x32 ![] bcast_S_S1x32 (constant S_ .f32 0x41000000#32))

def centred8 (x : Cn F S8x32 .f32) : Cn F S8x32 .f32 :=
  subf x (broadcastInDim S8x32 ![0, 1] bcast_S1x32_S8x32_0_1 (colMean8 x))

def colVar8 (x : Cn F S8x32 .f32) : Cn F S1x32 .f32 := colMean8 (mulf (centred8 x) (centred8 x))

def bnRows8 (x : Cn F S8x32 .f32) (g b : Cn F S32 .f32) : Cn F S8x32 .f32 :=
  addf
    (mulf
      (mulf (centred8 x)
        (broadcastInDim S8x32 ![0, 1] bcast_S1x32_S8x32_0_1
          (Host.rsqrt (addf (colVar8 x) (broadcastInDim S1x32 ![] bcast_S_S1x32 (constant S_ .f32 0x3727C5AC#32))))))
      (broadcastInDim S8x32 ![0, 1] bcast_S1x32_S8x32_0_1 (broadcastInDim S1x32 ![1] bcast_S32_S1x32_1 g)))
    (broadcastInDim S8x32 ![0, 1] bcast_S1x32_S8x32_0_1 (broadcastInDim S1x32 ![1] bcast_S32_S1x32_1 b))

def posBN8 (off : Cn F S8x4 .i32) (wpos : Cn F S2x32x3 .f32) (g b : Cn F S2x32 .f32) : Cn F S8x32 .f32 :=
  bnRows8 (posDot8 off wpos) (vec0_32 g) (vec0_32 b)

set_option maxHeartbeats 4000000 in
theorem hostOps1_6_v67 (V : Valuation τ sig (Elt F)) :
    StableHlo.after hostOps1_6 V (Proc.devRef .tc main_v67)
      = idx4Of8 (V (Proc.devRef .tc main_v33)) (V (Proc.devRef .tc main_v36))
          (V (Proc.devRef .tc main_v39)) (V (Proc.devRef .tc main_v42)) := by
  after_results; rfl

set_option maxHeartbeats 4000000 in
theorem hostOps1_6_v68 (V : Valuation τ sig (Elt F)) :
    StableHlo.after hostOps1_6 V (Proc.devRef .tc main_v68)
      = vmGatherOf8 (V (Proc.devRef .tc main_arg6))
          (idx4Of8 (V (Proc.devRef .tc main_v33)) (V (Proc.devRef .tc main_v36))
            (V (Proc.devRef .tc main_v39)) (V (Proc.devRef .tc main_v42))) := by
  after_results; rfl

set_option maxHeartbeats 4000000 in
theorem hostOps1_6_v76 (V : Valuation τ sig (Elt F)) :
    StableHlo.after hostOps1_6 V (Proc.devRef .tc main_v76)
      = padIndexOf8 (vmGatherOf8 (V (Proc.devRef .tc main_arg6))
          (idx4Of8 (V (Proc.devRef .tc main_v33)) (V (Proc.devRef .tc main_v36))
            (V (Proc.devRef .tc main_v39)) (V (Proc.devRef .tc main_v42)))) := by
  after_results; rfl

set_option maxHeartbeats 4000000 in
theorem hostOps1_6_v77 (V : Valuation τ sig (Elt F)) :
    StableHlo.after hostOps1_6 V (Proc.devRef .tc main_v77)
      = gatherPadded8 (V (Proc.devRef .tc main_v26))
          (padIndexOf8 (vmGatherOf8 (V (Proc.devRef .tc main_arg6))
            (idx4Of8 (V (Proc.devRef .tc main_v33)) (V (Proc.devRef .tc main_v36))
              (V (Proc.devRef .tc main_v39)) (V (Proc.devRef .tc main_v42))))) := by
  after_results; rfl

set_option maxHeartbeats 4000000 in
theorem hostOps1_6_v111 (V : Valuation τ sig (Elt F)) :
    StableHlo.after hostOps1_6 V (Proc.devRef .tc main_v111)
      = posBN8 (V (Proc.devRef .tc main_v19)) (V (Proc.devRef .tc main_arg10))
          (V (Proc.devRef .tc main_arg11)) (V (Proc.devRef .tc main_arg12)) := by
  after_results_simp; rfl

end Cert.KernelIdeal.HandVal
end
-- ==== Proof.KIChain.lean ====
import proofs.«137221_j56719338111373_2_alg».proof.Proof.KIKeep
import proofs.«137221_j56719338111373_2_alg».proof.Proof.KIHostVal
import proofs.«137221_j56719338111373_2_alg».proof.Proof.KIHostVal8

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem fin_v6 (c : Dev nD) : W29 m ρ c (Proc.devRef .tc main_v6) = ncOf (m ((c : Thread nD τ).loc main_arg4)) := by
  rw [keep_v6_1 m ρ c, ← low_arg4_0 m ρ c]
  exact hostOps0_v6 (W0 m ρ c)

theorem fin_v19 (c : Dev nD) : W29 m ρ c (Proc.devRef .tc main_v19) = offsetsOf8 := by
  rw [keep_v19_1 m ρ c]
  exact hostOps0_v19 (W0 m ρ c)

theorem fin_v21 (c : Dev nD) : W29 m ρ c (Proc.devRef .tc main_v21) = wIn0Of (m ((c : Thread nD τ).loc main_arg7)) := by
  rw [keep_v21_1 m ρ c, ← low_arg7_0 m ρ c]
  exact hostOps0_v21 (W0 m ρ c)

theorem fin_v22 (c : Dev nD) : W29 m ρ c (Proc.devRef .tc main_v22) = row0_32 (m ((c : Thread nD τ).loc main_arg8)) := by
  rw [keep_v22_1 m ρ c, ← low_arg8_0 m ρ c]
  exact hostOps0_v22 (W0 m ρ c)

theorem fin_v23 (c : Dev nD) : W29 m ρ c (Proc.devRef .tc main_v23) = row0_32 (m ((c : Thread nD τ).loc main_arg9)) := by
  rw [keep_v23_1 m ρ c, ← low_arg9_0 m ρ c]
  exact hostOps0_v23 (W0 m ρ c)

theorem in0_arg5 (c : Dev nD) : V1 m ρ c main_arg5 = m ((c : Thread nD τ).loc main_arg5) := low_arg5_1 m ρ c
theorem in0_v21 (c : Dev nD) : V1 m ρ c main_v21 = W29 m ρ c (Proc.devRef .tc main_v21) := (keep_v21_1 m ρ c).symm
theorem in0_v22 (c : Dev nD) : V1 m ρ c main_v22 = W29 m ρ c (Proc.devRef .tc main_v22) := (keep_v22_1 m ρ c).symm
theorem in0_v23 (c : Dev nD) : V1 m ρ c main_v23 = W29 m ρ c (Proc.devRef .tc main_v23) := (keep_v23_1 m ρ c).symm

theorem fin_v24 (c : Dev nD) : W29 m ρ c (Proc.devRef .tc main_v24) = (dat0 (V1 m ρ) c).arrAt 4 cfg0.N :=
  (keep_v24_2 m ρ c).trans (W2_arr m ρ c 4)

theorem fin_v24_of {G : Cn F S16384x64 .f32 → Cn F S32x64 .f32 → Cn F S1x32 .f32 → Cn F S1x32 .f32 → Cn F S16384x32 .bf16}
    (hG : ∀ V : (c : Dev nD) → (b : Ref sig .tc) → Buf (Elt F) ((c : Thread nD τ).loc b), ∀ c : Dev nD,
      (dat0 V c).arrAt 4 cfg0.N = G (V c main_arg5) (V c main_v21) (V c main_v22) (V c main_v23)) (c : Dev nD) :
    W29 m ρ c (Proc.devRef .tc main_v24) = G (m ((c : Thread nD τ).loc main_arg5)) (W29 m ρ c (Proc.devRef .tc main_v21)) (W29 m ρ c (Proc.devRef .tc main_v22)) (W29 m ρ c (Proc.devRef .tc main_v23)) := by
  rw [fin_v24 m ρ c, hG (V1 m ρ) c, in0_arg5 m ρ c, in0_v21 m ρ c, in0_v22 m ρ c, in0_v23 m ρ c]

theorem fin_v26 (c : Dev nD) : W29 m ρ c (Proc.devRef .tc main_v26) = padRows (W29 m ρ c (Proc.devRef .tc main_v24)) := by
  rw [keep_v26_3 m ρ c, keep_v24_2 m ρ c]
  exact hostOps1_v26 (W2 m ρ c)

theorem fin_v31 (c : Dev nD) : W29 m ρ c (Proc.devRef .tc main_v31) = posOf8 (W29 m ρ c (Proc.devRef .tc main_v6)) (W29 m ρ c (Proc.devRef .tc main_v19)) := by
  rw [keep_v31_3 m ρ c, keep_v6_2 m ρ c, keep_v19_2 m ρ c]
  exact hostOps1_v31 (W2 m ρ c)

theorem fin_v33 (c : Dev nD) : W29 m ρ c (Proc.devRef .tc main_v33) = posCol8_0 (posOf8 (W29 m ρ c (Proc.devRef .tc main_v6)) (W29 m ρ c (Proc.devRef .tc main_v19))) := by
  rw [keep_v33_3 m ρ c, keep_v6_2 m ρ c, keep_v19_2 m ρ c]
  exact hostOps1_v33 (W2 m ρ c)

theorem fin_v36 (c : Dev nD) : W29 m ρ c (Proc.devRef .tc main_v36)
    = clipOf8 (constantI S_ 32 0#32) (constantI S_ 32 10#32) (posCol8_1 (posOf8 (W29 m ρ c (Proc.devRef .tc main_v6)) (W29 m ρ c (Proc.devRef .tc main_v19)))) := by
  rw [keep_v36_4 m ρ c, keep_v6_2 m ρ c, keep_v19_2 m ρ c]
  refine (hostOps1_1_v36 (StableHlo.after hostOps1 (W2 m ρ c))).trans ?_
  rw [hostOps1_c_4 (W2 m ρ c), hostOps1_c_5 (W2 m ρ c), hostOps1_v35 (W2 m ρ c)]

theorem fin_v39 (c : Dev nD) : W29 m ρ c (Proc.devRef .tc main_v39)
    = clipOf8 (constantI S_ 32 0#32) (constantI S_ 32 199#32) (posCol8_2 (W29 m ρ c (Proc.devRef .tc main_v31))) := by
  rw [keep_v39_6 m ρ c, keep_v31_4 m ρ c]
  refine (hostOps1_3_v39 (StableHlo.after hostOps1_2 (W4 m ρ c))).trans ?_
  rw [hostOps1_2_c_6 (W4 m ρ c), hostOps1_2_c_7 (W4 m ρ c), hostOps1_2_v38 (W4 m ρ c)]

theorem fin_v42 (c : Dev nD) : W29 m ρ c (Proc.devRef .tc main_v42)
    = clipOf8 (constantI S_ 32 0#32) (constantI S_ 32 175#32) (posCol8_3 (W29 m ρ c (Proc.devRef .tc main_v31))) := by
  rw [keep_v42_8 m ρ c, keep_v31_6 m ρ c]
  refine (hostOps1_5_v42 (StableHlo.after hostOps1_4 (W6 m ρ c))).trans ?_
  rw [hostOps1_4_c_8 (W6 m ρ c), hostOps1_4_c_9 (W6 m ρ c), hostOps1_4_v41 (W6 m ρ c)]

theorem fin_v67 (c : Dev nD) : W29 m ρ c (Proc.devRef .tc main_v67)
    = idx4Of8 (W29 m ρ c (Proc.devRef .tc main_v33)) (W29 m ρ c (Proc.devRef .tc main_v36)) (W29 m ρ c (Proc.devRef .tc main_v39)) (W29 m ρ c (Proc.devRef .tc main_v42)) := by
  rw [keep_v67_9 m ρ c, keep_v33_8 m ρ c, keep_v36_8 m ρ c, keep_v39_8 m ρ c, keep_v42_8 m ρ c]
  exact hostOps1_6_v67 (W8 m ρ c)

theorem fin_v68 (c : Dev nD) : W29 m ρ c (Proc.devRef .tc main_v68) = vmGatherOf8 (m ((c : Thread nD τ).loc main_arg6)) (W29 m ρ c (Proc.devRef .tc main_v67)) := by
  rw [fin_v67 m ρ c, keep_v68_9 m ρ c, keep_v33_8 m ρ c, keep_v36_8 m ρ c, keep_v39_8 m ρ c, keep_v42_8 m ρ c,
    ← low_arg6_8 m ρ c]
  exact hostOps1_6_v68 (W8 m ρ c)

theorem fin_v76 (c : Dev nD) : W29 m ρ c (Proc.devRef .tc main_v76) = padIndexOf8 (W29 m ρ c (Proc.devRef .tc main_v68)) := by
  rw [fin_v68 m ρ c, fin_v67 m ρ c, keep_v76_9 m ρ c, keep_v33_8 m ρ c, keep_v36_8 m ρ c, keep_v39_8 m ρ c,
    keep_v42_8 m ρ c, ← low_arg6_8 m ρ c]
  exact hostOps1_6_v76 (W8 m ρ c)

theorem fin_v77 (c : Dev nD) : W29 m ρ c (Proc.devRef .tc main_v77) = gatherPadded8 (W29 m ρ c (Proc.devRef .tc main_v26)) (W29 m ρ c (Proc.devRef .tc main_v76)) := by
  rw [fin_v76 m ρ c, fin_v68 m ρ c, fin_v67 m ρ c, keep_v77_9 m ρ c, keep_v26_8 m ρ c, keep_v33_8 m ρ c,
    keep_v36_8 m ρ c, keep_v39_8 m ρ c, keep_v42_8 m ρ c, ← low_arg6_8 m ρ c]
  exact hostOps1_6_v77 (W8 m ρ c)

theorem fin_v111 (c : Dev nD) : W29 m ρ c (Proc.devRef .tc main_v111)
    = posBN8 (W29 m ρ c (Proc.devRef .tc main_v19)) (m ((c : Thread nD τ).loc main_arg10)) (m ((c : Thread nD τ).loc main_arg11)) (m ((c : Thread nD τ).loc main_arg12)) := by
  rw [keep_v111_9 m ρ c, keep_v19_8 m ρ c, ← low_arg10_8 m ρ c, ← low_arg11_8 m ρ c, ← low_arg12_8 m ρ c]
  exact hostOps1_6_v111 (W8 m ρ c)

theorem in1_v77 (c : Dev nD) : V9 m ρ c main_v77 = W29 m ρ c (Proc.devRef .tc main_v77) := (keep_v77_9 m ρ c).symm
theorem in1_v111 (c : Dev nD) : V9 m ρ c main_v111 = W29 m ρ c (Proc.devRef .tc main_v111) := (keep_v111_9 m ρ c).symm

theorem fin_v112 (c : Dev nD) : W29 m ρ c (Proc.devRef .tc main_v112) = (dat1 (V9 m ρ) c).arrAt 2 cfg1.N :=
  (keep_v112_10 m ρ c).trans (W10_arr m ρ c 2)

theorem fin_v112_of {G : Cn F S65536x8x32 .bf16 → Cn F S8x32 .f32 → Cn F S65536x32 .f32}
    (hG : ∀ V : (c : Dev nD) → (b : Ref sig .tc) → Buf (Elt F) ((c : Thread nD τ).loc b), ∀ c : Dev nD,
      (dat1 V c).arrAt 2 cfg1.N = G (V c main_v77) (V c main_v111)) (c : Dev nD) :
    W29 m ρ c (Proc.devRef .tc main_v112) = G (W29 m ρ c (Proc.devRef .tc main_v77)) (W29 m ρ c (Proc.devRef .tc main_v111)) := by
  rw [fin_v112 m ρ c, hG (V9 m ρ) c, in1_v77 m ρ c, in1_v111 m ρ c]

theorem fin_v114 (c : Dev nD) : W29 m ρ c (Proc.devRef .tc main_v114) = wOut0Of (m ((c : Thread nD τ).loc main_arg13)) := by
  rw [keep_v114_11 m ρ c, ← low_arg13_10 m ρ c]
  exact hostOps2_v114 (W10 m ρ c)

theorem fin_v115 (c : Dev nD) : W29 m ρ c (Proc.devRef .tc main_v115) = row0_64 (m ((c : Thread nD τ).loc main_arg14)) := by
  rw [keep_v115_11 m ρ c, ← low_arg14_10 m ρ c]
  exact hostOps2_v115 (W10 m ρ c)

theorem fin_v116 (c : Dev nD) : W29 m ρ c (Proc.devRef .tc main_v116) = row0_64 (m ((c : Thread nD τ).loc main_arg15)) := by
  rw [keep_v116_11 m ρ c, ← low_arg15_10 m ρ c]
  exact hostOps2_v116 (W10 m ρ c)

theorem in2_v112 (c : Dev nD) : V11 m ρ c main_v112 = W29 m ρ c (Proc.devRef .tc main_v112) := (keep_v112_11 m ρ c).symm
theorem in2_v114 (c : Dev nD) : V11 m ρ c main_v114 = W29 m ρ c (Proc.devRef .tc main_v114) := (keep_v114_11 m ρ c).symm

theorem fin_v117_0 (c : Dev nD) : W29 m ρ c (Proc.devRef .tc main_v117_0) = (dat2 (V11 m ρ) c).arrAt 2 cfg2.N :=
  (keep_v117_0_12 m ρ c).trans (W12_arr m ρ c 2)
theorem fin_v117_1 (c : Dev nD) : W29 m ρ c (Proc.devRef .tc main_v117_1) = (dat2 (V11 m ρ) c).arrAt 3 cfg2.N :=
  (keep_v117_1_12 m ρ c).trans (W12_arr m ρ c 3)

theorem fin_v117_0_of {G : Cn F S65536x32 .f32 → Cn F S64x32 .f32 → Cn F S1x64 .f32}
    (hG : ∀ V : (c : Dev nD) → (b : Ref sig .tc) → Buf (Elt F) ((c : Thread nD τ).loc b), ∀ c : Dev nD,
      (dat2 V c).arrAt 2 cfg2.N = G (V c main_v112) (V c main_v114)) (c : Dev nD) :
    W29 m ρ c (Proc.devRef .tc main_v117_0) = G (W29 m ρ c (Proc.devRef .tc main_v112)) (W29 m ρ c (Proc.devRef .tc main_v114)) := by
  rw [fin_v117_0 m ρ c, hG (V11 m ρ) c, in2_v112 m ρ c, in2_v114 m ρ c]
theorem fin_v117_1_of {G : Cn F S65536x32 .f32 → Cn F S64x32 .f32 → Cn F S1x64 .f32}
    (hG : ∀ V : (c : Dev nD) → (b : Ref sig .tc) → Buf (Elt F) ((c : Thread nD τ).loc b), ∀ c : Dev nD,
      (dat2 V c).arrAt 3 cfg2.N = G (V c main_v112) (V c main_v114)) (c : Dev nD) :
    W29 m ρ c (Proc.devRef .tc main_v117_1) = G (W29 m ρ c (Proc.devRef .tc main_v112)) (W29 m ρ c (Proc.devRef .tc main_v114)) := by
  rw [fin_v117_1 m ρ c, hG (V11 m ρ) c, in2_v112 m ρ c, in2_v114 m ρ c]

theorem fin_v119 (c : Dev nD) : W29 m ρ c (Proc.devRef .tc main_v119) = meanOf (W29 m ρ c (Proc.devRef .tc main_v117_0)) := by
  rw [keep_v119_13 m ρ c, keep_v117_0_12 m ρ c]
  exact hostOps3_v119 (W12 m ρ c)

theorem fin_v125 (c : Dev nD) : W29 m ρ c (Proc.devRef .tc main_v125) = varClampOf (W29 m ρ c (Proc.devRef .tc main_v117_0)) (W29 m ρ c (Proc.devRef .tc main_v117_1)) := by
  rw [keep_v125_13 m ρ c, keep_v117_0_12 m ρ c, keep_v117_1_12 m ρ c]
  exact hostOps3_v125 (W12 m ρ c)

theorem in3_v112 (c : Dev nD) : V13 m ρ c main_v112 = W29 m ρ c (Proc.devRef .tc main_v112) := (keep_v112_13 m ρ c).symm
theorem in3_v114 (c : Dev nD) : V13 m ρ c main_v114 = W29 m ρ c (Proc.devRef .tc main_v114) := (keep_v114_13 m ρ c).symm
theorem in3_v119 (c : Dev nD) : V13 m ρ c main_v119 = W29 m ρ c (Proc.devRef .tc main_v119) := (keep_v119_13 m ρ c).symm
theorem in3_v125 (c : Dev nD) : V13 m ρ c main_v125 = W29 m ρ c (Proc.devRef .tc main_v125) := (keep_v125_13 m ρ c).symm
theorem in3_v115 (c : Dev nD) : V13 m ρ c main_v115 = W29 m ρ c (Proc.devRef .tc main_v115) := (keep_v115_13 m ρ c).symm
theorem in3_v116 (c : Dev nD) : V13 m ρ c main_v116 = W29 m ρ c (Proc.devRef .tc main_v116) := (keep_v116_13 m ρ c).symm

theorem fin_v126 (c : Dev nD) : W29 m ρ c (Proc.devRef .tc main_v126) = (dat3 (V13 m ρ) c).arrAt 6 cfg3.N :=
  (keep_v126_14 m ρ c).trans (W14_arr m ρ c 6)

theorem fin_v126_of {G : Cn F S65536x32 .f32 → Cn F S64x32 .f32 → Cn F S1x64 .f32 → Cn F S1x64 .f32 → Cn F S1x64 .f32 → Cn F S1x64 .f32 → Cn F S65536x64 .f32}
    (hG : ∀ V : (c : Dev nD) → (b : Ref sig .tc) → Buf (Elt F) ((c : Thread nD τ).loc b), ∀ c : Dev nD,
      (dat3 V c).arrAt 6 cfg3.N = G (V c main_v112) (V c main_v114) (V c main_v119) (V c main_v125) (V c main_v115) (V c main_v116)) (c : Dev nD) :
    W29 m ρ c (Proc.devRef .tc main_v126) = G (W29 m ρ c (Proc.devRef .tc main_v112)) (W29 m ρ c (Proc.devRef .tc main_v114)) (W29 m ρ c (Proc.devRef .tc main_v119)) (W29 m ρ c (Proc.devRef .tc main_v125)) (W29 m ρ c (Proc.devRef .tc main_v115)) (W29 m ρ c (Proc.devRef .tc main_v116)) := by
  rw [fin_v126 m ρ c, hG (V13 m ρ) c, in3_v112 m ρ c, in3_v114 m ρ c, in3_v119 m ρ c, in3_v125 m ρ c, in3_v115 m ρ c, in3_v116 m ρ c]

theorem fin_v247 (c : Dev nD) : W29 m ρ c (Proc.devRef .tc main_v247) = concatCols (W29 m ρ c (Proc.devRef .tc main_v126)) (W29 m ρ c (Proc.devRef .tc main_v246)) := by
  rw [keep_v126_28 m ρ c, keep_v246_28 m ρ c]
  exact hostOps8_v247 (W28 m ρ c)

end Cert.KernelIdeal.HandVal

end
-- ==== Proof.KIVal2.lean ====
import proofs.«137221_j56719338111373_2_alg».proof.Proof.KIReg2
import proofs.«137221_j56719338111373_2_alg».proof.Proof.LibRun

set_option maxRecDepth 16384

noncomputable section

namespace Cert.KernelIdeal.HandVal

open Cert.Hand Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- The format changes are identities on the extended reals; the transpose swaps the weight's coordinates. -/
theorem k2_pay3_apply (x : Vec Ideal S8192x32 .f32) (w : Vec Ideal S64x32 .f32) (r : Fin 8192) (j : Fin 64) :
    k2_pay3 (F := Ideal) x w (ix2 r j) = ∑ k : Fin 32, x (ix2 r k) * w (ix2 j k) := by
  unfold k2_pay3
  exact (matmul_ix2 _ rfl none _ _ r j).trans (Finset.sum_congr rfl fun k _ => by
    rw [transpose_ix2_apply, truncf_apply, truncf_apply, shapeCast_self, shapeCast_self])

theorem k2_pay4_apply (x : Vec Ideal S8192x32 .f32) (w : Vec Ideal S64x32 .f32) (acc : Vec Ideal S1x64 .f32) (u : Fin 1) (j : Fin 64) :
    k2_pay4 (F := Ideal) x w acc (ix2 u j) = acc (ix2 u j) + ∑ r : Fin 8192, k2_pay3 (F := Ideal) x w (ix2 r j) := by
  unfold k2_pay4
  rw [shapeCast_self]
  exact addf_colsum_apply ..

theorem k2_pay5_apply (x : Vec Ideal S8192x32 .f32) (w : Vec Ideal S64x32 .f32) (acc : Vec Ideal S1x64 .f32) (u : Fin 1) (j : Fin 64) :
    k2_pay5 (F := Ideal) x w acc (ix2 u j)
      = acc (ix2 u j) + ∑ r : Fin 8192, k2_pay3 (F := Ideal) x w (ix2 r j) * k2_pay3 (F := Ideal) x w (ix2 r j) := by
  unfold k2_pay5
  rw [shapeCast_self]
  exact addf_colsum_apply ..

section Region2
variable (V : (c : Dev nD) → (b : Ref sig .tc) → Buf (Elt Ideal) ((c : Thread nD τ).loc b))

theorem idx2_all : ∀ t : Fin cfg2.N, win2_0.index t (0 : Fin 2) = t.val ∧ win2_0.index t (1 : Fin 2) = 0
    ∧ win2_1.index t (0 : Fin 2) = 0 ∧ win2_1.index t (1 : Fin 2) = 0
    ∧ (∀ a, win2_2.index t a * S1x64.size a = 0) ∧ ∀ a, win2_3.index t a * S1x64.size a = 0 :=
  (by decide +kernel : ∀ t : Fin grid2.N, _)

def nf2 (c : Dev nD) : Vec Ideal S65536x32 .f32 := V c (Pipeline.arrRef spec2 0)
def w2 (c : Dev nD) : Vec Ideal S64x32 .f32 := V c (Pipeline.arrRef spec2 1)

def o2 (c : Dev nD) (R : Fin 65536) (j : Fin 64) : EReal := ∑ k : Fin 32, nf2 V c (ix2 R k) * w2 V c (ix2 j k)

theorem blk_o2 (c : Dev nD) (t : Fin cfg2.N) (r : Fin 8192) (j : Fin 64) (R : Fin 65536) (hR : R.val = r.val + 8192 * t.val) :
    k2_pay3 (F := Ideal) (iblk2 V c 0 t) (iblk2 V c 1 t) (ix2 r j) = o2 V c R j := by
  obtain ⟨h0, h1, h2, h3, -⟩ := idx2_all t
  rw [k2_pay3_apply]
  refine Finset.sum_congr rfl fun k _ => ?_
  show nf2 V c (((cfg2.win 0).blk t).view.emb (ix2 r k)) * w2 V c (((cfg2.win 1).blk t).view.emb (ix2 j k)) = _
  congr 2 <;> refine Shape.idx_ext₂ ?_ ?_
  · show win2_0.index t 0 * 8192 + 1 * r.val = R.val; omega
  · show win2_0.index t 1 * 32 + 1 * k.val = k.val; omega
  · show win2_1.index t 0 * 64 + 1 * j.val = j.val; omega
  · show win2_1.index t 1 * 32 + 1 * k.val = k.val; omega

def sum2 (c : Dev nD) : Vec Ideal S1x64 .f32 := fun i => ∑ R : Fin 65536, o2 V c R (i 1)
def sq2 (c : Dev nD) : Vec Ideal S1x64 .f32 := fun i => ∑ R : Fin 65536, o2 V c R (i 1) * o2 V c R (i 1)

theorem last2_2 (c : Dev nD) (t : Fin cfg2.N) (h7 : t.val = 7) : (outsAt2 V c t.val t.isLt).1 = sum2 V c := by
  obtain ⟨n, hn⟩ := t
  dsimp only at h7
  subst h7
  funext i
  obtain ⟨u, j, rfl⟩ : ∃ (u : Fin 1) (j : Fin 64), i = ix2 u j := ⟨i 0, i 1, eq_ix2 i⟩
  exact run_blocks (a := 8) (b := 8192) N_2 (fun n h => (outsAt2 V c n h).1 (ix2 u j))
    (fun n h => ∑ r : Fin 8192, k2_pay3 (F := Ideal) (iblk2 V c 0 ⟨n, h⟩) (iblk2 V c 1 ⟨n, h⟩) (ix2 r j)) (fun R => o2 V c R j)
    (fun n h => Finset.sum_congr rfl fun r _ => blk_o2 V c ⟨n, h⟩ r j _ rfl)
    (fun h => (k2_pay4_apply _ _ _ u j).trans (by rw [show k2_pay1 (F := Ideal) (ix2 u j) = 0 from Ideal.ofBits_zero_f32, zero_add]))
    (fun n h => k2_pay4_apply _ _ _ u j) 7 hn rfl

theorem last2_3 (c : Dev nD) (t : Fin cfg2.N) (h7 : t.val = 7) : (outsAt2 V c t.val t.isLt).2 = sq2 V c := by
  obtain ⟨n, hn⟩ := t
  dsimp only at h7
  subst h7
  funext i
  obtain ⟨u, j, rfl⟩ : ∃ (u : Fin 1) (j : Fin 64), i = ix2 u j := ⟨i 0, i 1, eq_ix2 i⟩
  exact run_blocks (a := 8) (b := 8192) N_2 (fun n h => (outsAt2 V c n h).2 (ix2 u j))
    (fun n h => ∑ r : Fin 8192, k2_pay3 (F := Ideal) (iblk2 V c 0 ⟨n, h⟩) (iblk2 V c 1 ⟨n, h⟩) (ix2 r j)
      * k2_pay3 (F := Ideal) (iblk2 V c 0 ⟨n, h⟩) (iblk2 V c 1 ⟨n, h⟩) (ix2 r j)) (fun R => o2 V c R j * o2 V c R j)
    (fun n h => Finset.sum_congr rfl fun r _ => congrArg (fun x => x * x) (blk_o2 V c ⟨n, h⟩ r j _ rfl))
    (fun h => (k2_pay5_apply _ _ _ u j).trans (by rw [show k2_pay2 (F := Ideal) (ix2 u j) = 0 from Ideal.ofBits_zero_f32, zero_add]))
    (fun n h => k2_pay5_apply _ _ _ u j) 7 hn rfl

theorem mem_blk2_2 (t : Fin cfg2.N) (i : S1x64.Idx) : i ∈ ((cfg2.win 2).blk t).view.set := by
  show i ∈ ((View.whole main_v117_0).slice (win2_2.rect t)).set
  rw [View.set_slice_whole]
  exact View.mem_set_unit_zero (funext (idx2_all t).2.2.2.2.1) _ i

theorem mem_blk2_3 (t : Fin cfg2.N) (i : S1x64.Idx) : i ∈ ((cfg2.win 3).blk t).view.set := by
  show i ∈ ((View.whole main_v117_1).slice (win2_3.rect t)).set
  rw [View.set_slice_whole]
  exact View.mem_set_unit_zero (funext (idx2_all t).2.2.2.2.2) _ i

theorem flushed2_2 (c : Dev nD) (t : Fin cfg2.N) (hf : (cfg2.win 2).flush t = true) :
    (dat2 V c).flushed 2 t = ((cfg2.win 2).blk t).view.read (Elt Ideal) (sum2 V c) := by
  have hN : cfg2.N = 8 := N_2
  have h7 : t.val = 7 := by have := (flush2_2 t).mp hf; have := t.isLt; omega
  show (cfg2.win 2).cut (grid2.coords t) ((dat2 V c).after 2 t) = _
  rw [after2_2, last2_2 V c t h7]
  exact (Memref.read_access_unit_zero (Elt Ideal) main_v117_0 (funext (idx2_all t).2.2.2.2.1) _ (sum2 V c)).symm

theorem flushed2_3 (c : Dev nD) (t : Fin cfg2.N) (hf : (cfg2.win 3).flush t = true) :
    (dat2 V c).flushed 3 t = ((cfg2.win 3).blk t).view.read (Elt Ideal) (sq2 V c) := by
  have hN : cfg2.N = 8 := N_2
  have h7 : t.val = 7 := by have := (flush2_3 t).mp hf; have := t.isLt; omega
  show (cfg2.win 3).cut (grid2.coords t) ((dat2 V c).after 3 t) = _
  rw [after2_3, last2_3 V c t h7]
  exact (Memref.read_access_unit_zero (Elt Ideal) main_v117_1 (funext (idx2_all t).2.2.2.2.2) _ (sq2 V c)).symm

theorem arrAt2_2 (c : Dev nD) : (dat2 V c).arrAt 2 cfg2.N = sum2 V c :=
  (dat2 V c).arrAt_eq_of_cover 2 (sum2 V c) (flushed2_2 V c) fun i => ⟨t2_7, (flush2_2 t2_7).mpr rfl, mem_blk2_2 t2_7 i⟩

theorem arrAt2_3 (c : Dev nD) : (dat2 V c).arrAt 3 cfg2.N = sq2 V c :=
  (dat2 V c).arrAt_eq_of_cover 3 (sq2 V c) (flushed2_3 V c) fun i => ⟨t2_7, (flush2_3 t2_7).mpr rfl, mem_blk2_3 t2_7 i⟩

end Region2

end Cert.KernelIdeal.HandVal

end
-- ==== Proof.KIVal3.lean ====
import proofs.«137221_j56719338111373_2_alg».proof.Proof.KIReg3
import proofs.«137221_j56719338111373_2_alg».proof.Proof.LibRun

set_option maxRecDepth 16384

noncomputable section

namespace Cert.KernelIdeal.HandVal

open Cert.Hand Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

def normAt3 (nf : Vec Ideal S65536x32 .f32) (w : Vec Ideal S64x32 .f32) (mean var g b : Vec Ideal S1x64 .f32)
    (r : Fin 65536) (j : Fin 64) : EReal :=
  max (((∑ k : Fin 32, nf (ix2 r k) * w (ix2 j k)) - mean (ix2 (0 : Fin 1) j))
      * Ideal.rsqrt (var (ix2 (0 : Fin 1) j) + Ideal.ofBits .f32 0x3727C5AC#32)
      * g (ix2 (0 : Fin 1) j) + b (ix2 (0 : Fin 1) j)) 0

def norm3 (nf : Vec Ideal S65536x32 .f32) (w : Vec Ideal S64x32 .f32) (mean var g b : Vec Ideal S1x64 .f32) :
    Vec Ideal S65536x64 .f32 :=
  fun i => normAt3 nf w mean var g b (i 0) (i 1)

/-- The payload at y is the whole-array function at (r, y 1) when block row y 0 is array row r: the matmul is the exact sum. -/
theorem pay3_eq_normAt3 (nf : Vec Ideal S65536x32 .f32) (w : Vec Ideal S64x32 .f32) (mean var g b : Vec Ideal S1x64 .f32)
    (x0 : Vec Ideal S8192x32 .f32) (x1 : Vec Ideal S64x32 .f32) (x2 x3 x4 x5 : Vec Ideal S1x64 .f32) (y : S8192x64.Idx) (r : Fin 65536)
    (h0 : ∀ k : Fin 32, x0 (ix2 (y 0) k) = nf (ix2 r k)) (h1 : x1 = w) (h2 : x2 = mean) (h3 : x3 = var) (h4 : x4 = g) (h5 : x5 = b) :
    k3_pay1 x0 x1 x2 x3 x4 x5 y = normAt3 nf w mean var g b r (y 1) := by
  subst h1 h2 h3 h4 h5
  obtain ⟨p, q, rfl⟩ : ∃ (p : Fin 8192) (q : Fin 64), y = ix2 p q := ⟨y 0, y 1, eq_ix2 y⟩
  have htr := fun k : Fin 32 => transpose_ix2_apply (truncf (F := Ideal) .bf16 x1 bitsLt_bf16_f32) transposes_S64x32_p1_0_S32x64 k q
  unfold k3_pay1 normAt3
  simp only [shapeCast_self, matmul]
  rw [maximumf_apply, addf_apply, mulf_apply, mulf_apply, subf_apply, matmul_ix2 dot_S8192x32_S32x64_S8192x64_1_0_0_1_n_n rfl,
    broadcastTo_1b_ab_apply, broadcastTo_1b_ab_apply, broadcastTo_1b_ab_apply, broadcastTo_1b_ab_apply,
    show broadcast S8192x64 (FloatOps.ofBits (F := Ideal) .f32 0x00000000#32) (ix2 p q) = (0 : EReal) from Ideal.ofBits_zero_f32]
  simp only [htr, truncf_apply, h0]
  rfl

section Blocks
variable (V : (c : Dev nD) → (b : Ref sig .tc) → Buf (Elt Ideal) ((c : Thread nD τ).loc b))

theorem hz3 : (![0, 0] : Fin 2 → Nat) = fun _ => 0 := funext fun a => by fin_cases a <;> rfl

theorem idx_facts3 : ∀ t : Fin cfg3.N, win3_0.index t (0 : Fin 2) = t.val ∧ win3_0.index t (1 : Fin 2) = 0
    ∧ (∀ a, win3_1.index t a = 0) ∧ (∀ a, win3_2.index t a = 0) ∧ (∀ a, win3_3.index t a = 0)
    ∧ (∀ a, win3_4.index t a = 0) ∧ (∀ a, win3_5.index t a = 0)
    ∧ win3_6.index t (0 : Fin 2) = t.val ∧ win3_6.index t (1 : Fin 2) = 0 :=
  (by decide +kernel : ∀ t : Fin grid3.N, _)

abbrev G3 (c : Dev nD) : Vec Ideal S65536x64 .f32 :=
  norm3 (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))

theorem iblk3_1_eq (c : Dev nD) (t : Fin cfg3.N) : iblk3 V c 1 t = V c (Pipeline.arrRef spec3 1) :=
  funext fun y => congrArg (V c (Pipeline.arrRef spec3 1)) (emb_eq_of_index_zero win3_1 t (idx_facts3 t).2.2.1 y y fun _ => rfl)
theorem iblk3_2_eq (c : Dev nD) (t : Fin cfg3.N) : iblk3 V c 2 t = V c (Pipeline.arrRef spec3 2) :=
  funext fun y => congrArg (V c (Pipeline.arrRef spec3 2)) (emb_eq_of_index_zero win3_2 t (idx_facts3 t).2.2.2.1 y y fun _ => rfl)
theorem iblk3_3_eq (c : Dev nD) (t : Fin cfg3.N) : iblk3 V c 3 t = V c (Pipeline.arrRef spec3 3) :=
  funext fun y => congrArg (V c (Pipeline.arrRef spec3 3)) (emb_eq_of_index_zero win3_3 t (idx_facts3 t).2.2.2.2.1 y y fun _ => rfl)
theorem iblk3_4_eq (c : Dev nD) (t : Fin cfg3.N) : iblk3 V c 4 t = V c (Pipeline.arrRef spec3 4) :=
  funext fun y => congrArg (V c (Pipeline.arrRef spec3 4)) (emb_eq_of_index_zero win3_4 t (idx_facts3 t).2.2.2.2.2.1 y y fun _ => rfl)
theorem iblk3_5_eq (c : Dev nD) (t : Fin cfg3.N) : iblk3 V c 5 t = V c (Pipeline.arrRef spec3 5) :=
  funext fun y => congrArg (V c (Pipeline.arrRef spec3 5)) (emb_eq_of_index_zero win3_5 t (idx_facts3 t).2.2.2.2.2.2.1 y y fun _ => rfl)

theorem after3_6_eq (c : Dev nD) (t : Fin cfg3.N) : (dat3 V c).after 6 t
    = k3_pay1 (iblk3 V c 0 t) (iblk3 V c 1 t) (iblk3 V c 2 t) (iblk3 V c 3 t) (iblk3 V c 4 t) (iblk3 V c 5 t) := by
  rw [after3_6]
  unfold out3_6
  rw [View.canon_unit_zero hz3]
  simp only [View.ld_unit_zero (S := S8192x32) hz3, View.ld_unit_zero (S := S64x32) hz3, View.ld_unit_zero (S := S1x64) hz3]

theorem flushed3_6_eq (c : Dev nD) (t : Fin cfg3.N) :
    (dat3 V c).flushed 6 t = ((cfg3.win 6).blk t).view.read (Elt Ideal) (G3 V c) := by
  obtain ⟨e0, e1, -, -, -, -, -, e60, e61⟩ := idx_facts3 t
  show (cfg3.win 6).cut (grid3.coords t) ((dat3 V c).after 6 t) = _
  rw [after3_6_eq]
  funext j
  show k3_pay1 (F := Ideal) _ _ _ _ _ _ ((cfg3.win 6).xinj (grid3.coords t) j) = G3 V c (((cfg3.win 6).blk t).view.emb j)
  refine (pay3_eq_normAt3 (V c (Pipeline.arrRef spec3 0)) _ _ _ _ _ _ _ _ _ _ _ _ ((((cfg3.win 6).blk t).view.emb j) 0) (fun k => ?_)
    (iblk3_1_eq V c t) (iblk3_2_eq V c t) (iblk3_3_eq V c t) (iblk3_4_eq V c t) (iblk3_5_eq V c t)).trans ?_
  · show V c (Pipeline.arrRef spec3 0) (((cfg3.win 0).blk t).view.emb (ix2 _ k)) = _
    exact congrArg _ (Shape.idx_ext₂
      (by show win3_0.index t 0 * 8192 + 1 * (j 0).val = win3_6.index t 0 * 8192 + 1 * (j 0).val; omega)
      (by show win3_0.index t 1 * 32 + 1 * k.val = k.val; omega))
  · exact congrArg (normAt3 _ _ _ _ _ _ _) (Fin.ext (by show (j 1).val = win3_6.index t 1 * 64 + 1 * (j 1).val; omega))

theorem cover3_arr (i : S65536x64.Idx) :
    ∃ t : Fin cfg3.N, (cfg3.win 6).flush t = true ∧ i ∈ ((cfg3.win 6).blk t).view.set := by
  have hi0 := idx2_lt0 i
  have hi1 := idx2_lt1 i
  have hN : (i 0).val / 8192 < cfg3.N := by show _ < grid3.N; rw [N_3]; omega
  obtain ⟨-, -, -, -, -, -, -, e60, e61⟩ := idx_facts3 ⟨(i 0).val / 8192, hN⟩
  refine ⟨⟨(i 0).val / 8192, hN⟩, flush3_6 _, ?_⟩
  show i ∈ ((View.whole (Pipeline.arrRef spec3 6)).slice (win3_6.rect ⟨(i 0).val / 8192, hN⟩)).set
  rw [View.set_slice_whole, Rect.mem_set_unit]
  intro a
  match a with
  | ⟨0, _⟩ =>
    have e : win3_6.index ⟨(i 0).val / 8192, hN⟩ (0 : Fin 2) = (i 0).val / 8192 := e60
    show win3_6.index _ (0 : Fin 2) * 8192 ≤ (i 0).val ∧ (i 0).val < win3_6.index _ (0 : Fin 2) * 8192 + 8192
    omega
  | ⟨1, _⟩ =>
    show win3_6.index _ (1 : Fin 2) * 64 ≤ (i 1).val ∧ (i 1).val < win3_6.index _ (1 : Fin 2) * 64 + 64
    omega

theorem arrAt3_6 (c : Dev nD) : (dat3 V c).arrAt 6 cfg3.N = G3 V c :=
  (dat3 V c).arrAt_eq_of_cover 6 (G3 V c) (fun t _ => flushed3_6_eq V c t) cover3_arr

end Blocks

end Cert.KernelIdeal.HandVal

end
-- ==== Proof.KIVal7.lean ====
import proofs.«137221_j56719338111373_2_alg».proof.Proof.KIReg7
import proofs.«137221_j56719338111373_2_alg».proof.Proof.LibRun

set_option maxRecDepth 16384

noncomputable section

namespace Cert.KernelIdeal.HandVal

open Cert.Hand Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

def normAt7 (nf : Vec Ideal S65536x32 .f32) (w : Vec Ideal S64x32 .f32) (mean var g b : Vec Ideal S1x64 .f32)
    (r : Fin 65536) (j : Fin 64) : EReal :=
  max (((∑ k : Fin 32, nf (ix2 r k) * w (ix2 j k)) - mean (ix2 (0 : Fin 1) j))
      * Ideal.rsqrt (var (ix2 (0 : Fin 1) j) + Ideal.ofBits .f32 0x3727C5AC#32)
      * g (ix2 (0 : Fin 1) j) + b (ix2 (0 : Fin 1) j)) 0

def norm7 (nf : Vec Ideal S65536x32 .f32) (w : Vec Ideal S64x32 .f32) (mean var g b : Vec Ideal S1x64 .f32) :
    Vec Ideal S65536x64 .f32 :=
  fun i => normAt7 nf w mean var g b (i 0) (i 1)

/-- The payload at y is the whole-array function at (r, y 1) when block row y 0 is array row r: the matmul is the exact sum. -/
theorem pay7_eq_normAt7 (nf : Vec Ideal S65536x32 .f32) (w : Vec Ideal S64x32 .f32) (mean var g b : Vec Ideal S1x64 .f32)
    (x0 : Vec Ideal S8192x32 .f32) (x1 : Vec Ideal S64x32 .f32) (x2 x3 x4 x5 : Vec Ideal S1x64 .f32) (y : S8192x64.Idx) (r : Fin 65536)
    (h0 : ∀ k : Fin 32, x0 (ix2 (y 0) k) = nf (ix2 r k)) (h1 : x1 = w) (h2 : x2 = mean) (h3 : x3 = var) (h4 : x4 = g) (h5 : x5 = b) :
    k7_pay1 x0 x1 x2 x3 x4 x5 y = normAt7 nf w mean var g b r (y 1) := by
  subst h1 h2 h3 h4 h5
  obtain ⟨p, q, rfl⟩ : ∃ (p : Fin 8192) (q : Fin 64), y = ix2 p q := ⟨y 0, y 1, eq_ix2 y⟩
  have htr := fun k : Fin 32 => transpose_ix2_apply (truncf (F := Ideal) .bf16 x1 bitsLt_bf16_f32) transposes_S64x32_p1_0_S32x64 k q
  unfold k7_pay1 normAt7
  simp only [shapeCast_self, matmul]
  rw [maximumf_apply, addf_apply, mulf_apply, mulf_apply, subf_apply, matmul_ix2 dot_S8192x32_S32x64_S8192x64_1_0_0_1_n_n rfl,
    broadcastTo_1b_ab_apply, broadcastTo_1b_ab_apply, broadcastTo_1b_ab_apply, broadcastTo_1b_ab_apply,
    show broadcast S8192x64 (FloatOps.ofBits (F := Ideal) .f32 0x00000000#32) (ix2 p q) = (0 : EReal) from Ideal.ofBits_zero_f32]
  simp only [htr, truncf_apply, h0]
  rfl

section Blocks
variable (V : (c : Dev nD) → (b : Ref sig .tc) → Buf (Elt Ideal) ((c : Thread nD τ).loc b))

theorem hz7 : (![0, 0] : Fin 2 → Nat) = fun _ => 0 := funext fun a => by fin_cases a <;> rfl

theorem idx_facts7 : ∀ t : Fin cfg7.N, win7_0.index t (0 : Fin 2) = t.val ∧ win7_0.index t (1 : Fin 2) = 0
    ∧ (∀ a, win7_1.index t a = 0) ∧ (∀ a, win7_2.index t a = 0) ∧ (∀ a, win7_3.index t a = 0)
    ∧ (∀ a, win7_4.index t a = 0) ∧ (∀ a, win7_5.index t a = 0)
    ∧ win7_6.index t (0 : Fin 2) = t.val ∧ win7_6.index t (1 : Fin 2) = 0 :=
  (by decide +kernel : ∀ t : Fin grid7.N, _)

abbrev G7 (c : Dev nD) : Vec Ideal S65536x64 .f32 :=
  norm7 (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5))

theorem iblk7_1_eq (c : Dev nD) (t : Fin cfg7.N) : iblk7 V c 1 t = V c (Pipeline.arrRef spec7 1) :=
  funext fun y => congrArg (V c (Pipeline.arrRef spec7 1)) (emb_eq_of_index_zero win7_1 t (idx_facts7 t).2.2.1 y y fun _ => rfl)
theorem iblk7_2_eq (c : Dev nD) (t : Fin cfg7.N) : iblk7 V c 2 t = V c (Pipeline.arrRef spec7 2) :=
  funext fun y => congrArg (V c (Pipeline.arrRef spec7 2)) (emb_eq_of_index_zero win7_2 t (idx_facts7 t).2.2.2.1 y y fun _ => rfl)
theorem iblk7_3_eq (c : Dev nD) (t : Fin cfg7.N) : iblk7 V c 3 t = V c (Pipeline.arrRef spec7 3) :=
  funext fun y => congrArg (V c (Pipeline.arrRef spec7 3)) (emb_eq_of_index_zero win7_3 t (idx_facts7 t).2.2.2.2.1 y y fun _ => rfl)
theorem iblk7_4_eq (c : Dev nD) (t : Fin cfg7.N) : iblk7 V c 4 t = V c (Pipeline.arrRef spec7 4) :=
  funext fun y => congrArg (V c (Pipeline.arrRef spec7 4)) (emb_eq_of_index_zero win7_4 t (idx_facts7 t).2.2.2.2.2.1 y y fun _ => rfl)
theorem iblk7_5_eq (c : Dev nD) (t : Fin cfg7.N) : iblk7 V c 5 t = V c (Pipeline.arrRef spec7 5) :=
  funext fun y => congrArg (V c (Pipeline.arrRef spec7 5)) (emb_eq_of_index_zero win7_5 t (idx_facts7 t).2.2.2.2.2.2.1 y y fun _ => rfl)

theorem after7_6_eq (c : Dev nD) (t : Fin cfg7.N) : (dat7 V c).after 6 t
    = k7_pay1 (iblk7 V c 0 t) (iblk7 V c 1 t) (iblk7 V c 2 t) (iblk7 V c 3 t) (iblk7 V c 4 t) (iblk7 V c 5 t) := by
  rw [after7_6]
  unfold out7_6
  rw [View.canon_unit_zero hz7]
  simp only [View.ld_unit_zero (S := S8192x32) hz7, View.ld_unit_zero (S := S64x32) hz7, View.ld_unit_zero (S := S1x64) hz7]

theorem flushed7_6_eq (c : Dev nD) (t : Fin cfg7.N) :
    (dat7 V c).flushed 6 t = ((cfg7.win 6).blk t).view.read (Elt Ideal) (G7 V c) := by
  obtain ⟨e0, e1, -, -, -, -, -, e60, e61⟩ := idx_facts7 t
  show (cfg7.win 6).cut (grid7.coords t) ((dat7 V c).after 6 t) = _
  rw [after7_6_eq]
  funext j
  show k7_pay1 (F := Ideal) _ _ _ _ _ _ ((cfg7.win 6).xinj (grid7.coords t) j) = G7 V c (((cfg7.win 6).blk t).view.emb j)
  refine (pay7_eq_normAt7 (V c (Pipeline.arrRef spec7 0)) _ _ _ _ _ _ _ _ _ _ _ _ ((((cfg7.win 6).blk t).view.emb j) 0) (fun k => ?_)
    (iblk7_1_eq V c t) (iblk7_2_eq V c t) (iblk7_3_eq V c t) (iblk7_4_eq V c t) (iblk7_5_eq V c t)).trans ?_
  · show V c (Pipeline.arrRef spec7 0) (((cfg7.win 0).blk t).view.emb (ix2 _ k)) = _
    exact congrArg _ (Shape.idx_ext₂
      (by show win7_0.index t 0 * 8192 + 1 * (j 0).val = win7_6.index t 0 * 8192 + 1 * (j 0).val; omega)
      (by show win7_0.index t 1 * 32 + 1 * k.val = k.val; omega))
  · exact congrArg (normAt7 _ _ _ _ _ _ _) (Fin.ext (by show (j 1).val = win7_6.index t 1 * 64 + 1 * (j 1).val; omega))

theorem cover7_arr (i : S65536x64.Idx) :
    ∃ t : Fin cfg7.N, (cfg7.win 6).flush t = true ∧ i ∈ ((cfg7.win 6).blk t).view.set := by
  have hi0 := idx2_lt0 i
  have hi1 := idx2_lt1 i
  have hN : (i 0).val / 8192 < cfg7.N := by show _ < grid7.N; rw [N_7]; omega
  obtain ⟨-, -, -, -, -, -, -, e60, e61⟩ := idx_facts7 ⟨(i 0).val / 8192, hN⟩
  refine ⟨⟨(i 0).val / 8192, hN⟩, flush7_6 _, ?_⟩
  show i ∈ ((View.whole (Pipeline.arrRef spec7 6)).slice (win7_6.rect ⟨(i 0).val / 8192, hN⟩)).set
  rw [View.set_slice_whole, Rect.mem_set_unit]
  intro a
  match a with
  | ⟨0, _⟩ =>
    have e : win7_6.index ⟨(i 0).val / 8192, hN⟩ (0 : Fin 2) = (i 0).val / 8192 := e60
    show win7_6.index _ (0 : Fin 2) * 8192 ≤ (i 0).val ∧ (i 0).val < win7_6.index _ (0 : Fin 2) * 8192 + 8192
    omega
  | ⟨1, _⟩ =>
    show win7_6.index _ (1 : Fin 2) * 64 ≤ (i 1).val ∧ (i 1).val < win7_6.index _ (1 : Fin 2) * 64 + 64
    omega

theorem arrAt7_6 (c : Dev nD) : (dat7 V c).arrAt 6 cfg7.N = G7 V c :=
  (dat7 V c).arrAt_eq_of_cover 6 (G7 V c) (fun t _ => flushed7_6_eq V c t) cover7_arr

end Blocks

end Cert.KernelIdeal.HandVal

end
-- ==== Proof.SpecFinite.lean ====
import Idealize.ShloMosaic.PureOps.Ideal
import Idealize.ShloMosaic.PureOps.Ideal.Laws
import Mathlib.Data.EReal.Inv
import Mathlib.Data.Finset.Fold
import Mathlib.Algebra.BigOperators.Group.Finset.Basic
import Mathlib.Analysis.Real.Sqrt
import Mathlib.Tactic.NormNum
import Mathlib.Tactic.Positivity

noncomputable section

namespace Cert.Spec

open Idealize.ShloMosaic
open scoped BigOperators

def IsReal (x : EReal) : Prop := ∃ r : ℝ, x = (r : EReal)

theorem isReal_zero : IsReal 0 := ⟨0, EReal.coe_zero.symm⟩

theorem IsReal.ne_top {x : EReal} (hx : IsReal x) : x ≠ ⊤ := by
  obtain ⟨r, rfl⟩ := hx; exact EReal.coe_ne_top r

theorem IsReal.ne_bot {x : EReal} (hx : IsReal x) : x ≠ ⊥ := by
  obtain ⟨r, rfl⟩ := hx; exact EReal.coe_ne_bot r

theorem isReal_of_ne {x : EReal} (h : x ≠ ⊤) (h' : x ≠ ⊥) : IsReal x :=
  ⟨x.toReal, (EReal.coe_toReal h h').symm⟩

theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem sum_coe {ι : Type*} (s : Finset ι) (r : ι → ℝ) :
    ∑ i ∈ s, (r i : EReal) = ((∑ i ∈ s, r i : ℝ) : EReal) := by
  classical
  induction s using Finset.induction_on with
  | empty => simp
  | insert a s ha ih => rw [Finset.sum_insert ha, Finset.sum_insert ha, ih, EReal.coe_add]

theorem div_coe (a c : ℝ) (hc : c ≠ 0) : Ideal.div (a : EReal) (c : EReal) = ((a / c : ℝ) : EReal) := by
  unfold Ideal.div
  rw [if_neg (by exact_mod_cast hc), ← EReal.coe_inv, ← EReal.coe_mul, div_eq_mul_inv]

theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_max {x y : EReal} (hx : IsReal x) (hy : IsReal y) : IsReal (max x y) := by
  obtain ⟨a, rfl⟩ := hx; obtain ⟨b, rfl⟩ := hy; exact ⟨_, max_coe a b⟩

theorem isReal_max_zero {x : EReal} (hx : IsReal x) : IsReal (max x 0) := isReal_max hx isReal_zero

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact isReal_add (h a (Finset.mem_insert_self a s)) (ih fun i hi => h i (Finset.mem_insert_of_mem hi))

theorem isReal_div {x y : EReal} (hx : IsReal x) (hy : IsReal y) (h0 : y ≠ 0) : IsReal (Ideal.div x y) := by
  obtain ⟨a, rfl⟩ := hx; obtain ⟨c, rfl⟩ := hy
  exact ⟨a / c, div_coe a c (by intro h; exact h0 (by rw [h, EReal.coe_zero]))⟩

theorem isReal_fold_max_bot {ι : Type*} (s : Finset ι) (hs : s.Nonempty) (f : ι → EReal)
    (h : ∀ i ∈ s, IsReal (f i)) : IsReal (s.fold max ⊥ f) := by
  classical
  refine isReal_of_ne ?_ ?_
  · intro htop
    have hle : ⊤ ≤ s.fold max ⊥ f := htop.ge
    rcases (Finset.le_fold_max _).mp hle with hb | ⟨i, hi, hfi⟩
    · exact absurd (top_le_iff.mp hb) bot_ne_top
    · exact (h i hi).ne_top (top_le_iff.mp hfi)
  · intro hbot
    obtain ⟨a, ha⟩ := hs
    have hle : f a ≤ s.fold max ⊥ f := (Finset.le_fold_max _).mpr (Or.inr ⟨a, ha, le_rfl⟩)
    rw [hbot] at hle
    exact (h a ha).ne_bot (le_bot_iff.mp hle)

theorem isReal_dot {κ : Type*} (s : Finset κ) (a b : κ → EReal) (ha : ∀ k ∈ s, IsReal (a k))
    (hb : ∀ k ∈ s, IsReal (b k)) : IsReal (∑ k ∈ s, a k * b k) :=
  isReal_sum s _ fun k hk => isReal_mul (ha k hk) (hb k hk)

theorem ofBits_16384 : Ideal.ofBits .f32 0x46800000#32 = ((16384 : ℝ) : EReal) := by
  simp [Ideal.ofBits, Ideal.ieee, -EReal.coe_mul]; norm_num

theorem ofBits_65536 : Ideal.ofBits .f32 0x47800000#32 = ((65536 : ℝ) : EReal) := by
  simp [Ideal.ofBits, Ideal.ieee, -EReal.coe_mul]; norm_num

theorem ofBits_8 : Ideal.ofBits .f32 0x41000000#32 = ((8 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

def eps : ℝ := 10995116 / 2 ^ 40

theorem eps_pos : 0 < eps := by unfold eps; positivity

theorem ofBits_eps : Ideal.ofBits .f32 0x3727C5AC#32 = (eps : EReal) := by
  simp [Ideal.ofBits, Ideal.ieee, -EReal.coe_mul, eps]; norm_num

theorem rsqrt_add_eps_coe (r : ℝ) (h0 : 0 ≤ r) :
    Ideal.rsqrt ((r : EReal) + Ideal.ofBits .f32 0x3727C5AC#32) = (((Real.sqrt (r + eps))⁻¹ : ℝ) : EReal) := by
  rw [ofBits_eps, ← EReal.coe_add]
  exact rsqrt_coe_pos _ (add_pos_of_nonneg_of_pos h0 eps_pos)

theorem isReal_rsqrt_add_eps {x : EReal} (hx : IsReal x) (h0 : 0 ≤ x) :
    IsReal (Ideal.rsqrt (x + Ideal.ofBits .f32 0x3727C5AC#32)) := by
  obtain ⟨r, rfl⟩ := hx
  exact ⟨_, rsqrt_add_eps_coe r (EReal.coe_nonneg.mp h0)⟩

theorem ofBits_neg_inf : Ideal.ofBits .f32 0xFF800000#32 = ⊥ := by simp [Ideal.ofBits, Ideal.ieee]

theorem ofBits_zero_bf16 : Ideal.ofBits .bf16 0x0000#16 = 0 := by simp [Ideal.ofBits, Ideal.ieee]

theorem cmp_ogt_of_lt {x y : EReal} (h : y < x) : Ideal.cmp .ogt x y = 1#1 := by
  simp [Ideal.cmp, h]

end Cert.Spec

end
-- ==== Proof.SpecBN.lean ====
import Idealize.ShloMosaic.PureOps.Ideal
import Idealize.ShloMosaic.PureOps.Ideal.Laws
import proofs.«137221_j56719338111373_2_alg».proof.Proof.SpecFinite
import Mathlib.Algebra.BigOperators.Ring.Finset
import Mathlib.Algebra.Order.BigOperators.Group.Finset
import Mathlib.Tactic.Ring
import Mathlib.Tactic.FieldSimp
import Mathlib.Tactic.Linarith
import Mathlib.Tactic.Positivity

noncomputable section

namespace Cert.Spec

open Idealize.ShloMosaic
open scoped BigOperators

theorem real_sum_sq_dev {ι : Type*} (s : Finset ι) (r : ι → ℝ) (m : ℝ) :
    ∑ i ∈ s, (r i - m) * (r i - m) = ∑ i ∈ s, r i * r i - 2 * m * ∑ i ∈ s, r i + (s.card : ℝ) * (m * m) := by
  have h : ∀ i ∈ s, (r i - m) * (r i - m) = r i * r i - 2 * m * r i + m * m := fun i _ => by ring
  rw [Finset.sum_congr rfl h, Finset.sum_add_distrib, Finset.sum_sub_distrib, ← Finset.mul_sum,
    Finset.sum_const, nsmul_eq_mul]

theorem real_variance {ι : Type*} (s : Finset ι) (r : ι → ℝ) (n : ℝ) (hn : n = (s.card : ℝ)) (hpos : 0 < n) :
    (∑ i ∈ s, r i * r i) / n - (∑ i ∈ s, r i) / n * ((∑ i ∈ s, r i) / n)
      = (∑ i ∈ s, (r i - (∑ i ∈ s, r i) / n) * (r i - (∑ i ∈ s, r i) / n)) / n := by
  rw [real_sum_sq_dev, ← hn]
  field_simp
  ring

theorem real_variance_nonneg {ι : Type*} (s : Finset ι) (r : ι → ℝ) (m n : ℝ) (hpos : 0 < n) :
    0 ≤ (∑ i ∈ s, (r i - m) * (r i - m)) / n :=
  div_nonneg (Finset.sum_nonneg fun i _ => mul_self_nonneg _) hpos.le

section
variable {ι : Type*} (s : Finset ι) (o : ι → EReal) (c : EReal)

def mean : EReal := Ideal.div (∑ i ∈ s, o i) c

def var2 : EReal := Ideal.div (∑ i ∈ s, (o i - mean s o c) * (o i - mean s o c)) c

def var1 : EReal :=
  max (Ideal.div (∑ i ∈ s, o i * o i) c - mean s o c * mean s o c) 0

variable {s o c}

theorem exists_real_family (ho : ∀ i ∈ s, IsReal (o i)) : ∃ r : ι → ℝ, ∀ i ∈ s, o i = (r i : EReal) :=
  ⟨fun i => (o i).toReal, fun i hi => (EReal.coe_toReal (ho i hi).ne_top (ho i hi).ne_bot).symm⟩

theorem mean_coe (r : ι → ℝ) (hr : ∀ i ∈ s, o i = (r i : EReal)) (n : ℝ) (hc : c = (n : EReal)) (hn : n ≠ 0) :
    mean s o c = (((∑ i ∈ s, r i) / n : ℝ) : EReal) := by
  rw [mean, Finset.sum_congr rfl hr, sum_coe, hc, div_coe _ _ hn]

theorem var2_coe (r : ι → ℝ) (hr : ∀ i ∈ s, o i = (r i : EReal)) (n : ℝ) (hc : c = (n : EReal)) (hn : n ≠ 0) :
    var2 s o c
      = (((∑ i ∈ s, (r i - (∑ i ∈ s, r i) / n) * (r i - (∑ i ∈ s, r i) / n)) / n : ℝ) : EReal) := by
  have h : ∀ i ∈ s, (o i - mean s o c) * (o i - mean s o c)
      = (((r i - (∑ i ∈ s, r i) / n) * (r i - (∑ i ∈ s, r i) / n) : ℝ) : EReal) := fun i hi => by
    rw [mean_coe r hr n hc hn, hr i hi, ← EReal.coe_sub, ← EReal.coe_mul]
  rw [var2, Finset.sum_congr rfl h, sum_coe, hc, div_coe _ _ hn]

theorem var1_coe (r : ι → ℝ) (hr : ∀ i ∈ s, o i = (r i : EReal)) (n : ℝ) (hc : c = (n : EReal)) (hn : n ≠ 0) :
    var1 s o c
      = ((max ((∑ i ∈ s, r i * r i) / n - (∑ i ∈ s, r i) / n * ((∑ i ∈ s, r i) / n)) 0 : ℝ) : EReal) := by
  have h : ∀ i ∈ s, o i * o i = ((r i * r i : ℝ) : EReal) := fun i hi => by
    rw [hr i hi, ← EReal.coe_mul]
  rw [var1, mean_coe r hr n hc hn, Finset.sum_congr rfl h, sum_coe, hc, div_coe _ _ hn, ← EReal.coe_mul,
    ← EReal.coe_sub, ← EReal.coe_zero, max_coe]

theorem var1_eq_var2 (ho : ∀ i ∈ s, IsReal (o i)) (hc : c = ((s.card : ℝ) : EReal)) (hs : s.Nonempty) :
    var1 s o c = var2 s o c := by
  obtain ⟨r, hr⟩ := exists_real_family ho
  have hpos : (0 : ℝ) < (s.card : ℝ) := by exact_mod_cast hs.card_pos
  rw [var1_coe r hr _ hc hpos.ne', var2_coe r hr _ hc hpos.ne', real_variance s r _ rfl hpos,
    max_eq_left (real_variance_nonneg s r _ _ hpos)]

theorem variance_identity (ho : ∀ i ∈ s, IsReal (o i)) (hc : c = ((s.card : ℝ) : EReal)) (hs : s.Nonempty) :
    max (Ideal.div (∑ i ∈ s, o i * o i) c - Ideal.div (∑ i ∈ s, o i) c * Ideal.div (∑ i ∈ s, o i) c) 0
      = Ideal.div (∑ i ∈ s, (o i - Ideal.div (∑ i ∈ s, o i) c) * (o i - Ideal.div (∑ i ∈ s, o i) c)) c :=
  var1_eq_var2 ho hc hs

theorem isReal_mean (ho : ∀ i ∈ s, IsReal (o i)) (hc : c = ((s.card : ℝ) : EReal)) (hs : s.Nonempty) :
    IsReal (mean s o c) := by
  obtain ⟨r, hr⟩ := exists_real_family ho
  have hpos : (0 : ℝ) < (s.card : ℝ) := by exact_mod_cast hs.card_pos
  exact ⟨_, mean_coe r hr _ hc hpos.ne'⟩

theorem var2_nonneg_real (ho : ∀ i ∈ s, IsReal (o i)) (hc : c = ((s.card : ℝ) : EReal)) (hs : s.Nonempty) :
    ∃ v : ℝ, 0 ≤ v ∧ var2 s o c = (v : EReal) := by
  obtain ⟨r, hr⟩ := exists_real_family ho
  have hpos : (0 : ℝ) < (s.card : ℝ) := by exact_mod_cast hs.card_pos
  exact ⟨_, real_variance_nonneg s r _ _ hpos, var2_coe r hr _ hc hpos.ne'⟩

theorem isReal_var2 (ho : ∀ i ∈ s, IsReal (o i)) (hc : c = ((s.card : ℝ) : EReal)) (hs : s.Nonempty) :
    IsReal (var2 s o c) := by
  obtain ⟨v, _, hv⟩ := var2_nonneg_real ho hc hs; exact ⟨v, hv⟩

theorem var2_nonneg (ho : ∀ i ∈ s, IsReal (o i)) (hc : c = ((s.card : ℝ) : EReal)) (hs : s.Nonempty) :
    0 ≤ var2 s o c := by
  obtain ⟨v, hv0, hv⟩ := var2_nonneg_real ho hc hs; rw [hv]; exact EReal.coe_nonneg.mpr hv0

theorem isReal_rstd (ho : ∀ i ∈ s, IsReal (o i)) (hc : c = ((s.card : ℝ) : EReal)) (hs : s.Nonempty) :
    IsReal (Ideal.rsqrt (var2 s o c + Ideal.ofBits .f32 0x3727C5AC#32)) :=
  isReal_rsqrt_add_eps (isReal_var2 ho hc hs) (var2_nonneg ho hc hs)

theorem isReal_bn (ho : ∀ i ∈ s, IsReal (o i)) (hc : c = ((s.card : ℝ) : EReal)) (hs : s.Nonempty)
    {x g b : EReal} (hx : IsReal x) (hg : IsReal g) (hb : IsReal b) :
    IsReal ((x - mean s o c) * Ideal.rsqrt (var2 s o c + Ideal.ofBits .f32 0x3727C5AC#32) * g + b) :=
  isReal_add (isReal_mul (isReal_mul (isReal_sub hx (isReal_mean ho hc hs)) (isReal_rstd ho hc hs)) hg) hb

end

section
variable {ι : Type*} [Fintype ι]

theorem word_card_65536 (h : Fintype.card ι = 65536) :
    Ideal.ofBits .f32 0x47800000#32 = (((Finset.univ : Finset ι).card : ℝ) : EReal) := by
  rw [Finset.card_univ, h, ofBits_65536]; norm_num

theorem word_card_16384 (h : Fintype.card ι = 16384) :
    Ideal.ofBits .f32 0x46800000#32 = (((Finset.univ : Finset ι).card : ℝ) : EReal) := by
  rw [Finset.card_univ, h, ofBits_16384]; norm_num

theorem univ_nonempty_of_card {n : ℕ} (h : Fintype.card ι = n) (hn : 0 < n) : (Finset.univ : Finset ι).Nonempty := by
  rw [← Finset.card_pos, Finset.card_univ, h]; exact hn

theorem variance_identity_65536 (h : Fintype.card ι = 65536) (o : ι → EReal) (ho : ∀ i, IsReal (o i)) :
    max (Ideal.div (∑ i, o i * o i) (Ideal.ofBits .f32 0x47800000#32)
          - Ideal.div (∑ i, o i) (Ideal.ofBits .f32 0x47800000#32)
            * Ideal.div (∑ i, o i) (Ideal.ofBits .f32 0x47800000#32)) 0
      = Ideal.div (∑ i, (o i - Ideal.div (∑ i, o i) (Ideal.ofBits .f32 0x47800000#32))
            * (o i - Ideal.div (∑ i, o i) (Ideal.ofBits .f32 0x47800000#32))) (Ideal.ofBits .f32 0x47800000#32) :=
  variance_identity (fun i _ => ho i) (word_card_65536 h) (univ_nonempty_of_card h (by norm_num))

end

end Cert.Spec

end
-- ==== Proof.BridgeNorm.lean ====
import proofs.«137221_j56719338111373_2_alg».proof.Proof.KIVal3
import proofs.«137221_j56719338111373_2_alg».proof.Proof.KIVal7
import proofs.«137221_j56719338111373_2_alg».proof.Proof.KIHostVal
import proofs.«137221_j56719338111373_2_alg».proof.Proof.SpecBN

noncomputable section

namespace Cert.KernelIdeal.HandVal

open Cert.KernelIdeal Cert.KernelIdeal.Gen Cert.Spec
open Idealize.ShloMosaic Idealize.ShloMosaic.ValueIdx
open scoped BigOperators

def dotAt (nf : Vec Ideal S65536x32 .f32) (w : Vec Ideal S64x32 .f32) (r : Fin 65536) (j : Fin 64) : EReal :=
  ∑ k : Fin 32, nf (ix2 r k) * w (ix2 j k)

def muAt (nf : Vec Ideal S65536x32 .f32) (w : Vec Ideal S64x32 .f32) (j : Fin 64) : EReal :=
  Ideal.div (∑ r : Fin 65536, dotAt nf w r j) (Ideal.ofBits .f32 0x47800000#32)

def varAt (nf : Vec Ideal S65536x32 .f32) (w : Vec Ideal S64x32 .f32) (j : Fin 64) : EReal :=
  Ideal.div (∑ r : Fin 65536, (dotAt nf w r j - muAt nf w j) * (dotAt nf w r j - muAt nf w j))
    (Ideal.ofBits .f32 0x47800000#32)

def bnReluAt (nf : Vec Ideal S65536x32 .f32) (w : Vec Ideal S64x32 .f32) (g b : Vec Ideal S1x64 .f32)
    (r : Fin 65536) (j : Fin 64) : EReal :=
  max ((dotAt nf w r j - muAt nf w j) * Ideal.rsqrt (varAt nf w j + Ideal.ofBits .f32 0x3727C5AC#32)
      * g (ix2 (0 : Fin 1) j) + b (ix2 (0 : Fin 1) j)) 0

theorem isReal_dotAt (nf : Vec Ideal S65536x32 .f32) (w : Vec Ideal S64x32 .f32)
    (hnf : ∀ i, IsReal (nf i)) (hw : ∀ i, IsReal (w i)) (r : Fin 65536) (j : Fin 64) : IsReal (dotAt nf w r j) :=
  isReal_dot Finset.univ _ _ (fun k _ => hnf _) (fun k _ => hw _)

theorem normAt3_eq_bnReluAt (nf : Vec Ideal S65536x32 .f32) (w : Vec Ideal S64x32 .f32) (mean var g b : Vec Ideal S1x64 .f32)
    (hnf : ∀ i, IsReal (nf i)) (hw : ∀ i, IsReal (w i))
    (hmean : ∀ j : Fin 64, mean (ix2 (0 : Fin 1) j)
      = Ideal.div (∑ r : Fin 65536, dotAt nf w r j) (Ideal.ofBits .f32 0x47800000#32))
    (hvar : ∀ j : Fin 64, var (ix2 (0 : Fin 1) j)
      = max (Ideal.div (∑ r : Fin 65536, dotAt nf w r j * dotAt nf w r j) (Ideal.ofBits .f32 0x47800000#32)
          - mean (ix2 (0 : Fin 1) j) * mean (ix2 (0 : Fin 1) j)) 0)
    (r : Fin 65536) (j : Fin 64) :
    normAt3 nf w mean var g b r j = bnReluAt nf w g b r j := by
  have hv : var (ix2 (0 : Fin 1) j) = varAt nf w j := by
    rw [hvar, hmean]
    exact variance_identity_65536 (Fintype.card_fin 65536) (fun r => dotAt nf w r j) (isReal_dotAt nf w hnf hw · j)
  unfold normAt3 bnReluAt
  rw [hv, hmean]
  rfl

theorem meanOf_apply (s : Cn Ideal S1x64 .f32) (j : Fin 64) :
    meanOf s (ix2 (0 : Fin 1) j) = Ideal.div (s (ix2 (0 : Fin 1) j)) (Ideal.ofBits .f32 0x47800000#32) := rfl

theorem varClampOf_apply (s q : Cn Ideal S1x64 .f32) (j : Fin 64) :
    varClampOf s q (ix2 (0 : Fin 1) j)
      = max (Ideal.div (q (ix2 (0 : Fin 1) j)) (Ideal.ofBits .f32 0x47800000#32)
          - meanOf s (ix2 (0 : Fin 1) j) * meanOf s (ix2 (0 : Fin 1) j)) 0 := by
  show max _ (Ideal.ofBits .f32 0x00000000#32) = _
  rw [Ideal.ofBits_zero_f32]
  rfl

theorem norm_bridge3 (nf : Vec Ideal S65536x32 .f32) (w : Vec Ideal S64x32 .f32) (g b : Vec Ideal S1x64 .f32)
    (S Q : Cn Ideal S1x64 .f32) (hnf : ∀ i, IsReal (nf i)) (hw : ∀ i, IsReal (w i))
    (hS : ∀ j : Fin 64, S (ix2 (0 : Fin 1) j) = ∑ r : Fin 65536, dotAt nf w r j)
    (hQ : ∀ j : Fin 64, Q (ix2 (0 : Fin 1) j) = ∑ r : Fin 65536, dotAt nf w r j * dotAt nf w r j)
    (r : Fin 65536) (j : Fin 64) :
    normAt3 nf w (meanOf S) (varClampOf S Q) g b r j = bnReluAt nf w g b r j :=
  normAt3_eq_bnReluAt nf w (meanOf S) (varClampOf S Q) g b hnf hw
    (fun j => by rw [meanOf_apply, hS]) (fun j => by rw [varClampOf_apply, hQ]) r j

theorem normAt7_eq_normAt3 (nf : Vec Ideal S65536x32 .f32) (w : Vec Ideal S64x32 .f32) (mean var g b : Vec Ideal S1x64 .f32)
    (r : Fin 65536) (j : Fin 64) : normAt7 nf w mean var g b r j = normAt3 nf w mean var g b r j := rfl

theorem norm_bridge7 (nf : Vec Ideal S65536x32 .f32) (w : Vec Ideal S64x32 .f32) (g b : Vec Ideal S1x64 .f32)
    (S Q : Cn Ideal S1x64 .f32) (hnf : ∀ i, IsReal (nf i)) (hw : ∀ i, IsReal (w i))
    (hS : ∀ j : Fin 64, S (ix2 (0 : Fin 1) j) = ∑ r : Fin 65536, dotAt nf w r j)
    (hQ : ∀ j : Fin 64, Q (ix2 (0 : Fin 1) j) = ∑ r : Fin 65536, dotAt nf w r j * dotAt nf w r j)
    (r : Fin 65536) (j : Fin 64) :
    normAt7 nf w (meanOf S) (varClampOf S Q) g b r j = bnReluAt nf w g b r j :=
  (normAt7_eq_normAt3 nf w _ _ g b r j).trans (norm_bridge3 nf w g b S Q hnf hw hS hQ r j)

end Cert.KernelIdeal.HandVal

end
-- ==== Proof.KIChainOut.lean ====
import proofs.«137221_j56719338111373_2_alg».proof.Proof.KIChain
import proofs.«137221_j56719338111373_2_alg».proof.Proof.KIVal2
import proofs.«137221_j56719338111373_2_alg».proof.Proof.KIVal3
import proofs.«137221_j56719338111373_2_alg».proof.Proof.BridgeNorm

noncomputable section

namespace Cert.KernelIdeal.HandVal

open Cert.KernelIdeal Cert.KernelIdeal.Gen Cert.KernelIdeal.Hand Cert.Spec
open Idealize.ShloMosaic Idealize.ShloMosaic.TcCoe Idealize.ShloMosaic.ValueIdx Idealize.SL.Sem
open scoped BigOperators

def colSum0 (nf : Cn Ideal S65536x32 .f32) (w : Cn Ideal S64x32 .f32) : Cn Ideal S1x64 .f32 :=
  fun i => ∑ R : Fin 65536, dotAt nf w R (i 1)

def colSq0 (nf : Cn Ideal S65536x32 .f32) (w : Cn Ideal S64x32 .f32) : Cn Ideal S1x64 .f32 :=
  fun i => ∑ R : Fin 65536, dotAt nf w R (i 1) * dotAt nf w R (i 1)

section Chain
variable (m : (ℓ : Loc nD τ sig) → Buf (Elt Ideal) ℓ) (ρ : Dev nD → PrngReg)

theorem sum0_of (c : Dev nD) :
    W29 m ρ c (Proc.devRef .tc main_v117_0)
      = colSum0 (W29 m ρ c (Proc.devRef .tc main_v112)) (W29 m ρ c (Proc.devRef .tc main_v114)) :=
  fin_v117_0_of m ρ (G := colSum0) (fun V c => by rw [arrAt2_2 V c]; rfl) c

theorem sq0_of (c : Dev nD) :
    W29 m ρ c (Proc.devRef .tc main_v117_1)
      = colSq0 (W29 m ρ c (Proc.devRef .tc main_v112)) (W29 m ρ c (Proc.devRef .tc main_v114)) :=
  fin_v117_1_of m ρ (G := colSq0) (fun V c => by rw [arrAt2_3 V c]; rfl) c

theorem norm0_of (c : Dev nD) :
    W29 m ρ c (Proc.devRef .tc main_v126)
      = norm3 (W29 m ρ c (Proc.devRef .tc main_v112)) (W29 m ρ c (Proc.devRef .tc main_v114))
          (W29 m ρ c (Proc.devRef .tc main_v119)) (W29 m ρ c (Proc.devRef .tc main_v125))
          (W29 m ρ c (Proc.devRef .tc main_v115)) (W29 m ρ c (Proc.devRef .tc main_v116)) :=
  fin_v126_of m ρ (G := norm3) (fun V c => arrAt3_6 V c) c

theorem out0_at (c : Dev nD)
    (hnf : ∀ i, IsReal (W29 m ρ c (Proc.devRef .tc main_v112) i))
    (hw : ∀ i, IsReal (m ((c : Thread nD τ).loc main_arg13) i))
    (r : Fin 65536) (j : Fin 64) :
    W29 m ρ c (Proc.devRef .tc main_v126) (ix2 r j)
      = bnReluAt (W29 m ρ c (Proc.devRef .tc main_v112)) (wOut0Of (m ((c : Thread nD τ).loc main_arg13)))
          (row0_64 (m ((c : Thread nD τ).loc main_arg14))) (row0_64 (m ((c : Thread nD τ).loc main_arg15))) r j := by
  have hS : ∀ j : Fin 64, W29 m ρ c (Proc.devRef .tc main_v117_0) (ix2 (0 : Fin 1) j)
      = ∑ R : Fin 65536, dotAt (W29 m ρ c (Proc.devRef .tc main_v112)) (wOut0Of (m ((c : Thread nD τ).loc main_arg13))) R j := by
    intro j; rw [sum0_of m ρ c, fin_v114 m ρ c]; rfl
  have hQ : ∀ j : Fin 64, W29 m ρ c (Proc.devRef .tc main_v117_1) (ix2 (0 : Fin 1) j)
      = ∑ R : Fin 65536, dotAt (W29 m ρ c (Proc.devRef .tc main_v112)) (wOut0Of (m ((c : Thread nD τ).loc main_arg13))) R j
          * dotAt (W29 m ρ c (Proc.devRef .tc main_v112)) (wOut0Of (m ((c : Thread nD τ).loc main_arg13))) R j := by
    intro j; rw [sq0_of m ρ c, fin_v114 m ρ c]; rfl
  rw [norm0_of m ρ c]
  show normAt3 _ _ _ _ _ _ r j = _
  rw [fin_v119 m ρ c, fin_v125 m ρ c, fin_v114 m ρ c, fin_v115 m ρ c, fin_v116 m ρ c]
  exact norm_bridge3 (W29 m ρ c (Proc.devRef .tc main_v112)) (wOut0Of (m ((c : Thread nD τ).loc main_arg13)))
    (row0_64 (m ((c : Thread nD τ).loc main_arg14))) (row0_64 (m ((c : Thread nD τ).loc main_arg15)))
    (W29 m ρ c (Proc.devRef .tc main_v117_0)) (W29 m ρ c (Proc.devRef .tc main_v117_1))
    hnf (fun i => hw _) hS hQ r j

end Chain

end Cert.KernelIdeal.HandVal

end
-- ==== Proof.KIHostVal64.lean ====
import proofs.«137221_j56719338111373_2_alg».proof.Proof.KIHostVal

noncomputable section

namespace Cert.KernelIdeal.HandVal

open Cert.KernelIdeal Cert.KernelIdeal.Gen Idealize.ShloMosaic Idealize.ShloMosaic.TcCoe Idealize.SL.Sem Idealize.ShloMosaic.StableHlo

variable {F : FTy → Type} [FloatOps F]

def wrapBy64 (n : BitVec 32) (x : Cn F S65536x64 .i32) : Cn F S65536x64 .i32 :=
  select (cmpi .slt x (broadcastInDim S65536x64 ![] bcast_S_S65536x64 (constantI S_ 32 0#32)))
    (addi x (broadcastInDim S65536x64 ![] bcast_S_S65536x64 (constantI S_ 32 n))) x

def col64 (x : Cn F S65536x64 .i32) : Cn F S65536x64x1 .i32 :=
  broadcastInDim S65536x64x1 ![0, 1] bcast_S65536x64_S65536x64x1_0_1 x

def idx4Of64 (b z y x : Cn F S65536x64 .i32) : Cn F S65536x64x4 .i32 :=
  concatenate S65536x64x4 2
    [⟨S65536x64x1, col64 (wrapBy64 2#32 b)⟩, ⟨S65536x64x1, col64 (wrapBy64 11#32 z)⟩,
     ⟨S65536x64x1, col64 (wrapBy64 200#32 y)⟩, ⟨S65536x64x1, col64 (wrapBy64 176#32 x)⟩]
    concatenates_S65536x64x1_S65536x64x1_S65536x64x1_S65536x64x1_S65536x64x4_d2

def vmGatherOf64 (vm : Cn F S2x11x200x176 .i32) (idx4 : Cn F S65536x64x4 .i32) : Cn F S65536x64 .i32 :=
  Host.gather gather_S2x11x200x176_S65536x64x4_S65536x64_n_0123_n_n_0123_2_1111 vm idx4

def padIndexOf64 (g : Cn F S65536x64 .i32) : Cn F S65536x64x1 .i32 :=
  col64 (wrapBy64 16385#32 (addi g (broadcastInDim S65536x64 ![] bcast_S_S65536x64 (constantI S_ 32 1#32))))

def gatherPadded64 (fpad : Cn F S16385x32 .bf16) (ix : Cn F S65536x64x1 .i32) : Cn F S65536x64x32 .bf16 :=
  Host.gather gather_S16385x32_S65536x64x1_S65536x64x32_2_0_n_n_0_2_132 fpad ix

def posDot64 (off : Cn F S64x4 .i32) (wpos : Cn F S2x32x3 .f32) : Cn F S64x32 .f32 :=
  Host.dotGeneral dot_S64x3_S3x32_S64x32_1_0_0_1_n_n none
    (sitofp .f32 (extractStridedSlice S64x3 ![0, 1] off slices_S64x4_S64x3_0_1))
    (transpose S3x32 [1, 0]
      (shapeCast S32x3 (extractStridedSlice S1x32x3 ![1, 0, 0] wpos slices_S2x32x3_S1x32x3_1_0_0) shapeCasts_S1x32x3_S32x3)
      transposes_S32x3_S3x32_1_0)

def vec1_32 (g : Cn F S2x32 .f32) : Cn F S32 .f32 :=
  shapeCast S32 (extractStridedSlice S1x32 ![1, 0] g slices_S2x32_S1x32_1_0) shapeCasts_S1x32_S32

def colMean64 (x : Cn F S64x32 .f32) : Cn F S1x32 .f32 :=
  Host.divf
    (broadcastInDim S1x32 ![1] bcast_S32_S1x32_1
      (Host.reduceAdd x (constant S_ .f32 0x00000000#32) reducesTo_S64x32_S32_d0 h_S_))
    (broadcastInDim S1x32 ![] bcast_S_S1x32 (constant S_ .f32 0x42800000#32))

def centred64 (x : Cn F S64x32 .f32) : Cn F S64x32 .f32 :=
  subf x (broadcastInDim S64x32 ![0, 1] bcast_S1x32_S64x32_0_1 (colMean64 x))

def colVar64 (x : Cn F S64x32 .f32) : Cn F S1x32 .f32 := colMean64 (mulf (centred64 x) (centred64 x))

def bnRows64 (x : Cn F S64x32 .f32) (g b : Cn F S32 .f32) : Cn F S64x32 .f32 :=
  addf
    (mulf
      (mulf (centred64 x)
        (broadcastInDim S64x32 ![0, 1] bcast_S1x32_S64x32_0_1
          (Host.rsqrt (addf (colVar64 x) (broadcastInDim S1x32 ![] bcast_S_S1x32 (constant S_ .f32 0x3727C5AC#32))))))
      (broadcastInDim S64x32 ![0, 1] bcast_S1x32_S64x32_0_1 (broadcastInDim S1x32 ![1] bcast_S32_S1x32_1 g)))
    (broadcastInDim S64x32 ![0, 1] bcast_S1x32_S64x32_0_1 (broadcastInDim S1x32 ![1] bcast_S32_S1x32_1 b))

def posBN64 (off : Cn F S64x4 .i32) (wpos : Cn F S2x32x3 .f32) (g b : Cn F S2x32 .f32) : Cn F S64x32 .f32 :=
  bnRows64 (posDot64 off wpos) (vec1_32 g) (vec1_32 b)

set_option maxHeartbeats 4000000 in
theorem hostOps5_6_v187 (V : Valuation τ sig (Elt F)) :
    StableHlo.after hostOps5_6 V (Proc.devRef .tc main_v187)
      = idx4Of64 (V (Proc.devRef .tc main_v153)) (V (Proc.devRef .tc main_v156))
          (V (Proc.devRef .tc main_v159)) (V (Proc.devRef .tc main_v162)) := by
  after_results; rfl

set_option maxHeartbeats 4000000 in
theorem hostOps5_6_v188 (V : Valuation τ sig (Elt F)) :
    StableHlo.after hostOps5_6 V (Proc.devRef .tc main_v188)
      = vmGatherOf64 (V (Proc.devRef .tc main_arg6))
          (idx4Of64 (V (Proc.devRef .tc main_v153)) (V (Proc.devRef .tc main_v156))
            (V (Proc.devRef .tc main_v159)) (V (Proc.devRef .tc main_v162))) := by
  after_results; rfl

set_option maxHeartbeats 4000000 in
theorem hostOps5_6_v196 (V : Valuation τ sig (Elt F)) :
    StableHlo.after hostOps5_6 V (Proc.devRef .tc main_v196)
      = padIndexOf64 (vmGatherOf64 (V (Proc.devRef .tc main_arg6))
          (idx4Of64 (V (Proc.devRef .tc main_v153)) (V (Proc.devRef .tc main_v156))
            (V (Proc.devRef .tc main_v159)) (V (Proc.devRef .tc main_v162)))) := by
  after_results; rfl

set_option maxHeartbeats 4000000 in
theorem hostOps5_6_v197 (V : Valuation τ sig (Elt F)) :
    StableHlo.after hostOps5_6 V (Proc.devRef .tc main_v197)
      = gatherPadded64 (V (Proc.devRef .tc main_v146))
          (padIndexOf64 (vmGatherOf64 (V (Proc.devRef .tc main_arg6))
            (idx4Of64 (V (Proc.devRef .tc main_v153)) (V (Proc.devRef .tc main_v156))
              (V (Proc.devRef .tc main_v159)) (V (Proc.devRef .tc main_v162))))) := by
  after_results; rfl

set_option maxHeartbeats 4000000 in
theorem hostOps5_6_v231 (V : Valuation τ sig (Elt F)) :
    StableHlo.after hostOps5_6 V (Proc.devRef .tc main_v231)
      = posBN64 (V (Proc.devRef .tc main_v139)) (V (Proc.devRef .tc main_arg10))
          (V (Proc.devRef .tc main_arg11)) (V (Proc.devRef .tc main_arg12)) := by
  after_results_simp; rfl

end Cert.KernelIdeal.HandVal
end
-- ==== Proof.KIChain2.lean ====
import proofs.«137221_j56719338111373_2_alg».proof.Proof.KIKeep
import proofs.«137221_j56719338111373_2_alg».proof.Proof.KIHostVal
import proofs.«137221_j56719338111373_2_alg».proof.Proof.KIHostVal64

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem fin_v139 (c : Dev nD) : W29 m ρ c (Proc.devRef .tc main_v139) = offsetsOf64 := by
  rw [keep_v139_15 m ρ c]
  exact hostOps4_v139 (W14 m ρ c)

theorem fin_v141 (c : Dev nD) : W29 m ρ c (Proc.devRef .tc main_v141) = wIn1Of (m ((c : Thread nD τ).loc main_arg7)) := by
  rw [keep_v141_15 m ρ c, ← low_arg7_14 m ρ c]
  exact hostOps4_v141 (W14 m ρ c)

theorem fin_v142 (c : Dev nD) : W29 m ρ c (Proc.devRef .tc main_v142) = row1_32 (m ((c : Thread nD τ).loc main_arg8)) := by
  rw [keep_v142_15 m ρ c, ← low_arg8_14 m ρ c]
  exact hostOps4_v142 (W14 m ρ c)

theorem fin_v143 (c : Dev nD) : W29 m ρ c (Proc.devRef .tc main_v143) = row1_32 (m ((c : Thread nD τ).loc main_arg9)) := by
  rw [keep_v143_15 m ρ c, ← low_arg9_14 m ρ c]
  exact hostOps4_v143 (W14 m ρ c)

theorem in4_arg5 (c : Dev nD) : V15 m ρ c main_arg5 = m ((c : Thread nD τ).loc main_arg5) := low_arg5_15 m ρ c
theorem in4_v141 (c : Dev nD) : V15 m ρ c main_v141 = W29 m ρ c (Proc.devRef .tc main_v141) := (keep_v141_15 m ρ c).symm
theorem in4_v142 (c : Dev nD) : V15 m ρ c main_v142 = W29 m ρ c (Proc.devRef .tc main_v142) := (keep_v142_15 m ρ c).symm
theorem in4_v143 (c : Dev nD) : V15 m ρ c main_v143 = W29 m ρ c (Proc.devRef .tc main_v143) := (keep_v143_15 m ρ c).symm

theorem fin_v144 (c : Dev nD) : W29 m ρ c (Proc.devRef .tc main_v144) = (dat4 (V15 m ρ) c).arrAt 4 cfg4.N :=
  (keep_v144_16 m ρ c).trans (W16_arr m ρ c 4)

theorem fin_v144_of {G : Cn F S16384x64 .f32 → Cn F S32x64 .f32 → Cn F S1x32 .f32 → Cn F S1x32 .f32 → Cn F S16384x32 .bf16}
    (hG : ∀ V : (c : Dev nD) → (b : Ref sig .tc) → Buf (Elt F) ((c : Thread nD τ).loc b), ∀ c : Dev nD,
      (dat4 V c).arrAt 4 cfg4.N = G (V c main_arg5) (V c main_v141) (V c main_v142) (V c main_v143)) (c : Dev nD) :
    W29 m ρ c (Proc.devRef .tc main_v144) = G (m ((c : Thread nD τ).loc main_arg5)) (W29 m ρ c (Proc.devRef .tc main_v141)) (W29 m ρ c (Proc.devRef .tc main_v142)) (W29 m ρ c (Proc.devRef .tc main_v143)) := by
  rw [fin_v144 m ρ c, hG (V15 m ρ) c, in4_arg5 m ρ c, in4_v141 m ρ c, in4_v142 m ρ c, in4_v143 m ρ c]

theorem fin_v146 (c : Dev nD) : W29 m ρ c (Proc.devRef .tc main_v146) = padRows (W29 m ρ c (Proc.devRef .tc main_v144)) := by
  rw [keep_v146_17 m ρ c, keep_v144_16 m ρ c]
  exact hostOps5_v146 (W16 m ρ c)

theorem fin_v151 (c : Dev nD) : W29 m ρ c (Proc.devRef .tc main_v151) = posOf64 (W29 m ρ c (Proc.devRef .tc main_v6)) (W29 m ρ c (Proc.devRef .tc main_v139)) := by
  rw [keep_v151_17 m ρ c, keep_v6_16 m ρ c, keep_v139_16 m ρ c]
  exact hostOps5_v151 (W16 m ρ c)

theorem fin_v153 (c : Dev nD) : W29 m ρ c (Proc.devRef .tc main_v153) = posCol64_0 (posOf64 (W29 m ρ c (Proc.devRef .tc main_v6)) (W29 m ρ c (Proc.devRef .tc main_v139))) := by
  rw [keep_v153_17 m ρ c, keep_v6_16 m ρ c, keep_v139_16 m ρ c]
  exact hostOps5_v153 (W16 m ρ c)

theorem fin_v156 (c : Dev nD) : W29 m ρ c (Proc.devRef .tc main_v156)
    = clipOf64 (constantI S_ 32 0#32) (constantI S_ 32 10#32) (posCol64_1 (posOf64 (W29 m ρ c (Proc.devRef .tc main_v6)) (W29 m ρ c (Proc.devRef .tc main_v139)))) := by
  rw [keep_v156_18 m ρ c, keep_v6_16 m ρ c, keep_v139_16 m ρ c]
  refine (hostOps5_1_v156 (StableHlo.after hostOps5 (W16 m ρ c))).trans ?_
  rw [hostOps5_c_32 (W16 m ρ c), hostOps5_c_33 (W16 m ρ c), hostOps5_v155 (W16 m ρ c)]

theorem fin_v159 (c : Dev nD) : W29 m ρ c (Proc.devRef .tc main_v159)
    = clipOf64 (constantI S_ 32 0#32) (constantI S_ 32 199#32) (posCol64_2 (W29 m ρ c (Proc.devRef .tc main_v151))) := by
  rw [keep_v159_20 m ρ c, keep_v151_18 m ρ c]
  refine (hostOps5_3_v159 (StableHlo.after hostOps5_2 (W18 m ρ c))).trans ?_
  rw [hostOps5_2_c_34 (W18 m ρ c), hostOps5_2_c_35 (W18 m ρ c), hostOps5_2_v158 (W18 m ρ c)]

theorem fin_v162 (c : Dev nD) : W29 m ρ c (Proc.devRef .tc main_v162)
    = clipOf64 (constantI S_ 32 0#32) (constantI S_ 32 175#32) (posCol64_3 (W29 m ρ c (Proc.devRef .tc main_v151))) := by
  rw [keep_v162_22 m ρ c, keep_v151_20 m ρ c]
  refine (hostOps5_5_v162 (StableHlo.after hostOps5_4 (W20 m ρ c))).trans ?_
  rw [hostOps5_4_c_36 (W20 m ρ c), hostOps5_4_c_37 (W20 m ρ c), hostOps5_4_v161 (W20 m ρ c)]

theorem fin_v187 (c : Dev nD) : W29 m ρ c (Proc.devRef .tc main_v187)
    = idx4Of64 (W29 m ρ c (Proc.devRef .tc main_v153)) (W29 m ρ c (Proc.devRef .tc main_v156)) (W29 m ρ c (Proc.devRef .tc main_v159)) (W29 m ρ c (Proc.devRef .tc main_v162)) := by
  rw [keep_v187_23 m ρ c, keep_v153_22 m ρ c, keep_v156_22 m ρ c, keep_v159_22 m ρ c, keep_v162_22 m ρ c]
  exact hostOps5_6_v187 (W22 m ρ c)

theorem fin_v188 (c : Dev nD) : W29 m ρ c (Proc.devRef .tc main_v188) = vmGatherOf64 (m ((c : Thread nD τ).loc main_arg6)) (W29 m ρ c (Proc.devRef .tc main_v187)) := by
  rw [fin_v187 m ρ c, keep_v188_23 m ρ c, keep_v153_22 m ρ c, keep_v156_22 m ρ c, keep_v159_22 m ρ c, keep_v162_22 m ρ c,
    ← low_arg6_22 m ρ c]
  exact hostOps5_6_v188 (W22 m ρ c)

theorem fin_v196 (c : Dev nD) : W29 m ρ c (Proc.devRef .tc main_v196) = padIndexOf64 (W29 m ρ c (Proc.devRef .tc main_v188)) := by
  rw [fin_v188 m ρ c, fin_v187 m ρ c, keep_v196_23 m ρ c, keep_v153_22 m ρ c, keep_v156_22 m ρ c, keep_v159_22 m ρ c,
    keep_v162_22 m ρ c, ← low_arg6_22 m ρ c]
  exact hostOps5_6_v196 (W22 m ρ c)

theorem fin_v197 (c : Dev nD) : W29 m ρ c (Proc.devRef .tc main_v197) = gatherPadded64 (W29 m ρ c (Proc.devRef .tc main_v146)) (W29 m ρ c (Proc.devRef .tc main_v196)) := by
  rw [fin_v196 m ρ c, fin_v188 m ρ c, fin_v187 m ρ c, keep_v197_23 m ρ c, keep_v146_22 m ρ c, keep_v153_22 m ρ c,
    keep_v156_22 m ρ c, keep_v159_22 m ρ c, keep_v162_22 m ρ c, ← low_arg6_22 m ρ c]
  exact hostOps5_6_v197 (W22 m ρ c)

theorem fin_v231 (c : Dev nD) : W29 m ρ c (Proc.devRef .tc main_v231)
    = posBN64 (W29 m ρ c (Proc.devRef .tc main_v139)) (m ((c : Thread nD τ).loc main_arg10)) (m ((c : Thread nD τ).loc main_arg11)) (m ((c : Thread nD τ).loc main_arg12)) := by
  rw [keep_v231_23 m ρ c, keep_v139_22 m ρ c, ← low_arg10_22 m ρ c, ← low_arg11_22 m ρ c, ← low_arg12_22 m ρ c]
  exact hostOps5_6_v231 (W22 m ρ c)

theorem in5_v197 (c : Dev nD) : V23 m ρ c main_v197 = W29 m ρ c (Proc.devRef .tc main_v197) := (keep_v197_23 m ρ c).symm
theorem in5_v231 (c : Dev nD) : V23 m ρ c main_v231 = W29 m ρ c (Proc.devRef .tc main_v231) := (keep_v231_23 m ρ c).symm

theorem fin_v232 (c : Dev nD) : W29 m ρ c (Proc.devRef .tc main_v232) = (dat5 (V23 m ρ) c).arrAt 2 cfg5.N :=
  (keep_v232_24 m ρ c).trans (W24_arr m ρ c 2)

theorem fin_v232_of {G : Cn F S65536x64x32 .bf16 → Cn F S64x32 .f32 → Cn F S65536x32 .f32}
    (hG : ∀ V : (c : Dev nD) → (b : Ref sig .tc) → Buf (Elt F) ((c : Thread nD τ).loc b), ∀ c : Dev nD,
      (dat5 V c).arrAt 2 cfg5.N = G (V c main_v197) (V c main_v231)) (c : Dev nD) :
    W29 m ρ c (Proc.devRef .tc main_v232) = G (W29 m ρ c (Proc.devRef .tc main_v197)) (W29 m ρ c (Proc.devRef .tc main_v231)) := by
  rw [fin_v232 m ρ c, hG (V23 m ρ) c, in5_v197 m ρ c, in5_v231 m ρ c]

theorem fin_v234 (c : Dev nD) : W29 m ρ c (Proc.devRef .tc main_v234) = wOut1Of (m ((c : Thread nD τ).loc main_arg13)) := by
  rw [keep_v234_25 m ρ c, ← low_arg13_24 m ρ c]
  exact hostOps6_v234 (W24 m ρ c)

theorem fin_v235 (c : Dev nD) : W29 m ρ c (Proc.devRef .tc main_v235) = row1_64 (m ((c : Thread nD τ).loc main_arg14)) := by
  rw [keep_v235_25 m ρ c, ← low_arg14_24 m ρ c]
  exact hostOps6_v235 (W24 m ρ c)

theorem fin_v236 (c : Dev nD) : W29 m ρ c (Proc.devRef .tc main_v236) = row1_64 (m ((c : Thread nD τ).loc main_arg15)) := by
  rw [keep_v236_25 m ρ c, ← low_arg15_24 m ρ c]
  exact hostOps6_v236 (W24 m ρ c)

theorem in6_v232 (c : Dev nD) : V25 m ρ c main_v232 = W29 m ρ c (Proc.devRef .tc main_v232) := (keep_v232_25 m ρ c).symm
theorem in6_v234 (c : Dev nD) : V25 m ρ c main_v234 = W29 m ρ c (Proc.devRef .tc main_v234) := (keep_v234_25 m ρ c).symm

theorem fin_v237_0 (c : Dev nD) : W29 m ρ c (Proc.devRef .tc main_v237_0) = (dat6 (V25 m ρ) c).arrAt 2 cfg6.N :=
  (keep_v237_0_26 m ρ c).trans (W26_arr m ρ c 2)
theorem fin_v237_1 (c : Dev nD) : W29 m ρ c (Proc.devRef .tc main_v237_1) = (dat6 (V25 m ρ) c).arrAt 3 cfg6.N :=
  (keep_v237_1_26 m ρ c).trans (W26_arr m ρ c 3)

theorem fin_v237_0_of {G : Cn F S65536x32 .f32 → Cn F S64x32 .f32 → Cn F S1x64 .f32}
    (hG : ∀ V : (c : Dev nD) → (b : Ref sig .tc) → Buf (Elt F) ((c : Thread nD τ).loc b), ∀ c : Dev nD,
      (dat6 V c).arrAt 2 cfg6.N = G (V c main_v232) (V c main_v234)) (c : Dev nD) :
    W29 m ρ c (Proc.devRef .tc main_v237_0) = G (W29 m ρ c (Proc.devRef .tc main_v232)) (W29 m ρ c (Proc.devRef .tc main_v234)) := by
  rw [fin_v237_0 m ρ c, hG (V25 m ρ) c, in6_v232 m ρ c, in6_v234 m ρ c]
theorem fin_v237_1_of {G : Cn F S65536x32 .f32 → Cn F S64x32 .f32 → Cn F S1x64 .f32}
    (hG : ∀ V : (c : Dev nD) → (b : Ref sig .tc) → Buf (Elt F) ((c : Thread nD τ).loc b), ∀ c : Dev nD,
      (dat6 V c).arrAt 3 cfg6.N = G (V c main_v232) (V c main_v234)) (c : Dev nD) :
    W29 m ρ c (Proc.devRef .tc main_v237_1) = G (W29 m ρ c (Proc.devRef .tc main_v232)) (W29 m ρ c (Proc.devRef .tc main_v234)) := by
  rw [fin_v237_1 m ρ c, hG (V25 m ρ) c, in6_v232 m ρ c, in6_v234 m ρ c]

theorem fin_v239 (c : Dev nD) : W29 m ρ c (Proc.devRef .tc main_v239) = meanOf (W29 m ρ c (Proc.devRef .tc main_v237_0)) := by
  rw [keep_v239_27 m ρ c, keep_v237_0_26 m ρ c]
  exact hostOps7_v239 (W26 m ρ c)

theorem fin_v245 (c : Dev nD) : W29 m ρ c (Proc.devRef .tc main_v245) = varClampOf (W29 m ρ c (Proc.devRef .tc main_v237_0)) (W29 m ρ c (Proc.devRef .tc main_v237_1)) := by
  rw [keep_v245_27 m ρ c, keep_v237_0_26 m ρ c, keep_v237_1_26 m ρ c]
  exact hostOps7_v245 (W26 m ρ c)

theorem in7_v232 (c : Dev nD) : V27 m ρ c main_v232 = W29 m ρ c (Proc.devRef .tc main_v232) := (keep_v232_27 m ρ c).symm
theorem in7_v234 (c : Dev nD) : V27 m ρ c main_v234 = W29 m ρ c (Proc.devRef .tc main_v234) := (keep_v234_27 m ρ c).symm
theorem in7_v239 (c : Dev nD) : V27 m ρ c main_v239 = W29 m ρ c (Proc.devRef .tc main_v239) := (keep_v239_27 m ρ c).symm
theorem in7_v245 (c : Dev nD) : V27 m ρ c main_v245 = W29 m ρ c (Proc.devRef .tc main_v245) := (keep_v245_27 m ρ c).symm
theorem in7_v235 (c : Dev nD) : V27 m ρ c main_v235 = W29 m ρ c (Proc.devRef .tc main_v235) := (keep_v235_27 m ρ c).symm
theorem in7_v236 (c : Dev nD) : V27 m ρ c main_v236 = W29 m ρ c (Proc.devRef .tc main_v236) := (keep_v236_27 m ρ c).symm

theorem fin_v246 (c : Dev nD) : W29 m ρ c (Proc.devRef .tc main_v246) = (dat7 (V27 m ρ) c).arrAt 6 cfg7.N :=
  (keep_v246_28 m ρ c).trans (W28_arr m ρ c 6)

theorem fin_v246_of {G : Cn F S65536x32 .f32 → Cn F S64x32 .f32 → Cn F S1x64 .f32 → Cn F S1x64 .f32 → Cn F S1x64 .f32 → Cn F S1x64 .f32 → Cn F S65536x64 .f32}
    (hG : ∀ V : (c : Dev nD) → (b : Ref sig .tc) → Buf (Elt F) ((c : Thread nD τ).loc b), ∀ c : Dev nD,
      (dat7 V c).arrAt 6 cfg7.N = G (V c main_v232) (V c main_v234) (V c main_v239) (V c main_v245) (V c main_v235) (V c main_v236)) (c : Dev nD) :
    W29 m ρ c (Proc.devRef .tc main_v246) = G (W29 m ρ c (Proc.devRef .tc main_v232)) (W29 m ρ c (Proc.devRef .tc main_v234)) (W29 m ρ c (Proc.devRef .tc main_v239)) (W29 m ρ c (Proc.devRef .tc main_v245)) (W29 m ρ c (Proc.devRef .tc main_v235)) (W29 m ρ c (Proc.devRef .tc main_v236)) := by
  rw [fin_v246 m ρ c, hG (V27 m ρ) c, in7_v232 m ρ c, in7_v234 m ρ c, in7_v239 m ρ c, in7_v245 m ρ c, in7_v235 m ρ c, in7_v236 m ρ c]

end Cert.KernelIdeal.HandVal

end
-- ==== Proof.KIChainArgs.lean ====
import proofs.«137221_j56719338111373_2_alg».proof.Proof.KIChain

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

def pos8 (coords : Cn F S65536x4 .i32) : Cn F S65536x8x4 .i32 := posOf8 (ncOf coords) offsetsOf8

def idx4_8 (coords : Cn F S65536x4 .i32) : Cn F S65536x8x4 .i32 :=
  idx4Of8 (posCol8_0 (pos8 coords))
    (clipOf8 (constantI S_ 32 0#32) (constantI S_ 32 10#32) (posCol8_1 (pos8 coords)))
    (clipOf8 (constantI S_ 32 0#32) (constantI S_ 32 199#32) (posCol8_2 (pos8 coords)))
    (clipOf8 (constantI S_ 32 0#32) (constantI S_ 32 175#32) (posCol8_3 (pos8 coords)))

def rows8 (coords : Cn F S65536x4 .i32) (vm : Cn F S2x11x200x176 .i32) : Cn F S65536x8x1 .i32 :=
  padIndexOf8 (vmGatherOf8 vm (idx4_8 coords))

def gf8 (f : Cn F S16384x32 .bf16) (coords : Cn F S65536x4 .i32) (vm : Cn F S2x11x200x176 .i32) :
    Cn F S65536x8x32 .bf16 :=
  gatherPadded8 (padRows f) (rows8 coords vm)

variable (m : (ℓ : Loc nD τ sig) → Buf (Elt F) ℓ) (ρ : Dev nD → PrngReg)

theorem args_v31 (c : Dev nD) : W29 m ρ c (Proc.devRef .tc main_v31) = pos8 (m ((c : Thread nD τ).loc main_arg4)) := by
  rw [fin_v31 m ρ c, fin_v6 m ρ c, fin_v19 m ρ c]; rfl

theorem args_v67 (c : Dev nD) : W29 m ρ c (Proc.devRef .tc main_v67) = idx4_8 (m ((c : Thread nD τ).loc main_arg4)) := by
  rw [fin_v67 m ρ c, fin_v33 m ρ c, fin_v36 m ρ c, fin_v39 m ρ c, fin_v42 m ρ c, args_v31 m ρ c, fin_v6 m ρ c,
    fin_v19 m ρ c]; rfl

theorem args_v76 (c : Dev nD) : W29 m ρ c (Proc.devRef .tc main_v76) = rows8 (m ((c : Thread nD τ).loc main_arg4)) (m ((c : Thread nD τ).loc main_arg6)) := by
  rw [fin_v76 m ρ c, fin_v68 m ρ c, args_v67 m ρ c]; rfl

theorem args_v77 (c : Dev nD) : W29 m ρ c (Proc.devRef .tc main_v77)
    = gf8 (W29 m ρ c (Proc.devRef .tc main_v24)) (m ((c : Thread nD τ).loc main_arg4)) (m ((c : Thread nD τ).loc main_arg6)) := by
  rw [fin_v77 m ρ c, fin_v26 m ρ c, args_v76 m ρ c]; rfl

theorem args_v111 (c : Dev nD) : W29 m ρ c (Proc.devRef .tc main_v111)
    = posBN8 offsetsOf8 (m ((c : Thread nD τ).loc main_arg10)) (m ((c : Thread nD τ).loc main_arg11)) (m ((c : Thread nD τ).loc main_arg12)) := by
  rw [fin_v111 m ρ c, fin_v19 m ρ c]

end Cert.KernelIdeal.HandVal

end
-- ==== Proof.KIChainArgs2.lean ====
/- DOWN TO THE ARGUMENTS, the second scale (64 neighbours): its neighbour positions, wrapped indices, gathered rows and
   position features as closed terms of the launch contents of the arguments and of its feature table main_v144,
   exactly as the first scale's are (the first module says how). -/
import proofs.«137221_j56719338111373_2_alg».proof.Proof.KIChain
import proofs.«137221_j56719338111373_2_alg».proof.Proof.KIChain2

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

/-! # Scale 1

## The composed terms -/

/-- The positions of the 64 neighbours of every point: the permuted coordinates plus the offsets. -/
def pos64 (coords : Cn F S65536x4 .i32) : Cn F S65536x64x4 .i32 := posOf64 (ncOf coords) offsetsOf64

/-- The four index components of every neighbour: the batch one as it is, the other three clipped to their
    ranges, each then wrapped by its extent. -/
def idx4_64 (coords : Cn F S65536x4 .i32) : Cn F S65536x64x4 .i32 :=
  idx4Of64 (posCol64_0 (pos64 coords))
    (clipOf64 (constantI S_ 32 0#32) (constantI S_ 32 10#32) (posCol64_1 (pos64 coords)))
    (clipOf64 (constantI S_ 32 0#32) (constantI S_ 32 199#32) (posCol64_2 (pos64 coords)))
    (clipOf64 (constantI S_ 32 0#32) (constantI S_ 32 175#32) (posCol64_3 (pos64 coords)))

/-- The row of the padded feature table each neighbour reads: the voxel map's entry plus one, wrapped. -/
def rows64 (coords : Cn F S65536x4 .i32) (vm : Cn F S2x11x200x176 .i32) : Cn F S65536x64x1 .i32 :=
  padIndexOf64 (vmGatherOf64 vm (idx4_64 coords))

/-- gf: the rows of [0; f] the neighbours read. -/
def gf64 (f : Cn F S16384x32 .bf16) (coords : Cn F S65536x4 .i32) (vm : Cn F S2x11x200x176 .i32) :
    Cn F S65536x64x32 .bf16 :=
  gatherPadded64 (padRows f) (rows64 coords vm)

variable (m : (ℓ : Loc nD τ sig) → Buf (Elt F) ℓ) (ρ : Dev nD → PrngReg)

/-! ## The buffers at the last boundary -/

theorem args_v151 (c : Dev nD) : W29 m ρ c (Proc.devRef .tc main_v151) = pos64 (m ((c : Thread nD τ).loc main_arg4)) := by
  rw [fin_v151 m ρ c, fin_v6 m ρ c, fin_v139 m ρ c]; rfl

theorem args_v187 (c : Dev nD) : W29 m ρ c (Proc.devRef .tc main_v187) = idx4_64 (m ((c : Thread nD τ).loc main_arg4)) := by
  rw [fin_v187 m ρ c, fin_v153 m ρ c, fin_v156 m ρ c, fin_v159 m ρ c, fin_v162 m ρ c, args_v151 m ρ c, fin_v6 m ρ c,
    fin_v139 m ρ c]; rfl

theorem args_v196 (c : Dev nD) : W29 m ρ c (Proc.devRef .tc main_v196) = rows64 (m ((c : Thread nD τ).loc main_arg4)) (m ((c : Thread nD τ).loc main_arg6)) := by
  rw [fin_v196 m ρ c, fin_v188 m ρ c, args_v187 m ρ c]; rfl

/-- gf over the last-boundary feature table. -/
theorem args_v197 (c : Dev nD) : W29 m ρ c (Proc.devRef .tc main_v197)
    = gf64 (W29 m ρ c (Proc.devRef .tc main_v144)) (m ((c : Thread nD τ).loc main_arg4)) (m ((c : Thread nD τ).loc main_arg6)) := by
  rw [fin_v197 m ρ c, fin_v146 m ρ c, args_v196 m ρ c]; rfl

/-- pf over the offsets and the position parameters. -/
theorem args_v231 (c : Dev nD) : W29 m ρ c (Proc.devRef .tc main_v231)
    = posBN64 offsetsOf64 (m ((c : Thread nD τ).loc main_arg10)) (m ((c : Thread nD τ).loc main_arg11)) (m ((c : Thread nD τ).loc main_arg12)) := by
  rw [fin_v231 m ρ c, fin_v139 m ρ c]

end Cert.KernelIdeal.HandVal

end
-- ==== Proof.KIValBn.lean ====
import proofs.«137221_j56719338111373_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandVal

open Cert.KernelIdeal Cert.KernelIdeal.Gen
open Idealize.ShloMosaic Idealize.ShloMosaic.ValueIdx Idealize.SL.Sem

def mm0 (x : S16384x64.Idx → EReal) (w : S32x64.Idx → EReal) (r : Fin 16384) (j : Fin 32) : EReal :=
  ∑ k : Fin 64, x (ix2 r k) * w (ix2 j k)

def mu0 (x : S16384x64.Idx → EReal) (w : S32x64.Idx → EReal) (j : Fin 32) : EReal :=
  Ideal.div (∑ r : Fin 16384, mm0 x w r j) (Ideal.ofBits .f32 0x46800000#32)

def var0 (x : S16384x64.Idx → EReal) (w : S32x64.Idx → EReal) (j : Fin 32) : EReal :=
  Ideal.div (∑ r : Fin 16384, (mm0 x w r j - mu0 x w j) * (mm0 x w r j - mu0 x w j)) (Ideal.ofBits .f32 0x46800000#32)

def bnAt0 (x : S16384x64.Idx → EReal) (w : S32x64.Idx → EReal) (g b : S1x32.Idx → EReal) (r : Fin 16384) (j : Fin 32) : EReal :=
  (mm0 x w r j - mu0 x w j) * Ideal.rsqrt (var0 x w j + Ideal.ofBits .f32 0x3727C5AC#32) * g (ix2 (0 : Fin 1) j) + b (ix2 (0 : Fin 1) j)

def bn0 (x : S16384x64.Idx → EReal) (w : S32x64.Idx → EReal) (g b : S1x32.Idx → EReal) : S16384x32.Idx → EReal :=
  fun i => bnAt0 x w g b (i 0) (i 1)

theorem bn0_apply (x : S16384x64.Idx → EReal) (w : S32x64.Idx → EReal) (g b : S1x32.Idx → EReal) (r : Fin 16384) (j : Fin 32) :
    bn0 x w g b (ix2 r j) = bnAt0 x w g b r j := rfl

theorem lhs0_0 (r : Fin 16384) (j : Fin 32) (k : dot_S16384x64_S64x32_S16384x32_1_0_0_1_n_n.contr.Idx) :
    ((dot_S16384x64_S64x32_S16384x32_1_0_0_1_n_n.lhsIdx (ix2 r j) k (0 : Fin 2)) : ℕ) = r.val := rfl

theorem lhs0_1 (r : Fin 16384) (j : Fin 32) (k : dot_S16384x64_S64x32_S16384x32_1_0_0_1_n_n.contr.Idx) :
    ((dot_S16384x64_S64x32_S16384x32_1_0_0_1_n_n.lhsIdx (ix2 r j) k (1 : Fin 2)) : ℕ) = (k ⟨0, by decide⟩).val := rfl

theorem rhs0_0 (r : Fin 16384) (j : Fin 32) (k : dot_S16384x64_S64x32_S16384x32_1_0_0_1_n_n.contr.Idx) :
    ((dot_S16384x64_S64x32_S16384x32_1_0_0_1_n_n.rhsIdx (ix2 r j) k (0 : Fin 2)) : ℕ) = (k ⟨0, by decide⟩).val := rfl

theorem rhs0_1 (r : Fin 16384) (j : Fin 32) (k : dot_S16384x64_S64x32_S16384x32_1_0_0_1_n_n.contr.Idx) :
    ((dot_S16384x64_S64x32_S16384x32_1_0_0_1_n_n.rhsIdx (ix2 r j) k (1 : Fin 2)) : ℕ) = j.val := rfl

theorem matmul0_apply (a : FVec Ideal S16384x64 .bf16) (b : FVec Ideal S64x32 .bf16) (r : Fin 16384) (j : Fin 32) :
    matmul dot_S16384x64_S64x32_S16384x32_1_0_0_1_n_n none a b (constant (F := Ideal) S16384x32 .f32 0x00000000#32) (ix2 r j)
      = ∑ k : Fin 64, a (ix2 r k) * b (ix2 k j) := by
  refine (Ideal.matmul_constant_zero_apply dot_S16384x64_S64x32_S16384x32_1_0_0_1_n_n none a b (ix2 r j)).trans ?_
  rw [← Equiv.sum_comp (contrEquiv1 dot_S16384x64_S64x32_S16384x32_1_0_0_1_n_n 64 rfl rfl).symm]
  refine Finset.sum_congr rfl fun k _ => ?_
  have hk := contrEquiv1_symm_val dot_S16384x64_S64x32_S16384x32_1_0_0_1_n_n 64 rfl rfl k
  have e1 : dot_S16384x64_S64x32_S16384x32_1_0_0_1_n_n.lhsIdx (ix2 r j)
      ((contrEquiv1 dot_S16384x64_S64x32_S16384x32_1_0_0_1_n_n 64 rfl rfl).symm k) = ix2 r k := by
    funext ax; apply Fin.ext
    match ax with
    | ⟨0, _⟩ => exact lhs0_0 _ _ _
    | ⟨1, _⟩ => exact (lhs0_1 _ _ _).trans hk
  have e2 : dot_S16384x64_S64x32_S16384x32_1_0_0_1_n_n.rhsIdx (ix2 r j)
      ((contrEquiv1 dot_S16384x64_S64x32_S16384x32_1_0_0_1_n_n 64 rfl rfl).symm k) = ix2 k j := by
    funext ax; apply Fin.ext
    match ax with
    | ⟨0, _⟩ => exact (rhs0_0 _ _ _).trans hk
    | ⟨1, _⟩ => exact rhs0_1 _ _ _
  rw [e1, e2]

theorem colsum0_apply (p : FVec Ideal S16384x32 .f32) (hφ : FKind.Formats .f32)
    (hacc : (0x00000000#32 : BitVec 32) = 0x00000000#32) (j : Fin 32) :
    multiReduction .add [0] S32 p 0x00000000#32 reduces_S16384x32_S32 hφ hacc (ix1 j) = ∑ r : Fin 16384, p (ix2 r j) := by
  refine (Ideal.multiReduction_add_single p _ reduces_S16384x32_S32 hφ hacc (ix1 j)).trans ?_
  refine Finset.sum_congr rfl fun r _ => congrArg p ?_
  funext ax; apply Fin.ext
  match ax with
  | ⟨0, _⟩ => rfl
  | ⟨1, _⟩ => rfl

theorem rsqrt0_apply {s : Shape} {φ : FTy} (a : FVec Ideal s φ) (i : s.Idx) : rsqrt a i = Ideal.rsqrt (a i) := rfl

theorem wT0_apply (w : FVec Ideal S32x64 .bf16) (k : Fin 64) (j : Fin 32) :
    transpose S64x32 [1, 0] w transposes_S32x64_p1_0_S64x32 (ix2 k j) = w (ix2 j k) :=
  transpose_ix2_apply w transposes_S32x64_p1_0_S64x32 k j

def prod0 (x0 : Vec Ideal S16384x64 .f32) (x1 : Vec Ideal S32x64 .f32) : FVec Ideal S16384x32 .f32 :=
  matmul dot_S16384x64_S64x32_S16384x32_1_0_0_1_n_n none (truncf .bf16 x0 bitsLt_bf16_f32)
    (transpose S64x32 [1, 0] (truncf .bf16 (shapeCast S32x64 x1 shapeCasts_S32x64_S32x64) bitsLt_bf16_f32) transposes_S32x64_p1_0_S64x32)
    (constant S16384x32 .f32 0x00000000#32)

def mean0 (p : FVec Ideal S16384x32 .f32) : FVec Ideal S1x32 .f32 :=
  divf (shapeCast S1x32 (multiReduction .add [0] S32 p 0x00000000#32 reduces_S16384x32_S32 (.inl rfl) rfl) shapeCasts_S32_S1x32)
    (broadcast S1x32 (Scalar.ofBits .f32 0x46800000#32))

def dev0 (p : FVec Ideal S16384x32 .f32) : FVec Ideal S16384x32 .f32 :=
  subf p (broadcastTo S16384x32 (mean0 p) broadcasts_S1x32_S16384x32)

theorem pay0_eq (x0 : Vec Ideal S16384x64 .f32) (x1 : Vec Ideal S32x64 .f32) (x2 x3 : Vec Ideal S1x32 .f32) :
    k0_pay1 (F := Ideal) x0 x1 x2 x3
      = truncf .bf16 (addf (mulf (mulf (dev0 (prod0 x0 x1))
          (broadcastTo S16384x32 (rsqrt (addf (mean0 (mulf (dev0 (prod0 x0 x1)) (dev0 (prod0 x0 x1))))
            (broadcast S1x32 (Scalar.ofBits .f32 0x3727C5AC#32)))) broadcasts_S1x32_S16384x32))
          (broadcastTo S16384x32 (shapeCast S1x32 x2 shapeCasts_S1x32_S1x32) broadcasts_S1x32_S16384x32))
          (broadcastTo S16384x32 (shapeCast S1x32 x3 shapeCasts_S1x32_S1x32) broadcasts_S1x32_S16384x32)) bitsLt_bf16_f32 := rfl

theorem prod0_apply (x0 : Vec Ideal S16384x64 .f32) (x1 : Vec Ideal S32x64 .f32) (r : Fin 16384) (j : Fin 32) :
    prod0 x0 x1 (ix2 r j) = mm0 x0 x1 r j := by
  unfold prod0 mm0
  refine (matmul0_apply _ _ r j).trans (Finset.sum_congr rfl fun k _ => ?_)
  rw [wT0_apply]
  show x0 (ix2 r k) * shapeCast S32x64 x1 shapeCasts_S32x64_S32x64 (ix2 j k) = _
  rw [shapeCast_self]

theorem mean0_apply (p : FVec Ideal S16384x32 .f32) (u : Fin 1) (j : Fin 32) :
    mean0 p (ix2 u j) = Ideal.div (∑ r : Fin 16384, p (ix2 r j)) (Ideal.ofBits .f32 0x46800000#32) := by
  unfold mean0
  rw [divf_apply, shapeCast_a_1a_apply, colsum0_apply]
  rfl

theorem dev0_apply (p : FVec Ideal S16384x32 .f32) (r : Fin 16384) (j : Fin 32) :
    dev0 p (ix2 r j) = p (ix2 r j) - Ideal.div (∑ r' : Fin 16384, p (ix2 r' j)) (Ideal.ofBits .f32 0x46800000#32) := by
  unfold dev0
  rw [subf_apply, broadcastTo_1b_ab_apply, mean0_apply]

theorem pay0_apply (x0 : Vec Ideal S16384x64 .f32) (x1 : Vec Ideal S32x64 .f32) (x2 x3 : Vec Ideal S1x32 .f32)
    (r : Fin 16384) (j : Fin 32) : k0_pay1 (F := Ideal) x0 x1 x2 x3 (ix2 r j) = bnAt0 x0 x1 x2 x3 r j := by
  rw [pay0_eq]
  rw [truncf_apply, addf_apply, mulf_apply, mulf_apply, broadcastTo_1b_ab_apply, broadcastTo_1b_ab_apply, broadcastTo_1b_ab_apply,
    rsqrt0_apply, addf_apply, mean0_apply, broadcast_apply, shapeCast_self, shapeCast_self, dev0_apply]
  simp only [mulf_apply, dev0_apply, prod0_apply]
  rfl

end Cert.KernelIdeal.HandVal

end
-- ==== Proof.KIVal0.lean ====
import proofs.«137221_j56719338111373_2_alg».proof.Proof.KIReg0
import proofs.«137221_j56719338111373_2_alg».proof.Proof.KIValBn
import proofs.«137221_j56719338111373_2_alg».proof.Proof.LibRun

set_option maxRecDepth 16384

noncomputable section

namespace Cert.KernelIdeal.HandVal

open Cert.Hand Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem payAt0 (x0 : Vec Ideal S16384x64 .f32) (x1 : Vec Ideal S32x64 .f32) (x2 x3 : Vec Ideal S1x32 .f32)
    (r : Fin 16384) (j : Fin 32) : k0_pay1 (F := Ideal) x0 x1 x2 x3 (ix2 r j) = bnAt0 x0 x1 x2 x3 r j :=
  pay0_apply x0 x1 x2 x3 r j

section Array0
variable (V : (c : Dev nD) → (b : Ref sig .tc) → Buf (Elt Ideal) ((c : Thread nD τ).loc b))

theorem idx_facts0 : ∀ t : Fin cfg0.N, (∀ a, win0_0.index t a = 0) ∧ (∀ a, win0_1.index t a = 0) ∧ (∀ a, win0_2.index t a = 0)
    ∧ (∀ a, win0_3.index t a = 0) ∧ ∀ a, win0_4.index t a = 0 :=
  (by decide +kernel : ∀ t : Fin grid0.N, _)

theorem emb0_4_eq (t : Fin cfg0.N) (y : S16384x32.Idx) : ((cfg0.win 4).blk t).view.emb y = y :=
  emb_eq_of_index_zero win0_4 t (idx_facts0 t).2.2.2.2 y y fun _ => rfl

theorem flushed0_4_eq (c : Dev nD) (t : Fin cfg0.N) :
    (dat0 (F := Ideal) V c).flushed 4 t
      = ((cfg0.win 4).blk t).view.read (Elt Ideal) (bn0 (V c main_arg5) (V c main_v21) (V c main_v22) (V c main_v23)) := by
  obtain ⟨h0, h1, h2, h3, -⟩ := idx_facts0 t
  show (cfg0.win 4).cut (grid0.coords t) ((dat0 (F := Ideal) V c).after 4 t) = _
  rw [after0_4]
  unfold out0_4
  rw [View.canon_unit_zero hz0]
  simp only [View.ld_unit_zero (S := S16384x64) hz0, View.ld_unit_zero (S := S32x64) hz0, View.ld_unit_zero (S := S1x32) hz0]
  rw [show iblk0 V c 0 t = V c main_arg5 from funext fun y => congrArg (V c main_arg5) (emb_eq_of_index_zero win0_0 t h0 y y fun _ => rfl),
    show iblk0 V c 1 t = V c main_v21 from funext fun y => congrArg (V c main_v21) (emb_eq_of_index_zero win0_1 t h1 y y fun _ => rfl),
    show iblk0 V c 2 t = V c main_v22 from funext fun y => congrArg (V c main_v22) (emb_eq_of_index_zero win0_2 t h2 y y fun _ => rfl),
    show iblk0 V c 3 t = V c main_v23 from funext fun y => congrArg (V c main_v23) (emb_eq_of_index_zero win0_3 t h3 y y fun _ => rfl)]
  funext y
  obtain ⟨r, j, rfl⟩ : ∃ (r : Fin 16384) (j : Fin 32), y = ix2 r j := ⟨y 0, y 1, eq_ix2 y⟩
  show k0_pay1 (F := Ideal) (V c main_arg5) (V c main_v21) (V c main_v22) (V c main_v23) (ix2 r j)
    = bn0 (V c main_arg5) (V c main_v21) (V c main_v22) (V c main_v23) (((cfg0.win 4).blk t).view.emb (ix2 r j))
  rw [payAt0, emb0_4_eq, bn0_apply]

theorem final0_4 (c : Dev nD) :
    (dat0 (F := Ideal) V c).arrAt 4 cfg0.N = bn0 (V c main_arg5) (V c main_v21) (V c main_v22) (V c main_v23) :=
  (dat0 (F := Ideal) V c).arrAt_eq_of_cover 4 _ (fun t _ => flushed0_4_eq V c t) (fun i => ⟨t0_0, flush0_4 t0_0, by
    have h := ((cfg0.win 4).blk t0_0).view.emb_mem_set i
    rwa [emb0_4_eq] at h⟩)

end Array0

end Cert.KernelIdeal.HandVal

end
-- ==== Proof.KIVal1.lean ====
import proofs.«137221_j56719338111373_2_alg».proof.Proof.KIReg1
import proofs.«137221_j56719338111373_2_alg».proof.Proof.LibRun

set_option maxRecDepth 16384

noncomputable section

namespace Cert.KernelIdeal.HandVal

open Cert.Hand Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

/-- Reduction over the middle axis; the casts are identities; the positional block is broadcast along the rows. -/
theorem pay1_apply (x0 : Vec Ideal S4096x8x32 .bf16) (x1 : Vec Ideal S8x32 .f32) (p : Fin 4096) (q : Fin 32) :
    k1_pay1 (F := Ideal) x0 x1 (ix2 p q)
      = (Finset.univ : Finset (Fin 8)).fold max (Ideal.ofBits .f32 0xFF800000#32)
          (fun k => max (x0 (ix3 p k q) + x1 (ix2 k q)) (Ideal.ofBits .f32 0x00000000#32)) := by
  unfold k1_pay1
  refine (Ideal.multiReduction_maximumf_single _ _ _ _ _ _).trans ?_
  refine congrArg (fun f => Finset.fold max (Ideal.ofBits .f32 0xFF800000#32) f Finset.univ) (funext fun (k : Fin 8) => ?_)
  refine (congrArg _ (lift_mid reduces_S4096x8x32_S4096x32 p q k)).trans ?_
  exact congrArg₂ (fun a b : Ideal .f32 => max (a + b) (Ideal.ofBits .f32 0x00000000#32))
    (congrFun (shapeCast_self x0 shapeCasts_S4096x8x32_S4096x8x32) (ix3 p k q))
    ((bcast_rows_apply _ _ _ p k q).trans (congrFun (shapeCast_self x1 shapeCasts_S8x32_S8x32) (ix2 k q)))

def pool1 (gf : Vec Ideal S65536x8x32 .bf16) (pf : Vec Ideal S8x32 .f32) : Vec Ideal S65536x32 .f32 :=
  fun i => (Finset.univ : Finset (Fin 8)).fold max (Ideal.ofBits .f32 0xFF800000#32)
    (fun k => max (gf (ix3 (i 0) k (i 1)) + pf (ix2 k (i 1))) (Ideal.ofBits .f32 0x00000000#32))

theorem pool1_at (gf : Vec Ideal S65536x8x32 .bf16) (pf : Vec Ideal S8x32 .f32) (i : S65536x32.Idx) :
    pool1 gf pf i = (Finset.univ : Finset (Fin 8)).fold max (Ideal.ofBits .f32 0xFF800000#32)
      (fun k => max (gf (ix3 (i 0) k (i 1)) + pf (ix2 k (i 1))) (Ideal.ofBits .f32 0x00000000#32)) := rfl

theorem pool1_apply (gf : Vec Ideal S65536x8x32 .bf16) (pf : Vec Ideal S8x32 .f32) (r : Fin 65536) (j : Fin 32) :
    pool1 gf pf (ix2 r j) = (Finset.univ : Finset (Fin 8)).fold max (Ideal.ofBits .f32 0xFF800000#32)
      (fun k => max (gf (ix3 r k j) + pf (ix2 k j)) (Ideal.ofBits .f32 0x00000000#32)) := rfl

variable (V : (c : Dev nD) → (b : Ref sig .tc) → Buf (Elt Ideal) ((c : Thread nD τ).loc b))

theorem index_facts1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed1_2_eq (c : Dev nD) (t : Fin cfg1.N) :
    (dat1 V c).flushed 2 t = ((cfg1.win 2).blk t).view.read (Elt Ideal) (pool1 (V c main_v77) (V c main_v111)) := by
  show (cfg1.win 2).cut (grid1.coords t) ((dat1 V c).after 2 t) = _
  rw [after1_2]
  unfold out1_2
  rw [View.canon_unit_zero zeros2]
  simp only [View.ld_unit_zero (S := S4096x8x32) zeros3, View.ld_unit_zero (S := S8x32) zeros2]
  obtain ⟨e00, e01, e02, e10, e11, e20, e21⟩ := index_facts1 t
  funext y
  obtain ⟨p, q, rfl⟩ : ∃ (p : Fin 4096) (q : Fin 32), y = ix2 p q := ⟨y 0, y 1, eq_ix2 y⟩
  refine (pay1_apply (iblk1 V c 0 t) (iblk1 V c 1 t) p q).trans ?_
  show _ = pool1 (V c main_v77) (V c main_v111) (((cfg1.win 2).blk t).view.emb (ix2 p q))
  refine congrArg (fun f => Finset.fold max (Ideal.ofBits .f32 0xFF800000#32) f Finset.univ) (funext fun (k : Fin 8) => ?_)
  refine congrArg₂ (fun a b : Ideal .f32 => max (a + b) (Ideal.ofBits .f32 0x00000000#32)) ?_ ?_
  · show V c main_v77 (((cfg1.win 0).blk t).view.emb (ix3 p k q)) = _
    refine congrArg (V c main_v77) (funext fun a => Fin.ext ?_)
    match a with
    | ⟨0, _⟩ => show win1_0.index t (0 : Fin 3) * 4096 + 1 * p.val = win1_2.index t (0 : Fin 2) * 4096 + 1 * p.val; omega
    | ⟨1, _⟩ => show win1_0.index t (1 : Fin 3) * 8 + 1 * k.val = k.val; omega
    | ⟨2, _⟩ => show win1_0.index t (2 : Fin 3) * 32 + 1 * q.val = win1_2.index t (1 : Fin 2) * 32 + 1 * q.val; omega
  · show V c main_v111 (((cfg1.win 1).blk t).view.emb (ix2 k q)) = _
    refine congrArg (V c main_v111) (Shape.idx_ext₂ ?_ ?_)
    · show win1_1.index t (0 : Fin 2) * 8 + 1 * k.val = k.val; omega
    · show win1_1.index t (1 : Fin 2) * 32 + 1 * q.val = win1_2.index t (1 : Fin 2) * 32 + 1 * q.val; omega

theorem covered1_2 (i : S65536x32.Idx) :
    ∃ t : Fin cfg1.N, (cfg1.win 2).flush t = true ∧ i ∈ ((cfg1.win 2).blk t).view.set := by
  have hi0 := idx2_lt0 i
  have hi1 := idx2_lt1 i
  have hlt : (i 0).val / 4096 < cfg1.N := by show _ < grid1.N; rw [N_1]; omega
  obtain ⟨-, -, -, -, -, e20, e21⟩ := index_facts1 ⟨(i 0).val / 4096, hlt⟩
  refine ⟨⟨(i 0).val / 4096, hlt⟩, flush1_2 _, ?_⟩
  show i ∈ ((View.whole main_v112).slice (win1_2.rect ⟨(i 0).val / 4096, hlt⟩)).set
  rw [View.set_slice_whole, Rect.mem_set_unit]
  intro a
  match a with
  | ⟨0, _⟩ =>
    have e : win1_2.index ⟨(i 0).val / 4096, hlt⟩ (0 : Fin 2) = (i 0).val / 4096 := e20
    show win1_2.index _ (0 : Fin 2) * 4096 ≤ (i 0).val ∧ (i 0).val < win1_2.index _ (0 : Fin 2) * 4096 + 4096
    omega
  | ⟨1, _⟩ =>
    show win1_2.index _ (1 : Fin 2) * 32 ≤ (i 1).val ∧ (i 1).val < win1_2.index _ (1 : Fin 2) * 32 + 32
    omega

theorem arrAt1_2 (c : Dev nD) : (dat1 V c).arrAt 2 cfg1.N = pool1 (V c main_v77) (V c main_v111) :=
  (dat1 V c).arrAt_eq_of_cover 2 (pool1 (V c main_v77) (V c main_v111)) (fun t _ => flushed1_2_eq V c t) covered1_2

end Cert.KernelIdeal.HandVal

end
-- ==== Proof.KIVal4.lean ====
import proofs.«137221_j56719338111373_2_alg».proof.Proof.KIReg4
import proofs.«137221_j56719338111373_2_alg».proof.Proof.KIValBn
import proofs.«137221_j56719338111373_2_alg».proof.Proof.LibRun

set_option maxRecDepth 16384

noncomputable section

namespace Cert.KernelIdeal.HandVal

open Cert.Hand Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem payAt4 (x0 : Vec Ideal S16384x64 .f32) (x1 : Vec Ideal S32x64 .f32) (x2 x3 : Vec Ideal S1x32 .f32)
    (r : Fin 16384) (j : Fin 32) : k4_pay1 (F := Ideal) x0 x1 x2 x3 (ix2 r j) = bnAt0 x0 x1 x2 x3 r j :=
  pay0_apply x0 x1 x2 x3 r j

section Array4
variable (V : (c : Dev nD) → (b : Ref sig .tc) → Buf (Elt Ideal) ((c : Thread nD τ).loc b))

theorem idx_facts4 : ∀ t : Fin cfg4.N, (∀ a, win4_0.index t a = 0) ∧ (∀ a, win4_1.index t a = 0) ∧ (∀ a, win4_2.index t a = 0)
    ∧ (∀ a, win4_3.index t a = 0) ∧ ∀ a, win4_4.index t a = 0 :=
  (by decide +kernel : ∀ t : Fin grid4.N, _)

theorem emb4_4_eq (t : Fin cfg4.N) (y : S16384x32.Idx) : ((cfg4.win 4).blk t).view.emb y = y :=
  emb_eq_of_index_zero win4_4 t (idx_facts4 t).2.2.2.2 y y fun _ => rfl

theorem flushed4_4_eq (c : Dev nD) (t : Fin cfg4.N) :
    (dat4 (F := Ideal) V c).flushed 4 t
      = ((cfg4.win 4).blk t).view.read (Elt Ideal) (bn0 (V c main_arg5) (V c main_v141) (V c main_v142) (V c main_v143)) := by
  obtain ⟨h0, h1, h2, h3, -⟩ := idx_facts4 t
  show (cfg4.win 4).cut (grid4.coords t) ((dat4 (F := Ideal) V c).after 4 t) = _
  rw [after4_4]
  unfold out4_4
  rw [View.canon_unit_zero hz4]
  simp only [View.ld_unit_zero (S := S16384x64) hz4, View.ld_unit_zero (S := S32x64) hz4, View.ld_unit_zero (S := S1x32) hz4]
  rw [show iblk4 V c 0 t = V c main_arg5 from funext fun y => congrArg (V c main_arg5) (emb_eq_of_index_zero win4_0 t h0 y y fun _ => rfl),
    show iblk4 V c 1 t = V c main_v141 from funext fun y => congrArg (V c main_v141) (emb_eq_of_index_zero win4_1 t h1 y y fun _ => rfl),
    show iblk4 V c 2 t = V c main_v142 from funext fun y => congrArg (V c main_v142) (emb_eq_of_index_zero win4_2 t h2 y y fun _ => rfl),
    show iblk4 V c 3 t = V c main_v143 from funext fun y => congrArg (V c main_v143) (emb_eq_of_index_zero win4_3 t h3 y y fun _ => rfl)]
  funext y
  obtain ⟨r, j, rfl⟩ : ∃ (r : Fin 16384) (j : Fin 32), y = ix2 r j := ⟨y 0, y 1, eq_ix2 y⟩
  show k4_pay1 (F := Ideal) (V c main_arg5) (V c main_v141) (V c main_v142) (V c main_v143) (ix2 r j)
    = bn0 (V c main_arg5) (V c main_v141) (V c main_v142) (V c main_v143) (((cfg4.win 4).blk t).view.emb (ix2 r j))
  rw [payAt4, emb4_4_eq, bn0_apply]

theorem final4_4 (c : Dev nD) :
    (dat4 (F := Ideal) V c).arrAt 4 cfg4.N = bn0 (V c main_arg5) (V c main_v141) (V c main_v142) (V c main_v143) :=
  (dat4 (F := Ideal) V c).arrAt_eq_of_cover 4 _ (fun t _ => flushed4_4_eq V c t) (fun i => ⟨t4_0, flush4_4 t4_0, by
    have h := ((cfg4.win 4).blk t4_0).view.emb_mem_set i
    rwa [emb4_4_eq] at h⟩)

end Array4

end Cert.KernelIdeal.HandVal

end
-- ==== Proof.KIVal5.lean ====
import proofs.«137221_j56719338111373_2_alg».proof.Proof.KIReg5
import proofs.«137221_j56719338111373_2_alg».proof.Proof.LibRun

set_option maxRecDepth 16384

noncomputable section

namespace Cert.KernelIdeal.HandVal

open Cert.Hand Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

/-- Reduction over the middle axis; the casts are identities; the positional block is broadcast along the rows. -/
theorem pay5_apply (x0 : Vec Ideal S512x64x32 .bf16) (x1 : Vec Ideal S64x32 .f32) (p : Fin 512) (q : Fin 32) :
    k5_pay1 (F := Ideal) x0 x1 (ix2 p q)
      = (Finset.univ : Finset (Fin 64)).fold max (Ideal.ofBits .f32 0xFF800000#32)
          (fun k => max (x0 (ix3 p k q) + x1 (ix2 k q)) (Ideal.ofBits .f32 0x00000000#32)) := by
  unfold k5_pay1
  refine (Ideal.multiReduction_maximumf_single _ _ _ _ _ _).trans ?_
  refine congrArg (fun f => Finset.fold max (Ideal.ofBits .f32 0xFF800000#32) f Finset.univ) (funext fun (k : Fin 64) => ?_)
  refine (congrArg _ (lift_mid reduces_S512x64x32_S512x32 p q k)).trans ?_
  exact congrArg₂ (fun a b : Ideal .f32 => max (a + b) (Ideal.ofBits .f32 0x00000000#32))
    (congrFun (shapeCast_self x0 shapeCasts_S512x64x32_S512x64x32) (ix3 p k q))
    ((bcast_rows_apply _ _ _ p k q).trans (congrFun (shapeCast_self x1 shapeCasts_S64x32_S64x32) (ix2 k q)))

def pool5 (gf : Vec Ideal S65536x64x32 .bf16) (pf : Vec Ideal S64x32 .f32) : Vec Ideal S65536x32 .f32 :=
  fun i => (Finset.univ : Finset (Fin 64)).fold max (Ideal.ofBits .f32 0xFF800000#32)
    (fun k => max (gf (ix3 (i 0) k (i 1)) + pf (ix2 k (i 1))) (Ideal.ofBits .f32 0x00000000#32))

theorem pool5_at (gf : Vec Ideal S65536x64x32 .bf16) (pf : Vec Ideal S64x32 .f32) (i : S65536x32.Idx) :
    pool5 gf pf i = (Finset.univ : Finset (Fin 64)).fold max (Ideal.ofBits .f32 0xFF800000#32)
      (fun k => max (gf (ix3 (i 0) k (i 1)) + pf (ix2 k (i 1))) (Ideal.ofBits .f32 0x00000000#32)) := rfl

theorem pool5_apply (gf : Vec Ideal S65536x64x32 .bf16) (pf : Vec Ideal S64x32 .f32) (r : Fin 65536) (j : Fin 32) :
    pool5 gf pf (ix2 r j) = (Finset.univ : Finset (Fin 64)).fold max (Ideal.ofBits .f32 0xFF800000#32)
      (fun k => max (gf (ix3 r k j) + pf (ix2 k j)) (Ideal.ofBits .f32 0x00000000#32)) := rfl

variable (V : (c : Dev nD) → (b : Ref sig .tc) → Buf (Elt Ideal) ((c : Thread nD τ).loc b))

theorem index_facts5 : ∀ t : Fin cfg5.N,
    win5_0.index t (0 : Fin 3) = t.val ∧ win5_0.index t (1 : Fin 3) = 0 ∧ win5_0.index t (2 : Fin 3) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem flushed5_2_eq (c : Dev nD) (t : Fin cfg5.N) :
    (dat5 V c).flushed 2 t = ((cfg5.win 2).blk t).view.read (Elt Ideal) (pool5 (V c main_v197) (V c main_v231)) := by
  show (cfg5.win 2).cut (grid5.coords t) ((dat5 V c).after 2 t) = _
  rw [after5_2]
  unfold out5_2
  rw [View.canon_unit_zero zeros2]
  simp only [View.ld_unit_zero (S := S512x64x32) zeros3, View.ld_unit_zero (S := S64x32) zeros2]
  obtain ⟨e00, e01, e02, e10, e11, e20, e21⟩ := index_facts5 t
  funext y
  obtain ⟨p, q, rfl⟩ : ∃ (p : Fin 512) (q : Fin 32), y = ix2 p q := ⟨y 0, y 1, eq_ix2 y⟩
  refine (pay5_apply (iblk5 V c 0 t) (iblk5 V c 1 t) p q).trans ?_
  show _ = pool5 (V c main_v197) (V c main_v231) (((cfg5.win 2).blk t).view.emb (ix2 p q))
  refine congrArg (fun f => Finset.fold max (Ideal.ofBits .f32 0xFF800000#32) f Finset.univ) (funext fun (k : Fin 64) => ?_)
  refine congrArg₂ (fun a b : Ideal .f32 => max (a + b) (Ideal.ofBits .f32 0x00000000#32)) ?_ ?_
  · show V c main_v197 (((cfg5.win 0).blk t).view.emb (ix3 p k q)) = _
    refine congrArg (V c main_v197) (funext fun a => Fin.ext ?_)
    match a with
    | ⟨0, _⟩ => show win5_0.index t (0 : Fin 3) * 512 + 1 * p.val = win5_2.index t (0 : Fin 2) * 512 + 1 * p.val; omega
    | ⟨1, _⟩ => show win5_0.index t (1 : Fin 3) * 64 + 1 * k.val = k.val; omega
    | ⟨2, _⟩ => show win5_0.index t (2 : Fin 3) * 32 + 1 * q.val = win5_2.index t (1 : Fin 2) * 32 + 1 * q.val; omega
  · show V c main_v231 (((cfg5.win 1).blk t).view.emb (ix2 k q)) = _
    refine congrArg (V c main_v231) (Shape.idx_ext₂ ?_ ?_)
    · show win5_1.index t (0 : Fin 2) * 64 + 1 * k.val = k.val; omega
    · show win5_1.index t (1 : Fin 2) * 32 + 1 * q.val = win5_2.index t (1 : Fin 2) * 32 + 1 * q.val; omega

theorem covered5_2 (i : S65536x32.Idx) :
    ∃ t : Fin cfg5.N, (cfg5.win 2).flush t = true ∧ i ∈ ((cfg5.win 2).blk t).view.set := by
  have hi0 := idx2_lt0 i
  have hi1 := idx2_lt1 i
  have hlt : (i 0).val / 512 < cfg5.N := by show _ < grid5.N; rw [N_5]; omega
  obtain ⟨-, -, -, -, -, e20, e21⟩ := index_facts5 ⟨(i 0).val / 512, hlt⟩
  refine ⟨⟨(i 0).val / 512, hlt⟩, flush5_2 _, ?_⟩
  show i ∈ ((View.whole main_v232).slice (win5_2.rect ⟨(i 0).val / 512, hlt⟩)).set
  rw [View.set_slice_whole, Rect.mem_set_unit]
  intro a
  match a with
  | ⟨0, _⟩ =>
    have e : win5_2.index ⟨(i 0).val / 512, hlt⟩ (0 : Fin 2) = (i 0).val / 512 := e20
    show win5_2.index _ (0 : Fin 2) * 512 ≤ (i 0).val ∧ (i 0).val < win5_2.index _ (0 : Fin 2) * 512 + 512
    omega
  | ⟨1, _⟩ =>
    show win5_2.index _ (1 : Fin 2) * 32 ≤ (i 1).val ∧ (i 1).val < win5_2.index _ (1 : Fin 2) * 32 + 32
    omega

theorem arrAt5_2 (c : Dev nD) : (dat5 V c).arrAt 2 cfg5.N = pool5 (V c main_v197) (V c main_v231) :=
  (dat5 V c).arrAt_eq_of_cover 2 (pool5 (V c main_v197) (V c main_v231)) (fun t _ => flushed5_2_eq V c t) covered5_2

end Cert.KernelIdeal.HandVal

end
-- ==== Proof.KIChainVal.lean ====
import proofs.«137221_j56719338111373_2_alg».proof.Proof.KIChain
import proofs.«137221_j56719338111373_2_alg».proof.Proof.KIChain2
import proofs.«137221_j56719338111373_2_alg».proof.Proof.KIChainArgs
import proofs.«137221_j56719338111373_2_alg».proof.Proof.KIChainArgs2
import proofs.«137221_j56719338111373_2_alg».proof.Proof.KIVal0
import proofs.«137221_j56719338111373_2_alg».proof.Proof.KIVal1
import proofs.«137221_j56719338111373_2_alg».proof.Proof.KIVal3
import proofs.«137221_j56719338111373_2_alg».proof.Proof.KIVal4
import proofs.«137221_j56719338111373_2_alg».proof.Proof.KIVal5
import proofs.«137221_j56719338111373_2_alg».proof.Proof.KIVal7

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg)

theorem val_v24 (c : Dev nD) : W29 m ρ c (Proc.devRef .tc main_v24)
    = bn0 (m ((c : Thread nD τ).loc main_arg5)) (W29 m ρ c (Proc.devRef .tc main_v21)) (W29 m ρ c (Proc.devRef .tc main_v22)) (W29 m ρ c (Proc.devRef .tc main_v23)) :=
  fin_v24_of m ρ (G := bn0) (fun V c => final0_4 V c) c

theorem val_v24_args (c : Dev nD) : W29 m ρ c (Proc.devRef .tc main_v24)
    = bn0 (m ((c : Thread nD τ).loc main_arg5)) (wIn0Of (m ((c : Thread nD τ).loc main_arg7))) (row0_32 (m ((c : Thread nD τ).loc main_arg8))) (row0_32 (m ((c : Thread nD τ).loc main_arg9))) := by
  rw [val_v24 m ρ c, fin_v21 m ρ c, fin_v22 m ρ c, fin_v23 m ρ c]

theorem val_v112 (c : Dev nD) : W29 m ρ c (Proc.devRef .tc main_v112) = pool1 (W29 m ρ c (Proc.devRef .tc main_v77)) (W29 m ρ c (Proc.devRef .tc main_v111)) :=
  fin_v112_of m ρ (G := pool1) (fun V c => arrAt1_2 V c) c

theorem val_v144 (c : Dev nD) : W29 m ρ c (Proc.devRef .tc main_v144)
    = bn0 (m ((c : Thread nD τ).loc main_arg5)) (W29 m ρ c (Proc.devRef .tc main_v141)) (W29 m ρ c (Proc.devRef .tc main_v142)) (W29 m ρ c (Proc.devRef .tc main_v143)) :=
  fin_v144_of m ρ (G := bn0) (fun V c => final4_4 V c) c

theorem val_v144_args (c : Dev nD) : W29 m ρ c (Proc.devRef .tc main_v144)
    = bn0 (m ((c : Thread nD τ).loc main_arg5)) (wIn1Of (m ((c : Thread nD τ).loc main_arg7))) (row1_32 (m ((c : Thread nD τ).loc main_arg8))) (row1_32 (m ((c : Thread nD τ).loc main_arg9))) := by
  rw [val_v144 m ρ c, fin_v141 m ρ c, fin_v142 m ρ c, fin_v143 m ρ c]

theorem val_v232 (c : Dev nD) : W29 m ρ c (Proc.devRef .tc main_v232) = pool5 (W29 m ρ c (Proc.devRef .tc main_v197)) (W29 m ρ c (Proc.devRef .tc main_v231)) :=
  fin_v232_of m ρ (G := pool5) (fun V c => arrAt5_2 V c) c

end Cert.KernelIdeal.HandVal

end
-- ==== Proof.BridgeReal.lean ====
import proofs.«137221_j56719338111373_2_alg».proof.Proof.SpecFinite
import proofs.«137221_j56719338111373_2_alg».proof.Proof.SpecBN
import proofs.«137221_j56719338111373_2_alg».proof.Proof.KIVal0
import proofs.«137221_j56719338111373_2_alg».proof.Proof.KIVal1
import proofs.«137221_j56719338111373_2_alg».proof.Proof.KIVal5
import proofs.«137221_j56719338111373_2_alg».proof.Proof.KIHostVal
import proofs.«137221_j56719338111373_2_alg».proof.Proof.KIHostVal8
import proofs.«137221_j56719338111373_2_alg».proof.Proof.KIHostVal64

noncomputable section

namespace Cert.KernelIdeal.HandVal

open Cert.KernelIdeal Cert.KernelIdeal.Gen Cert.KernelIdeal.Hand
open Idealize.ShloMosaic Idealize.ShloMosaic.ValueIdx
open Cert.Spec

theorem isReal_pool1 (gf : Vec Ideal S65536x8x32 .bf16) (pf : Vec Ideal S8x32 .f32)
    (hgf : ∀ i, IsReal (gf i)) (hpf : ∀ i, IsReal (pf i)) : ∀ i, IsReal (pool1 gf pf i) := by
  intro i
  rw [pool1_at, ofBits_neg_inf, Ideal.ofBits_zero_f32]
  exact isReal_fold_max_bot _ ⟨0, Finset.mem_univ _⟩ _ fun k _ => isReal_max_zero (isReal_add (hgf _) (hpf _))

theorem isReal_pool5 (gf : Vec Ideal S65536x64x32 .bf16) (pf : Vec Ideal S64x32 .f32)
    (hgf : ∀ i, IsReal (gf i)) (hpf : ∀ i, IsReal (pf i)) : ∀ i, IsReal (pool5 gf pf i) := by
  intro i
  rw [pool5_at, ofBits_neg_inf, Ideal.ofBits_zero_f32]
  exact isReal_fold_max_bot _ ⟨0, Finset.mem_univ _⟩ _ fun k _ => isReal_max_zero (isReal_add (hgf _) (hpf _))

theorem isReal_concatenate {t : Shape} (a : Fin t.rank) (xs : List ((s : Shape) × (s.Idx → EReal)))
    (h : Shape.Concatenates (xs.map (·.1)) t a) (hx : ∀ p ∈ xs, ∀ i, IsReal (p.2 i)) :
    ∀ j, IsReal (concatenate t a xs h j) := by
  intro j
  unfold concatenate
  exact hx _ (List.getElem_mem _) _

theorem isReal_sitofp {s : Shape} {w : Nat} (x : IVec s w) : ∀ j, IsReal (sitofp (F := Ideal) .f32 x j) :=
  fun j => ⟨((x j).toInt : ℝ), rfl⟩

theorem isReal_addf {s : Shape} {φ : FTy} (x y : FVec Ideal s φ) (hx : ∀ i, IsReal (x i)) (hy : ∀ i, IsReal (y i)) :
    ∀ j, IsReal (addf x y j) := fun j => isReal_add (hx j) (hy j)

theorem isReal_subf {s : Shape} {φ : FTy} (x y : FVec Ideal s φ) (hx : ∀ i, IsReal (x i)) (hy : ∀ i, IsReal (y i)) :
    ∀ j, IsReal (subf x y j) := fun j => isReal_sub (hx j) (hy j)

theorem isReal_mulf {s : Shape} {φ : FTy} (x y : FVec Ideal s φ) (hx : ∀ i, IsReal (x i)) (hy : ∀ i, IsReal (y i)) :
    ∀ j, IsReal (mulf x y j) := fun j => isReal_mul (hx j) (hy j)

theorem isReal_hostDivf {s : Shape} {φ : FTy} (x y : FVec Ideal s φ) (hx : ∀ i, IsReal (x i)) (hy : ∀ i, IsReal (y i))
    (h0 : ∀ i, y i ≠ 0) : ∀ j, IsReal (Host.divf x y j) := fun j => isReal_div (hx j) (hy j) (h0 j)

theorem isReal_hostReduceAdd {s t u : Shape} {φ : FTy} {axes : List (Fin s.rank)} (x : FVec Ideal s φ) (init : u.Idx → Ideal φ)
    (h : s.ReducesTo axes t) (hu : 0 < u.numel) (hx : ∀ i, IsReal (x i)) (hinit : ∀ k, IsReal (init k)) :
    ∀ j, IsReal (Host.reduceAdd x init h hu j) := fun j =>
  isReal_add (hinit _) (isReal_sum _ _ fun i _ => hx i)

theorem isReal_hostDotGeneral {sl sr so : Shape} {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) :
    ∀ j, IsReal (Host.dotGeneral d prec lhs rhs j) := by
  intro j
  show IsReal (FloatOps.dotGeneral d prec .single lhs rhs j)
  rw [Ideal.dotGeneral_apply]
  exact isReal_dot _ _ _ (fun k _ => hl _) (fun k _ => hr _)

theorem isReal_wIn0Of (w : Cn Ideal S2x32x64 .f32) (hw : ∀ i, IsReal (w i)) : ∀ j, IsReal (wIn0Of w j) := fun _ => hw _
theorem isReal_wIn1Of (w : Cn Ideal S2x32x64 .f32) (hw : ∀ i, IsReal (w i)) : ∀ j, IsReal (wIn1Of w j) := fun _ => hw _
theorem isReal_row0_32 (g : Cn Ideal S2x32 .f32) (hg : ∀ i, IsReal (g i)) : ∀ j, IsReal (row0_32 g j) := fun _ => hg _
theorem isReal_row1_32 (g : Cn Ideal S2x32 .f32) (hg : ∀ i, IsReal (g i)) : ∀ j, IsReal (row1_32 g j) := fun _ => hg _
theorem isReal_padRows (f : Cn Ideal S16384x32 .bf16) (hf : ∀ i, IsReal (f i)) : ∀ j, IsReal (padRows f j) := by
  unfold padRows
  refine isReal_concatenate _ _ _ ?_
  intro p hp i
  simp only [List.mem_cons, List.not_mem_nil, or_false] at hp
  rcases hp with rfl | rfl
  · exact ⟨0, ofBits_zero_bf16.trans EReal.coe_zero.symm⟩
  · exact hf i

theorem div_nonneg_of_isReal {x y : EReal} (hx : IsReal x) (h0 : 0 ≤ x) (hy : IsReal y) (hpos : 0 < y) :
    0 ≤ Ideal.div x y := by
  obtain ⟨a, rfl⟩ := hx; obtain ⟨c, rfl⟩ := hy
  have hc : 0 < c := EReal.coe_pos.mp hpos
  rw [div_coe a c hc.ne']
  exact EReal.coe_nonneg.mpr (div_nonneg (EReal.coe_nonneg.mp h0) hc.le)

theorem mul_self_nonneg_of_isReal {x : EReal} (hx : IsReal x) : 0 ≤ x * x := by
  obtain ⟨a, rfl⟩ := hx
  rw [← EReal.coe_mul]; exact EReal.coe_nonneg.mpr (mul_self_nonneg a)

theorem isReal_gatherPadded8 (fpad : Cn Ideal S16385x32 .bf16) (ix : Cn Ideal S65536x8x1 .i32)
    (hf : ∀ i, IsReal (fpad i)) : ∀ j, IsReal (gatherPadded8 fpad ix j) := fun _ => hf _

theorem isReal_colMean8 (x : Cn Ideal S8x32 .f32) (hx : ∀ i, IsReal (x i)) : ∀ j, IsReal (colMean8 x j) := by
  unfold colMean8
  refine isReal_hostDivf _ _ (fun _ => ?_) (fun _ => ⟨8, ofBits_8⟩) (fun _ => ?_)
  · exact isReal_hostReduceAdd x _ _ _ hx (fun _ => ⟨0, Ideal.ofBits_zero_f32.trans EReal.coe_zero.symm⟩) _
  · show Ideal.ofBits .f32 0x41000000#32 ≠ 0
    rw [ofBits_8]; exact_mod_cast (by norm_num : (8 : ℝ) ≠ 0)

theorem isReal_centred8 (x : Cn Ideal S8x32 .f32) (hx : ∀ i, IsReal (x i)) : ∀ j, IsReal (centred8 x j) := by
  unfold centred8
  exact isReal_subf _ _ hx (fun _ => isReal_colMean8 x hx _)

theorem isReal_colVar8 (x : Cn Ideal S8x32 .f32) (hx : ∀ i, IsReal (x i)) : ∀ j, IsReal (colVar8 x j) := by
  unfold colVar8
  exact isReal_colMean8 _ (isReal_mulf _ _ (isReal_centred8 x hx) (isReal_centred8 x hx))

theorem colVar8_nonneg (x : Cn Ideal S8x32 .f32) (hx : ∀ i, IsReal (x i)) : ∀ j, 0 ≤ colVar8 x j := by
  intro j
  have hc := isReal_centred8 x hx
  unfold colVar8 colMean8
  refine div_nonneg_of_isReal ?_ ?_ ⟨8, ofBits_8⟩ ?_
  · exact isReal_hostReduceAdd _ _ _ _ (isReal_mulf _ _ hc hc)
      (fun _ => ⟨0, Ideal.ofBits_zero_f32.trans EReal.coe_zero.symm⟩) _
  · show 0 ≤ Ideal.ofBits .f32 0x00000000#32 + ∑ i ∈ _, centred8 x i * centred8 x i
    rw [Ideal.ofBits_zero_f32, zero_add]
    exact Finset.sum_nonneg fun i _ => mul_self_nonneg_of_isReal (hc i)
  · show 0 < Ideal.ofBits .f32 0x41000000#32
    rw [ofBits_8]; exact EReal.coe_pos.mpr (by norm_num)

theorem isReal_bnRows8 (x : Cn Ideal S8x32 .f32) (g b : Cn Ideal S32 .f32) (hx : ∀ i, IsReal (x i))
    (hg : ∀ i, IsReal (g i)) (hb : ∀ i, IsReal (b i)) : ∀ j, IsReal (bnRows8 x g b j) := by
  unfold bnRows8
  refine isReal_addf _ _ (isReal_mulf _ _ (isReal_mulf _ _ (isReal_centred8 x hx) (fun _ => ?_)) (fun _ => hg _)) (fun _ => hb _)
  exact isReal_rsqrt_add_eps (isReal_colVar8 x hx _) (colVar8_nonneg x hx _)

theorem isReal_posBN8 (off : Cn Ideal S8x4 .i32) (wpos : Cn Ideal S2x32x3 .f32) (g b : Cn Ideal S2x32 .f32)
    (hw : ∀ i, IsReal (wpos i)) (hg : ∀ i, IsReal (g i)) (hb : ∀ i, IsReal (b i)) :
    ∀ j, IsReal (posBN8 off wpos g b j) := by
  unfold posBN8
  exact isReal_bnRows8 _ _ _ (isReal_hostDotGeneral _ _ _ _ (isReal_sitofp _) fun _ => hw _) (fun _ => hg _) (fun _ => hb _)

theorem isReal_gatherPadded64 (fpad : Cn Ideal S16385x32 .bf16) (ix : Cn Ideal S65536x64x1 .i32)
    (hf : ∀ i, IsReal (fpad i)) : ∀ j, IsReal (gatherPadded64 fpad ix j) := fun _ => hf _

theorem isReal_colMean64 (x : Cn Ideal S64x32 .f32) (hx : ∀ i, IsReal (x i)) : ∀ j, IsReal (colMean64 x j) := by
  unfold colMean64
  refine isReal_hostDivf _ _ (fun _ => ?_) (fun _ => ⟨64, ofBits_64⟩) (fun _ => ?_)
  · exact isReal_hostReduceAdd x _ _ _ hx (fun _ => ⟨0, Ideal.ofBits_zero_f32.trans EReal.coe_zero.symm⟩) _
  · show Ideal.ofBits .f32 0x42800000#32 ≠ 0
    rw [ofBits_64]; exact_mod_cast (by norm_num : (64 : ℝ) ≠ 0)

theorem isReal_centred64 (x : Cn Ideal S64x32 .f32) (hx : ∀ i, IsReal (x i)) : ∀ j, IsReal (centred64 x j) := by
  unfold centred64
  exact isReal_subf _ _ hx (fun _ => isReal_colMean64 x hx _)

theorem isReal_colVar64 (x : Cn Ideal S64x32 .f32) (hx : ∀ i, IsReal (x i)) : ∀ j, IsReal (colVar64 x j) := by
  unfold colVar64
  exact isReal_colMean64 _ (isReal_mulf _ _ (isReal_centred64 x hx) (isReal_centred64 x hx))

theorem colVar64_nonneg (x : Cn Ideal S64x32 .f32) (hx : ∀ i, IsReal (x i)) : ∀ j, 0 ≤ colVar64 x j := by
  intro j
  have hc := isReal_centred64 x hx
  unfold colVar64 colMean64
  refine div_nonneg_of_isReal ?_ ?_ ⟨64, ofBits_64⟩ ?_
  · exact isReal_hostReduceAdd _ _ _ _ (isReal_mulf _ _ hc hc)
      (fun _ => ⟨0, Ideal.ofBits_zero_f32.trans EReal.coe_zero.symm⟩) _
  · show 0 ≤ Ideal.ofBits .f32 0x00000000#32 + ∑ i ∈ _, centred64 x i * centred64 x i
    rw [Ideal.ofBits_zero_f32, zero_add]
    exact Finset.sum_nonneg fun i _ => mul_self_nonneg_of_isReal (hc i)
  · show 0 < Ideal.ofBits .f32 0x42800000#32
    rw [ofBits_64]; exact EReal.coe_pos.mpr (by norm_num)

theorem isReal_bnRows64 (x : Cn Ideal S64x32 .f32) (g b : Cn Ideal S32 .f32) (hx : ∀ i, IsReal (x i))
    (hg : ∀ i, IsReal (g i)) (hb : ∀ i, IsReal (b i)) : ∀ j, IsReal (bnRows64 x g b j) := by
  unfold bnRows64
  refine isReal_addf _ _ (isReal_mulf _ _ (isReal_mulf _ _ (isReal_centred64 x hx) (fun _ => ?_)) (fun _ => hg _)) (fun _ => hb _)
  exact isReal_rsqrt_add_eps (isReal_colVar64 x hx _) (colVar64_nonneg x hx _)

theorem isReal_posBN64 (off : Cn Ideal S64x4 .i32) (wpos : Cn Ideal S2x32x3 .f32) (g b : Cn Ideal S2x32 .f32)
    (hw : ∀ i, IsReal (wpos i)) (hg : ∀ i, IsReal (g i)) (hb : ∀ i, IsReal (b i)) :
    ∀ j, IsReal (posBN64 off wpos g b j) := by
  unfold posBN64
  exact isReal_bnRows64 _ _ _ (isReal_hostDotGeneral _ _ _ _ (isReal_sitofp _) fun _ => hw _) (fun _ => hg _) (fun _ => hb _)

theorem isReal_mm0 (x : S16384x64.Idx → EReal) (w : S32x64.Idx → EReal) (hx : ∀ i, IsReal (x i))
    (hw : ∀ i, IsReal (w i)) (r : Fin 16384) (j : Fin 32) : IsReal (mm0 x w r j) :=
  isReal_dot _ _ _ (fun _ _ => hx _) (fun _ _ => hw _)

theorem isReal_bn0 (x : S16384x64.Idx → EReal) (w : S32x64.Idx → EReal) (g b : S1x32.Idx → EReal)
    (hx : ∀ i, IsReal (x i)) (hw : ∀ i, IsReal (w i)) (hg : ∀ i, IsReal (g i)) (hb : ∀ i, IsReal (b i)) :
    ∀ i, IsReal (bn0 x w g b i) := fun i =>
  isReal_bn (s := Finset.univ) (o := fun r => mm0 x w r (i 1)) (fun r _ => isReal_mm0 x w hx hw r (i 1))
    (word_card_16384 (Fintype.card_fin _)) Finset.univ_nonempty (isReal_mm0 x w hx hw (i 0) (i 1)) (hg _) (hb _)

end Cert.KernelIdeal.HandVal

end
-- ==== Proof.PreFinite.lean ====
import proofs.«137221_j56719338111373_2_alg».proof.Defs
import proofs.«137221_j56719338111373_2_alg».proof.Proof.Gen.Pre_finite_inputs
import Idealize.ShloMosaic.Lib.ReduceAll
import Idealize.ShloMosaic.Lib.ValueIdx
import Idealize.ShloMosaic.PureOps.Ideal

noncomputable section

namespace Cert.Spec.PreFinite

open Idealize.ShloMosaic

instance : Subsingleton Cert.Pre_finite_inputs.S_.Idx := ⟨fun a b => funext fun d => d.elim0⟩

theorem real_of_abs_lt_top (x : EReal) (h : max x (-x) < ⊤) : ∃ r : ℝ, x = (r : EReal) := by
  induction x using EReal.rec with
  | bot => simp at h
  | coe r => exact ⟨r, rfl⟩
  | top => simp at h

theorem inf_word : Ideal.ofBits .f32 0x7F800000#32 = (⊤ : EReal) := by
  simp [Ideal.ofBits, Ideal.ieee]

theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi (cmpf .olt (Host.absf a) (broadcastInDim s ![] hb (constant Cert.Pre_finite_inputs.S_ .f32 0x7F800000#32)))
          (constantI Cert.Pre_finite_inputs.S_ 1 1#1) hr hu ValueIdx.ix0 = 1#1)
    (i : s.Idx) : ∃ r : ℝ, a i = (r : EReal) := by
  have hi := Host.reduce_andi_all _ _ hr hu _ e i
  apply real_of_abs_lt_top
  have h2 : Ideal.cmp .olt (max (a i) (-a i)) (Ideal.ofBits .f32 0x7F800000#32) = 1#1 := hi
  rw [inf_word] at h2
  have h3 : ∀ b : Bool, BitVec.ofBool b = 1#1 → b = true := by decide
  simp [Ideal.cmp] at h2
  have h4 := h3 _ h2
  simpa using h4

variable [Cert.Pre_finite_inputs.Facts]

open Cert.Pre_finite_inputs in

theorem real_args (a0 : FVec Ideal S16384x3 .f32) (a1 a3 : IVec S2 32) (a2 : FVec Ideal S65536x3 .f32) (a4 : IVec S65536x4 32)
    (a5 : FVec Ideal S16384x64 .f32) (a6 : IVec S2x11x200x176 32) (a7 : FVec Ideal S2x32x64 .f32) (a8 a9 : FVec Ideal S2x32 .f32)
    (a10 : FVec Ideal S2x32x3 .f32) (a11 a12 : FVec Ideal S2x32 .f32) (a13 : FVec Ideal S2x64x32 .f32) (a14 a15 : FVec Ideal S2x64 .f32)
    (h : fn (F := Ideal) a0 a1 a2 a3 a4 a5 a6 a7 a8 a9 a10 a11 a12 a13 a14 a15 = fun _ => 1#1) :
    (∀ i, ∃ r : ℝ, a5 i = (r : EReal)) ∧ (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal)) ∧ (∀ i, ∃ r : ℝ, a11 i = (r : EReal))
      ∧ (∀ i, ∃ r : ℝ, a12 i = (r : EReal)) ∧ (∀ i, ∃ r : ℝ, a13 i = (r : EReal)) ∧ (∀ i, ∃ r : ℝ, a14 i = (r : EReal))
      ∧ (∀ i, ∃ r : ℝ, a15 i = (r : EReal)) := by
  have h0 := congrFun h ValueIdx.ix0
  dsimp only [fn, fn_part1, fn_part2, fn_part3] at h0
  obtain ⟨h0, e15⟩ := IntOp.andi_eq_one.1 (show IntOp.andi _ _ = 1#1 from h0)
  obtain ⟨h0, e14⟩ := IntOp.andi_eq_one.1 (show IntOp.andi _ _ = 1#1 from h0)
  obtain ⟨h0, e13⟩ := IntOp.andi_eq_one.1 (show IntOp.andi _ _ = 1#1 from h0)
  obtain ⟨h0, e12⟩ := IntOp.andi_eq_one.1 (show IntOp.andi _ _ = 1#1 from h0)
  obtain ⟨h0, e11⟩ := IntOp.andi_eq_one.1 (show IntOp.andi _ _ = 1#1 from h0)
  obtain ⟨h0, e10⟩ := IntOp.andi_eq_one.1 (show IntOp.andi _ _ = 1#1 from h0)
  obtain ⟨h0, e9⟩ := IntOp.andi_eq_one.1 (show IntOp.andi _ _ = 1#1 from h0)
  obtain ⟨h0, e8⟩ := IntOp.andi_eq_one.1 (show IntOp.andi _ _ = 1#1 from h0)
  obtain ⟨h0, e7⟩ := IntOp.andi_eq_one.1 (show IntOp.andi _ _ = 1#1 from h0)
  obtain ⟨-, e5⟩ := IntOp.andi_eq_one.1 (show IntOp.andi _ _ = 1#1 from h0)
  exact ⟨real_of_all a5 _ _ _ e5, real_of_all a7 _ _ _ e7, real_of_all a8 _ _ _ e8, real_of_all a9 _ _ _ e9,
    real_of_all a10 _ _ _ e10, real_of_all a11 _ _ _ e11, real_of_all a12 _ _ _ e12, real_of_all a13 _ _ _ e13,
    real_of_all a14 _ _ _ e14, real_of_all a15 _ _ _ e15⟩

end Cert.Spec.PreFinite
end
-- ==== Proof.BridgeReal0.lean ====
import proofs.«137221_j56719338111373_2_alg».proof.Proof.BridgeReal
import proofs.«137221_j56719338111373_2_alg».proof.Proof.KIChain
import proofs.«137221_j56719338111373_2_alg».proof.Proof.PreFinite

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Cert.Spec

variable [Cert.Pre_finite_inputs.Facts]
variable (m : (ℓ : Loc nD τ sig) → Buf (Elt Ideal) ℓ) (ρ : Dev nD → PrngReg)

theorem args_real (hpre : Cert.Pre_KernelIdeal m) (c : Dev nD) :
    (∀ i, IsReal (m ((c : Thread nD τ).loc main_arg5) i)) ∧ (∀ i, IsReal (m ((c : Thread nD τ).loc main_arg7) i))
      ∧ (∀ i, IsReal (m ((c : Thread nD τ).loc main_arg8) i)) ∧ (∀ i, IsReal (m ((c : Thread nD τ).loc main_arg9) i))
      ∧ (∀ i, IsReal (m ((c : Thread nD τ).loc main_arg10) i)) ∧ (∀ i, IsReal (m ((c : Thread nD τ).loc main_arg11) i))
      ∧ (∀ i, IsReal (m ((c : Thread nD τ).loc main_arg12) i)) ∧ (∀ i, IsReal (m ((c : Thread nD τ).loc main_arg13) i))
      ∧ (∀ i, IsReal (m ((c : Thread nD τ).loc main_arg14) i)) ∧ (∀ i, IsReal (m ((c : Thread nD τ).loc main_arg15) i)) :=
  Cert.Spec.PreFinite.real_args _ _ _ _ _ _ _ _ _ _ _ _ _ _ _ _ (hpre c)

theorem arg5_real (hpre : Cert.Pre_KernelIdeal m) (c : Dev nD) : ∀ i, IsReal (m ((c : Thread nD τ).loc main_arg5) i) :=
  (args_real m hpre c).1
theorem arg7_real (hpre : Cert.Pre_KernelIdeal m) (c : Dev nD) : ∀ i, IsReal (m ((c : Thread nD τ).loc main_arg7) i) :=
  (args_real m hpre c).2.1
theorem arg8_real (hpre : Cert.Pre_KernelIdeal m) (c : Dev nD) : ∀ i, IsReal (m ((c : Thread nD τ).loc main_arg8) i) :=
  (args_real m hpre c).2.2.1
theorem arg9_real (hpre : Cert.Pre_KernelIdeal m) (c : Dev nD) : ∀ i, IsReal (m ((c : Thread nD τ).loc main_arg9) i) :=
  (args_real m hpre c).2.2.2.1
theorem arg10_real (hpre : Cert.Pre_KernelIdeal m) (c : Dev nD) : ∀ i, IsReal (m ((c : Thread nD τ).loc main_arg10) i) :=
  (args_real m hpre c).2.2.2.2.1
theorem arg11_real (hpre : Cert.Pre_KernelIdeal m) (c : Dev nD) : ∀ i, IsReal (m ((c : Thread nD τ).loc main_arg11) i) :=
  (args_real m hpre c).2.2.2.2.2.1
theorem arg12_real (hpre : Cert.Pre_KernelIdeal m) (c : Dev nD) : ∀ i, IsReal (m ((c : Thread nD τ).loc main_arg12) i) :=
  (args_real m hpre c).2.2.2.2.2.2.1
theorem arg13_real (hpre : Cert.Pre_KernelIdeal m) (c : Dev nD) : ∀ i, IsReal (m ((c : Thread nD τ).loc main_arg13) i) :=
  (args_real m hpre c).2.2.2.2.2.2.2.1
theorem v21_real (hpre : Cert.Pre_KernelIdeal m) (c : Dev nD) : ∀ i, IsReal (W29 m ρ c (Proc.devRef .tc main_v21) i) := by
  rw [fin_v21 m ρ c]; exact isReal_wIn0Of _ (arg7_real m hpre c)

theorem v22_real (hpre : Cert.Pre_KernelIdeal m) (c : Dev nD) : ∀ i, IsReal (W29 m ρ c (Proc.devRef .tc main_v22) i) := by
  rw [fin_v22 m ρ c]; exact isReal_row0_32 _ (arg8_real m hpre c)

theorem v23_real (hpre : Cert.Pre_KernelIdeal m) (c : Dev nD) : ∀ i, IsReal (W29 m ρ c (Proc.devRef .tc main_v23) i) := by
  rw [fin_v23 m ρ c]; exact isReal_row0_32 _ (arg9_real m hpre c)

theorem v24_real (hpre : Cert.Pre_KernelIdeal m) (c : Dev nD) : ∀ i, IsReal (W29 m ρ c (Proc.devRef .tc main_v24) i) := by
  rw [fin_v24_of m ρ (G := bn0) (fun V c => final0_4 V c) c]
  exact isReal_bn0 _ _ _ _ (arg5_real m hpre c) (v21_real m ρ hpre c) (v22_real m ρ hpre c) (v23_real m ρ hpre c)

theorem v26_real (hpre : Cert.Pre_KernelIdeal m) (c : Dev nD) : ∀ i, IsReal (W29 m ρ c (Proc.devRef .tc main_v26) i) := by
  rw [fin_v26 m ρ c]; exact isReal_padRows _ (v24_real m ρ hpre c)

theorem v77_real (hpre : Cert.Pre_KernelIdeal m) (c : Dev nD) : ∀ i, IsReal (W29 m ρ c (Proc.devRef .tc main_v77) i) := by
  rw [fin_v77 m ρ c]; exact isReal_gatherPadded8 _ _ (v26_real m ρ hpre c)

theorem v111_real (hpre : Cert.Pre_KernelIdeal m) (c : Dev nD) : ∀ i, IsReal (W29 m ρ c (Proc.devRef .tc main_v111) i) := by
  rw [fin_v111 m ρ c]
  exact isReal_posBN8 _ _ _ _ (arg10_real m hpre c) (arg11_real m hpre c) (arg12_real m hpre c)

theorem nf0_real (hpre : Cert.Pre_KernelIdeal m) (c : Dev nD) : ∀ i, IsReal (W29 m ρ c (Proc.devRef .tc main_v112) i) := by
  rw [fin_v112_of m ρ (G := pool1) (fun V c => arrAt1_2 V c) c]
  exact isReal_pool1 _ _ (v77_real m ρ hpre c) (v111_real m ρ hpre c)

end Cert.KernelIdeal.HandVal

end
-- ==== Proof.RefVal2.lean ====
import proofs.«137221_j56719338111373_2_alg».proof.Proof.RefOps
import Idealize.ShloMosaic.Lib.StableHlo.Run

set_option maxRecDepth 8192

noncomputable section

namespace Cert.ReferenceIdeal.HandVal

open Cert.ReferenceIdeal Cert.ReferenceIdeal.Gen Cert.ReferenceIdeal.Hand
open Idealize.ShloMosaic Idealize.ShloMosaic.TcCoe Idealize.SL.Sem Idealize.ShloMosaic.StableHlo

variable {F : FTy → Type} [FloatOps F]

abbrev Cn (F : FTy → Type) (s : Shape) (e : EltTy) : Type := (⟨s, e⟩ : BufTy).Contents (Elt F)

def wrapIdx8 (neg : Cn F S65536x8 .i1) (ix : Cn F S65536x8 .i32) : Cn F S65536x8x1 .i32 :=
  broadcastInDim S65536x8x1 ![0, 1] bcast_S65536x8_S65536x8x1_0_1
    (select neg (addi ix (broadcastInDim S65536x8 ![] bcast_S_S65536x8 (constantI S_ 32 16385#32))) ix)

def gfRef8 (tbl : Cn F S16385x32 .f32) (neg : Cn F S65536x8 .i1) (ix : Cn F S65536x8 .i32) : Cn F S65536x8x32 .f32 :=
  Host.gather gather_S16385x32_S65536x8x1_S65536x8x32_2_0_n_n_0_2_132 tbl (wrapIdx8 neg ix)

def offF8 (off : Cn F S8x4 .i32) : Cn F S8x3 .f32 :=
  sitofp .f32 (extractStridedSlice S8x3 ![0, 1] off slices_S8x4_S8x3_0_1)

def wPos0T (w : Cn F S2x32x3 .f32) : Cn F S3x32 .f32 :=
  transpose S3x32 [1, 0]
    (shapeCast S32x3 (extractStridedSlice S1x32x3 ![0, 0, 0] w slices_S2x32x3_S1x32x3_0_0_0) shapeCasts_S1x32x3_S32x3)
    transposes_S32x3_S3x32_1_0

def posDot8 (off : Cn F S8x4 .i32) (w : Cn F S2x32x3 .f32) : Cn F S8x32 .f32 :=
  Host.dotGeneral dot_S8x3_S3x32_S8x32_1_0_0_1_n_n none (offF8 off) (wPos0T w)

def vec0_32 (g : Cn F S2x32 .f32) : Cn F S32 .f32 :=
  shapeCast S32 (extractStridedSlice S1x32 ![0, 0] g slices_S2x32_S1x32_0_0) shapeCasts_S1x32_S32

def rows8 (v : Cn F S1x32 .f32) : Cn F S8x32 .f32 := broadcastInDim S8x32 ![0, 1] bcast_S1x32_S8x32_0_1 v

def row32 (v : Cn F S32 .f32) : Cn F S1x32 .f32 := broadcastInDim S1x32 ![1] bcast_S32_S1x32_1 v

def splat32 (v : Cn F S_ .f32) : Cn F S1x32 .f32 := broadcastInDim S1x32 ![] bcast_S_S1x32 v

def colSum8 (x : Cn F S8x32 .f32) : Cn F S1x32 .f32 :=
  row32 (Host.reduceAdd x (constant S_ .f32 0x00000000#32) reducesTo_S8x32_S32_d0 h_S_)

def colMean8 (x : Cn F S8x32 .f32) : Cn F S1x32 .f32 :=
  Host.divf (colSum8 x) (splat32 (constant S_ .f32 0x41000000#32))

def norm8 : Cn F S_ .f32 := subf (constant S_ .f32 0x41000000#32) (sitofp .f32 (constantI S_ 32 0#32))

def colVar8 (x : Cn F S8x32 .f32) : Cn F S1x32 .f32 :=
  select (broadcastInDim S1x32 ![] bcast_S_S1x32 (cmpf .ogt (norm8 (F := F)) (constant S_ .f32 0x00000000#32)))
    (Host.divf (colSum8 (mulf (subf x (rows8 (colMean8 x))) (subf x (rows8 (colMean8 x))))) (splat32 (norm8 (F := F))))
    (splat32 (constant S_ .f32 0x7FC00000#32))

def bnWith8 (x : Cn F S8x32 .f32) (var : Cn F S1x32 .f32) (g b : Cn F S32 .f32) : Cn F S8x32 .f32 :=
  addf
    (mulf
      (mulf (subf x (rows8 (colMean8 x)))
        (rows8 (Host.rsqrt (addf var (splat32 (constant S_ .f32 0x3727C5AC#32))))))
      (rows8 (row32 g)))
    (rows8 (row32 b))

def posBNRef8 (x : Cn F S8x32 .f32) (g b : Cn F S2x32 .f32) : Cn F S8x32 .f32 :=
  bnWith8 x (colVar8 x) (vec0_32 g) (vec0_32 b)

def overPoints8 (pf : Cn F S8x32 .f32) : Cn F S65536x8x32 .f32 :=
  broadcastInDim S65536x8x32 ![0, 1, 2] bcast_S1x8x32_S65536x8x32_0_1_2
    (broadcastInDim S1x8x32 ![1, 2] bcast_S8x32_S1x8x32_1_2 pf)

def reluSum8 (gf : Cn F S65536x8x32 .f32) (pf : Cn F S8x32 .f32) : Cn F S65536x8x32 .f32 :=
  maximumf (addf gf (overPoints8 pf)) (broadcastInDim S65536x8x32 ![] bcast_S_S65536x8x32 (constant S_ .f32 0x00000000#32))

def poolRef8 (gf : Cn F S65536x8x32 .f32) (pf : Cn F S8x32 .f32) : Cn F S65536x32 .f32 :=
  Host.reduce FloatOps.maximumf (reluSum8 gf pf) (constant S_ .f32 0xFF800000#32) reducesTo_S65536x8x32_S65536x32_d1 h_S_

def wOut0T (w : Cn F S2x64x32 .f32) : Cn F S32x64 .f32 :=
  transpose S32x64 [1, 0]
    (shapeCast S64x32 (extractStridedSlice S1x64x32 ![0, 0, 0] w slices_S2x64x32_S1x64x32_0_0_0) shapeCasts_S1x64x32_S64x32)
    transposes_S64x32_S32x64_1_0

def outDot (nf : Cn F S65536x32 .f32) (wT : Cn F S32x64 .f32) : Cn F S65536x64 .f32 :=
  Host.dotGeneral dot_S65536x32_S32x64_S65536x64_1_0_0_1_n_n none nf wT

def vec0_64 (g : Cn F S2x64 .f32) : Cn F S64 .f32 :=
  shapeCast S64 (extractStridedSlice S1x64 ![0, 0] g slices_S2x64_S1x64_0_0) shapeCasts_S1x64_S64

def rowsAll (v : Cn F S1x64 .f32) : Cn F S65536x64 .f32 := broadcastInDim S65536x64 ![0, 1] bcast_S1x64_S65536x64_0_1 v

def row64 (v : Cn F S64 .f32) : Cn F S1x64 .f32 := broadcastInDim S1x64 ![1] bcast_S64_S1x64_1 v

def splat64 (v : Cn F S_ .f32) : Cn F S1x64 .f32 := broadcastInDim S1x64 ![] bcast_S_S1x64 v

def colSumAll (o : Cn F S65536x64 .f32) : Cn F S1x64 .f32 :=
  row64 (Host.reduceAdd o (constant S_ .f32 0x00000000#32) reducesTo_S65536x64_S64_d0 h_S_)

def colMeanAll (o : Cn F S65536x64 .f32) : Cn F S1x64 .f32 :=
  Host.divf (colSumAll o) (splat64 (constant S_ .f32 0x47800000#32))

def normAll : Cn F S_ .f32 := subf (constant S_ .f32 0x47800000#32) (sitofp .f32 (constantI S_ 32 0#32))

def colVarAll (o : Cn F S65536x64 .f32) : Cn F S1x64 .f32 :=
  select (broadcastInDim S1x64 ![] bcast_S_S1x64 (cmpf .ogt (normAll (F := F)) (constant S_ .f32 0x00000000#32)))
    (Host.divf (colSumAll (mulf (subf o (rowsAll (colMeanAll o))) (subf o (rowsAll (colMeanAll o))))) (splat64 (normAll (F := F))))
    (splat64 (constant S_ .f32 0x7FC00000#32))

def normRef (o : Cn F S65536x64 .f32) (mean var : Cn F S1x64 .f32) (g b : Cn F S64 .f32) : Cn F S65536x64 .f32 :=
  maximumf
    (addf
      (mulf
        (mulf (subf o (rowsAll mean)) (rowsAll (Host.rsqrt (addf var (splat64 (constant S_ .f32 0x3727C5AC#32))))))
        (rowsAll (row64 g)))
      (rowsAll (row64 b)))
    (broadcastInDim S65536x64 ![] bcast_S_S65536x64 (constant S_ .f32 0x00000000#32))

abbrev nfOf (V : Valuation τ sig (Elt F)) : Cn F S65536x32 .f32 :=
  poolRef8 (gfRef8 (V (Proc.devRef .tc main_v47)) (V (Proc.devRef .tc main_v93)) (V (Proc.devRef .tc main_v91)))
    (posBNRef8 (posDot8 (V (Proc.devRef .tc main_v19)) (V (Proc.devRef .tc main_arg10))) (V (Proc.devRef .tc main_arg11)) (V (Proc.devRef .tc main_arg12)))

abbrev oOf (V : Valuation τ sig (Elt F)) : Cn F S65536x64 .f32 := outDot (nfOf V) (wOut0T (V (Proc.devRef .tc main_arg13)))

set_option maxHeartbeats 1000000 in
theorem part2_v135 (V : Valuation τ sig (Elt F)) :
    StableHlo.after ops_part2 V (Proc.devRef .tc main_v135) = oOf V := by
  unfold ops_part2; after_results_simp; rfl

set_option maxHeartbeats 1000000 in
theorem part2_v137 (V : Valuation τ sig (Elt F)) :
    StableHlo.after ops_part2 V (Proc.devRef .tc main_v137) = vec0_64 (V (Proc.devRef .tc main_arg14)) := by
  unfold ops_part2; after_results_simp; rfl

set_option maxHeartbeats 1000000 in
theorem part2_v139 (V : Valuation τ sig (Elt F)) :
    StableHlo.after ops_part2 V (Proc.devRef .tc main_v139) = vec0_64 (V (Proc.devRef .tc main_arg15)) := by
  unfold ops_part2; after_results_simp; rfl

set_option maxHeartbeats 1000000 in
theorem part2_v143 (V : Valuation τ sig (Elt F)) :
    StableHlo.after ops_part2 V (Proc.devRef .tc main_v143) = colMeanAll (oOf V) := by
  unfold ops_part2; after_results_simp; rfl

set_option maxHeartbeats 1000000 in
theorem part2_v144 (V : Valuation τ sig (Elt F)) :
    StableHlo.after ops_part2 V (Proc.devRef .tc main_v144) = colVarAll (oOf V) := by
  unfold ops_part2; after_results_simp; rfl

set_option maxHeartbeats 1000000 in

theorem part3_v158 (V : Valuation τ sig (Elt F)) :
    StableHlo.after ops_part3 V (Proc.devRef .tc main_v158)
      = normRef (V (Proc.devRef .tc main_v135)) (V (Proc.devRef .tc main_v143)) (V (Proc.devRef .tc main_v144)) (V (Proc.devRef .tc main_v137)) (V (Proc.devRef .tc main_v139)) := by
  unfold ops_part3; after_results_simp; rfl

end Cert.ReferenceIdeal.HandVal

end
-- ==== Proof.SpecVar.lean ====
import Idealize.ShloMosaic.PureOps.Ideal
import Idealize.ShloMosaic.PureOps.Ideal.Laws
import Idealize.ShloMosaic.Lib.ValueIdx
import proofs.«137221_j56719338111373_2_alg».proof.Proof.SpecFinite

noncomputable section

namespace Cert.Spec

open Idealize.ShloMosaic
open scoped BigOperators

abbrev S0 : Shape := ⟨0, ![]⟩

theorem bcast_scalar_apply {α : Type} {T : Shape} (hb : S0.BroadcastsInDim T (![] : Fin 0 → Fin T.rank))
    (d : S0.Idx → α) (j : T.Idx) (k : S0.Idx) : broadcastInDim T ![] hb d j = d k := by
  unfold broadcastInDim
  exact congrArg d (funext fun a => a.elim0)

theorem normalizer_apply (W : BitVec 32) (k : S0.Idx) :
    subf (F := Ideal) (constant S0 .f32 W) (sitofp .f32 (constantI S0 32 0#32)) k = Ideal.ofBits .f32 W := by
  show Ideal.ofBits .f32 W - (((0#32 : BitVec 32).toInt : ℝ) : EReal) = Ideal.ofBits .f32 W
  simp

theorem ofBits_16384_pos : 0 < Ideal.ofBits .f32 0x46800000#32 := by
  rw [ofBits_16384]; exact EReal.coe_pos.mpr (by norm_num)

theorem ofBits_65536_pos : 0 < Ideal.ofBits .f32 0x47800000#32 := by
  rw [ofBits_65536]; exact EReal.coe_pos.mpr (by norm_num)

theorem ofBits_8_pos : 0 < Ideal.ofBits .f32 0x41000000#32 := by
  rw [ofBits_8]; exact EReal.coe_pos.mpr (by norm_num)

theorem ofBits_64_pos : 0 < Ideal.ofBits .f32 0x42800000#32 := by
  rw [ofBits_64]; exact EReal.coe_pos.mpr (by norm_num)

theorem var_tail_of {T : Shape} (hb : S0.BroadcastsInDim T (![] : Fin 0 → Fin T.rank))
    (d zero : FVec Ideal S0 .f32) (N : EReal) (hd : ∀ k, d k = N) (hz : ∀ k, zero k = 0) (hN : 0 < N)
    (S z : FVec Ideal T .f32) :
    select (broadcastInDim T ![] hb (cmpf (F := Ideal) (φ := .f32) .ogt d zero))
        (Host.divf (F := Ideal) (φ := .f32) S (broadcastInDim T ![] hb d)) z
      = fun j => Ideal.div (S j) N := by
  funext j
  show Scalar.select (broadcastInDim T ![] hb (cmpf (F := Ideal) (φ := .f32) .ogt d zero) j)
      (Ideal.div (S j) (broadcastInDim T ![] hb d j)) (z j) = _
  rw [bcast_scalar_apply hb _ j ValueIdx.ix0, bcast_scalar_apply hb d j ValueIdx.ix0]
  show Scalar.select (Ideal.cmp .ogt (d ValueIdx.ix0) (zero ValueIdx.ix0)) (Ideal.div (S j) (d ValueIdx.ix0)) (z j) = _
  rw [hd, hz, cmp_ogt_of_lt hN, ValueIdx.select_one]

theorem var_tail {T : Shape} (hb : S0.BroadcastsInDim T (![] : Fin 0 → Fin T.rank)) (W : BitVec 32)
    (hW : 0 < Ideal.ofBits .f32 W) (S z : FVec Ideal T .f32) :
    select
        (broadcastInDim T ![] hb
          (cmpf (F := Ideal) .ogt (subf (constant S0 .f32 W) (sitofp .f32 (constantI S0 32 0#32)))
            (constant S0 .f32 0x00000000#32)))
        (Host.divf (F := Ideal) S
          (broadcastInDim T ![] hb (subf (F := Ideal) (constant S0 .f32 W) (sitofp .f32 (constantI S0 32 0#32))))) z
      = fun j => Ideal.div (S j) (Ideal.ofBits .f32 W) :=
  var_tail_of hb _ _ _ (normalizer_apply W) (fun _ => Ideal.ofBits_zero_f32) hW S z

end Cert.Spec

end
-- ==== Proof.BridgePos.lean ====
import proofs.«137221_j56719338111373_2_alg».proof.Proof.KIHostVal8
import proofs.«137221_j56719338111373_2_alg».proof.Proof.RefVal2
import proofs.«137221_j56719338111373_2_alg».proof.Proof.SpecVar

noncomputable section

namespace Cert.KernelIdeal.HandVal

open Cert.KernelIdeal Cert.KernelIdeal.Gen Idealize.ShloMosaic

theorem colVar8_sync (x : Cn Ideal S8x32 .f32) : Cert.ReferenceIdeal.HandVal.colVar8 x = colVar8 x := by
  unfold Cert.ReferenceIdeal.HandVal.colVar8 Cert.ReferenceIdeal.HandVal.norm8 Cert.ReferenceIdeal.HandVal.splat32
  rw [Cert.Spec.var_tail _ _ Cert.Spec.ofBits_8_pos]
  rfl

theorem sync_pf (off : Cn Ideal S8x4 .i32) (a10 : Cn Ideal S2x32x3 .f32) (a11 a12 : Cn Ideal S2x32 .f32) :
    Cert.ReferenceIdeal.HandVal.posBNRef8 (Cert.ReferenceIdeal.HandVal.posDot8 off a10) a11 a12
      = posBN8 off a10 a11 a12 := by
  unfold Cert.ReferenceIdeal.HandVal.posBNRef8 Cert.ReferenceIdeal.HandVal.bnWith8
  rw [colVar8_sync]
  rfl

end Cert.KernelIdeal.HandVal

end
-- ==== Proof.RefVal2Idx.lean ====
import proofs.«137221_j56719338111373_2_alg».proof.Proof.RefVal2
import proofs.«137221_j56719338111373_2_alg».proof.Proof.SpecVar
import proofs.«137221_j56719338111373_2_alg».proof.Proof.LibRun
import Idealize.ShloMosaic.Lib.Pipeline.Value
import Idealize.ShloMosaic.Lib.ValueIdx
import Idealize.ShloMosaic.Lib.ValueLayout
import Idealize.ShloMosaic.PureOps.Ideal.Laws

set_option maxRecDepth 8192

noncomputable section

namespace Cert.ReferenceIdeal.HandVal

open Cert.ReferenceIdeal Cert.ReferenceIdeal.Gen Cert.ReferenceIdeal.Hand
open Idealize.ShloMosaic Idealize.ShloMosaic.TcCoe Idealize.SL.Sem Idealize.ShloMosaic.StableHlo
open Idealize.ShloMosaic.ValueIdx
open scoped BigOperators

theorem lift_mid {n0 n1 n2 : ℕ} (h : (⟨3, ![n0, n1, n2]⟩ : Shape).Reduces [1] ⟨2, ![n0, n2]⟩)
    (p : Fin n0) (q : Fin n2) (k : Fin n1) : h.lift (ix2 p q) k = ix3 p k q := Cert.Hand.lift_mid h p q k

theorem overPoints8_apply (pf : Cn Ideal S8x32 .f32) (r : Fin 65536) (k : Fin 8) (j : Fin 32) :
    overPoints8 pf (ix3 r k j) = pf (ix2 k j) :=
  (broadcastInDim_apply _ _ _ (ix3 r k j) (ix3 (0 : Fin 1) k j) (fun a => by
      match a with
      | ⟨0, _⟩ => rfl
      | ⟨1, _⟩ => rfl
      | ⟨2, _⟩ => rfl)).trans
    (broadcastInDim_apply _ _ pf (ix3 (0 : Fin 1) k j) (ix2 k j) (fun a => by
      match a with
      | ⟨0, _⟩ => rfl
      | ⟨1, _⟩ => rfl))

theorem reluSum8_apply (gf : Cn Ideal S65536x8x32 .f32) (pf : Cn Ideal S8x32 .f32) (r : Fin 65536) (k : Fin 8) (j : Fin 32) :
    reluSum8 gf pf (ix3 r k j) = max (gf (ix3 r k j) + pf (ix2 k j)) (Ideal.ofBits .f32 0x00000000#32) :=
  congrArg₂ (fun a b : Ideal .f32 => max (gf (ix3 r k j) + a) b) (overPoints8_apply pf r k j)
    (broadcastInDim_apply _ _ (constant (F := Ideal) S_ .f32 0x00000000#32) (ix3 r k j) ix0 (fun a => a.elim0))

theorem poolRef8_apply (gf : Cn Ideal S65536x8x32 .f32) (pf : Cn Ideal S8x32 .f32) (r : Fin 65536) (j : Fin 32) :
    poolRef8 gf pf (ix2 r j) = (Finset.univ : Finset (Fin 8)).fold max (Ideal.ofBits .f32 0xFF800000#32)
      (fun k => max (gf (ix3 r k j) + pf (ix2 k j)) (Ideal.ofBits .f32 0x00000000#32)) := by
  have hred : S65536x8x32.Reduces [1] S65536x32 := by decide
  unfold poolRef8
  refine (Host.reduce_eq_fold_single (FloatOps.maximumf (F := Ideal) (φ := .f32)) (reluSum8 gf pf) _
    reducesTo_S65536x8x32_S65536x32_d1 hred h_S_ (ix2 r j)).trans ?_
  refine congrArg (fun f => Finset.fold max (Ideal.ofBits .f32 0xFF800000#32) f Finset.univ) (funext fun (k : Fin 8) => ?_)
  exact (congrArg (reluSum8 gf pf) (lift_mid hred r j k)).trans (reluSum8_apply gf pf r k j)

theorem rowsAll_apply (v : Cn Ideal S1x64 .f32) (r : Fin 65536) (j : Fin 64) : rowsAll v (ix2 r j) = v (ix2 (0 : Fin 1) j) :=
  broadcastInDim_apply _ _ v (ix2 r j) (ix2 (0 : Fin 1) j) (fun a => by
    match a with
    | ⟨0, _⟩ => rfl
    | ⟨1, _⟩ => rfl)

theorem row64_apply (v : Cn Ideal S64 .f32) (j : Fin 64) : row64 v (ix2 (0 : Fin 1) j) = v (ix1 j) :=
  broadcastInDim_apply _ _ v (ix2 (0 : Fin 1) j) (ix1 j) (fun a => by
    match a with
    | ⟨0, _⟩ => rfl)

theorem colSumAll_apply (o : Cn Ideal S65536x64 .f32) (j : Fin 64) :
    colSumAll o (ix2 (0 : Fin 1) j) = ∑ r : Fin 65536, o (ix2 r j) :=
  Cert.Hand.hostColSum_apply o reducesTo_S65536x64_S64_d0 (by decide) h_S_ bcast_S64_S1x64_1 0 j

theorem colMeanAll_apply (o : Cn Ideal S65536x64 .f32) (j : Fin 64) :
    colMeanAll o (ix2 (0 : Fin 1) j) = Ideal.div (∑ r : Fin 65536, o (ix2 r j)) (Ideal.ofBits .f32 0x47800000#32) := by
  show Ideal.div (colSumAll o (ix2 (0 : Fin 1) j)) (Ideal.ofBits .f32 0x47800000#32) = _
  rw [colSumAll_apply]

set_option maxRecDepth 65536 in

theorem colVarAll_eq (o : Cn Ideal S65536x64 .f32) :
    colVarAll o = fun i => Ideal.div
      (colSumAll (mulf (subf o (rowsAll (colMeanAll o))) (subf o (rowsAll (colMeanAll o)))) i) (Ideal.ofBits .f32 0x47800000#32) := by
  unfold colVarAll splat64 normAll
  have hpos : 0 < Ideal.ofBits .f32 0x47800000#32 := Cert.Spec.ofBits_65536_pos
  have h := Cert.Spec.var_tail (T := S1x64) bcast_S_S1x64 0x47800000#32 hpos
    (colSumAll (mulf (subf o (rowsAll (colMeanAll o))) (subf o (rowsAll (colMeanAll o)))))
    (broadcastInDim S1x64 ![] bcast_S_S1x64 (constant S_ .f32 0x7FC00000#32))
  exact h

theorem colVarAll_apply (o : Cn Ideal S65536x64 .f32) (j : Fin 64) :
    colVarAll o (ix2 (0 : Fin 1) j)
      = Ideal.div (∑ r : Fin 65536, (o (ix2 r j) - colMeanAll o (ix2 (0 : Fin 1) j)) * (o (ix2 r j) - colMeanAll o (ix2 (0 : Fin 1) j)))
          (Ideal.ofBits .f32 0x47800000#32) := by
  refine (congrFun (colVarAll_eq o) (ix2 (0 : Fin 1) j)).trans ?_
  refine congrArg (fun s => Ideal.div s (Ideal.ofBits .f32 0x47800000#32)) ?_
  refine (colSumAll_apply _ j).trans (Finset.sum_congr rfl fun r _ => ?_)
  show (o (ix2 r j) - rowsAll (colMeanAll o) (ix2 r j)) * (o (ix2 r j) - rowsAll (colMeanAll o) (ix2 r j)) = _
  rw [rowsAll_apply]

theorem normRef_apply (o : Cn Ideal S65536x64 .f32) (mean var : Cn Ideal S1x64 .f32) (g b : Cn Ideal S64 .f32)
    (r : Fin 65536) (j : Fin 64) :
    normRef o mean var g b (ix2 r j)
      = max ((o (ix2 r j) - mean (ix2 (0 : Fin 1) j))
            * Ideal.rsqrt (var (ix2 (0 : Fin 1) j) + Ideal.ofBits .f32 0x3727C5AC#32) * g (ix1 j) + b (ix1 j))
          (Ideal.ofBits .f32 0x00000000#32) := by
  show max ((o (ix2 r j) - rowsAll mean (ix2 r j))
        * rowsAll (Host.rsqrt (addf var (splat64 (constant S_ .f32 0x3727C5AC#32)))) (ix2 r j)
        * rowsAll (row64 g) (ix2 r j) + rowsAll (row64 b) (ix2 r j)) (Ideal.ofBits .f32 0x00000000#32) = _
  rw [rowsAll_apply, rowsAll_apply, rowsAll_apply, rowsAll_apply, row64_apply, row64_apply]
  rfl

theorem outDot_apply (nf : Cn Ideal S65536x32 .f32) (wT : Cn Ideal S32x64 .f32) (r : Fin 65536) (j : Fin 64) :
    outDot nf wT (ix2 r j) = ∑ k : Fin 32, nf (ix2 r k) * wT (ix2 k j) :=
  Cert.Hand.dotGeneral_ix2 _ rfl none .single nf wT r j

end Cert.ReferenceIdeal.HandVal

end
-- ==== Proof.RefVal2B.lean ====
import proofs.«137221_j56719338111373_2_alg».proof.Proof.RefVal2Idx
import proofs.«137221_j56719338111373_2_alg».proof.Proof.BridgeNorm
import proofs.«137221_j56719338111373_2_alg».proof.Proof.KIVal1
import proofs.«137221_j56719338111373_2_alg».proof.Proof.KIHostVal8

set_option maxRecDepth 8192

noncomputable section

namespace Cert.ReferenceIdeal.HandVal

open Cert.ReferenceIdeal Cert.ReferenceIdeal.Gen Cert.ReferenceIdeal.Hand
open Idealize.ShloMosaic Idealize.ShloMosaic.TcCoe Idealize.SL.Sem Idealize.ShloMosaic.StableHlo
open Idealize.ShloMosaic.ValueIdx
open scoped BigOperators

theorem wOut0T_apply (w3 : Cn Ideal S2x64x32 .f32) (k : Fin 32) (j : Fin 64) :
    wOut0T w3 (ix2 k j) = Cert.KernelIdeal.HandVal.wOut0Of (F := Ideal) w3 (ix2 j k) :=
  transpose_ix2_apply _ transposes_S64x32_S32x64_1_0 k j

theorem vec0_64_apply (g2 : Cn Ideal S2x64 .f32) (j : Fin 64) :
    vec0_64 g2 (ix1 j) = Cert.KernelIdeal.HandVal.row0_64 (F := Ideal) g2 (ix2 (0 : Fin 1) j) :=
  shapeCast_1a_a_apply _ shapeCasts_S1x64_S64 j

theorem outDot_eq_dotAt (nf : Cn Ideal S65536x32 .f32) (w3 : Cn Ideal S2x64x32 .f32) (r : Fin 65536) (j : Fin 64) :
    outDot nf (wOut0T w3) (ix2 r j)
      = Cert.KernelIdeal.HandVal.dotAt nf (Cert.KernelIdeal.HandVal.wOut0Of (F := Ideal) w3) r j := by
  rw [outDot_apply]
  exact Finset.sum_congr rfl fun k _ => congrArg (nf (ix2 r k) * ·) (wOut0T_apply w3 k j)

theorem ref_out0_at (nf : Cn Ideal S65536x32 .f32) (w3 : Cn Ideal S2x64x32 .f32) (g2 b2 : Cn Ideal S2x64 .f32)
    (r : Fin 65536) (j : Fin 64) :
    normRef (outDot nf (wOut0T w3)) (colMeanAll (outDot nf (wOut0T w3))) (colVarAll (outDot nf (wOut0T w3)))
        (vec0_64 g2) (vec0_64 b2) (ix2 r j)
      = Cert.KernelIdeal.HandVal.bnReluAt nf (Cert.KernelIdeal.HandVal.wOut0Of (F := Ideal) w3)
          (Cert.KernelIdeal.HandVal.row0_64 (F := Ideal) g2) (Cert.KernelIdeal.HandVal.row0_64 (F := Ideal) b2) r j := by
  rw [normRef_apply, colVarAll_apply, colMeanAll_apply]
  simp only [outDot_eq_dotAt]
  rw [vec0_64_apply, vec0_64_apply, Ideal.ofBits_zero_f32]
  rfl

theorem pool_ref_eq (gf : Cn Ideal S65536x8x32 .f32) (pf : Cn Ideal S8x32 .f32) :
    poolRef8 gf pf = Cert.KernelIdeal.HandVal.pool1 gf pf := by
  funext i
  obtain ⟨r, j, rfl⟩ : ∃ (r : Fin 65536) (j : Fin 32), i = ix2 r j := ⟨i 0, i 1, eq_ix2 i⟩
  exact (poolRef8_apply gf pf r j).trans (Cert.KernelIdeal.HandVal.pool1_apply gf pf r j).symm

theorem gfRef8_eq_gatherPadded8 (tbl : Cn Ideal S16385x32 .f32) (neg : Cn Ideal S65536x8 .i1) (ix : Cn Ideal S65536x8 .i32) :
    gfRef8 tbl neg ix = Cert.KernelIdeal.HandVal.gatherPadded8 (F := Ideal) tbl (wrapIdx8 neg ix) := rfl

theorem wrapIdx8_eq_padIndexOf8 (g : Cn Ideal S65536x8 .i32) :
    wrapIdx8 (F := Ideal)
        (cmpi .slt (addi g (broadcastInDim S65536x8 ![] bcast_S_S65536x8 (constantI S_ 32 1#32)))
          (broadcastInDim S65536x8 ![] bcast_S_S65536x8 (constantI S_ 32 0#32)))
        (addi g (broadcastInDim S65536x8 ![] bcast_S_S65536x8 (constantI S_ 32 1#32)))
      = Cert.KernelIdeal.HandVal.padIndexOf8 (F := Ideal) g := rfl

end Cert.ReferenceIdeal.HandVal

end
-- ==== Proof.RefVal0.lean ====
import proofs.«137221_j56719338111373_2_alg».proof.Proof.RefOps
import proofs.«137221_j56719338111373_2_alg».proof.Proof.KIValBn
import proofs.«137221_j56719338111373_2_alg».proof.Proof.KIHostVal
import proofs.«137221_j56719338111373_2_alg».proof.Proof.SpecVar
import proofs.«137221_j56719338111373_2_alg».proof.Proof.LibRun
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.HandVal

open Cert.ReferenceIdeal Cert.ReferenceIdeal.Gen Cert.ReferenceIdeal.Hand
open Idealize.ShloMosaic Idealize.ShloMosaic.TcCoe Idealize.SL.Sem Idealize.ShloMosaic.StableHlo
open Cert.KernelIdeal.HandVal (Cn)

variable {F : FTy → Type} [FloatOps F]

def refW0T (w : Cn F S2x32x64 .f32) : Cn F S64x32 .f32 :=
  transpose S64x32 [1, 0] (shapeCast S32x64 (extractStridedSlice S1x32x64 ![0, 0, 0] w slices_S2x32x64_S1x32x64_0_0_0) shapeCasts_S1x32x64_S32x64)
    transposes_S32x64_S64x32_1_0

def refProd0 (x : Cn F S16384x64 .f32) (w : Cn F S2x32x64 .f32) : Cn F S16384x32 .f32 :=
  Host.dotGeneral dot_S16384x64_S64x32_S16384x32_1_0_0_1_n_n none x (refW0T w)

def refRow0 (g : Cn F S2x32 .f32) : Cn F S32 .f32 :=
  shapeCast S32 (extractStridedSlice S1x32 ![0, 0] g slices_S2x32_S1x32_0_0) shapeCasts_S1x32_S32

def refColSum (p : Cn F S16384x32 .f32) : Cn F S1x32 .f32 :=
  broadcastInDim S1x32 ![1] bcast_S32_S1x32_1 (Host.reduceAdd p (constant S_ .f32 0x00000000#32) reducesTo_S16384x32_S32_d0 h_S_)

def refMean (p : Cn F S16384x32 .f32) : Cn F S1x32 .f32 :=
  Host.divf (refColSum p) (broadcastInDim S1x32 ![] bcast_S_S1x32 (constant S_ .f32 0x46800000#32))

def refDev (p : Cn F S16384x32 .f32) : Cn F S16384x32 .f32 :=
  subf p (broadcastInDim S16384x32 ![0, 1] bcast_S1x32_S16384x32_0_1 (refMean p))

def refNorm : Cn F S_ .f32 := subf (constant S_ .f32 0x46800000#32) (sitofp .f32 (constantI S_ 32 0#32))

def refVar (p : Cn F S16384x32 .f32) : Cn F S1x32 .f32 :=
  select (broadcastInDim S1x32 ![] bcast_S_S1x32 (cmpf .ogt (refNorm (F := F)) (constant S_ .f32 0x00000000#32)))
    (Host.divf (refColSum (mulf (refDev p) (refDev p))) (broadcastInDim S1x32 ![] bcast_S_S1x32 (refNorm (F := F))))
    (broadcastInDim S1x32 ![] bcast_S_S1x32 (id (constant S_ .f32 0x7FC00000#32)))

def refOverRows (v : Cn F S32 .f32) : Cn F S16384x32 .f32 :=
  broadcastInDim S16384x32 ![0, 1] bcast_S1x32_S16384x32_0_1 (broadcastInDim S1x32 ![1] bcast_S32_S1x32_1 v)

def refNormalise (p : Cn F S16384x32 .f32) (g b : Cn F S32 .f32) : Cn F S16384x32 .f32 :=
  addf (mulf (mulf (refDev p)
      (broadcastInDim S16384x32 ![0, 1] bcast_S1x32_S16384x32_0_1
        (Host.rsqrt (addf (refVar p) (broadcastInDim S1x32 ![] bcast_S_S1x32 (constant S_ .f32 0x3727C5AC#32))))))
    (refOverRows g)) (refOverRows b)

def refBn0 (x : Cn F S16384x64 .f32) (w : Cn F S2x32x64 .f32) (g b : Cn F S2x32 .f32) : Cn F S16384x32 .f32 :=
  refNormalise (refProd0 x w) (refRow0 g) (refRow0 b)

def refPadRows (f : Cn F S16384x32 .f32) : Cn F S16385x32 .f32 :=
  concatenate S16385x32 0
    [⟨S1x32, broadcastInDim S1x32 ![] bcast_S_S1x32 (constant S_ .f32 0x00000000#32)⟩, ⟨S16384x32, f⟩]
    concatenates_S1x32_S16384x32_S16385x32_d0

set_option maxRecDepth 8192 in
set_option maxHeartbeats 1000000 in

theorem part0_v47 (V : Valuation τ sig (Elt F)) :
    StableHlo.after ops_part0 V (Proc.devRef .tc main_v47)
      = refPadRows (refBn0 (V (Proc.devRef .tc main_arg5)) (V (Proc.devRef .tc main_arg7)) (V (Proc.devRef .tc main_arg8))
          (V (Proc.devRef .tc main_arg9))) := by
  unfold ops_part0
  after_results_simp
  rfl

section AtIdeal

open Idealize.ShloMosaic.ValueIdx
open Cert.KernelIdeal.HandVal (mm0 mu0 var0 bnAt0 bn0 bn0_apply wIn0Of row0_32)

theorem refW0T_apply (w : Cn Ideal S2x32x64 .f32) (k : Fin 64) (j : Fin 32) : refW0T w (ix2 k j) = wIn0Of w (ix2 j k) := by
  unfold refW0T
  rw [transpose_ix2_apply]
  rfl

theorem refProd0_apply (x : Cn Ideal S16384x64 .f32) (w : Cn Ideal S2x32x64 .f32) (r : Fin 16384) (j : Fin 32) :
    refProd0 x w (ix2 r j) = mm0 x (wIn0Of w) r j := by
  unfold refProd0 mm0
  exact (Cert.Hand.dotGeneral_ix2 _ rfl none .single x (refW0T w) r j).trans (Finset.sum_congr rfl fun k _ => by rw [refW0T_apply])

theorem asRow_apply (v : Cn Ideal S32 .f32) (u : Fin 1) (j : Fin 32) :
    broadcastInDim S1x32 ![1] bcast_S32_S1x32_1 v (ix2 u j) = v (ix1 j) :=
  broadcastInDim_apply ![1] bcast_S32_S1x32_1 v (ix2 u j) (ix1 j) fun a => by
    match a with
    | ⟨0, _⟩ => show j.val = if (32 : ℕ) = 1 then 0 else j.val; rw [if_neg (by decide)]

theorem overRows_apply (v : Cn Ideal S1x32 .f32) (r : Fin 16384) (j : Fin 32) :
    broadcastInDim S16384x32 ![0, 1] bcast_S1x32_S16384x32_0_1 v (ix2 r j) = v (ix2 (0 : Fin 1) j) :=
  broadcastInDim_apply ![0, 1] bcast_S1x32_S16384x32_0_1 v (ix2 r j) (ix2 (0 : Fin 1) j) fun a => by
    match a with
    | ⟨0, _⟩ => show (0 : ℕ) = if (1 : ℕ) = 1 then 0 else r.val; rw [if_pos rfl]
    | ⟨1, _⟩ => show j.val = if (32 : ℕ) = 1 then 0 else j.val; rw [if_neg (by decide)]

theorem refColSum_apply (p : Cn Ideal S16384x32 .f32) (u : Fin 1) (j : Fin 32) :
    refColSum p (ix2 u j) = ∑ r : Fin 16384, p (ix2 r j) :=
  Cert.Hand.hostColSum_apply p _ Cert.KernelIdeal.Gen.reduces_S16384x32_S32 _ _ u j

theorem scalarRow_apply (d : Cn Ideal S_ .f32) (i : S1x32.Idx) :
    broadcastInDim S1x32 ![] bcast_S_S1x32 d i = d ix0 :=
  Cert.Spec.bcast_scalar_apply bcast_S_S1x32 d i ix0

theorem refMean_apply (p : Cn Ideal S16384x32 .f32) (u : Fin 1) (j : Fin 32) :
    refMean p (ix2 u j) = Ideal.div (∑ r : Fin 16384, p (ix2 r j)) (Ideal.ofBits .f32 0x46800000#32) := by
  unfold refMean
  show Ideal.div (refColSum p (ix2 u j)) (broadcastInDim S1x32 ![] bcast_S_S1x32 (constant (F := Ideal) S_ .f32 0x46800000#32) (ix2 u j)) = _
  rw [refColSum_apply, scalarRow_apply]
  rfl

theorem refDev_apply (p : Cn Ideal S16384x32 .f32) (r : Fin 16384) (j : Fin 32) :
    refDev p (ix2 r j) = p (ix2 r j) - Ideal.div (∑ r' : Fin 16384, p (ix2 r' j)) (Ideal.ofBits .f32 0x46800000#32) := by
  unfold refDev
  rw [subf_apply, overRows_apply, refMean_apply]

theorem refVar_apply (p : Cn Ideal S16384x32 .f32) (u : Fin 1) (j : Fin 32) :
    refVar p (ix2 u j) = Ideal.div (∑ r : Fin 16384, refDev p (ix2 r j) * refDev p (ix2 r j)) (Ideal.ofBits .f32 0x46800000#32) := by
  unfold refVar refNorm
  rw [Cert.Spec.var_tail bcast_S_S1x32 0x46800000#32 Cert.Spec.ofBits_16384_pos]
  show Ideal.div (refColSum (mulf (refDev p) (refDev p)) (ix2 u j)) _ = _
  rw [refColSum_apply]
  rfl

theorem refOverRows_apply (v : Cn Ideal S32 .f32) (r : Fin 16384) (j : Fin 32) : refOverRows v (ix2 r j) = v (ix1 j) := by
  unfold refOverRows
  rw [overRows_apply, asRow_apply]

theorem refRow0_apply (g : Cn Ideal S2x32 .f32) (j : Fin 32) : refRow0 g (ix1 j) = row0_32 g (ix2 (0 : Fin 1) j) := by
  unfold refRow0
  rw [shapeCast_1a_a_apply]
  rfl

theorem refNormalise_apply (p : Cn Ideal S16384x32 .f32) (g b : Cn Ideal S32 .f32) (r : Fin 16384) (j : Fin 32) :
    refNormalise p g b (ix2 r j)
      = (p (ix2 r j) - Ideal.div (∑ r' : Fin 16384, p (ix2 r' j)) (Ideal.ofBits .f32 0x46800000#32))
          * Ideal.rsqrt (Ideal.div (∑ r' : Fin 16384, refDev p (ix2 r' j) * refDev p (ix2 r' j)) (Ideal.ofBits .f32 0x46800000#32)
              + Ideal.ofBits .f32 0x3727C5AC#32)
          * g (ix1 j) + b (ix1 j) := by
  unfold refNormalise
  rw [addf_apply, mulf_apply, mulf_apply, refOverRows_apply, refOverRows_apply, overRows_apply, refDev_apply]
  show _ * Ideal.rsqrt (refVar p (ix2 (0 : Fin 1) j) + broadcastInDim S1x32 ![] bcast_S_S1x32 (constant (F := Ideal) S_ .f32 0x3727C5AC#32) (ix2 (0 : Fin 1) j)) * _ + _ = _
  rw [refVar_apply, scalarRow_apply]
  rfl

theorem refBn0_eq_bn0 (x : Cn Ideal S16384x64 .f32) (w : Cn Ideal S2x32x64 .f32) (g b : Cn Ideal S2x32 .f32) :
    refBn0 x w g b = bn0 x (wIn0Of w) (row0_32 g) (row0_32 b) := by
  funext i
  obtain ⟨r, j, rfl⟩ : ∃ (r : Fin 16384) (j : Fin 32), i = ix2 r j := ⟨i 0, i 1, eq_ix2 i⟩
  unfold refBn0
  rw [refNormalise_apply, refRow0_apply, refRow0_apply]
  simp only [refDev_apply, refProd0_apply]
  rfl

theorem refPadRows_eq (f : Cn Ideal S16384x32 .f32) :
    (refPadRows f : S16385x32.Idx → EReal) = Cert.KernelIdeal.HandVal.padRows (F := Ideal) f := by
  unfold refPadRows Cert.KernelIdeal.HandVal.padRows
  have hz : (broadcastInDim S1x32 ![] bcast_S_S1x32 (constant (F := Ideal) S_ .f32 0x00000000#32) : S1x32.Idx → EReal)
      = broadcastInDim Cert.KernelIdeal.S1x32 ![] Cert.KernelIdeal.Gen.bcast_S_S1x32
          (constant (F := Ideal) Cert.KernelIdeal.S_ .bf16 0x0000#16) := by
    funext i
    show Ideal.ofBits .f32 0x00000000#32 = Ideal.ofBits .bf16 0x0000#16
    rw [Ideal.ofBits_zero_f32, Cert.Spec.ofBits_zero_bf16]
  rw [hz]

theorem part0_v47_bn0 (V : Valuation τ sig (Elt Ideal)) :
    (StableHlo.after ops_part0 V (Proc.devRef .tc main_v47) : S16385x32.Idx → EReal)
      = Cert.KernelIdeal.HandVal.padRows (F := Ideal) (bn0 (V (Proc.devRef .tc main_arg5)) (wIn0Of (V (Proc.devRef .tc main_arg7)))
          (row0_32 (V (Proc.devRef .tc main_arg8))) (row0_32 (V (Proc.devRef .tc main_arg9)))) := by
  rw [part0_v47, refBn0_eq_bn0, refPadRows_eq]

end AtIdeal

end Cert.ReferenceIdeal.HandVal

end
-- ==== Proof.RefVal0Sync.lean ====
import proofs.«137221_j56719338111373_2_alg».proof.Proof.RefFold
import proofs.«137221_j56719338111373_2_alg».proof.Proof.RefVal0

noncomputable section

namespace Cert.ReferenceIdeal.HandVal

open Cert.ReferenceIdeal Cert.ReferenceIdeal.Gen Cert.ReferenceIdeal.Hand
open Idealize.ShloMosaic Idealize.ShloMosaic.TcCoe Idealize.SL.Sem Idealize.ShloMosaic.StableHlo
open Cert.KernelIdeal.HandVal (bn0 wIn0Of row0_32)

theorem R1_v47 (V : Valuation τ sig (Elt Ideal)) :
    (R1 (F := Ideal) V (Proc.devRef .tc main_v47) : S16385x32.Idx → EReal)
      = Cert.KernelIdeal.HandVal.padRows (F := Ideal) (bn0 (V (Proc.devRef .tc main_arg5)) (wIn0Of (V (Proc.devRef .tc main_arg7)))
          (row0_32 (V (Proc.devRef .tc main_arg8))) (row0_32 (V (Proc.devRef .tc main_arg9)))) := by
  rw [R1_eq, R0_eq]
  exact part0_v47_bn0 V

theorem R2_v47 (V : Valuation τ sig (Elt Ideal)) :
    (R2 (F := Ideal) V (Proc.devRef .tc main_v47) : S16385x32.Idx → EReal)
      = Cert.KernelIdeal.HandVal.padRows (F := Ideal) (bn0 (V (Proc.devRef .tc main_arg5)) (wIn0Of (V (Proc.devRef .tc main_arg7)))
          (row0_32 (V (Proc.devRef .tc main_arg8))) (row0_32 (V (Proc.devRef .tc main_arg9)))) := by
  rw [R2_keep V (y := main_v47) (Or.inl (by decide))]
  exact R1_v47 V

end Cert.ReferenceIdeal.HandVal

end
-- ==== Proof.RefVal.lean ====
import proofs.«137221_j56719338111373_2_alg».proof.Proof.RefOps
import proofs.«137221_j56719338111373_2_alg».proof.Proof.KIHostVal8
import Idealize.ShloMosaic.Lib.StableHlo.Run
import proofs.«137221_j56719338111373_2_alg».proof.Proof.LibRun

noncomputable section

namespace Cert.ReferenceIdeal.HandVal

open Cert.ReferenceIdeal Cert.ReferenceIdeal.Gen Cert.ReferenceIdeal.Hand Idealize.ShloMosaic Idealize.ShloMosaic.TcCoe Idealize.SL.Sem Idealize.ShloMosaic.StableHlo
open Cert.KernelIdeal.HandVal (Cn ncOf offsetsOf8 posOf8 posCol8_0 posCol8_1 posCol8_2 posCol8_3 clipOf8 wrapBy8 col8 idx4Of8 vmGatherOf8
  padIndexOf8)

variable {F : FTy → Type} [FloatOps F]

def posFrom8 (a : Cn F S65536x1x4 .i32) (b : Cn F S1x8x4 .i32) : Cn F S65536x8x4 .i32 :=
  addi (broadcastInDim S65536x8x4 ![0, 1, 2] bcast_S65536x1x4_S65536x8x4_0_1_2 a)
    (broadcastInDim S65536x8x4 ![0, 1, 2] bcast_S1x8x4_S65536x8x4_0_1_2 b)

def ncMid (nc : Cn F S65536x4 .i32) : Cn F S65536x1x4 .i32 :=
  broadcastInDim S65536x1x4 ![0, 2] bcast_S65536x4_S65536x1x4_0_2 nc
def offLead8 (off : Cn F S8x4 .i32) : Cn F S1x8x4 .i32 :=
  broadcastInDim S1x8x4 ![1, 2] bcast_S8x4_S1x8x4_1_2 off

theorem posOf8_eq (nc : Cn F S65536x4 .i32) (off : Cn F S8x4 .i32) :
    posOf8 nc off = posFrom8 (ncMid nc) (offLead8 off) := rfl

def idx4At8 (pos : Cn F S65536x8x4 .i32) : Cn F S65536x8x4 .i32 :=
  idx4Of8 (posCol8_0 pos)
    (clipOf8 (constantI S_ 32 0#32) (constantI S_ 32 10#32) (posCol8_1 pos))
    (clipOf8 (constantI S_ 32 0#32) (constantI S_ 32 199#32) (posCol8_2 pos))
    (clipOf8 (constantI S_ 32 0#32) (constantI S_ 32 175#32) (posCol8_3 pos))

def plusOne8 (g : Cn F S65536x8 .i32) : Cn F S65536x8 .i32 :=
  addi g (broadcastInDim S65536x8 ![] bcast_S_S65536x8 (constantI S_ 32 1#32))

def isNeg8 (x : Cn F S65536x8 .i32) : (⟨S65536x8, .i1⟩ : BufTy).Contents (Elt F) :=
  cmpi .slt x (broadcastInDim S65536x8 ![] bcast_S_S65536x8 (constantI S_ 32 0#32))

def vmRows8 (coords : Cn F S65536x4 .i32) (vm : Cn F S2x11x200x176 .i32) : Cn F S65536x8 .i32 :=
  vmGatherOf8 vm (idx4At8 (posOf8 (ncOf coords) offsetsOf8))

theorem part0_v19 (V : Valuation τ sig (Elt F)) :
    StableHlo.after ops_part0 V (Proc.devRef .tc main_v19) = offsetsOf8 := by
  unfold ops_part0; after_results; rfl

theorem part0_v48 (V : Valuation τ sig (Elt F)) :
    StableHlo.after ops_part0 V (Proc.devRef .tc main_v48) = ncMid (ncOf (V (Proc.devRef .tc main_arg4))) := by
  unfold ops_part0; after_results_simp; rfl

theorem part0_v49 (V : Valuation τ sig (Elt F)) :
    StableHlo.after ops_part0 V (Proc.devRef .tc main_v49) = offLead8 offsetsOf8 := by
  unfold ops_part0; after_results; rfl

theorem part1_split (V : Valuation τ sig (Elt F)) :
    StableHlo.after ops_part1 V = StableHlo.after (ops_part1.drop 67) (StableHlo.after (ops_part1.take 67) V) := by
  rw [← Cert.Hand.after_app, List.take_append_drop]

theorem part1_head_v84 (V : Valuation τ sig (Elt F)) :
    StableHlo.after (ops_part1.take 67) V (Proc.devRef .tc main_v84) = col8 (wrapBy8 2#32 (posCol8_0 (posFrom8 (V (Proc.devRef .tc main_v48)) (V (Proc.devRef .tc main_v49))))) := by
  simp only [ops_part1, List.take_succ_cons, List.take_zero]; after_results_simp; rfl

theorem part1_head_v85 (V : Valuation τ sig (Elt F)) :
    StableHlo.after (ops_part1.take 67) V (Proc.devRef .tc main_v85)
      = col8 (wrapBy8 11#32 (clipOf8 (constantI S_ 32 0#32) (constantI S_ 32 10#32) (posCol8_1 (posFrom8 (V (Proc.devRef .tc main_v48)) (V (Proc.devRef .tc main_v49)))))) := by
  simp only [ops_part1, List.take_succ_cons, List.take_zero]; after_results_simp; rfl

theorem part1_head_v86 (V : Valuation τ sig (Elt F)) :
    StableHlo.after (ops_part1.take 67) V (Proc.devRef .tc main_v86)
      = col8 (wrapBy8 200#32 (clipOf8 (constantI S_ 32 0#32) (constantI S_ 32 199#32) (posCol8_2 (posFrom8 (V (Proc.devRef .tc main_v48)) (V (Proc.devRef .tc main_v49)))))) := by
  simp only [ops_part1, List.take_succ_cons, List.take_zero]; after_results_simp; rfl

theorem part1_head_v87 (V : Valuation τ sig (Elt F)) :
    StableHlo.after (ops_part1.take 67) V (Proc.devRef .tc main_v87)
      = col8 (wrapBy8 176#32 (clipOf8 (constantI S_ 32 0#32) (constantI S_ 32 175#32) (posCol8_3 (posFrom8 (V (Proc.devRef .tc main_v48)) (V (Proc.devRef .tc main_v49)))))) := by
  simp only [ops_part1, List.take_succ_cons, List.take_zero]; after_results_simp; rfl

theorem part1_head_arg6 (V : Valuation τ sig (Elt F)) :
    StableHlo.after (ops_part1.take 67) V (Proc.devRef .tc main_arg6) = V (Proc.devRef .tc main_arg6) := by
  simp only [ops_part1, List.take_succ_cons, List.take_zero]; after_results_simp

def stack4 (a b c d : Cn F S65536x8x1 .i32) : Cn F S65536x8x4 .i32 :=
  concatenate S65536x8x4 2 [⟨S65536x8x1, a⟩, ⟨S65536x8x1, b⟩, ⟨S65536x8x1, c⟩, ⟨S65536x8x1, d⟩]
    concatenates_S65536x8x1_S65536x8x1_S65536x8x1_S65536x8x1_S65536x8x4_d2

theorem part1_tail_v91 (W : Valuation τ sig (Elt F)) :
    StableHlo.after (ops_part1.drop 67) W (Proc.devRef .tc main_v91)
      = plusOne8 (vmGatherOf8 (W (Proc.devRef .tc main_arg6))
          (stack4 (W (Proc.devRef .tc main_v84)) (W (Proc.devRef .tc main_v85)) (W (Proc.devRef .tc main_v86)) (W (Proc.devRef .tc main_v87)))) := by
  simp only [ops_part1, List.drop_succ_cons, List.drop_zero]; after_results; rfl

theorem part1_tail_v93 (W : Valuation τ sig (Elt F)) :
    StableHlo.after (ops_part1.drop 67) W (Proc.devRef .tc main_v93)
      = isNeg8 (plusOne8 (vmGatherOf8 (W (Proc.devRef .tc main_arg6))
          (stack4 (W (Proc.devRef .tc main_v84)) (W (Proc.devRef .tc main_v85)) (W (Proc.devRef .tc main_v86)) (W (Proc.devRef .tc main_v87))))) := by
  simp only [ops_part1, List.drop_succ_cons, List.drop_zero]; after_results; rfl

theorem part1_v91 (V : Valuation τ sig (Elt F)) :
    StableHlo.after ops_part1 V (Proc.devRef .tc main_v91)
      = plusOne8 (vmGatherOf8 (V (Proc.devRef .tc main_arg6)) (idx4At8 (posFrom8 (V (Proc.devRef .tc main_v48)) (V (Proc.devRef .tc main_v49))))) := by
  rw [part1_split, part1_tail_v91, part1_head_v84, part1_head_v85, part1_head_v86, part1_head_v87, part1_head_arg6]; rfl

theorem part1_v93 (V : Valuation τ sig (Elt F)) :
    StableHlo.after ops_part1 V (Proc.devRef .tc main_v93)
      = isNeg8 (plusOne8 (vmGatherOf8 (V (Proc.devRef .tc main_arg6)) (idx4At8 (posFrom8 (V (Proc.devRef .tc main_v48)) (V (Proc.devRef .tc main_v49)))))) := by
  rw [part1_split, part1_tail_v93, part1_head_v84, part1_head_v85, part1_head_v86, part1_head_v87, part1_head_arg6]; rfl

abbrev ops_part0_W : List (Ref sig .tc) :=
  [ main_c, main_c_0, main_v0, main_v1, main_c_1, main_v2, main_v3, main_v4, main_v5, main_v6, main_v7, main_c_2, main_v8, main_v9, main_v10,
    main_v11, main_v12, main_c_3, main_v13, main_v14, main_v15, main_v16, main_v17, main_v18, main_v19, main_v20, main_v21, main_v22, main_v23,
    main_v24, main_v25, main_v26, main_v27, main_cst, main_v28, main_v29, main_cst_4, main_v30, main_v31, main_c_5, main_call0.cst.ref,
    main_call0.v0.ref, main_call0.v1.ref, main_call0.cst_0.ref, main_call0.v2.ref, main_call0.v3.ref, main_call0.v4.ref, main_call0.v5.ref,
    main_call0.v6.ref, main_call0.v7.ref, main_call0.cst_1.ref, main_call0.v8.ref, main_call0.cst_2.ref, main_call0.v9.ref, main_call0.v10.ref,
    main_call0.v11.ref, main_call0.v12.ref, main_call0.cst_3.ref, main_call0.v13.ref, main_call0.cst_4.ref, main_call0.call0.v0.ref,
    main_call0.call0.v1.ref, main_call0.call0.v2.ref, main_v33, main_v34, main_cst_6, main_v35, main_v36, main_v37, main_v38, main_v39, main_v40,
    main_v41, main_v42, main_v43, main_v44, main_v45, main_cst_7, main_v46, main_v47, main_v48, main_v49 ]

abbrev ops_part1_W : List (Ref sig .tc) :=
  [ main_v50, main_v51, main_v52, main_v53, main_v54, main_v55, main_v56, main_c_8, main_c_9, main_call1.v0.ref, main_call1.v1.ref,
    main_call1.v2.ref, main_call1.v3.ref, main_call1.v4.ref, main_call1.v5.ref, main_v58, main_v59, main_c_10, main_c_11, main_call2.v0.ref,
    main_call2.v1.ref, main_call2.v2.ref, main_call2.v3.ref, main_call2.v4.ref, main_call2.v5.ref, main_v61, main_v62, main_c_12, main_c_13,
    main_call3.v0.ref, main_call3.v1.ref, main_call3.v2.ref, main_call3.v3.ref, main_call3.v4.ref, main_call3.v5.ref, main_c_14, main_v64, main_v65,
    main_c_15, main_v66, main_v67, main_v68, main_c_16, main_v69, main_v70, main_c_17, main_v71, main_v72, main_v73, main_c_18, main_v74, main_v75,
    main_c_19, main_v76, main_v77, main_v78, main_c_20, main_v79, main_v80, main_c_21, main_v81, main_v82, main_v83, main_v84, main_v85, main_v86,
    main_v87, main_v88, main_v89, main_c_22, main_v90, main_v91, main_c_23, main_v92, main_v93 ]

theorem ops_part0_writes :
    (ops_part0 : List (HloOp τ sig (Elt F))).Forall fun op => op.writes ⊆ (ops_part0_W.map (Proc.devRef (τ := τ) .tc)).toFinset := by
  simp only [ops_part0, List.Forall]
  repeat' constructor
  all_goals
    simp only [StableHlo.nullary_writes, StableHlo.unary_writes, StableHlo.binary_writes, StableHlo.ternary_writes,
      StableHlo.reshape_writes, StableHlo.nary_writes, Finset.singleton_subset_iff, List.mem_toFinset]
    exact List.mem_map_of_mem (by decide)

theorem ops_part1_writes :
    (ops_part1 : List (HloOp τ sig (Elt F))).Forall fun op => op.writes ⊆ (ops_part1_W.map (Proc.devRef (τ := τ) .tc)).toFinset := by
  simp only [ops_part1, List.Forall]
  repeat' constructor
  all_goals
    simp only [StableHlo.nullary_writes, StableHlo.unary_writes, StableHlo.binary_writes, StableHlo.ternary_writes,
      StableHlo.reshape_writes, StableHlo.nary_writes, Finset.singleton_subset_iff, List.mem_toFinset]
    exact List.mem_map_of_mem (by decide)

theorem part0_keeps (V : Valuation τ sig (Elt F)) (r : Ref sig .tc) (h : r ∉ ops_part0_W) :
    StableHlo.after ops_part0 V (Proc.devRef .tc r) = V (Proc.devRef .tc r) :=
  StableHlo.after_of_writes_sub ops_part0 V ops_part0_writes h

theorem part1_keeps (V : Valuation τ sig (Elt F)) (r : Ref sig .tc) (h : r ∉ ops_part1_W) :
    StableHlo.after ops_part1 V (Proc.devRef .tc r) = V (Proc.devRef .tc r) :=
  StableHlo.after_of_writes_sub ops_part1 V ops_part1_writes h

def R01 (V : Valuation τ sig (Elt F)) : Valuation τ sig (Elt F) :=
  StableHlo.after ops_part1 (StableHlo.after ops_part0 V)

theorem R01_def (V : Valuation τ sig (Elt F)) : R01 V = StableHlo.after ops_part1 (StableHlo.after ops_part0 V) := rfl

theorem R01_of_part0 (V : Valuation τ sig (Elt F)) (r : Ref sig .tc) (h1 : r ∉ ops_part1_W) :
    R01 V (Proc.devRef .tc r) = StableHlo.after ops_part0 V (Proc.devRef .tc r) := by
  rw [R01_def, part1_keeps _ r h1]

theorem R01_pos (V : Valuation τ sig (Elt F)) :
    posFrom8 (StableHlo.after ops_part0 V (Proc.devRef .tc main_v48)) (StableHlo.after ops_part0 V (Proc.devRef .tc main_v49))
      = posOf8 (ncOf (V (Proc.devRef .tc main_arg4))) offsetsOf8 := by
  rw [part0_v48, part0_v49, posOf8_eq]

theorem R01_v19 (V : Valuation τ sig (Elt F)) : R01 V (Proc.devRef .tc main_v19) = offsetsOf8 := by
  rw [R01_of_part0 V main_v19 (by decide), part0_v19]

theorem R01_v91 (V : Valuation τ sig (Elt F)) :
    R01 V (Proc.devRef .tc main_v91)
      = plusOne8 (vmRows8 (V (Proc.devRef .tc main_arg4)) (V (Proc.devRef .tc main_arg6))) := by
  rw [R01_def, part1_v91, R01_pos, part0_keeps V main_arg6 (by decide)]; rfl

theorem R01_v93 (V : Valuation τ sig (Elt F)) :
    R01 V (Proc.devRef .tc main_v93)
      = isNeg8 (plusOne8 (vmRows8 (V (Proc.devRef .tc main_arg4)) (V (Proc.devRef .tc main_arg6)))) := by
  rw [R01_def, part1_v93, R01_pos, part0_keeps V main_arg6 (by decide)]; rfl

end Cert.ReferenceIdeal.HandVal
end
-- ==== Proof.Bridge0.lean ====
import proofs.«137221_j56719338111373_2_alg».proof.Proof.KIChainOut
import proofs.«137221_j56719338111373_2_alg».proof.Proof.KIChainVal
import proofs.«137221_j56719338111373_2_alg».proof.Proof.KIChainArgs
import proofs.«137221_j56719338111373_2_alg».proof.Proof.BridgeReal0
import proofs.«137221_j56719338111373_2_alg».proof.Proof.BridgePos
import proofs.«137221_j56719338111373_2_alg».proof.Proof.RefFold
import proofs.«137221_j56719338111373_2_alg».proof.Proof.RefVal2B
import proofs.«137221_j56719338111373_2_alg».proof.Proof.RefVal0Sync
import proofs.«137221_j56719338111373_2_alg».proof.Proof.RefVal
import proofs.«137221_j56719338111373_2_alg».proof.Defs

set_option maxRecDepth 16384

noncomputable section

namespace Cert.Proof.Bridge

open Idealize.ShloMosaic Idealize.ShloMosaic.TcCoe Idealize.SL.Sem Idealize.ShloMosaic.StableHlo
open Idealize.ShloMosaic.ValueIdx

section Ref
open Cert.ReferenceIdeal Cert.ReferenceIdeal.Gen Cert.ReferenceIdeal.Hand Cert.ReferenceIdeal.HandVal

variable {F : FTy → Type} [FloatOps F]

theorem ref_arg_R2 (V : Valuation τ sig (Elt F)) {y : Ref sig .tc} (h : y.idx.val < 16) :
    R2 V (Proc.devRef .tc y) = V (Proc.devRef .tc y) :=
  (R2_keep V (.inl (Nat.lt_of_lt_of_le h (by decide)))).trans (R1_keep V (.inl h))

theorem ref_v158 (V : Valuation τ sig (Elt F)) :
    after ops V (Proc.devRef .tc main_v158)
      = normRef (oOf (R2 V)) (colMeanAll (oOf (R2 V))) (colVarAll (oOf (R2 V)))
          (vec0_64 (V (Proc.devRef .tc main_arg14))) (vec0_64 (V (Proc.devRef .tc main_arg15))) := by
  rw [to_end_3 V (y := main_v158) (by decide), R4_eq, part3_v158, R3_eq, part2_v135, part2_v143, part2_v144, part2_v137, part2_v139,
    ref_arg_R2 V (y := main_arg14) (by decide), ref_arg_R2 V (y := main_arg15) (by decide)]

end Ref

section Stages
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD) (V' : Valuation Cert.ReferenceIdeal.τ Cert.ReferenceIdeal.sig (Elt Ideal))

theorem ref_v19 : Cert.ReferenceIdeal.Hand.R2 (F := Ideal) V' (Proc.devRef .tc Cert.ReferenceIdeal.main_v19) = Cert.KernelIdeal.HandVal.offsetsOf8 :=
  Cert.ReferenceIdeal.HandVal.R01_v19 V'

theorem ref_rows :
    Cert.ReferenceIdeal.HandVal.wrapIdx8 (Cert.ReferenceIdeal.Hand.R2 (F := Ideal) V' (Proc.devRef .tc Cert.ReferenceIdeal.main_v93)) (Cert.ReferenceIdeal.Hand.R2 (F := Ideal) V' (Proc.devRef .tc Cert.ReferenceIdeal.main_v91))
      = Cert.KernelIdeal.HandVal.rows8 (V' (Proc.devRef .tc Cert.ReferenceIdeal.main_arg4)) (V' (Proc.devRef .tc Cert.ReferenceIdeal.main_arg6)) := by
  show Cert.ReferenceIdeal.HandVal.wrapIdx8 (Cert.ReferenceIdeal.HandVal.R01 V' (Proc.devRef .tc Cert.ReferenceIdeal.main_v93)) (Cert.ReferenceIdeal.HandVal.R01 V' (Proc.devRef .tc Cert.ReferenceIdeal.main_v91)) = _
  rw [Cert.ReferenceIdeal.HandVal.R01_v91, Cert.ReferenceIdeal.HandVal.R01_v93]
  exact Cert.ReferenceIdeal.HandVal.wrapIdx8_eq_padIndexOf8 _

theorem sync_gf
    (e4 : V' (Proc.devRef .tc Cert.ReferenceIdeal.main_arg4) = m ((c.tc : Thread Cert.KernelIdeal.nD Cert.KernelIdeal.τ).loc Cert.KernelIdeal.main_arg4))
    (e5 : V' (Proc.devRef .tc Cert.ReferenceIdeal.main_arg5) = m ((c.tc : Thread Cert.KernelIdeal.nD Cert.KernelIdeal.τ).loc Cert.KernelIdeal.main_arg5))
    (e6 : V' (Proc.devRef .tc Cert.ReferenceIdeal.main_arg6) = m ((c.tc : Thread Cert.KernelIdeal.nD Cert.KernelIdeal.τ).loc Cert.KernelIdeal.main_arg6))
    (e7 : V' (Proc.devRef .tc Cert.ReferenceIdeal.main_arg7) = m ((c.tc : Thread Cert.KernelIdeal.nD Cert.KernelIdeal.τ).loc Cert.KernelIdeal.main_arg7))
    (e8 : V' (Proc.devRef .tc Cert.ReferenceIdeal.main_arg8) = m ((c.tc : Thread Cert.KernelIdeal.nD Cert.KernelIdeal.τ).loc Cert.KernelIdeal.main_arg8))
    (e9 : V' (Proc.devRef .tc Cert.ReferenceIdeal.main_arg9) = m ((c.tc : Thread Cert.KernelIdeal.nD Cert.KernelIdeal.τ).loc Cert.KernelIdeal.main_arg9)) :
    Cert.ReferenceIdeal.HandVal.gfRef8 (Cert.ReferenceIdeal.Hand.R2 (F := Ideal) V' (Proc.devRef .tc Cert.ReferenceIdeal.main_v47)) (Cert.ReferenceIdeal.Hand.R2 (F := Ideal) V' (Proc.devRef .tc Cert.ReferenceIdeal.main_v93)) (Cert.ReferenceIdeal.Hand.R2 (F := Ideal) V' (Proc.devRef .tc Cert.ReferenceIdeal.main_v91)) = Cert.KernelIdeal.Hand.W29 m ρ c (Proc.devRef .tc Cert.KernelIdeal.main_v77) := by
  rw [Cert.ReferenceIdeal.HandVal.gfRef8_eq_gatherPadded8, ref_rows V', Cert.KernelIdeal.HandVal.args_v77 m ρ c, Cert.KernelIdeal.HandVal.val_v24_args m ρ c]
  unfold Cert.KernelIdeal.HandVal.gf8
  rw [show (Cert.ReferenceIdeal.Hand.R2 (F := Ideal) V' (Proc.devRef .tc Cert.ReferenceIdeal.main_v47) : Cert.ReferenceIdeal.S16385x32.Idx → EReal) = _ from Cert.ReferenceIdeal.HandVal.R2_v47 V', e4, e5, e6, e7, e8, e9]

theorem sync_pf
    (e10 : V' (Proc.devRef .tc Cert.ReferenceIdeal.main_arg10) = m ((c.tc : Thread Cert.KernelIdeal.nD Cert.KernelIdeal.τ).loc Cert.KernelIdeal.main_arg10))
    (e11 : V' (Proc.devRef .tc Cert.ReferenceIdeal.main_arg11) = m ((c.tc : Thread Cert.KernelIdeal.nD Cert.KernelIdeal.τ).loc Cert.KernelIdeal.main_arg11))
    (e12 : V' (Proc.devRef .tc Cert.ReferenceIdeal.main_arg12) = m ((c.tc : Thread Cert.KernelIdeal.nD Cert.KernelIdeal.τ).loc Cert.KernelIdeal.main_arg12)) :
    Cert.ReferenceIdeal.HandVal.posBNRef8 (Cert.ReferenceIdeal.HandVal.posDot8 (Cert.ReferenceIdeal.Hand.R2 (F := Ideal) V' (Proc.devRef .tc Cert.ReferenceIdeal.main_v19)) (Cert.ReferenceIdeal.Hand.R2 (F := Ideal) V' (Proc.devRef .tc Cert.ReferenceIdeal.main_arg10))) (Cert.ReferenceIdeal.Hand.R2 (F := Ideal) V' (Proc.devRef .tc Cert.ReferenceIdeal.main_arg11)) (Cert.ReferenceIdeal.Hand.R2 (F := Ideal) V' (Proc.devRef .tc Cert.ReferenceIdeal.main_arg12))
      = Cert.KernelIdeal.Hand.W29 m ρ c (Proc.devRef .tc Cert.KernelIdeal.main_v111) := by
  rw [ref_v19 V', ref_arg_R2 V' (y := Cert.ReferenceIdeal.main_arg10) (by decide), ref_arg_R2 V' (y := Cert.ReferenceIdeal.main_arg11) (by decide),
    ref_arg_R2 V' (y := Cert.ReferenceIdeal.main_arg12) (by decide), Cert.KernelIdeal.HandVal.sync_pf, Cert.KernelIdeal.HandVal.args_v111 m ρ c, e10, e11, e12]

theorem sync_nf
    (e4 : V' (Proc.devRef .tc Cert.ReferenceIdeal.main_arg4) = m ((c.tc : Thread Cert.KernelIdeal.nD Cert.KernelIdeal.τ).loc Cert.KernelIdeal.main_arg4))
    (e5 : V' (Proc.devRef .tc Cert.ReferenceIdeal.main_arg5) = m ((c.tc : Thread Cert.KernelIdeal.nD Cert.KernelIdeal.τ).loc Cert.KernelIdeal.main_arg5))
    (e6 : V' (Proc.devRef .tc Cert.ReferenceIdeal.main_arg6) = m ((c.tc : Thread Cert.KernelIdeal.nD Cert.KernelIdeal.τ).loc Cert.KernelIdeal.main_arg6))
    (e7 : V' (Proc.devRef .tc Cert.ReferenceIdeal.main_arg7) = m ((c.tc : Thread Cert.KernelIdeal.nD Cert.KernelIdeal.τ).loc Cert.KernelIdeal.main_arg7))
    (e8 : V' (Proc.devRef .tc Cert.ReferenceIdeal.main_arg8) = m ((c.tc : Thread Cert.KernelIdeal.nD Cert.KernelIdeal.τ).loc Cert.KernelIdeal.main_arg8))
    (e9 : V' (Proc.devRef .tc Cert.ReferenceIdeal.main_arg9) = m ((c.tc : Thread Cert.KernelIdeal.nD Cert.KernelIdeal.τ).loc Cert.KernelIdeal.main_arg9))
    (e10 : V' (Proc.devRef .tc Cert.ReferenceIdeal.main_arg10) = m ((c.tc : Thread Cert.KernelIdeal.nD Cert.KernelIdeal.τ).loc Cert.KernelIdeal.main_arg10))
    (e11 : V' (Proc.devRef .tc Cert.ReferenceIdeal.main_arg11) = m ((c.tc : Thread Cert.KernelIdeal.nD Cert.KernelIdeal.τ).loc Cert.KernelIdeal.main_arg11))
    (e12 : V' (Proc.devRef .tc Cert.ReferenceIdeal.main_arg12) = m ((c.tc : Thread Cert.KernelIdeal.nD Cert.KernelIdeal.τ).loc Cert.KernelIdeal.main_arg12)) :
    Cert.ReferenceIdeal.HandVal.nfOf (F := Ideal) (Cert.ReferenceIdeal.Hand.R2 V') = Cert.KernelIdeal.Hand.W29 m ρ c (Proc.devRef .tc Cert.KernelIdeal.main_v112) := by
  show Cert.ReferenceIdeal.HandVal.poolRef8 (Cert.ReferenceIdeal.HandVal.gfRef8 (Cert.ReferenceIdeal.Hand.R2 (F := Ideal) V' (Proc.devRef .tc Cert.ReferenceIdeal.main_v47)) (Cert.ReferenceIdeal.Hand.R2 (F := Ideal) V' (Proc.devRef .tc Cert.ReferenceIdeal.main_v93)) (Cert.ReferenceIdeal.Hand.R2 (F := Ideal) V' (Proc.devRef .tc Cert.ReferenceIdeal.main_v91)))
      (Cert.ReferenceIdeal.HandVal.posBNRef8 (Cert.ReferenceIdeal.HandVal.posDot8 (Cert.ReferenceIdeal.Hand.R2 (F := Ideal) V' (Proc.devRef .tc Cert.ReferenceIdeal.main_v19)) (Cert.ReferenceIdeal.Hand.R2 (F := Ideal) V' (Proc.devRef .tc Cert.ReferenceIdeal.main_arg10))) (Cert.ReferenceIdeal.Hand.R2 (F := Ideal) V' (Proc.devRef .tc Cert.ReferenceIdeal.main_arg11)) (Cert.ReferenceIdeal.Hand.R2 (F := Ideal) V' (Proc.devRef .tc Cert.ReferenceIdeal.main_arg12))) = _
  rw [sync_gf m ρ c V' e4 e5 e6 e7 e8 e9, sync_pf m ρ c V' e10 e11 e12, Cert.ReferenceIdeal.HandVal.pool_ref_eq, Cert.KernelIdeal.HandVal.val_v112 m ρ c]

theorem out0_eq_of (hpre : Cert.Pre_KernelIdeal m)
    (e4 : V' (Proc.devRef .tc Cert.ReferenceIdeal.main_arg4) = m ((c.tc : Thread Cert.KernelIdeal.nD Cert.KernelIdeal.τ).loc Cert.KernelIdeal.main_arg4))
    (e5 : V' (Proc.devRef .tc Cert.ReferenceIdeal.main_arg5) = m ((c.tc : Thread Cert.KernelIdeal.nD Cert.KernelIdeal.τ).loc Cert.KernelIdeal.main_arg5))
    (e6 : V' (Proc.devRef .tc Cert.ReferenceIdeal.main_arg6) = m ((c.tc : Thread Cert.KernelIdeal.nD Cert.KernelIdeal.τ).loc Cert.KernelIdeal.main_arg6))
    (e7 : V' (Proc.devRef .tc Cert.ReferenceIdeal.main_arg7) = m ((c.tc : Thread Cert.KernelIdeal.nD Cert.KernelIdeal.τ).loc Cert.KernelIdeal.main_arg7))
    (e8 : V' (Proc.devRef .tc Cert.ReferenceIdeal.main_arg8) = m ((c.tc : Thread Cert.KernelIdeal.nD Cert.KernelIdeal.τ).loc Cert.KernelIdeal.main_arg8))
    (e9 : V' (Proc.devRef .tc Cert.ReferenceIdeal.main_arg9) = m ((c.tc : Thread Cert.KernelIdeal.nD Cert.KernelIdeal.τ).loc Cert.KernelIdeal.main_arg9))
    (e10 : V' (Proc.devRef .tc Cert.ReferenceIdeal.main_arg10) = m ((c.tc : Thread Cert.KernelIdeal.nD Cert.KernelIdeal.τ).loc Cert.KernelIdeal.main_arg10))
    (e11 : V' (Proc.devRef .tc Cert.ReferenceIdeal.main_arg11) = m ((c.tc : Thread Cert.KernelIdeal.nD Cert.KernelIdeal.τ).loc Cert.KernelIdeal.main_arg11))
    (e12 : V' (Proc.devRef .tc Cert.ReferenceIdeal.main_arg12) = m ((c.tc : Thread Cert.KernelIdeal.nD Cert.KernelIdeal.τ).loc Cert.KernelIdeal.main_arg12))
    (e13 : V' (Proc.devRef .tc Cert.ReferenceIdeal.main_arg13) = m ((c.tc : Thread Cert.KernelIdeal.nD Cert.KernelIdeal.τ).loc Cert.KernelIdeal.main_arg13))
    (e14 : V' (Proc.devRef .tc Cert.ReferenceIdeal.main_arg14) = m ((c.tc : Thread Cert.KernelIdeal.nD Cert.KernelIdeal.τ).loc Cert.KernelIdeal.main_arg14))
    (e15 : V' (Proc.devRef .tc Cert.ReferenceIdeal.main_arg15) = m ((c.tc : Thread Cert.KernelIdeal.nD Cert.KernelIdeal.τ).loc Cert.KernelIdeal.main_arg15)) :
    after (Cert.ReferenceIdeal.Hand.ops (F := Ideal)) V' (Proc.devRef .tc Cert.ReferenceIdeal.main_v158) = Cert.KernelIdeal.Hand.W29 m ρ c (Proc.devRef .tc Cert.KernelIdeal.main_v126) := by
  funext i
  obtain ⟨r, j, rfl⟩ : ∃ (r : Fin 65536) (j : Fin 64), i = ix2 r j := ⟨i 0, i 1, eq_ix2 i⟩
  rw [ref_v158, Cert.KernelIdeal.HandVal.out0_at m ρ c (Cert.KernelIdeal.HandVal.nf0_real m ρ hpre c) (Cert.KernelIdeal.HandVal.arg13_real m hpre c) r j]
  unfold Cert.ReferenceIdeal.HandVal.oOf
  rw [sync_nf m ρ c V' e4 e5 e6 e7 e8 e9 e10 e11 e12, ref_arg_R2 V' (y := Cert.ReferenceIdeal.main_arg13) (by decide), e13, e14, e15]
  exact Cert.ReferenceIdeal.HandVal.ref_out0_at _ _ _ _ r j

end Stages

theorem out0_eq (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (c : Dev Cert.KernelIdeal.nD) :
    after (Cert.ReferenceIdeal.Hand.ops (F := Ideal)) (fun b => m' (c, b)) (Proc.devRef .tc Cert.ReferenceIdeal.main_v158) = Cert.KernelIdeal.Hand.W29 m ρ c (Proc.devRef .tc Cert.KernelIdeal.main_v126) := by
  obtain ⟨h0, h1, h2, h3, h4, h5, h6, h7, h8, h9, h10, h11, h12, h13, h14, h15⟩ := hagree c
  exact out0_eq_of m ρ c (fun b => m' (c, b)) hpre h4 h5 h6 h7 h8 h9 h10 h11 h12 h13 h14 h15

end Cert.Proof.Bridge

end
-- ==== Proof.KIVal6.lean ====
import proofs.«137221_j56719338111373_2_alg».proof.Proof.KIReg6
import proofs.«137221_j56719338111373_2_alg».proof.Proof.LibRun

set_option maxRecDepth 16384

noncomputable section

namespace Cert.KernelIdeal.HandVal

open Cert.Hand Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- The format changes are identities on the extended reals; the transpose swaps the weight's coordinates. -/
theorem k6_pay3_apply (x : Vec Ideal S8192x32 .f32) (w : Vec Ideal S64x32 .f32) (r : Fin 8192) (j : Fin 64) :
    k6_pay3 (F := Ideal) x w (ix2 r j) = ∑ k : Fin 32, x (ix2 r k) * w (ix2 j k) := by
  unfold k6_pay3
  exact (matmul_ix2 _ rfl none _ _ r j).trans (Finset.sum_congr rfl fun k _ => by
    rw [transpose_ix2_apply, truncf_apply, truncf_apply, shapeCast_self, shapeCast_self])

theorem k6_pay4_apply (x : Vec Ideal S8192x32 .f32) (w : Vec Ideal S64x32 .f32) (acc : Vec Ideal S1x64 .f32) (u : Fin 1) (j : Fin 64) :
    k6_pay4 (F := Ideal) x w acc (ix2 u j) = acc (ix2 u j) + ∑ r : Fin 8192, k6_pay3 (F := Ideal) x w (ix2 r j) := by
  unfold k6_pay4
  rw [shapeCast_self]
  exact addf_colsum_apply ..

theorem k6_pay5_apply (x : Vec Ideal S8192x32 .f32) (w : Vec Ideal S64x32 .f32) (acc : Vec Ideal S1x64 .f32) (u : Fin 1) (j : Fin 64) :
    k6_pay5 (F := Ideal) x w acc (ix2 u j)
      = acc (ix2 u j) + ∑ r : Fin 8192, k6_pay3 (F := Ideal) x w (ix2 r j) * k6_pay3 (F := Ideal) x w (ix2 r j) := by
  unfold k6_pay5
  rw [shapeCast_self]
  exact addf_colsum_apply ..

section Region6
variable (V : (c : Dev nD) → (b : Ref sig .tc) → Buf (Elt Ideal) ((c : Thread nD τ).loc b))

theorem idx6_all : ∀ t : Fin cfg6.N, win6_0.index t (0 : Fin 2) = t.val ∧ win6_0.index t (1 : Fin 2) = 0
    ∧ win6_1.index t (0 : Fin 2) = 0 ∧ win6_1.index t (1 : Fin 2) = 0
    ∧ (∀ a, win6_2.index t a * S1x64.size a = 0) ∧ ∀ a, win6_3.index t a * S1x64.size a = 0 :=
  (by decide +kernel : ∀ t : Fin grid6.N, _)

def nf6 (c : Dev nD) : Vec Ideal S65536x32 .f32 := V c (Pipeline.arrRef spec6 0)
def w6 (c : Dev nD) : Vec Ideal S64x32 .f32 := V c (Pipeline.arrRef spec6 1)

def o6 (c : Dev nD) (R : Fin 65536) (j : Fin 64) : EReal := ∑ k : Fin 32, nf6 V c (ix2 R k) * w6 V c (ix2 j k)

theorem blk_o6 (c : Dev nD) (t : Fin cfg6.N) (r : Fin 8192) (j : Fin 64) (R : Fin 65536) (hR : R.val = r.val + 8192 * t.val) :
    k6_pay3 (F := Ideal) (iblk6 V c 0 t) (iblk6 V c 1 t) (ix2 r j) = o6 V c R j := by
  obtain ⟨h0, h1, h2, h3, -⟩ := idx6_all t
  rw [k6_pay3_apply]
  refine Finset.sum_congr rfl fun k _ => ?_
  show nf6 V c (((cfg6.win 0).blk t).view.emb (ix2 r k)) * w6 V c (((cfg6.win 1).blk t).view.emb (ix2 j k)) = _
  congr 2 <;> refine Shape.idx_ext₂ ?_ ?_
  · show win6_0.index t 0 * 8192 + 1 * r.val = R.val; omega
  · show win6_0.index t 1 * 32 + 1 * k.val = k.val; omega
  · show win6_1.index t 0 * 64 + 1 * j.val = j.val; omega
  · show win6_1.index t 1 * 32 + 1 * k.val = k.val; omega

def sum6 (c : Dev nD) : Vec Ideal S1x64 .f32 := fun i => ∑ R : Fin 65536, o6 V c R (i 1)
def sq6 (c : Dev nD) : Vec Ideal S1x64 .f32 := fun i => ∑ R : Fin 65536, o6 V c R (i 1) * o6 V c R (i 1)

theorem last6_2 (c : Dev nD) (t : Fin cfg6.N) (h7 : t.val = 7) : (outsAt6 V c t.val t.isLt).1 = sum6 V c := by
  obtain ⟨n, hn⟩ := t
  dsimp only at h7
  subst h7
  funext i
  obtain ⟨u, j, rfl⟩ : ∃ (u : Fin 1) (j : Fin 64), i = ix2 u j := ⟨i 0, i 1, eq_ix2 i⟩
  exact run_blocks (a := 8) (b := 8192) N_6 (fun n h => (outsAt6 V c n h).1 (ix2 u j))
    (fun n h => ∑ r : Fin 8192, k6_pay3 (F := Ideal) (iblk6 V c 0 ⟨n, h⟩) (iblk6 V c 1 ⟨n, h⟩) (ix2 r j)) (fun R => o6 V c R j)
    (fun n h => Finset.sum_congr rfl fun r _ => blk_o6 V c ⟨n, h⟩ r j _ rfl)
    (fun h => (k6_pay4_apply _ _ _ u j).trans (by rw [show k6_pay1 (F := Ideal) (ix2 u j) = 0 from Ideal.ofBits_zero_f32, zero_add]))
    (fun n h => k6_pay4_apply _ _ _ u j) 7 hn rfl

theorem last6_3 (c : Dev nD) (t : Fin cfg6.N) (h7 : t.val = 7) : (outsAt6 V c t.val t.isLt).2 = sq6 V c := by
  obtain ⟨n, hn⟩ := t
  dsimp only at h7
  subst h7
  funext i
  obtain ⟨u, j, rfl⟩ : ∃ (u : Fin 1) (j : Fin 64), i = ix2 u j := ⟨i 0, i 1, eq_ix2 i⟩
  exact run_blocks (a := 8) (b := 8192) N_6 (fun n h => (outsAt6 V c n h).2 (ix2 u j))
    (fun n h => ∑ r : Fin 8192, k6_pay3 (F := Ideal) (iblk6 V c 0 ⟨n, h⟩) (iblk6 V c 1 ⟨n, h⟩) (ix2 r j)
      * k6_pay3 (F := Ideal) (iblk6 V c 0 ⟨n, h⟩) (iblk6 V c 1 ⟨n, h⟩) (ix2 r j)) (fun R => o6 V c R j * o6 V c R j)
    (fun n h => Finset.sum_congr rfl fun r _ => congrArg (fun x => x * x) (blk_o6 V c ⟨n, h⟩ r j _ rfl))
    (fun h => (k6_pay5_apply _ _ _ u j).trans (by rw [show k6_pay2 (F := Ideal) (ix2 u j) = 0 from Ideal.ofBits_zero_f32, zero_add]))
    (fun n h => k6_pay5_apply _ _ _ u j) 7 hn rfl

theorem mem_blk6_2 (t : Fin cfg6.N) (i : S1x64.Idx) : i ∈ ((cfg6.win 2).blk t).view.set := by
  show i ∈ ((View.whole main_v237_0).slice (win6_2.rect t)).set
  rw [View.set_slice_whole]
  exact View.mem_set_unit_zero (funext (idx6_all t).2.2.2.2.1) _ i

theorem mem_blk6_3 (t : Fin cfg6.N) (i : S1x64.Idx) : i ∈ ((cfg6.win 3).blk t).view.set := by
  show i ∈ ((View.whole main_v237_1).slice (win6_3.rect t)).set
  rw [View.set_slice_whole]
  exact View.mem_set_unit_zero (funext (idx6_all t).2.2.2.2.2) _ i

theorem flushed6_2 (c : Dev nD) (t : Fin cfg6.N) (hf : (cfg6.win 2).flush t = true) :
    (dat6 V c).flushed 2 t = ((cfg6.win 2).blk t).view.read (Elt Ideal) (sum6 V c) := by
  have hN : cfg6.N = 8 := N_6
  have h7 : t.val = 7 := by have := (flush6_2 t).mp hf; have := t.isLt; omega
  show (cfg6.win 2).cut (grid6.coords t) ((dat6 V c).after 2 t) = _
  rw [after6_2, last6_2 V c t h7]
  exact (Memref.read_access_unit_zero (Elt Ideal) main_v237_0 (funext (idx6_all t).2.2.2.2.1) _ (sum6 V c)).symm

theorem flushed6_3 (c : Dev nD) (t : Fin cfg6.N) (hf : (cfg6.win 3).flush t = true) :
    (dat6 V c).flushed 3 t = ((cfg6.win 3).blk t).view.read (Elt Ideal) (sq6 V c) := by
  have hN : cfg6.N = 8 := N_6
  have h7 : t.val = 7 := by have := (flush6_3 t).mp hf; have := t.isLt; omega
  show (cfg6.win 3).cut (grid6.coords t) ((dat6 V c).after 3 t) = _
  rw [after6_3, last6_3 V c t h7]
  exact (Memref.read_access_unit_zero (Elt Ideal) main_v237_1 (funext (idx6_all t).2.2.2.2.2) _ (sq6 V c)).symm

theorem arrAt6_2 (c : Dev nD) : (dat6 V c).arrAt 2 cfg6.N = sum6 V c :=
  (dat6 V c).arrAt_eq_of_cover 2 (sum6 V c) (flushed6_2 V c) fun i => ⟨t6_7, (flush6_2 t6_7).mpr rfl, mem_blk6_2 t6_7 i⟩

theorem arrAt6_3 (c : Dev nD) : (dat6 V c).arrAt 3 cfg6.N = sq6 V c :=
  (dat6 V c).arrAt_eq_of_cover 3 (sq6 V c) (flushed6_3 V c) fun i => ⟨t6_7, (flush6_3 t6_7).mpr rfl, mem_blk6_3 t6_7 i⟩

end Region6

end Cert.KernelIdeal.HandVal

end
-- ==== Proof.KIChainOut2.lean ====
import proofs.«137221_j56719338111373_2_alg».proof.Proof.KIChain2
import proofs.«137221_j56719338111373_2_alg».proof.Proof.KIVal6
import proofs.«137221_j56719338111373_2_alg».proof.Proof.KIVal7
import proofs.«137221_j56719338111373_2_alg».proof.Proof.BridgeNorm

noncomputable section

namespace Cert.KernelIdeal.HandVal

open Cert.KernelIdeal Cert.KernelIdeal.Gen Cert.KernelIdeal.Hand Cert.Spec
open Idealize.ShloMosaic Idealize.ShloMosaic.TcCoe Idealize.ShloMosaic.ValueIdx Idealize.SL.Sem
open scoped BigOperators

def colSum1 (nf : Cn Ideal S65536x32 .f32) (w : Cn Ideal S64x32 .f32) : Cn Ideal S1x64 .f32 :=
  fun i => ∑ R : Fin 65536, dotAt nf w R (i 1)

def colSq1 (nf : Cn Ideal S65536x32 .f32) (w : Cn Ideal S64x32 .f32) : Cn Ideal S1x64 .f32 :=
  fun i => ∑ R : Fin 65536, dotAt nf w R (i 1) * dotAt nf w R (i 1)

section Chain
variable (m : (ℓ : Loc nD τ sig) → Buf (Elt Ideal) ℓ) (ρ : Dev nD → PrngReg)

theorem sum1_of (c : Dev nD) :
    W29 m ρ c (Proc.devRef .tc main_v237_0)
      = colSum1 (W29 m ρ c (Proc.devRef .tc main_v232)) (W29 m ρ c (Proc.devRef .tc main_v234)) :=
  fin_v237_0_of m ρ (G := colSum1) (fun V c => by rw [arrAt6_2 V c]; rfl) c

theorem sq1_of (c : Dev nD) :
    W29 m ρ c (Proc.devRef .tc main_v237_1)
      = colSq1 (W29 m ρ c (Proc.devRef .tc main_v232)) (W29 m ρ c (Proc.devRef .tc main_v234)) :=
  fin_v237_1_of m ρ (G := colSq1) (fun V c => by rw [arrAt6_3 V c]; rfl) c

theorem norm1_of (c : Dev nD) :
    W29 m ρ c (Proc.devRef .tc main_v246)
      = norm7 (W29 m ρ c (Proc.devRef .tc main_v232)) (W29 m ρ c (Proc.devRef .tc main_v234))
          (W29 m ρ c (Proc.devRef .tc main_v239)) (W29 m ρ c (Proc.devRef .tc main_v245))
          (W29 m ρ c (Proc.devRef .tc main_v235)) (W29 m ρ c (Proc.devRef .tc main_v236)) :=
  fin_v246_of m ρ (G := norm7) (fun V c => arrAt7_6 V c) c

theorem out1_at (c : Dev nD)
    (hnf : ∀ i, IsReal (W29 m ρ c (Proc.devRef .tc main_v232) i))
    (hw : ∀ i, IsReal (m ((c : Thread nD τ).loc main_arg13) i))
    (r : Fin 65536) (j : Fin 64) :
    W29 m ρ c (Proc.devRef .tc main_v246) (ix2 r j)
      = bnReluAt (W29 m ρ c (Proc.devRef .tc main_v232)) (wOut1Of (m ((c : Thread nD τ).loc main_arg13)))
          (row1_64 (m ((c : Thread nD τ).loc main_arg14))) (row1_64 (m ((c : Thread nD τ).loc main_arg15))) r j := by
  have hS : ∀ j : Fin 64, W29 m ρ c (Proc.devRef .tc main_v237_0) (ix2 (0 : Fin 1) j)
      = ∑ R : Fin 65536, dotAt (W29 m ρ c (Proc.devRef .tc main_v232)) (wOut1Of (m ((c : Thread nD τ).loc main_arg13))) R j := by
    intro j; rw [sum1_of m ρ c, fin_v234 m ρ c]; rfl
  have hQ : ∀ j : Fin 64, W29 m ρ c (Proc.devRef .tc main_v237_1) (ix2 (0 : Fin 1) j)
      = ∑ R : Fin 65536, dotAt (W29 m ρ c (Proc.devRef .tc main_v232)) (wOut1Of (m ((c : Thread nD τ).loc main_arg13))) R j
          * dotAt (W29 m ρ c (Proc.devRef .tc main_v232)) (wOut1Of (m ((c : Thread nD τ).loc main_arg13))) R j := by
    intro j; rw [sq1_of m ρ c, fin_v234 m ρ c]; rfl
  rw [norm1_of m ρ c]
  show normAt7 _ _ _ _ _ _ r j = _
  rw [fin_v239 m ρ c, fin_v245 m ρ c, fin_v234 m ρ c, fin_v235 m ρ c, fin_v236 m ρ c]
  exact norm_bridge7 (W29 m ρ c (Proc.devRef .tc main_v232)) (wOut1Of (m ((c : Thread nD τ).loc main_arg13)))
    (row1_64 (m ((c : Thread nD τ).loc main_arg14))) (row1_64 (m ((c : Thread nD τ).loc main_arg15)))
    (W29 m ρ c (Proc.devRef .tc main_v237_0)) (W29 m ρ c (Proc.devRef .tc main_v237_1))
    hnf (fun i => hw _) hS hQ r j

end Chain

end Cert.KernelIdeal.HandVal

end
-- ==== Proof.BridgeReal1.lean ====
import proofs.«137221_j56719338111373_2_alg».proof.Proof.BridgeReal0
import proofs.«137221_j56719338111373_2_alg».proof.Proof.KIChain2
import proofs.«137221_j56719338111373_2_alg».proof.Proof.KIVal4

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Cert.Spec

variable [Cert.Pre_finite_inputs.Facts]
variable (m : (ℓ : Loc nD τ sig) → Buf (Elt Ideal) ℓ) (ρ : Dev nD → PrngReg)

theorem v141_real (hpre : Cert.Pre_KernelIdeal m) (c : Dev nD) : ∀ i, IsReal (W29 m ρ c (Proc.devRef .tc main_v141) i) := by
  rw [fin_v141 m ρ c]; exact isReal_wIn1Of _ (arg7_real m hpre c)

theorem v142_real (hpre : Cert.Pre_KernelIdeal m) (c : Dev nD) : ∀ i, IsReal (W29 m ρ c (Proc.devRef .tc main_v142) i) := by
  rw [fin_v142 m ρ c]; exact isReal_row1_32 _ (arg8_real m hpre c)

theorem v143_real (hpre : Cert.Pre_KernelIdeal m) (c : Dev nD) : ∀ i, IsReal (W29 m ρ c (Proc.devRef .tc main_v143) i) := by
  rw [fin_v143 m ρ c]; exact isReal_row1_32 _ (arg9_real m hpre c)

theorem v144_real (hpre : Cert.Pre_KernelIdeal m) (c : Dev nD) : ∀ i, IsReal (W29 m ρ c (Proc.devRef .tc main_v144) i) := by
  rw [fin_v144_of m ρ (G := bn0) (fun V c => final4_4 V c) c]
  exact isReal_bn0 _ _ _ _ (arg5_real m hpre c) (v141_real m ρ hpre c) (v142_real m ρ hpre c) (v143_real m ρ hpre c)

theorem v146_real (hpre : Cert.Pre_KernelIdeal m) (c : Dev nD) : ∀ i, IsReal (W29 m ρ c (Proc.devRef .tc main_v146) i) := by
  rw [fin_v146 m ρ c]; exact isReal_padRows _ (v144_real m ρ hpre c)

theorem v197_real (hpre : Cert.Pre_KernelIdeal m) (c : Dev nD) : ∀ i, IsReal (W29 m ρ c (Proc.devRef .tc main_v197) i) := by
  rw [fin_v197 m ρ c]; exact isReal_gatherPadded64 _ _ (v146_real m ρ hpre c)

theorem v231_real (hpre : Cert.Pre_KernelIdeal m) (c : Dev nD) : ∀ i, IsReal (W29 m ρ c (Proc.devRef .tc main_v231) i) := by
  rw [fin_v231 m ρ c]
  exact isReal_posBN64 _ _ _ _ (arg10_real m hpre c) (arg11_real m hpre c) (arg12_real m hpre c)

theorem nf1_real (hpre : Cert.Pre_KernelIdeal m) (c : Dev nD) : ∀ i, IsReal (W29 m ρ c (Proc.devRef .tc main_v232) i) := by
  rw [fin_v232_of m ρ (G := pool5) (fun V c => arrAt5_2 V c) c]
  exact isReal_pool5 _ _ (v197_real m ρ hpre c) (v231_real m ρ hpre c)

end Cert.KernelIdeal.HandVal

end
-- ==== Proof.RefVal6.lean ====
import proofs.«137221_j56719338111373_2_alg».proof.Proof.RefVal2
import Idealize.ShloMosaic.Lib.StableHlo.Run

set_option maxRecDepth 16384

noncomputable section

namespace Cert.ReferenceIdeal.HandVal

open Cert.ReferenceIdeal Cert.ReferenceIdeal.Gen Cert.ReferenceIdeal.Hand
open Idealize.ShloMosaic Idealize.ShloMosaic.TcCoe Idealize.SL.Sem Idealize.ShloMosaic.StableHlo

variable {F : FTy → Type} [FloatOps F]

def wrapIdx64 (neg : Cn F S65536x64 .i1) (ix : Cn F S65536x64 .i32) : Cn F S65536x64x1 .i32 :=
  broadcastInDim S65536x64x1 ![0, 1] bcast_S65536x64_S65536x64x1_0_1
    (select neg (addi ix (broadcastInDim S65536x64 ![] bcast_S_S65536x64 (constantI S_ 32 16385#32))) ix)

def gfRef64 (tbl : Cn F S16385x32 .f32) (neg : Cn F S65536x64 .i1) (ix : Cn F S65536x64 .i32) : Cn F S65536x64x32 .f32 :=
  Host.gather gather_S16385x32_S65536x64x1_S65536x64x32_2_0_n_n_0_2_132 tbl (wrapIdx64 neg ix)

def offF64 (off : Cn F S64x4 .i32) : Cn F S64x3 .f32 :=
  sitofp .f32 (extractStridedSlice S64x3 ![0, 1] off slices_S64x4_S64x3_0_1)

def wPos1T (w : Cn F S2x32x3 .f32) : Cn F S3x32 .f32 :=
  transpose S3x32 [1, 0]
    (shapeCast S32x3 (extractStridedSlice S1x32x3 ![1, 0, 0] w slices_S2x32x3_S1x32x3_1_0_0) shapeCasts_S1x32x3_S32x3)
    transposes_S32x3_S3x32_1_0

def posDot64 (off : Cn F S64x4 .i32) (w : Cn F S2x32x3 .f32) : Cn F S64x32 .f32 :=
  Host.dotGeneral dot_S64x3_S3x32_S64x32_1_0_0_1_n_n none (offF64 off) (wPos1T w)

def vec1_32 (g : Cn F S2x32 .f32) : Cn F S32 .f32 :=
  shapeCast S32 (extractStridedSlice S1x32 ![1, 0] g slices_S2x32_S1x32_1_0) shapeCasts_S1x32_S32

def rows64 (v : Cn F S1x32 .f32) : Cn F S64x32 .f32 := broadcastInDim S64x32 ![0, 1] bcast_S1x32_S64x32_0_1 v

def colSum64 (x : Cn F S64x32 .f32) : Cn F S1x32 .f32 :=
  row32 (Host.reduceAdd x (constant S_ .f32 0x00000000#32) reducesTo_S64x32_S32_d0 h_S_)

def colMean64 (x : Cn F S64x32 .f32) : Cn F S1x32 .f32 :=
  Host.divf (colSum64 x) (splat32 (constant S_ .f32 0x42800000#32))

def norm64 : Cn F S_ .f32 := subf (constant S_ .f32 0x42800000#32) (sitofp .f32 (constantI S_ 32 0#32))

def colVar64 (x : Cn F S64x32 .f32) : Cn F S1x32 .f32 :=
  select (broadcastInDim S1x32 ![] bcast_S_S1x32 (cmpf .ogt (norm64 (F := F)) (constant S_ .f32 0x00000000#32)))
    (Host.divf (colSum64 (mulf (subf x (rows64 (colMean64 x))) (subf x (rows64 (colMean64 x))))) (splat32 (norm64 (F := F))))
    (splat32 (constant S_ .f32 0x7FC00000#32))

def bnWith64 (x : Cn F S64x32 .f32) (var : Cn F S1x32 .f32) (g b : Cn F S32 .f32) : Cn F S64x32 .f32 :=
  addf
    (mulf
      (mulf (subf x (rows64 (colMean64 x)))
        (rows64 (Host.rsqrt (addf var (splat32 (constant S_ .f32 0x3727C5AC#32))))))
      (rows64 (row32 g)))
    (rows64 (row32 b))

def posBNRef64 (x : Cn F S64x32 .f32) (g b : Cn F S2x32 .f32) : Cn F S64x32 .f32 :=
  bnWith64 x (colVar64 x) (vec1_32 g) (vec1_32 b)

def overPoints64 (pf : Cn F S64x32 .f32) : Cn F S65536x64x32 .f32 :=
  broadcastInDim S65536x64x32 ![0, 1, 2] bcast_S1x64x32_S65536x64x32_0_1_2
    (broadcastInDim S1x64x32 ![1, 2] bcast_S64x32_S1x64x32_1_2 pf)

def reluSum64 (gf : Cn F S65536x64x32 .f32) (pf : Cn F S64x32 .f32) : Cn F S65536x64x32 .f32 :=
  maximumf (addf gf (overPoints64 pf)) (broadcastInDim S65536x64x32 ![] bcast_S_S65536x64x32 (constant S_ .f32 0x00000000#32))

def poolRef64 (gf : Cn F S65536x64x32 .f32) (pf : Cn F S64x32 .f32) : Cn F S65536x32 .f32 :=
  Host.reduce FloatOps.maximumf (reluSum64 gf pf) (constant S_ .f32 0xFF800000#32) reducesTo_S65536x64x32_S65536x32_d1 h_S_

def wOut1T (w : Cn F S2x64x32 .f32) : Cn F S32x64 .f32 :=
  transpose S32x64 [1, 0]
    (shapeCast S64x32 (extractStridedSlice S1x64x32 ![1, 0, 0] w slices_S2x64x32_S1x64x32_1_0_0) shapeCasts_S1x64x32_S64x32)
    transposes_S64x32_S32x64_1_0

def vec1_64 (g : Cn F S2x64 .f32) : Cn F S64 .f32 :=
  shapeCast S64 (extractStridedSlice S1x64 ![1, 0] g slices_S2x64_S1x64_1_0) shapeCasts_S1x64_S64

abbrev nfOf64 (V : Valuation τ sig (Elt F)) : Cn F S65536x32 .f32 :=
  poolRef64 (gfRef64 (V (Proc.devRef .tc main_v199)) (StableHlo.after ops_part5 V (Proc.devRef .tc main_v245)) (StableHlo.after ops_part5 V (Proc.devRef .tc main_v243)))
    (posBNRef64 (posDot64 (V (Proc.devRef .tc main_v171)) (V (Proc.devRef .tc main_arg10))) (V (Proc.devRef .tc main_arg11)) (V (Proc.devRef .tc main_arg12)))

abbrev oOf64 (V : Valuation τ sig (Elt F)) : Cn F S65536x64 .f32 := outDot (nfOf64 V) (wOut1T (V (Proc.devRef .tc main_arg13)))

set_option maxHeartbeats 1000000 in
theorem part5_v287 (V : Valuation τ sig (Elt F)) :
    StableHlo.after ops_part5 V (Proc.devRef .tc main_v287) = oOf64 V := by
  unfold ops_part5; after_results_simp; rfl

set_option maxHeartbeats 1000000 in
theorem part5_v289 (V : Valuation τ sig (Elt F)) :
    StableHlo.after ops_part5 V (Proc.devRef .tc main_v289) = vec1_64 (V (Proc.devRef .tc main_arg14)) := by
  unfold ops_part5; after_results_simp; rfl

set_option maxHeartbeats 1000000 in
theorem part5_v291 (V : Valuation τ sig (Elt F)) :
    StableHlo.after ops_part5 V (Proc.devRef .tc main_v291) = vec1_64 (V (Proc.devRef .tc main_arg15)) := by
  unfold ops_part5; after_results_simp; rfl

set_option maxHeartbeats 1000000 in

theorem part5_v293 (V : Valuation τ sig (Elt F)) :
    StableHlo.after ops_part5 V (Proc.devRef .tc main_v293) = colSumAll (oOf64 V) := by
  unfold ops_part5; after_results_simp; rfl

set_option maxHeartbeats 1000000 in

theorem part6_v295 (V : Valuation τ sig (Elt F)) :
    StableHlo.after ops_part6 V (Proc.devRef .tc main_v295)
      = Host.divf (V (Proc.devRef .tc main_v293)) (splat64 (constant S_ .f32 0x47800000#32)) := by
  unfold ops_part6; after_results_simp; rfl

set_option maxHeartbeats 1000000 in

theorem part6_v296 (V : Valuation τ sig (Elt F)) :
    StableHlo.after ops_part6 V (Proc.devRef .tc main_v296) = colVarAll (V (Proc.devRef .tc main_v287)) := by
  unfold ops_part6; after_results_simp; rfl

set_option maxHeartbeats 1000000 in

theorem part6_v310 (V : Valuation τ sig (Elt F)) :
    StableHlo.after ops_part6 V (Proc.devRef .tc main_v310)
      = normRef (V (Proc.devRef .tc main_v287)) (StableHlo.after ops_part6 V (Proc.devRef .tc main_v295)) (StableHlo.after ops_part6 V (Proc.devRef .tc main_v296))
          (V (Proc.devRef .tc main_v289)) (V (Proc.devRef .tc main_v291)) := by
  unfold ops_part6; after_results_simp; rfl

end Cert.ReferenceIdeal.HandVal

end
-- ==== Proof.BridgePos64.lean ====
import proofs.«137221_j56719338111373_2_alg».proof.Proof.KIHostVal64
import proofs.«137221_j56719338111373_2_alg».proof.Proof.RefVal6
import proofs.«137221_j56719338111373_2_alg».proof.Proof.SpecVar

noncomputable section

namespace Cert.KernelIdeal.HandVal

open Cert.KernelIdeal Cert.KernelIdeal.Gen Idealize.ShloMosaic

theorem colVar64_sync (x : Cn Ideal S64x32 .f32) : Cert.ReferenceIdeal.HandVal.colVar64 x = colVar64 x := by
  unfold Cert.ReferenceIdeal.HandVal.colVar64 Cert.ReferenceIdeal.HandVal.norm64 Cert.ReferenceIdeal.HandVal.splat32
  rw [Cert.Spec.var_tail _ _ Cert.Spec.ofBits_64_pos]
  rfl

theorem sync_pf64 (off : Cn Ideal S64x4 .i32) (a10 : Cn Ideal S2x32x3 .f32) (a11 a12 : Cn Ideal S2x32 .f32) :
    Cert.ReferenceIdeal.HandVal.posBNRef64 (Cert.ReferenceIdeal.HandVal.posDot64 off a10) a11 a12
      = posBN64 off a10 a11 a12 := by
  unfold Cert.ReferenceIdeal.HandVal.posBNRef64 Cert.ReferenceIdeal.HandVal.bnWith64
  rw [colVar64_sync]
  rfl

end Cert.KernelIdeal.HandVal

end
-- ==== Proof.RefVal6Idx.lean ====
import proofs.«137221_j56719338111373_2_alg».proof.Proof.RefVal6
import proofs.«137221_j56719338111373_2_alg».proof.Proof.RefVal2Idx
import proofs.«137221_j56719338111373_2_alg».proof.Proof.SpecVar
import Idealize.ShloMosaic.Lib.Pipeline.Value
import Idealize.ShloMosaic.Lib.ValueIdx
import Idealize.ShloMosaic.Lib.ValueLayout
import Idealize.ShloMosaic.PureOps.Ideal.Laws

set_option maxRecDepth 8192

noncomputable section

namespace Cert.ReferenceIdeal.HandVal

open Cert.ReferenceIdeal Cert.ReferenceIdeal.Gen Cert.ReferenceIdeal.Hand
open Idealize.ShloMosaic Idealize.ShloMosaic.TcCoe Idealize.SL.Sem Idealize.ShloMosaic.StableHlo
open Idealize.ShloMosaic.ValueIdx
open scoped BigOperators

theorem overPoints64_apply (pf : Cn Ideal S64x32 .f32) (r : Fin 65536) (k : Fin 64) (j : Fin 32) :
    overPoints64 pf (ix3 r k j) = pf (ix2 k j) :=
  (broadcastInDim_apply _ _ _ (ix3 r k j) (ix3 (0 : Fin 1) k j) (fun a => by
      match a with
      | ⟨0, _⟩ => rfl
      | ⟨1, _⟩ => rfl
      | ⟨2, _⟩ => rfl)).trans
    (broadcastInDim_apply _ _ pf (ix3 (0 : Fin 1) k j) (ix2 k j) (fun a => by
      match a with
      | ⟨0, _⟩ => rfl
      | ⟨1, _⟩ => rfl))

theorem reluSum64_apply (gf : Cn Ideal S65536x64x32 .f32) (pf : Cn Ideal S64x32 .f32) (r : Fin 65536) (k : Fin 64) (j : Fin 32) :
    reluSum64 gf pf (ix3 r k j) = max (gf (ix3 r k j) + pf (ix2 k j)) (Ideal.ofBits .f32 0x00000000#32) :=
  congrArg₂ (fun a b : Ideal .f32 => max (gf (ix3 r k j) + a) b) (overPoints64_apply pf r k j)
    (broadcastInDim_apply _ _ (constant (F := Ideal) S_ .f32 0x00000000#32) (ix3 r k j) ix0 (fun a => a.elim0))

theorem poolRef64_apply (gf : Cn Ideal S65536x64x32 .f32) (pf : Cn Ideal S64x32 .f32) (r : Fin 65536) (j : Fin 32) :
    poolRef64 gf pf (ix2 r j) = (Finset.univ : Finset (Fin 64)).fold max (Ideal.ofBits .f32 0xFF800000#32)
      (fun k => max (gf (ix3 r k j) + pf (ix2 k j)) (Ideal.ofBits .f32 0x00000000#32)) := by
  have hred : S65536x64x32.Reduces [1] S65536x32 := by decide
  unfold poolRef64
  refine (Host.reduce_eq_fold_single (FloatOps.maximumf (F := Ideal) (φ := .f32)) (reluSum64 gf pf) _
    reducesTo_S65536x64x32_S65536x32_d1 hred h_S_ (ix2 r j)).trans ?_
  refine congrArg (fun f => Finset.fold max (Ideal.ofBits .f32 0xFF800000#32) f Finset.univ) (funext fun (k : Fin 64) => ?_)
  exact (congrArg (reluSum64 gf pf) (lift_mid hred r j k)).trans (reluSum64_apply gf pf r k j)

end Cert.ReferenceIdeal.HandVal

end
-- ==== Proof.RefVal6B.lean ====
import proofs.«137221_j56719338111373_2_alg».proof.Proof.RefVal6Idx
import proofs.«137221_j56719338111373_2_alg».proof.Proof.BridgeNorm
import proofs.«137221_j56719338111373_2_alg».proof.Proof.KIVal5
import proofs.«137221_j56719338111373_2_alg».proof.Proof.KIHostVal64

set_option maxRecDepth 8192

noncomputable section

namespace Cert.ReferenceIdeal.HandVal

open Cert.ReferenceIdeal Cert.ReferenceIdeal.Gen Cert.ReferenceIdeal.Hand
open Idealize.ShloMosaic Idealize.ShloMosaic.TcCoe Idealize.SL.Sem Idealize.ShloMosaic.StableHlo
open Idealize.ShloMosaic.ValueIdx
open scoped BigOperators

theorem wOut1T_apply (w3 : Cn Ideal S2x64x32 .f32) (k : Fin 32) (j : Fin 64) :
    wOut1T w3 (ix2 k j) = Cert.KernelIdeal.HandVal.wOut1Of (F := Ideal) w3 (ix2 j k) :=
  transpose_ix2_apply _ transposes_S64x32_S32x64_1_0 k j

theorem vec1_64_apply (g2 : Cn Ideal S2x64 .f32) (j : Fin 64) :
    vec1_64 g2 (ix1 j) = Cert.KernelIdeal.HandVal.row1_64 (F := Ideal) g2 (ix2 (0 : Fin 1) j) :=
  shapeCast_1a_a_apply _ shapeCasts_S1x64_S64 j

theorem outDot_eq_dotAt1 (nf : Cn Ideal S65536x32 .f32) (w3 : Cn Ideal S2x64x32 .f32) (r : Fin 65536) (j : Fin 64) :
    outDot nf (wOut1T w3) (ix2 r j)
      = Cert.KernelIdeal.HandVal.dotAt nf (Cert.KernelIdeal.HandVal.wOut1Of (F := Ideal) w3) r j := by
  rw [outDot_apply]
  exact Finset.sum_congr rfl fun k _ => congrArg (nf (ix2 r k) * ·) (wOut1T_apply w3 k j)

theorem ref_out1_at (nf : Cn Ideal S65536x32 .f32) (w3 : Cn Ideal S2x64x32 .f32) (g2 b2 : Cn Ideal S2x64 .f32)
    (r : Fin 65536) (j : Fin 64) :
    normRef (outDot nf (wOut1T w3)) (colMeanAll (outDot nf (wOut1T w3))) (colVarAll (outDot nf (wOut1T w3)))
        (vec1_64 g2) (vec1_64 b2) (ix2 r j)
      = Cert.KernelIdeal.HandVal.bnReluAt nf (Cert.KernelIdeal.HandVal.wOut1Of (F := Ideal) w3)
          (Cert.KernelIdeal.HandVal.row1_64 (F := Ideal) g2) (Cert.KernelIdeal.HandVal.row1_64 (F := Ideal) b2) r j := by
  rw [normRef_apply, colVarAll_apply, colMeanAll_apply]
  simp only [outDot_eq_dotAt1]
  rw [vec1_64_apply, vec1_64_apply, Ideal.ofBits_zero_f32]
  rfl

theorem pool_ref_eq64 (gf : Cn Ideal S65536x64x32 .f32) (pf : Cn Ideal S64x32 .f32) :
    poolRef64 gf pf = Cert.KernelIdeal.HandVal.pool5 gf pf := by
  funext i
  obtain ⟨r, j, rfl⟩ : ∃ (r : Fin 65536) (j : Fin 32), i = ix2 r j := ⟨i 0, i 1, eq_ix2 i⟩
  exact (poolRef64_apply gf pf r j).trans (Cert.KernelIdeal.HandVal.pool5_apply gf pf r j).symm

theorem gfRef64_eq_gatherPadded64 (tbl : Cn Ideal S16385x32 .f32) (neg : Cn Ideal S65536x64 .i1) (ix : Cn Ideal S65536x64 .i32) :
    gfRef64 tbl neg ix = Cert.KernelIdeal.HandVal.gatherPadded64 (F := Ideal) tbl (wrapIdx64 neg ix) := rfl

end Cert.ReferenceIdeal.HandVal

end
-- ==== Proof.RefVal4.lean ====
import proofs.«137221_j56719338111373_2_alg».proof.Proof.RefVal0

set_option maxRecDepth 16384

noncomputable section

open scoped BigOperators

namespace Cert.ReferenceIdeal.HandVal

open Cert.ReferenceIdeal Cert.ReferenceIdeal.Gen Cert.ReferenceIdeal.Hand
open Idealize.ShloMosaic Idealize.ShloMosaic.TcCoe Idealize.SL.Sem Idealize.ShloMosaic.StableHlo
open Cert.KernelIdeal.HandVal (Cn)

variable {F : FTy → Type} [FloatOps F]

def refW1T (w : Cn F S2x32x64 .f32) : Cn F S64x32 .f32 :=
  transpose S64x32 [1, 0] (shapeCast S32x64 (extractStridedSlice S1x32x64 ![1, 0, 0] w slices_S2x32x64_S1x32x64_1_0_0) shapeCasts_S1x32x64_S32x64)
    transposes_S32x64_S64x32_1_0

def refProd1 (x : Cn F S16384x64 .f32) (w : Cn F S2x32x64 .f32) : Cn F S16384x32 .f32 :=
  Host.dotGeneral dot_S16384x64_S64x32_S16384x32_1_0_0_1_n_n none x (refW1T w)

def refRow1 (g : Cn F S2x32 .f32) : Cn F S32 .f32 :=
  shapeCast S32 (extractStridedSlice S1x32 ![1, 0] g slices_S2x32_S1x32_1_0) shapeCasts_S1x32_S32

def refBn1 (x : Cn F S16384x64 .f32) (w : Cn F S2x32x64 .f32) (g b : Cn F S2x32 .f32) : Cn F S16384x32 .f32 :=
  refNormalise (refProd1 x w) (refRow1 g) (refRow1 b)

set_option maxRecDepth 8192 in
set_option maxHeartbeats 1000000 in

theorem part3_v197 (V : Valuation τ sig (Elt F)) :
    StableHlo.after ops_part3 V (Proc.devRef .tc main_v197)
      = refBn1 (V (Proc.devRef .tc main_arg5)) (V (Proc.devRef .tc main_arg7)) (V (Proc.devRef .tc main_arg8)) (V (Proc.devRef .tc main_arg9)) := by
  unfold ops_part3
  after_results_simp
  rfl

set_option maxRecDepth 8192 in
set_option maxHeartbeats 1000000 in

theorem part4_v199 (V : Valuation τ sig (Elt F)) :
    StableHlo.after ops_part4 V (Proc.devRef .tc main_v199) = refPadRows (V (Proc.devRef .tc main_v197)) := by
  unfold ops_part4
  after_results_simp
  rfl

section AtIdeal

open Idealize.ShloMosaic.ValueIdx
open Cert.KernelIdeal.HandVal (mm0 mu0 var0 bnAt0 bn0 bn0_apply wIn1Of row1_32)

theorem refW1T_apply (w : Cn Ideal S2x32x64 .f32) (k : Fin 64) (j : Fin 32) : refW1T w (ix2 k j) = wIn1Of w (ix2 j k) := by
  unfold refW1T
  rw [transpose_ix2_apply]
  rfl

theorem refProd1_apply (x : Cn Ideal S16384x64 .f32) (w : Cn Ideal S2x32x64 .f32) (r : Fin 16384) (j : Fin 32) :
    refProd1 x w (ix2 r j) = mm0 x (wIn1Of w) r j := by
  unfold refProd1 mm0
  exact (Cert.Hand.dotGeneral_ix2 _ rfl none .single x (refW1T w) r j).trans (Finset.sum_congr rfl fun k _ => by rw [refW1T_apply])

theorem refRow1_apply (g : Cn Ideal S2x32 .f32) (j : Fin 32) : refRow1 g (ix1 j) = row1_32 g (ix2 (0 : Fin 1) j) := by
  unfold refRow1
  rw [shapeCast_1a_a_apply]
  rfl

theorem refBn1_eq_bn0 (x : Cn Ideal S16384x64 .f32) (w : Cn Ideal S2x32x64 .f32) (g b : Cn Ideal S2x32 .f32) :
    refBn1 x w g b = bn0 x (wIn1Of w) (row1_32 g) (row1_32 b) := by
  funext i
  obtain ⟨r, j, rfl⟩ : ∃ (r : Fin 16384) (j : Fin 32), i = ix2 r j := ⟨i 0, i 1, eq_ix2 i⟩
  unfold refBn1
  rw [refNormalise_apply, refRow1_apply, refRow1_apply]
  simp only [refDev_apply, refProd1_apply]
  rfl

theorem part3_v197_bn0 (V : Valuation τ sig (Elt Ideal)) :
    StableHlo.after ops_part3 V (Proc.devRef .tc main_v197)
      = bn0 (V (Proc.devRef .tc main_arg5)) (wIn1Of (V (Proc.devRef .tc main_arg7))) (row1_32 (V (Proc.devRef .tc main_arg8)))
          (row1_32 (V (Proc.devRef .tc main_arg9))) := by
  rw [part3_v197, refBn1_eq_bn0]

theorem part4_v199_pad (V : Valuation τ sig (Elt Ideal)) :
    (StableHlo.after ops_part4 V (Proc.devRef .tc main_v199) : S16385x32.Idx → EReal)
      = Cert.KernelIdeal.HandVal.padRows (F := Ideal) (V (Proc.devRef .tc main_v197)) := by
  rw [part4_v199, refPadRows_eq]

end AtIdeal

end Cert.ReferenceIdeal.HandVal

end
-- ==== Proof.RefVal4Sync.lean ====
import proofs.«137221_j56719338111373_2_alg».proof.Proof.RefFold
import proofs.«137221_j56719338111373_2_alg».proof.Proof.RefVal4

noncomputable section

namespace Cert.ReferenceIdeal.HandVal

open Cert.ReferenceIdeal Cert.ReferenceIdeal.Gen Cert.ReferenceIdeal.Hand
open Idealize.ShloMosaic Idealize.ShloMosaic.TcCoe Idealize.SL.Sem Idealize.ShloMosaic.StableHlo
open Cert.KernelIdeal.HandVal (bn0 wIn1Of row1_32)

variable {F : FTy → Type} [FloatOps F]

theorem R3_arg (V : Valuation τ sig (Elt F)) {y : Ref sig .tc} (h : y.idx.val < 16) :
    R3 V (Proc.devRef .tc y) = V (Proc.devRef .tc y) := by
  rw [R3_keep V (Or.inl (by omega)), R2_keep V (Or.inl (by omega)), R1_keep V (Or.inl h), R0_eq]

theorem R4_v197 (V : Valuation τ sig (Elt Ideal)) :
    R4 (F := Ideal) V (Proc.devRef .tc main_v197)
      = bn0 (V (Proc.devRef .tc main_arg5)) (wIn1Of (V (Proc.devRef .tc main_arg7))) (row1_32 (V (Proc.devRef .tc main_arg8)))
          (row1_32 (V (Proc.devRef .tc main_arg9))) := by
  rw [R4_eq, part3_v197_bn0, R3_arg V (y := main_arg5) (by decide), R3_arg V (y := main_arg7) (by decide),
    R3_arg V (y := main_arg8) (by decide), R3_arg V (y := main_arg9) (by decide)]

theorem R5_v199 (V : Valuation τ sig (Elt Ideal)) :
    (R5 (F := Ideal) V (Proc.devRef .tc main_v199) : S16385x32.Idx → EReal)
      = Cert.KernelIdeal.HandVal.padRows (F := Ideal) (bn0 (V (Proc.devRef .tc main_arg5)) (wIn1Of (V (Proc.devRef .tc main_arg7)))
          (row1_32 (V (Proc.devRef .tc main_arg8))) (row1_32 (V (Proc.devRef .tc main_arg9)))) := by
  rw [R5_eq, part4_v199_pad, R4_v197]

end Cert.ReferenceIdeal.HandVal

end
-- ==== Proof.RefVal5.lean ====
import proofs.«137221_j56719338111373_2_alg».proof.Proof.RefOps
import proofs.«137221_j56719338111373_2_alg».proof.Proof.KIHostVal64
import Idealize.ShloMosaic.Lib.StableHlo.Run
import proofs.«137221_j56719338111373_2_alg».proof.Proof.LibRun

noncomputable section

namespace Cert.ReferenceIdeal.HandVal

open Cert.ReferenceIdeal Cert.ReferenceIdeal.Gen Cert.ReferenceIdeal.Hand Idealize.ShloMosaic Idealize.ShloMosaic.TcCoe Idealize.SL.Sem Idealize.ShloMosaic.StableHlo
open Cert.KernelIdeal.HandVal (Cn ncOf offsetsOf64 posOf64 posCol64_0 posCol64_1 posCol64_2 posCol64_3 clipOf64 wrapBy64 col64 idx4Of64
  vmGatherOf64 padIndexOf64)

variable {F : FTy → Type} [FloatOps F]

def idx4At64 (pos : Cn F S65536x64x4 .i32) : Cn F S65536x64x4 .i32 :=
  idx4Of64 (posCol64_0 pos)
    (clipOf64 (constantI S_ 32 0#32) (constantI S_ 32 10#32) (posCol64_1 pos))
    (clipOf64 (constantI S_ 32 0#32) (constantI S_ 32 199#32) (posCol64_2 pos))
    (clipOf64 (constantI S_ 32 0#32) (constantI S_ 32 175#32) (posCol64_3 pos))

def plusOne64 (g : Cn F S65536x64 .i32) : Cn F S65536x64 .i32 :=
  addi g (broadcastInDim S65536x64 ![] bcast_S_S65536x64 (constantI S_ 32 1#32))

def plusBy64 (c : Cn F S_ .i32) (g : Cn F S65536x64 .i32) : Cn F S65536x64 .i32 :=
  addi g (broadcastInDim S65536x64 ![] bcast_S_S65536x64 c)

theorem plusBy64_one (g : Cn F S65536x64 .i32) : plusBy64 (constantI S_ 32 1#32) g = plusOne64 g := rfl

def isNeg64 (x : Cn F S65536x64 .i32) : (⟨S65536x64, .i1⟩ : BufTy).Contents (Elt F) :=
  cmpi .slt x (broadcastInDim S65536x64 ![] bcast_S_S65536x64 (constantI S_ 32 0#32))

def vmRows64 (coords : Cn F S65536x4 .i32) (vm : Cn F S2x11x200x176 .i32) : Cn F S65536x64 .i32 :=
  vmGatherOf64 vm (idx4At64 (posOf64 (ncOf coords) offsetsOf64))

theorem part0_v6_nc (V : Valuation τ sig (Elt F)) :
    StableHlo.after ops_part0 V (Proc.devRef .tc main_v6) = ncOf (V (Proc.devRef .tc main_arg4)) := by
  unfold ops_part0; after_results_simp; rfl

set_option maxHeartbeats 1000000 in
theorem part3_v171 (V : Valuation τ sig (Elt F)) :
    StableHlo.after ops_part3 V (Proc.devRef .tc main_v171) = offsetsOf64 := by
  unfold ops_part3; after_results; rfl

theorem part4_split (V : Valuation τ sig (Elt F)) :
    StableHlo.after ops_part4 V = StableHlo.after (ops_part4.drop 72) (StableHlo.after (ops_part4.take 72) V) := by
  rw [← Cert.Hand.after_app, List.take_append_drop]

set_option maxHeartbeats 1000000 in
theorem part4_head_v236 (V : Valuation τ sig (Elt F)) :
    StableHlo.after (ops_part4.take 72) V (Proc.devRef .tc main_v236) = col64 (wrapBy64 2#32 (posCol64_0 (posOf64 (V (Proc.devRef .tc main_v6)) (V (Proc.devRef .tc main_v171))))) := by
  simp only [ops_part4, List.take_succ_cons, List.take_zero]; after_results_simp; rfl

set_option maxHeartbeats 1000000 in
theorem part4_head_v237 (V : Valuation τ sig (Elt F)) :
    StableHlo.after (ops_part4.take 72) V (Proc.devRef .tc main_v237)
      = col64 (wrapBy64 11#32 (clipOf64 (constantI S_ 32 0#32) (constantI S_ 32 10#32) (posCol64_1 (posOf64 (V (Proc.devRef .tc main_v6)) (V (Proc.devRef .tc main_v171)))))) := by
  simp only [ops_part4, List.take_succ_cons, List.take_zero]; after_results_simp; rfl

set_option maxHeartbeats 1000000 in
theorem part4_head_v238 (V : Valuation τ sig (Elt F)) :
    StableHlo.after (ops_part4.take 72) V (Proc.devRef .tc main_v238)
      = col64 (wrapBy64 200#32 (clipOf64 (constantI S_ 32 0#32) (constantI S_ 32 199#32) (posCol64_2 (posOf64 (V (Proc.devRef .tc main_v6)) (V (Proc.devRef .tc main_v171)))))) := by
  simp only [ops_part4, List.take_succ_cons, List.take_zero]; after_results_simp; rfl

set_option maxHeartbeats 1000000 in
theorem part4_head_v239 (V : Valuation τ sig (Elt F)) :
    StableHlo.after (ops_part4.take 72) V (Proc.devRef .tc main_v239)
      = col64 (wrapBy64 176#32 (clipOf64 (constantI S_ 32 0#32) (constantI S_ 32 175#32) (posCol64_3 (posOf64 (V (Proc.devRef .tc main_v6)) (V (Proc.devRef .tc main_v171)))))) := by
  simp only [ops_part4, List.take_succ_cons, List.take_zero]; after_results_simp; rfl

set_option maxHeartbeats 1000000 in
theorem part4_head_arg6 (V : Valuation τ sig (Elt F)) :
    StableHlo.after (ops_part4.take 72) V (Proc.devRef .tc main_arg6) = V (Proc.devRef .tc main_arg6) := by
  simp only [ops_part4, List.take_succ_cons, List.take_zero]; after_results_simp

def part4_stack4 (a b c d : Cn F S65536x64x1 .i32) : Cn F S65536x64x4 .i32 :=
  concatenate S65536x64x4 2 [⟨S65536x64x1, a⟩, ⟨S65536x64x1, b⟩, ⟨S65536x64x1, c⟩, ⟨S65536x64x1, d⟩]
    concatenates_S65536x64x1_S65536x64x1_S65536x64x1_S65536x64x1_S65536x64x4_d2

theorem part4_tail_v241 (W : Valuation τ sig (Elt F)) :
    StableHlo.after (ops_part4.drop 72) W (Proc.devRef .tc main_v241)
      = vmGatherOf64 (W (Proc.devRef .tc main_arg6))
          (part4_stack4 (W (Proc.devRef .tc main_v236)) (W (Proc.devRef .tc main_v237)) (W (Proc.devRef .tc main_v238)) (W (Proc.devRef .tc main_v239))) := by
  simp only [ops_part4, List.drop_succ_cons, List.drop_zero]; after_results; rfl

theorem part4_v241 (V : Valuation τ sig (Elt F)) :
    StableHlo.after ops_part4 V (Proc.devRef .tc main_v241)
      = vmGatherOf64 (V (Proc.devRef .tc main_arg6)) (idx4At64 (posOf64 (V (Proc.devRef .tc main_v6)) (V (Proc.devRef .tc main_v171)))) := by
  rw [part4_split, part4_tail_v241, part4_head_v236, part4_head_v237, part4_head_v238, part4_head_v239, part4_head_arg6]; rfl

set_option maxHeartbeats 1000000 in

theorem part4_c55 (V : Valuation τ sig (Elt F)) :
    StableHlo.after ops_part4 V (Proc.devRef .tc main_c_55) = constantI S_ 32 1#32 := by
  unfold ops_part4; after_results_simp

set_option maxHeartbeats 1000000 in
theorem part5_v243 (V : Valuation τ sig (Elt F)) :
    StableHlo.after ops_part5 V (Proc.devRef .tc main_v243) = plusBy64 (V (Proc.devRef .tc main_c_55)) (V (Proc.devRef .tc main_v241)) := by
  unfold ops_part5; after_results_simp; rfl

set_option maxHeartbeats 1000000 in
theorem part5_v245 (V : Valuation τ sig (Elt F)) :
    StableHlo.after ops_part5 V (Proc.devRef .tc main_v245) = isNeg64 (plusBy64 (V (Proc.devRef .tc main_c_55)) (V (Proc.devRef .tc main_v241))) := by
  unfold ops_part5; after_results_simp; rfl

end Cert.ReferenceIdeal.HandVal

end
-- ==== Proof.RefSync1.lean ====
import proofs.«137221_j56719338111373_2_alg».proof.Proof.RefFold
import proofs.«137221_j56719338111373_2_alg».proof.Proof.RefVal5

noncomputable section

namespace Cert.ReferenceIdeal.HandVal

open Cert.ReferenceIdeal Cert.ReferenceIdeal.Gen Cert.ReferenceIdeal.Hand Idealize.ShloMosaic Idealize.ShloMosaic.TcCoe Idealize.SL.Sem Idealize.ShloMosaic.StableHlo
open Cert.KernelIdeal.HandVal (Cn ncOf offsetsOf64 posOf64 vmGatherOf64 padIndexOf64)

variable {F : FTy → Type} [FloatOps F]

theorem arg_at_R1 (V : Valuation τ sig (Elt F)) {y : Ref sig .tc} (h : y.idx.val < 16) :
    R1 V (Proc.devRef .tc y) = V (Proc.devRef .tc y) := R1_keep V (.inl h)
theorem arg_at_R2 (V : Valuation τ sig (Elt F)) {y : Ref sig .tc} (h : y.idx.val < 16) :
    R2 V (Proc.devRef .tc y) = V (Proc.devRef .tc y) :=
  (R2_keep V (.inl (Nat.lt_of_lt_of_le h (by decide)))).trans (arg_at_R1 V h)
theorem arg_at_R3 (V : Valuation τ sig (Elt F)) {y : Ref sig .tc} (h : y.idx.val < 16) :
    R3 V (Proc.devRef .tc y) = V (Proc.devRef .tc y) :=
  (R3_keep V (.inl (Nat.lt_of_lt_of_le h (by decide)))).trans (arg_at_R2 V h)
theorem arg_at_R4 (V : Valuation τ sig (Elt F)) {y : Ref sig .tc} (h : y.idx.val < 16) :
    R4 V (Proc.devRef .tc y) = V (Proc.devRef .tc y) :=
  (R4_keep V (.inl (Nat.lt_of_lt_of_le h (by decide)))).trans (arg_at_R3 V h)
theorem arg_at_R5 (V : Valuation τ sig (Elt F)) {y : Ref sig .tc} (h : y.idx.val < 16) :
    R5 V (Proc.devRef .tc y) = V (Proc.devRef .tc y) :=
  (R5_keep V (.inl (Nat.lt_of_lt_of_le h (by decide)))).trans (arg_at_R4 V h)
theorem R1_v6 (V : Valuation τ sig (Elt F)) : R1 V (Proc.devRef .tc main_v6) = ncOf (V (Proc.devRef .tc main_arg4)) := part0_v6_nc V
theorem R4_v6 (V : Valuation τ sig (Elt F)) : R4 V (Proc.devRef .tc main_v6) = ncOf (V (Proc.devRef .tc main_arg4)) :=
  (R4_keep V (.inl (by decide))).trans ((R3_keep V (.inl (by decide))).trans ((R2_keep V (.inl (by decide))).trans (R1_v6 V)))

theorem R4_v171 (V : Valuation τ sig (Elt F)) : R4 V (Proc.devRef .tc main_v171) = offsetsOf64 := part3_v171 (R3 V)
theorem R5_v171 (V : Valuation τ sig (Elt F)) : R5 V (Proc.devRef .tc main_v171) = offsetsOf64 :=
  (R5_keep V (.inl (by decide))).trans (R4_v171 V)

theorem R5_v241 (V : Valuation τ sig (Elt F)) : R5 V (Proc.devRef .tc main_v241) = vmRows64 (V (Proc.devRef .tc main_arg4)) (V (Proc.devRef .tc main_arg6)) := by
  rw [R5_eq, part4_v241, R4_v6, R4_v171, arg_at_R4 V (y := main_arg6) (by decide)]
  rfl

theorem R5_c55 (V : Valuation τ sig (Elt F)) : R5 V (Proc.devRef .tc main_c_55) = constantI S_ 32 1#32 := part4_c55 (R4 V)

theorem R6_v243 (V : Valuation τ sig (Elt F)) : R6 V (Proc.devRef .tc main_v243) = plusOne64 (vmRows64 (V (Proc.devRef .tc main_arg4)) (V (Proc.devRef .tc main_arg6))) := by
  rw [R6_eq, part5_v243, R5_c55, R5_v241, plusBy64_one]

theorem R6_v245 (V : Valuation τ sig (Elt F)) : R6 V (Proc.devRef .tc main_v245) = isNeg64 (plusOne64 (vmRows64 (V (Proc.devRef .tc main_arg4)) (V (Proc.devRef .tc main_arg6)))) := by
  rw [R6_eq, part5_v245, R5_c55, R5_v241, plusBy64_one]

theorem fin_v6 (V : Valuation τ sig (Elt F)) : after ops V (Proc.devRef .tc main_v6) = ncOf (V (Proc.devRef .tc main_arg4)) :=
  (to_end_0 V (y := main_v6) (by decide)).trans (R1_v6 V)

end Cert.ReferenceIdeal.HandVal

end
-- ==== Proof.RefSync1F.lean ====
import proofs.«137221_j56719338111373_2_alg».proof.Proof.RefSync1
import proofs.«137221_j56719338111373_2_alg».proof.Proof.RefVal6

noncomputable section

namespace Cert.ReferenceIdeal.HandVal

open Cert.ReferenceIdeal Cert.ReferenceIdeal.Gen Cert.ReferenceIdeal.Hand Idealize.ShloMosaic Idealize.ShloMosaic.TcCoe Idealize.SL.Sem Idealize.ShloMosaic.StableHlo
open Cert.KernelIdeal.HandVal (ncOf offsetsOf64 posOf64 vmGatherOf64 padIndexOf64)

variable {F : FTy → Type} [FloatOps F]

theorem R6_v289 (V : Valuation τ sig (Elt F)) : R6 V (Proc.devRef .tc main_v289) = vec1_64 (V (Proc.devRef .tc main_arg14)) := by
  rw [R6_eq, part5_v289, arg_at_R5 V (y := main_arg14) (by decide)]

theorem R6_v291 (V : Valuation τ sig (Elt F)) : R6 V (Proc.devRef .tc main_v291) = vec1_64 (V (Proc.devRef .tc main_arg15)) := by
  rw [R6_eq, part5_v291, arg_at_R5 V (y := main_arg15) (by decide)]

theorem R6_v293 (V : Valuation τ sig (Elt F)) : R6 V (Proc.devRef .tc main_v293) = colSumAll (R6 V (Proc.devRef .tc main_v287)) := by
  rw [R6_eq, part5_v293, part5_v287]

theorem R7_v295 (V : Valuation τ sig (Elt F)) : R7 V (Proc.devRef .tc main_v295) = colMeanAll (R6 V (Proc.devRef .tc main_v287)) := by
  rw [R7_eq, part6_v295, R6_v293]
  rfl

theorem R7_v296 (V : Valuation τ sig (Elt F)) : R7 V (Proc.devRef .tc main_v296) = colVarAll (R6 V (Proc.devRef .tc main_v287)) := by
  rw [R7_eq, part6_v296]

theorem R7_v310 (V : Valuation τ sig (Elt F)) :
    R7 V (Proc.devRef .tc main_v310)
      = normRef (R6 V (Proc.devRef .tc main_v287)) (colMeanAll (R6 V (Proc.devRef .tc main_v287))) (colVarAll (R6 V (Proc.devRef .tc main_v287))) (vec1_64 (V (Proc.devRef .tc main_arg14))) (vec1_64 (V (Proc.devRef .tc main_arg15))) := by
  rw [R7_eq, part6_v310, ← R7_eq, R7_v295, R7_v296, R6_v289, R6_v291]

end Cert.ReferenceIdeal.HandVal

end
-- ==== Proof.Bridge1.lean ====
import proofs.«137221_j56719338111373_2_alg».proof.Proof.KIChainOut2
import proofs.«137221_j56719338111373_2_alg».proof.Proof.KIChainVal
import proofs.«137221_j56719338111373_2_alg».proof.Proof.KIChainArgs2
import proofs.«137221_j56719338111373_2_alg».proof.Proof.BridgeReal0
import proofs.«137221_j56719338111373_2_alg».proof.Proof.BridgeReal1
import proofs.«137221_j56719338111373_2_alg».proof.Proof.BridgePos64
import proofs.«137221_j56719338111373_2_alg».proof.Proof.RefFold
import proofs.«137221_j56719338111373_2_alg».proof.Proof.RefVal6B
import proofs.«137221_j56719338111373_2_alg».proof.Proof.RefVal4Sync
import proofs.«137221_j56719338111373_2_alg».proof.Proof.RefSync1F
import proofs.«137221_j56719338111373_2_alg».proof.Defs

set_option maxRecDepth 16384

noncomputable section

namespace Cert.Proof.Bridge

open Idealize.ShloMosaic Idealize.ShloMosaic.TcCoe Idealize.SL.Sem Idealize.ShloMosaic.StableHlo
open Idealize.ShloMosaic.ValueIdx

section Ref
open Cert.ReferenceIdeal Cert.ReferenceIdeal.Gen Cert.ReferenceIdeal.Hand Cert.ReferenceIdeal.HandVal

variable {F : FTy → Type} [FloatOps F]

theorem ref_arg_R5 (V : Valuation τ sig (Elt F)) {y : Ref sig .tc} (h : y.idx.val < 16) :
    R5 V (Proc.devRef .tc y) = V (Proc.devRef .tc y) :=
  arg_at_R5 V h

theorem ref_v310 (V : Valuation τ sig (Elt F)) :
    after ops V (Proc.devRef .tc main_v310)
      = normRef (oOf64 (R5 V)) (colMeanAll (oOf64 (R5 V))) (colVarAll (oOf64 (R5 V)))
          (vec1_64 (V (Proc.devRef .tc main_arg14))) (vec1_64 (V (Proc.devRef .tc main_arg15))) := by

  rw [to_end_6 V (y := main_v310) (by decide), R7_v310, show R6 V (Proc.devRef .tc main_v287) = oOf64 (R5 V) from by rw [R6_eq, part5_v287]]

end Ref

section Stages
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD) (V' : Valuation Cert.ReferenceIdeal.τ Cert.ReferenceIdeal.sig (Elt Ideal))

theorem ref_v171 : Cert.ReferenceIdeal.Hand.R5 (F := Ideal) V' (Proc.devRef .tc Cert.ReferenceIdeal.main_v171) = Cert.KernelIdeal.HandVal.offsetsOf64 :=
  Cert.ReferenceIdeal.HandVal.R5_v171 V'

theorem ref_rows64 :
    Cert.ReferenceIdeal.HandVal.wrapIdx64 (StableHlo.after Cert.ReferenceIdeal.Hand.ops_part5 (Cert.ReferenceIdeal.Hand.R5 (F := Ideal) V') (Proc.devRef .tc Cert.ReferenceIdeal.main_v245)) (StableHlo.after Cert.ReferenceIdeal.Hand.ops_part5 (Cert.ReferenceIdeal.Hand.R5 (F := Ideal) V') (Proc.devRef .tc Cert.ReferenceIdeal.main_v243))
      = Cert.KernelIdeal.HandVal.rows64 (V' (Proc.devRef .tc Cert.ReferenceIdeal.main_arg4)) (V' (Proc.devRef .tc Cert.ReferenceIdeal.main_arg6)) := by

  rw [← Cert.ReferenceIdeal.Hand.R6_eq, Cert.ReferenceIdeal.HandVal.R6_v245, Cert.ReferenceIdeal.HandVal.R6_v243]
  rfl

theorem sync_gf1
    (e4 : V' (Proc.devRef .tc Cert.ReferenceIdeal.main_arg4) = m ((c.tc : Thread Cert.KernelIdeal.nD Cert.KernelIdeal.τ).loc Cert.KernelIdeal.main_arg4))
    (e5 : V' (Proc.devRef .tc Cert.ReferenceIdeal.main_arg5) = m ((c.tc : Thread Cert.KernelIdeal.nD Cert.KernelIdeal.τ).loc Cert.KernelIdeal.main_arg5))
    (e6 : V' (Proc.devRef .tc Cert.ReferenceIdeal.main_arg6) = m ((c.tc : Thread Cert.KernelIdeal.nD Cert.KernelIdeal.τ).loc Cert.KernelIdeal.main_arg6))
    (e7 : V' (Proc.devRef .tc Cert.ReferenceIdeal.main_arg7) = m ((c.tc : Thread Cert.KernelIdeal.nD Cert.KernelIdeal.τ).loc Cert.KernelIdeal.main_arg7))
    (e8 : V' (Proc.devRef .tc Cert.ReferenceIdeal.main_arg8) = m ((c.tc : Thread Cert.KernelIdeal.nD Cert.KernelIdeal.τ).loc Cert.KernelIdeal.main_arg8))
    (e9 : V' (Proc.devRef .tc Cert.ReferenceIdeal.main_arg9) = m ((c.tc : Thread Cert.KernelIdeal.nD Cert.KernelIdeal.τ).loc Cert.KernelIdeal.main_arg9)) :
    Cert.ReferenceIdeal.HandVal.gfRef64 (Cert.ReferenceIdeal.Hand.R5 (F := Ideal) V' (Proc.devRef .tc Cert.ReferenceIdeal.main_v199)) (StableHlo.after Cert.ReferenceIdeal.Hand.ops_part5 (Cert.ReferenceIdeal.Hand.R5 (F := Ideal) V') (Proc.devRef .tc Cert.ReferenceIdeal.main_v245)) (StableHlo.after Cert.ReferenceIdeal.Hand.ops_part5 (Cert.ReferenceIdeal.Hand.R5 (F := Ideal) V') (Proc.devRef .tc Cert.ReferenceIdeal.main_v243)) = Cert.KernelIdeal.Hand.W29 m ρ c (Proc.devRef .tc Cert.KernelIdeal.main_v197) := by
  rw [Cert.ReferenceIdeal.HandVal.gfRef64_eq_gatherPadded64, ref_rows64 V', Cert.KernelIdeal.HandVal.args_v197 m ρ c, Cert.KernelIdeal.HandVal.val_v144_args m ρ c]
  unfold Cert.KernelIdeal.HandVal.gf64
  rw [show (Cert.ReferenceIdeal.Hand.R5 (F := Ideal) V' (Proc.devRef .tc Cert.ReferenceIdeal.main_v199) : Cert.ReferenceIdeal.S16385x32.Idx → EReal) = _ from Cert.ReferenceIdeal.HandVal.R5_v199 V', e4, e5, e6, e7, e8, e9]

theorem sync_pf1
    (e10 : V' (Proc.devRef .tc Cert.ReferenceIdeal.main_arg10) = m ((c.tc : Thread Cert.KernelIdeal.nD Cert.KernelIdeal.τ).loc Cert.KernelIdeal.main_arg10))
    (e11 : V' (Proc.devRef .tc Cert.ReferenceIdeal.main_arg11) = m ((c.tc : Thread Cert.KernelIdeal.nD Cert.KernelIdeal.τ).loc Cert.KernelIdeal.main_arg11))
    (e12 : V' (Proc.devRef .tc Cert.ReferenceIdeal.main_arg12) = m ((c.tc : Thread Cert.KernelIdeal.nD Cert.KernelIdeal.τ).loc Cert.KernelIdeal.main_arg12)) :
    Cert.ReferenceIdeal.HandVal.posBNRef64 (Cert.ReferenceIdeal.HandVal.posDot64 (Cert.ReferenceIdeal.Hand.R5 (F := Ideal) V' (Proc.devRef .tc Cert.ReferenceIdeal.main_v171)) (Cert.ReferenceIdeal.Hand.R5 (F := Ideal) V' (Proc.devRef .tc Cert.ReferenceIdeal.main_arg10))) (Cert.ReferenceIdeal.Hand.R5 (F := Ideal) V' (Proc.devRef .tc Cert.ReferenceIdeal.main_arg11)) (Cert.ReferenceIdeal.Hand.R5 (F := Ideal) V' (Proc.devRef .tc Cert.ReferenceIdeal.main_arg12))
      = Cert.KernelIdeal.Hand.W29 m ρ c (Proc.devRef .tc Cert.KernelIdeal.main_v231) := by
  rw [ref_v171 V', ref_arg_R5 V' (y := Cert.ReferenceIdeal.main_arg10) (by decide), ref_arg_R5 V' (y := Cert.ReferenceIdeal.main_arg11) (by decide),
    ref_arg_R5 V' (y := Cert.ReferenceIdeal.main_arg12) (by decide), Cert.KernelIdeal.HandVal.sync_pf64, Cert.KernelIdeal.HandVal.args_v231 m ρ c, e10, e11, e12]

theorem sync_nf1
    (e4 : V' (Proc.devRef .tc Cert.ReferenceIdeal.main_arg4) = m ((c.tc : Thread Cert.KernelIdeal.nD Cert.KernelIdeal.τ).loc Cert.KernelIdeal.main_arg4))
    (e5 : V' (Proc.devRef .tc Cert.ReferenceIdeal.main_arg5) = m ((c.tc : Thread Cert.KernelIdeal.nD Cert.KernelIdeal.τ).loc Cert.KernelIdeal.main_arg5))
    (e6 : V' (Proc.devRef .tc Cert.ReferenceIdeal.main_arg6) = m ((c.tc : Thread Cert.KernelIdeal.nD Cert.KernelIdeal.τ).loc Cert.KernelIdeal.main_arg6))
    (e7 : V' (Proc.devRef .tc Cert.ReferenceIdeal.main_arg7) = m ((c.tc : Thread Cert.KernelIdeal.nD Cert.KernelIdeal.τ).loc Cert.KernelIdeal.main_arg7))
    (e8 : V' (Proc.devRef .tc Cert.ReferenceIdeal.main_arg8) = m ((c.tc : Thread Cert.KernelIdeal.nD Cert.KernelIdeal.τ).loc Cert.KernelIdeal.main_arg8))
    (e9 : V' (Proc.devRef .tc Cert.ReferenceIdeal.main_arg9) = m ((c.tc : Thread Cert.KernelIdeal.nD Cert.KernelIdeal.τ).loc Cert.KernelIdeal.main_arg9))
    (e10 : V' (Proc.devRef .tc Cert.ReferenceIdeal.main_arg10) = m ((c.tc : Thread Cert.KernelIdeal.nD Cert.KernelIdeal.τ).loc Cert.KernelIdeal.main_arg10))
    (e11 : V' (Proc.devRef .tc Cert.ReferenceIdeal.main_arg11) = m ((c.tc : Thread Cert.KernelIdeal.nD Cert.KernelIdeal.τ).loc Cert.KernelIdeal.main_arg11))
    (e12 : V' (Proc.devRef .tc Cert.ReferenceIdeal.main_arg12) = m ((c.tc : Thread Cert.KernelIdeal.nD Cert.KernelIdeal.τ).loc Cert.KernelIdeal.main_arg12)) :
    Cert.ReferenceIdeal.HandVal.nfOf64 (F := Ideal) (Cert.ReferenceIdeal.Hand.R5 V') = Cert.KernelIdeal.Hand.W29 m ρ c (Proc.devRef .tc Cert.KernelIdeal.main_v232) := by
  show Cert.ReferenceIdeal.HandVal.poolRef64 (Cert.ReferenceIdeal.HandVal.gfRef64 (Cert.ReferenceIdeal.Hand.R5 (F := Ideal) V' (Proc.devRef .tc Cert.ReferenceIdeal.main_v199)) (StableHlo.after Cert.ReferenceIdeal.Hand.ops_part5 (Cert.ReferenceIdeal.Hand.R5 (F := Ideal) V') (Proc.devRef .tc Cert.ReferenceIdeal.main_v245)) (StableHlo.after Cert.ReferenceIdeal.Hand.ops_part5 (Cert.ReferenceIdeal.Hand.R5 (F := Ideal) V') (Proc.devRef .tc Cert.ReferenceIdeal.main_v243)))
      (Cert.ReferenceIdeal.HandVal.posBNRef64 (Cert.ReferenceIdeal.HandVal.posDot64 (Cert.ReferenceIdeal.Hand.R5 (F := Ideal) V' (Proc.devRef .tc Cert.ReferenceIdeal.main_v171)) (Cert.ReferenceIdeal.Hand.R5 (F := Ideal) V' (Proc.devRef .tc Cert.ReferenceIdeal.main_arg10))) (Cert.ReferenceIdeal.Hand.R5 (F := Ideal) V' (Proc.devRef .tc Cert.ReferenceIdeal.main_arg11)) (Cert.ReferenceIdeal.Hand.R5 (F := Ideal) V' (Proc.devRef .tc Cert.ReferenceIdeal.main_arg12))) = _
  rw [sync_gf1 m ρ c V' e4 e5 e6 e7 e8 e9, sync_pf1 m ρ c V' e10 e11 e12, Cert.ReferenceIdeal.HandVal.pool_ref_eq64, Cert.KernelIdeal.HandVal.val_v232 m ρ c]

theorem out1_eq_of (hpre : Cert.Pre_KernelIdeal m)
    (e4 : V' (Proc.devRef .tc Cert.ReferenceIdeal.main_arg4) = m ((c.tc : Thread Cert.KernelIdeal.nD Cert.KernelIdeal.τ).loc Cert.KernelIdeal.main_arg4))
    (e5 : V' (Proc.devRef .tc Cert.ReferenceIdeal.main_arg5) = m ((c.tc : Thread Cert.KernelIdeal.nD Cert.KernelIdeal.τ).loc Cert.KernelIdeal.main_arg5))
    (e6 : V' (Proc.devRef .tc Cert.ReferenceIdeal.main_arg6) = m ((c.tc : Thread Cert.KernelIdeal.nD Cert.KernelIdeal.τ).loc Cert.KernelIdeal.main_arg6))
    (e7 : V' (Proc.devRef .tc Cert.ReferenceIdeal.main_arg7) = m ((c.tc : Thread Cert.KernelIdeal.nD Cert.KernelIdeal.τ).loc Cert.KernelIdeal.main_arg7))
    (e8 : V' (Proc.devRef .tc Cert.ReferenceIdeal.main_arg8) = m ((c.tc : Thread Cert.KernelIdeal.nD Cert.KernelIdeal.τ).loc Cert.KernelIdeal.main_arg8))
    (e9 : V' (Proc.devRef .tc Cert.ReferenceIdeal.main_arg9) = m ((c.tc : Thread Cert.KernelIdeal.nD Cert.KernelIdeal.τ).loc Cert.KernelIdeal.main_arg9))
    (e10 : V' (Proc.devRef .tc Cert.ReferenceIdeal.main_arg10) = m ((c.tc : Thread Cert.KernelIdeal.nD Cert.KernelIdeal.τ).loc Cert.KernelIdeal.main_arg10))
    (e11 : V' (Proc.devRef .tc Cert.ReferenceIdeal.main_arg11) = m ((c.tc : Thread Cert.KernelIdeal.nD Cert.KernelIdeal.τ).loc Cert.KernelIdeal.main_arg11))
    (e12 : V' (Proc.devRef .tc Cert.ReferenceIdeal.main_arg12) = m ((c.tc : Thread Cert.KernelIdeal.nD Cert.KernelIdeal.τ).loc Cert.KernelIdeal.main_arg12))
    (e13 : V' (Proc.devRef .tc Cert.ReferenceIdeal.main_arg13) = m ((c.tc : Thread Cert.KernelIdeal.nD Cert.KernelIdeal.τ).loc Cert.KernelIdeal.main_arg13))
    (e14 : V' (Proc.devRef .tc Cert.ReferenceIdeal.main_arg14) = m ((c.tc : Thread Cert.KernelIdeal.nD Cert.KernelIdeal.τ).loc Cert.KernelIdeal.main_arg14))
    (e15 : V' (Proc.devRef .tc Cert.ReferenceIdeal.main_arg15) = m ((c.tc : Thread Cert.KernelIdeal.nD Cert.KernelIdeal.τ).loc Cert.KernelIdeal.main_arg15)) :
    after (Cert.ReferenceIdeal.Hand.ops (F := Ideal)) V' (Proc.devRef .tc Cert.ReferenceIdeal.main_v310) = Cert.KernelIdeal.Hand.W29 m ρ c (Proc.devRef .tc Cert.KernelIdeal.main_v246) := by
  funext i
  obtain ⟨r, j, rfl⟩ : ∃ (r : Fin 65536) (j : Fin 64), i = ix2 r j := ⟨i 0, i 1, eq_ix2 i⟩
  rw [ref_v310, Cert.KernelIdeal.HandVal.out1_at m ρ c (Cert.KernelIdeal.HandVal.nf1_real m ρ hpre c) (Cert.KernelIdeal.HandVal.arg13_real m hpre c) r j]
  unfold Cert.ReferenceIdeal.HandVal.oOf64
  rw [sync_nf1 m ρ c V' e4 e5 e6 e7 e8 e9 e10 e11 e12, ref_arg_R5 V' (y := Cert.ReferenceIdeal.main_arg13) (by decide), e13, e14, e15]
  exact Cert.ReferenceIdeal.HandVal.ref_out1_at _ _ _ _ r j

end Stages

theorem out1_eq (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (c : Dev Cert.KernelIdeal.nD) :
    after (Cert.ReferenceIdeal.Hand.ops (F := Ideal)) (fun b => m' (c, b)) (Proc.devRef .tc Cert.ReferenceIdeal.main_v310) = Cert.KernelIdeal.Hand.W29 m ρ c (Proc.devRef .tc Cert.KernelIdeal.main_v246) := by
  obtain ⟨h0, h1, h2, h3, h4, h5, h6, h7, h8, h9, h10, h11, h12, h13, h14, h15⟩ := hagree c
  exact out1_eq_of m ρ c (fun b => m' (c, b)) hpre h4 h5 h6 h7 h8 h9 h10 h11 h12 h13 h14 h15

end Cert.Proof.Bridge

end
-- ==== Proof.Bridge.lean ====
import proofs.«137221_j56719338111373_2_alg».proof.Defs
import proofs.«137221_j56719338111373_2_alg».proof.Proof.RefFinal
import proofs.«137221_j56719338111373_2_alg».proof.Proof.RefFold
import proofs.«137221_j56719338111373_2_alg».proof.Proof.KIChain
import proofs.«137221_j56719338111373_2_alg».proof.Proof.Bridge0
import proofs.«137221_j56719338111373_2_alg».proof.Proof.Bridge1

noncomputable section

namespace Cert.Proof.Bridge

open Idealize.ShloMosaic Idealize.SL.Sem

theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)))
    (c : Dev Cert.KernelIdeal.nD) :
    StableHlo.after (Cert.ReferenceIdeal.Hand.ops (F := Ideal)) (fun b => m' (c, b)) (Proc.devRef .tc Cert.ReferenceIdeal.main_v311)
      = Cert.KernelIdeal.Hand.W29 m ρ c (Proc.devRef .tc Cert.KernelIdeal.main_v247) := by
  have h0 := out0_eq m ρ m' hpre hagree c
  have h1 := out1_eq m ρ m' hpre hagree c
  have e311 : StableHlo.after (Cert.ReferenceIdeal.Hand.ops (F := Ideal)) (fun b => m' (c, b)) (Proc.devRef .tc Cert.ReferenceIdeal.main_v311)
      = Cert.ReferenceIdeal.HandVal.concatColsR
          (StableHlo.after (Cert.ReferenceIdeal.Hand.ops (F := Ideal)) (fun b => m' (c, b)) (Proc.devRef .tc Cert.ReferenceIdeal.main_v158))
          (StableHlo.after (Cert.ReferenceIdeal.Hand.ops (F := Ideal)) (fun b => m' (c, b)) (Proc.devRef .tc Cert.ReferenceIdeal.main_v310)) := by
    have hR : StableHlo.after (Cert.ReferenceIdeal.Hand.ops (F := Ideal)) (fun b => m' (c, b)) = Cert.ReferenceIdeal.Hand.R7 (fun b => m' (c, b)) :=
      Cert.ReferenceIdeal.Hand.after_ops_eq_R7 _
    rw [hR, Cert.ReferenceIdeal.Hand.R7_of_lt_522 (y := Cert.ReferenceIdeal.main_v158) _ (by decide)]
    exact Cert.ReferenceIdeal.HandVal.part6_v311 _
  rw [e311, h0, h1, Cert.KernelIdeal.HandVal.fin_v247]
  rfl

end Cert.Proof.Bridge
end
-- ==== Proof.lean ====
import proofs.«137221_j56719338111373_2_alg».proof.Defs
import proofs.«137221_j56719338111373_2_alg».proof.Proof.Gen.Kernel
import proofs.«137221_j56719338111373_2_alg».proof.Proof.Gen.KernelIdeal
import proofs.«137221_j56719338111373_2_alg».proof.Proof.Gen.ReferenceIdeal
import proofs.«137221_j56719338111373_2_alg».proof.Proof.Gen.Pre_finite_inputs
import proofs.«137221_j56719338111373_2_alg».proof.Proof.KRun
import proofs.«137221_j56719338111373_2_alg».proof.Proof.KIRun
import proofs.«137221_j56719338111373_2_alg».proof.Proof.RefRun
import proofs.«137221_j56719338111373_2_alg».proof.Proof.Bridge

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_r : Cert.frame_ReferenceIdeal := fun m ρ _ => Cert.ReferenceIdeal.Hand.frame (F := Ideal) m ρ

theorem algebraic : Cert.algebraic_KernelIdeal_ReferenceIdeal := by
  intro m ρ m' ρ' hpre hagree
  refine ⟨fun c => Cert.KernelIdeal.Hand.W29 m ρ c (Proc.devRef .tc Cert.KernelIdeal.main_v247), ?_, ?_⟩
  · refine (θ_run Cert.KernelIdeal.defs _ _).mono (fun r h c => ?_) (Cert.KernelIdeal.Hand.run_all (F := Ideal) m ρ)
    exact ⟨h c _ (Cert.Hand.mem_uc Cert.KernelIdeal.main_v247 (by decide)), Cert.KernelIdeal.Hand.args_of_run m ρ c (h c)⟩
  · refine (θ_run Cert.ReferenceIdeal.defs _ _).mono (fun r h c => ⟨(h c).1.trans ?_, (h c).2⟩) (Cert.ReferenceIdeal.Hand.run (F := Ideal) m' ρ')
    exact Cert.Proof.Bridge.result_eq m ρ m' hpre hagree c

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
